-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S128x128 : Shape := ⟨2, ![128, 128]⟩
abbrev S128x256 : Shape := ⟨2, ![128, 256]⟩
abbrev S256x128 : Shape := ⟨2, ![256, 128]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg4 : FVec F S256x128 .f32) (main_arg5 : FVec F S128x256 .f32) (main_arg6 : FVec F S256x128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  main_v33

def fn {F : FTy → Type} [FloatOps F] (main_arg0 : FVec F S128x128 .f32) (main_arg1 : FVec F S128x256 .f32) (main_arg2 : FVec F S256x128 .f32) (main_arg3 : FVec F S128x256 .f32) (main_arg4 : FVec F S256x128 .f32) (main_arg5 : FVec F S128x256 .f32) (main_arg6 : FVec F S256x128 .f32) : IVec S_ 1 :=
  let main_v0 : FVec F S128x128 .f32 := Host.absf main_arg0
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_v13 main_v16
-- ==== Pre_finite_inputs_ReferenceIdeal.lean ====
abbrev S128x128 : Shape := ⟨2, ![128, 128]⟩
abbrev S128x8192 : Shape := ⟨2, ![128, 8192]⟩
abbrev S8192x128 : Shape := ⟨2, ![8192, 128]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S128x8192 : S_.BroadcastsInDim S128x8192 (![] : Fin 0 → Fin S128x8192.rank)
  reducesTo_S128x8192_S_d0_1 : S128x8192.ReducesTo [0, 1] S_
  bcast_S_S8192x128 : S_.BroadcastsInDim S8192x128 (![] : Fin 0 → Fin S8192x128.rank)
  reducesTo_S8192x128_S_d0_1 : S8192x128.ReducesTo [0, 1] S_

variable [Facts]

def fn_part1 {F : FTy → Type} [FloatOps F] (main_arg4 : FVec F S8192x128 .f32) (main_arg5 : FVec F S128x8192 .f32) (main_arg6 : FVec F S8192x128 .f32) (main_v13 : IVec S_ 1) (main_v16 : IVec S128x8192 1) : IVec S_ 1 :=
  let main_c_5 : IVec S_ 1 := constantI S_ 1 1#1
  let main_v17 : IVec S_ 1 := (fun x v => Host.reduce IntOp.andi x v reducesTo_S128x8192_S_d0_1 h_S_) main_v16 main_c_5
  let main_v18 : IVec S_ 1 := andi main_v13 main_v17
  let main_v19 : FVec F S8192x128 .f32 := Host.absf main_arg4
  let main_cst_6 : FVec F S_ .f32 := constant S_ .f32 0x7F800000#32
  let main_v20 : FVec F S8192x128 .f32 := broadcastInDim S8192x128 ![] bcast_S_S8192x128 main_cst_6
  let main_v21 : IVec S8192x128 1 := cmpf .olt main_v19 main_v20
  let main_c_7 : IVec S_ 1 := constantI S_ 1 1#1
  let main_v22 : IVec S_ 1 := (fun x v => Host.reduce IntOp.andi x v reducesTo_S8192x128_S_d0_1 h_S_) main_v21 main_c_7
  let main_v23 : IVec S_ 1 := andi main_v18 main_v22
  let main_v24 : FVec F S128x8192 .f32 := Host.absf main_arg5
  let main_cst_8 : FVec F S_ .f32 := constant S_ .f32 0x7F800000#32
  let main_v25 : FVec F S128x8192 .f32 := broadcastInDim S128x8192 ![] bcast_S_S128x8192 main_cst_8
  let main_v26 : IVec S128x8192 1 := cmpf .olt main_v24 main_v25
  let main_c_9 : IVec S_ 1 := constantI S_ 1 1#1
  let main_v27 : IVec S_ 1 := (fun x v => Host.reduce IntOp.andi x v reducesTo_S128x8192_S_d0_1 h_S_) main_v26 main_c_9
  let main_v28 : IVec S_ 1 := andi main_v23 main_v27
  let main_v29 : FVec F S8192x128 .f32 := Host.absf main_arg6
  let main_cst_10 : FVec F S_ .f32 := constant S_ .f32 0x7F800000#32
  let main_v30 : FVec F S8192x128 .f32 := broadcastInDim S8192x128 ![] bcast_S_S8192x128 main_cst_10
  let main_v31 : IVec S8192x128 1 := cmpf .olt main_v29 main_v30
  let main_c_11 : IVec S_ 1 := constantI S_ 1 1#1
  let main_v32 : IVec S_ 1 := (fun x v => Host.reduce IntOp.andi x v reducesTo_S8192x128_S_d0_1 h_S_) main_v31 main_c_11
  let main_v33 : IVec S_ 1 := andi main_v28 main_v32
  main_v33

def fn {F : FTy → Type} [FloatOps F] (main_arg0 : FVec F S128x128 .f32) (main_arg1 : FVec F S128x8192 .f32) (main_arg2 : FVec F S8192x128 .f32) (main_arg3 : FVec F S128x8192 .f32) (main_arg4 : FVec F S8192x128 .f32) (main_arg5 : FVec F S128x8192 .f32) (main_arg6 : FVec F S8192x128 .f32) : IVec S_ 1 :=
  let main_v0 : FVec F S128x128 .f32 := Host.absf main_arg0
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S128x8192 .f32 := Host.absf main_arg1
  let main_cst_0 : FVec F S_ .f32 := constant S_ .f32 0x7F800000#32
  let main_v5 : FVec F S128x8192 .f32 := broadcastInDim S128x8192 ![] bcast_S_S128x8192 main_cst_0
  let main_v6 : IVec S128x8192 1 := cmpf .olt main_v4 main_v5
  let main_c_1 : IVec S_ 1 := constantI S_ 1 1#1
  let main_v7 : IVec S_ 1 := (fun x v => Host.reduce IntOp.andi x v reducesTo_S128x8192_S_d0_1 h_S_) main_v6 main_c_1
  let main_v8 : IVec S_ 1 := andi main_v3 main_v7
  let main_v9 : FVec F S8192x128 .f32 := Host.absf main_arg2
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  let main_v14 : FVec F S128x8192 .f32 := Host.absf main_arg3
  let main_cst_4 : FVec F S_ .f32 := constant S_ .f32 0x7F800000#32
  let main_v15 : FVec F S128x8192 .f32 := broadcastInDim S128x8192 ![] bcast_S_S128x8192 main_cst_4
  let main_v16 : IVec S128x8192 1 := cmpf .olt main_v14 main_v15
  fn_part1 (F := F) main_arg4 main_arg5 main_arg6 main_v13 main_v16
-- ==== Kernel.lean ====
abbrev S128x128 : Shape := ⟨2, ![128, 128]⟩
abbrev S128x256 : Shape := ⟨2, ![128, 256]⟩
abbrev S256x128 : Shape := ⟨2, ![256, 128]⟩
abbrev S6x128x128 : Shape := ⟨3, ![6, 128, 128]⟩
abbrev S30x128x128 : Shape := ⟨3, ![30, 128, 128]⟩
abbrev S30 : Shape := ⟨1, ![30]⟩
abbrev S_ : Shape := ⟨0, ![]⟩
abbrev S1x128x128 : Shape := ⟨3, ![1, 128, 128]⟩
abbrev S1 : Shape := ⟨1, ![1]⟩

abbrev nBuf : Space → Nat
  | .hbm => 8
  | .vmem => 10
  | .smem => 0
  | _ => 0

abbrev bufTy : (tb : Table) → Fin (tcTables nBuf tb) → BufTy
  | .hbm, ⟨0, _⟩ => ⟨S128x128, .f32⟩
  | .hbm, ⟨1, _⟩ => ⟨S128x256, .f32⟩
  | .hbm, ⟨2, _⟩ => ⟨S256x128, .f32⟩
  | .hbm, ⟨3, _⟩ => ⟨S128x256, .f32⟩
  | .hbm, ⟨4, _⟩ => ⟨S256x128, .f32⟩
  | .hbm, ⟨5, _⟩ => ⟨S128x256, .f32⟩
  | .hbm, ⟨6, _⟩ => ⟨S256x128, .f32⟩
  | .hbm, ⟨7, _⟩ => ⟨S128x128, .f32⟩
  | .local _ .vmem, ⟨0, _⟩ => ⟨S128x128, .f32⟩
  | .local _ .vmem, ⟨1, _⟩ => ⟨S128x256, .f32⟩
  | .local _ .vmem, ⟨2, _⟩ => ⟨S256x128, .f32⟩
  | .local _ .vmem, ⟨3, _⟩ => ⟨S128x256, .f32⟩
  | .local _ .vmem, ⟨4, _⟩ => ⟨S256x128, .f32⟩
  | .local _ .vmem, ⟨5, _⟩ => ⟨S128x256, .f32⟩
  | .local _ .vmem, ⟨6, _⟩ => ⟨S256x128, .f32⟩
  | .local _ .vmem, ⟨7, _⟩ => ⟨S128x128, .f32⟩
  | .local _ .vmem, ⟨8, _⟩ => ⟨S6x128x128, .bf16⟩
  | .local _ .vmem, ⟨9, _⟩ => ⟨S30x128x128, .bf16⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 2 → Bool
  | ⟨0, _⟩ => false
  | ⟨1, _⟩ => true
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 2 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v72 : BitVec 32 := Scalar.xori v19 c1_i32_33
  let c8_i32_42 : BitVec 32 := 8#32
  let v86 : BitVec 32 := Scalar.muli v72 c8_i32_42
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v71 : BitVec 32 := Scalar.xori v46 c1_i32_32
  let c2_i32_43 : BitVec 32 := 2#32
  let v87 : BitVec 32 := Scalar.muli v71 c2_i32_43
  let v88 : BitVec 32 := Scalar.addi v86 v87
  let c2_i32_34 : BitVec 32 := 2#32
  let c0_i32_35 : BitVec 32 := 0#32
  let v73 : BitVec 1 := Scalar.cmpi .eq c2_i32_34 c0_i32_35
  let c1_i32_36 : BitVec 32 := 1#32
  let v74 : BitVec 32 := Scalar.select v73 c1_i32_36 c2_i32_34
  let v75 : BitVec 32 := Scalar.remsi v71 v74
  let c0_i32_38 : BitVec 32 := 0#32
  let v77 : BitVec 1 := Scalar.cmpi .slt v75 c0_i32_38
  let c0_i32_39 : BitVec 32 := 0#32
  let v78 : BitVec 1 := Scalar.cmpi .slt v74 c0_i32_39
  let v79 : BitVec 1 := Scalar.xori v77 v78
  let c0_i32_37 : BitVec 32 := 0#32
  let v76 : BitVec 1 := Scalar.cmpi .ne v75 c0_i32_37
  let v80 : BitVec 1 := Scalar.andi v79 v76
  let v81 : BitVec 32 := Scalar.addi v75 v74
  let v82 : BitVec 32 := Scalar.select v80 v81 v75
  let c0_i32_40 : BitVec 32 := 0#32
  let v83 : BitVec 1 := Scalar.cmpi .eq v82 c0_i32_40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 32 := Scalar.xori v69 c1_i32_31
  let c1_i32_41 : BitVec 32 := 1#32
  let v84 : BitVec 32 := Scalar.subi c1_i32_41 v70
  let v85 : BitVec 32 := Scalar.select v83 v70 v84
  let v89 : BitVec 32 := Scalar.addi v88 v85
  let c1_i32_468 : BitVec 32 := 1#32
  let v874 : BitVec 32 := Scalar.muli v89 c1_i32_468
  let v875 : BitVec 32 := Scalar.addi c0_i32_469 v874
  v875.toNat
def k0_dev2 (d0 : Dev nD) : Nat :=
  let c0_i32_472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_45 : BitVec 32 := 0#32
  let v91 : BitVec 1 := Scalar.cmpi .sgt v2 c0_i32_45
  let v92 : BitVec 32 := Scalar.extui v91
  let c0_i32_46 : BitVec 32 := 0#32
  let v93 : BitVec 1 := Scalar.cmpi .slt v2 c0_i32_46
  let v94 : BitVec 32 := Scalar.extui v93
  let v95 : BitVec 32 := Scalar.subi v92 v94
  let c8_i32_44 : BitVec 32 := 8#32
  let c0_i32_47 : BitVec 32 := 0#32
  let v96 : BitVec 1 := Scalar.cmpi .sgt c8_i32_44 c0_i32_47
  let v97 : BitVec 32 := Scalar.extui v96
  let c0_i32_48 : BitVec 32 := 0#32
  let v98 : BitVec 1 := Scalar.cmpi .slt c8_i32_44 c0_i32_48
  let v99 : BitVec 32 := Scalar.extui v98
  let v100 : BitVec 32 := Scalar.subi v97 v99
  let v101 : BitVec 1 := Scalar.cmpi .ne v95 v100
  let v102 : BitVec 32 := Scalar.remsi v2 c8_i32_44
  let c0_i32_49 : BitVec 32 := 0#32
  let v103 : BitVec 1 := Scalar.cmpi .ne v102 c0_i32_49
  let v104 : BitVec 1 := Scalar.andi v101 v103
  let v90 : BitVec 32 := Scalar.divsi v2 c8_i32_44
  let c1_i32_50 : BitVec 32 := 1#32
  let v105 : BitVec 32 := Scalar.subi v90 c1_i32_50
  let v106 : BitVec 32 := Scalar.select v104 v105 v90
  let c0_i32_80 : BitVec 32 := 0#32
  let v159 : BitVec 32 := Scalar.xori v106 c0_i32_80
  let c8_i32_89 : BitVec 32 := 8#32
  let v173 : BitVec 32 := Scalar.muli v159 c8_i32_89
  let c8_i32_51 : BitVec 32 := 8#32
  let c0_i32_52 : BitVec 32 := 0#32
  let v107 : BitVec 1 := Scalar.cmpi .eq c8_i32_51 c0_i32_52
  let c1_i32_53 : BitVec 32 := 1#32
  let v108 : BitVec 32 := Scalar.select v107 c1_i32_53 c8_i32_51
  let v109 : BitVec 32 := Scalar.remsi v2 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c2_i32_57 : BitVec 32 := 2#32
  let c0_i32_60 : BitVec 32 := 0#32
  let v123 : BitVec 1 := Scalar.cmpi .sgt c2_i32_57 c0_i32_60
  let v124 : BitVec 32 := Scalar.extui v123
  let c0_i32_61 : BitVec 32 := 0#32
  let v125 : BitVec 1 := Scalar.cmpi .slt c2_i32_57 c0_i32_61
  let v126 : BitVec 32 := Scalar.extui v125
  let v127 : BitVec 32 := Scalar.subi v124 v126
  let v128 : BitVec 1 := Scalar.cmpi .ne v122 v127
  let v129 : BitVec 32 := Scalar.remsi v116 c2_i32_57
  let c0_i32_62 : BitVec 32 := 0#32
  let v130 : BitVec 1 := Scalar.cmpi .ne v129 c0_i32_62
  let v131 : BitVec 1 := Scalar.andi v128 v130
  let v117 : BitVec 32 := Scalar.divsi v116 c2_i32_57
  let c1_i32_63 : BitVec 32 := 1#32
  let v132 : BitVec 32 := Scalar.subi v117 c1_i32_63
  let v133 : BitVec 32 := Scalar.select v131 v132 v117
  let c1_i32_79 : BitVec 32 := 1#32
  let v158 : BitVec 32 := Scalar.xori v133 c1_i32_79
  let c2_i32_90 : BitVec 32 := 2#32
  let v174 : BitVec 32 := Scalar.muli v158 c2_i32_90
  let v175 : BitVec 32 := Scalar.addi v173 v174
  let c2_i32_81 : BitVec 32 := 2#32
  let c0_i32_82 : BitVec 32 := 0#32
  let v160 : BitVec 1 := Scalar.cmpi .eq c2_i32_81 c0_i32_82
  let c1_i32_83 : BitVec 32 := 1#32
  let v161 : BitVec 32 := Scalar.select v160 c1_i32_83 c2_i32_81
  let v162 : BitVec 32 := Scalar.remsi v158 v161
  let c0_i32_85 : BitVec 32 := 0#32
  let v164 : BitVec 1 := Scalar.cmpi .slt v162 c0_i32_85
  let c0_i32_86 : BitVec 32 := 0#32
  let v165 : BitVec 1 := Scalar.cmpi .slt v161 c0_i32_86
  let v166 : BitVec 1 := Scalar.xori v164 v165
  let c0_i32_84 : BitVec 32 := 0#32
  let v163 : BitVec 1 := Scalar.cmpi .ne v162 c0_i32_84
  let v167 : BitVec 1 := Scalar.andi v166 v163
  let v168 : BitVec 32 := Scalar.addi v162 v161
  let v169 : BitVec 32 := Scalar.select v167 v168 v162
  let c0_i32_87 : BitVec 32 := 0#32
  let v170 : BitVec 1 := Scalar.cmpi .eq v169 c0_i32_87
  let c2_i32_70 : BitVec 32 := 2#32
  let c0_i32_71 : BitVec 32 := 0#32
  let v144 : BitVec 1 := Scalar.cmpi .eq c2_i32_70 c0_i32_71
  let c1_i32_72 : BitVec 32 := 1#32
  let v145 : BitVec 32 := Scalar.select v144 c1_i32_72 c2_i32_70
  let v146 : BitVec 32 := Scalar.remsi v133 v145
  let c0_i32_74 : BitVec 32 := 0#32
  let v148 : BitVec 1 := Scalar.cmpi .slt v146 c0_i32_74
  let c0_i32_75 : BitVec 32 := 0#32
  let v149 : BitVec 1 := Scalar.cmpi .slt v145 c0_i32_75
  let v150 : BitVec 1 := Scalar.xori v148 v149
  let c0_i32_73 : BitVec 32 := 0#32
  let v147 : BitVec 1 := Scalar.cmpi .ne v146 c0_i32_73
  let v151 : BitVec 1 := Scalar.andi v150 v147
  let v152 : BitVec 32 := Scalar.addi v146 v145
  let v153 : BitVec 32 := Scalar.select v151 v152 v146
  let c0_i32_76 : BitVec 32 := 0#32
  let v154 : BitVec 1 := Scalar.cmpi .eq v153 c0_i32_76
  let c2_i32_64 : BitVec 32 := 2#32
  let c0_i32_65 : BitVec 32 := 0#32
  let v134 : BitVec 1 := Scalar.cmpi .eq c2_i32_64 c0_i32_65
  let c1_i32_66 : BitVec 32 := 1#32
  let v135 : BitVec 32 := Scalar.select v134 c1_i32_66 c2_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c1_i32_77 : BitVec 32 := 1#32
  let v155 : BitVec 32 := Scalar.subi c1_i32_77 v143
  let v156 : BitVec 32 := Scalar.select v154 v143 v155
  let c1_i32_78 : BitVec 32 := 1#32
  let v157 : BitVec 32 := Scalar.xori v156 c1_i32_78
  let c1_i32_88 : BitVec 32 := 1#32
  let v171 : BitVec 32 := Scalar.subi c1_i32_88 v157
  let v172 : BitVec 32 := Scalar.select v170 v157 v171
  let v176 : BitVec 32 := Scalar.addi v175 v172
  let c1_i32_471 : BitVec 32 := 1#32
  let v876 : BitVec 32 := Scalar.muli v176 c1_i32_471
  let v877 : BitVec 32 := Scalar.addi c0_i32_472 v876
  v877.toNat
def k0_dev3 (d0 : Dev nD) : Nat :=
  let c0_i32_475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_92 : BitVec 32 := 0#32
  let v178 : BitVec 1 := Scalar.cmpi .sgt v2 c0_i32_92
  let v179 : BitVec 32 := Scalar.extui v178
  let c0_i32_93 : BitVec 32 := 0#32
  let v180 : BitVec 1 := Scalar.cmpi .slt v2 c0_i32_93
  let v181 : BitVec 32 := Scalar.extui v180
  let v182 : BitVec 32 := Scalar.subi v179 v181
  let c8_i32_91 : BitVec 32 := 8#32
  let c0_i32_94 : BitVec 32 := 0#32
  let v183 : BitVec 1 := Scalar.cmpi .sgt c8_i32_91 c0_i32_94
  let v184 : BitVec 32 := Scalar.extui v183
  let c0_i32_95 : BitVec 32 := 0#32
  let v185 : BitVec 1 := Scalar.cmpi .slt c8_i32_91 c0_i32_95
  let v186 : BitVec 32 := Scalar.extui v185
  let v187 : BitVec 32 := Scalar.subi v184 v186
  let v188 : BitVec 1 := Scalar.cmpi .ne v182 v187
  let v189 : BitVec 32 := Scalar.remsi v2 c8_i32_91
  let c0_i32_96 : BitVec 32 := 0#32
  let v190 : BitVec 1 := Scalar.cmpi .ne v189 c0_i32_96
  let v191 : BitVec 1 := Scalar.andi v188 v190
  let v177 : BitVec 32 := Scalar.divsi v2 c8_i32_91
  let c1_i32_97 : BitVec 32 := 1#32
  let v192 : BitVec 32 := Scalar.subi v177 c1_i32_97
  let v193 : BitVec 32 := Scalar.select v191 v192 v177
  let c1_i32_127 : BitVec 32 := 1#32
  let v246 : BitVec 32 := Scalar.xori v193 c1_i32_127
  let c8_i32_136 : BitVec 32 := 8#32
  let v260 : BitVec 32 := Scalar.muli v246 c8_i32_136
  let c8_i32_98 : BitVec 32 := 8#32
  let c0_i32_99 : BitVec 32 := 0#32
  let v194 : BitVec 1 := Scalar.cmpi .eq c8_i32_98 c0_i32_99
  let c1_i32_100 : BitVec 32 := 1#32
  let v195 : BitVec 32 := Scalar.select v194 c1_i32_100 c8_i32_98
  let v196 : BitVec 32 := Scalar.remsi v2 v195
  let c0_i32_102 : BitVec 32 := 0#32
  let v198 : BitVec 1 := Scalar.cmpi .slt v196 c0_i32_102
  let c0_i32_103 : BitVec 32 := 0#32
  let v199 : BitVec 1 := Scalar.cmpi .slt v195 c0_i32_103
  let v200 : BitVec 1 := Scalar.xori v198 v199
  let c0_i32_101 : BitVec 32 := 0#32
  let v197 : BitVec 1 := Scalar.cmpi .ne v196 c0_i32_101
  let v201 : BitVec 1 := Scalar.andi v200 v197
  let v202 : BitVec 32 := Scalar.addi v196 v195
  let v203 : BitVec 32 := Scalar.select v201 v202 v196
  let c0_i32_105 : BitVec 32 := 0#32
  let v205 : BitVec 1 := Scalar.cmpi .sgt v203 c0_i32_105
  let v206 : BitVec 32 := Scalar.extui v205
  let c0_i32_106 : BitVec 32 := 0#32
  let v207 : BitVec 1 := Scalar.cmpi .slt v203 c0_i32_106
  let v208 : BitVec 32 := Scalar.extui v207
  let v209 : BitVec 32 := Scalar.subi v206 v208
  let c2_i32_104 : BitVec 32 := 2#32
  let c0_i32_107 : BitVec 32 := 0#32
  let v210 : BitVec 1 := Scalar.cmpi .sgt c2_i32_104 c0_i32_107
  let v211 : BitVec 32 := Scalar.extui v210
  let c0_i32_108 : BitVec 32 := 0#32
  let v212 : BitVec 1 := Scalar.cmpi .slt c2_i32_104 c0_i32_108
  let v213 : BitVec 32 := Scalar.extui v212
  let v214 : BitVec 32 := Scalar.subi v211 v213
  let v215 : BitVec 1 := Scalar.cmpi .ne v209 v214
  let v216 : BitVec 32 := Scalar.remsi v203 c2_i32_104
  let c0_i32_109 : BitVec 32 := 0#32
  let v217 : BitVec 1 := Scalar.cmpi .ne v216 c0_i32_109
  let v218 : BitVec 1 := Scalar.andi v215 v217
  let v204 : BitVec 32 := Scalar.divsi v203 c2_i32_104
  let c1_i32_110 : BitVec 32 := 1#32
  let v219 : BitVec 32 := Scalar.subi v204 c1_i32_110
  let v220 : BitVec 32 := Scalar.select v218 v219 v204
  let c0_i32_126 : BitVec 32 := 0#32
  let v245 : BitVec 32 := Scalar.xori v220 c0_i32_126
  let c2_i32_137 : BitVec 32 := 2#32
  let v261 : BitVec 32 := Scalar.muli v245 c2_i32_137
  let v262 : BitVec 32 := Scalar.addi v260 v261
  let c2_i32_128 : BitVec 32 := 2#32
  let c0_i32_129 : BitVec 32 := 0#32
  let v247 : BitVec 1 := Scalar.cmpi .eq c2_i32_128 c0_i32_129
  let c1_i32_130 : BitVec 32 := 1#32
  let v248 : BitVec 32 := Scalar.select v247 c1_i32_130 c2_i32_128
  let v249 : BitVec 32 := Scalar.remsi v245 v248
  let c0_i32_132 : BitVec 32 := 0#32
  let v251 : BitVec 1 := Scalar.cmpi .slt v249 c0_i32_132
  let c0_i32_133 : BitVec 32 := 0#32
  let v252 : BitVec 1 := Scalar.cmpi .slt v248 c0_i32_133
  let v253 : BitVec 1 := Scalar.xori v251 v252
  let c0_i32_131 : BitVec 32 := 0#32
  let v250 : BitVec 1 := Scalar.cmpi .ne v249 c0_i32_131
  let v254 : BitVec 1 := Scalar.andi v253 v250
  let v255 : BitVec 32 := Scalar.addi v249 v248
  let v256 : BitVec 32 := Scalar.select v254 v255 v249
  let c0_i32_134 : BitVec 32 := 0#32
  let v257 : BitVec 1 := Scalar.cmpi .eq v256 c0_i32_134
  let c2_i32_117 : BitVec 32 := 2#32
  let c0_i32_118 : BitVec 32 := 0#32
  let v231 : BitVec 1 := Scalar.cmpi .eq c2_i32_117 c0_i32_118
  let c1_i32_119 : BitVec 32 := 1#32
  let v232 : BitVec 32 := Scalar.select v231 c1_i32_119 c2_i32_117
  let v233 : BitVec 32 := Scalar.remsi v220 v232
  let c0_i32_121 : BitVec 32 := 0#32
  let v235 : BitVec 1 := Scalar.cmpi .slt v233 c0_i32_121
  let c0_i32_122 : BitVec 32 := 0#32
  let v236 : BitVec 1 := Scalar.cmpi .slt v232 c0_i32_122
  let v237 : BitVec 1 := Scalar.xori v235 v236
  let c0_i32_120 : BitVec 32 := 0#32
  let v234 : BitVec 1 := Scalar.cmpi .ne v233 c0_i32_120
  let v238 : BitVec 1 := Scalar.andi v237 v234
  let v239 : BitVec 32 := Scalar.addi v233 v232
  let v240 : BitVec 32 := Scalar.select v238 v239 v233
  let c0_i32_123 : BitVec 32 := 0#32
  let v241 : BitVec 1 := Scalar.cmpi .eq v240 c0_i32_123
  let c2_i32_111 : BitVec 32 := 2#32
  let c0_i32_112 : BitVec 32 := 0#32
  let v221 : BitVec 1 := Scalar.cmpi .eq c2_i32_111 c0_i32_112
  let c1_i32_113 : BitVec 32 := 1#32
  let v222 : BitVec 32 := Scalar.select v221 c1_i32_113 c2_i32_111
  let v223 : BitVec 32 := Scalar.remsi v203 v222
  let c0_i32_115 : BitVec 32 := 0#32
  let v225 : BitVec 1 := Scalar.cmpi .slt v223 c0_i32_115
  let c0_i32_116 : BitVec 32 := 0#32
  let v226 : BitVec 1 := Scalar.cmpi .slt v222 c0_i32_116
  let v227 : BitVec 1 := Scalar.xori v225 v226
  let c0_i32_114 : BitVec 32 := 0#32
  let v224 : BitVec 1 := Scalar.cmpi .ne v223 c0_i32_114
  let v228 : BitVec 1 := Scalar.andi v227 v224
  let v229 : BitVec 32 := Scalar.addi v223 v222
  let v230 : BitVec 32 := Scalar.select v228 v229 v223
  let c1_i32_124 : BitVec 32 := 1#32
  let v242 : BitVec 32 := Scalar.subi c1_i32_124 v230
  let v243 : BitVec 32 := Scalar.select v241 v230 v242
  let c1_i32_125 : BitVec 32 := 1#32
  let v244 : BitVec 32 := Scalar.xori v243 c1_i32_125
  let c1_i32_135 : BitVec 32 := 1#32
  let v258 : BitVec 32 := Scalar.subi c1_i32_135 v244
  let v259 : BitVec 32 := Scalar.select v257 v244 v258
  let v263 : BitVec 32 := Scalar.addi v262 v259
  let c1_i32_474 : BitVec 32 := 1#32
  let v878 : BitVec 32 := Scalar.muli v263 c1_i32_474
  let v879 : BitVec 32 := Scalar.addi c0_i32_475 v878
  v879.toNat
def k0_dev4 (d0 : Dev nD) : Nat :=
  let c0_i32_478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_139 : BitVec 32 := 0#32
  let v265 : BitVec 1 := Scalar.cmpi .sgt v2 c0_i32_139
  let v266 : BitVec 32 := Scalar.extui v265
  let c0_i32_140 : BitVec 32 := 0#32
  let v267 : BitVec 1 := Scalar.cmpi .slt v2 c0_i32_140
  let v268 : BitVec 32 := Scalar.extui v267
  let v269 : BitVec 32 := Scalar.subi v266 v268
  let c8_i32_138 : BitVec 32 := 8#32
  let c0_i32_141 : BitVec 32 := 0#32
  let v270 : BitVec 1 := Scalar.cmpi .sgt c8_i32_138 c0_i32_141
  let v271 : BitVec 32 := Scalar.extui v270
  let c0_i32_142 : BitVec 32 := 0#32
  let v272 : BitVec 1 := Scalar.cmpi .slt c8_i32_138 c0_i32_142
  let v273 : BitVec 32 := Scalar.extui v272
  let v274 : BitVec 32 := Scalar.subi v271 v273
  let v275 : BitVec 1 := Scalar.cmpi .ne v269 v274
  let v276 : BitVec 32 := Scalar.remsi v2 c8_i32_138
  let c0_i32_143 : BitVec 32 := 0#32
  let v277 : BitVec 1 := Scalar.cmpi .ne v276 c0_i32_143
  let v278 : BitVec 1 := Scalar.andi v275 v277
  let v264 : BitVec 32 := Scalar.divsi v2 c8_i32_138
  let c1_i32_144 : BitVec 32 := 1#32
  let v279 : BitVec 32 := Scalar.subi v264 c1_i32_144
  let v280 : BitVec 32 := Scalar.select v278 v279 v264
  let c1_i32_174 : BitVec 32 := 1#32
  let v333 : BitVec 32 := Scalar.xori v280 c1_i32_174
  let c8_i32_183 : BitVec 32 := 8#32
  let v347 : BitVec 32 := Scalar.muli v333 c8_i32_183
  let c8_i32_145 : BitVec 32 := 8#32
  let c0_i32_146 : BitVec 32 := 0#32
  let v281 : BitVec 1 := Scalar.cmpi .eq c8_i32_145 c0_i32_146
  let c1_i32_147 : BitVec 32 := 1#32
  let v282 : BitVec 32 := Scalar.select v281 c1_i32_147 c8_i32_145
  let v283 : BitVec 32 := Scalar.remsi v2 v282
  let c0_i32_149 : BitVec 32 := 0#32
  let v285 : BitVec 1 := Scalar.cmpi .slt v283 c0_i32_149
  let c0_i32_150 : BitVec 32 := 0#32
  let v286 : BitVec 1 := Scalar.cmpi .slt v282 c0_i32_150
  let v287 : BitVec 1 := Scalar.xori v285 v286
  let c0_i32_148 : BitVec 32 := 0#32
  let v284 : BitVec 1 := Scalar.cmpi .ne v283 c0_i32_148
  let v288 : BitVec 1 := Scalar.andi v287 v284
  let v289 : BitVec 32 := Scalar.addi v283 v282
  let v290 : BitVec 32 := Scalar.select v288 v289 v283
  let c0_i32_152 : BitVec 32 := 0#32
  let v292 : BitVec 1 := Scalar.cmpi .sgt v290 c0_i32_152
  let v293 : BitVec 32 := Scalar.extui v292
  let c0_i32_153 : BitVec 32 := 0#32
  let v294 : BitVec 1 := Scalar.cmpi .slt v290 c0_i32_153
  let v295 : BitVec 32 := Scalar.extui v294
  let v296 : BitVec 32 := Scalar.subi v293 v295
  let c2_i32_151 : BitVec 32 := 2#32
  let c0_i32_154 : BitVec 32 := 0#32
  let v297 : BitVec 1 := Scalar.cmpi .sgt c2_i32_151 c0_i32_154
  let v298 : BitVec 32 := Scalar.extui v297
  let c0_i32_155 : BitVec 32 := 0#32
  let v299 : BitVec 1 := Scalar.cmpi .slt c2_i32_151 c0_i32_155
  let v300 : BitVec 32 := Scalar.extui v299
  let v301 : BitVec 32 := Scalar.subi v298 v300
  let v302 : BitVec 1 := Scalar.cmpi .ne v296 v301
  let v303 : BitVec 32 := Scalar.remsi v290 c2_i32_151
  let c0_i32_156 : BitVec 32 := 0#32
  let v304 : BitVec 1 := Scalar.cmpi .ne v303 c0_i32_156
  let v305 : BitVec 1 := Scalar.andi v302 v304
  let v291 : BitVec 32 := Scalar.divsi v290 c2_i32_151
  let c1_i32_157 : BitVec 32 := 1#32
  let v306 : BitVec 32 := Scalar.subi v291 c1_i32_157
  let v307 : BitVec 32 := Scalar.select v305 v306 v291
  let c1_i32_173 : BitVec 32 := 1#32
  let v332 : BitVec 32 := Scalar.xori v307 c1_i32_173
  let c2_i32_184 : BitVec 32 := 2#32
  let v348 : BitVec 32 := Scalar.muli v332 c2_i32_184
  let v349 : BitVec 32 := Scalar.addi v347 v348
  let c2_i32_175 : BitVec 32 := 2#32
  let c0_i32_176 : BitVec 32 := 0#32
  let v334 : BitVec 1 := Scalar.cmpi .eq c2_i32_175 c0_i32_176
  let c1_i32_177 : BitVec 32 := 1#32
  let v335 : BitVec 32 := Scalar.select v334 c1_i32_177 c2_i32_175
  let v336 : BitVec 32 := Scalar.remsi v332 v335
  let c0_i32_179 : BitVec 32 := 0#32
  let v338 : BitVec 1 := Scalar.cmpi .slt v336 c0_i32_179
  let c0_i32_180 : BitVec 32 := 0#32
  let v339 : BitVec 1 := Scalar.cmpi .slt v335 c0_i32_180
  let v340 : BitVec 1 := Scalar.xori v338 v339
  let c0_i32_178 : BitVec 32 := 0#32
  let v337 : BitVec 1 := Scalar.cmpi .ne v336 c0_i32_178
  let v341 : BitVec 1 := Scalar.andi v340 v337
  let v342 : BitVec 32 := Scalar.addi v336 v335
  let v343 : BitVec 32 := Scalar.select v341 v342 v336
  let c0_i32_181 : BitVec 32 := 0#32
  let v344 : BitVec 1 := Scalar.cmpi .eq v343 c0_i32_181
  let c2_i32_164 : BitVec 32 := 2#32
  let c0_i32_165 : BitVec 32 := 0#32
  let v318 : BitVec 1 := Scalar.cmpi .eq c2_i32_164 c0_i32_165
  let c1_i32_166 : BitVec 32 := 1#32
  let v319 : BitVec 32 := Scalar.select v318 c1_i32_166 c2_i32_164
  let v320 : BitVec 32 := Scalar.remsi v307 v319
  let c0_i32_168 : BitVec 32 := 0#32
  let v322 : BitVec 1 := Scalar.cmpi .slt v320 c0_i32_168
  let c0_i32_169 : BitVec 32 := 0#32
  let v323 : BitVec 1 := Scalar.cmpi .slt v319 c0_i32_169
  let v324 : BitVec 1 := Scalar.xori v322 v323
  let c0_i32_167 : BitVec 32 := 0#32
  let v321 : BitVec 1 := Scalar.cmpi .ne v320 c0_i32_167
  let v325 : BitVec 1 := Scalar.andi v324 v321
  let v326 : BitVec 32 := Scalar.addi v320 v319
  let v327 : BitVec 32 := Scalar.select v325 v326 v320
  let c0_i32_170 : BitVec 32 := 0#32
  let v328 : BitVec 1 := Scalar.cmpi .eq v327 c0_i32_170
  let c2_i32_158 : BitVec 32 := 2#32
  let c0_i32_159 : BitVec 32 := 0#32
  let v308 : BitVec 1 := Scalar.cmpi .eq c2_i32_158 c0_i32_159
  let c1_i32_160 : BitVec 32 := 1#32
  let v309 : BitVec 32 := Scalar.select v308 c1_i32_160 c2_i32_158
  let v310 : BitVec 32 := Scalar.remsi v290 v309
  let c0_i32_162 : BitVec 32 := 0#32
  let v312 : BitVec 1 := Scalar.cmpi .slt v310 c0_i32_162
  let c0_i32_163 : BitVec 32 := 0#32
  let v313 : BitVec 1 := Scalar.cmpi .slt v309 c0_i32_163
  let v314 : BitVec 1 := Scalar.xori v312 v313
  let c0_i32_161 : BitVec 32 := 0#32
  let v311 : BitVec 1 := Scalar.cmpi .ne v310 c0_i32_161
  let v315 : BitVec 1 := Scalar.andi v314 v311
  let v316 : BitVec 32 := Scalar.addi v310 v309
  let v317 : BitVec 32 := Scalar.select v315 v316 v310
  let c1_i32_171 : BitVec 32 := 1#32
  let v329 : BitVec 32 := Scalar.subi c1_i32_171 v317
  let v330 : BitVec 32 := Scalar.select v328 v317 v329
  let c0_i32_172 : BitVec 32 := 0#32
  let v331 : BitVec 32 := Scalar.xori v330 c0_i32_172
  let c1_i32_182 : BitVec 32 := 1#32
  let v345 : BitVec 32 := Scalar.subi c1_i32_182 v331
  let v346 : BitVec 32 := Scalar.select v344 v331 v345
  let v350 : BitVec 32 := Scalar.addi v349 v346
  let c1_i32_477 : BitVec 32 := 1#32
  let v880 : BitVec 32 := Scalar.muli v350 c1_i32_477
  let v881 : BitVec 32 := Scalar.addi c0_i32_478 v880
  v881.toNat
def k0_dev5 (d0 : Dev nD) : Nat :=
  let c0_i32_481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_186 : BitVec 32 := 0#32
  let v352 : BitVec 1 := Scalar.cmpi .sgt v2 c0_i32_186
  let v353 : BitVec 32 := Scalar.extui v352
  let c0_i32_187 : BitVec 32 := 0#32
  let v354 : BitVec 1 := Scalar.cmpi .slt v2 c0_i32_187
  let v355 : BitVec 32 := Scalar.extui v354
  let v356 : BitVec 32 := Scalar.subi v353 v355
  let c8_i32_185 : BitVec 32 := 8#32
  let c0_i32_188 : BitVec 32 := 0#32
  let v357 : BitVec 1 := Scalar.cmpi .sgt c8_i32_185 c0_i32_188
  let v358 : BitVec 32 := Scalar.extui v357
  let c0_i32_189 : BitVec 32 := 0#32
  let v359 : BitVec 1 := Scalar.cmpi .slt c8_i32_185 c0_i32_189
  let v360 : BitVec 32 := Scalar.extui v359
  let v361 : BitVec 32 := Scalar.subi v358 v360
  let v362 : BitVec 1 := Scalar.cmpi .ne v356 v361
  let v363 : BitVec 32 := Scalar.remsi v2 c8_i32_185
  let c0_i32_190 : BitVec 32 := 0#32
  let v364 : BitVec 1 := Scalar.cmpi .ne v363 c0_i32_190
  let v365 : BitVec 1 := Scalar.andi v362 v364
  let v351 : BitVec 32 := Scalar.divsi v2 c8_i32_185
  let c1_i32_191 : BitVec 32 := 1#32
  let v366 : BitVec 32 := Scalar.subi v351 c1_i32_191
  let v367 : BitVec 32 := Scalar.select v365 v366 v351
  let c0_i32_221 : BitVec 32 := 0#32
  let v420 : BitVec 32 := Scalar.xori v367 c0_i32_221
  let c8_i32_230 : BitVec 32 := 8#32
  let v434 : BitVec 32 := Scalar.muli v420 c8_i32_230
  let c8_i32_192 : BitVec 32 := 8#32
  let c0_i32_193 : BitVec 32 := 0#32
  let v368 : BitVec 1 := Scalar.cmpi .eq c8_i32_192 c0_i32_193
  let c1_i32_194 : BitVec 32 := 1#32
  let v369 : BitVec 32 := Scalar.select v368 c1_i32_194 c8_i32_192
  let v370 : BitVec 32 := Scalar.remsi v2 v369
  let c0_i32_196 : BitVec 32 := 0#32
  let v372 : BitVec 1 := Scalar.cmpi .slt v370 c0_i32_196
  let c0_i32_197 : BitVec 32 := 0#32
  let v373 : BitVec 1 := Scalar.cmpi .slt v369 c0_i32_197
  let v374 : BitVec 1 := Scalar.xori v372 v373
  let c0_i32_195 : BitVec 32 := 0#32
  let v371 : BitVec 1 := Scalar.cmpi .ne v370 c0_i32_195
  let v375 : BitVec 1 := Scalar.andi v374 v371
  let v376 : BitVec 32 := Scalar.addi v370 v369
  let v377 : BitVec 32 := Scalar.select v375 v376 v370
  let c0_i32_199 : BitVec 32 := 0#32
  let v379 : BitVec 1 := Scalar.cmpi .sgt v377 c0_i32_199
  let v380 : BitVec 32 := Scalar.extui v379
  let c0_i32_200 : BitVec 32 := 0#32
  let v381 : BitVec 1 := Scalar.cmpi .slt v377 c0_i32_200
  let v382 : BitVec 32 := Scalar.extui v381
  let v383 : BitVec 32 := Scalar.subi v380 v382
  let c2_i32_198 : BitVec 32 := 2#32
  let c0_i32_201 : BitVec 32 := 0#32
  let v384 : BitVec 1 := Scalar.cmpi .sgt c2_i32_198 c0_i32_201
  let v385 : BitVec 32 := Scalar.extui v384
  let c0_i32_202 : BitVec 32 := 0#32
  let v386 : BitVec 1 := Scalar.cmpi .slt c2_i32_198 c0_i32_202
  let v387 : BitVec 32 := Scalar.extui v386
  let v388 : BitVec 32 := Scalar.subi v385 v387
  let v389 : BitVec 1 := Scalar.cmpi .ne v383 v388
  let v390 : BitVec 32 := Scalar.remsi v377 c2_i32_198
  let c0_i32_203 : BitVec 32 := 0#32
  let v391 : BitVec 1 := Scalar.cmpi .ne v390 c0_i32_203
  let v392 : BitVec 1 := Scalar.andi v389 v391
  let v378 : BitVec 32 := Scalar.divsi v377 c2_i32_198
  let c1_i32_204 : BitVec 32 := 1#32
  let v393 : BitVec 32 := Scalar.subi v378 c1_i32_204
  let v394 : BitVec 32 := Scalar.select v392 v393 v378
  let c0_i32_220 : BitVec 32 := 0#32
  let v419 : BitVec 32 := Scalar.xori v394 c0_i32_220
  let c2_i32_231 : BitVec 32 := 2#32
  let v435 : BitVec 32 := Scalar.muli v419 c2_i32_231
  let v436 : BitVec 32 := Scalar.addi v434 v435
  let c2_i32_222 : BitVec 32 := 2#32
  let c0_i32_223 : BitVec 32 := 0#32
  let v421 : BitVec 1 := Scalar.cmpi .eq c2_i32_222 c0_i32_223
  let c1_i32_224 : BitVec 32 := 1#32
  let v422 : BitVec 32 := Scalar.select v421 c1_i32_224 c2_i32_222
  let v423 : BitVec 32 := Scalar.remsi v419 v422
  let c0_i32_226 : BitVec 32 := 0#32
  let v425 : BitVec 1 := Scalar.cmpi .slt v423 c0_i32_226
  let c0_i32_227 : BitVec 32 := 0#32
  let v426 : BitVec 1 := Scalar.cmpi .slt v422 c0_i32_227
  let v427 : BitVec 1 := Scalar.xori v425 v426
  let c0_i32_225 : BitVec 32 := 0#32
  let v424 : BitVec 1 := Scalar.cmpi .ne v423 c0_i32_225
  let v428 : BitVec 1 := Scalar.andi v427 v424
  let v429 : BitVec 32 := Scalar.addi v423 v422
  let v430 : BitVec 32 := Scalar.select v428 v429 v423
  let c0_i32_228 : BitVec 32 := 0#32
  let v431 : BitVec 1 := Scalar.cmpi .eq v430 c0_i32_228
  let c2_i32_211 : BitVec 32 := 2#32
  let c0_i32_212 : BitVec 32 := 0#32
  let v405 : BitVec 1 := Scalar.cmpi .eq c2_i32_211 c0_i32_212
  let c1_i32_213 : BitVec 32 := 1#32
  let v406 : BitVec 32 := Scalar.select v405 c1_i32_213 c2_i32_211
  let v407 : BitVec 32 := Scalar.remsi v394 v406
  let c0_i32_215 : BitVec 32 := 0#32
  let v409 : BitVec 1 := Scalar.cmpi .slt v407 c0_i32_215
  let c0_i32_216 : BitVec 32 := 0#32
  let v410 : BitVec 1 := Scalar.cmpi .slt v406 c0_i32_216
  let v411 : BitVec 1 := Scalar.xori v409 v410
  let c0_i32_214 : BitVec 32 := 0#32
  let v408 : BitVec 1 := Scalar.cmpi .ne v407 c0_i32_214
  let v412 : BitVec 1 := Scalar.andi v411 v408
  let v413 : BitVec 32 := Scalar.addi v407 v406
  let v414 : BitVec 32 := Scalar.select v412 v413 v407
  let c0_i32_217 : BitVec 32 := 0#32
  let v415 : BitVec 1 := Scalar.cmpi .eq v414 c0_i32_217
  let c2_i32_205 : BitVec 32 := 2#32
  let c0_i32_206 : BitVec 32 := 0#32
  let v395 : BitVec 1 := Scalar.cmpi .eq c2_i32_205 c0_i32_206
  let c1_i32_207 : BitVec 32 := 1#32
  let v396 : BitVec 32 := Scalar.select v395 c1_i32_207 c2_i32_205
  let v397 : BitVec 32 := Scalar.remsi v377 v396
  let c0_i32_209 : BitVec 32 := 0#32
  let v399 : BitVec 1 := Scalar.cmpi .slt v397 c0_i32_209
  let c0_i32_210 : BitVec 32 := 0#32
  let v400 : BitVec 1 := Scalar.cmpi .slt v396 c0_i32_210
  let v401 : BitVec 1 := Scalar.xori v399 v400
  let c0_i32_208 : BitVec 32 := 0#32
  let v398 : BitVec 1 := Scalar.cmpi .ne v397 c0_i32_208
  let v402 : BitVec 1 := Scalar.andi v401 v398
  let v403 : BitVec 32 := Scalar.addi v397 v396
  let v404 : BitVec 32 := Scalar.select v402 v403 v397
  let c1_i32_218 : BitVec 32 := 1#32
  let v416 : BitVec 32 := Scalar.subi c1_i32_218 v404
  let v417 : BitVec 32 := Scalar.select v415 v404 v416
  let c1_i32_219 : BitVec 32 := 1#32
  let v418 : BitVec 32 := Scalar.xori v417 c1_i32_219
  let c1_i32_229 : BitVec 32 := 1#32
  let v432 : BitVec 32 := Scalar.subi c1_i32_229 v418
  let v433 : BitVec 32 := Scalar.select v431 v418 v432
  let v437 : BitVec 32 := Scalar.addi v436 v433
  let c1_i32_480 : BitVec 32 := 1#32
  let v882 : BitVec 32 := Scalar.muli v437 c1_i32_480
  let v883 : BitVec 32 := Scalar.addi c0_i32_481 v882
  v883.toNat
def k0_dev6 (d0 : Dev nD) : Nat :=
  let c0_i32_484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_233 : BitVec 32 := 0#32
  let v439 : BitVec 1 := Scalar.cmpi .sgt v2 c0_i32_233
  let v440 : BitVec 32 := Scalar.extui v439
  let c0_i32_234 : BitVec 32 := 0#32
  let v441 : BitVec 1 := Scalar.cmpi .slt v2 c0_i32_234
  let v442 : BitVec 32 := Scalar.extui v441
  let v443 : BitVec 32 := Scalar.subi v440 v442
  let c8_i32_232 : BitVec 32 := 8#32
  let c0_i32_235 : BitVec 32 := 0#32
  let v444 : BitVec 1 := Scalar.cmpi .sgt c8_i32_232 c0_i32_235
  let v445 : BitVec 32 := Scalar.extui v444
  let c0_i32_236 : BitVec 32 := 0#32
  let v446 : BitVec 1 := Scalar.cmpi .slt c8_i32_232 c0_i32_236
  let v447 : BitVec 32 := Scalar.extui v446
  let v448 : BitVec 32 := Scalar.subi v445 v447
  let v449 : BitVec 1 := Scalar.cmpi .ne v443 v448
  let v450 : BitVec 32 := Scalar.remsi v2 c8_i32_232
  let c0_i32_237 : BitVec 32 := 0#32
  let v451 : BitVec 1 := Scalar.cmpi .ne v450 c0_i32_237
  let v452 : BitVec 1 := Scalar.andi v449 v451
  let v438 : BitVec 32 := Scalar.divsi v2 c8_i32_232
  let c1_i32_238 : BitVec 32 := 1#32
  let v453 : BitVec 32 := Scalar.subi v438 c1_i32_238
  let v454 : BitVec 32 := Scalar.select v452 v453 v438
  let c0_i32_268 : BitVec 32 := 0#32
  let v507 : BitVec 32 := Scalar.xori v454 c0_i32_268
  let c8_i32_277 : BitVec 32 := 8#32
  let v521 : BitVec 32 := Scalar.muli v507 c8_i32_277
  let c8_i32_239 : BitVec 32 := 8#32
  let c0_i32_240 : BitVec 32 := 0#32
  let v455 : BitVec 1 := Scalar.cmpi .eq c8_i32_239 c0_i32_240
  let c1_i32_241 : BitVec 32 := 1#32
  let v456 : BitVec 32 := Scalar.select v455 c1_i32_241 c8_i32_239
  let v457 : BitVec 32 := Scalar.remsi v2 v456
  let c0_i32_243 : BitVec 32 := 0#32
  let v459 : BitVec 1 := Scalar.cmpi .slt v457 c0_i32_243
  let c0_i32_244 : BitVec 32 := 0#32
  let v460 : BitVec 1 := Scalar.cmpi .slt v456 c0_i32_244
  let v461 : BitVec 1 := Scalar.xori v459 v460
  let c0_i32_242 : BitVec 32 := 0#32
  let v458 : BitVec 1 := Scalar.cmpi .ne v457 c0_i32_242
  let v462 : BitVec 1 := Scalar.andi v461 v458
  let v463 : BitVec 32 := Scalar.addi v457 v456
  let v464 : BitVec 32 := Scalar.select v462 v463 v457
  let c0_i32_246 : BitVec 32 := 0#32
  let v466 : BitVec 1 := Scalar.cmpi .sgt v464 c0_i32_246
  let v467 : BitVec 32 := Scalar.extui v466
  let c0_i32_247 : BitVec 32 := 0#32
  let v468 : BitVec 1 := Scalar.cmpi .slt v464 c0_i32_247
  let v469 : BitVec 32 := Scalar.extui v468
  let v470 : BitVec 32 := Scalar.subi v467 v469
  let c2_i32_245 : BitVec 32 := 2#32
  let c0_i32_248 : BitVec 32 := 0#32
  let v471 : BitVec 1 := Scalar.cmpi .sgt c2_i32_245 c0_i32_248
  let v472 : BitVec 32 := Scalar.extui v471
  let c0_i32_249 : BitVec 32 := 0#32
  let v473 : BitVec 1 := Scalar.cmpi .slt c2_i32_245 c0_i32_249
  let v474 : BitVec 32 := Scalar.extui v473
  let v475 : BitVec 32 := Scalar.subi v472 v474
  let v476 : BitVec 1 := Scalar.cmpi .ne v470 v475
  let v477 : BitVec 32 := Scalar.remsi v464 c2_i32_245
  let c0_i32_250 : BitVec 32 := 0#32
  let v478 : BitVec 1 := Scalar.cmpi .ne v477 c0_i32_250
  let v479 : BitVec 1 := Scalar.andi v476 v478
  let v465 : BitVec 32 := Scalar.divsi v464 c2_i32_245
  let c1_i32_251 : BitVec 32 := 1#32
  let v480 : BitVec 32 := Scalar.subi v465 c1_i32_251
  let v481 : BitVec 32 := Scalar.select v479 v480 v465
  let c1_i32_267 : BitVec 32 := 1#32
  let v506 : BitVec 32 := Scalar.xori v481 c1_i32_267
  let c2_i32_278 : BitVec 32 := 2#32
  let v522 : BitVec 32 := Scalar.muli v506 c2_i32_278
  let v523 : BitVec 32 := Scalar.addi v521 v522
  let c2_i32_269 : BitVec 32 := 2#32
  let c0_i32_270 : BitVec 32 := 0#32
  let v508 : BitVec 1 := Scalar.cmpi .eq c2_i32_269 c0_i32_270
  let c1_i32_271 : BitVec 32 := 1#32
  let v509 : BitVec 32 := Scalar.select v508 c1_i32_271 c2_i32_269
  let v510 : BitVec 32 := Scalar.remsi v506 v509
  let c0_i32_273 : BitVec 32 := 0#32
  let v512 : BitVec 1 := Scalar.cmpi .slt v510 c0_i32_273
  let c0_i32_274 : BitVec 32 := 0#32
  let v513 : BitVec 1 := Scalar.cmpi .slt v509 c0_i32_274
  let v514 : BitVec 1 := Scalar.xori v512 v513
  let c0_i32_272 : BitVec 32 := 0#32
  let v511 : BitVec 1 := Scalar.cmpi .ne v510 c0_i32_272
  let v515 : BitVec 1 := Scalar.andi v514 v511
  let v516 : BitVec 32 := Scalar.addi v510 v509
  let v517 : BitVec 32 := Scalar.select v515 v516 v510
  let c0_i32_275 : BitVec 32 := 0#32
  let v518 : BitVec 1 := Scalar.cmpi .eq v517 c0_i32_275
  let c2_i32_258 : BitVec 32 := 2#32
  let c0_i32_259 : BitVec 32 := 0#32
  let v492 : BitVec 1 := Scalar.cmpi .eq c2_i32_258 c0_i32_259
  let c1_i32_260 : BitVec 32 := 1#32
  let v493 : BitVec 32 := Scalar.select v492 c1_i32_260 c2_i32_258
  let v494 : BitVec 32 := Scalar.remsi v481 v493
  let c0_i32_262 : BitVec 32 := 0#32
  let v496 : BitVec 1 := Scalar.cmpi .slt v494 c0_i32_262
  let c0_i32_263 : BitVec 32 := 0#32
  let v497 : BitVec 1 := Scalar.cmpi .slt v493 c0_i32_263
  let v498 : BitVec 1 := Scalar.xori v496 v497
  let c0_i32_261 : BitVec 32 := 0#32
  let v495 : BitVec 1 := Scalar.cmpi .ne v494 c0_i32_261
  let v499 : BitVec 1 := Scalar.andi v498 v495
  let v500 : BitVec 32 := Scalar.addi v494 v493
  let v501 : BitVec 32 := Scalar.select v499 v500 v494
  let c0_i32_264 : BitVec 32 := 0#32
  let v502 : BitVec 1 := Scalar.cmpi .eq v501 c0_i32_264
  let c2_i32_252 : BitVec 32 := 2#32
  let c0_i32_253 : BitVec 32 := 0#32
  let v482 : BitVec 1 := Scalar.cmpi .eq c2_i32_252 c0_i32_253
  let c1_i32_254 : BitVec 32 := 1#32
  let v483 : BitVec 32 := Scalar.select v482 c1_i32_254 c2_i32_252
  let v484 : BitVec 32 := Scalar.remsi v464 v483
  let c0_i32_256 : BitVec 32 := 0#32
  let v486 : BitVec 1 := Scalar.cmpi .slt v484 c0_i32_256
  let c0_i32_257 : BitVec 32 := 0#32
  let v487 : BitVec 1 := Scalar.cmpi .slt v483 c0_i32_257
  let v488 : BitVec 1 := Scalar.xori v486 v487
  let c0_i32_255 : BitVec 32 := 0#32
  let v485 : BitVec 1 := Scalar.cmpi .ne v484 c0_i32_255
  let v489 : BitVec 1 := Scalar.andi v488 v485
  let v490 : BitVec 32 := Scalar.addi v484 v483
  let v491 : BitVec 32 := Scalar.select v489 v490 v484
  let c1_i32_265 : BitVec 32 := 1#32
  let v503 : BitVec 32 := Scalar.subi c1_i32_265 v491
  let v504 : BitVec 32 := Scalar.select v502 v491 v503
  let c0_i32_266 : BitVec 32 := 0#32
  let v505 : BitVec 32 := Scalar.xori v504 c0_i32_266
  let c1_i32_276 : BitVec 32 := 1#32
  let v519 : BitVec 32 := Scalar.subi c1_i32_276 v505
  let v520 : BitVec 32 := Scalar.select v518 v505 v519
  let v524 : BitVec 32 := Scalar.addi v523 v520
  let c1_i32_483 : BitVec 32 := 1#32
  let v884 : BitVec 32 := Scalar.muli v524 c1_i32_483
  let v885 : BitVec 32 := Scalar.addi c0_i32_484 v884
  v885.toNat
def k0_dev7 (d0 : Dev nD) : Nat :=
  let c0_i32_487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_280 : BitVec 32 := 0#32
  let v526 : BitVec 1 := Scalar.cmpi .sgt v2 c0_i32_280
  let v527 : BitVec 32 := Scalar.extui v526
  let c0_i32_281 : BitVec 32 := 0#32
  let v528 : BitVec 1 := Scalar.cmpi .slt v2 c0_i32_281
  let v529 : BitVec 32 := Scalar.extui v528
  let v530 : BitVec 32 := Scalar.subi v527 v529
  let c8_i32_279 : BitVec 32 := 8#32
  let c0_i32_282 : BitVec 32 := 0#32
  let v531 : BitVec 1 := Scalar.cmpi .sgt c8_i32_279 c0_i32_282
  let v532 : BitVec 32 := Scalar.extui v531
  let c0_i32_283 : BitVec 32 := 0#32
  let v533 : BitVec 1 := Scalar.cmpi .slt c8_i32_279 c0_i32_283
  let v534 : BitVec 32 := Scalar.extui v533
  let v535 : BitVec 32 := Scalar.subi v532 v534
  let v536 : BitVec 1 := Scalar.cmpi .ne v530 v535
  let v537 : BitVec 32 := Scalar.remsi v2 c8_i32_279
  let c0_i32_284 : BitVec 32 := 0#32
  let v538 : BitVec 1 := Scalar.cmpi .ne v537 c0_i32_284
  let v539 : BitVec 1 := Scalar.andi v536 v538
  let v525 : BitVec 32 := Scalar.divsi v2 c8_i32_279
  let c1_i32_285 : BitVec 32 := 1#32
  let v540 : BitVec 32 := Scalar.subi v525 c1_i32_285
  let v541 : BitVec 32 := Scalar.select v539 v540 v525
  let c1_i32_315 : BitVec 32 := 1#32
  let v594 : BitVec 32 := Scalar.xori v541 c1_i32_315
  let c8_i32_324 : BitVec 32 := 8#32
  let v608 : BitVec 32 := Scalar.muli v594 c8_i32_324
  let c8_i32_286 : BitVec 32 := 8#32
  let c0_i32_287 : BitVec 32 := 0#32
  let v542 : BitVec 1 := Scalar.cmpi .eq c8_i32_286 c0_i32_287
  let c1_i32_288 : BitVec 32 := 1#32
  let v543 : BitVec 32 := Scalar.select v542 c1_i32_288 c8_i32_286
  let v544 : BitVec 32 := Scalar.remsi v2 v543
  let c0_i32_290 : BitVec 32 := 0#32
  let v546 : BitVec 1 := Scalar.cmpi .slt v544 c0_i32_290
  let c0_i32_291 : BitVec 32 := 0#32
  let v547 : BitVec 1 := Scalar.cmpi .slt v543 c0_i32_291
  let v548 : BitVec 1 := Scalar.xori v546 v547
  let c0_i32_289 : BitVec 32 := 0#32
  let v545 : BitVec 1 := Scalar.cmpi .ne v544 c0_i32_289
  let v549 : BitVec 1 := Scalar.andi v548 v545
  let v550 : BitVec 32 := Scalar.addi v544 v543
  let v551 : BitVec 32 := Scalar.select v549 v550 v544
  let c0_i32_293 : BitVec 32 := 0#32
  let v553 : BitVec 1 := Scalar.cmpi .sgt v551 c0_i32_293
  let v554 : BitVec 32 := Scalar.extui v553
  let c0_i32_294 : BitVec 32 := 0#32
  let v555 : BitVec 1 := Scalar.cmpi .slt v551 c0_i32_294
  let v556 : BitVec 32 := Scalar.extui v555
  let v557 : BitVec 32 := Scalar.subi v554 v556
  let c2_i32_292 : BitVec 32 := 2#32
  let c0_i32_295 : BitVec 32 := 0#32
  let v558 : BitVec 1 := Scalar.cmpi .sgt c2_i32_292 c0_i32_295
  let v559 : BitVec 32 := Scalar.extui v558
  let c0_i32_296 : BitVec 32 := 0#32
  let v560 : BitVec 1 := Scalar.cmpi .slt c2_i32_292 c0_i32_296
  let v561 : BitVec 32 := Scalar.extui v560
  let v562 : BitVec 32 := Scalar.subi v559 v561
  let v563 : BitVec 1 := Scalar.cmpi .ne v557 v562
  let v564 : BitVec 32 := Scalar.remsi v551 c2_i32_292
  let c0_i32_297 : BitVec 32 := 0#32
  let v565 : BitVec 1 := Scalar.cmpi .ne v564 c0_i32_297
  let v566 : BitVec 1 := Scalar.andi v563 v565
  let v552 : BitVec 32 := Scalar.divsi v551 c2_i32_292
  let c1_i32_298 : BitVec 32 := 1#32
  let v567 : BitVec 32 := Scalar.subi v552 c1_i32_298
  let v568 : BitVec 32 := Scalar.select v566 v567 v552
  let c0_i32_314 : BitVec 32 := 0#32
  let v593 : BitVec 32 := Scalar.xori v568 c0_i32_314
  let c2_i32_325 : BitVec 32 := 2#32
  let v609 : BitVec 32 := Scalar.muli v593 c2_i32_325
  let v610 : BitVec 32 := Scalar.addi v608 v609
  let c2_i32_316 : BitVec 32 := 2#32
  let c0_i32_317 : BitVec 32 := 0#32
  let v595 : BitVec 1 := Scalar.cmpi .eq c2_i32_316 c0_i32_317
  let c1_i32_318 : BitVec 32 := 1#32
  let v596 : BitVec 32 := Scalar.select v595 c1_i32_318 c2_i32_316
  let v597 : BitVec 32 := Scalar.remsi v593 v596
  let c0_i32_320 : BitVec 32 := 0#32
  let v599 : BitVec 1 := Scalar.cmpi .slt v597 c0_i32_320
  let c0_i32_321 : BitVec 32 := 0#32
  let v600 : BitVec 1 := Scalar.cmpi .slt v596 c0_i32_321
  let v601 : BitVec 1 := Scalar.xori v599 v600
  let c0_i32_319 : BitVec 32 := 0#32
  let v598 : BitVec 1 := Scalar.cmpi .ne v597 c0_i32_319
  let v602 : BitVec 1 := Scalar.andi v601 v598
  let v603 : BitVec 32 := Scalar.addi v597 v596
  let v604 : BitVec 32 := Scalar.select v602 v603 v597
  let c0_i32_322 : BitVec 32 := 0#32
  let v605 : BitVec 1 := Scalar.cmpi .eq v604 c0_i32_322
  let c2_i32_305 : BitVec 32 := 2#32
  let c0_i32_306 : BitVec 32 := 0#32
  let v579 : BitVec 1 := Scalar.cmpi .eq c2_i32_305 c0_i32_306
  let c1_i32_307 : BitVec 32 := 1#32
  let v580 : BitVec 32 := Scalar.select v579 c1_i32_307 c2_i32_305
  let v581 : BitVec 32 := Scalar.remsi v568 v580
  let c0_i32_309 : BitVec 32 := 0#32
  let v583 : BitVec 1 := Scalar.cmpi .slt v581 c0_i32_309
  let c0_i32_310 : BitVec 32 := 0#32
  let v584 : BitVec 1 := Scalar.cmpi .slt v580 c0_i32_310
  let v585 : BitVec 1 := Scalar.xori v583 v584
  let c0_i32_308 : BitVec 32 := 0#32
  let v582 : BitVec 1 := Scalar.cmpi .ne v581 c0_i32_308
  let v586 : BitVec 1 := Scalar.andi v585 v582
  let v587 : BitVec 32 := Scalar.addi v581 v580
  let v588 : BitVec 32 := Scalar.select v586 v587 v581
  let c0_i32_311 : BitVec 32 := 0#32
  let v589 : BitVec 1 := Scalar.cmpi .eq v588 c0_i32_311
  let c2_i32_299 : BitVec 32 := 2#32
  let c0_i32_300 : BitVec 32 := 0#32
  let v569 : BitVec 1 := Scalar.cmpi .eq c2_i32_299 c0_i32_300
  let c1_i32_301 : BitVec 32 := 1#32
  let v570 : BitVec 32 := Scalar.select v569 c1_i32_301 c2_i32_299
  let v571 : BitVec 32 := Scalar.remsi v551 v570
  let c0_i32_303 : BitVec 32 := 0#32
  let v573 : BitVec 1 := Scalar.cmpi .slt v571 c0_i32_303
  let c0_i32_304 : BitVec 32 := 0#32
  let v574 : BitVec 1 := Scalar.cmpi .slt v570 c0_i32_304
  let v575 : BitVec 1 := Scalar.xori v573 v574
  let c0_i32_302 : BitVec 32 := 0#32
  let v572 : BitVec 1 := Scalar.cmpi .ne v571 c0_i32_302
  let v576 : BitVec 1 := Scalar.andi v575 v572
  let v577 : BitVec 32 := Scalar.addi v571 v570
  let v578 : BitVec 32 := Scalar.select v576 v577 v571
  let c1_i32_312 : BitVec 32 := 1#32
  let v590 : BitVec 32 := Scalar.subi c1_i32_312 v578
  let v591 : BitVec 32 := Scalar.select v589 v578 v590
  let c0_i32_313 : BitVec 32 := 0#32
  let v592 : BitVec 32 := Scalar.xori v591 c0_i32_313
  let c1_i32_323 : BitVec 32 := 1#32
  let v606 : BitVec 32 := Scalar.subi c1_i32_323 v592
  let v607 : BitVec 32 := Scalar.select v605 v592 v606
  let v611 : BitVec 32 := Scalar.addi v610 v607
  let c1_i32_486 : BitVec 32 := 1#32
  let v886 : BitVec 32 := Scalar.muli v611 c1_i32_486
  let v887 : BitVec 32 := Scalar.addi c0_i32_487 v886
  v887.toNat
def k0_dev8 (d0 : Dev nD) : Nat :=
  let c0_i32_490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_327 : BitVec 32 := 0#32
  let v613 : BitVec 1 := Scalar.cmpi .sgt v2 c0_i32_327
  let v614 : BitVec 32 := Scalar.extui v613
  let c0_i32_328 : BitVec 32 := 0#32
  let v615 : BitVec 1 := Scalar.cmpi .slt v2 c0_i32_328
  let v616 : BitVec 32 := Scalar.extui v615
  let v617 : BitVec 32 := Scalar.subi v614 v616
  let c8_i32_326 : BitVec 32 := 8#32
  let c0_i32_329 : BitVec 32 := 0#32
  let v618 : BitVec 1 := Scalar.cmpi .sgt c8_i32_326 c0_i32_329
  let v619 : BitVec 32 := Scalar.extui v618
  let c0_i32_330 : BitVec 32 := 0#32
  let v620 : BitVec 1 := Scalar.cmpi .slt c8_i32_326 c0_i32_330
  let v621 : BitVec 32 := Scalar.extui v620
  let v622 : BitVec 32 := Scalar.subi v619 v621
  let v623 : BitVec 1 := Scalar.cmpi .ne v617 v622
  let v624 : BitVec 32 := Scalar.remsi v2 c8_i32_326
  let c0_i32_331 : BitVec 32 := 0#32
  let v625 : BitVec 1 := Scalar.cmpi .ne v624 c0_i32_331
  let v626 : BitVec 1 := Scalar.andi v623 v625
  let v612 : BitVec 32 := Scalar.divsi v2 c8_i32_326
  let c1_i32_332 : BitVec 32 := 1#32
  let v627 : BitVec 32 := Scalar.subi v612 c1_i32_332
  let v628 : BitVec 32 := Scalar.select v626 v627 v612
  let c2_i32_362 : BitVec 32 := 2#32
  let v681 : BitVec 32 := Scalar.xori v628 c2_i32_362
  let c8_i32_371 : BitVec 32 := 8#32
  let v695 : BitVec 32 := Scalar.muli v681 c8_i32_371
  let c8_i32_333 : BitVec 32 := 8#32
  let c0_i32_334 : BitVec 32 := 0#32
  let v629 : BitVec 1 := Scalar.cmpi .eq c8_i32_333 c0_i32_334
  let c1_i32_335 : BitVec 32 := 1#32
  let v630 : BitVec 32 := Scalar.select v629 c1_i32_335 c8_i32_333
  let v631 : BitVec 32 := Scalar.remsi v2 v630
  let c0_i32_337 : BitVec 32 := 0#32
  let v633 : BitVec 1 := Scalar.cmpi .slt v631 c0_i32_337
  let c0_i32_338 : BitVec 32 := 0#32
  let v634 : BitVec 1 := Scalar.cmpi .slt v630 c0_i32_338
  let v635 : BitVec 1 := Scalar.xori v633 v634
  let c0_i32_336 : BitVec 32 := 0#32
  let v632 : BitVec 1 := Scalar.cmpi .ne v631 c0_i32_336
  let v636 : BitVec 1 := Scalar.andi v635 v632
  let v637 : BitVec 32 := Scalar.addi v631 v630
  let v638 : BitVec 32 := Scalar.select v636 v637 v631
  let c0_i32_340 : BitVec 32 := 0#32
  let v640 : BitVec 1 := Scalar.cmpi .sgt v638 c0_i32_340
  let v641 : BitVec 32 := Scalar.extui v640
  let c0_i32_341 : BitVec 32 := 0#32
  let v642 : BitVec 1 := Scalar.cmpi .slt v638 c0_i32_341
  let v643 : BitVec 32 := Scalar.extui v642
  let v644 : BitVec 32 := Scalar.subi v641 v643
  let c2_i32_339 : BitVec 32 := 2#32
  let c0_i32_342 : BitVec 32 := 0#32
  let v645 : BitVec 1 := Scalar.cmpi .sgt c2_i32_339 c0_i32_342
  let v646 : BitVec 32 := Scalar.extui v645
  let c0_i32_343 : BitVec 32 := 0#32
  let v647 : BitVec 1 := Scalar.cmpi .slt c2_i32_339 c0_i32_343
  let v648 : BitVec 32 := Scalar.extui v647
  let v649 : BitVec 32 := Scalar.subi v646 v648
  let v650 : BitVec 1 := Scalar.cmpi .ne v644 v649
  let v651 : BitVec 32 := Scalar.remsi v638 c2_i32_339
  let c0_i32_344 : BitVec 32 := 0#32
  let v652 : BitVec 1 := Scalar.cmpi .ne v651 c0_i32_344
  let v653 : BitVec 1 := Scalar.andi v650 v652
  let v639 : BitVec 32 := Scalar.divsi v638 c2_i32_339
  let c1_i32_345 : BitVec 32 := 1#32
  let v654 : BitVec 32 := Scalar.subi v639 c1_i32_345
  let v655 : BitVec 32 := Scalar.select v653 v654 v639
  let c2_i32_361 : BitVec 32 := 2#32
  let v680 : BitVec 32 := Scalar.xori v655 c2_i32_361
  let c2_i32_372 : BitVec 32 := 2#32
  let v696 : BitVec 32 := Scalar.muli v680 c2_i32_372
  let v697 : BitVec 32 := Scalar.addi v695 v696
  let c2_i32_363 : BitVec 32 := 2#32
  let c0_i32_364 : BitVec 32 := 0#32
  let v682 : BitVec 1 := Scalar.cmpi .eq c2_i32_363 c0_i32_364
  let c1_i32_365 : BitVec 32 := 1#32
  let v683 : BitVec 32 := Scalar.select v682 c1_i32_365 c2_i32_363
  let v684 : BitVec 32 := Scalar.remsi v680 v683
  let c0_i32_367 : BitVec 32 := 0#32
  let v686 : BitVec 1 := Scalar.cmpi .slt v684 c0_i32_367
  let c0_i32_368 : BitVec 32 := 0#32
  let v687 : BitVec 1 := Scalar.cmpi .slt v683 c0_i32_368
  let v688 : BitVec 1 := Scalar.xori v686 v687
  let c0_i32_366 : BitVec 32 := 0#32
  let v685 : BitVec 1 := Scalar.cmpi .ne v684 c0_i32_366
  let v689 : BitVec 1 := Scalar.andi v688 v685
  let v690 : BitVec 32 := Scalar.addi v684 v683
  let v691 : BitVec 32 := Scalar.select v689 v690 v684
  let c0_i32_369 : BitVec 32 := 0#32
  let v692 : BitVec 1 := Scalar.cmpi .eq v691 c0_i32_369
  let c2_i32_352 : BitVec 32 := 2#32
  let c0_i32_353 : BitVec 32 := 0#32
  let v666 : BitVec 1 := Scalar.cmpi .eq c2_i32_352 c0_i32_353
  let c1_i32_354 : BitVec 32 := 1#32
  let v667 : BitVec 32 := Scalar.select v666 c1_i32_354 c2_i32_352
  let v668 : BitVec 32 := Scalar.remsi v655 v667
  let c0_i32_356 : BitVec 32 := 0#32
  let v670 : BitVec 1 := Scalar.cmpi .slt v668 c0_i32_356
  let c0_i32_357 : BitVec 32 := 0#32
  let v671 : BitVec 1 := Scalar.cmpi .slt v667 c0_i32_357
  let v672 : BitVec 1 := Scalar.xori v670 v671
  let c0_i32_355 : BitVec 32 := 0#32
  let v669 : BitVec 1 := Scalar.cmpi .ne v668 c0_i32_355
  let v673 : BitVec 1 := Scalar.andi v672 v669
  let v674 : BitVec 32 := Scalar.addi v668 v667
  let v675 : BitVec 32 := Scalar.select v673 v674 v668
  let c0_i32_358 : BitVec 32 := 0#32
  let v676 : BitVec 1 := Scalar.cmpi .eq v675 c0_i32_358
  let c2_i32_346 : BitVec 32 := 2#32
  let c0_i32_347 : BitVec 32 := 0#32
  let v656 : BitVec 1 := Scalar.cmpi .eq c2_i32_346 c0_i32_347
  let c1_i32_348 : BitVec 32 := 1#32
  let v657 : BitVec 32 := Scalar.select v656 c1_i32_348 c2_i32_346
  let v658 : BitVec 32 := Scalar.remsi v638 v657
  let c0_i32_350 : BitVec 32 := 0#32
  let v660 : BitVec 1 := Scalar.cmpi .slt v658 c0_i32_350
  let c0_i32_351 : BitVec 32 := 0#32
  let v661 : BitVec 1 := Scalar.cmpi .slt v657 c0_i32_351
  let v662 : BitVec 1 := Scalar.xori v660 v661
  let c0_i32_349 : BitVec 32 := 0#32
  let v659 : BitVec 1 := Scalar.cmpi .ne v658 c0_i32_349
  let v663 : BitVec 1 := Scalar.andi v662 v659
  let v664 : BitVec 32 := Scalar.addi v658 v657
  let v665 : BitVec 32 := Scalar.select v663 v664 v658
  let c1_i32_359 : BitVec 32 := 1#32
  let v677 : BitVec 32 := Scalar.subi c1_i32_359 v665
  let v678 : BitVec 32 := Scalar.select v676 v665 v677
  let c0_i32_360 : BitVec 32 := 0#32
  let v679 : BitVec 32 := Scalar.xori v678 c0_i32_360
  let c1_i32_370 : BitVec 32 := 1#32
  let v693 : BitVec 32 := Scalar.subi c1_i32_370 v679
  let v694 : BitVec 32 := Scalar.select v692 v679 v693
  let v698 : BitVec 32 := Scalar.addi v697 v694
  let c1_i32_489 : BitVec 32 := 1#32
  let v888 : BitVec 32 := Scalar.muli v698 c1_i32_489
  let v889 : BitVec 32 := Scalar.addi c0_i32_490 v888
  v889.toNat
def k0_dev9 (d0 : Dev nD) : Nat :=
  let c0_i32_493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_374 : BitVec 32 := 0#32
  let v700 : BitVec 1 := Scalar.cmpi .sgt v2 c0_i32_374
  let v701 : BitVec 32 := Scalar.extui v700
  let c0_i32_375 : BitVec 32 := 0#32
  let v702 : BitVec 1 := Scalar.cmpi .slt v2 c0_i32_375
  let v703 : BitVec 32 := Scalar.extui v702
  let v704 : BitVec 32 := Scalar.subi v701 v703
  let c8_i32_373 : BitVec 32 := 8#32
  let c0_i32_376 : BitVec 32 := 0#32
  let v705 : BitVec 1 := Scalar.cmpi .sgt c8_i32_373 c0_i32_376
  let v706 : BitVec 32 := Scalar.extui v705
  let c0_i32_377 : BitVec 32 := 0#32
  let v707 : BitVec 1 := Scalar.cmpi .slt c8_i32_373 c0_i32_377
  let v708 : BitVec 32 := Scalar.extui v707
  let v709 : BitVec 32 := Scalar.subi v706 v708
  let v710 : BitVec 1 := Scalar.cmpi .ne v704 v709
  let v711 : BitVec 32 := Scalar.remsi v2 c8_i32_373
  let c0_i32_378 : BitVec 32 := 0#32
  let v712 : BitVec 1 := Scalar.cmpi .ne v711 c0_i32_378
  let v713 : BitVec 1 := Scalar.andi v710 v712
  let v699 : BitVec 32 := Scalar.divsi v2 c8_i32_373
  let c1_i32_379 : BitVec 32 := 1#32
  let v714 : BitVec 32 := Scalar.subi v699 c1_i32_379
  let v715 : BitVec 32 := Scalar.select v713 v714 v699
  let c0_i32_409 : BitVec 32 := 0#32
  let v768 : BitVec 32 := Scalar.xori v715 c0_i32_409
  let c8_i32_418 : BitVec 32 := 8#32
  let v782 : BitVec 32 := Scalar.muli v768 c8_i32_418
  let c8_i32_380 : BitVec 32 := 8#32
  let c0_i32_381 : BitVec 32 := 0#32
  let v716 : BitVec 1 := Scalar.cmpi .eq c8_i32_380 c0_i32_381
  let c1_i32_382 : BitVec 32 := 1#32
  let v717 : BitVec 32 := Scalar.select v716 c1_i32_382 c8_i32_380
  let v718 : BitVec 32 := Scalar.remsi v2 v717
  let c0_i32_384 : BitVec 32 := 0#32
  let v720 : BitVec 1 := Scalar.cmpi .slt v718 c0_i32_384
  let c0_i32_385 : BitVec 32 := 0#32
  let v721 : BitVec 1 := Scalar.cmpi .slt v717 c0_i32_385
  let v722 : BitVec 1 := Scalar.xori v720 v721
  let c0_i32_383 : BitVec 32 := 0#32
  let v719 : BitVec 1 := Scalar.cmpi .ne v718 c0_i32_383
  let v723 : BitVec 1 := Scalar.andi v722 v719
  let v724 : BitVec 32 := Scalar.addi v718 v717
  let v725 : BitVec 32 := Scalar.select v723 v724 v718
  let c0_i32_387 : BitVec 32 := 0#32
  let v727 : BitVec 1 := Scalar.cmpi .sgt v725 c0_i32_387
  let v728 : BitVec 32 := Scalar.extui v727
  let c0_i32_388 : BitVec 32 := 0#32
  let v729 : BitVec 1 := Scalar.cmpi .slt v725 c0_i32_388
  let v730 : BitVec 32 := Scalar.extui v729
  let v731 : BitVec 32 := Scalar.subi v728 v730
  let c2_i32_386 : BitVec 32 := 2#32
  let c0_i32_389 : BitVec 32 := 0#32
  let v732 : BitVec 1 := Scalar.cmpi .sgt c2_i32_386 c0_i32_389
  let v733 : BitVec 32 := Scalar.extui v732
  let c0_i32_390 : BitVec 32 := 0#32
  let v734 : BitVec 1 := Scalar.cmpi .slt c2_i32_386 c0_i32_390
  let v735 : BitVec 32 := Scalar.extui v734
  let v736 : BitVec 32 := Scalar.subi v733 v735
  let v737 : BitVec 1 := Scalar.cmpi .ne v731 v736
  let v738 : BitVec 32 := Scalar.remsi v725 c2_i32_386
  let c0_i32_391 : BitVec 32 := 0#32
  let v739 : BitVec 1 := Scalar.cmpi .ne v738 c0_i32_391
  let v740 : BitVec 1 := Scalar.andi v737 v739
  let v726 : BitVec 32 := Scalar.divsi v725 c2_i32_386
  let c1_i32_392 : BitVec 32 := 1#32
  let v741 : BitVec 32 := Scalar.subi v726 c1_i32_392
  let v742 : BitVec 32 := Scalar.select v740 v741 v726
  let c2_i32_408 : BitVec 32 := 2#32
  let v767 : BitVec 32 := Scalar.xori v742 c2_i32_408
  let c2_i32_419 : BitVec 32 := 2#32
  let v783 : BitVec 32 := Scalar.muli v767 c2_i32_419
  let v784 : BitVec 32 := Scalar.addi v782 v783
  let c2_i32_410 : BitVec 32 := 2#32
  let c0_i32_411 : BitVec 32 := 0#32
  let v769 : BitVec 1 := Scalar.cmpi .eq c2_i32_410 c0_i32_411
  let c1_i32_412 : BitVec 32 := 1#32
  let v770 : BitVec 32 := Scalar.select v769 c1_i32_412 c2_i32_410
  let v771 : BitVec 32 := Scalar.remsi v767 v770
  let c0_i32_414 : BitVec 32 := 0#32
  let v773 : BitVec 1 := Scalar.cmpi .slt v771 c0_i32_414
  let c0_i32_415 : BitVec 32 := 0#32
  let v774 : BitVec 1 := Scalar.cmpi .slt v770 c0_i32_415
  let v775 : BitVec 1 := Scalar.xori v773 v774
  let c0_i32_413 : BitVec 32 := 0#32
  let v772 : BitVec 1 := Scalar.cmpi .ne v771 c0_i32_413
  let v776 : BitVec 1 := Scalar.andi v775 v772
  let v777 : BitVec 32 := Scalar.addi v771 v770
  let v778 : BitVec 32 := Scalar.select v776 v777 v771
  let c0_i32_416 : BitVec 32 := 0#32
  let v779 : BitVec 1 := Scalar.cmpi .eq v778 c0_i32_416
  let c2_i32_399 : BitVec 32 := 2#32
  let c0_i32_400 : BitVec 32 := 0#32
  let v753 : BitVec 1 := Scalar.cmpi .eq c2_i32_399 c0_i32_400
  let c1_i32_401 : BitVec 32 := 1#32
  let v754 : BitVec 32 := Scalar.select v753 c1_i32_401 c2_i32_399
  let v755 : BitVec 32 := Scalar.remsi v742 v754
  let c0_i32_403 : BitVec 32 := 0#32
  let v757 : BitVec 1 := Scalar.cmpi .slt v755 c0_i32_403
  let c0_i32_404 : BitVec 32 := 0#32
  let v758 : BitVec 1 := Scalar.cmpi .slt v754 c0_i32_404
  let v759 : BitVec 1 := Scalar.xori v757 v758
  let c0_i32_402 : BitVec 32 := 0#32
  let v756 : BitVec 1 := Scalar.cmpi .ne v755 c0_i32_402
  let v760 : BitVec 1 := Scalar.andi v759 v756
  let v761 : BitVec 32 := Scalar.addi v755 v754
  let v762 : BitVec 32 := Scalar.select v760 v761 v755
  let c0_i32_405 : BitVec 32 := 0#32
  let v763 : BitVec 1 := Scalar.cmpi .eq v762 c0_i32_405
  let c2_i32_393 : BitVec 32 := 2#32
  let c0_i32_394 : BitVec 32 := 0#32
  let v743 : BitVec 1 := Scalar.cmpi .eq c2_i32_393 c0_i32_394
  let c1_i32_395 : BitVec 32 := 1#32
  let v744 : BitVec 32 := Scalar.select v743 c1_i32_395 c2_i32_393
  let v745 : BitVec 32 := Scalar.remsi v725 v744
  let c0_i32_397 : BitVec 32 := 0#32
  let v747 : BitVec 1 := Scalar.cmpi .slt v745 c0_i32_397
  let c0_i32_398 : BitVec 32 := 0#32
  let v748 : BitVec 1 := Scalar.cmpi .slt v744 c0_i32_398
  let v749 : BitVec 1 := Scalar.xori v747 v748
  let c0_i32_396 : BitVec 32 := 0#32
  let v746 : BitVec 1 := Scalar.cmpi .ne v745 c0_i32_396
  let v750 : BitVec 1 := Scalar.andi v749 v746
  let v751 : BitVec 32 := Scalar.addi v745 v744
  let v752 : BitVec 32 := Scalar.select v750 v751 v745
  let c1_i32_406 : BitVec 32 := 1#32
  let v764 : BitVec 32 := Scalar.subi c1_i32_406 v752
  let v765 : BitVec 32 := Scalar.select v763 v752 v764
  let c0_i32_407 : BitVec 32 := 0#32
  let v766 : BitVec 32 := Scalar.xori v765 c0_i32_407
  let c1_i32_417 : BitVec 32 := 1#32
  let v780 : BitVec 32 := Scalar.subi c1_i32_417 v766
  let v781 : BitVec 32 := Scalar.select v779 v766 v780
  let v785 : BitVec 32 := Scalar.addi v784 v781
  let c1_i32_492 : BitVec 32 := 1#32
  let v890 : BitVec 32 := Scalar.muli v785 c1_i32_492
  let v891 : BitVec 32 := Scalar.addi c0_i32_493 v890
  v891.toNat
def k0_dev10 (d0 : Dev nD) : Nat :=
  let c0_i32_496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_421 : BitVec 32 := 0#32
  let v787 : BitVec 1 := Scalar.cmpi .sgt v2 c0_i32_421
  let v788 : BitVec 32 := Scalar.extui v787
  let c0_i32_422 : BitVec 32 := 0#32
  let v789 : BitVec 1 := Scalar.cmpi .slt v2 c0_i32_422
  let v790 : BitVec 32 := Scalar.extui v789
  let v791 : BitVec 32 := Scalar.subi v788 v790
  let c8_i32_420 : BitVec 32 := 8#32
  let c0_i32_423 : BitVec 32 := 0#32
  let v792 : BitVec 1 := Scalar.cmpi .sgt c8_i32_420 c0_i32_423
  let v793 : BitVec 32 := Scalar.extui v792
  let c0_i32_424 : BitVec 32 := 0#32
  let v794 : BitVec 1 := Scalar.cmpi .slt c8_i32_420 c0_i32_424
  let v795 : BitVec 32 := Scalar.extui v794
  let v796 : BitVec 32 := Scalar.subi v793 v795
  let v797 : BitVec 1 := Scalar.cmpi .ne v791 v796
  let v798 : BitVec 32 := Scalar.remsi v2 c8_i32_420
  let c0_i32_425 : BitVec 32 := 0#32
  let v799 : BitVec 1 := Scalar.cmpi .ne v798 c0_i32_425
  let v800 : BitVec 1 := Scalar.andi v797 v799
  let v786 : BitVec 32 := Scalar.divsi v2 c8_i32_420
  let c1_i32_426 : BitVec 32 := 1#32
  let v801 : BitVec 32 := Scalar.subi v786 c1_i32_426
  let v802 : BitVec 32 := Scalar.select v800 v801 v786
  let c2_i32_456 : BitVec 32 := 2#32
  let v855 : BitVec 32 := Scalar.xori v802 c2_i32_456
  let c8_i32_465 : BitVec 32 := 8#32
  let v869 : BitVec 32 := Scalar.muli v855 c8_i32_465
  let c8_i32_427 : BitVec 32 := 8#32
  let c0_i32_428 : BitVec 32 := 0#32
  let v803 : BitVec 1 := Scalar.cmpi .eq c8_i32_427 c0_i32_428
  let c1_i32_429 : BitVec 32 := 1#32
  let v804 : BitVec 32 := Scalar.select v803 c1_i32_429 c8_i32_427
  let v805 : BitVec 32 := Scalar.remsi v2 v804
  let c0_i32_431 : BitVec 32 := 0#32
  let v807 : BitVec 1 := Scalar.cmpi .slt v805 c0_i32_431
  let c0_i32_432 : BitVec 32 := 0#32
  let v808 : BitVec 1 := Scalar.cmpi .slt v804 c0_i32_432
  let v809 : BitVec 1 := Scalar.xori v807 v808
  let c0_i32_430 : BitVec 32 := 0#32
  let v806 : BitVec 1 := Scalar.cmpi .ne v805 c0_i32_430
  let v810 : BitVec 1 := Scalar.andi v809 v806
  let v811 : BitVec 32 := Scalar.addi v805 v804
  let v812 : BitVec 32 := Scalar.select v810 v811 v805
  let c0_i32_434 : BitVec 32 := 0#32
  let v814 : BitVec 1 := Scalar.cmpi .sgt v812 c0_i32_434
  let v815 : BitVec 32 := Scalar.extui v814
  let c0_i32_435 : BitVec 32 := 0#32
  let v816 : BitVec 1 := Scalar.cmpi .slt v812 c0_i32_435
  let v817 : BitVec 32 := Scalar.extui v816
  let v818 : BitVec 32 := Scalar.subi v815 v817
  let c2_i32_433 : BitVec 32 := 2#32
  let c0_i32_436 : BitVec 32 := 0#32
  let v819 : BitVec 1 := Scalar.cmpi .sgt c2_i32_433 c0_i32_436
  let v820 : BitVec 32 := Scalar.extui v819
  let c0_i32_437 : BitVec 32 := 0#32
  let v821 : BitVec 1 := Scalar.cmpi .slt c2_i32_433 c0_i32_437
  let v822 : BitVec 32 := Scalar.extui v821
  let v823 : BitVec 32 := Scalar.subi v820 v822
  let v824 : BitVec 1 := Scalar.cmpi .ne v818 v823
  let v825 : BitVec 32 := Scalar.remsi v812 c2_i32_433
  let c0_i32_438 : BitVec 32 := 0#32
  let v826 : BitVec 1 := Scalar.cmpi .ne v825 c0_i32_438
  let v827 : BitVec 1 := Scalar.andi v824 v826
  let v813 : BitVec 32 := Scalar.divsi v812 c2_i32_433
  let c1_i32_439 : BitVec 32 := 1#32
  let v828 : BitVec 32 := Scalar.subi v813 c1_i32_439
  let v829 : BitVec 32 := Scalar.select v827 v828 v813
  let c0_i32_455 : BitVec 32 := 0#32
  let v854 : BitVec 32 := Scalar.xori v829 c0_i32_455
  let c2_i32_466 : BitVec 32 := 2#32
  let v870 : BitVec 32 := Scalar.muli v854 c2_i32_466
  let v871 : BitVec 32 := Scalar.addi v869 v870
  let c2_i32_457 : BitVec 32 := 2#32
  let c0_i32_458 : BitVec 32 := 0#32
  let v856 : BitVec 1 := Scalar.cmpi .eq c2_i32_457 c0_i32_458
  let c1_i32_459 : BitVec 32 := 1#32
  let v857 : BitVec 32 := Scalar.select v856 c1_i32_459 c2_i32_457
  let v858 : BitVec 32 := Scalar.remsi v854 v857
  let c0_i32_461 : BitVec 32 := 0#32
  let v860 : BitVec 1 := Scalar.cmpi .slt v858 c0_i32_461
  let c0_i32_462 : BitVec 32 := 0#32
  let v861 : BitVec 1 := Scalar.cmpi .slt v857 c0_i32_462
  let v862 : BitVec 1 := Scalar.xori v860 v861
  let c0_i32_460 : BitVec 32 := 0#32
  let v859 : BitVec 1 := Scalar.cmpi .ne v858 c0_i32_460
  let v863 : BitVec 1 := Scalar.andi v862 v859
  let v864 : BitVec 32 := Scalar.addi v858 v857
  let v865 : BitVec 32 := Scalar.select v863 v864 v858
  let c0_i32_463 : BitVec 32 := 0#32
  let v866 : BitVec 1 := Scalar.cmpi .eq v865 c0_i32_463
  let c2_i32_446 : BitVec 32 := 2#32
  let c0_i32_447 : BitVec 32 := 0#32
  let v840 : BitVec 1 := Scalar.cmpi .eq c2_i32_446 c0_i32_447
  let c1_i32_448 : BitVec 32 := 1#32
  let v841 : BitVec 32 := Scalar.select v840 c1_i32_448 c2_i32_446
  let v842 : BitVec 32 := Scalar.remsi v829 v841
  let c0_i32_450 : BitVec 32 := 0#32
  let v844 : BitVec 1 := Scalar.cmpi .slt v842 c0_i32_450
  let c0_i32_451 : BitVec 32 := 0#32
  let v845 : BitVec 1 := Scalar.cmpi .slt v841 c0_i32_451
  let v846 : BitVec 1 := Scalar.xori v844 v845
  let c0_i32_449 : BitVec 32 := 0#32
  let v843 : BitVec 1 := Scalar.cmpi .ne v842 c0_i32_449
  let v847 : BitVec 1 := Scalar.andi v846 v843
  let v848 : BitVec 32 := Scalar.addi v842 v841
  let v849 : BitVec 32 := Scalar.select v847 v848 v842
  let c0_i32_452 : BitVec 32 := 0#32
  let v850 : BitVec 1 := Scalar.cmpi .eq v849 c0_i32_452
  let c2_i32_440 : BitVec 32 := 2#32
  let c0_i32_441 : BitVec 32 := 0#32
  let v830 : BitVec 1 := Scalar.cmpi .eq c2_i32_440 c0_i32_441
  let c1_i32_442 : BitVec 32 := 1#32
  let v831 : BitVec 32 := Scalar.select v830 c1_i32_442 c2_i32_440
  let v832 : BitVec 32 := Scalar.remsi v812 v831
  let c0_i32_444 : BitVec 32 := 0#32
  let v834 : BitVec 1 := Scalar.cmpi .slt v832 c0_i32_444
  let c0_i32_445 : BitVec 32 := 0#32
  let v835 : BitVec 1 := Scalar.cmpi .slt v831 c0_i32_445
  let v836 : BitVec 1 := Scalar.xori v834 v835
  let c0_i32_443 : BitVec 32 := 0#32
  let v833 : BitVec 1 := Scalar.cmpi .ne v832 c0_i32_443
  let v837 : BitVec 1 := Scalar.andi v836 v833
  let v838 : BitVec 32 := Scalar.addi v832 v831
  let v839 : BitVec 32 := Scalar.select v837 v838 v832
  let c1_i32_453 : BitVec 32 := 1#32
  let v851 : BitVec 32 := Scalar.subi c1_i32_453 v839
  let v852 : BitVec 32 := Scalar.select v850 v839 v851
  let c0_i32_454 : BitVec 32 := 0#32
  let v853 : BitVec 32 := Scalar.xori v852 c0_i32_454
  let c1_i32_464 : BitVec 32 := 1#32
  let v867 : BitVec 32 := Scalar.subi c1_i32_464 v853
  let v868 : BitVec 32 := Scalar.select v866 v853 v867
  let v872 : BitVec 32 := Scalar.addi v871 v868
  let c1_i32_495 : BitVec 32 := 1#32
  let v892 : BitVec 32 := Scalar.muli v872 c1_i32_495
  let v893 : BitVec 32 := Scalar.addi c0_i32_496 v892
  v893.toNat
def k0_dev11 (d0 : Dev nD) : Nat :=
  let c0_i32_512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v72 : BitVec 32 := Scalar.xori v19 c1_i32_33
  let c8_i32_42 : BitVec 32 := 8#32
  let v86 : BitVec 32 := Scalar.muli v72 c8_i32_42
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v71 : BitVec 32 := Scalar.xori v46 c1_i32_32
  let c2_i32_43 : BitVec 32 := 2#32
  let v87 : BitVec 32 := Scalar.muli v71 c2_i32_43
  let v88 : BitVec 32 := Scalar.addi v86 v87
  let c2_i32_34 : BitVec 32 := 2#32
  let c0_i32_35 : BitVec 32 := 0#32
  let v73 : BitVec 1 := Scalar.cmpi .eq c2_i32_34 c0_i32_35
  let c1_i32_36 : BitVec 32 := 1#32
  let v74 : BitVec 32 := Scalar.select v73 c1_i32_36 c2_i32_34
  let v75 : BitVec 32 := Scalar.remsi v71 v74
  let c0_i32_38 : BitVec 32 := 0#32
  let v77 : BitVec 1 := Scalar.cmpi .slt v75 c0_i32_38
  let c0_i32_39 : BitVec 32 := 0#32
  let v78 : BitVec 1 := Scalar.cmpi .slt v74 c0_i32_39
  let v79 : BitVec 1 := Scalar.xori v77 v78
  let c0_i32_37 : BitVec 32 := 0#32
  let v76 : BitVec 1 := Scalar.cmpi .ne v75 c0_i32_37
  let v80 : BitVec 1 := Scalar.andi v79 v76
  let v81 : BitVec 32 := Scalar.addi v75 v74
  let v82 : BitVec 32 := Scalar.select v80 v81 v75
  let c0_i32_40 : BitVec 32 := 0#32
  let v83 : BitVec 1 := Scalar.cmpi .eq v82 c0_i32_40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 32 := Scalar.xori v69 c1_i32_31
  let c1_i32_41 : BitVec 32 := 1#32
  let v84 : BitVec 32 := Scalar.subi c1_i32_41 v70
  let v85 : BitVec 32 := Scalar.select v83 v70 v84
  let v89 : BitVec 32 := Scalar.addi v88 v85
  let c1_i32_511 : BitVec 32 := 1#32
  let v912 : BitVec 32 := Scalar.muli v89 c1_i32_511
  let v913 : BitVec 32 := Scalar.addi c0_i32_512 v912
  v913.toNat
def k0_dev12 (d0 : Dev nD) : Nat :=
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_45 : BitVec 32 := 0#32
  let v91 : BitVec 1 := Scalar.cmpi .sgt v2 c0_i32_45
  let v92 : BitVec 32 := Scalar.extui v91
  let c0_i32_46 : BitVec 32 := 0#32
  let v93 : BitVec 1 := Scalar.cmpi .slt v2 c0_i32_46
  let v94 : BitVec 32 := Scalar.extui v93
  let v95 : BitVec 32 := Scalar.subi v92 v94
  let c8_i32_44 : BitVec 32 := 8#32
  let c0_i32_47 : BitVec 32 := 0#32
  let v96 : BitVec 1 := Scalar.cmpi .sgt c8_i32_44 c0_i32_47
  let v97 : BitVec 32 := Scalar.extui v96
  let c0_i32_48 : BitVec 32 := 0#32
  let v98 : BitVec 1 := Scalar.cmpi .slt c8_i32_44 c0_i32_48
  let v99 : BitVec 32 := Scalar.extui v98
  let v100 : BitVec 32 := Scalar.subi v97 v99
  let v101 : BitVec 1 := Scalar.cmpi .ne v95 v100
  let v102 : BitVec 32 := Scalar.remsi v2 c8_i32_44
  let c0_i32_49 : BitVec 32 := 0#32
  let v103 : BitVec 1 := Scalar.cmpi .ne v102 c0_i32_49
  let v104 : BitVec 1 := Scalar.andi v101 v103
  let v90 : BitVec 32 := Scalar.divsi v2 c8_i32_44
  let c1_i32_50 : BitVec 32 := 1#32
  let v105 : BitVec 32 := Scalar.subi v90 c1_i32_50
  let v106 : BitVec 32 := Scalar.select v104 v105 v90
  let c0_i32_80 : BitVec 32 := 0#32
  let v159 : BitVec 32 := Scalar.xori v106 c0_i32_80
  let c8_i32_89 : BitVec 32 := 8#32
  let v173 : BitVec 32 := Scalar.muli v159 c8_i32_89
  let c8_i32_51 : BitVec 32 := 8#32
  let c0_i32_52 : BitVec 32 := 0#32
  let v107 : BitVec 1 := Scalar.cmpi .eq c8_i32_51 c0_i32_52
  let c1_i32_53 : BitVec 32 := 1#32
  let v108 : BitVec 32 := Scalar.select v107 c1_i32_53 c8_i32_51
  let v109 : BitVec 32 := Scalar.remsi v2 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c2_i32_57 : BitVec 32 := 2#32
  let c0_i32_60 : BitVec 32 := 0#32
  let v123 : BitVec 1 := Scalar.cmpi .sgt c2_i32_57 c0_i32_60
  let v124 : BitVec 32 := Scalar.extui v123
  let c0_i32_61 : BitVec 32 := 0#32
  let v125 : BitVec 1 := Scalar.cmpi .slt c2_i32_57 c0_i32_61
  let v126 : BitVec 32 := Scalar.extui v125
  let v127 : BitVec 32 := Scalar.subi v124 v126
  let v128 : BitVec 1 := Scalar.cmpi .ne v122 v127
  let v129 : BitVec 32 := Scalar.remsi v116 c2_i32_57
  let c0_i32_62 : BitVec 32 := 0#32
  let v130 : BitVec 1 := Scalar.cmpi .ne v129 c0_i32_62
  let v131 : BitVec 1 := Scalar.andi v128 v130
  let v117 : BitVec 32 := Scalar.divsi v116 c2_i32_57
  let c1_i32_63 : BitVec 32 := 1#32
  let v132 : BitVec 32 := Scalar.subi v117 c1_i32_63
  let v133 : BitVec 32 := Scalar.select v131 v132 v117
  let c1_i32_79 : BitVec 32 := 1#32
  let v158 : BitVec 32 := Scalar.xori v133 c1_i32_79
  let c2_i32_90 : BitVec 32 := 2#32
  let v174 : BitVec 32 := Scalar.muli v158 c2_i32_90
  let v175 : BitVec 32 := Scalar.addi v173 v174
  let c2_i32_81 : BitVec 32 := 2#32
  let c0_i32_82 : BitVec 32 := 0#32
  let v160 : BitVec 1 := Scalar.cmpi .eq c2_i32_81 c0_i32_82
  let c1_i32_83 : BitVec 32 := 1#32
  let v161 : BitVec 32 := Scalar.select v160 c1_i32_83 c2_i32_81
  let v162 : BitVec 32 := Scalar.remsi v158 v161
  let c0_i32_85 : BitVec 32 := 0#32
  let v164 : BitVec 1 := Scalar.cmpi .slt v162 c0_i32_85
  let c0_i32_86 : BitVec 32 := 0#32
  let v165 : BitVec 1 := Scalar.cmpi .slt v161 c0_i32_86
  let v166 : BitVec 1 := Scalar.xori v164 v165
  let c0_i32_84 : BitVec 32 := 0#32
  let v163 : BitVec 1 := Scalar.cmpi .ne v162 c0_i32_84
  let v167 : BitVec 1 := Scalar.andi v166 v163
  let v168 : BitVec 32 := Scalar.addi v162 v161
  let v169 : BitVec 32 := Scalar.select v167 v168 v162
  let c0_i32_87 : BitVec 32 := 0#32
  let v170 : BitVec 1 := Scalar.cmpi .eq v169 c0_i32_87
  let c2_i32_70 : BitVec 32 := 2#32
  let c0_i32_71 : BitVec 32 := 0#32
  let v144 : BitVec 1 := Scalar.cmpi .eq c2_i32_70 c0_i32_71
  let c1_i32_72 : BitVec 32 := 1#32
  let v145 : BitVec 32 := Scalar.select v144 c1_i32_72 c2_i32_70
  let v146 : BitVec 32 := Scalar.remsi v133 v145
  let c0_i32_74 : BitVec 32 := 0#32
  let v148 : BitVec 1 := Scalar.cmpi .slt v146 c0_i32_74
  let c0_i32_75 : BitVec 32 := 0#32
  let v149 : BitVec 1 := Scalar.cmpi .slt v145 c0_i32_75
  let v150 : BitVec 1 := Scalar.xori v148 v149
  let c0_i32_73 : BitVec 32 := 0#32
  let v147 : BitVec 1 := Scalar.cmpi .ne v146 c0_i32_73
  let v151 : BitVec 1 := Scalar.andi v150 v147
  let v152 : BitVec 32 := Scalar.addi v146 v145
  let v153 : BitVec 32 := Scalar.select v151 v152 v146
  let c0_i32_76 : BitVec 32 := 0#32
  let v154 : BitVec 1 := Scalar.cmpi .eq v153 c0_i32_76
  let c2_i32_64 : BitVec 32 := 2#32
  let c0_i32_65 : BitVec 32 := 0#32
  let v134 : BitVec 1 := Scalar.cmpi .eq c2_i32_64 c0_i32_65
  let c1_i32_66 : BitVec 32 := 1#32
  let v135 : BitVec 32 := Scalar.select v134 c1_i32_66 c2_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c1_i32_77 : BitVec 32 := 1#32
  let v155 : BitVec 32 := Scalar.subi c1_i32_77 v143
  let v156 : BitVec 32 := Scalar.select v154 v143 v155
  let c1_i32_78 : BitVec 32 := 1#32
  let v157 : BitVec 32 := Scalar.xori v156 c1_i32_78
  let c1_i32_88 : BitVec 32 := 1#32
  let v171 : BitVec 32 := Scalar.subi c1_i32_88 v157
  let v172 : BitVec 32 := Scalar.select v170 v157 v171
  let v176 : BitVec 32 := Scalar.addi v175 v172
  let c1_i32_521 : BitVec 32 := 1#32
  let v922 : BitVec 32 := Scalar.muli v176 c1_i32_521
  let v923 : BitVec 32 := Scalar.addi c0_i32_522 v922
  v923.toNat
def k0_dev13 (d0 : Dev nD) : Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_92 : BitVec 32 := 0#32
  let v178 : BitVec 1 := Scalar.cmpi .sgt v2 c0_i32_92
  let v179 : BitVec 32 := Scalar.extui v178
  let c0_i32_93 : BitVec 32 := 0#32
  let v180 : BitVec 1 := Scalar.cmpi .slt v2 c0_i32_93
  let v181 : BitVec 32 := Scalar.extui v180
  let v182 : BitVec 32 := Scalar.subi v179 v181
  let c8_i32_91 : BitVec 32 := 8#32
  let c0_i32_94 : BitVec 32 := 0#32
  let v183 : BitVec 1 := Scalar.cmpi .sgt c8_i32_91 c0_i32_94
  let v184 : BitVec 32 := Scalar.extui v183
  let c0_i32_95 : BitVec 32 := 0#32
  let v185 : BitVec 1 := Scalar.cmpi .slt c8_i32_91 c0_i32_95
  let v186 : BitVec 32 := Scalar.extui v185
  let v187 : BitVec 32 := Scalar.subi v184 v186
  let v188 : BitVec 1 := Scalar.cmpi .ne v182 v187
  let v189 : BitVec 32 := Scalar.remsi v2 c8_i32_91
  let c0_i32_96 : BitVec 32 := 0#32
  let v190 : BitVec 1 := Scalar.cmpi .ne v189 c0_i32_96
  let v191 : BitVec 1 := Scalar.andi v188 v190
  let v177 : BitVec 32 := Scalar.divsi v2 c8_i32_91
  let c1_i32_97 : BitVec 32 := 1#32
  let v192 : BitVec 32 := Scalar.subi v177 c1_i32_97
  let v193 : BitVec 32 := Scalar.select v191 v192 v177
  let c1_i32_127 : BitVec 32 := 1#32
  let v246 : BitVec 32 := Scalar.xori v193 c1_i32_127
  let c8_i32_136 : BitVec 32 := 8#32
  let v260 : BitVec 32 := Scalar.muli v246 c8_i32_136
  let c8_i32_98 : BitVec 32 := 8#32
  let c0_i32_99 : BitVec 32 := 0#32
  let v194 : BitVec 1 := Scalar.cmpi .eq c8_i32_98 c0_i32_99
  let c1_i32_100 : BitVec 32 := 1#32
  let v195 : BitVec 32 := Scalar.select v194 c1_i32_100 c8_i32_98
  let v196 : BitVec 32 := Scalar.remsi v2 v195
  let c0_i32_102 : BitVec 32 := 0#32
  let v198 : BitVec 1 := Scalar.cmpi .slt v196 c0_i32_102
  let c0_i32_103 : BitVec 32 := 0#32
  let v199 : BitVec 1 := Scalar.cmpi .slt v195 c0_i32_103
  let v200 : BitVec 1 := Scalar.xori v198 v199
  let c0_i32_101 : BitVec 32 := 0#32
  let v197 : BitVec 1 := Scalar.cmpi .ne v196 c0_i32_101
  let v201 : BitVec 1 := Scalar.andi v200 v197
  let v202 : BitVec 32 := Scalar.addi v196 v195
  let v203 : BitVec 32 := Scalar.select v201 v202 v196
  let c0_i32_105 : BitVec 32 := 0#32
  let v205 : BitVec 1 := Scalar.cmpi .sgt v203 c0_i32_105
  let v206 : BitVec 32 := Scalar.extui v205
  let c0_i32_106 : BitVec 32 := 0#32
  let v207 : BitVec 1 := Scalar.cmpi .slt v203 c0_i32_106
  let v208 : BitVec 32 := Scalar.extui v207
  let v209 : BitVec 32 := Scalar.subi v206 v208
  let c2_i32_104 : BitVec 32 := 2#32
  let c0_i32_107 : BitVec 32 := 0#32
  let v210 : BitVec 1 := Scalar.cmpi .sgt c2_i32_104 c0_i32_107
  let v211 : BitVec 32 := Scalar.extui v210
  let c0_i32_108 : BitVec 32 := 0#32
  let v212 : BitVec 1 := Scalar.cmpi .slt c2_i32_104 c0_i32_108
  let v213 : BitVec 32 := Scalar.extui v212
  let v214 : BitVec 32 := Scalar.subi v211 v213
  let v215 : BitVec 1 := Scalar.cmpi .ne v209 v214
  let v216 : BitVec 32 := Scalar.remsi v203 c2_i32_104
  let c0_i32_109 : BitVec 32 := 0#32
  let v217 : BitVec 1 := Scalar.cmpi .ne v216 c0_i32_109
  let v218 : BitVec 1 := Scalar.andi v215 v217
  let v204 : BitVec 32 := Scalar.divsi v203 c2_i32_104
  let c1_i32_110 : BitVec 32 := 1#32
  let v219 : BitVec 32 := Scalar.subi v204 c1_i32_110
  let v220 : BitVec 32 := Scalar.select v218 v219 v204
  let c0_i32_126 : BitVec 32 := 0#32
  let v245 : BitVec 32 := Scalar.xori v220 c0_i32_126
  let c2_i32_137 : BitVec 32 := 2#32
  let v261 : BitVec 32 := Scalar.muli v245 c2_i32_137
  let v262 : BitVec 32 := Scalar.addi v260 v261
  let c2_i32_128 : BitVec 32 := 2#32
  let c0_i32_129 : BitVec 32 := 0#32
  let v247 : BitVec 1 := Scalar.cmpi .eq c2_i32_128 c0_i32_129
  let c1_i32_130 : BitVec 32 := 1#32
  let v248 : BitVec 32 := Scalar.select v247 c1_i32_130 c2_i32_128
  let v249 : BitVec 32 := Scalar.remsi v245 v248
  let c0_i32_132 : BitVec 32 := 0#32
  let v251 : BitVec 1 := Scalar.cmpi .slt v249 c0_i32_132
  let c0_i32_133 : BitVec 32 := 0#32
  let v252 : BitVec 1 := Scalar.cmpi .slt v248 c0_i32_133
  let v253 : BitVec 1 := Scalar.xori v251 v252
  let c0_i32_131 : BitVec 32 := 0#32
  let v250 : BitVec 1 := Scalar.cmpi .ne v249 c0_i32_131
  let v254 : BitVec 1 := Scalar.andi v253 v250
  let v255 : BitVec 32 := Scalar.addi v249 v248
  let v256 : BitVec 32 := Scalar.select v254 v255 v249
  let c0_i32_134 : BitVec 32 := 0#32
  let v257 : BitVec 1 := Scalar.cmpi .eq v256 c0_i32_134
  let c2_i32_117 : BitVec 32 := 2#32
  let c0_i32_118 : BitVec 32 := 0#32
  let v231 : BitVec 1 := Scalar.cmpi .eq c2_i32_117 c0_i32_118
  let c1_i32_119 : BitVec 32 := 1#32
  let v232 : BitVec 32 := Scalar.select v231 c1_i32_119 c2_i32_117
  let v233 : BitVec 32 := Scalar.remsi v220 v232
  let c0_i32_121 : BitVec 32 := 0#32
  let v235 : BitVec 1 := Scalar.cmpi .slt v233 c0_i32_121
  let c0_i32_122 : BitVec 32 := 0#32
  let v236 : BitVec 1 := Scalar.cmpi .slt v232 c0_i32_122
  let v237 : BitVec 1 := Scalar.xori v235 v236
  let c0_i32_120 : BitVec 32 := 0#32
  let v234 : BitVec 1 := Scalar.cmpi .ne v233 c0_i32_120
  let v238 : BitVec 1 := Scalar.andi v237 v234
  let v239 : BitVec 32 := Scalar.addi v233 v232
  let v240 : BitVec 32 := Scalar.select v238 v239 v233
  let c0_i32_123 : BitVec 32 := 0#32
  let v241 : BitVec 1 := Scalar.cmpi .eq v240 c0_i32_123
  let c2_i32_111 : BitVec 32 := 2#32
  let c0_i32_112 : BitVec 32 := 0#32
  let v221 : BitVec 1 := Scalar.cmpi .eq c2_i32_111 c0_i32_112
  let c1_i32_113 : BitVec 32 := 1#32
  let v222 : BitVec 32 := Scalar.select v221 c1_i32_113 c2_i32_111
  let v223 : BitVec 32 := Scalar.remsi v203 v222
  let c0_i32_115 : BitVec 32 := 0#32
  let v225 : BitVec 1 := Scalar.cmpi .slt v223 c0_i32_115
  let c0_i32_116 : BitVec 32 := 0#32
  let v226 : BitVec 1 := Scalar.cmpi .slt v222 c0_i32_116
  let v227 : BitVec 1 := Scalar.xori v225 v226
  let c0_i32_114 : BitVec 32 := 0#32
  let v224 : BitVec 1 := Scalar.cmpi .ne v223 c0_i32_114
  let v228 : BitVec 1 := Scalar.andi v227 v224
  let v229 : BitVec 32 := Scalar.addi v223 v222
  let v230 : BitVec 32 := Scalar.select v228 v229 v223
  let c1_i32_124 : BitVec 32 := 1#32
  let v242 : BitVec 32 := Scalar.subi c1_i32_124 v230
  let v243 : BitVec 32 := Scalar.select v241 v230 v242
  let c1_i32_125 : BitVec 32 := 1#32
  let v244 : BitVec 32 := Scalar.xori v243 c1_i32_125
  let c1_i32_135 : BitVec 32 := 1#32
  let v258 : BitVec 32 := Scalar.subi c1_i32_135 v244
  let v259 : BitVec 32 := Scalar.select v257 v244 v258
  let v263 : BitVec 32 := Scalar.addi v262 v259
  let c1_i32_531 : BitVec 32 := 1#32
  let v932 : BitVec 32 := Scalar.muli v263 c1_i32_531
  let v933 : BitVec 32 := Scalar.addi c0_i32_532 v932
  v933.toNat
def k0_dev14 (d0 : Dev nD) : Nat :=
  let c0_i32_541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_139 : BitVec 32 := 0#32
  let v265 : BitVec 1 := Scalar.cmpi .sgt v2 c0_i32_139
  let v266 : BitVec 32 := Scalar.extui v265
  let c0_i32_140 : BitVec 32 := 0#32
  let v267 : BitVec 1 := Scalar.cmpi .slt v2 c0_i32_140
  let v268 : BitVec 32 := Scalar.extui v267
  let v269 : BitVec 32 := Scalar.subi v266 v268
  let c8_i32_138 : BitVec 32 := 8#32
  let c0_i32_141 : BitVec 32 := 0#32
  let v270 : BitVec 1 := Scalar.cmpi .sgt c8_i32_138 c0_i32_141
  let v271 : BitVec 32 := Scalar.extui v270
  let c0_i32_142 : BitVec 32 := 0#32
  let v272 : BitVec 1 := Scalar.cmpi .slt c8_i32_138 c0_i32_142
  let v273 : BitVec 32 := Scalar.extui v272
  let v274 : BitVec 32 := Scalar.subi v271 v273
  let v275 : BitVec 1 := Scalar.cmpi .ne v269 v274
  let v276 : BitVec 32 := Scalar.remsi v2 c8_i32_138
  let c0_i32_143 : BitVec 32 := 0#32
  let v277 : BitVec 1 := Scalar.cmpi .ne v276 c0_i32_143
  let v278 : BitVec 1 := Scalar.andi v275 v277
  let v264 : BitVec 32 := Scalar.divsi v2 c8_i32_138
  let c1_i32_144 : BitVec 32 := 1#32
  let v279 : BitVec 32 := Scalar.subi v264 c1_i32_144
  let v280 : BitVec 32 := Scalar.select v278 v279 v264
  let c1_i32_174 : BitVec 32 := 1#32
  let v333 : BitVec 32 := Scalar.xori v280 c1_i32_174
  let c8_i32_183 : BitVec 32 := 8#32
  let v347 : BitVec 32 := Scalar.muli v333 c8_i32_183
  let c8_i32_145 : BitVec 32 := 8#32
  let c0_i32_146 : BitVec 32 := 0#32
  let v281 : BitVec 1 := Scalar.cmpi .eq c8_i32_145 c0_i32_146
  let c1_i32_147 : BitVec 32 := 1#32
  let v282 : BitVec 32 := Scalar.select v281 c1_i32_147 c8_i32_145
  let v283 : BitVec 32 := Scalar.remsi v2 v282
  let c0_i32_149 : BitVec 32 := 0#32
  let v285 : BitVec 1 := Scalar.cmpi .slt v283 c0_i32_149
  let c0_i32_150 : BitVec 32 := 0#32
  let v286 : BitVec 1 := Scalar.cmpi .slt v282 c0_i32_150
  let v287 : BitVec 1 := Scalar.xori v285 v286
  let c0_i32_148 : BitVec 32 := 0#32
  let v284 : BitVec 1 := Scalar.cmpi .ne v283 c0_i32_148
  let v288 : BitVec 1 := Scalar.andi v287 v284
  let v289 : BitVec 32 := Scalar.addi v283 v282
  let v290 : BitVec 32 := Scalar.select v288 v289 v283
  let c0_i32_152 : BitVec 32 := 0#32
  let v292 : BitVec 1 := Scalar.cmpi .sgt v290 c0_i32_152
  let v293 : BitVec 32 := Scalar.extui v292
  let c0_i32_153 : BitVec 32 := 0#32
  let v294 : BitVec 1 := Scalar.cmpi .slt v290 c0_i32_153
  let v295 : BitVec 32 := Scalar.extui v294
  let v296 : BitVec 32 := Scalar.subi v293 v295
  let c2_i32_151 : BitVec 32 := 2#32
  let c0_i32_154 : BitVec 32 := 0#32
  let v297 : BitVec 1 := Scalar.cmpi .sgt c2_i32_151 c0_i32_154
  let v298 : BitVec 32 := Scalar.extui v297
  let c0_i32_155 : BitVec 32 := 0#32
  let v299 : BitVec 1 := Scalar.cmpi .slt c2_i32_151 c0_i32_155
  let v300 : BitVec 32 := Scalar.extui v299
  let v301 : BitVec 32 := Scalar.subi v298 v300
  let v302 : BitVec 1 := Scalar.cmpi .ne v296 v301
  let v303 : BitVec 32 := Scalar.remsi v290 c2_i32_151
  let c0_i32_156 : BitVec 32 := 0#32
  let v304 : BitVec 1 := Scalar.cmpi .ne v303 c0_i32_156
  let v305 : BitVec 1 := Scalar.andi v302 v304
  let v291 : BitVec 32 := Scalar.divsi v290 c2_i32_151
  let c1_i32_157 : BitVec 32 := 1#32
  let v306 : BitVec 32 := Scalar.subi v291 c1_i32_157
  let v307 : BitVec 32 := Scalar.select v305 v306 v291
  let c1_i32_173 : BitVec 32 := 1#32
  let v332 : BitVec 32 := Scalar.xori v307 c1_i32_173
  let c2_i32_184 : BitVec 32 := 2#32
  let v348 : BitVec 32 := Scalar.muli v332 c2_i32_184
  let v349 : BitVec 32 := Scalar.addi v347 v348
  let c2_i32_175 : BitVec 32 := 2#32
  let c0_i32_176 : BitVec 32 := 0#32
  let v334 : BitVec 1 := Scalar.cmpi .eq c2_i32_175 c0_i32_176
  let c1_i32_177 : BitVec 32 := 1#32
  let v335 : BitVec 32 := Scalar.select v334 c1_i32_177 c2_i32_175
  let v336 : BitVec 32 := Scalar.remsi v332 v335
  let c0_i32_179 : BitVec 32 := 0#32
  let v338 : BitVec 1 := Scalar.cmpi .slt v336 c0_i32_179
  let c0_i32_180 : BitVec 32 := 0#32
  let v339 : BitVec 1 := Scalar.cmpi .slt v335 c0_i32_180
  let v340 : BitVec 1 := Scalar.xori v338 v339
  let c0_i32_178 : BitVec 32 := 0#32
  let v337 : BitVec 1 := Scalar.cmpi .ne v336 c0_i32_178
  let v341 : BitVec 1 := Scalar.andi v340 v337
  let v342 : BitVec 32 := Scalar.addi v336 v335
  let v343 : BitVec 32 := Scalar.select v341 v342 v336
  let c0_i32_181 : BitVec 32 := 0#32
  let v344 : BitVec 1 := Scalar.cmpi .eq v343 c0_i32_181
  let c2_i32_164 : BitVec 32 := 2#32
  let c0_i32_165 : BitVec 32 := 0#32
  let v318 : BitVec 1 := Scalar.cmpi .eq c2_i32_164 c0_i32_165
  let c1_i32_166 : BitVec 32 := 1#32
  let v319 : BitVec 32 := Scalar.select v318 c1_i32_166 c2_i32_164
  let v320 : BitVec 32 := Scalar.remsi v307 v319
  let c0_i32_168 : BitVec 32 := 0#32
  let v322 : BitVec 1 := Scalar.cmpi .slt v320 c0_i32_168
  let c0_i32_169 : BitVec 32 := 0#32
  let v323 : BitVec 1 := Scalar.cmpi .slt v319 c0_i32_169
  let v324 : BitVec 1 := Scalar.xori v322 v323
  let c0_i32_167 : BitVec 32 := 0#32
  let v321 : BitVec 1 := Scalar.cmpi .ne v320 c0_i32_167
  let v325 : BitVec 1 := Scalar.andi v324 v321
  let v326 : BitVec 32 := Scalar.addi v320 v319
  let v327 : BitVec 32 := Scalar.select v325 v326 v320
  let c0_i32_170 : BitVec 32 := 0#32
  let v328 : BitVec 1 := Scalar.cmpi .eq v327 c0_i32_170
  let c2_i32_158 : BitVec 32 := 2#32
  let c0_i32_159 : BitVec 32 := 0#32
  let v308 : BitVec 1 := Scalar.cmpi .eq c2_i32_158 c0_i32_159
  let c1_i32_160 : BitVec 32 := 1#32
  let v309 : BitVec 32 := Scalar.select v308 c1_i32_160 c2_i32_158
  let v310 : BitVec 32 := Scalar.remsi v290 v309
  let c0_i32_162 : BitVec 32 := 0#32
  let v312 : BitVec 1 := Scalar.cmpi .slt v310 c0_i32_162
  let c0_i32_163 : BitVec 32 := 0#32
  let v313 : BitVec 1 := Scalar.cmpi .slt v309 c0_i32_163
  let v314 : BitVec 1 := Scalar.xori v312 v313
  let c0_i32_161 : BitVec 32 := 0#32
  let v311 : BitVec 1 := Scalar.cmpi .ne v310 c0_i32_161
  let v315 : BitVec 1 := Scalar.andi v314 v311
  let v316 : BitVec 32 := Scalar.addi v310 v309
  let v317 : BitVec 32 := Scalar.select v315 v316 v310
  let c1_i32_171 : BitVec 32 := 1#32
  let v329 : BitVec 32 := Scalar.subi c1_i32_171 v317
  let v330 : BitVec 32 := Scalar.select v328 v317 v329
  let c0_i32_172 : BitVec 32 := 0#32
  let v331 : BitVec 32 := Scalar.xori v330 c0_i32_172
  let c1_i32_182 : BitVec 32 := 1#32
  let v345 : BitVec 32 := Scalar.subi c1_i32_182 v331
  let v346 : BitVec 32 := Scalar.select v344 v331 v345
  let v350 : BitVec 32 := Scalar.addi v349 v346
  let c1_i32_540 : BitVec 32 := 1#32
  let v942 : BitVec 32 := Scalar.muli v350 c1_i32_540
  let v943 : BitVec 32 := Scalar.addi c0_i32_541 v942
  v943.toNat
def k0_dev15 (d0 : Dev nD) : Nat :=
  let c0_i32_550 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_186 : BitVec 32 := 0#32
  let v352 : BitVec 1 := Scalar.cmpi .sgt v2 c0_i32_186
  let v353 : BitVec 32 := Scalar.extui v352
  let c0_i32_187 : BitVec 32 := 0#32
  let v354 : BitVec 1 := Scalar.cmpi .slt v2 c0_i32_187
  let v355 : BitVec 32 := Scalar.extui v354
  let v356 : BitVec 32 := Scalar.subi v353 v355
  let c8_i32_185 : BitVec 32 := 8#32
  let c0_i32_188 : BitVec 32 := 0#32
  let v357 : BitVec 1 := Scalar.cmpi .sgt c8_i32_185 c0_i32_188
  let v358 : BitVec 32 := Scalar.extui v357
  let c0_i32_189 : BitVec 32 := 0#32
  let v359 : BitVec 1 := Scalar.cmpi .slt c8_i32_185 c0_i32_189
  let v360 : BitVec 32 := Scalar.extui v359
  let v361 : BitVec 32 := Scalar.subi v358 v360
  let v362 : BitVec 1 := Scalar.cmpi .ne v356 v361
  let v363 : BitVec 32 := Scalar.remsi v2 c8_i32_185
  let c0_i32_190 : BitVec 32 := 0#32
  let v364 : BitVec 1 := Scalar.cmpi .ne v363 c0_i32_190
  let v365 : BitVec 1 := Scalar.andi v362 v364
  let v351 : BitVec 32 := Scalar.divsi v2 c8_i32_185
  let c1_i32_191 : BitVec 32 := 1#32
  let v366 : BitVec 32 := Scalar.subi v351 c1_i32_191
  let v367 : BitVec 32 := Scalar.select v365 v366 v351
  let c0_i32_221 : BitVec 32 := 0#32
  let v420 : BitVec 32 := Scalar.xori v367 c0_i32_221
  let c8_i32_230 : BitVec 32 := 8#32
  let v434 : BitVec 32 := Scalar.muli v420 c8_i32_230
  let c8_i32_192 : BitVec 32 := 8#32
  let c0_i32_193 : BitVec 32 := 0#32
  let v368 : BitVec 1 := Scalar.cmpi .eq c8_i32_192 c0_i32_193
  let c1_i32_194 : BitVec 32 := 1#32
  let v369 : BitVec 32 := Scalar.select v368 c1_i32_194 c8_i32_192
  let v370 : BitVec 32 := Scalar.remsi v2 v369
  let c0_i32_196 : BitVec 32 := 0#32
  let v372 : BitVec 1 := Scalar.cmpi .slt v370 c0_i32_196
  let c0_i32_197 : BitVec 32 := 0#32
  let v373 : BitVec 1 := Scalar.cmpi .slt v369 c0_i32_197
  let v374 : BitVec 1 := Scalar.xori v372 v373
  let c0_i32_195 : BitVec 32 := 0#32
  let v371 : BitVec 1 := Scalar.cmpi .ne v370 c0_i32_195
  let v375 : BitVec 1 := Scalar.andi v374 v371
  let v376 : BitVec 32 := Scalar.addi v370 v369
  let v377 : BitVec 32 := Scalar.select v375 v376 v370
  let c0_i32_199 : BitVec 32 := 0#32
  let v379 : BitVec 1 := Scalar.cmpi .sgt v377 c0_i32_199
  let v380 : BitVec 32 := Scalar.extui v379
  let c0_i32_200 : BitVec 32 := 0#32
  let v381 : BitVec 1 := Scalar.cmpi .slt v377 c0_i32_200
  let v382 : BitVec 32 := Scalar.extui v381
  let v383 : BitVec 32 := Scalar.subi v380 v382
  let c2_i32_198 : BitVec 32 := 2#32
  let c0_i32_201 : BitVec 32 := 0#32
  let v384 : BitVec 1 := Scalar.cmpi .sgt c2_i32_198 c0_i32_201
  let v385 : BitVec 32 := Scalar.extui v384
  let c0_i32_202 : BitVec 32 := 0#32
  let v386 : BitVec 1 := Scalar.cmpi .slt c2_i32_198 c0_i32_202
  let v387 : BitVec 32 := Scalar.extui v386
  let v388 : BitVec 32 := Scalar.subi v385 v387
  let v389 : BitVec 1 := Scalar.cmpi .ne v383 v388
  let v390 : BitVec 32 := Scalar.remsi v377 c2_i32_198
  let c0_i32_203 : BitVec 32 := 0#32
  let v391 : BitVec 1 := Scalar.cmpi .ne v390 c0_i32_203
  let v392 : BitVec 1 := Scalar.andi v389 v391
  let v378 : BitVec 32 := Scalar.divsi v377 c2_i32_198
  let c1_i32_204 : BitVec 32 := 1#32
  let v393 : BitVec 32 := Scalar.subi v378 c1_i32_204
  let v394 : BitVec 32 := Scalar.select v392 v393 v378
  let c0_i32_220 : BitVec 32 := 0#32
  let v419 : BitVec 32 := Scalar.xori v394 c0_i32_220
  let c2_i32_231 : BitVec 32 := 2#32
  let v435 : BitVec 32 := Scalar.muli v419 c2_i32_231
  let v436 : BitVec 32 := Scalar.addi v434 v435
  let c2_i32_222 : BitVec 32 := 2#32
  let c0_i32_223 : BitVec 32 := 0#32
  let v421 : BitVec 1 := Scalar.cmpi .eq c2_i32_222 c0_i32_223
  let c1_i32_224 : BitVec 32 := 1#32
  let v422 : BitVec 32 := Scalar.select v421 c1_i32_224 c2_i32_222
  let v423 : BitVec 32 := Scalar.remsi v419 v422
  let c0_i32_226 : BitVec 32 := 0#32
  let v425 : BitVec 1 := Scalar.cmpi .slt v423 c0_i32_226
  let c0_i32_227 : BitVec 32 := 0#32
  let v426 : BitVec 1 := Scalar.cmpi .slt v422 c0_i32_227
  let v427 : BitVec 1 := Scalar.xori v425 v426
  let c0_i32_225 : BitVec 32 := 0#32
  let v424 : BitVec 1 := Scalar.cmpi .ne v423 c0_i32_225
  let v428 : BitVec 1 := Scalar.andi v427 v424
  let v429 : BitVec 32 := Scalar.addi v423 v422
  let v430 : BitVec 32 := Scalar.select v428 v429 v423
  let c0_i32_228 : BitVec 32 := 0#32
  let v431 : BitVec 1 := Scalar.cmpi .eq v430 c0_i32_228
  let c2_i32_211 : BitVec 32 := 2#32
  let c0_i32_212 : BitVec 32 := 0#32
  let v405 : BitVec 1 := Scalar.cmpi .eq c2_i32_211 c0_i32_212
  let c1_i32_213 : BitVec 32 := 1#32
  let v406 : BitVec 32 := Scalar.select v405 c1_i32_213 c2_i32_211
  let v407 : BitVec 32 := Scalar.remsi v394 v406
  let c0_i32_215 : BitVec 32 := 0#32
  let v409 : BitVec 1 := Scalar.cmpi .slt v407 c0_i32_215
  let c0_i32_216 : BitVec 32 := 0#32
  let v410 : BitVec 1 := Scalar.cmpi .slt v406 c0_i32_216
  let v411 : BitVec 1 := Scalar.xori v409 v410
  let c0_i32_214 : BitVec 32 := 0#32
  let v408 : BitVec 1 := Scalar.cmpi .ne v407 c0_i32_214
  let v412 : BitVec 1 := Scalar.andi v411 v408
  let v413 : BitVec 32 := Scalar.addi v407 v406
  let v414 : BitVec 32 := Scalar.select v412 v413 v407
  let c0_i32_217 : BitVec 32 := 0#32
  let v415 : BitVec 1 := Scalar.cmpi .eq v414 c0_i32_217
  let c2_i32_205 : BitVec 32 := 2#32
  let c0_i32_206 : BitVec 32 := 0#32
  let v395 : BitVec 1 := Scalar.cmpi .eq c2_i32_205 c0_i32_206
  let c1_i32_207 : BitVec 32 := 1#32
  let v396 : BitVec 32 := Scalar.select v395 c1_i32_207 c2_i32_205
  let v397 : BitVec 32 := Scalar.remsi v377 v396
  let c0_i32_209 : BitVec 32 := 0#32
  let v399 : BitVec 1 := Scalar.cmpi .slt v397 c0_i32_209
  let c0_i32_210 : BitVec 32 := 0#32
  let v400 : BitVec 1 := Scalar.cmpi .slt v396 c0_i32_210
  let v401 : BitVec 1 := Scalar.xori v399 v400
  let c0_i32_208 : BitVec 32 := 0#32
  let v398 : BitVec 1 := Scalar.cmpi .ne v397 c0_i32_208
  let v402 : BitVec 1 := Scalar.andi v401 v398
  let v403 : BitVec 32 := Scalar.addi v397 v396
  let v404 : BitVec 32 := Scalar.select v402 v403 v397
  let c1_i32_218 : BitVec 32 := 1#32
  let v416 : BitVec 32 := Scalar.subi c1_i32_218 v404
  let v417 : BitVec 32 := Scalar.select v415 v404 v416
  let c1_i32_219 : BitVec 32 := 1#32
  let v418 : BitVec 32 := Scalar.xori v417 c1_i32_219
  let c1_i32_229 : BitVec 32 := 1#32
  let v432 : BitVec 32 := Scalar.subi c1_i32_229 v418
  let v433 : BitVec 32 := Scalar.select v431 v418 v432
  let v437 : BitVec 32 := Scalar.addi v436 v433
  let c1_i32_549 : BitVec 32 := 1#32
  let v952 : BitVec 32 := Scalar.muli v437 c1_i32_549
  let v953 : BitVec 32 := Scalar.addi c0_i32_550 v952
  v953.toNat
def k0_dev16 (d0 : Dev nD) : Nat :=
  let c0_i32_559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_233 : BitVec 32 := 0#32
  let v439 : BitVec 1 := Scalar.cmpi .sgt v2 c0_i32_233
  let v440 : BitVec 32 := Scalar.extui v439
  let c0_i32_234 : BitVec 32 := 0#32
  let v441 : BitVec 1 := Scalar.cmpi .slt v2 c0_i32_234
  let v442 : BitVec 32 := Scalar.extui v441
  let v443 : BitVec 32 := Scalar.subi v440 v442
  let c8_i32_232 : BitVec 32 := 8#32
  let c0_i32_235 : BitVec 32 := 0#32
  let v444 : BitVec 1 := Scalar.cmpi .sgt c8_i32_232 c0_i32_235
  let v445 : BitVec 32 := Scalar.extui v444
  let c0_i32_236 : BitVec 32 := 0#32
  let v446 : BitVec 1 := Scalar.cmpi .slt c8_i32_232 c0_i32_236
  let v447 : BitVec 32 := Scalar.extui v446
  let v448 : BitVec 32 := Scalar.subi v445 v447
  let v449 : BitVec 1 := Scalar.cmpi .ne v443 v448
  let v450 : BitVec 32 := Scalar.remsi v2 c8_i32_232
  let c0_i32_237 : BitVec 32 := 0#32
  let v451 : BitVec 1 := Scalar.cmpi .ne v450 c0_i32_237
  let v452 : BitVec 1 := Scalar.andi v449 v451
  let v438 : BitVec 32 := Scalar.divsi v2 c8_i32_232
  let c1_i32_238 : BitVec 32 := 1#32
  let v453 : BitVec 32 := Scalar.subi v438 c1_i32_238
  let v454 : BitVec 32 := Scalar.select v452 v453 v438
  let c0_i32_268 : BitVec 32 := 0#32
  let v507 : BitVec 32 := Scalar.xori v454 c0_i32_268
  let c8_i32_277 : BitVec 32 := 8#32
  let v521 : BitVec 32 := Scalar.muli v507 c8_i32_277
  let c8_i32_239 : BitVec 32 := 8#32
  let c0_i32_240 : BitVec 32 := 0#32
  let v455 : BitVec 1 := Scalar.cmpi .eq c8_i32_239 c0_i32_240
  let c1_i32_241 : BitVec 32 := 1#32
  let v456 : BitVec 32 := Scalar.select v455 c1_i32_241 c8_i32_239
  let v457 : BitVec 32 := Scalar.remsi v2 v456
  let c0_i32_243 : BitVec 32 := 0#32
  let v459 : BitVec 1 := Scalar.cmpi .slt v457 c0_i32_243
  let c0_i32_244 : BitVec 32 := 0#32
  let v460 : BitVec 1 := Scalar.cmpi .slt v456 c0_i32_244
  let v461 : BitVec 1 := Scalar.xori v459 v460
  let c0_i32_242 : BitVec 32 := 0#32
  let v458 : BitVec 1 := Scalar.cmpi .ne v457 c0_i32_242
  let v462 : BitVec 1 := Scalar.andi v461 v458
  let v463 : BitVec 32 := Scalar.addi v457 v456
  let v464 : BitVec 32 := Scalar.select v462 v463 v457
  let c0_i32_246 : BitVec 32 := 0#32
  let v466 : BitVec 1 := Scalar.cmpi .sgt v464 c0_i32_246
  let v467 : BitVec 32 := Scalar.extui v466
  let c0_i32_247 : BitVec 32 := 0#32
  let v468 : BitVec 1 := Scalar.cmpi .slt v464 c0_i32_247
  let v469 : BitVec 32 := Scalar.extui v468
  let v470 : BitVec 32 := Scalar.subi v467 v469
  let c2_i32_245 : BitVec 32 := 2#32
  let c0_i32_248 : BitVec 32 := 0#32
  let v471 : BitVec 1 := Scalar.cmpi .sgt c2_i32_245 c0_i32_248
  let v472 : BitVec 32 := Scalar.extui v471
  let c0_i32_249 : BitVec 32 := 0#32
  let v473 : BitVec 1 := Scalar.cmpi .slt c2_i32_245 c0_i32_249
  let v474 : BitVec 32 := Scalar.extui v473
  let v475 : BitVec 32 := Scalar.subi v472 v474
  let v476 : BitVec 1 := Scalar.cmpi .ne v470 v475
  let v477 : BitVec 32 := Scalar.remsi v464 c2_i32_245
  let c0_i32_250 : BitVec 32 := 0#32
  let v478 : BitVec 1 := Scalar.cmpi .ne v477 c0_i32_250
  let v479 : BitVec 1 := Scalar.andi v476 v478
  let v465 : BitVec 32 := Scalar.divsi v464 c2_i32_245
  let c1_i32_251 : BitVec 32 := 1#32
  let v480 : BitVec 32 := Scalar.subi v465 c1_i32_251
  let v481 : BitVec 32 := Scalar.select v479 v480 v465
  let c1_i32_267 : BitVec 32 := 1#32
  let v506 : BitVec 32 := Scalar.xori v481 c1_i32_267
  let c2_i32_278 : BitVec 32 := 2#32
  let v522 : BitVec 32 := Scalar.muli v506 c2_i32_278
  let v523 : BitVec 32 := Scalar.addi v521 v522
  let c2_i32_269 : BitVec 32 := 2#32
  let c0_i32_270 : BitVec 32 := 0#32
  let v508 : BitVec 1 := Scalar.cmpi .eq c2_i32_269 c0_i32_270
  let c1_i32_271 : BitVec 32 := 1#32
  let v509 : BitVec 32 := Scalar.select v508 c1_i32_271 c2_i32_269
  let v510 : BitVec 32 := Scalar.remsi v506 v509
  let c0_i32_273 : BitVec 32 := 0#32
  let v512 : BitVec 1 := Scalar.cmpi .slt v510 c0_i32_273
  let c0_i32_274 : BitVec 32 := 0#32
  let v513 : BitVec 1 := Scalar.cmpi .slt v509 c0_i32_274
  let v514 : BitVec 1 := Scalar.xori v512 v513
  let c0_i32_272 : BitVec 32 := 0#32
  let v511 : BitVec 1 := Scalar.cmpi .ne v510 c0_i32_272
  let v515 : BitVec 1 := Scalar.andi v514 v511
  let v516 : BitVec 32 := Scalar.addi v510 v509
  let v517 : BitVec 32 := Scalar.select v515 v516 v510
  let c0_i32_275 : BitVec 32 := 0#32
  let v518 : BitVec 1 := Scalar.cmpi .eq v517 c0_i32_275
  let c2_i32_258 : BitVec 32 := 2#32
  let c0_i32_259 : BitVec 32 := 0#32
  let v492 : BitVec 1 := Scalar.cmpi .eq c2_i32_258 c0_i32_259
  let c1_i32_260 : BitVec 32 := 1#32
  let v493 : BitVec 32 := Scalar.select v492 c1_i32_260 c2_i32_258
  let v494 : BitVec 32 := Scalar.remsi v481 v493
  let c0_i32_262 : BitVec 32 := 0#32
  let v496 : BitVec 1 := Scalar.cmpi .slt v494 c0_i32_262
  let c0_i32_263 : BitVec 32 := 0#32
  let v497 : BitVec 1 := Scalar.cmpi .slt v493 c0_i32_263
  let v498 : BitVec 1 := Scalar.xori v496 v497
  let c0_i32_261 : BitVec 32 := 0#32
  let v495 : BitVec 1 := Scalar.cmpi .ne v494 c0_i32_261
  let v499 : BitVec 1 := Scalar.andi v498 v495
  let v500 : BitVec 32 := Scalar.addi v494 v493
  let v501 : BitVec 32 := Scalar.select v499 v500 v494
  let c0_i32_264 : BitVec 32 := 0#32
  let v502 : BitVec 1 := Scalar.cmpi .eq v501 c0_i32_264
  let c2_i32_252 : BitVec 32 := 2#32
  let c0_i32_253 : BitVec 32 := 0#32
  let v482 : BitVec 1 := Scalar.cmpi .eq c2_i32_252 c0_i32_253
  let c1_i32_254 : BitVec 32 := 1#32
  let v483 : BitVec 32 := Scalar.select v482 c1_i32_254 c2_i32_252
  let v484 : BitVec 32 := Scalar.remsi v464 v483
  let c0_i32_256 : BitVec 32 := 0#32
  let v486 : BitVec 1 := Scalar.cmpi .slt v484 c0_i32_256
  let c0_i32_257 : BitVec 32 := 0#32
  let v487 : BitVec 1 := Scalar.cmpi .slt v483 c0_i32_257
  let v488 : BitVec 1 := Scalar.xori v486 v487
  let c0_i32_255 : BitVec 32 := 0#32
  let v485 : BitVec 1 := Scalar.cmpi .ne v484 c0_i32_255
  let v489 : BitVec 1 := Scalar.andi v488 v485
  let v490 : BitVec 32 := Scalar.addi v484 v483
  let v491 : BitVec 32 := Scalar.select v489 v490 v484
  let c1_i32_265 : BitVec 32 := 1#32
  let v503 : BitVec 32 := Scalar.subi c1_i32_265 v491
  let v504 : BitVec 32 := Scalar.select v502 v491 v503
  let c0_i32_266 : BitVec 32 := 0#32
  let v505 : BitVec 32 := Scalar.xori v504 c0_i32_266
  let c1_i32_276 : BitVec 32 := 1#32
  let v519 : BitVec 32 := Scalar.subi c1_i32_276 v505
  let v520 : BitVec 32 := Scalar.select v518 v505 v519
  let v524 : BitVec 32 := Scalar.addi v523 v520
  let c1_i32_558 : BitVec 32 := 1#32
  let v962 : BitVec 32 := Scalar.muli v524 c1_i32_558
  let v963 : BitVec 32 := Scalar.addi c0_i32_559 v962
  v963.toNat
def k0_dev17 (d0 : Dev nD) : Nat :=
  let c0_i32_568 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_280 : BitVec 32 := 0#32
  let v526 : BitVec 1 := Scalar.cmpi .sgt v2 c0_i32_280
  let v527 : BitVec 32 := Scalar.extui v526
  let c0_i32_281 : BitVec 32 := 0#32
  let v528 : BitVec 1 := Scalar.cmpi .slt v2 c0_i32_281
  let v529 : BitVec 32 := Scalar.extui v528
  let v530 : BitVec 32 := Scalar.subi v527 v529
  let c8_i32_279 : BitVec 32 := 8#32
  let c0_i32_282 : BitVec 32 := 0#32
  let v531 : BitVec 1 := Scalar.cmpi .sgt c8_i32_279 c0_i32_282
  let v532 : BitVec 32 := Scalar.extui v531
  let c0_i32_283 : BitVec 32 := 0#32
  let v533 : BitVec 1 := Scalar.cmpi .slt c8_i32_279 c0_i32_283
  let v534 : BitVec 32 := Scalar.extui v533
  let v535 : BitVec 32 := Scalar.subi v532 v534
  let v536 : BitVec 1 := Scalar.cmpi .ne v530 v535
  let v537 : BitVec 32 := Scalar.remsi v2 c8_i32_279
  let c0_i32_284 : BitVec 32 := 0#32
  let v538 : BitVec 1 := Scalar.cmpi .ne v537 c0_i32_284
  let v539 : BitVec 1 := Scalar.andi v536 v538
  let v525 : BitVec 32 := Scalar.divsi v2 c8_i32_279
  let c1_i32_285 : BitVec 32 := 1#32
  let v540 : BitVec 32 := Scalar.subi v525 c1_i32_285
  let v541 : BitVec 32 := Scalar.select v539 v540 v525
  let c1_i32_315 : BitVec 32 := 1#32
  let v594 : BitVec 32 := Scalar.xori v541 c1_i32_315
  let c8_i32_324 : BitVec 32 := 8#32
  let v608 : BitVec 32 := Scalar.muli v594 c8_i32_324
  let c8_i32_286 : BitVec 32 := 8#32
  let c0_i32_287 : BitVec 32 := 0#32
  let v542 : BitVec 1 := Scalar.cmpi .eq c8_i32_286 c0_i32_287
  let c1_i32_288 : BitVec 32 := 1#32
  let v543 : BitVec 32 := Scalar.select v542 c1_i32_288 c8_i32_286
  let v544 : BitVec 32 := Scalar.remsi v2 v543
  let c0_i32_290 : BitVec 32 := 0#32
  let v546 : BitVec 1 := Scalar.cmpi .slt v544 c0_i32_290
  let c0_i32_291 : BitVec 32 := 0#32
  let v547 : BitVec 1 := Scalar.cmpi .slt v543 c0_i32_291
  let v548 : BitVec 1 := Scalar.xori v546 v547
  let c0_i32_289 : BitVec 32 := 0#32
  let v545 : BitVec 1 := Scalar.cmpi .ne v544 c0_i32_289
  let v549 : BitVec 1 := Scalar.andi v548 v545
  let v550 : BitVec 32 := Scalar.addi v544 v543
  let v551 : BitVec 32 := Scalar.select v549 v550 v544
  let c0_i32_293 : BitVec 32 := 0#32
  let v553 : BitVec 1 := Scalar.cmpi .sgt v551 c0_i32_293
  let v554 : BitVec 32 := Scalar.extui v553
  let c0_i32_294 : BitVec 32 := 0#32
  let v555 : BitVec 1 := Scalar.cmpi .slt v551 c0_i32_294
  let v556 : BitVec 32 := Scalar.extui v555
  let v557 : BitVec 32 := Scalar.subi v554 v556
  let c2_i32_292 : BitVec 32 := 2#32
  let c0_i32_295 : BitVec 32 := 0#32
  let v558 : BitVec 1 := Scalar.cmpi .sgt c2_i32_292 c0_i32_295
  let v559 : BitVec 32 := Scalar.extui v558
  let c0_i32_296 : BitVec 32 := 0#32
  let v560 : BitVec 1 := Scalar.cmpi .slt c2_i32_292 c0_i32_296
  let v561 : BitVec 32 := Scalar.extui v560
  let v562 : BitVec 32 := Scalar.subi v559 v561
  let v563 : BitVec 1 := Scalar.cmpi .ne v557 v562
  let v564 : BitVec 32 := Scalar.remsi v551 c2_i32_292
  let c0_i32_297 : BitVec 32 := 0#32
  let v565 : BitVec 1 := Scalar.cmpi .ne v564 c0_i32_297
  let v566 : BitVec 1 := Scalar.andi v563 v565
  let v552 : BitVec 32 := Scalar.divsi v551 c2_i32_292
  let c1_i32_298 : BitVec 32 := 1#32
  let v567 : BitVec 32 := Scalar.subi v552 c1_i32_298
  let v568 : BitVec 32 := Scalar.select v566 v567 v552
  let c0_i32_314 : BitVec 32 := 0#32
  let v593 : BitVec 32 := Scalar.xori v568 c0_i32_314
  let c2_i32_325 : BitVec 32 := 2#32
  let v609 : BitVec 32 := Scalar.muli v593 c2_i32_325
  let v610 : BitVec 32 := Scalar.addi v608 v609
  let c2_i32_316 : BitVec 32 := 2#32
  let c0_i32_317 : BitVec 32 := 0#32
  let v595 : BitVec 1 := Scalar.cmpi .eq c2_i32_316 c0_i32_317
  let c1_i32_318 : BitVec 32 := 1#32
  let v596 : BitVec 32 := Scalar.select v595 c1_i32_318 c2_i32_316
  let v597 : BitVec 32 := Scalar.remsi v593 v596
  let c0_i32_320 : BitVec 32 := 0#32
  let v599 : BitVec 1 := Scalar.cmpi .slt v597 c0_i32_320
  let c0_i32_321 : BitVec 32 := 0#32
  let v600 : BitVec 1 := Scalar.cmpi .slt v596 c0_i32_321
  let v601 : BitVec 1 := Scalar.xori v599 v600
  let c0_i32_319 : BitVec 32 := 0#32
  let v598 : BitVec 1 := Scalar.cmpi .ne v597 c0_i32_319
  let v602 : BitVec 1 := Scalar.andi v601 v598
  let v603 : BitVec 32 := Scalar.addi v597 v596
  let v604 : BitVec 32 := Scalar.select v602 v603 v597
  let c0_i32_322 : BitVec 32 := 0#32
  let v605 : BitVec 1 := Scalar.cmpi .eq v604 c0_i32_322
  let c2_i32_305 : BitVec 32 := 2#32
  let c0_i32_306 : BitVec 32 := 0#32
  let v579 : BitVec 1 := Scalar.cmpi .eq c2_i32_305 c0_i32_306
  let c1_i32_307 : BitVec 32 := 1#32
  let v580 : BitVec 32 := Scalar.select v579 c1_i32_307 c2_i32_305
  let v581 : BitVec 32 := Scalar.remsi v568 v580
  let c0_i32_309 : BitVec 32 := 0#32
  let v583 : BitVec 1 := Scalar.cmpi .slt v581 c0_i32_309
  let c0_i32_310 : BitVec 32 := 0#32
  let v584 : BitVec 1 := Scalar.cmpi .slt v580 c0_i32_310
  let v585 : BitVec 1 := Scalar.xori v583 v584
  let c0_i32_308 : BitVec 32 := 0#32
  let v582 : BitVec 1 := Scalar.cmpi .ne v581 c0_i32_308
  let v586 : BitVec 1 := Scalar.andi v585 v582
  let v587 : BitVec 32 := Scalar.addi v581 v580
  let v588 : BitVec 32 := Scalar.select v586 v587 v581
  let c0_i32_311 : BitVec 32 := 0#32
  let v589 : BitVec 1 := Scalar.cmpi .eq v588 c0_i32_311
  let c2_i32_299 : BitVec 32 := 2#32
  let c0_i32_300 : BitVec 32 := 0#32
  let v569 : BitVec 1 := Scalar.cmpi .eq c2_i32_299 c0_i32_300
  let c1_i32_301 : BitVec 32 := 1#32
  let v570 : BitVec 32 := Scalar.select v569 c1_i32_301 c2_i32_299
  let v571 : BitVec 32 := Scalar.remsi v551 v570
  let c0_i32_303 : BitVec 32 := 0#32
  let v573 : BitVec 1 := Scalar.cmpi .slt v571 c0_i32_303
  let c0_i32_304 : BitVec 32 := 0#32
  let v574 : BitVec 1 := Scalar.cmpi .slt v570 c0_i32_304
  let v575 : BitVec 1 := Scalar.xori v573 v574
  let c0_i32_302 : BitVec 32 := 0#32
  let v572 : BitVec 1 := Scalar.cmpi .ne v571 c0_i32_302
  let v576 : BitVec 1 := Scalar.andi v575 v572
  let v577 : BitVec 32 := Scalar.addi v571 v570
  let v578 : BitVec 32 := Scalar.select v576 v577 v571
  let c1_i32_312 : BitVec 32 := 1#32
  let v590 : BitVec 32 := Scalar.subi c1_i32_312 v578
  let v591 : BitVec 32 := Scalar.select v589 v578 v590
  let c0_i32_313 : BitVec 32 := 0#32
  let v592 : BitVec 32 := Scalar.xori v591 c0_i32_313
  let c1_i32_323 : BitVec 32 := 1#32
  let v606 : BitVec 32 := Scalar.subi c1_i32_323 v592
  let v607 : BitVec 32 := Scalar.select v605 v592 v606
  let v611 : BitVec 32 := Scalar.addi v610 v607
  let c1_i32_567 : BitVec 32 := 1#32
  let v972 : BitVec 32 := Scalar.muli v611 c1_i32_567
  let v973 : BitVec 32 := Scalar.addi c0_i32_568 v972
  v973.toNat
def k0_dev18 (d0 : Dev nD) : Nat :=
  let c0_i32_665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_327 : BitVec 32 := 0#32
  let v613 : BitVec 1 := Scalar.cmpi .sgt v2 c0_i32_327
  let v614 : BitVec 32 := Scalar.extui v613
  let c0_i32_328 : BitVec 32 := 0#32
  let v615 : BitVec 1 := Scalar.cmpi .slt v2 c0_i32_328
  let v616 : BitVec 32 := Scalar.extui v615
  let v617 : BitVec 32 := Scalar.subi v614 v616
  let c8_i32_326 : BitVec 32 := 8#32
  let c0_i32_329 : BitVec 32 := 0#32
  let v618 : BitVec 1 := Scalar.cmpi .sgt c8_i32_326 c0_i32_329
  let v619 : BitVec 32 := Scalar.extui v618
  let c0_i32_330 : BitVec 32 := 0#32
  let v620 : BitVec 1 := Scalar.cmpi .slt c8_i32_326 c0_i32_330
  let v621 : BitVec 32 := Scalar.extui v620
  let v622 : BitVec 32 := Scalar.subi v619 v621
  let v623 : BitVec 1 := Scalar.cmpi .ne v617 v622
  let v624 : BitVec 32 := Scalar.remsi v2 c8_i32_326
  let c0_i32_331 : BitVec 32 := 0#32
  let v625 : BitVec 1 := Scalar.cmpi .ne v624 c0_i32_331
  let v626 : BitVec 1 := Scalar.andi v623 v625
  let v612 : BitVec 32 := Scalar.divsi v2 c8_i32_326
  let c1_i32_332 : BitVec 32 := 1#32
  let v627 : BitVec 32 := Scalar.subi v612 c1_i32_332
  let v628 : BitVec 32 := Scalar.select v626 v627 v612
  let c2_i32_362 : BitVec 32 := 2#32
  let v681 : BitVec 32 := Scalar.xori v628 c2_i32_362
  let c8_i32_371 : BitVec 32 := 8#32
  let v695 : BitVec 32 := Scalar.muli v681 c8_i32_371
  let c8_i32_333 : BitVec 32 := 8#32
  let c0_i32_334 : BitVec 32 := 0#32
  let v629 : BitVec 1 := Scalar.cmpi .eq c8_i32_333 c0_i32_334
  let c1_i32_335 : BitVec 32 := 1#32
  let v630 : BitVec 32 := Scalar.select v629 c1_i32_335 c8_i32_333
  let v631 : BitVec 32 := Scalar.remsi v2 v630
  let c0_i32_337 : BitVec 32 := 0#32
  let v633 : BitVec 1 := Scalar.cmpi .slt v631 c0_i32_337
  let c0_i32_338 : BitVec 32 := 0#32
  let v634 : BitVec 1 := Scalar.cmpi .slt v630 c0_i32_338
  let v635 : BitVec 1 := Scalar.xori v633 v634
  let c0_i32_336 : BitVec 32 := 0#32
  let v632 : BitVec 1 := Scalar.cmpi .ne v631 c0_i32_336
  let v636 : BitVec 1 := Scalar.andi v635 v632
  let v637 : BitVec 32 := Scalar.addi v631 v630
  let v638 : BitVec 32 := Scalar.select v636 v637 v631
  let c0_i32_340 : BitVec 32 := 0#32
  let v640 : BitVec 1 := Scalar.cmpi .sgt v638 c0_i32_340
  let v641 : BitVec 32 := Scalar.extui v640
  let c0_i32_341 : BitVec 32 := 0#32
  let v642 : BitVec 1 := Scalar.cmpi .slt v638 c0_i32_341
  let v643 : BitVec 32 := Scalar.extui v642
  let v644 : BitVec 32 := Scalar.subi v641 v643
  let c2_i32_339 : BitVec 32 := 2#32
  let c0_i32_342 : BitVec 32 := 0#32
  let v645 : BitVec 1 := Scalar.cmpi .sgt c2_i32_339 c0_i32_342
  let v646 : BitVec 32 := Scalar.extui v645
  let c0_i32_343 : BitVec 32 := 0#32
  let v647 : BitVec 1 := Scalar.cmpi .slt c2_i32_339 c0_i32_343
  let v648 : BitVec 32 := Scalar.extui v647
  let v649 : BitVec 32 := Scalar.subi v646 v648
  let v650 : BitVec 1 := Scalar.cmpi .ne v644 v649
  let v651 : BitVec 32 := Scalar.remsi v638 c2_i32_339
  let c0_i32_344 : BitVec 32 := 0#32
  let v652 : BitVec 1 := Scalar.cmpi .ne v651 c0_i32_344
  let v653 : BitVec 1 := Scalar.andi v650 v652
  let v639 : BitVec 32 := Scalar.divsi v638 c2_i32_339
  let c1_i32_345 : BitVec 32 := 1#32
  let v654 : BitVec 32 := Scalar.subi v639 c1_i32_345
  let v655 : BitVec 32 := Scalar.select v653 v654 v639
  let c2_i32_361 : BitVec 32 := 2#32
  let v680 : BitVec 32 := Scalar.xori v655 c2_i32_361
  let c2_i32_372 : BitVec 32 := 2#32
  let v696 : BitVec 32 := Scalar.muli v680 c2_i32_372
  let v697 : BitVec 32 := Scalar.addi v695 v696
  let c2_i32_363 : BitVec 32 := 2#32
  let c0_i32_364 : BitVec 32 := 0#32
  let v682 : BitVec 1 := Scalar.cmpi .eq c2_i32_363 c0_i32_364
  let c1_i32_365 : BitVec 32 := 1#32
  let v683 : BitVec 32 := Scalar.select v682 c1_i32_365 c2_i32_363
  let v684 : BitVec 32 := Scalar.remsi v680 v683
  let c0_i32_367 : BitVec 32 := 0#32
  let v686 : BitVec 1 := Scalar.cmpi .slt v684 c0_i32_367
  let c0_i32_368 : BitVec 32 := 0#32
  let v687 : BitVec 1 := Scalar.cmpi .slt v683 c0_i32_368
  let v688 : BitVec 1 := Scalar.xori v686 v687
  let c0_i32_366 : BitVec 32 := 0#32
  let v685 : BitVec 1 := Scalar.cmpi .ne v684 c0_i32_366
  let v689 : BitVec 1 := Scalar.andi v688 v685
  let v690 : BitVec 32 := Scalar.addi v684 v683
  let v691 : BitVec 32 := Scalar.select v689 v690 v684
  let c0_i32_369 : BitVec 32 := 0#32
  let v692 : BitVec 1 := Scalar.cmpi .eq v691 c0_i32_369
  let c2_i32_352 : BitVec 32 := 2#32
  let c0_i32_353 : BitVec 32 := 0#32
  let v666 : BitVec 1 := Scalar.cmpi .eq c2_i32_352 c0_i32_353
  let c1_i32_354 : BitVec 32 := 1#32
  let v667 : BitVec 32 := Scalar.select v666 c1_i32_354 c2_i32_352
  let v668 : BitVec 32 := Scalar.remsi v655 v667
  let c0_i32_356 : BitVec 32 := 0#32
  let v670 : BitVec 1 := Scalar.cmpi .slt v668 c0_i32_356
  let c0_i32_357 : BitVec 32 := 0#32
  let v671 : BitVec 1 := Scalar.cmpi .slt v667 c0_i32_357
  let v672 : BitVec 1 := Scalar.xori v670 v671
  let c0_i32_355 : BitVec 32 := 0#32
  let v669 : BitVec 1 := Scalar.cmpi .ne v668 c0_i32_355
  let v673 : BitVec 1 := Scalar.andi v672 v669
  let v674 : BitVec 32 := Scalar.addi v668 v667
  let v675 : BitVec 32 := Scalar.select v673 v674 v668
  let c0_i32_358 : BitVec 32 := 0#32
  let v676 : BitVec 1 := Scalar.cmpi .eq v675 c0_i32_358
  let c2_i32_346 : BitVec 32 := 2#32
  let c0_i32_347 : BitVec 32 := 0#32
  let v656 : BitVec 1 := Scalar.cmpi .eq c2_i32_346 c0_i32_347
  let c1_i32_348 : BitVec 32 := 1#32
  let v657 : BitVec 32 := Scalar.select v656 c1_i32_348 c2_i32_346
  let v658 : BitVec 32 := Scalar.remsi v638 v657
  let c0_i32_350 : BitVec 32 := 0#32
  let v660 : BitVec 1 := Scalar.cmpi .slt v658 c0_i32_350
  let c0_i32_351 : BitVec 32 := 0#32
  let v661 : BitVec 1 := Scalar.cmpi .slt v657 c0_i32_351
  let v662 : BitVec 1 := Scalar.xori v660 v661
  let c0_i32_349 : BitVec 32 := 0#32
  let v659 : BitVec 1 := Scalar.cmpi .ne v658 c0_i32_349
  let v663 : BitVec 1 := Scalar.andi v662 v659
  let v664 : BitVec 32 := Scalar.addi v658 v657
  let v665 : BitVec 32 := Scalar.select v663 v664 v658
  let c1_i32_359 : BitVec 32 := 1#32
  let v677 : BitVec 32 := Scalar.subi c1_i32_359 v665
  let v678 : BitVec 32 := Scalar.select v676 v665 v677
  let c0_i32_360 : BitVec 32 := 0#32
  let v679 : BitVec 32 := Scalar.xori v678 c0_i32_360
  let c1_i32_370 : BitVec 32 := 1#32
  let v693 : BitVec 32 := Scalar.subi c1_i32_370 v679
  let v694 : BitVec 32 := Scalar.select v692 v679 v693
  let v698 : BitVec 32 := Scalar.addi v697 v694
  let c1_i32_664 : BitVec 32 := 1#32
  let v1070 : BitVec 32 := Scalar.muli v698 c1_i32_664
  let v1071 : BitVec 32 := Scalar.addi c0_i32_665 v1070
  v1071.toNat
def k0_dev19 (d0 : Dev nD) : Nat :=
  let c0_i32_675 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_374 : BitVec 32 := 0#32
  let v700 : BitVec 1 := Scalar.cmpi .sgt v2 c0_i32_374
  let v701 : BitVec 32 := Scalar.extui v700
  let c0_i32_375 : BitVec 32 := 0#32
  let v702 : BitVec 1 := Scalar.cmpi .slt v2 c0_i32_375
  let v703 : BitVec 32 := Scalar.extui v702
  let v704 : BitVec 32 := Scalar.subi v701 v703
  let c8_i32_373 : BitVec 32 := 8#32
  let c0_i32_376 : BitVec 32 := 0#32
  let v705 : BitVec 1 := Scalar.cmpi .sgt c8_i32_373 c0_i32_376
  let v706 : BitVec 32 := Scalar.extui v705
  let c0_i32_377 : BitVec 32 := 0#32
  let v707 : BitVec 1 := Scalar.cmpi .slt c8_i32_373 c0_i32_377
  let v708 : BitVec 32 := Scalar.extui v707
  let v709 : BitVec 32 := Scalar.subi v706 v708
  let v710 : BitVec 1 := Scalar.cmpi .ne v704 v709
  let v711 : BitVec 32 := Scalar.remsi v2 c8_i32_373
  let c0_i32_378 : BitVec 32 := 0#32
  let v712 : BitVec 1 := Scalar.cmpi .ne v711 c0_i32_378
  let v713 : BitVec 1 := Scalar.andi v710 v712
  let v699 : BitVec 32 := Scalar.divsi v2 c8_i32_373
  let c1_i32_379 : BitVec 32 := 1#32
  let v714 : BitVec 32 := Scalar.subi v699 c1_i32_379
  let v715 : BitVec 32 := Scalar.select v713 v714 v699
  let c0_i32_409 : BitVec 32 := 0#32
  let v768 : BitVec 32 := Scalar.xori v715 c0_i32_409
  let c8_i32_418 : BitVec 32 := 8#32
  let v782 : BitVec 32 := Scalar.muli v768 c8_i32_418
  let c8_i32_380 : BitVec 32 := 8#32
  let c0_i32_381 : BitVec 32 := 0#32
  let v716 : BitVec 1 := Scalar.cmpi .eq c8_i32_380 c0_i32_381
  let c1_i32_382 : BitVec 32 := 1#32
  let v717 : BitVec 32 := Scalar.select v716 c1_i32_382 c8_i32_380
  let v718 : BitVec 32 := Scalar.remsi v2 v717
  let c0_i32_384 : BitVec 32 := 0#32
  let v720 : BitVec 1 := Scalar.cmpi .slt v718 c0_i32_384
  let c0_i32_385 : BitVec 32 := 0#32
  let v721 : BitVec 1 := Scalar.cmpi .slt v717 c0_i32_385
  let v722 : BitVec 1 := Scalar.xori v720 v721
  let c0_i32_383 : BitVec 32 := 0#32
  let v719 : BitVec 1 := Scalar.cmpi .ne v718 c0_i32_383
  let v723 : BitVec 1 := Scalar.andi v722 v719
  let v724 : BitVec 32 := Scalar.addi v718 v717
  let v725 : BitVec 32 := Scalar.select v723 v724 v718
  let c0_i32_387 : BitVec 32 := 0#32
  let v727 : BitVec 1 := Scalar.cmpi .sgt v725 c0_i32_387
  let v728 : BitVec 32 := Scalar.extui v727
  let c0_i32_388 : BitVec 32 := 0#32
  let v729 : BitVec 1 := Scalar.cmpi .slt v725 c0_i32_388
  let v730 : BitVec 32 := Scalar.extui v729
  let v731 : BitVec 32 := Scalar.subi v728 v730
  let c2_i32_386 : BitVec 32 := 2#32
  let c0_i32_389 : BitVec 32 := 0#32
  let v732 : BitVec 1 := Scalar.cmpi .sgt c2_i32_386 c0_i32_389
  let v733 : BitVec 32 := Scalar.extui v732
  let c0_i32_390 : BitVec 32 := 0#32
  let v734 : BitVec 1 := Scalar.cmpi .slt c2_i32_386 c0_i32_390
  let v735 : BitVec 32 := Scalar.extui v734
  let v736 : BitVec 32 := Scalar.subi v733 v735
  let v737 : BitVec 1 := Scalar.cmpi .ne v731 v736
  let v738 : BitVec 32 := Scalar.remsi v725 c2_i32_386
  let c0_i32_391 : BitVec 32 := 0#32
  let v739 : BitVec 1 := Scalar.cmpi .ne v738 c0_i32_391
  let v740 : BitVec 1 := Scalar.andi v737 v739
  let v726 : BitVec 32 := Scalar.divsi v725 c2_i32_386
  let c1_i32_392 : BitVec 32 := 1#32
  let v741 : BitVec 32 := Scalar.subi v726 c1_i32_392
  let v742 : BitVec 32 := Scalar.select v740 v741 v726
  let c2_i32_408 : BitVec 32 := 2#32
  let v767 : BitVec 32 := Scalar.xori v742 c2_i32_408
  let c2_i32_419 : BitVec 32 := 2#32
  let v783 : BitVec 32 := Scalar.muli v767 c2_i32_419
  let v784 : BitVec 32 := Scalar.addi v782 v783
  let c2_i32_410 : BitVec 32 := 2#32
  let c0_i32_411 : BitVec 32 := 0#32
  let v769 : BitVec 1 := Scalar.cmpi .eq c2_i32_410 c0_i32_411
  let c1_i32_412 : BitVec 32 := 1#32
  let v770 : BitVec 32 := Scalar.select v769 c1_i32_412 c2_i32_410
  let v771 : BitVec 32 := Scalar.remsi v767 v770
  let c0_i32_414 : BitVec 32 := 0#32
  let v773 : BitVec 1 := Scalar.cmpi .slt v771 c0_i32_414
  let c0_i32_415 : BitVec 32 := 0#32
  let v774 : BitVec 1 := Scalar.cmpi .slt v770 c0_i32_415
  let v775 : BitVec 1 := Scalar.xori v773 v774
  let c0_i32_413 : BitVec 32 := 0#32
  let v772 : BitVec 1 := Scalar.cmpi .ne v771 c0_i32_413
  let v776 : BitVec 1 := Scalar.andi v775 v772
  let v777 : BitVec 32 := Scalar.addi v771 v770
  let v778 : BitVec 32 := Scalar.select v776 v777 v771
  let c0_i32_416 : BitVec 32 := 0#32
  let v779 : BitVec 1 := Scalar.cmpi .eq v778 c0_i32_416
  let c2_i32_399 : BitVec 32 := 2#32
  let c0_i32_400 : BitVec 32 := 0#32
  let v753 : BitVec 1 := Scalar.cmpi .eq c2_i32_399 c0_i32_400
  let c1_i32_401 : BitVec 32 := 1#32
  let v754 : BitVec 32 := Scalar.select v753 c1_i32_401 c2_i32_399
  let v755 : BitVec 32 := Scalar.remsi v742 v754
  let c0_i32_403 : BitVec 32 := 0#32
  let v757 : BitVec 1 := Scalar.cmpi .slt v755 c0_i32_403
  let c0_i32_404 : BitVec 32 := 0#32
  let v758 : BitVec 1 := Scalar.cmpi .slt v754 c0_i32_404
  let v759 : BitVec 1 := Scalar.xori v757 v758
  let c0_i32_402 : BitVec 32 := 0#32
  let v756 : BitVec 1 := Scalar.cmpi .ne v755 c0_i32_402
  let v760 : BitVec 1 := Scalar.andi v759 v756
  let v761 : BitVec 32 := Scalar.addi v755 v754
  let v762 : BitVec 32 := Scalar.select v760 v761 v755
  let c0_i32_405 : BitVec 32 := 0#32
  let v763 : BitVec 1 := Scalar.cmpi .eq v762 c0_i32_405
  let c2_i32_393 : BitVec 32 := 2#32
  let c0_i32_394 : BitVec 32 := 0#32
  let v743 : BitVec 1 := Scalar.cmpi .eq c2_i32_393 c0_i32_394
  let c1_i32_395 : BitVec 32 := 1#32
  let v744 : BitVec 32 := Scalar.select v743 c1_i32_395 c2_i32_393
  let v745 : BitVec 32 := Scalar.remsi v725 v744
  let c0_i32_397 : BitVec 32 := 0#32
  let v747 : BitVec 1 := Scalar.cmpi .slt v745 c0_i32_397
  let c0_i32_398 : BitVec 32 := 0#32
  let v748 : BitVec 1 := Scalar.cmpi .slt v744 c0_i32_398
  let v749 : BitVec 1 := Scalar.xori v747 v748
  let c0_i32_396 : BitVec 32 := 0#32
  let v746 : BitVec 1 := Scalar.cmpi .ne v745 c0_i32_396
  let v750 : BitVec 1 := Scalar.andi v749 v746
  let v751 : BitVec 32 := Scalar.addi v745 v744
  let v752 : BitVec 32 := Scalar.select v750 v751 v745
  let c1_i32_406 : BitVec 32 := 1#32
  let v764 : BitVec 32 := Scalar.subi c1_i32_406 v752
  let v765 : BitVec 32 := Scalar.select v763 v752 v764
  let c0_i32_407 : BitVec 32 := 0#32
  let v766 : BitVec 32 := Scalar.xori v765 c0_i32_407
  let c1_i32_417 : BitVec 32 := 1#32
  let v780 : BitVec 32 := Scalar.subi c1_i32_417 v766
  let v781 : BitVec 32 := Scalar.select v779 v766 v780
  let v785 : BitVec 32 := Scalar.addi v784 v781
  let c1_i32_674 : BitVec 32 := 1#32
  let v1080 : BitVec 32 := Scalar.muli v785 c1_i32_674
  let v1081 : BitVec 32 := Scalar.addi c0_i32_675 v1080
  v1081.toNat
def k0_dev20 (d0 : Dev nD) : Nat :=
  let c0_i32_684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_421 : BitVec 32 := 0#32
  let v787 : BitVec 1 := Scalar.cmpi .sgt v2 c0_i32_421
  let v788 : BitVec 32 := Scalar.extui v787
  let c0_i32_422 : BitVec 32 := 0#32
  let v789 : BitVec 1 := Scalar.cmpi .slt v2 c0_i32_422
  let v790 : BitVec 32 := Scalar.extui v789
  let v791 : BitVec 32 := Scalar.subi v788 v790
  let c8_i32_420 : BitVec 32 := 8#32
  let c0_i32_423 : BitVec 32 := 0#32
  let v792 : BitVec 1 := Scalar.cmpi .sgt c8_i32_420 c0_i32_423
  let v793 : BitVec 32 := Scalar.extui v792
  let c0_i32_424 : BitVec 32 := 0#32
  let v794 : BitVec 1 := Scalar.cmpi .slt c8_i32_420 c0_i32_424
  let v795 : BitVec 32 := Scalar.extui v794
  let v796 : BitVec 32 := Scalar.subi v793 v795
  let v797 : BitVec 1 := Scalar.cmpi .ne v791 v796
  let v798 : BitVec 32 := Scalar.remsi v2 c8_i32_420
  let c0_i32_425 : BitVec 32 := 0#32
  let v799 : BitVec 1 := Scalar.cmpi .ne v798 c0_i32_425
  let v800 : BitVec 1 := Scalar.andi v797 v799
  let v786 : BitVec 32 := Scalar.divsi v2 c8_i32_420
  let c1_i32_426 : BitVec 32 := 1#32
  let v801 : BitVec 32 := Scalar.subi v786 c1_i32_426
  let v802 : BitVec 32 := Scalar.select v800 v801 v786
  let c2_i32_456 : BitVec 32 := 2#32
  let v855 : BitVec 32 := Scalar.xori v802 c2_i32_456
  let c8_i32_465 : BitVec 32 := 8#32
  let v869 : BitVec 32 := Scalar.muli v855 c8_i32_465
  let c8_i32_427 : BitVec 32 := 8#32
  let c0_i32_428 : BitVec 32 := 0#32
  let v803 : BitVec 1 := Scalar.cmpi .eq c8_i32_427 c0_i32_428
  let c1_i32_429 : BitVec 32 := 1#32
  let v804 : BitVec 32 := Scalar.select v803 c1_i32_429 c8_i32_427
  let v805 : BitVec 32 := Scalar.remsi v2 v804
  let c0_i32_431 : BitVec 32 := 0#32
  let v807 : BitVec 1 := Scalar.cmpi .slt v805 c0_i32_431
  let c0_i32_432 : BitVec 32 := 0#32
  let v808 : BitVec 1 := Scalar.cmpi .slt v804 c0_i32_432
  let v809 : BitVec 1 := Scalar.xori v807 v808
  let c0_i32_430 : BitVec 32 := 0#32
  let v806 : BitVec 1 := Scalar.cmpi .ne v805 c0_i32_430
  let v810 : BitVec 1 := Scalar.andi v809 v806
  let v811 : BitVec 32 := Scalar.addi v805 v804
  let v812 : BitVec 32 := Scalar.select v810 v811 v805
  let c0_i32_434 : BitVec 32 := 0#32
  let v814 : BitVec 1 := Scalar.cmpi .sgt v812 c0_i32_434
  let v815 : BitVec 32 := Scalar.extui v814
  let c0_i32_435 : BitVec 32 := 0#32
  let v816 : BitVec 1 := Scalar.cmpi .slt v812 c0_i32_435
  let v817 : BitVec 32 := Scalar.extui v816
  let v818 : BitVec 32 := Scalar.subi v815 v817
  let c2_i32_433 : BitVec 32 := 2#32
  let c0_i32_436 : BitVec 32 := 0#32
  let v819 : BitVec 1 := Scalar.cmpi .sgt c2_i32_433 c0_i32_436
  let v820 : BitVec 32 := Scalar.extui v819
  let c0_i32_437 : BitVec 32 := 0#32
  let v821 : BitVec 1 := Scalar.cmpi .slt c2_i32_433 c0_i32_437
  let v822 : BitVec 32 := Scalar.extui v821
  let v823 : BitVec 32 := Scalar.subi v820 v822
  let v824 : BitVec 1 := Scalar.cmpi .ne v818 v823
  let v825 : BitVec 32 := Scalar.remsi v812 c2_i32_433
  let c0_i32_438 : BitVec 32 := 0#32
  let v826 : BitVec 1 := Scalar.cmpi .ne v825 c0_i32_438
  let v827 : BitVec 1 := Scalar.andi v824 v826
  let v813 : BitVec 32 := Scalar.divsi v812 c2_i32_433
  let c1_i32_439 : BitVec 32 := 1#32
  let v828 : BitVec 32 := Scalar.subi v813 c1_i32_439
  let v829 : BitVec 32 := Scalar.select v827 v828 v813
  let c0_i32_455 : BitVec 32 := 0#32
  let v854 : BitVec 32 := Scalar.xori v829 c0_i32_455
  let c2_i32_466 : BitVec 32 := 2#32
  let v870 : BitVec 32 := Scalar.muli v854 c2_i32_466
  let v871 : BitVec 32 := Scalar.addi v869 v870
  let c2_i32_457 : BitVec 32 := 2#32
  let c0_i32_458 : BitVec 32 := 0#32
  let v856 : BitVec 1 := Scalar.cmpi .eq c2_i32_457 c0_i32_458
  let c1_i32_459 : BitVec 32 := 1#32
  let v857 : BitVec 32 := Scalar.select v856 c1_i32_459 c2_i32_457
  let v858 : BitVec 32 := Scalar.remsi v854 v857
  let c0_i32_461 : BitVec 32 := 0#32
  let v860 : BitVec 1 := Scalar.cmpi .slt v858 c0_i32_461
  let c0_i32_462 : BitVec 32 := 0#32
  let v861 : BitVec 1 := Scalar.cmpi .slt v857 c0_i32_462
  let v862 : BitVec 1 := Scalar.xori v860 v861
  let c0_i32_460 : BitVec 32 := 0#32
  let v859 : BitVec 1 := Scalar.cmpi .ne v858 c0_i32_460
  let v863 : BitVec 1 := Scalar.andi v862 v859
  let v864 : BitVec 32 := Scalar.addi v858 v857
  let v865 : BitVec 32 := Scalar.select v863 v864 v858
  let c0_i32_463 : BitVec 32 := 0#32
  let v866 : BitVec 1 := Scalar.cmpi .eq v865 c0_i32_463
  let c2_i32_446 : BitVec 32 := 2#32
  let c0_i32_447 : BitVec 32 := 0#32
  let v840 : BitVec 1 := Scalar.cmpi .eq c2_i32_446 c0_i32_447
  let c1_i32_448 : BitVec 32 := 1#32
  let v841 : BitVec 32 := Scalar.select v840 c1_i32_448 c2_i32_446
  let v842 : BitVec 32 := Scalar.remsi v829 v841
  let c0_i32_450 : BitVec 32 := 0#32
  let v844 : BitVec 1 := Scalar.cmpi .slt v842 c0_i32_450
  let c0_i32_451 : BitVec 32 := 0#32
  let v845 : BitVec 1 := Scalar.cmpi .slt v841 c0_i32_451
  let v846 : BitVec 1 := Scalar.xori v844 v845
  let c0_i32_449 : BitVec 32 := 0#32
  let v843 : BitVec 1 := Scalar.cmpi .ne v842 c0_i32_449
  let v847 : BitVec 1 := Scalar.andi v846 v843
  let v848 : BitVec 32 := Scalar.addi v842 v841
  let v849 : BitVec 32 := Scalar.select v847 v848 v842
  let c0_i32_452 : BitVec 32 := 0#32
  let v850 : BitVec 1 := Scalar.cmpi .eq v849 c0_i32_452
  let c2_i32_440 : BitVec 32 := 2#32
  let c0_i32_441 : BitVec 32 := 0#32
  let v830 : BitVec 1 := Scalar.cmpi .eq c2_i32_440 c0_i32_441
  let c1_i32_442 : BitVec 32 := 1#32
  let v831 : BitVec 32 := Scalar.select v830 c1_i32_442 c2_i32_440
  let v832 : BitVec 32 := Scalar.remsi v812 v831
  let c0_i32_444 : BitVec 32 := 0#32
  let v834 : BitVec 1 := Scalar.cmpi .slt v832 c0_i32_444
  let c0_i32_445 : BitVec 32 := 0#32
  let v835 : BitVec 1 := Scalar.cmpi .slt v831 c0_i32_445
  let v836 : BitVec 1 := Scalar.xori v834 v835
  let c0_i32_443 : BitVec 32 := 0#32
  let v833 : BitVec 1 := Scalar.cmpi .ne v832 c0_i32_443
  let v837 : BitVec 1 := Scalar.andi v836 v833
  let v838 : BitVec 32 := Scalar.addi v832 v831
  let v839 : BitVec 32 := Scalar.select v837 v838 v832
  let c1_i32_453 : BitVec 32 := 1#32
  let v851 : BitVec 32 := Scalar.subi c1_i32_453 v839
  let v852 : BitVec 32 := Scalar.select v850 v839 v851
  let c0_i32_454 : BitVec 32 := 0#32
  let v853 : BitVec 32 := Scalar.xori v852 c0_i32_454
  let c1_i32_464 : BitVec 32 := 1#32
  let v867 : BitVec 32 := Scalar.subi c1_i32_464 v853
  let v868 : BitVec 32 := Scalar.select v866 v853 v867
  let v872 : BitVec 32 := Scalar.addi v871 v868
  let c1_i32_683 : BitVec 32 := 1#32
  let v1090 : BitVec 32 := Scalar.muli v872 c1_i32_683
  let v1091 : BitVec 32 := Scalar.addi c0_i32_684 v1090
  v1091.toNat
def k0_dev21 (d0 : Dev nD) : Nat :=
  let c0_i32_740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v72 : BitVec 32 := Scalar.xori v19 c1_i32_33
  let c8_i32_42 : BitVec 32 := 8#32
  let v86 : BitVec 32 := Scalar.muli v72 c8_i32_42
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v71 : BitVec 32 := Scalar.xori v46 c1_i32_32
  let c2_i32_43 : BitVec 32 := 2#32
  let v87 : BitVec 32 := Scalar.muli v71 c2_i32_43
  let v88 : BitVec 32 := Scalar.addi v86 v87
  let c2_i32_34 : BitVec 32 := 2#32
  let c0_i32_35 : BitVec 32 := 0#32
  let v73 : BitVec 1 := Scalar.cmpi .eq c2_i32_34 c0_i32_35
  let c1_i32_36 : BitVec 32 := 1#32
  let v74 : BitVec 32 := Scalar.select v73 c1_i32_36 c2_i32_34
  let v75 : BitVec 32 := Scalar.remsi v71 v74
  let c0_i32_38 : BitVec 32 := 0#32
  let v77 : BitVec 1 := Scalar.cmpi .slt v75 c0_i32_38
  let c0_i32_39 : BitVec 32 := 0#32
  let v78 : BitVec 1 := Scalar.cmpi .slt v74 c0_i32_39
  let v79 : BitVec 1 := Scalar.xori v77 v78
  let c0_i32_37 : BitVec 32 := 0#32
  let v76 : BitVec 1 := Scalar.cmpi .ne v75 c0_i32_37
  let v80 : BitVec 1 := Scalar.andi v79 v76
  let v81 : BitVec 32 := Scalar.addi v75 v74
  let v82 : BitVec 32 := Scalar.select v80 v81 v75
  let c0_i32_40 : BitVec 32 := 0#32
  let v83 : BitVec 1 := Scalar.cmpi .eq v82 c0_i32_40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 32 := Scalar.xori v69 c1_i32_31
  let c1_i32_41 : BitVec 32 := 1#32
  let v84 : BitVec 32 := Scalar.subi c1_i32_41 v70
  let v85 : BitVec 32 := Scalar.select v83 v70 v84
  let v89 : BitVec 32 := Scalar.addi v88 v85
  let c1_i32_739 : BitVec 32 := 1#32
  let v1152 : BitVec 32 := Scalar.muli v89 c1_i32_739
  let v1153 : BitVec 32 := Scalar.addi c0_i32_740 v1152
  v1153.toNat
def k0_dev22 (d0 : Dev nD) : Nat :=
  let c0_i32_749 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_45 : BitVec 32 := 0#32
  let v91 : BitVec 1 := Scalar.cmpi .sgt v2 c0_i32_45
  let v92 : BitVec 32 := Scalar.extui v91
  let c0_i32_46 : BitVec 32 := 0#32
  let v93 : BitVec 1 := Scalar.cmpi .slt v2 c0_i32_46
  let v94 : BitVec 32 := Scalar.extui v93
  let v95 : BitVec 32 := Scalar.subi v92 v94
  let c8_i32_44 : BitVec 32 := 8#32
  let c0_i32_47 : BitVec 32 := 0#32
  let v96 : BitVec 1 := Scalar.cmpi .sgt c8_i32_44 c0_i32_47
  let v97 : BitVec 32 := Scalar.extui v96
  let c0_i32_48 : BitVec 32 := 0#32
  let v98 : BitVec 1 := Scalar.cmpi .slt c8_i32_44 c0_i32_48
  let v99 : BitVec 32 := Scalar.extui v98
  let v100 : BitVec 32 := Scalar.subi v97 v99
  let v101 : BitVec 1 := Scalar.cmpi .ne v95 v100
  let v102 : BitVec 32 := Scalar.remsi v2 c8_i32_44
  let c0_i32_49 : BitVec 32 := 0#32
  let v103 : BitVec 1 := Scalar.cmpi .ne v102 c0_i32_49
  let v104 : BitVec 1 := Scalar.andi v101 v103
  let v90 : BitVec 32 := Scalar.divsi v2 c8_i32_44
  let c1_i32_50 : BitVec 32 := 1#32
  let v105 : BitVec 32 := Scalar.subi v90 c1_i32_50
  let v106 : BitVec 32 := Scalar.select v104 v105 v90
  let c0_i32_80 : BitVec 32 := 0#32
  let v159 : BitVec 32 := Scalar.xori v106 c0_i32_80
  let c8_i32_89 : BitVec 32 := 8#32
  let v173 : BitVec 32 := Scalar.muli v159 c8_i32_89
  let c8_i32_51 : BitVec 32 := 8#32
  let c0_i32_52 : BitVec 32 := 0#32
  let v107 : BitVec 1 := Scalar.cmpi .eq c8_i32_51 c0_i32_52
  let c1_i32_53 : BitVec 32 := 1#32
  let v108 : BitVec 32 := Scalar.select v107 c1_i32_53 c8_i32_51
  let v109 : BitVec 32 := Scalar.remsi v2 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c2_i32_57 : BitVec 32 := 2#32
  let c0_i32_60 : BitVec 32 := 0#32
  let v123 : BitVec 1 := Scalar.cmpi .sgt c2_i32_57 c0_i32_60
  let v124 : BitVec 32 := Scalar.extui v123
  let c0_i32_61 : BitVec 32 := 0#32
  let v125 : BitVec 1 := Scalar.cmpi .slt c2_i32_57 c0_i32_61
  let v126 : BitVec 32 := Scalar.extui v125
  let v127 : BitVec 32 := Scalar.subi v124 v126
  let v128 : BitVec 1 := Scalar.cmpi .ne v122 v127
  let v129 : BitVec 32 := Scalar.remsi v116 c2_i32_57
  let c0_i32_62 : BitVec 32 := 0#32
  let v130 : BitVec 1 := Scalar.cmpi .ne v129 c0_i32_62
  let v131 : BitVec 1 := Scalar.andi v128 v130
  let v117 : BitVec 32 := Scalar.divsi v116 c2_i32_57
  let c1_i32_63 : BitVec 32 := 1#32
  let v132 : BitVec 32 := Scalar.subi v117 c1_i32_63
  let v133 : BitVec 32 := Scalar.select v131 v132 v117
  let c1_i32_79 : BitVec 32 := 1#32
  let v158 : BitVec 32 := Scalar.xori v133 c1_i32_79
  let c2_i32_90 : BitVec 32 := 2#32
  let v174 : BitVec 32 := Scalar.muli v158 c2_i32_90
  let v175 : BitVec 32 := Scalar.addi v173 v174
  let c2_i32_81 : BitVec 32 := 2#32
  let c0_i32_82 : BitVec 32 := 0#32
  let v160 : BitVec 1 := Scalar.cmpi .eq c2_i32_81 c0_i32_82
  let c1_i32_83 : BitVec 32 := 1#32
  let v161 : BitVec 32 := Scalar.select v160 c1_i32_83 c2_i32_81
  let v162 : BitVec 32 := Scalar.remsi v158 v161
  let c0_i32_85 : BitVec 32 := 0#32
  let v164 : BitVec 1 := Scalar.cmpi .slt v162 c0_i32_85
  let c0_i32_86 : BitVec 32 := 0#32
  let v165 : BitVec 1 := Scalar.cmpi .slt v161 c0_i32_86
  let v166 : BitVec 1 := Scalar.xori v164 v165
  let c0_i32_84 : BitVec 32 := 0#32
  let v163 : BitVec 1 := Scalar.cmpi .ne v162 c0_i32_84
  let v167 : BitVec 1 := Scalar.andi v166 v163
  let v168 : BitVec 32 := Scalar.addi v162 v161
  let v169 : BitVec 32 := Scalar.select v167 v168 v162
  let c0_i32_87 : BitVec 32 := 0#32
  let v170 : BitVec 1 := Scalar.cmpi .eq v169 c0_i32_87
  let c2_i32_70 : BitVec 32 := 2#32
  let c0_i32_71 : BitVec 32 := 0#32
  let v144 : BitVec 1 := Scalar.cmpi .eq c2_i32_70 c0_i32_71
  let c1_i32_72 : BitVec 32 := 1#32
  let v145 : BitVec 32 := Scalar.select v144 c1_i32_72 c2_i32_70
  let v146 : BitVec 32 := Scalar.remsi v133 v145
  let c0_i32_74 : BitVec 32 := 0#32
  let v148 : BitVec 1 := Scalar.cmpi .slt v146 c0_i32_74
  let c0_i32_75 : BitVec 32 := 0#32
  let v149 : BitVec 1 := Scalar.cmpi .slt v145 c0_i32_75
  let v150 : BitVec 1 := Scalar.xori v148 v149
  let c0_i32_73 : BitVec 32 := 0#32
  let v147 : BitVec 1 := Scalar.cmpi .ne v146 c0_i32_73
  let v151 : BitVec 1 := Scalar.andi v150 v147
  let v152 : BitVec 32 := Scalar.addi v146 v145
  let v153 : BitVec 32 := Scalar.select v151 v152 v146
  let c0_i32_76 : BitVec 32 := 0#32
  let v154 : BitVec 1 := Scalar.cmpi .eq v153 c0_i32_76
  let c2_i32_64 : BitVec 32 := 2#32
  let c0_i32_65 : BitVec 32 := 0#32
  let v134 : BitVec 1 := Scalar.cmpi .eq c2_i32_64 c0_i32_65
  let c1_i32_66 : BitVec 32 := 1#32
  let v135 : BitVec 32 := Scalar.select v134 c1_i32_66 c2_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c1_i32_77 : BitVec 32 := 1#32
  let v155 : BitVec 32 := Scalar.subi c1_i32_77 v143
  let v156 : BitVec 32 := Scalar.select v154 v143 v155
  let c1_i32_78 : BitVec 32 := 1#32
  let v157 : BitVec 32 := Scalar.xori v156 c1_i32_78
  let c1_i32_88 : BitVec 32 := 1#32
  let v171 : BitVec 32 := Scalar.subi c1_i32_88 v157
  let v172 : BitVec 32 := Scalar.select v170 v157 v171
  let v176 : BitVec 32 := Scalar.addi v175 v172
  let c1_i32_748 : BitVec 32 := 1#32
  let v1162 : BitVec 32 := Scalar.muli v176 c1_i32_748
  let v1163 : BitVec 32 := Scalar.addi c0_i32_749 v1162
  v1163.toNat
def k0_dev23 (d0 : Dev nD) : Nat :=
  let c0_i32_758 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_92 : BitVec 32 := 0#32
  let v178 : BitVec 1 := Scalar.cmpi .sgt v2 c0_i32_92
  let v179 : BitVec 32 := Scalar.extui v178
  let c0_i32_93 : BitVec 32 := 0#32
  let v180 : BitVec 1 := Scalar.cmpi .slt v2 c0_i32_93
  let v181 : BitVec 32 := Scalar.extui v180
  let v182 : BitVec 32 := Scalar.subi v179 v181
  let c8_i32_91 : BitVec 32 := 8#32
  let c0_i32_94 : BitVec 32 := 0#32
  let v183 : BitVec 1 := Scalar.cmpi .sgt c8_i32_91 c0_i32_94
  let v184 : BitVec 32 := Scalar.extui v183
  let c0_i32_95 : BitVec 32 := 0#32
  let v185 : BitVec 1 := Scalar.cmpi .slt c8_i32_91 c0_i32_95
  let v186 : BitVec 32 := Scalar.extui v185
  let v187 : BitVec 32 := Scalar.subi v184 v186
  let v188 : BitVec 1 := Scalar.cmpi .ne v182 v187
  let v189 : BitVec 32 := Scalar.remsi v2 c8_i32_91
  let c0_i32_96 : BitVec 32 := 0#32
  let v190 : BitVec 1 := Scalar.cmpi .ne v189 c0_i32_96
  let v191 : BitVec 1 := Scalar.andi v188 v190
  let v177 : BitVec 32 := Scalar.divsi v2 c8_i32_91
  let c1_i32_97 : BitVec 32 := 1#32
  let v192 : BitVec 32 := Scalar.subi v177 c1_i32_97
  let v193 : BitVec 32 := Scalar.select v191 v192 v177
  let c1_i32_127 : BitVec 32 := 1#32
  let v246 : BitVec 32 := Scalar.xori v193 c1_i32_127
  let c8_i32_136 : BitVec 32 := 8#32
  let v260 : BitVec 32 := Scalar.muli v246 c8_i32_136
  let c8_i32_98 : BitVec 32 := 8#32
  let c0_i32_99 : BitVec 32 := 0#32
  let v194 : BitVec 1 := Scalar.cmpi .eq c8_i32_98 c0_i32_99
  let c1_i32_100 : BitVec 32 := 1#32
  let v195 : BitVec 32 := Scalar.select v194 c1_i32_100 c8_i32_98
  let v196 : BitVec 32 := Scalar.remsi v2 v195
  let c0_i32_102 : BitVec 32 := 0#32
  let v198 : BitVec 1 := Scalar.cmpi .slt v196 c0_i32_102
  let c0_i32_103 : BitVec 32 := 0#32
  let v199 : BitVec 1 := Scalar.cmpi .slt v195 c0_i32_103
  let v200 : BitVec 1 := Scalar.xori v198 v199
  let c0_i32_101 : BitVec 32 := 0#32
  let v197 : BitVec 1 := Scalar.cmpi .ne v196 c0_i32_101
  let v201 : BitVec 1 := Scalar.andi v200 v197
  let v202 : BitVec 32 := Scalar.addi v196 v195
  let v203 : BitVec 32 := Scalar.select v201 v202 v196
  let c0_i32_105 : BitVec 32 := 0#32
  let v205 : BitVec 1 := Scalar.cmpi .sgt v203 c0_i32_105
  let v206 : BitVec 32 := Scalar.extui v205
  let c0_i32_106 : BitVec 32 := 0#32
  let v207 : BitVec 1 := Scalar.cmpi .slt v203 c0_i32_106
  let v208 : BitVec 32 := Scalar.extui v207
  let v209 : BitVec 32 := Scalar.subi v206 v208
  let c2_i32_104 : BitVec 32 := 2#32
  let c0_i32_107 : BitVec 32 := 0#32
  let v210 : BitVec 1 := Scalar.cmpi .sgt c2_i32_104 c0_i32_107
  let v211 : BitVec 32 := Scalar.extui v210
  let c0_i32_108 : BitVec 32 := 0#32
  let v212 : BitVec 1 := Scalar.cmpi .slt c2_i32_104 c0_i32_108
  let v213 : BitVec 32 := Scalar.extui v212
  let v214 : BitVec 32 := Scalar.subi v211 v213
  let v215 : BitVec 1 := Scalar.cmpi .ne v209 v214
  let v216 : BitVec 32 := Scalar.remsi v203 c2_i32_104
  let c0_i32_109 : BitVec 32 := 0#32
  let v217 : BitVec 1 := Scalar.cmpi .ne v216 c0_i32_109
  let v218 : BitVec 1 := Scalar.andi v215 v217
  let v204 : BitVec 32 := Scalar.divsi v203 c2_i32_104
  let c1_i32_110 : BitVec 32 := 1#32
  let v219 : BitVec 32 := Scalar.subi v204 c1_i32_110
  let v220 : BitVec 32 := Scalar.select v218 v219 v204
  let c0_i32_126 : BitVec 32 := 0#32
  let v245 : BitVec 32 := Scalar.xori v220 c0_i32_126
  let c2_i32_137 : BitVec 32 := 2#32
  let v261 : BitVec 32 := Scalar.muli v245 c2_i32_137
  let v262 : BitVec 32 := Scalar.addi v260 v261
  let c2_i32_128 : BitVec 32 := 2#32
  let c0_i32_129 : BitVec 32 := 0#32
  let v247 : BitVec 1 := Scalar.cmpi .eq c2_i32_128 c0_i32_129
  let c1_i32_130 : BitVec 32 := 1#32
  let v248 : BitVec 32 := Scalar.select v247 c1_i32_130 c2_i32_128
  let v249 : BitVec 32 := Scalar.remsi v245 v248
  let c0_i32_132 : BitVec 32 := 0#32
  let v251 : BitVec 1 := Scalar.cmpi .slt v249 c0_i32_132
  let c0_i32_133 : BitVec 32 := 0#32
  let v252 : BitVec 1 := Scalar.cmpi .slt v248 c0_i32_133
  let v253 : BitVec 1 := Scalar.xori v251 v252
  let c0_i32_131 : BitVec 32 := 0#32
  let v250 : BitVec 1 := Scalar.cmpi .ne v249 c0_i32_131
  let v254 : BitVec 1 := Scalar.andi v253 v250
  let v255 : BitVec 32 := Scalar.addi v249 v248
  let v256 : BitVec 32 := Scalar.select v254 v255 v249
  let c0_i32_134 : BitVec 32 := 0#32
  let v257 : BitVec 1 := Scalar.cmpi .eq v256 c0_i32_134
  let c2_i32_117 : BitVec 32 := 2#32
  let c0_i32_118 : BitVec 32 := 0#32
  let v231 : BitVec 1 := Scalar.cmpi .eq c2_i32_117 c0_i32_118
  let c1_i32_119 : BitVec 32 := 1#32
  let v232 : BitVec 32 := Scalar.select v231 c1_i32_119 c2_i32_117
  let v233 : BitVec 32 := Scalar.remsi v220 v232
  let c0_i32_121 : BitVec 32 := 0#32
  let v235 : BitVec 1 := Scalar.cmpi .slt v233 c0_i32_121
  let c0_i32_122 : BitVec 32 := 0#32
  let v236 : BitVec 1 := Scalar.cmpi .slt v232 c0_i32_122
  let v237 : BitVec 1 := Scalar.xori v235 v236
  let c0_i32_120 : BitVec 32 := 0#32
  let v234 : BitVec 1 := Scalar.cmpi .ne v233 c0_i32_120
  let v238 : BitVec 1 := Scalar.andi v237 v234
  let v239 : BitVec 32 := Scalar.addi v233 v232
  let v240 : BitVec 32 := Scalar.select v238 v239 v233
  let c0_i32_123 : BitVec 32 := 0#32
  let v241 : BitVec 1 := Scalar.cmpi .eq v240 c0_i32_123
  let c2_i32_111 : BitVec 32 := 2#32
  let c0_i32_112 : BitVec 32 := 0#32
  let v221 : BitVec 1 := Scalar.cmpi .eq c2_i32_111 c0_i32_112
  let c1_i32_113 : BitVec 32 := 1#32
  let v222 : BitVec 32 := Scalar.select v221 c1_i32_113 c2_i32_111
  let v223 : BitVec 32 := Scalar.remsi v203 v222
  let c0_i32_115 : BitVec 32 := 0#32
  let v225 : BitVec 1 := Scalar.cmpi .slt v223 c0_i32_115
  let c0_i32_116 : BitVec 32 := 0#32
  let v226 : BitVec 1 := Scalar.cmpi .slt v222 c0_i32_116
  let v227 : BitVec 1 := Scalar.xori v225 v226
  let c0_i32_114 : BitVec 32 := 0#32
  let v224 : BitVec 1 := Scalar.cmpi .ne v223 c0_i32_114
  let v228 : BitVec 1 := Scalar.andi v227 v224
  let v229 : BitVec 32 := Scalar.addi v223 v222
  let v230 : BitVec 32 := Scalar.select v228 v229 v223
  let c1_i32_124 : BitVec 32 := 1#32
  let v242 : BitVec 32 := Scalar.subi c1_i32_124 v230
  let v243 : BitVec 32 := Scalar.select v241 v230 v242
  let c1_i32_125 : BitVec 32 := 1#32
  let v244 : BitVec 32 := Scalar.xori v243 c1_i32_125
  let c1_i32_135 : BitVec 32 := 1#32
  let v258 : BitVec 32 := Scalar.subi c1_i32_135 v244
  let v259 : BitVec 32 := Scalar.select v257 v244 v258
  let v263 : BitVec 32 := Scalar.addi v262 v259
  let c1_i32_757 : BitVec 32 := 1#32
  let v1172 : BitVec 32 := Scalar.muli v263 c1_i32_757
  let v1173 : BitVec 32 := Scalar.addi c0_i32_758 v1172
  v1173.toNat
def k0_dev24 (d0 : Dev nD) : Nat :=
  let c0_i32_767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_139 : BitVec 32 := 0#32
  let v265 : BitVec 1 := Scalar.cmpi .sgt v2 c0_i32_139
  let v266 : BitVec 32 := Scalar.extui v265
  let c0_i32_140 : BitVec 32 := 0#32
  let v267 : BitVec 1 := Scalar.cmpi .slt v2 c0_i32_140
  let v268 : BitVec 32 := Scalar.extui v267
  let v269 : BitVec 32 := Scalar.subi v266 v268
  let c8_i32_138 : BitVec 32 := 8#32
  let c0_i32_141 : BitVec 32 := 0#32
  let v270 : BitVec 1 := Scalar.cmpi .sgt c8_i32_138 c0_i32_141
  let v271 : BitVec 32 := Scalar.extui v270
  let c0_i32_142 : BitVec 32 := 0#32
  let v272 : BitVec 1 := Scalar.cmpi .slt c8_i32_138 c0_i32_142
  let v273 : BitVec 32 := Scalar.extui v272
  let v274 : BitVec 32 := Scalar.subi v271 v273
  let v275 : BitVec 1 := Scalar.cmpi .ne v269 v274
  let v276 : BitVec 32 := Scalar.remsi v2 c8_i32_138
  let c0_i32_143 : BitVec 32 := 0#32
  let v277 : BitVec 1 := Scalar.cmpi .ne v276 c0_i32_143
  let v278 : BitVec 1 := Scalar.andi v275 v277
  let v264 : BitVec 32 := Scalar.divsi v2 c8_i32_138
  let c1_i32_144 : BitVec 32 := 1#32
  let v279 : BitVec 32 := Scalar.subi v264 c1_i32_144
  let v280 : BitVec 32 := Scalar.select v278 v279 v264
  let c1_i32_174 : BitVec 32 := 1#32
  let v333 : BitVec 32 := Scalar.xori v280 c1_i32_174
  let c8_i32_183 : BitVec 32 := 8#32
  let v347 : BitVec 32 := Scalar.muli v333 c8_i32_183
  let c8_i32_145 : BitVec 32 := 8#32
  let c0_i32_146 : BitVec 32 := 0#32
  let v281 : BitVec 1 := Scalar.cmpi .eq c8_i32_145 c0_i32_146
  let c1_i32_147 : BitVec 32 := 1#32
  let v282 : BitVec 32 := Scalar.select v281 c1_i32_147 c8_i32_145
  let v283 : BitVec 32 := Scalar.remsi v2 v282
  let c0_i32_149 : BitVec 32 := 0#32
  let v285 : BitVec 1 := Scalar.cmpi .slt v283 c0_i32_149
  let c0_i32_150 : BitVec 32 := 0#32
  let v286 : BitVec 1 := Scalar.cmpi .slt v282 c0_i32_150
  let v287 : BitVec 1 := Scalar.xori v285 v286
  let c0_i32_148 : BitVec 32 := 0#32
  let v284 : BitVec 1 := Scalar.cmpi .ne v283 c0_i32_148
  let v288 : BitVec 1 := Scalar.andi v287 v284
  let v289 : BitVec 32 := Scalar.addi v283 v282
  let v290 : BitVec 32 := Scalar.select v288 v289 v283
  let c0_i32_152 : BitVec 32 := 0#32
  let v292 : BitVec 1 := Scalar.cmpi .sgt v290 c0_i32_152
  let v293 : BitVec 32 := Scalar.extui v292
  let c0_i32_153 : BitVec 32 := 0#32
  let v294 : BitVec 1 := Scalar.cmpi .slt v290 c0_i32_153
  let v295 : BitVec 32 := Scalar.extui v294
  let v296 : BitVec 32 := Scalar.subi v293 v295
  let c2_i32_151 : BitVec 32 := 2#32
  let c0_i32_154 : BitVec 32 := 0#32
  let v297 : BitVec 1 := Scalar.cmpi .sgt c2_i32_151 c0_i32_154
  let v298 : BitVec 32 := Scalar.extui v297
  let c0_i32_155 : BitVec 32 := 0#32
  let v299 : BitVec 1 := Scalar.cmpi .slt c2_i32_151 c0_i32_155
  let v300 : BitVec 32 := Scalar.extui v299
  let v301 : BitVec 32 := Scalar.subi v298 v300
  let v302 : BitVec 1 := Scalar.cmpi .ne v296 v301
  let v303 : BitVec 32 := Scalar.remsi v290 c2_i32_151
  let c0_i32_156 : BitVec 32 := 0#32
  let v304 : BitVec 1 := Scalar.cmpi .ne v303 c0_i32_156
  let v305 : BitVec 1 := Scalar.andi v302 v304
  let v291 : BitVec 32 := Scalar.divsi v290 c2_i32_151
  let c1_i32_157 : BitVec 32 := 1#32
  let v306 : BitVec 32 := Scalar.subi v291 c1_i32_157
  let v307 : BitVec 32 := Scalar.select v305 v306 v291
  let c1_i32_173 : BitVec 32 := 1#32
  let v332 : BitVec 32 := Scalar.xori v307 c1_i32_173
  let c2_i32_184 : BitVec 32 := 2#32
  let v348 : BitVec 32 := Scalar.muli v332 c2_i32_184
  let v349 : BitVec 32 := Scalar.addi v347 v348
  let c2_i32_175 : BitVec 32 := 2#32
  let c0_i32_176 : BitVec 32 := 0#32
  let v334 : BitVec 1 := Scalar.cmpi .eq c2_i32_175 c0_i32_176
  let c1_i32_177 : BitVec 32 := 1#32
  let v335 : BitVec 32 := Scalar.select v334 c1_i32_177 c2_i32_175
  let v336 : BitVec 32 := Scalar.remsi v332 v335
  let c0_i32_179 : BitVec 32 := 0#32
  let v338 : BitVec 1 := Scalar.cmpi .slt v336 c0_i32_179
  let c0_i32_180 : BitVec 32 := 0#32
  let v339 : BitVec 1 := Scalar.cmpi .slt v335 c0_i32_180
  let v340 : BitVec 1 := Scalar.xori v338 v339
  let c0_i32_178 : BitVec 32 := 0#32
  let v337 : BitVec 1 := Scalar.cmpi .ne v336 c0_i32_178
  let v341 : BitVec 1 := Scalar.andi v340 v337
  let v342 : BitVec 32 := Scalar.addi v336 v335
  let v343 : BitVec 32 := Scalar.select v341 v342 v336
  let c0_i32_181 : BitVec 32 := 0#32
  let v344 : BitVec 1 := Scalar.cmpi .eq v343 c0_i32_181
  let c2_i32_164 : BitVec 32 := 2#32
  let c0_i32_165 : BitVec 32 := 0#32
  let v318 : BitVec 1 := Scalar.cmpi .eq c2_i32_164 c0_i32_165
  let c1_i32_166 : BitVec 32 := 1#32
  let v319 : BitVec 32 := Scalar.select v318 c1_i32_166 c2_i32_164
  let v320 : BitVec 32 := Scalar.remsi v307 v319
  let c0_i32_168 : BitVec 32 := 0#32
  let v322 : BitVec 1 := Scalar.cmpi .slt v320 c0_i32_168
  let c0_i32_169 : BitVec 32 := 0#32
  let v323 : BitVec 1 := Scalar.cmpi .slt v319 c0_i32_169
  let v324 : BitVec 1 := Scalar.xori v322 v323
  let c0_i32_167 : BitVec 32 := 0#32
  let v321 : BitVec 1 := Scalar.cmpi .ne v320 c0_i32_167
  let v325 : BitVec 1 := Scalar.andi v324 v321
  let v326 : BitVec 32 := Scalar.addi v320 v319
  let v327 : BitVec 32 := Scalar.select v325 v326 v320
  let c0_i32_170 : BitVec 32 := 0#32
  let v328 : BitVec 1 := Scalar.cmpi .eq v327 c0_i32_170
  let c2_i32_158 : BitVec 32 := 2#32
  let c0_i32_159 : BitVec 32 := 0#32
  let v308 : BitVec 1 := Scalar.cmpi .eq c2_i32_158 c0_i32_159
  let c1_i32_160 : BitVec 32 := 1#32
  let v309 : BitVec 32 := Scalar.select v308 c1_i32_160 c2_i32_158
  let v310 : BitVec 32 := Scalar.remsi v290 v309
  let c0_i32_162 : BitVec 32 := 0#32
  let v312 : BitVec 1 := Scalar.cmpi .slt v310 c0_i32_162
  let c0_i32_163 : BitVec 32 := 0#32
  let v313 : BitVec 1 := Scalar.cmpi .slt v309 c0_i32_163
  let v314 : BitVec 1 := Scalar.xori v312 v313
  let c0_i32_161 : BitVec 32 := 0#32
  let v311 : BitVec 1 := Scalar.cmpi .ne v310 c0_i32_161
  let v315 : BitVec 1 := Scalar.andi v314 v311
  let v316 : BitVec 32 := Scalar.addi v310 v309
  let v317 : BitVec 32 := Scalar.select v315 v316 v310
  let c1_i32_171 : BitVec 32 := 1#32
  let v329 : BitVec 32 := Scalar.subi c1_i32_171 v317
  let v330 : BitVec 32 := Scalar.select v328 v317 v329
  let c0_i32_172 : BitVec 32 := 0#32
  let v331 : BitVec 32 := Scalar.xori v330 c0_i32_172
  let c1_i32_182 : BitVec 32 := 1#32
  let v345 : BitVec 32 := Scalar.subi c1_i32_182 v331
  let v346 : BitVec 32 := Scalar.select v344 v331 v345
  let v350 : BitVec 32 := Scalar.addi v349 v346
  let c1_i32_766 : BitVec 32 := 1#32
  let v1182 : BitVec 32 := Scalar.muli v350 c1_i32_766
  let v1183 : BitVec 32 := Scalar.addi c0_i32_767 v1182
  v1183.toNat
def k0_dev25 (d0 : Dev nD) : Nat :=
  let c0_i32_776 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_186 : BitVec 32 := 0#32
  let v352 : BitVec 1 := Scalar.cmpi .sgt v2 c0_i32_186
  let v353 : BitVec 32 := Scalar.extui v352
  let c0_i32_187 : BitVec 32 := 0#32
  let v354 : BitVec 1 := Scalar.cmpi .slt v2 c0_i32_187
  let v355 : BitVec 32 := Scalar.extui v354
  let v356 : BitVec 32 := Scalar.subi v353 v355
  let c8_i32_185 : BitVec 32 := 8#32
  let c0_i32_188 : BitVec 32 := 0#32
  let v357 : BitVec 1 := Scalar.cmpi .sgt c8_i32_185 c0_i32_188
  let v358 : BitVec 32 := Scalar.extui v357
  let c0_i32_189 : BitVec 32 := 0#32
  let v359 : BitVec 1 := Scalar.cmpi .slt c8_i32_185 c0_i32_189
  let v360 : BitVec 32 := Scalar.extui v359
  let v361 : BitVec 32 := Scalar.subi v358 v360
  let v362 : BitVec 1 := Scalar.cmpi .ne v356 v361
  let v363 : BitVec 32 := Scalar.remsi v2 c8_i32_185
  let c0_i32_190 : BitVec 32 := 0#32
  let v364 : BitVec 1 := Scalar.cmpi .ne v363 c0_i32_190
  let v365 : BitVec 1 := Scalar.andi v362 v364
  let v351 : BitVec 32 := Scalar.divsi v2 c8_i32_185
  let c1_i32_191 : BitVec 32 := 1#32
  let v366 : BitVec 32 := Scalar.subi v351 c1_i32_191
  let v367 : BitVec 32 := Scalar.select v365 v366 v351
  let c0_i32_221 : BitVec 32 := 0#32
  let v420 : BitVec 32 := Scalar.xori v367 c0_i32_221
  let c8_i32_230 : BitVec 32 := 8#32
  let v434 : BitVec 32 := Scalar.muli v420 c8_i32_230
  let c8_i32_192 : BitVec 32 := 8#32
  let c0_i32_193 : BitVec 32 := 0#32
  let v368 : BitVec 1 := Scalar.cmpi .eq c8_i32_192 c0_i32_193
  let c1_i32_194 : BitVec 32 := 1#32
  let v369 : BitVec 32 := Scalar.select v368 c1_i32_194 c8_i32_192
  let v370 : BitVec 32 := Scalar.remsi v2 v369
  let c0_i32_196 : BitVec 32 := 0#32
  let v372 : BitVec 1 := Scalar.cmpi .slt v370 c0_i32_196
  let c0_i32_197 : BitVec 32 := 0#32
  let v373 : BitVec 1 := Scalar.cmpi .slt v369 c0_i32_197
  let v374 : BitVec 1 := Scalar.xori v372 v373
  let c0_i32_195 : BitVec 32 := 0#32
  let v371 : BitVec 1 := Scalar.cmpi .ne v370 c0_i32_195
  let v375 : BitVec 1 := Scalar.andi v374 v371
  let v376 : BitVec 32 := Scalar.addi v370 v369
  let v377 : BitVec 32 := Scalar.select v375 v376 v370
  let c0_i32_199 : BitVec 32 := 0#32
  let v379 : BitVec 1 := Scalar.cmpi .sgt v377 c0_i32_199
  let v380 : BitVec 32 := Scalar.extui v379
  let c0_i32_200 : BitVec 32 := 0#32
  let v381 : BitVec 1 := Scalar.cmpi .slt v377 c0_i32_200
  let v382 : BitVec 32 := Scalar.extui v381
  let v383 : BitVec 32 := Scalar.subi v380 v382
  let c2_i32_198 : BitVec 32 := 2#32
  let c0_i32_201 : BitVec 32 := 0#32
  let v384 : BitVec 1 := Scalar.cmpi .sgt c2_i32_198 c0_i32_201
  let v385 : BitVec 32 := Scalar.extui v384
  let c0_i32_202 : BitVec 32 := 0#32
  let v386 : BitVec 1 := Scalar.cmpi .slt c2_i32_198 c0_i32_202
  let v387 : BitVec 32 := Scalar.extui v386
  let v388 : BitVec 32 := Scalar.subi v385 v387
  let v389 : BitVec 1 := Scalar.cmpi .ne v383 v388
  let v390 : BitVec 32 := Scalar.remsi v377 c2_i32_198
  let c0_i32_203 : BitVec 32 := 0#32
  let v391 : BitVec 1 := Scalar.cmpi .ne v390 c0_i32_203
  let v392 : BitVec 1 := Scalar.andi v389 v391
  let v378 : BitVec 32 := Scalar.divsi v377 c2_i32_198
  let c1_i32_204 : BitVec 32 := 1#32
  let v393 : BitVec 32 := Scalar.subi v378 c1_i32_204
  let v394 : BitVec 32 := Scalar.select v392 v393 v378
  let c0_i32_220 : BitVec 32 := 0#32
  let v419 : BitVec 32 := Scalar.xori v394 c0_i32_220
  let c2_i32_231 : BitVec 32 := 2#32
  let v435 : BitVec 32 := Scalar.muli v419 c2_i32_231
  let v436 : BitVec 32 := Scalar.addi v434 v435
  let c2_i32_222 : BitVec 32 := 2#32
  let c0_i32_223 : BitVec 32 := 0#32
  let v421 : BitVec 1 := Scalar.cmpi .eq c2_i32_222 c0_i32_223
  let c1_i32_224 : BitVec 32 := 1#32
  let v422 : BitVec 32 := Scalar.select v421 c1_i32_224 c2_i32_222
  let v423 : BitVec 32 := Scalar.remsi v419 v422
  let c0_i32_226 : BitVec 32 := 0#32
  let v425 : BitVec 1 := Scalar.cmpi .slt v423 c0_i32_226
  let c0_i32_227 : BitVec 32 := 0#32
  let v426 : BitVec 1 := Scalar.cmpi .slt v422 c0_i32_227
  let v427 : BitVec 1 := Scalar.xori v425 v426
  let c0_i32_225 : BitVec 32 := 0#32
  let v424 : BitVec 1 := Scalar.cmpi .ne v423 c0_i32_225
  let v428 : BitVec 1 := Scalar.andi v427 v424
  let v429 : BitVec 32 := Scalar.addi v423 v422
  let v430 : BitVec 32 := Scalar.select v428 v429 v423
  let c0_i32_228 : BitVec 32 := 0#32
  let v431 : BitVec 1 := Scalar.cmpi .eq v430 c0_i32_228
  let c2_i32_211 : BitVec 32 := 2#32
  let c0_i32_212 : BitVec 32 := 0#32
  let v405 : BitVec 1 := Scalar.cmpi .eq c2_i32_211 c0_i32_212
  let c1_i32_213 : BitVec 32 := 1#32
  let v406 : BitVec 32 := Scalar.select v405 c1_i32_213 c2_i32_211
  let v407 : BitVec 32 := Scalar.remsi v394 v406
  let c0_i32_215 : BitVec 32 := 0#32
  let v409 : BitVec 1 := Scalar.cmpi .slt v407 c0_i32_215
  let c0_i32_216 : BitVec 32 := 0#32
  let v410 : BitVec 1 := Scalar.cmpi .slt v406 c0_i32_216
  let v411 : BitVec 1 := Scalar.xori v409 v410
  let c0_i32_214 : BitVec 32 := 0#32
  let v408 : BitVec 1 := Scalar.cmpi .ne v407 c0_i32_214
  let v412 : BitVec 1 := Scalar.andi v411 v408
  let v413 : BitVec 32 := Scalar.addi v407 v406
  let v414 : BitVec 32 := Scalar.select v412 v413 v407
  let c0_i32_217 : BitVec 32 := 0#32
  let v415 : BitVec 1 := Scalar.cmpi .eq v414 c0_i32_217
  let c2_i32_205 : BitVec 32 := 2#32
  let c0_i32_206 : BitVec 32 := 0#32
  let v395 : BitVec 1 := Scalar.cmpi .eq c2_i32_205 c0_i32_206
  let c1_i32_207 : BitVec 32 := 1#32
  let v396 : BitVec 32 := Scalar.select v395 c1_i32_207 c2_i32_205
  let v397 : BitVec 32 := Scalar.remsi v377 v396
  let c0_i32_209 : BitVec 32 := 0#32
  let v399 : BitVec 1 := Scalar.cmpi .slt v397 c0_i32_209
  let c0_i32_210 : BitVec 32 := 0#32
  let v400 : BitVec 1 := Scalar.cmpi .slt v396 c0_i32_210
  let v401 : BitVec 1 := Scalar.xori v399 v400
  let c0_i32_208 : BitVec 32 := 0#32
  let v398 : BitVec 1 := Scalar.cmpi .ne v397 c0_i32_208
  let v402 : BitVec 1 := Scalar.andi v401 v398
  let v403 : BitVec 32 := Scalar.addi v397 v396
  let v404 : BitVec 32 := Scalar.select v402 v403 v397
  let c1_i32_218 : BitVec 32 := 1#32
  let v416 : BitVec 32 := Scalar.subi c1_i32_218 v404
  let v417 : BitVec 32 := Scalar.select v415 v404 v416
  let c1_i32_219 : BitVec 32 := 1#32
  let v418 : BitVec 32 := Scalar.xori v417 c1_i32_219
  let c1_i32_229 : BitVec 32 := 1#32
  let v432 : BitVec 32 := Scalar.subi c1_i32_229 v418
  let v433 : BitVec 32 := Scalar.select v431 v418 v432
  let v437 : BitVec 32 := Scalar.addi v436 v433
  let c1_i32_775 : BitVec 32 := 1#32
  let v1192 : BitVec 32 := Scalar.muli v437 c1_i32_775
  let v1193 : BitVec 32 := Scalar.addi c0_i32_776 v1192
  v1193.toNat
def k0_dev26 (d0 : Dev nD) : Nat :=
  let c0_i32_785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_233 : BitVec 32 := 0#32
  let v439 : BitVec 1 := Scalar.cmpi .sgt v2 c0_i32_233
  let v440 : BitVec 32 := Scalar.extui v439
  let c0_i32_234 : BitVec 32 := 0#32
  let v441 : BitVec 1 := Scalar.cmpi .slt v2 c0_i32_234
  let v442 : BitVec 32 := Scalar.extui v441
  let v443 : BitVec 32 := Scalar.subi v440 v442
  let c8_i32_232 : BitVec 32 := 8#32
  let c0_i32_235 : BitVec 32 := 0#32
  let v444 : BitVec 1 := Scalar.cmpi .sgt c8_i32_232 c0_i32_235
  let v445 : BitVec 32 := Scalar.extui v444
  let c0_i32_236 : BitVec 32 := 0#32
  let v446 : BitVec 1 := Scalar.cmpi .slt c8_i32_232 c0_i32_236
  let v447 : BitVec 32 := Scalar.extui v446
  let v448 : BitVec 32 := Scalar.subi v445 v447
  let v449 : BitVec 1 := Scalar.cmpi .ne v443 v448
  let v450 : BitVec 32 := Scalar.remsi v2 c8_i32_232
  let c0_i32_237 : BitVec 32 := 0#32
  let v451 : BitVec 1 := Scalar.cmpi .ne v450 c0_i32_237
  let v452 : BitVec 1 := Scalar.andi v449 v451
  let v438 : BitVec 32 := Scalar.divsi v2 c8_i32_232
  let c1_i32_238 : BitVec 32 := 1#32
  let v453 : BitVec 32 := Scalar.subi v438 c1_i32_238
  let v454 : BitVec 32 := Scalar.select v452 v453 v438
  let c0_i32_268 : BitVec 32 := 0#32
  let v507 : BitVec 32 := Scalar.xori v454 c0_i32_268
  let c8_i32_277 : BitVec 32 := 8#32
  let v521 : BitVec 32 := Scalar.muli v507 c8_i32_277
  let c8_i32_239 : BitVec 32 := 8#32
  let c0_i32_240 : BitVec 32 := 0#32
  let v455 : BitVec 1 := Scalar.cmpi .eq c8_i32_239 c0_i32_240
  let c1_i32_241 : BitVec 32 := 1#32
  let v456 : BitVec 32 := Scalar.select v455 c1_i32_241 c8_i32_239
  let v457 : BitVec 32 := Scalar.remsi v2 v456
  let c0_i32_243 : BitVec 32 := 0#32
  let v459 : BitVec 1 := Scalar.cmpi .slt v457 c0_i32_243
  let c0_i32_244 : BitVec 32 := 0#32
  let v460 : BitVec 1 := Scalar.cmpi .slt v456 c0_i32_244
  let v461 : BitVec 1 := Scalar.xori v459 v460
  let c0_i32_242 : BitVec 32 := 0#32
  let v458 : BitVec 1 := Scalar.cmpi .ne v457 c0_i32_242
  let v462 : BitVec 1 := Scalar.andi v461 v458
  let v463 : BitVec 32 := Scalar.addi v457 v456
  let v464 : BitVec 32 := Scalar.select v462 v463 v457
  let c0_i32_246 : BitVec 32 := 0#32
  let v466 : BitVec 1 := Scalar.cmpi .sgt v464 c0_i32_246
  let v467 : BitVec 32 := Scalar.extui v466
  let c0_i32_247 : BitVec 32 := 0#32
  let v468 : BitVec 1 := Scalar.cmpi .slt v464 c0_i32_247
  let v469 : BitVec 32 := Scalar.extui v468
  let v470 : BitVec 32 := Scalar.subi v467 v469
  let c2_i32_245 : BitVec 32 := 2#32
  let c0_i32_248 : BitVec 32 := 0#32
  let v471 : BitVec 1 := Scalar.cmpi .sgt c2_i32_245 c0_i32_248
  let v472 : BitVec 32 := Scalar.extui v471
  let c0_i32_249 : BitVec 32 := 0#32
  let v473 : BitVec 1 := Scalar.cmpi .slt c2_i32_245 c0_i32_249
  let v474 : BitVec 32 := Scalar.extui v473
  let v475 : BitVec 32 := Scalar.subi v472 v474
  let v476 : BitVec 1 := Scalar.cmpi .ne v470 v475
  let v477 : BitVec 32 := Scalar.remsi v464 c2_i32_245
  let c0_i32_250 : BitVec 32 := 0#32
  let v478 : BitVec 1 := Scalar.cmpi .ne v477 c0_i32_250
  let v479 : BitVec 1 := Scalar.andi v476 v478
  let v465 : BitVec 32 := Scalar.divsi v464 c2_i32_245
  let c1_i32_251 : BitVec 32 := 1#32
  let v480 : BitVec 32 := Scalar.subi v465 c1_i32_251
  let v481 : BitVec 32 := Scalar.select v479 v480 v465
  let c1_i32_267 : BitVec 32 := 1#32
  let v506 : BitVec 32 := Scalar.xori v481 c1_i32_267
  let c2_i32_278 : BitVec 32 := 2#32
  let v522 : BitVec 32 := Scalar.muli v506 c2_i32_278
  let v523 : BitVec 32 := Scalar.addi v521 v522
  let c2_i32_269 : BitVec 32 := 2#32
  let c0_i32_270 : BitVec 32 := 0#32
  let v508 : BitVec 1 := Scalar.cmpi .eq c2_i32_269 c0_i32_270
  let c1_i32_271 : BitVec 32 := 1#32
  let v509 : BitVec 32 := Scalar.select v508 c1_i32_271 c2_i32_269
  let v510 : BitVec 32 := Scalar.remsi v506 v509
  let c0_i32_273 : BitVec 32 := 0#32
  let v512 : BitVec 1 := Scalar.cmpi .slt v510 c0_i32_273
  let c0_i32_274 : BitVec 32 := 0#32
  let v513 : BitVec 1 := Scalar.cmpi .slt v509 c0_i32_274
  let v514 : BitVec 1 := Scalar.xori v512 v513
  let c0_i32_272 : BitVec 32 := 0#32
  let v511 : BitVec 1 := Scalar.cmpi .ne v510 c0_i32_272
  let v515 : BitVec 1 := Scalar.andi v514 v511
  let v516 : BitVec 32 := Scalar.addi v510 v509
  let v517 : BitVec 32 := Scalar.select v515 v516 v510
  let c0_i32_275 : BitVec 32 := 0#32
  let v518 : BitVec 1 := Scalar.cmpi .eq v517 c0_i32_275
  let c2_i32_258 : BitVec 32 := 2#32
  let c0_i32_259 : BitVec 32 := 0#32
  let v492 : BitVec 1 := Scalar.cmpi .eq c2_i32_258 c0_i32_259
  let c1_i32_260 : BitVec 32 := 1#32
  let v493 : BitVec 32 := Scalar.select v492 c1_i32_260 c2_i32_258
  let v494 : BitVec 32 := Scalar.remsi v481 v493
  let c0_i32_262 : BitVec 32 := 0#32
  let v496 : BitVec 1 := Scalar.cmpi .slt v494 c0_i32_262
  let c0_i32_263 : BitVec 32 := 0#32
  let v497 : BitVec 1 := Scalar.cmpi .slt v493 c0_i32_263
  let v498 : BitVec 1 := Scalar.xori v496 v497
  let c0_i32_261 : BitVec 32 := 0#32
  let v495 : BitVec 1 := Scalar.cmpi .ne v494 c0_i32_261
  let v499 : BitVec 1 := Scalar.andi v498 v495
  let v500 : BitVec 32 := Scalar.addi v494 v493
  let v501 : BitVec 32 := Scalar.select v499 v500 v494
  let c0_i32_264 : BitVec 32 := 0#32
  let v502 : BitVec 1 := Scalar.cmpi .eq v501 c0_i32_264
  let c2_i32_252 : BitVec 32 := 2#32
  let c0_i32_253 : BitVec 32 := 0#32
  let v482 : BitVec 1 := Scalar.cmpi .eq c2_i32_252 c0_i32_253
  let c1_i32_254 : BitVec 32 := 1#32
  let v483 : BitVec 32 := Scalar.select v482 c1_i32_254 c2_i32_252
  let v484 : BitVec 32 := Scalar.remsi v464 v483
  let c0_i32_256 : BitVec 32 := 0#32
  let v486 : BitVec 1 := Scalar.cmpi .slt v484 c0_i32_256
  let c0_i32_257 : BitVec 32 := 0#32
  let v487 : BitVec 1 := Scalar.cmpi .slt v483 c0_i32_257
  let v488 : BitVec 1 := Scalar.xori v486 v487
  let c0_i32_255 : BitVec 32 := 0#32
  let v485 : BitVec 1 := Scalar.cmpi .ne v484 c0_i32_255
  let v489 : BitVec 1 := Scalar.andi v488 v485
  let v490 : BitVec 32 := Scalar.addi v484 v483
  let v491 : BitVec 32 := Scalar.select v489 v490 v484
  let c1_i32_265 : BitVec 32 := 1#32
  let v503 : BitVec 32 := Scalar.subi c1_i32_265 v491
  let v504 : BitVec 32 := Scalar.select v502 v491 v503
  let c0_i32_266 : BitVec 32 := 0#32
  let v505 : BitVec 32 := Scalar.xori v504 c0_i32_266
  let c1_i32_276 : BitVec 32 := 1#32
  let v519 : BitVec 32 := Scalar.subi c1_i32_276 v505
  let v520 : BitVec 32 := Scalar.select v518 v505 v519
  let v524 : BitVec 32 := Scalar.addi v523 v520
  let c1_i32_784 : BitVec 32 := 1#32
  let v1202 : BitVec 32 := Scalar.muli v524 c1_i32_784
  let v1203 : BitVec 32 := Scalar.addi c0_i32_785 v1202
  v1203.toNat
def k0_dev27 (d0 : Dev nD) : Nat :=
  let c0_i32_794 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_280 : BitVec 32 := 0#32
  let v526 : BitVec 1 := Scalar.cmpi .sgt v2 c0_i32_280
  let v527 : BitVec 32 := Scalar.extui v526
  let c0_i32_281 : BitVec 32 := 0#32
  let v528 : BitVec 1 := Scalar.cmpi .slt v2 c0_i32_281
  let v529 : BitVec 32 := Scalar.extui v528
  let v530 : BitVec 32 := Scalar.subi v527 v529
  let c8_i32_279 : BitVec 32 := 8#32
  let c0_i32_282 : BitVec 32 := 0#32
  let v531 : BitVec 1 := Scalar.cmpi .sgt c8_i32_279 c0_i32_282
  let v532 : BitVec 32 := Scalar.extui v531
  let c0_i32_283 : BitVec 32 := 0#32
  let v533 : BitVec 1 := Scalar.cmpi .slt c8_i32_279 c0_i32_283
  let v534 : BitVec 32 := Scalar.extui v533
  let v535 : BitVec 32 := Scalar.subi v532 v534
  let v536 : BitVec 1 := Scalar.cmpi .ne v530 v535
  let v537 : BitVec 32 := Scalar.remsi v2 c8_i32_279
  let c0_i32_284 : BitVec 32 := 0#32
  let v538 : BitVec 1 := Scalar.cmpi .ne v537 c0_i32_284
  let v539 : BitVec 1 := Scalar.andi v536 v538
  let v525 : BitVec 32 := Scalar.divsi v2 c8_i32_279
  let c1_i32_285 : BitVec 32 := 1#32
  let v540 : BitVec 32 := Scalar.subi v525 c1_i32_285
  let v541 : BitVec 32 := Scalar.select v539 v540 v525
  let c1_i32_315 : BitVec 32 := 1#32
  let v594 : BitVec 32 := Scalar.xori v541 c1_i32_315
  let c8_i32_324 : BitVec 32 := 8#32
  let v608 : BitVec 32 := Scalar.muli v594 c8_i32_324
  let c8_i32_286 : BitVec 32 := 8#32
  let c0_i32_287 : BitVec 32 := 0#32
  let v542 : BitVec 1 := Scalar.cmpi .eq c8_i32_286 c0_i32_287
  let c1_i32_288 : BitVec 32 := 1#32
  let v543 : BitVec 32 := Scalar.select v542 c1_i32_288 c8_i32_286
  let v544 : BitVec 32 := Scalar.remsi v2 v543
  let c0_i32_290 : BitVec 32 := 0#32
  let v546 : BitVec 1 := Scalar.cmpi .slt v544 c0_i32_290
  let c0_i32_291 : BitVec 32 := 0#32
  let v547 : BitVec 1 := Scalar.cmpi .slt v543 c0_i32_291
  let v548 : BitVec 1 := Scalar.xori v546 v547
  let c0_i32_289 : BitVec 32 := 0#32
  let v545 : BitVec 1 := Scalar.cmpi .ne v544 c0_i32_289
  let v549 : BitVec 1 := Scalar.andi v548 v545
  let v550 : BitVec 32 := Scalar.addi v544 v543
  let v551 : BitVec 32 := Scalar.select v549 v550 v544
  let c0_i32_293 : BitVec 32 := 0#32
  let v553 : BitVec 1 := Scalar.cmpi .sgt v551 c0_i32_293
  let v554 : BitVec 32 := Scalar.extui v553
  let c0_i32_294 : BitVec 32 := 0#32
  let v555 : BitVec 1 := Scalar.cmpi .slt v551 c0_i32_294
  let v556 : BitVec 32 := Scalar.extui v555
  let v557 : BitVec 32 := Scalar.subi v554 v556
  let c2_i32_292 : BitVec 32 := 2#32
  let c0_i32_295 : BitVec 32 := 0#32
  let v558 : BitVec 1 := Scalar.cmpi .sgt c2_i32_292 c0_i32_295
  let v559 : BitVec 32 := Scalar.extui v558
  let c0_i32_296 : BitVec 32 := 0#32
  let v560 : BitVec 1 := Scalar.cmpi .slt c2_i32_292 c0_i32_296
  let v561 : BitVec 32 := Scalar.extui v560
  let v562 : BitVec 32 := Scalar.subi v559 v561
  let v563 : BitVec 1 := Scalar.cmpi .ne v557 v562
  let v564 : BitVec 32 := Scalar.remsi v551 c2_i32_292
  let c0_i32_297 : BitVec 32 := 0#32
  let v565 : BitVec 1 := Scalar.cmpi .ne v564 c0_i32_297
  let v566 : BitVec 1 := Scalar.andi v563 v565
  let v552 : BitVec 32 := Scalar.divsi v551 c2_i32_292
  let c1_i32_298 : BitVec 32 := 1#32
  let v567 : BitVec 32 := Scalar.subi v552 c1_i32_298
  let v568 : BitVec 32 := Scalar.select v566 v567 v552
  let c0_i32_314 : BitVec 32 := 0#32
  let v593 : BitVec 32 := Scalar.xori v568 c0_i32_314
  let c2_i32_325 : BitVec 32 := 2#32
  let v609 : BitVec 32 := Scalar.muli v593 c2_i32_325
  let v610 : BitVec 32 := Scalar.addi v608 v609
  let c2_i32_316 : BitVec 32 := 2#32
  let c0_i32_317 : BitVec 32 := 0#32
  let v595 : BitVec 1 := Scalar.cmpi .eq c2_i32_316 c0_i32_317
  let c1_i32_318 : BitVec 32 := 1#32
  let v596 : BitVec 32 := Scalar.select v595 c1_i32_318 c2_i32_316
  let v597 : BitVec 32 := Scalar.remsi v593 v596
  let c0_i32_320 : BitVec 32 := 0#32
  let v599 : BitVec 1 := Scalar.cmpi .slt v597 c0_i32_320
  let c0_i32_321 : BitVec 32 := 0#32
  let v600 : BitVec 1 := Scalar.cmpi .slt v596 c0_i32_321
  let v601 : BitVec 1 := Scalar.xori v599 v600
  let c0_i32_319 : BitVec 32 := 0#32
  let v598 : BitVec 1 := Scalar.cmpi .ne v597 c0_i32_319
  let v602 : BitVec 1 := Scalar.andi v601 v598
  let v603 : BitVec 32 := Scalar.addi v597 v596
  let v604 : BitVec 32 := Scalar.select v602 v603 v597
  let c0_i32_322 : BitVec 32 := 0#32
  let v605 : BitVec 1 := Scalar.cmpi .eq v604 c0_i32_322
  let c2_i32_305 : BitVec 32 := 2#32
  let c0_i32_306 : BitVec 32 := 0#32
  let v579 : BitVec 1 := Scalar.cmpi .eq c2_i32_305 c0_i32_306
  let c1_i32_307 : BitVec 32 := 1#32
  let v580 : BitVec 32 := Scalar.select v579 c1_i32_307 c2_i32_305
  let v581 : BitVec 32 := Scalar.remsi v568 v580
  let c0_i32_309 : BitVec 32 := 0#32
  let v583 : BitVec 1 := Scalar.cmpi .slt v581 c0_i32_309
  let c0_i32_310 : BitVec 32 := 0#32
  let v584 : BitVec 1 := Scalar.cmpi .slt v580 c0_i32_310
  let v585 : BitVec 1 := Scalar.xori v583 v584
  let c0_i32_308 : BitVec 32 := 0#32
  let v582 : BitVec 1 := Scalar.cmpi .ne v581 c0_i32_308
  let v586 : BitVec 1 := Scalar.andi v585 v582
  let v587 : BitVec 32 := Scalar.addi v581 v580
  let v588 : BitVec 32 := Scalar.select v586 v587 v581
  let c0_i32_311 : BitVec 32 := 0#32
  let v589 : BitVec 1 := Scalar.cmpi .eq v588 c0_i32_311
  let c2_i32_299 : BitVec 32 := 2#32
  let c0_i32_300 : BitVec 32 := 0#32
  let v569 : BitVec 1 := Scalar.cmpi .eq c2_i32_299 c0_i32_300
  let c1_i32_301 : BitVec 32 := 1#32
  let v570 : BitVec 32 := Scalar.select v569 c1_i32_301 c2_i32_299
  let v571 : BitVec 32 := Scalar.remsi v551 v570
  let c0_i32_303 : BitVec 32 := 0#32
  let v573 : BitVec 1 := Scalar.cmpi .slt v571 c0_i32_303
  let c0_i32_304 : BitVec 32 := 0#32
  let v574 : BitVec 1 := Scalar.cmpi .slt v570 c0_i32_304
  let v575 : BitVec 1 := Scalar.xori v573 v574
  let c0_i32_302 : BitVec 32 := 0#32
  let v572 : BitVec 1 := Scalar.cmpi .ne v571 c0_i32_302
  let v576 : BitVec 1 := Scalar.andi v575 v572
  let v577 : BitVec 32 := Scalar.addi v571 v570
  let v578 : BitVec 32 := Scalar.select v576 v577 v571
  let c1_i32_312 : BitVec 32 := 1#32
  let v590 : BitVec 32 := Scalar.subi c1_i32_312 v578
  let v591 : BitVec 32 := Scalar.select v589 v578 v590
  let c0_i32_313 : BitVec 32 := 0#32
  let v592 : BitVec 32 := Scalar.xori v591 c0_i32_313
  let c1_i32_323 : BitVec 32 := 1#32
  let v606 : BitVec 32 := Scalar.subi c1_i32_323 v592
  let v607 : BitVec 32 := Scalar.select v605 v592 v606
  let v611 : BitVec 32 := Scalar.addi v610 v607
  let c1_i32_793 : BitVec 32 := 1#32
  let v1212 : BitVec 32 := Scalar.muli v611 c1_i32_793
  let v1213 : BitVec 32 := Scalar.addi c0_i32_794 v1212
  v1213.toNat
def k0_dev28 (d0 : Dev nD) : Nat :=
  let c0_i32_890 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_327 : BitVec 32 := 0#32
  let v613 : BitVec 1 := Scalar.cmpi .sgt v2 c0_i32_327
  let v614 : BitVec 32 := Scalar.extui v613
  let c0_i32_328 : BitVec 32 := 0#32
  let v615 : BitVec 1 := Scalar.cmpi .slt v2 c0_i32_328
  let v616 : BitVec 32 := Scalar.extui v615
  let v617 : BitVec 32 := Scalar.subi v614 v616
  let c8_i32_326 : BitVec 32 := 8#32
  let c0_i32_329 : BitVec 32 := 0#32
  let v618 : BitVec 1 := Scalar.cmpi .sgt c8_i32_326 c0_i32_329
  let v619 : BitVec 32 := Scalar.extui v618
  let c0_i32_330 : BitVec 32 := 0#32
  let v620 : BitVec 1 := Scalar.cmpi .slt c8_i32_326 c0_i32_330
  let v621 : BitVec 32 := Scalar.extui v620
  let v622 : BitVec 32 := Scalar.subi v619 v621
  let v623 : BitVec 1 := Scalar.cmpi .ne v617 v622
  let v624 : BitVec 32 := Scalar.remsi v2 c8_i32_326
  let c0_i32_331 : BitVec 32 := 0#32
  let v625 : BitVec 1 := Scalar.cmpi .ne v624 c0_i32_331
  let v626 : BitVec 1 := Scalar.andi v623 v625
  let v612 : BitVec 32 := Scalar.divsi v2 c8_i32_326
  let c1_i32_332 : BitVec 32 := 1#32
  let v627 : BitVec 32 := Scalar.subi v612 c1_i32_332
  let v628 : BitVec 32 := Scalar.select v626 v627 v612
  let c2_i32_362 : BitVec 32 := 2#32
  let v681 : BitVec 32 := Scalar.xori v628 c2_i32_362
  let c8_i32_371 : BitVec 32 := 8#32
  let v695 : BitVec 32 := Scalar.muli v681 c8_i32_371
  let c8_i32_333 : BitVec 32 := 8#32
  let c0_i32_334 : BitVec 32 := 0#32
  let v629 : BitVec 1 := Scalar.cmpi .eq c8_i32_333 c0_i32_334
  let c1_i32_335 : BitVec 32 := 1#32
  let v630 : BitVec 32 := Scalar.select v629 c1_i32_335 c8_i32_333
  let v631 : BitVec 32 := Scalar.remsi v2 v630
  let c0_i32_337 : BitVec 32 := 0#32
  let v633 : BitVec 1 := Scalar.cmpi .slt v631 c0_i32_337
  let c0_i32_338 : BitVec 32 := 0#32
  let v634 : BitVec 1 := Scalar.cmpi .slt v630 c0_i32_338
  let v635 : BitVec 1 := Scalar.xori v633 v634
  let c0_i32_336 : BitVec 32 := 0#32
  let v632 : BitVec 1 := Scalar.cmpi .ne v631 c0_i32_336
  let v636 : BitVec 1 := Scalar.andi v635 v632
  let v637 : BitVec 32 := Scalar.addi v631 v630
  let v638 : BitVec 32 := Scalar.select v636 v637 v631
  let c0_i32_340 : BitVec 32 := 0#32
  let v640 : BitVec 1 := Scalar.cmpi .sgt v638 c0_i32_340
  let v641 : BitVec 32 := Scalar.extui v640
  let c0_i32_341 : BitVec 32 := 0#32
  let v642 : BitVec 1 := Scalar.cmpi .slt v638 c0_i32_341
  let v643 : BitVec 32 := Scalar.extui v642
  let v644 : BitVec 32 := Scalar.subi v641 v643
  let c2_i32_339 : BitVec 32 := 2#32
  let c0_i32_342 : BitVec 32 := 0#32
  let v645 : BitVec 1 := Scalar.cmpi .sgt c2_i32_339 c0_i32_342
  let v646 : BitVec 32 := Scalar.extui v645
  let c0_i32_343 : BitVec 32 := 0#32
  let v647 : BitVec 1 := Scalar.cmpi .slt c2_i32_339 c0_i32_343
  let v648 : BitVec 32 := Scalar.extui v647
  let v649 : BitVec 32 := Scalar.subi v646 v648
  let v650 : BitVec 1 := Scalar.cmpi .ne v644 v649
  let v651 : BitVec 32 := Scalar.remsi v638 c2_i32_339
  let c0_i32_344 : BitVec 32 := 0#32
  let v652 : BitVec 1 := Scalar.cmpi .ne v651 c0_i32_344
  let v653 : BitVec 1 := Scalar.andi v650 v652
  let v639 : BitVec 32 := Scalar.divsi v638 c2_i32_339
  let c1_i32_345 : BitVec 32 := 1#32
  let v654 : BitVec 32 := Scalar.subi v639 c1_i32_345
  let v655 : BitVec 32 := Scalar.select v653 v654 v639
  let c2_i32_361 : BitVec 32 := 2#32
  let v680 : BitVec 32 := Scalar.xori v655 c2_i32_361
  let c2_i32_372 : BitVec 32 := 2#32
  let v696 : BitVec 32 := Scalar.muli v680 c2_i32_372
  let v697 : BitVec 32 := Scalar.addi v695 v696
  let c2_i32_363 : BitVec 32 := 2#32
  let c0_i32_364 : BitVec 32 := 0#32
  let v682 : BitVec 1 := Scalar.cmpi .eq c2_i32_363 c0_i32_364
  let c1_i32_365 : BitVec 32 := 1#32
  let v683 : BitVec 32 := Scalar.select v682 c1_i32_365 c2_i32_363
  let v684 : BitVec 32 := Scalar.remsi v680 v683
  let c0_i32_367 : BitVec 32 := 0#32
  let v686 : BitVec 1 := Scalar.cmpi .slt v684 c0_i32_367
  let c0_i32_368 : BitVec 32 := 0#32
  let v687 : BitVec 1 := Scalar.cmpi .slt v683 c0_i32_368
  let v688 : BitVec 1 := Scalar.xori v686 v687
  let c0_i32_366 : BitVec 32 := 0#32
  let v685 : BitVec 1 := Scalar.cmpi .ne v684 c0_i32_366
  let v689 : BitVec 1 := Scalar.andi v688 v685
  let v690 : BitVec 32 := Scalar.addi v684 v683
  let v691 : BitVec 32 := Scalar.select v689 v690 v684
  let c0_i32_369 : BitVec 32 := 0#32
  let v692 : BitVec 1 := Scalar.cmpi .eq v691 c0_i32_369
  let c2_i32_352 : BitVec 32 := 2#32
  let c0_i32_353 : BitVec 32 := 0#32
  let v666 : BitVec 1 := Scalar.cmpi .eq c2_i32_352 c0_i32_353
  let c1_i32_354 : BitVec 32 := 1#32
  let v667 : BitVec 32 := Scalar.select v666 c1_i32_354 c2_i32_352
  let v668 : BitVec 32 := Scalar.remsi v655 v667
  let c0_i32_356 : BitVec 32 := 0#32
  let v670 : BitVec 1 := Scalar.cmpi .slt v668 c0_i32_356
  let c0_i32_357 : BitVec 32 := 0#32
  let v671 : BitVec 1 := Scalar.cmpi .slt v667 c0_i32_357
  let v672 : BitVec 1 := Scalar.xori v670 v671
  let c0_i32_355 : BitVec 32 := 0#32
  let v669 : BitVec 1 := Scalar.cmpi .ne v668 c0_i32_355
  let v673 : BitVec 1 := Scalar.andi v672 v669
  let v674 : BitVec 32 := Scalar.addi v668 v667
  let v675 : BitVec 32 := Scalar.select v673 v674 v668
  let c0_i32_358 : BitVec 32 := 0#32
  let v676 : BitVec 1 := Scalar.cmpi .eq v675 c0_i32_358
  let c2_i32_346 : BitVec 32 := 2#32
  let c0_i32_347 : BitVec 32 := 0#32
  let v656 : BitVec 1 := Scalar.cmpi .eq c2_i32_346 c0_i32_347
  let c1_i32_348 : BitVec 32 := 1#32
  let v657 : BitVec 32 := Scalar.select v656 c1_i32_348 c2_i32_346
  let v658 : BitVec 32 := Scalar.remsi v638 v657
  let c0_i32_350 : BitVec 32 := 0#32
  let v660 : BitVec 1 := Scalar.cmpi .slt v658 c0_i32_350
  let c0_i32_351 : BitVec 32 := 0#32
  let v661 : BitVec 1 := Scalar.cmpi .slt v657 c0_i32_351
  let v662 : BitVec 1 := Scalar.xori v660 v661
  let c0_i32_349 : BitVec 32 := 0#32
  let v659 : BitVec 1 := Scalar.cmpi .ne v658 c0_i32_349
  let v663 : BitVec 1 := Scalar.andi v662 v659
  let v664 : BitVec 32 := Scalar.addi v658 v657
  let v665 : BitVec 32 := Scalar.select v663 v664 v658
  let c1_i32_359 : BitVec 32 := 1#32
  let v677 : BitVec 32 := Scalar.subi c1_i32_359 v665
  let v678 : BitVec 32 := Scalar.select v676 v665 v677
  let c0_i32_360 : BitVec 32 := 0#32
  let v679 : BitVec 32 := Scalar.xori v678 c0_i32_360
  let c1_i32_370 : BitVec 32 := 1#32
  let v693 : BitVec 32 := Scalar.subi c1_i32_370 v679
  let v694 : BitVec 32 := Scalar.select v692 v679 v693
  let v698 : BitVec 32 := Scalar.addi v697 v694
  let c1_i32_889 : BitVec 32 := 1#32
  let v1310 : BitVec 32 := Scalar.muli v698 c1_i32_889
  let v1311 : BitVec 32 := Scalar.addi c0_i32_890 v1310
  v1311.toNat
def k0_dev29 (d0 : Dev nD) : Nat :=
  let c0_i32_899 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_374 : BitVec 32 := 0#32
  let v700 : BitVec 1 := Scalar.cmpi .sgt v2 c0_i32_374
  let v701 : BitVec 32 := Scalar.extui v700
  let c0_i32_375 : BitVec 32 := 0#32
  let v702 : BitVec 1 := Scalar.cmpi .slt v2 c0_i32_375
  let v703 : BitVec 32 := Scalar.extui v702
  let v704 : BitVec 32 := Scalar.subi v701 v703
  let c8_i32_373 : BitVec 32 := 8#32
  let c0_i32_376 : BitVec 32 := 0#32
  let v705 : BitVec 1 := Scalar.cmpi .sgt c8_i32_373 c0_i32_376
  let v706 : BitVec 32 := Scalar.extui v705
  let c0_i32_377 : BitVec 32 := 0#32
  let v707 : BitVec 1 := Scalar.cmpi .slt c8_i32_373 c0_i32_377
  let v708 : BitVec 32 := Scalar.extui v707
  let v709 : BitVec 32 := Scalar.subi v706 v708
  let v710 : BitVec 1 := Scalar.cmpi .ne v704 v709
  let v711 : BitVec 32 := Scalar.remsi v2 c8_i32_373
  let c0_i32_378 : BitVec 32 := 0#32
  let v712 : BitVec 1 := Scalar.cmpi .ne v711 c0_i32_378
  let v713 : BitVec 1 := Scalar.andi v710 v712
  let v699 : BitVec 32 := Scalar.divsi v2 c8_i32_373
  let c1_i32_379 : BitVec 32 := 1#32
  let v714 : BitVec 32 := Scalar.subi v699 c1_i32_379
  let v715 : BitVec 32 := Scalar.select v713 v714 v699
  let c0_i32_409 : BitVec 32 := 0#32
  let v768 : BitVec 32 := Scalar.xori v715 c0_i32_409
  let c8_i32_418 : BitVec 32 := 8#32
  let v782 : BitVec 32 := Scalar.muli v768 c8_i32_418
  let c8_i32_380 : BitVec 32 := 8#32
  let c0_i32_381 : BitVec 32 := 0#32
  let v716 : BitVec 1 := Scalar.cmpi .eq c8_i32_380 c0_i32_381
  let c1_i32_382 : BitVec 32 := 1#32
  let v717 : BitVec 32 := Scalar.select v716 c1_i32_382 c8_i32_380
  let v718 : BitVec 32 := Scalar.remsi v2 v717
  let c0_i32_384 : BitVec 32 := 0#32
  let v720 : BitVec 1 := Scalar.cmpi .slt v718 c0_i32_384
  let c0_i32_385 : BitVec 32 := 0#32
  let v721 : BitVec 1 := Scalar.cmpi .slt v717 c0_i32_385
  let v722 : BitVec 1 := Scalar.xori v720 v721
  let c0_i32_383 : BitVec 32 := 0#32
  let v719 : BitVec 1 := Scalar.cmpi .ne v718 c0_i32_383
  let v723 : BitVec 1 := Scalar.andi v722 v719
  let v724 : BitVec 32 := Scalar.addi v718 v717
  let v725 : BitVec 32 := Scalar.select v723 v724 v718
  let c0_i32_387 : BitVec 32 := 0#32
  let v727 : BitVec 1 := Scalar.cmpi .sgt v725 c0_i32_387
  let v728 : BitVec 32 := Scalar.extui v727
  let c0_i32_388 : BitVec 32 := 0#32
  let v729 : BitVec 1 := Scalar.cmpi .slt v725 c0_i32_388
  let v730 : BitVec 32 := Scalar.extui v729
  let v731 : BitVec 32 := Scalar.subi v728 v730
  let c2_i32_386 : BitVec 32 := 2#32
  let c0_i32_389 : BitVec 32 := 0#32
  let v732 : BitVec 1 := Scalar.cmpi .sgt c2_i32_386 c0_i32_389
  let v733 : BitVec 32 := Scalar.extui v732
  let c0_i32_390 : BitVec 32 := 0#32
  let v734 : BitVec 1 := Scalar.cmpi .slt c2_i32_386 c0_i32_390
  let v735 : BitVec 32 := Scalar.extui v734
  let v736 : BitVec 32 := Scalar.subi v733 v735
  let v737 : BitVec 1 := Scalar.cmpi .ne v731 v736
  let v738 : BitVec 32 := Scalar.remsi v725 c2_i32_386
  let c0_i32_391 : BitVec 32 := 0#32
  let v739 : BitVec 1 := Scalar.cmpi .ne v738 c0_i32_391
  let v740 : BitVec 1 := Scalar.andi v737 v739
  let v726 : BitVec 32 := Scalar.divsi v725 c2_i32_386
  let c1_i32_392 : BitVec 32 := 1#32
  let v741 : BitVec 32 := Scalar.subi v726 c1_i32_392
  let v742 : BitVec 32 := Scalar.select v740 v741 v726
  let c2_i32_408 : BitVec 32 := 2#32
  let v767 : BitVec 32 := Scalar.xori v742 c2_i32_408
  let c2_i32_419 : BitVec 32 := 2#32
  let v783 : BitVec 32 := Scalar.muli v767 c2_i32_419
  let v784 : BitVec 32 := Scalar.addi v782 v783
  let c2_i32_410 : BitVec 32 := 2#32
  let c0_i32_411 : BitVec 32 := 0#32
  let v769 : BitVec 1 := Scalar.cmpi .eq c2_i32_410 c0_i32_411
  let c1_i32_412 : BitVec 32 := 1#32
  let v770 : BitVec 32 := Scalar.select v769 c1_i32_412 c2_i32_410
  let v771 : BitVec 32 := Scalar.remsi v767 v770
  let c0_i32_414 : BitVec 32 := 0#32
  let v773 : BitVec 1 := Scalar.cmpi .slt v771 c0_i32_414
  let c0_i32_415 : BitVec 32 := 0#32
  let v774 : BitVec 1 := Scalar.cmpi .slt v770 c0_i32_415
  let v775 : BitVec 1 := Scalar.xori v773 v774
  let c0_i32_413 : BitVec 32 := 0#32
  let v772 : BitVec 1 := Scalar.cmpi .ne v771 c0_i32_413
  let v776 : BitVec 1 := Scalar.andi v775 v772
  let v777 : BitVec 32 := Scalar.addi v771 v770
  let v778 : BitVec 32 := Scalar.select v776 v777 v771
  let c0_i32_416 : BitVec 32 := 0#32
  let v779 : BitVec 1 := Scalar.cmpi .eq v778 c0_i32_416
  let c2_i32_399 : BitVec 32 := 2#32
  let c0_i32_400 : BitVec 32 := 0#32
  let v753 : BitVec 1 := Scalar.cmpi .eq c2_i32_399 c0_i32_400
  let c1_i32_401 : BitVec 32 := 1#32
  let v754 : BitVec 32 := Scalar.select v753 c1_i32_401 c2_i32_399
  let v755 : BitVec 32 := Scalar.remsi v742 v754
  let c0_i32_403 : BitVec 32 := 0#32
  let v757 : BitVec 1 := Scalar.cmpi .slt v755 c0_i32_403
  let c0_i32_404 : BitVec 32 := 0#32
  let v758 : BitVec 1 := Scalar.cmpi .slt v754 c0_i32_404
  let v759 : BitVec 1 := Scalar.xori v757 v758
  let c0_i32_402 : BitVec 32 := 0#32
  let v756 : BitVec 1 := Scalar.cmpi .ne v755 c0_i32_402
  let v760 : BitVec 1 := Scalar.andi v759 v756
  let v761 : BitVec 32 := Scalar.addi v755 v754
  let v762 : BitVec 32 := Scalar.select v760 v761 v755
  let c0_i32_405 : BitVec 32 := 0#32
  let v763 : BitVec 1 := Scalar.cmpi .eq v762 c0_i32_405
  let c2_i32_393 : BitVec 32 := 2#32
  let c0_i32_394 : BitVec 32 := 0#32
  let v743 : BitVec 1 := Scalar.cmpi .eq c2_i32_393 c0_i32_394
  let c1_i32_395 : BitVec 32 := 1#32
  let v744 : BitVec 32 := Scalar.select v743 c1_i32_395 c2_i32_393
  let v745 : BitVec 32 := Scalar.remsi v725 v744
  let c0_i32_397 : BitVec 32 := 0#32
  let v747 : BitVec 1 := Scalar.cmpi .slt v745 c0_i32_397
  let c0_i32_398 : BitVec 32 := 0#32
  let v748 : BitVec 1 := Scalar.cmpi .slt v744 c0_i32_398
  let v749 : BitVec 1 := Scalar.xori v747 v748
  let c0_i32_396 : BitVec 32 := 0#32
  let v746 : BitVec 1 := Scalar.cmpi .ne v745 c0_i32_396
  let v750 : BitVec 1 := Scalar.andi v749 v746
  let v751 : BitVec 32 := Scalar.addi v745 v744
  let v752 : BitVec 32 := Scalar.select v750 v751 v745
  let c1_i32_406 : BitVec 32 := 1#32
  let v764 : BitVec 32 := Scalar.subi c1_i32_406 v752
  let v765 : BitVec 32 := Scalar.select v763 v752 v764
  let c0_i32_407 : BitVec 32 := 0#32
  let v766 : BitVec 32 := Scalar.xori v765 c0_i32_407
  let c1_i32_417 : BitVec 32 := 1#32
  let v780 : BitVec 32 := Scalar.subi c1_i32_417 v766
  let v781 : BitVec 32 := Scalar.select v779 v766 v780
  let v785 : BitVec 32 := Scalar.addi v784 v781
  let c1_i32_898 : BitVec 32 := 1#32
  let v1320 : BitVec 32 := Scalar.muli v785 c1_i32_898
  let v1321 : BitVec 32 := Scalar.addi c0_i32_899 v1320
  v1321.toNat
def k0_dev30 (d0 : Dev nD) : Nat :=
  let c0_i32_908 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_421 : BitVec 32 := 0#32
  let v787 : BitVec 1 := Scalar.cmpi .sgt v2 c0_i32_421
  let v788 : BitVec 32 := Scalar.extui v787
  let c0_i32_422 : BitVec 32 := 0#32
  let v789 : BitVec 1 := Scalar.cmpi .slt v2 c0_i32_422
  let v790 : BitVec 32 := Scalar.extui v789
  let v791 : BitVec 32 := Scalar.subi v788 v790
  let c8_i32_420 : BitVec 32 := 8#32
  let c0_i32_423 : BitVec 32 := 0#32
  let v792 : BitVec 1 := Scalar.cmpi .sgt c8_i32_420 c0_i32_423
  let v793 : BitVec 32 := Scalar.extui v792
  let c0_i32_424 : BitVec 32 := 0#32
  let v794 : BitVec 1 := Scalar.cmpi .slt c8_i32_420 c0_i32_424
  let v795 : BitVec 32 := Scalar.extui v794
  let v796 : BitVec 32 := Scalar.subi v793 v795
  let v797 : BitVec 1 := Scalar.cmpi .ne v791 v796
  let v798 : BitVec 32 := Scalar.remsi v2 c8_i32_420
  let c0_i32_425 : BitVec 32 := 0#32
  let v799 : BitVec 1 := Scalar.cmpi .ne v798 c0_i32_425
  let v800 : BitVec 1 := Scalar.andi v797 v799
  let v786 : BitVec 32 := Scalar.divsi v2 c8_i32_420
  let c1_i32_426 : BitVec 32 := 1#32
  let v801 : BitVec 32 := Scalar.subi v786 c1_i32_426
  let v802 : BitVec 32 := Scalar.select v800 v801 v786
  let c2_i32_456 : BitVec 32 := 2#32
  let v855 : BitVec 32 := Scalar.xori v802 c2_i32_456
  let c8_i32_465 : BitVec 32 := 8#32
  let v869 : BitVec 32 := Scalar.muli v855 c8_i32_465
  let c8_i32_427 : BitVec 32 := 8#32
  let c0_i32_428 : BitVec 32 := 0#32
  let v803 : BitVec 1 := Scalar.cmpi .eq c8_i32_427 c0_i32_428
  let c1_i32_429 : BitVec 32 := 1#32
  let v804 : BitVec 32 := Scalar.select v803 c1_i32_429 c8_i32_427
  let v805 : BitVec 32 := Scalar.remsi v2 v804
  let c0_i32_431 : BitVec 32 := 0#32
  let v807 : BitVec 1 := Scalar.cmpi .slt v805 c0_i32_431
  let c0_i32_432 : BitVec 32 := 0#32
  let v808 : BitVec 1 := Scalar.cmpi .slt v804 c0_i32_432
  let v809 : BitVec 1 := Scalar.xori v807 v808
  let c0_i32_430 : BitVec 32 := 0#32
  let v806 : BitVec 1 := Scalar.cmpi .ne v805 c0_i32_430
  let v810 : BitVec 1 := Scalar.andi v809 v806
  let v811 : BitVec 32 := Scalar.addi v805 v804
  let v812 : BitVec 32 := Scalar.select v810 v811 v805
  let c0_i32_434 : BitVec 32 := 0#32
  let v814 : BitVec 1 := Scalar.cmpi .sgt v812 c0_i32_434
  let v815 : BitVec 32 := Scalar.extui v814
  let c0_i32_435 : BitVec 32 := 0#32
  let v816 : BitVec 1 := Scalar.cmpi .slt v812 c0_i32_435
  let v817 : BitVec 32 := Scalar.extui v816
  let v818 : BitVec 32 := Scalar.subi v815 v817
  let c2_i32_433 : BitVec 32 := 2#32
  let c0_i32_436 : BitVec 32 := 0#32
  let v819 : BitVec 1 := Scalar.cmpi .sgt c2_i32_433 c0_i32_436
  let v820 : BitVec 32 := Scalar.extui v819
  let c0_i32_437 : BitVec 32 := 0#32
  let v821 : BitVec 1 := Scalar.cmpi .slt c2_i32_433 c0_i32_437
  let v822 : BitVec 32 := Scalar.extui v821
  let v823 : BitVec 32 := Scalar.subi v820 v822
  let v824 : BitVec 1 := Scalar.cmpi .ne v818 v823
  let v825 : BitVec 32 := Scalar.remsi v812 c2_i32_433
  let c0_i32_438 : BitVec 32 := 0#32
  let v826 : BitVec 1 := Scalar.cmpi .ne v825 c0_i32_438
  let v827 : BitVec 1 := Scalar.andi v824 v826
  let v813 : BitVec 32 := Scalar.divsi v812 c2_i32_433
  let c1_i32_439 : BitVec 32 := 1#32
  let v828 : BitVec 32 := Scalar.subi v813 c1_i32_439
  let v829 : BitVec 32 := Scalar.select v827 v828 v813
  let c0_i32_455 : BitVec 32 := 0#32
  let v854 : BitVec 32 := Scalar.xori v829 c0_i32_455
  let c2_i32_466 : BitVec 32 := 2#32
  let v870 : BitVec 32 := Scalar.muli v854 c2_i32_466
  let v871 : BitVec 32 := Scalar.addi v869 v870
  let c2_i32_457 : BitVec 32 := 2#32
  let c0_i32_458 : BitVec 32 := 0#32
  let v856 : BitVec 1 := Scalar.cmpi .eq c2_i32_457 c0_i32_458
  let c1_i32_459 : BitVec 32 := 1#32
  let v857 : BitVec 32 := Scalar.select v856 c1_i32_459 c2_i32_457
  let v858 : BitVec 32 := Scalar.remsi v854 v857
  let c0_i32_461 : BitVec 32 := 0#32
  let v860 : BitVec 1 := Scalar.cmpi .slt v858 c0_i32_461
  let c0_i32_462 : BitVec 32 := 0#32
  let v861 : BitVec 1 := Scalar.cmpi .slt v857 c0_i32_462
  let v862 : BitVec 1 := Scalar.xori v860 v861
  let c0_i32_460 : BitVec 32 := 0#32
  let v859 : BitVec 1 := Scalar.cmpi .ne v858 c0_i32_460
  let v863 : BitVec 1 := Scalar.andi v862 v859
  let v864 : BitVec 32 := Scalar.addi v858 v857
  let v865 : BitVec 32 := Scalar.select v863 v864 v858
  let c0_i32_463 : BitVec 32 := 0#32
  let v866 : BitVec 1 := Scalar.cmpi .eq v865 c0_i32_463
  let c2_i32_446 : BitVec 32 := 2#32
  let c0_i32_447 : BitVec 32 := 0#32
  let v840 : BitVec 1 := Scalar.cmpi .eq c2_i32_446 c0_i32_447
  let c1_i32_448 : BitVec 32 := 1#32
  let v841 : BitVec 32 := Scalar.select v840 c1_i32_448 c2_i32_446
  let v842 : BitVec 32 := Scalar.remsi v829 v841
  let c0_i32_450 : BitVec 32 := 0#32
  let v844 : BitVec 1 := Scalar.cmpi .slt v842 c0_i32_450
  let c0_i32_451 : BitVec 32 := 0#32
  let v845 : BitVec 1 := Scalar.cmpi .slt v841 c0_i32_451
  let v846 : BitVec 1 := Scalar.xori v844 v845
  let c0_i32_449 : BitVec 32 := 0#32
  let v843 : BitVec 1 := Scalar.cmpi .ne v842 c0_i32_449
  let v847 : BitVec 1 := Scalar.andi v846 v843
  let v848 : BitVec 32 := Scalar.addi v842 v841
  let v849 : BitVec 32 := Scalar.select v847 v848 v842
  let c0_i32_452 : BitVec 32 := 0#32
  let v850 : BitVec 1 := Scalar.cmpi .eq v849 c0_i32_452
  let c2_i32_440 : BitVec 32 := 2#32
  let c0_i32_441 : BitVec 32 := 0#32
  let v830 : BitVec 1 := Scalar.cmpi .eq c2_i32_440 c0_i32_441
  let c1_i32_442 : BitVec 32 := 1#32
  let v831 : BitVec 32 := Scalar.select v830 c1_i32_442 c2_i32_440
  let v832 : BitVec 32 := Scalar.remsi v812 v831
  let c0_i32_444 : BitVec 32 := 0#32
  let v834 : BitVec 1 := Scalar.cmpi .slt v832 c0_i32_444
  let c0_i32_445 : BitVec 32 := 0#32
  let v835 : BitVec 1 := Scalar.cmpi .slt v831 c0_i32_445
  let v836 : BitVec 1 := Scalar.xori v834 v835
  let c0_i32_443 : BitVec 32 := 0#32
  let v833 : BitVec 1 := Scalar.cmpi .ne v832 c0_i32_443
  let v837 : BitVec 1 := Scalar.andi v836 v833
  let v838 : BitVec 32 := Scalar.addi v832 v831
  let v839 : BitVec 32 := Scalar.select v837 v838 v832
  let c1_i32_453 : BitVec 32 := 1#32
  let v851 : BitVec 32 := Scalar.subi c1_i32_453 v839
  let v852 : BitVec 32 := Scalar.select v850 v839 v851
  let c0_i32_454 : BitVec 32 := 0#32
  let v853 : BitVec 32 := Scalar.xori v852 c0_i32_454
  let c1_i32_464 : BitVec 32 := 1#32
  let v867 : BitVec 32 := Scalar.subi c1_i32_464 v853
  let v868 : BitVec 32 := Scalar.select v866 v853 v867
  let v872 : BitVec 32 := Scalar.addi v871 v868
  let c1_i32_907 : BitVec 32 := 1#32
  let v1330 : BitVec 32 := Scalar.muli v872 c1_i32_907
  let v1331 : BitVec 32 := Scalar.addi c0_i32_908 v1330
  v1331.toNat
def k0_dev31 (d0 : Dev nD) : Nat :=
  let c0_i32_963 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v72 : BitVec 32 := Scalar.xori v19 c1_i32_33
  let c8_i32_42 : BitVec 32 := 8#32
  let v86 : BitVec 32 := Scalar.muli v72 c8_i32_42
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v71 : BitVec 32 := Scalar.xori v46 c1_i32_32
  let c2_i32_43 : BitVec 32 := 2#32
  let v87 : BitVec 32 := Scalar.muli v71 c2_i32_43
  let v88 : BitVec 32 := Scalar.addi v86 v87
  let c2_i32_34 : BitVec 32 := 2#32
  let c0_i32_35 : BitVec 32 := 0#32
  let v73 : BitVec 1 := Scalar.cmpi .eq c2_i32_34 c0_i32_35
  let c1_i32_36 : BitVec 32 := 1#32
  let v74 : BitVec 32 := Scalar.select v73 c1_i32_36 c2_i32_34
  let v75 : BitVec 32 := Scalar.remsi v71 v74
  let c0_i32_38 : BitVec 32 := 0#32
  let v77 : BitVec 1 := Scalar.cmpi .slt v75 c0_i32_38
  let c0_i32_39 : BitVec 32 := 0#32
  let v78 : BitVec 1 := Scalar.cmpi .slt v74 c0_i32_39
  let v79 : BitVec 1 := Scalar.xori v77 v78
  let c0_i32_37 : BitVec 32 := 0#32
  let v76 : BitVec 1 := Scalar.cmpi .ne v75 c0_i32_37
  let v80 : BitVec 1 := Scalar.andi v79 v76
  let v81 : BitVec 32 := Scalar.addi v75 v74
  let v82 : BitVec 32 := Scalar.select v80 v81 v75
  let c0_i32_40 : BitVec 32 := 0#32
  let v83 : BitVec 1 := Scalar.cmpi .eq v82 c0_i32_40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 32 := Scalar.xori v69 c1_i32_31
  let c1_i32_41 : BitVec 32 := 1#32
  let v84 : BitVec 32 := Scalar.subi c1_i32_41 v70
  let v85 : BitVec 32 := Scalar.select v83 v70 v84
  let v89 : BitVec 32 := Scalar.addi v88 v85
  let c1_i32_962 : BitVec 32 := 1#32
  let v1392 : BitVec 32 := Scalar.muli v89 c1_i32_962
  let v1393 : BitVec 32 := Scalar.addi c0_i32_963 v1392
  v1393.toNat
def k0_dev32 (d0 : Dev nD) : Nat :=
  let c0_i32_972 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_45 : BitVec 32 := 0#32
  let v91 : BitVec 1 := Scalar.cmpi .sgt v2 c0_i32_45
  let v92 : BitVec 32 := Scalar.extui v91
  let c0_i32_46 : BitVec 32 := 0#32
  let v93 : BitVec 1 := Scalar.cmpi .slt v2 c0_i32_46
  let v94 : BitVec 32 := Scalar.extui v93
  let v95 : BitVec 32 := Scalar.subi v92 v94
  let c8_i32_44 : BitVec 32 := 8#32
  let c0_i32_47 : BitVec 32 := 0#32
  let v96 : BitVec 1 := Scalar.cmpi .sgt c8_i32_44 c0_i32_47
  let v97 : BitVec 32 := Scalar.extui v96
  let c0_i32_48 : BitVec 32 := 0#32
  let v98 : BitVec 1 := Scalar.cmpi .slt c8_i32_44 c0_i32_48
  let v99 : BitVec 32 := Scalar.extui v98
  let v100 : BitVec 32 := Scalar.subi v97 v99
  let v101 : BitVec 1 := Scalar.cmpi .ne v95 v100
  let v102 : BitVec 32 := Scalar.remsi v2 c8_i32_44
  let c0_i32_49 : BitVec 32 := 0#32
  let v103 : BitVec 1 := Scalar.cmpi .ne v102 c0_i32_49
  let v104 : BitVec 1 := Scalar.andi v101 v103
  let v90 : BitVec 32 := Scalar.divsi v2 c8_i32_44
  let c1_i32_50 : BitVec 32 := 1#32
  let v105 : BitVec 32 := Scalar.subi v90 c1_i32_50
  let v106 : BitVec 32 := Scalar.select v104 v105 v90
  let c0_i32_80 : BitVec 32 := 0#32
  let v159 : BitVec 32 := Scalar.xori v106 c0_i32_80
  let c8_i32_89 : BitVec 32 := 8#32
  let v173 : BitVec 32 := Scalar.muli v159 c8_i32_89
  let c8_i32_51 : BitVec 32 := 8#32
  let c0_i32_52 : BitVec 32 := 0#32
  let v107 : BitVec 1 := Scalar.cmpi .eq c8_i32_51 c0_i32_52
  let c1_i32_53 : BitVec 32 := 1#32
  let v108 : BitVec 32 := Scalar.select v107 c1_i32_53 c8_i32_51
  let v109 : BitVec 32 := Scalar.remsi v2 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c2_i32_57 : BitVec 32 := 2#32
  let c0_i32_60 : BitVec 32 := 0#32
  let v123 : BitVec 1 := Scalar.cmpi .sgt c2_i32_57 c0_i32_60
  let v124 : BitVec 32 := Scalar.extui v123
  let c0_i32_61 : BitVec 32 := 0#32
  let v125 : BitVec 1 := Scalar.cmpi .slt c2_i32_57 c0_i32_61
  let v126 : BitVec 32 := Scalar.extui v125
  let v127 : BitVec 32 := Scalar.subi v124 v126
  let v128 : BitVec 1 := Scalar.cmpi .ne v122 v127
  let v129 : BitVec 32 := Scalar.remsi v116 c2_i32_57
  let c0_i32_62 : BitVec 32 := 0#32
  let v130 : BitVec 1 := Scalar.cmpi .ne v129 c0_i32_62
  let v131 : BitVec 1 := Scalar.andi v128 v130
  let v117 : BitVec 32 := Scalar.divsi v116 c2_i32_57
  let c1_i32_63 : BitVec 32 := 1#32
  let v132 : BitVec 32 := Scalar.subi v117 c1_i32_63
  let v133 : BitVec 32 := Scalar.select v131 v132 v117
  let c1_i32_79 : BitVec 32 := 1#32
  let v158 : BitVec 32 := Scalar.xori v133 c1_i32_79
  let c2_i32_90 : BitVec 32 := 2#32
  let v174 : BitVec 32 := Scalar.muli v158 c2_i32_90
  let v175 : BitVec 32 := Scalar.addi v173 v174
  let c2_i32_81 : BitVec 32 := 2#32
  let c0_i32_82 : BitVec 32 := 0#32
  let v160 : BitVec 1 := Scalar.cmpi .eq c2_i32_81 c0_i32_82
  let c1_i32_83 : BitVec 32 := 1#32
  let v161 : BitVec 32 := Scalar.select v160 c1_i32_83 c2_i32_81
  let v162 : BitVec 32 := Scalar.remsi v158 v161
  let c0_i32_85 : BitVec 32 := 0#32
  let v164 : BitVec 1 := Scalar.cmpi .slt v162 c0_i32_85
  let c0_i32_86 : BitVec 32 := 0#32
  let v165 : BitVec 1 := Scalar.cmpi .slt v161 c0_i32_86
  let v166 : BitVec 1 := Scalar.xori v164 v165
  let c0_i32_84 : BitVec 32 := 0#32
  let v163 : BitVec 1 := Scalar.cmpi .ne v162 c0_i32_84
  let v167 : BitVec 1 := Scalar.andi v166 v163
  let v168 : BitVec 32 := Scalar.addi v162 v161
  let v169 : BitVec 32 := Scalar.select v167 v168 v162
  let c0_i32_87 : BitVec 32 := 0#32
  let v170 : BitVec 1 := Scalar.cmpi .eq v169 c0_i32_87
  let c2_i32_70 : BitVec 32 := 2#32
  let c0_i32_71 : BitVec 32 := 0#32
  let v144 : BitVec 1 := Scalar.cmpi .eq c2_i32_70 c0_i32_71
  let c1_i32_72 : BitVec 32 := 1#32
  let v145 : BitVec 32 := Scalar.select v144 c1_i32_72 c2_i32_70
  let v146 : BitVec 32 := Scalar.remsi v133 v145
  let c0_i32_74 : BitVec 32 := 0#32
  let v148 : BitVec 1 := Scalar.cmpi .slt v146 c0_i32_74
  let c0_i32_75 : BitVec 32 := 0#32
  let v149 : BitVec 1 := Scalar.cmpi .slt v145 c0_i32_75
  let v150 : BitVec 1 := Scalar.xori v148 v149
  let c0_i32_73 : BitVec 32 := 0#32
  let v147 : BitVec 1 := Scalar.cmpi .ne v146 c0_i32_73
  let v151 : BitVec 1 := Scalar.andi v150 v147
  let v152 : BitVec 32 := Scalar.addi v146 v145
  let v153 : BitVec 32 := Scalar.select v151 v152 v146
  let c0_i32_76 : BitVec 32 := 0#32
  let v154 : BitVec 1 := Scalar.cmpi .eq v153 c0_i32_76
  let c2_i32_64 : BitVec 32 := 2#32
  let c0_i32_65 : BitVec 32 := 0#32
  let v134 : BitVec 1 := Scalar.cmpi .eq c2_i32_64 c0_i32_65
  let c1_i32_66 : BitVec 32 := 1#32
  let v135 : BitVec 32 := Scalar.select v134 c1_i32_66 c2_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c1_i32_77 : BitVec 32 := 1#32
  let v155 : BitVec 32 := Scalar.subi c1_i32_77 v143
  let v156 : BitVec 32 := Scalar.select v154 v143 v155
  let c1_i32_78 : BitVec 32 := 1#32
  let v157 : BitVec 32 := Scalar.xori v156 c1_i32_78
  let c1_i32_88 : BitVec 32 := 1#32
  let v171 : BitVec 32 := Scalar.subi c1_i32_88 v157
  let v172 : BitVec 32 := Scalar.select v170 v157 v171
  let v176 : BitVec 32 := Scalar.addi v175 v172
  let c1_i32_971 : BitVec 32 := 1#32
  let v1402 : BitVec 32 := Scalar.muli v176 c1_i32_971
  let v1403 : BitVec 32 := Scalar.addi c0_i32_972 v1402
  v1403.toNat
def k0_dev33 (d0 : Dev nD) : Nat :=
  let c0_i32_981 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_92 : BitVec 32 := 0#32
  let v178 : BitVec 1 := Scalar.cmpi .sgt v2 c0_i32_92
  let v179 : BitVec 32 := Scalar.extui v178
  let c0_i32_93 : BitVec 32 := 0#32
  let v180 : BitVec 1 := Scalar.cmpi .slt v2 c0_i32_93
  let v181 : BitVec 32 := Scalar.extui v180
  let v182 : BitVec 32 := Scalar.subi v179 v181
  let c8_i32_91 : BitVec 32 := 8#32
  let c0_i32_94 : BitVec 32 := 0#32
  let v183 : BitVec 1 := Scalar.cmpi .sgt c8_i32_91 c0_i32_94
  let v184 : BitVec 32 := Scalar.extui v183
  let c0_i32_95 : BitVec 32 := 0#32
  let v185 : BitVec 1 := Scalar.cmpi .slt c8_i32_91 c0_i32_95
  let v186 : BitVec 32 := Scalar.extui v185
  let v187 : BitVec 32 := Scalar.subi v184 v186
  let v188 : BitVec 1 := Scalar.cmpi .ne v182 v187
  let v189 : BitVec 32 := Scalar.remsi v2 c8_i32_91
  let c0_i32_96 : BitVec 32 := 0#32
  let v190 : BitVec 1 := Scalar.cmpi .ne v189 c0_i32_96
  let v191 : BitVec 1 := Scalar.andi v188 v190
  let v177 : BitVec 32 := Scalar.divsi v2 c8_i32_91
  let c1_i32_97 : BitVec 32 := 1#32
  let v192 : BitVec 32 := Scalar.subi v177 c1_i32_97
  let v193 : BitVec 32 := Scalar.select v191 v192 v177
  let c1_i32_127 : BitVec 32 := 1#32
  let v246 : BitVec 32 := Scalar.xori v193 c1_i32_127
  let c8_i32_136 : BitVec 32 := 8#32
  let v260 : BitVec 32 := Scalar.muli v246 c8_i32_136
  let c8_i32_98 : BitVec 32 := 8#32
  let c0_i32_99 : BitVec 32 := 0#32
  let v194 : BitVec 1 := Scalar.cmpi .eq c8_i32_98 c0_i32_99
  let c1_i32_100 : BitVec 32 := 1#32
  let v195 : BitVec 32 := Scalar.select v194 c1_i32_100 c8_i32_98
  let v196 : BitVec 32 := Scalar.remsi v2 v195
  let c0_i32_102 : BitVec 32 := 0#32
  let v198 : BitVec 1 := Scalar.cmpi .slt v196 c0_i32_102
  let c0_i32_103 : BitVec 32 := 0#32
  let v199 : BitVec 1 := Scalar.cmpi .slt v195 c0_i32_103
  let v200 : BitVec 1 := Scalar.xori v198 v199
  let c0_i32_101 : BitVec 32 := 0#32
  let v197 : BitVec 1 := Scalar.cmpi .ne v196 c0_i32_101
  let v201 : BitVec 1 := Scalar.andi v200 v197
  let v202 : BitVec 32 := Scalar.addi v196 v195
  let v203 : BitVec 32 := Scalar.select v201 v202 v196
  let c0_i32_105 : BitVec 32 := 0#32
  let v205 : BitVec 1 := Scalar.cmpi .sgt v203 c0_i32_105
  let v206 : BitVec 32 := Scalar.extui v205
  let c0_i32_106 : BitVec 32 := 0#32
  let v207 : BitVec 1 := Scalar.cmpi .slt v203 c0_i32_106
  let v208 : BitVec 32 := Scalar.extui v207
  let v209 : BitVec 32 := Scalar.subi v206 v208
  let c2_i32_104 : BitVec 32 := 2#32
  let c0_i32_107 : BitVec 32 := 0#32
  let v210 : BitVec 1 := Scalar.cmpi .sgt c2_i32_104 c0_i32_107
  let v211 : BitVec 32 := Scalar.extui v210
  let c0_i32_108 : BitVec 32 := 0#32
  let v212 : BitVec 1 := Scalar.cmpi .slt c2_i32_104 c0_i32_108
  let v213 : BitVec 32 := Scalar.extui v212
  let v214 : BitVec 32 := Scalar.subi v211 v213
  let v215 : BitVec 1 := Scalar.cmpi .ne v209 v214
  let v216 : BitVec 32 := Scalar.remsi v203 c2_i32_104
  let c0_i32_109 : BitVec 32 := 0#32
  let v217 : BitVec 1 := Scalar.cmpi .ne v216 c0_i32_109
  let v218 : BitVec 1 := Scalar.andi v215 v217
  let v204 : BitVec 32 := Scalar.divsi v203 c2_i32_104
  let c1_i32_110 : BitVec 32 := 1#32
  let v219 : BitVec 32 := Scalar.subi v204 c1_i32_110
  let v220 : BitVec 32 := Scalar.select v218 v219 v204
  let c0_i32_126 : BitVec 32 := 0#32
  let v245 : BitVec 32 := Scalar.xori v220 c0_i32_126
  let c2_i32_137 : BitVec 32 := 2#32
  let v261 : BitVec 32 := Scalar.muli v245 c2_i32_137
  let v262 : BitVec 32 := Scalar.addi v260 v261
  let c2_i32_128 : BitVec 32 := 2#32
  let c0_i32_129 : BitVec 32 := 0#32
  let v247 : BitVec 1 := Scalar.cmpi .eq c2_i32_128 c0_i32_129
  let c1_i32_130 : BitVec 32 := 1#32
  let v248 : BitVec 32 := Scalar.select v247 c1_i32_130 c2_i32_128
  let v249 : BitVec 32 := Scalar.remsi v245 v248
  let c0_i32_132 : BitVec 32 := 0#32
  let v251 : BitVec 1 := Scalar.cmpi .slt v249 c0_i32_132
  let c0_i32_133 : BitVec 32 := 0#32
  let v252 : BitVec 1 := Scalar.cmpi .slt v248 c0_i32_133
  let v253 : BitVec 1 := Scalar.xori v251 v252
  let c0_i32_131 : BitVec 32 := 0#32
  let v250 : BitVec 1 := Scalar.cmpi .ne v249 c0_i32_131
  let v254 : BitVec 1 := Scalar.andi v253 v250
  let v255 : BitVec 32 := Scalar.addi v249 v248
  let v256 : BitVec 32 := Scalar.select v254 v255 v249
  let c0_i32_134 : BitVec 32 := 0#32
  let v257 : BitVec 1 := Scalar.cmpi .eq v256 c0_i32_134
  let c2_i32_117 : BitVec 32 := 2#32
  let c0_i32_118 : BitVec 32 := 0#32
  let v231 : BitVec 1 := Scalar.cmpi .eq c2_i32_117 c0_i32_118
  let c1_i32_119 : BitVec 32 := 1#32
  let v232 : BitVec 32 := Scalar.select v231 c1_i32_119 c2_i32_117
  let v233 : BitVec 32 := Scalar.remsi v220 v232
  let c0_i32_121 : BitVec 32 := 0#32
  let v235 : BitVec 1 := Scalar.cmpi .slt v233 c0_i32_121
  let c0_i32_122 : BitVec 32 := 0#32
  let v236 : BitVec 1 := Scalar.cmpi .slt v232 c0_i32_122
  let v237 : BitVec 1 := Scalar.xori v235 v236
  let c0_i32_120 : BitVec 32 := 0#32
  let v234 : BitVec 1 := Scalar.cmpi .ne v233 c0_i32_120
  let v238 : BitVec 1 := Scalar.andi v237 v234
  let v239 : BitVec 32 := Scalar.addi v233 v232
  let v240 : BitVec 32 := Scalar.select v238 v239 v233
  let c0_i32_123 : BitVec 32 := 0#32
  let v241 : BitVec 1 := Scalar.cmpi .eq v240 c0_i32_123
  let c2_i32_111 : BitVec 32 := 2#32
  let c0_i32_112 : BitVec 32 := 0#32
  let v221 : BitVec 1 := Scalar.cmpi .eq c2_i32_111 c0_i32_112
  let c1_i32_113 : BitVec 32 := 1#32
  let v222 : BitVec 32 := Scalar.select v221 c1_i32_113 c2_i32_111
  let v223 : BitVec 32 := Scalar.remsi v203 v222
  let c0_i32_115 : BitVec 32 := 0#32
  let v225 : BitVec 1 := Scalar.cmpi .slt v223 c0_i32_115
  let c0_i32_116 : BitVec 32 := 0#32
  let v226 : BitVec 1 := Scalar.cmpi .slt v222 c0_i32_116
  let v227 : BitVec 1 := Scalar.xori v225 v226
  let c0_i32_114 : BitVec 32 := 0#32
  let v224 : BitVec 1 := Scalar.cmpi .ne v223 c0_i32_114
  let v228 : BitVec 1 := Scalar.andi v227 v224
  let v229 : BitVec 32 := Scalar.addi v223 v222
  let v230 : BitVec 32 := Scalar.select v228 v229 v223
  let c1_i32_124 : BitVec 32 := 1#32
  let v242 : BitVec 32 := Scalar.subi c1_i32_124 v230
  let v243 : BitVec 32 := Scalar.select v241 v230 v242
  let c1_i32_125 : BitVec 32 := 1#32
  let v244 : BitVec 32 := Scalar.xori v243 c1_i32_125
  let c1_i32_135 : BitVec 32 := 1#32
  let v258 : BitVec 32 := Scalar.subi c1_i32_135 v244
  let v259 : BitVec 32 := Scalar.select v257 v244 v258
  let v263 : BitVec 32 := Scalar.addi v262 v259
  let c1_i32_980 : BitVec 32 := 1#32
  let v1412 : BitVec 32 := Scalar.muli v263 c1_i32_980
  let v1413 : BitVec 32 := Scalar.addi c0_i32_981 v1412
  v1413.toNat
def k0_dev34 (d0 : Dev nD) : Nat :=
  let c0_i32_990 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_139 : BitVec 32 := 0#32
  let v265 : BitVec 1 := Scalar.cmpi .sgt v2 c0_i32_139
  let v266 : BitVec 32 := Scalar.extui v265
  let c0_i32_140 : BitVec 32 := 0#32
  let v267 : BitVec 1 := Scalar.cmpi .slt v2 c0_i32_140
  let v268 : BitVec 32 := Scalar.extui v267
  let v269 : BitVec 32 := Scalar.subi v266 v268
  let c8_i32_138 : BitVec 32 := 8#32
  let c0_i32_141 : BitVec 32 := 0#32
  let v270 : BitVec 1 := Scalar.cmpi .sgt c8_i32_138 c0_i32_141
  let v271 : BitVec 32 := Scalar.extui v270
  let c0_i32_142 : BitVec 32 := 0#32
  let v272 : BitVec 1 := Scalar.cmpi .slt c8_i32_138 c0_i32_142
  let v273 : BitVec 32 := Scalar.extui v272
  let v274 : BitVec 32 := Scalar.subi v271 v273
  let v275 : BitVec 1 := Scalar.cmpi .ne v269 v274
  let v276 : BitVec 32 := Scalar.remsi v2 c8_i32_138
  let c0_i32_143 : BitVec 32 := 0#32
  let v277 : BitVec 1 := Scalar.cmpi .ne v276 c0_i32_143
  let v278 : BitVec 1 := Scalar.andi v275 v277
  let v264 : BitVec 32 := Scalar.divsi v2 c8_i32_138
  let c1_i32_144 : BitVec 32 := 1#32
  let v279 : BitVec 32 := Scalar.subi v264 c1_i32_144
  let v280 : BitVec 32 := Scalar.select v278 v279 v264
  let c1_i32_174 : BitVec 32 := 1#32
  let v333 : BitVec 32 := Scalar.xori v280 c1_i32_174
  let c8_i32_183 : BitVec 32 := 8#32
  let v347 : BitVec 32 := Scalar.muli v333 c8_i32_183
  let c8_i32_145 : BitVec 32 := 8#32
  let c0_i32_146 : BitVec 32 := 0#32
  let v281 : BitVec 1 := Scalar.cmpi .eq c8_i32_145 c0_i32_146
  let c1_i32_147 : BitVec 32 := 1#32
  let v282 : BitVec 32 := Scalar.select v281 c1_i32_147 c8_i32_145
  let v283 : BitVec 32 := Scalar.remsi v2 v282
  let c0_i32_149 : BitVec 32 := 0#32
  let v285 : BitVec 1 := Scalar.cmpi .slt v283 c0_i32_149
  let c0_i32_150 : BitVec 32 := 0#32
  let v286 : BitVec 1 := Scalar.cmpi .slt v282 c0_i32_150
  let v287 : BitVec 1 := Scalar.xori v285 v286
  let c0_i32_148 : BitVec 32 := 0#32
  let v284 : BitVec 1 := Scalar.cmpi .ne v283 c0_i32_148
  let v288 : BitVec 1 := Scalar.andi v287 v284
  let v289 : BitVec 32 := Scalar.addi v283 v282
  let v290 : BitVec 32 := Scalar.select v288 v289 v283
  let c0_i32_152 : BitVec 32 := 0#32
  let v292 : BitVec 1 := Scalar.cmpi .sgt v290 c0_i32_152
  let v293 : BitVec 32 := Scalar.extui v292
  let c0_i32_153 : BitVec 32 := 0#32
  let v294 : BitVec 1 := Scalar.cmpi .slt v290 c0_i32_153
  let v295 : BitVec 32 := Scalar.extui v294
  let v296 : BitVec 32 := Scalar.subi v293 v295
  let c2_i32_151 : BitVec 32 := 2#32
  let c0_i32_154 : BitVec 32 := 0#32
  let v297 : BitVec 1 := Scalar.cmpi .sgt c2_i32_151 c0_i32_154
  let v298 : BitVec 32 := Scalar.extui v297
  let c0_i32_155 : BitVec 32 := 0#32
  let v299 : BitVec 1 := Scalar.cmpi .slt c2_i32_151 c0_i32_155
  let v300 : BitVec 32 := Scalar.extui v299
  let v301 : BitVec 32 := Scalar.subi v298 v300
  let v302 : BitVec 1 := Scalar.cmpi .ne v296 v301
  let v303 : BitVec 32 := Scalar.remsi v290 c2_i32_151
  let c0_i32_156 : BitVec 32 := 0#32
  let v304 : BitVec 1 := Scalar.cmpi .ne v303 c0_i32_156
  let v305 : BitVec 1 := Scalar.andi v302 v304
  let v291 : BitVec 32 := Scalar.divsi v290 c2_i32_151
  let c1_i32_157 : BitVec 32 := 1#32
  let v306 : BitVec 32 := Scalar.subi v291 c1_i32_157
  let v307 : BitVec 32 := Scalar.select v305 v306 v291
  let c1_i32_173 : BitVec 32 := 1#32
  let v332 : BitVec 32 := Scalar.xori v307 c1_i32_173
  let c2_i32_184 : BitVec 32 := 2#32
  let v348 : BitVec 32 := Scalar.muli v332 c2_i32_184
  let v349 : BitVec 32 := Scalar.addi v347 v348
  let c2_i32_175 : BitVec 32 := 2#32
  let c0_i32_176 : BitVec 32 := 0#32
  let v334 : BitVec 1 := Scalar.cmpi .eq c2_i32_175 c0_i32_176
  let c1_i32_177 : BitVec 32 := 1#32
  let v335 : BitVec 32 := Scalar.select v334 c1_i32_177 c2_i32_175
  let v336 : BitVec 32 := Scalar.remsi v332 v335
  let c0_i32_179 : BitVec 32 := 0#32
  let v338 : BitVec 1 := Scalar.cmpi .slt v336 c0_i32_179
  let c0_i32_180 : BitVec 32 := 0#32
  let v339 : BitVec 1 := Scalar.cmpi .slt v335 c0_i32_180
  let v340 : BitVec 1 := Scalar.xori v338 v339
  let c0_i32_178 : BitVec 32 := 0#32
  let v337 : BitVec 1 := Scalar.cmpi .ne v336 c0_i32_178
  let v341 : BitVec 1 := Scalar.andi v340 v337
  let v342 : BitVec 32 := Scalar.addi v336 v335
  let v343 : BitVec 32 := Scalar.select v341 v342 v336
  let c0_i32_181 : BitVec 32 := 0#32
  let v344 : BitVec 1 := Scalar.cmpi .eq v343 c0_i32_181
  let c2_i32_164 : BitVec 32 := 2#32
  let c0_i32_165 : BitVec 32 := 0#32
  let v318 : BitVec 1 := Scalar.cmpi .eq c2_i32_164 c0_i32_165
  let c1_i32_166 : BitVec 32 := 1#32
  let v319 : BitVec 32 := Scalar.select v318 c1_i32_166 c2_i32_164
  let v320 : BitVec 32 := Scalar.remsi v307 v319
  let c0_i32_168 : BitVec 32 := 0#32
  let v322 : BitVec 1 := Scalar.cmpi .slt v320 c0_i32_168
  let c0_i32_169 : BitVec 32 := 0#32
  let v323 : BitVec 1 := Scalar.cmpi .slt v319 c0_i32_169
  let v324 : BitVec 1 := Scalar.xori v322 v323
  let c0_i32_167 : BitVec 32 := 0#32
  let v321 : BitVec 1 := Scalar.cmpi .ne v320 c0_i32_167
  let v325 : BitVec 1 := Scalar.andi v324 v321
  let v326 : BitVec 32 := Scalar.addi v320 v319
  let v327 : BitVec 32 := Scalar.select v325 v326 v320
  let c0_i32_170 : BitVec 32 := 0#32
  let v328 : BitVec 1 := Scalar.cmpi .eq v327 c0_i32_170
  let c2_i32_158 : BitVec 32 := 2#32
  let c0_i32_159 : BitVec 32 := 0#32
  let v308 : BitVec 1 := Scalar.cmpi .eq c2_i32_158 c0_i32_159
  let c1_i32_160 : BitVec 32 := 1#32
  let v309 : BitVec 32 := Scalar.select v308 c1_i32_160 c2_i32_158
  let v310 : BitVec 32 := Scalar.remsi v290 v309
  let c0_i32_162 : BitVec 32 := 0#32
  let v312 : BitVec 1 := Scalar.cmpi .slt v310 c0_i32_162
  let c0_i32_163 : BitVec 32 := 0#32
  let v313 : BitVec 1 := Scalar.cmpi .slt v309 c0_i32_163
  let v314 : BitVec 1 := Scalar.xori v312 v313
  let c0_i32_161 : BitVec 32 := 0#32
  let v311 : BitVec 1 := Scalar.cmpi .ne v310 c0_i32_161
  let v315 : BitVec 1 := Scalar.andi v314 v311
  let v316 : BitVec 32 := Scalar.addi v310 v309
  let v317 : BitVec 32 := Scalar.select v315 v316 v310
  let c1_i32_171 : BitVec 32 := 1#32
  let v329 : BitVec 32 := Scalar.subi c1_i32_171 v317
  let v330 : BitVec 32 := Scalar.select v328 v317 v329
  let c0_i32_172 : BitVec 32 := 0#32
  let v331 : BitVec 32 := Scalar.xori v330 c0_i32_172
  let c1_i32_182 : BitVec 32 := 1#32
  let v345 : BitVec 32 := Scalar.subi c1_i32_182 v331
  let v346 : BitVec 32 := Scalar.select v344 v331 v345
  let v350 : BitVec 32 := Scalar.addi v349 v346
  let c1_i32_989 : BitVec 32 := 1#32
  let v1422 : BitVec 32 := Scalar.muli v350 c1_i32_989
  let v1423 : BitVec 32 := Scalar.addi c0_i32_990 v1422
  v1423.toNat
def k0_dev35 (d0 : Dev nD) : Nat :=
  let c0_i32_999 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_186 : BitVec 32 := 0#32
  let v352 : BitVec 1 := Scalar.cmpi .sgt v2 c0_i32_186
  let v353 : BitVec 32 := Scalar.extui v352
  let c0_i32_187 : BitVec 32 := 0#32
  let v354 : BitVec 1 := Scalar.cmpi .slt v2 c0_i32_187
  let v355 : BitVec 32 := Scalar.extui v354
  let v356 : BitVec 32 := Scalar.subi v353 v355
  let c8_i32_185 : BitVec 32 := 8#32
  let c0_i32_188 : BitVec 32 := 0#32
  let v357 : BitVec 1 := Scalar.cmpi .sgt c8_i32_185 c0_i32_188
  let v358 : BitVec 32 := Scalar.extui v357
  let c0_i32_189 : BitVec 32 := 0#32
  let v359 : BitVec 1 := Scalar.cmpi .slt c8_i32_185 c0_i32_189
  let v360 : BitVec 32 := Scalar.extui v359
  let v361 : BitVec 32 := Scalar.subi v358 v360
  let v362 : BitVec 1 := Scalar.cmpi .ne v356 v361
  let v363 : BitVec 32 := Scalar.remsi v2 c8_i32_185
  let c0_i32_190 : BitVec 32 := 0#32
  let v364 : BitVec 1 := Scalar.cmpi .ne v363 c0_i32_190
  let v365 : BitVec 1 := Scalar.andi v362 v364
  let v351 : BitVec 32 := Scalar.divsi v2 c8_i32_185
  let c1_i32_191 : BitVec 32 := 1#32
  let v366 : BitVec 32 := Scalar.subi v351 c1_i32_191
  let v367 : BitVec 32 := Scalar.select v365 v366 v351
  let c0_i32_221 : BitVec 32 := 0#32
  let v420 : BitVec 32 := Scalar.xori v367 c0_i32_221
  let c8_i32_230 : BitVec 32 := 8#32
  let v434 : BitVec 32 := Scalar.muli v420 c8_i32_230
  let c8_i32_192 : BitVec 32 := 8#32
  let c0_i32_193 : BitVec 32 := 0#32
  let v368 : BitVec 1 := Scalar.cmpi .eq c8_i32_192 c0_i32_193
  let c1_i32_194 : BitVec 32 := 1#32
  let v369 : BitVec 32 := Scalar.select v368 c1_i32_194 c8_i32_192
  let v370 : BitVec 32 := Scalar.remsi v2 v369
  let c0_i32_196 : BitVec 32 := 0#32
  let v372 : BitVec 1 := Scalar.cmpi .slt v370 c0_i32_196
  let c0_i32_197 : BitVec 32 := 0#32
  let v373 : BitVec 1 := Scalar.cmpi .slt v369 c0_i32_197
  let v374 : BitVec 1 := Scalar.xori v372 v373
  let c0_i32_195 : BitVec 32 := 0#32
  let v371 : BitVec 1 := Scalar.cmpi .ne v370 c0_i32_195
  let v375 : BitVec 1 := Scalar.andi v374 v371
  let v376 : BitVec 32 := Scalar.addi v370 v369
  let v377 : BitVec 32 := Scalar.select v375 v376 v370
  let c0_i32_199 : BitVec 32 := 0#32
  let v379 : BitVec 1 := Scalar.cmpi .sgt v377 c0_i32_199
  let v380 : BitVec 32 := Scalar.extui v379
  let c0_i32_200 : BitVec 32 := 0#32
  let v381 : BitVec 1 := Scalar.cmpi .slt v377 c0_i32_200
  let v382 : BitVec 32 := Scalar.extui v381
  let v383 : BitVec 32 := Scalar.subi v380 v382
  let c2_i32_198 : BitVec 32 := 2#32
  let c0_i32_201 : BitVec 32 := 0#32
  let v384 : BitVec 1 := Scalar.cmpi .sgt c2_i32_198 c0_i32_201
  let v385 : BitVec 32 := Scalar.extui v384
  let c0_i32_202 : BitVec 32 := 0#32
  let v386 : BitVec 1 := Scalar.cmpi .slt c2_i32_198 c0_i32_202
  let v387 : BitVec 32 := Scalar.extui v386
  let v388 : BitVec 32 := Scalar.subi v385 v387
  let v389 : BitVec 1 := Scalar.cmpi .ne v383 v388
  let v390 : BitVec 32 := Scalar.remsi v377 c2_i32_198
  let c0_i32_203 : BitVec 32 := 0#32
  let v391 : BitVec 1 := Scalar.cmpi .ne v390 c0_i32_203
  let v392 : BitVec 1 := Scalar.andi v389 v391
  let v378 : BitVec 32 := Scalar.divsi v377 c2_i32_198
  let c1_i32_204 : BitVec 32 := 1#32
  let v393 : BitVec 32 := Scalar.subi v378 c1_i32_204
  let v394 : BitVec 32 := Scalar.select v392 v393 v378
  let c0_i32_220 : BitVec 32 := 0#32
  let v419 : BitVec 32 := Scalar.xori v394 c0_i32_220
  let c2_i32_231 : BitVec 32 := 2#32
  let v435 : BitVec 32 := Scalar.muli v419 c2_i32_231
  let v436 : BitVec 32 := Scalar.addi v434 v435
  let c2_i32_222 : BitVec 32 := 2#32
  let c0_i32_223 : BitVec 32 := 0#32
  let v421 : BitVec 1 := Scalar.cmpi .eq c2_i32_222 c0_i32_223
  let c1_i32_224 : BitVec 32 := 1#32
  let v422 : BitVec 32 := Scalar.select v421 c1_i32_224 c2_i32_222
  let v423 : BitVec 32 := Scalar.remsi v419 v422
  let c0_i32_226 : BitVec 32 := 0#32
  let v425 : BitVec 1 := Scalar.cmpi .slt v423 c0_i32_226
  let c0_i32_227 : BitVec 32 := 0#32
  let v426 : BitVec 1 := Scalar.cmpi .slt v422 c0_i32_227
  let v427 : BitVec 1 := Scalar.xori v425 v426
  let c0_i32_225 : BitVec 32 := 0#32
  let v424 : BitVec 1 := Scalar.cmpi .ne v423 c0_i32_225
  let v428 : BitVec 1 := Scalar.andi v427 v424
  let v429 : BitVec 32 := Scalar.addi v423 v422
  let v430 : BitVec 32 := Scalar.select v428 v429 v423
  let c0_i32_228 : BitVec 32 := 0#32
  let v431 : BitVec 1 := Scalar.cmpi .eq v430 c0_i32_228
  let c2_i32_211 : BitVec 32 := 2#32
  let c0_i32_212 : BitVec 32 := 0#32
  let v405 : BitVec 1 := Scalar.cmpi .eq c2_i32_211 c0_i32_212
  let c1_i32_213 : BitVec 32 := 1#32
  let v406 : BitVec 32 := Scalar.select v405 c1_i32_213 c2_i32_211
  let v407 : BitVec 32 := Scalar.remsi v394 v406
  let c0_i32_215 : BitVec 32 := 0#32
  let v409 : BitVec 1 := Scalar.cmpi .slt v407 c0_i32_215
  let c0_i32_216 : BitVec 32 := 0#32
  let v410 : BitVec 1 := Scalar.cmpi .slt v406 c0_i32_216
  let v411 : BitVec 1 := Scalar.xori v409 v410
  let c0_i32_214 : BitVec 32 := 0#32
  let v408 : BitVec 1 := Scalar.cmpi .ne v407 c0_i32_214
  let v412 : BitVec 1 := Scalar.andi v411 v408
  let v413 : BitVec 32 := Scalar.addi v407 v406
  let v414 : BitVec 32 := Scalar.select v412 v413 v407
  let c0_i32_217 : BitVec 32 := 0#32
  let v415 : BitVec 1 := Scalar.cmpi .eq v414 c0_i32_217
  let c2_i32_205 : BitVec 32 := 2#32
  let c0_i32_206 : BitVec 32 := 0#32
  let v395 : BitVec 1 := Scalar.cmpi .eq c2_i32_205 c0_i32_206
  let c1_i32_207 : BitVec 32 := 1#32
  let v396 : BitVec 32 := Scalar.select v395 c1_i32_207 c2_i32_205
  let v397 : BitVec 32 := Scalar.remsi v377 v396
  let c0_i32_209 : BitVec 32 := 0#32
  let v399 : BitVec 1 := Scalar.cmpi .slt v397 c0_i32_209
  let c0_i32_210 : BitVec 32 := 0#32
  let v400 : BitVec 1 := Scalar.cmpi .slt v396 c0_i32_210
  let v401 : BitVec 1 := Scalar.xori v399 v400
  let c0_i32_208 : BitVec 32 := 0#32
  let v398 : BitVec 1 := Scalar.cmpi .ne v397 c0_i32_208
  let v402 : BitVec 1 := Scalar.andi v401 v398
  let v403 : BitVec 32 := Scalar.addi v397 v396
  let v404 : BitVec 32 := Scalar.select v402 v403 v397
  let c1_i32_218 : BitVec 32 := 1#32
  let v416 : BitVec 32 := Scalar.subi c1_i32_218 v404
  let v417 : BitVec 32 := Scalar.select v415 v404 v416
  let c1_i32_219 : BitVec 32 := 1#32
  let v418 : BitVec 32 := Scalar.xori v417 c1_i32_219
  let c1_i32_229 : BitVec 32 := 1#32
  let v432 : BitVec 32 := Scalar.subi c1_i32_229 v418
  let v433 : BitVec 32 := Scalar.select v431 v418 v432
  let v437 : BitVec 32 := Scalar.addi v436 v433
  let c1_i32_998 : BitVec 32 := 1#32
  let v1432 : BitVec 32 := Scalar.muli v437 c1_i32_998
  let v1433 : BitVec 32 := Scalar.addi c0_i32_999 v1432
  v1433.toNat
def k0_dev36 (d0 : Dev nD) : Nat :=
  let c0_i32_1008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_233 : BitVec 32 := 0#32
  let v439 : BitVec 1 := Scalar.cmpi .sgt v2 c0_i32_233
  let v440 : BitVec 32 := Scalar.extui v439
  let c0_i32_234 : BitVec 32 := 0#32
  let v441 : BitVec 1 := Scalar.cmpi .slt v2 c0_i32_234
  let v442 : BitVec 32 := Scalar.extui v441
  let v443 : BitVec 32 := Scalar.subi v440 v442
  let c8_i32_232 : BitVec 32 := 8#32
  let c0_i32_235 : BitVec 32 := 0#32
  let v444 : BitVec 1 := Scalar.cmpi .sgt c8_i32_232 c0_i32_235
  let v445 : BitVec 32 := Scalar.extui v444
  let c0_i32_236 : BitVec 32 := 0#32
  let v446 : BitVec 1 := Scalar.cmpi .slt c8_i32_232 c0_i32_236
  let v447 : BitVec 32 := Scalar.extui v446
  let v448 : BitVec 32 := Scalar.subi v445 v447
  let v449 : BitVec 1 := Scalar.cmpi .ne v443 v448
  let v450 : BitVec 32 := Scalar.remsi v2 c8_i32_232
  let c0_i32_237 : BitVec 32 := 0#32
  let v451 : BitVec 1 := Scalar.cmpi .ne v450 c0_i32_237
  let v452 : BitVec 1 := Scalar.andi v449 v451
  let v438 : BitVec 32 := Scalar.divsi v2 c8_i32_232
  let c1_i32_238 : BitVec 32 := 1#32
  let v453 : BitVec 32 := Scalar.subi v438 c1_i32_238
  let v454 : BitVec 32 := Scalar.select v452 v453 v438
  let c0_i32_268 : BitVec 32 := 0#32
  let v507 : BitVec 32 := Scalar.xori v454 c0_i32_268
  let c8_i32_277 : BitVec 32 := 8#32
  let v521 : BitVec 32 := Scalar.muli v507 c8_i32_277
  let c8_i32_239 : BitVec 32 := 8#32
  let c0_i32_240 : BitVec 32 := 0#32
  let v455 : BitVec 1 := Scalar.cmpi .eq c8_i32_239 c0_i32_240
  let c1_i32_241 : BitVec 32 := 1#32
  let v456 : BitVec 32 := Scalar.select v455 c1_i32_241 c8_i32_239
  let v457 : BitVec 32 := Scalar.remsi v2 v456
  let c0_i32_243 : BitVec 32 := 0#32
  let v459 : BitVec 1 := Scalar.cmpi .slt v457 c0_i32_243
  let c0_i32_244 : BitVec 32 := 0#32
  let v460 : BitVec 1 := Scalar.cmpi .slt v456 c0_i32_244
  let v461 : BitVec 1 := Scalar.xori v459 v460
  let c0_i32_242 : BitVec 32 := 0#32
  let v458 : BitVec 1 := Scalar.cmpi .ne v457 c0_i32_242
  let v462 : BitVec 1 := Scalar.andi v461 v458
  let v463 : BitVec 32 := Scalar.addi v457 v456
  let v464 : BitVec 32 := Scalar.select v462 v463 v457
  let c0_i32_246 : BitVec 32 := 0#32
  let v466 : BitVec 1 := Scalar.cmpi .sgt v464 c0_i32_246
  let v467 : BitVec 32 := Scalar.extui v466
  let c0_i32_247 : BitVec 32 := 0#32
  let v468 : BitVec 1 := Scalar.cmpi .slt v464 c0_i32_247
  let v469 : BitVec 32 := Scalar.extui v468
  let v470 : BitVec 32 := Scalar.subi v467 v469
  let c2_i32_245 : BitVec 32 := 2#32
  let c0_i32_248 : BitVec 32 := 0#32
  let v471 : BitVec 1 := Scalar.cmpi .sgt c2_i32_245 c0_i32_248
  let v472 : BitVec 32 := Scalar.extui v471
  let c0_i32_249 : BitVec 32 := 0#32
  let v473 : BitVec 1 := Scalar.cmpi .slt c2_i32_245 c0_i32_249
  let v474 : BitVec 32 := Scalar.extui v473
  let v475 : BitVec 32 := Scalar.subi v472 v474
  let v476 : BitVec 1 := Scalar.cmpi .ne v470 v475
  let v477 : BitVec 32 := Scalar.remsi v464 c2_i32_245
  let c0_i32_250 : BitVec 32 := 0#32
  let v478 : BitVec 1 := Scalar.cmpi .ne v477 c0_i32_250
  let v479 : BitVec 1 := Scalar.andi v476 v478
  let v465 : BitVec 32 := Scalar.divsi v464 c2_i32_245
  let c1_i32_251 : BitVec 32 := 1#32
  let v480 : BitVec 32 := Scalar.subi v465 c1_i32_251
  let v481 : BitVec 32 := Scalar.select v479 v480 v465
  let c1_i32_267 : BitVec 32 := 1#32
  let v506 : BitVec 32 := Scalar.xori v481 c1_i32_267
  let c2_i32_278 : BitVec 32 := 2#32
  let v522 : BitVec 32 := Scalar.muli v506 c2_i32_278
  let v523 : BitVec 32 := Scalar.addi v521 v522
  let c2_i32_269 : BitVec 32 := 2#32
  let c0_i32_270 : BitVec 32 := 0#32
  let v508 : BitVec 1 := Scalar.cmpi .eq c2_i32_269 c0_i32_270
  let c1_i32_271 : BitVec 32 := 1#32
  let v509 : BitVec 32 := Scalar.select v508 c1_i32_271 c2_i32_269
  let v510 : BitVec 32 := Scalar.remsi v506 v509
  let c0_i32_273 : BitVec 32 := 0#32
  let v512 : BitVec 1 := Scalar.cmpi .slt v510 c0_i32_273
  let c0_i32_274 : BitVec 32 := 0#32
  let v513 : BitVec 1 := Scalar.cmpi .slt v509 c0_i32_274
  let v514 : BitVec 1 := Scalar.xori v512 v513
  let c0_i32_272 : BitVec 32 := 0#32
  let v511 : BitVec 1 := Scalar.cmpi .ne v510 c0_i32_272
  let v515 : BitVec 1 := Scalar.andi v514 v511
  let v516 : BitVec 32 := Scalar.addi v510 v509
  let v517 : BitVec 32 := Scalar.select v515 v516 v510
  let c0_i32_275 : BitVec 32 := 0#32
  let v518 : BitVec 1 := Scalar.cmpi .eq v517 c0_i32_275
  let c2_i32_258 : BitVec 32 := 2#32
  let c0_i32_259 : BitVec 32 := 0#32
  let v492 : BitVec 1 := Scalar.cmpi .eq c2_i32_258 c0_i32_259
  let c1_i32_260 : BitVec 32 := 1#32
  let v493 : BitVec 32 := Scalar.select v492 c1_i32_260 c2_i32_258
  let v494 : BitVec 32 := Scalar.remsi v481 v493
  let c0_i32_262 : BitVec 32 := 0#32
  let v496 : BitVec 1 := Scalar.cmpi .slt v494 c0_i32_262
  let c0_i32_263 : BitVec 32 := 0#32
  let v497 : BitVec 1 := Scalar.cmpi .slt v493 c0_i32_263
  let v498 : BitVec 1 := Scalar.xori v496 v497
  let c0_i32_261 : BitVec 32 := 0#32
  let v495 : BitVec 1 := Scalar.cmpi .ne v494 c0_i32_261
  let v499 : BitVec 1 := Scalar.andi v498 v495
  let v500 : BitVec 32 := Scalar.addi v494 v493
  let v501 : BitVec 32 := Scalar.select v499 v500 v494
  let c0_i32_264 : BitVec 32 := 0#32
  let v502 : BitVec 1 := Scalar.cmpi .eq v501 c0_i32_264
  let c2_i32_252 : BitVec 32 := 2#32
  let c0_i32_253 : BitVec 32 := 0#32
  let v482 : BitVec 1 := Scalar.cmpi .eq c2_i32_252 c0_i32_253
  let c1_i32_254 : BitVec 32 := 1#32
  let v483 : BitVec 32 := Scalar.select v482 c1_i32_254 c2_i32_252
  let v484 : BitVec 32 := Scalar.remsi v464 v483
  let c0_i32_256 : BitVec 32 := 0#32
  let v486 : BitVec 1 := Scalar.cmpi .slt v484 c0_i32_256
  let c0_i32_257 : BitVec 32 := 0#32
  let v487 : BitVec 1 := Scalar.cmpi .slt v483 c0_i32_257
  let v488 : BitVec 1 := Scalar.xori v486 v487
  let c0_i32_255 : BitVec 32 := 0#32
  let v485 : BitVec 1 := Scalar.cmpi .ne v484 c0_i32_255
  let v489 : BitVec 1 := Scalar.andi v488 v485
  let v490 : BitVec 32 := Scalar.addi v484 v483
  let v491 : BitVec 32 := Scalar.select v489 v490 v484
  let c1_i32_265 : BitVec 32 := 1#32
  let v503 : BitVec 32 := Scalar.subi c1_i32_265 v491
  let v504 : BitVec 32 := Scalar.select v502 v491 v503
  let c0_i32_266 : BitVec 32 := 0#32
  let v505 : BitVec 32 := Scalar.xori v504 c0_i32_266
  let c1_i32_276 : BitVec 32 := 1#32
  let v519 : BitVec 32 := Scalar.subi c1_i32_276 v505
  let v520 : BitVec 32 := Scalar.select v518 v505 v519
  let v524 : BitVec 32 := Scalar.addi v523 v520
  let c1_i32_1007 : BitVec 32 := 1#32
  let v1442 : BitVec 32 := Scalar.muli v524 c1_i32_1007
  let v1443 : BitVec 32 := Scalar.addi c0_i32_1008 v1442
  v1443.toNat
def k0_dev37 (d0 : Dev nD) : Nat :=
  let c0_i32_1017 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_280 : BitVec 32 := 0#32
  let v526 : BitVec 1 := Scalar.cmpi .sgt v2 c0_i32_280
  let v527 : BitVec 32 := Scalar.extui v526
  let c0_i32_281 : BitVec 32 := 0#32
  let v528 : BitVec 1 := Scalar.cmpi .slt v2 c0_i32_281
  let v529 : BitVec 32 := Scalar.extui v528
  let v530 : BitVec 32 := Scalar.subi v527 v529
  let c8_i32_279 : BitVec 32 := 8#32
  let c0_i32_282 : BitVec 32 := 0#32
  let v531 : BitVec 1 := Scalar.cmpi .sgt c8_i32_279 c0_i32_282
  let v532 : BitVec 32 := Scalar.extui v531
  let c0_i32_283 : BitVec 32 := 0#32
  let v533 : BitVec 1 := Scalar.cmpi .slt c8_i32_279 c0_i32_283
  let v534 : BitVec 32 := Scalar.extui v533
  let v535 : BitVec 32 := Scalar.subi v532 v534
  let v536 : BitVec 1 := Scalar.cmpi .ne v530 v535
  let v537 : BitVec 32 := Scalar.remsi v2 c8_i32_279
  let c0_i32_284 : BitVec 32 := 0#32
  let v538 : BitVec 1 := Scalar.cmpi .ne v537 c0_i32_284
  let v539 : BitVec 1 := Scalar.andi v536 v538
  let v525 : BitVec 32 := Scalar.divsi v2 c8_i32_279
  let c1_i32_285 : BitVec 32 := 1#32
  let v540 : BitVec 32 := Scalar.subi v525 c1_i32_285
  let v541 : BitVec 32 := Scalar.select v539 v540 v525
  let c1_i32_315 : BitVec 32 := 1#32
  let v594 : BitVec 32 := Scalar.xori v541 c1_i32_315
  let c8_i32_324 : BitVec 32 := 8#32
  let v608 : BitVec 32 := Scalar.muli v594 c8_i32_324
  let c8_i32_286 : BitVec 32 := 8#32
  let c0_i32_287 : BitVec 32 := 0#32
  let v542 : BitVec 1 := Scalar.cmpi .eq c8_i32_286 c0_i32_287
  let c1_i32_288 : BitVec 32 := 1#32
  let v543 : BitVec 32 := Scalar.select v542 c1_i32_288 c8_i32_286
  let v544 : BitVec 32 := Scalar.remsi v2 v543
  let c0_i32_290 : BitVec 32 := 0#32
  let v546 : BitVec 1 := Scalar.cmpi .slt v544 c0_i32_290
  let c0_i32_291 : BitVec 32 := 0#32
  let v547 : BitVec 1 := Scalar.cmpi .slt v543 c0_i32_291
  let v548 : BitVec 1 := Scalar.xori v546 v547
  let c0_i32_289 : BitVec 32 := 0#32
  let v545 : BitVec 1 := Scalar.cmpi .ne v544 c0_i32_289
  let v549 : BitVec 1 := Scalar.andi v548 v545
  let v550 : BitVec 32 := Scalar.addi v544 v543
  let v551 : BitVec 32 := Scalar.select v549 v550 v544
  let c0_i32_293 : BitVec 32 := 0#32
  let v553 : BitVec 1 := Scalar.cmpi .sgt v551 c0_i32_293
  let v554 : BitVec 32 := Scalar.extui v553
  let c0_i32_294 : BitVec 32 := 0#32
  let v555 : BitVec 1 := Scalar.cmpi .slt v551 c0_i32_294
  let v556 : BitVec 32 := Scalar.extui v555
  let v557 : BitVec 32 := Scalar.subi v554 v556
  let c2_i32_292 : BitVec 32 := 2#32
  let c0_i32_295 : BitVec 32 := 0#32
  let v558 : BitVec 1 := Scalar.cmpi .sgt c2_i32_292 c0_i32_295
  let v559 : BitVec 32 := Scalar.extui v558
  let c0_i32_296 : BitVec 32 := 0#32
  let v560 : BitVec 1 := Scalar.cmpi .slt c2_i32_292 c0_i32_296
  let v561 : BitVec 32 := Scalar.extui v560
  let v562 : BitVec 32 := Scalar.subi v559 v561
  let v563 : BitVec 1 := Scalar.cmpi .ne v557 v562
  let v564 : BitVec 32 := Scalar.remsi v551 c2_i32_292
  let c0_i32_297 : BitVec 32 := 0#32
  let v565 : BitVec 1 := Scalar.cmpi .ne v564 c0_i32_297
  let v566 : BitVec 1 := Scalar.andi v563 v565
  let v552 : BitVec 32 := Scalar.divsi v551 c2_i32_292
  let c1_i32_298 : BitVec 32 := 1#32
  let v567 : BitVec 32 := Scalar.subi v552 c1_i32_298
  let v568 : BitVec 32 := Scalar.select v566 v567 v552
  let c0_i32_314 : BitVec 32 := 0#32
  let v593 : BitVec 32 := Scalar.xori v568 c0_i32_314
  let c2_i32_325 : BitVec 32 := 2#32
  let v609 : BitVec 32 := Scalar.muli v593 c2_i32_325
  let v610 : BitVec 32 := Scalar.addi v608 v609
  let c2_i32_316 : BitVec 32 := 2#32
  let c0_i32_317 : BitVec 32 := 0#32
  let v595 : BitVec 1 := Scalar.cmpi .eq c2_i32_316 c0_i32_317
  let c1_i32_318 : BitVec 32 := 1#32
  let v596 : BitVec 32 := Scalar.select v595 c1_i32_318 c2_i32_316
  let v597 : BitVec 32 := Scalar.remsi v593 v596
  let c0_i32_320 : BitVec 32 := 0#32
  let v599 : BitVec 1 := Scalar.cmpi .slt v597 c0_i32_320
  let c0_i32_321 : BitVec 32 := 0#32
  let v600 : BitVec 1 := Scalar.cmpi .slt v596 c0_i32_321
  let v601 : BitVec 1 := Scalar.xori v599 v600
  let c0_i32_319 : BitVec 32 := 0#32
  let v598 : BitVec 1 := Scalar.cmpi .ne v597 c0_i32_319
  let v602 : BitVec 1 := Scalar.andi v601 v598
  let v603 : BitVec 32 := Scalar.addi v597 v596
  let v604 : BitVec 32 := Scalar.select v602 v603 v597
  let c0_i32_322 : BitVec 32 := 0#32
  let v605 : BitVec 1 := Scalar.cmpi .eq v604 c0_i32_322
  let c2_i32_305 : BitVec 32 := 2#32
  let c0_i32_306 : BitVec 32 := 0#32
  let v579 : BitVec 1 := Scalar.cmpi .eq c2_i32_305 c0_i32_306
  let c1_i32_307 : BitVec 32 := 1#32
  let v580 : BitVec 32 := Scalar.select v579 c1_i32_307 c2_i32_305
  let v581 : BitVec 32 := Scalar.remsi v568 v580
  let c0_i32_309 : BitVec 32 := 0#32
  let v583 : BitVec 1 := Scalar.cmpi .slt v581 c0_i32_309
  let c0_i32_310 : BitVec 32 := 0#32
  let v584 : BitVec 1 := Scalar.cmpi .slt v580 c0_i32_310
  let v585 : BitVec 1 := Scalar.xori v583 v584
  let c0_i32_308 : BitVec 32 := 0#32
  let v582 : BitVec 1 := Scalar.cmpi .ne v581 c0_i32_308
  let v586 : BitVec 1 := Scalar.andi v585 v582
  let v587 : BitVec 32 := Scalar.addi v581 v580
  let v588 : BitVec 32 := Scalar.select v586 v587 v581
  let c0_i32_311 : BitVec 32 := 0#32
  let v589 : BitVec 1 := Scalar.cmpi .eq v588 c0_i32_311
  let c2_i32_299 : BitVec 32 := 2#32
  let c0_i32_300 : BitVec 32 := 0#32
  let v569 : BitVec 1 := Scalar.cmpi .eq c2_i32_299 c0_i32_300
  let c1_i32_301 : BitVec 32 := 1#32
  let v570 : BitVec 32 := Scalar.select v569 c1_i32_301 c2_i32_299
  let v571 : BitVec 32 := Scalar.remsi v551 v570
  let c0_i32_303 : BitVec 32 := 0#32
  let v573 : BitVec 1 := Scalar.cmpi .slt v571 c0_i32_303
  let c0_i32_304 : BitVec 32 := 0#32
  let v574 : BitVec 1 := Scalar.cmpi .slt v570 c0_i32_304
  let v575 : BitVec 1 := Scalar.xori v573 v574
  let c0_i32_302 : BitVec 32 := 0#32
  let v572 : BitVec 1 := Scalar.cmpi .ne v571 c0_i32_302
  let v576 : BitVec 1 := Scalar.andi v575 v572
  let v577 : BitVec 32 := Scalar.addi v571 v570
  let v578 : BitVec 32 := Scalar.select v576 v577 v571
  let c1_i32_312 : BitVec 32 := 1#32
  let v590 : BitVec 32 := Scalar.subi c1_i32_312 v578
  let v591 : BitVec 32 := Scalar.select v589 v578 v590
  let c0_i32_313 : BitVec 32 := 0#32
  let v592 : BitVec 32 := Scalar.xori v591 c0_i32_313
  let c1_i32_323 : BitVec 32 := 1#32
  let v606 : BitVec 32 := Scalar.subi c1_i32_323 v592
  let v607 : BitVec 32 := Scalar.select v605 v592 v606
  let v611 : BitVec 32 := Scalar.addi v610 v607
  let c1_i32_1016 : BitVec 32 := 1#32
  let v1452 : BitVec 32 := Scalar.muli v611 c1_i32_1016
  let v1453 : BitVec 32 := Scalar.addi c0_i32_1017 v1452
  v1453.toNat
def k0_dev38 (d0 : Dev nD) : Nat :=
  let c0_i32_1113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_327 : BitVec 32 := 0#32
  let v613 : BitVec 1 := Scalar.cmpi .sgt v2 c0_i32_327
  let v614 : BitVec 32 := Scalar.extui v613
  let c0_i32_328 : BitVec 32 := 0#32
  let v615 : BitVec 1 := Scalar.cmpi .slt v2 c0_i32_328
  let v616 : BitVec 32 := Scalar.extui v615
  let v617 : BitVec 32 := Scalar.subi v614 v616
  let c8_i32_326 : BitVec 32 := 8#32
  let c0_i32_329 : BitVec 32 := 0#32
  let v618 : BitVec 1 := Scalar.cmpi .sgt c8_i32_326 c0_i32_329
  let v619 : BitVec 32 := Scalar.extui v618
  let c0_i32_330 : BitVec 32 := 0#32
  let v620 : BitVec 1 := Scalar.cmpi .slt c8_i32_326 c0_i32_330
  let v621 : BitVec 32 := Scalar.extui v620
  let v622 : BitVec 32 := Scalar.subi v619 v621
  let v623 : BitVec 1 := Scalar.cmpi .ne v617 v622
  let v624 : BitVec 32 := Scalar.remsi v2 c8_i32_326
  let c0_i32_331 : BitVec 32 := 0#32
  let v625 : BitVec 1 := Scalar.cmpi .ne v624 c0_i32_331
  let v626 : BitVec 1 := Scalar.andi v623 v625
  let v612 : BitVec 32 := Scalar.divsi v2 c8_i32_326
  let c1_i32_332 : BitVec 32 := 1#32
  let v627 : BitVec 32 := Scalar.subi v612 c1_i32_332
  let v628 : BitVec 32 := Scalar.select v626 v627 v612
  let c2_i32_362 : BitVec 32 := 2#32
  let v681 : BitVec 32 := Scalar.xori v628 c2_i32_362
  let c8_i32_371 : BitVec 32 := 8#32
  let v695 : BitVec 32 := Scalar.muli v681 c8_i32_371
  let c8_i32_333 : BitVec 32 := 8#32
  let c0_i32_334 : BitVec 32 := 0#32
  let v629 : BitVec 1 := Scalar.cmpi .eq c8_i32_333 c0_i32_334
  let c1_i32_335 : BitVec 32 := 1#32
  let v630 : BitVec 32 := Scalar.select v629 c1_i32_335 c8_i32_333
  let v631 : BitVec 32 := Scalar.remsi v2 v630
  let c0_i32_337 : BitVec 32 := 0#32
  let v633 : BitVec 1 := Scalar.cmpi .slt v631 c0_i32_337
  let c0_i32_338 : BitVec 32 := 0#32
  let v634 : BitVec 1 := Scalar.cmpi .slt v630 c0_i32_338
  let v635 : BitVec 1 := Scalar.xori v633 v634
  let c0_i32_336 : BitVec 32 := 0#32
  let v632 : BitVec 1 := Scalar.cmpi .ne v631 c0_i32_336
  let v636 : BitVec 1 := Scalar.andi v635 v632
  let v637 : BitVec 32 := Scalar.addi v631 v630
  let v638 : BitVec 32 := Scalar.select v636 v637 v631
  let c0_i32_340 : BitVec 32 := 0#32
  let v640 : BitVec 1 := Scalar.cmpi .sgt v638 c0_i32_340
  let v641 : BitVec 32 := Scalar.extui v640
  let c0_i32_341 : BitVec 32 := 0#32
  let v642 : BitVec 1 := Scalar.cmpi .slt v638 c0_i32_341
  let v643 : BitVec 32 := Scalar.extui v642
  let v644 : BitVec 32 := Scalar.subi v641 v643
  let c2_i32_339 : BitVec 32 := 2#32
  let c0_i32_342 : BitVec 32 := 0#32
  let v645 : BitVec 1 := Scalar.cmpi .sgt c2_i32_339 c0_i32_342
  let v646 : BitVec 32 := Scalar.extui v645
  let c0_i32_343 : BitVec 32 := 0#32
  let v647 : BitVec 1 := Scalar.cmpi .slt c2_i32_339 c0_i32_343
  let v648 : BitVec 32 := Scalar.extui v647
  let v649 : BitVec 32 := Scalar.subi v646 v648
  let v650 : BitVec 1 := Scalar.cmpi .ne v644 v649
  let v651 : BitVec 32 := Scalar.remsi v638 c2_i32_339
  let c0_i32_344 : BitVec 32 := 0#32
  let v652 : BitVec 1 := Scalar.cmpi .ne v651 c0_i32_344
  let v653 : BitVec 1 := Scalar.andi v650 v652
  let v639 : BitVec 32 := Scalar.divsi v638 c2_i32_339
  let c1_i32_345 : BitVec 32 := 1#32
  let v654 : BitVec 32 := Scalar.subi v639 c1_i32_345
  let v655 : BitVec 32 := Scalar.select v653 v654 v639
  let c2_i32_361 : BitVec 32 := 2#32
  let v680 : BitVec 32 := Scalar.xori v655 c2_i32_361
  let c2_i32_372 : BitVec 32 := 2#32
  let v696 : BitVec 32 := Scalar.muli v680 c2_i32_372
  let v697 : BitVec 32 := Scalar.addi v695 v696
  let c2_i32_363 : BitVec 32 := 2#32
  let c0_i32_364 : BitVec 32 := 0#32
  let v682 : BitVec 1 := Scalar.cmpi .eq c2_i32_363 c0_i32_364
  let c1_i32_365 : BitVec 32 := 1#32
  let v683 : BitVec 32 := Scalar.select v682 c1_i32_365 c2_i32_363
  let v684 : BitVec 32 := Scalar.remsi v680 v683
  let c0_i32_367 : BitVec 32 := 0#32
  let v686 : BitVec 1 := Scalar.cmpi .slt v684 c0_i32_367
  let c0_i32_368 : BitVec 32 := 0#32
  let v687 : BitVec 1 := Scalar.cmpi .slt v683 c0_i32_368
  let v688 : BitVec 1 := Scalar.xori v686 v687
  let c0_i32_366 : BitVec 32 := 0#32
  let v685 : BitVec 1 := Scalar.cmpi .ne v684 c0_i32_366
  let v689 : BitVec 1 := Scalar.andi v688 v685
  let v690 : BitVec 32 := Scalar.addi v684 v683
  let v691 : BitVec 32 := Scalar.select v689 v690 v684
  let c0_i32_369 : BitVec 32 := 0#32
  let v692 : BitVec 1 := Scalar.cmpi .eq v691 c0_i32_369
  let c2_i32_352 : BitVec 32 := 2#32
  let c0_i32_353 : BitVec 32 := 0#32
  let v666 : BitVec 1 := Scalar.cmpi .eq c2_i32_352 c0_i32_353
  let c1_i32_354 : BitVec 32 := 1#32
  let v667 : BitVec 32 := Scalar.select v666 c1_i32_354 c2_i32_352
  let v668 : BitVec 32 := Scalar.remsi v655 v667
  let c0_i32_356 : BitVec 32 := 0#32
  let v670 : BitVec 1 := Scalar.cmpi .slt v668 c0_i32_356
  let c0_i32_357 : BitVec 32 := 0#32
  let v671 : BitVec 1 := Scalar.cmpi .slt v667 c0_i32_357
  let v672 : BitVec 1 := Scalar.xori v670 v671
  let c0_i32_355 : BitVec 32 := 0#32
  let v669 : BitVec 1 := Scalar.cmpi .ne v668 c0_i32_355
  let v673 : BitVec 1 := Scalar.andi v672 v669
  let v674 : BitVec 32 := Scalar.addi v668 v667
  let v675 : BitVec 32 := Scalar.select v673 v674 v668
  let c0_i32_358 : BitVec 32 := 0#32
  let v676 : BitVec 1 := Scalar.cmpi .eq v675 c0_i32_358
  let c2_i32_346 : BitVec 32 := 2#32
  let c0_i32_347 : BitVec 32 := 0#32
  let v656 : BitVec 1 := Scalar.cmpi .eq c2_i32_346 c0_i32_347
  let c1_i32_348 : BitVec 32 := 1#32
  let v657 : BitVec 32 := Scalar.select v656 c1_i32_348 c2_i32_346
  let v658 : BitVec 32 := Scalar.remsi v638 v657
  let c0_i32_350 : BitVec 32 := 0#32
  let v660 : BitVec 1 := Scalar.cmpi .slt v658 c0_i32_350
  let c0_i32_351 : BitVec 32 := 0#32
  let v661 : BitVec 1 := Scalar.cmpi .slt v657 c0_i32_351
  let v662 : BitVec 1 := Scalar.xori v660 v661
  let c0_i32_349 : BitVec 32 := 0#32
  let v659 : BitVec 1 := Scalar.cmpi .ne v658 c0_i32_349
  let v663 : BitVec 1 := Scalar.andi v662 v659
  let v664 : BitVec 32 := Scalar.addi v658 v657
  let v665 : BitVec 32 := Scalar.select v663 v664 v658
  let c1_i32_359 : BitVec 32 := 1#32
  let v677 : BitVec 32 := Scalar.subi c1_i32_359 v665
  let v678 : BitVec 32 := Scalar.select v676 v665 v677
  let c0_i32_360 : BitVec 32 := 0#32
  let v679 : BitVec 32 := Scalar.xori v678 c0_i32_360
  let c1_i32_370 : BitVec 32 := 1#32
  let v693 : BitVec 32 := Scalar.subi c1_i32_370 v679
  let v694 : BitVec 32 := Scalar.select v692 v679 v693
  let v698 : BitVec 32 := Scalar.addi v697 v694
  let c1_i32_1112 : BitVec 32 := 1#32
  let v1550 : BitVec 32 := Scalar.muli v698 c1_i32_1112
  let v1551 : BitVec 32 := Scalar.addi c0_i32_1113 v1550
  v1551.toNat
def k0_dev39 (d0 : Dev nD) : Nat :=
  let c0_i32_1122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_374 : BitVec 32 := 0#32
  let v700 : BitVec 1 := Scalar.cmpi .sgt v2 c0_i32_374
  let v701 : BitVec 32 := Scalar.extui v700
  let c0_i32_375 : BitVec 32 := 0#32
  let v702 : BitVec 1 := Scalar.cmpi .slt v2 c0_i32_375
  let v703 : BitVec 32 := Scalar.extui v702
  let v704 : BitVec 32 := Scalar.subi v701 v703
  let c8_i32_373 : BitVec 32 := 8#32
  let c0_i32_376 : BitVec 32 := 0#32
  let v705 : BitVec 1 := Scalar.cmpi .sgt c8_i32_373 c0_i32_376
  let v706 : BitVec 32 := Scalar.extui v705
  let c0_i32_377 : BitVec 32 := 0#32
  let v707 : BitVec 1 := Scalar.cmpi .slt c8_i32_373 c0_i32_377
  let v708 : BitVec 32 := Scalar.extui v707
  let v709 : BitVec 32 := Scalar.subi v706 v708
  let v710 : BitVec 1 := Scalar.cmpi .ne v704 v709
  let v711 : BitVec 32 := Scalar.remsi v2 c8_i32_373
  let c0_i32_378 : BitVec 32 := 0#32
  let v712 : BitVec 1 := Scalar.cmpi .ne v711 c0_i32_378
  let v713 : BitVec 1 := Scalar.andi v710 v712
  let v699 : BitVec 32 := Scalar.divsi v2 c8_i32_373
  let c1_i32_379 : BitVec 32 := 1#32
  let v714 : BitVec 32 := Scalar.subi v699 c1_i32_379
  let v715 : BitVec 32 := Scalar.select v713 v714 v699
  let c0_i32_409 : BitVec 32 := 0#32
  let v768 : BitVec 32 := Scalar.xori v715 c0_i32_409
  let c8_i32_418 : BitVec 32 := 8#32
  let v782 : BitVec 32 := Scalar.muli v768 c8_i32_418
  let c8_i32_380 : BitVec 32 := 8#32
  let c0_i32_381 : BitVec 32 := 0#32
  let v716 : BitVec 1 := Scalar.cmpi .eq c8_i32_380 c0_i32_381
  let c1_i32_382 : BitVec 32 := 1#32
  let v717 : BitVec 32 := Scalar.select v716 c1_i32_382 c8_i32_380
  let v718 : BitVec 32 := Scalar.remsi v2 v717
  let c0_i32_384 : BitVec 32 := 0#32
  let v720 : BitVec 1 := Scalar.cmpi .slt v718 c0_i32_384
  let c0_i32_385 : BitVec 32 := 0#32
  let v721 : BitVec 1 := Scalar.cmpi .slt v717 c0_i32_385
  let v722 : BitVec 1 := Scalar.xori v720 v721
  let c0_i32_383 : BitVec 32 := 0#32
  let v719 : BitVec 1 := Scalar.cmpi .ne v718 c0_i32_383
  let v723 : BitVec 1 := Scalar.andi v722 v719
  let v724 : BitVec 32 := Scalar.addi v718 v717
  let v725 : BitVec 32 := Scalar.select v723 v724 v718
  let c0_i32_387 : BitVec 32 := 0#32
  let v727 : BitVec 1 := Scalar.cmpi .sgt v725 c0_i32_387
  let v728 : BitVec 32 := Scalar.extui v727
  let c0_i32_388 : BitVec 32 := 0#32
  let v729 : BitVec 1 := Scalar.cmpi .slt v725 c0_i32_388
  let v730 : BitVec 32 := Scalar.extui v729
  let v731 : BitVec 32 := Scalar.subi v728 v730
  let c2_i32_386 : BitVec 32 := 2#32
  let c0_i32_389 : BitVec 32 := 0#32
  let v732 : BitVec 1 := Scalar.cmpi .sgt c2_i32_386 c0_i32_389
  let v733 : BitVec 32 := Scalar.extui v732
  let c0_i32_390 : BitVec 32 := 0#32
  let v734 : BitVec 1 := Scalar.cmpi .slt c2_i32_386 c0_i32_390
  let v735 : BitVec 32 := Scalar.extui v734
  let v736 : BitVec 32 := Scalar.subi v733 v735
  let v737 : BitVec 1 := Scalar.cmpi .ne v731 v736
  let v738 : BitVec 32 := Scalar.remsi v725 c2_i32_386
  let c0_i32_391 : BitVec 32 := 0#32
  let v739 : BitVec 1 := Scalar.cmpi .ne v738 c0_i32_391
  let v740 : BitVec 1 := Scalar.andi v737 v739
  let v726 : BitVec 32 := Scalar.divsi v725 c2_i32_386
  let c1_i32_392 : BitVec 32 := 1#32
  let v741 : BitVec 32 := Scalar.subi v726 c1_i32_392
  let v742 : BitVec 32 := Scalar.select v740 v741 v726
  let c2_i32_408 : BitVec 32 := 2#32
  let v767 : BitVec 32 := Scalar.xori v742 c2_i32_408
  let c2_i32_419 : BitVec 32 := 2#32
  let v783 : BitVec 32 := Scalar.muli v767 c2_i32_419
  let v784 : BitVec 32 := Scalar.addi v782 v783
  let c2_i32_410 : BitVec 32 := 2#32
  let c0_i32_411 : BitVec 32 := 0#32
  let v769 : BitVec 1 := Scalar.cmpi .eq c2_i32_410 c0_i32_411
  let c1_i32_412 : BitVec 32 := 1#32
  let v770 : BitVec 32 := Scalar.select v769 c1_i32_412 c2_i32_410
  let v771 : BitVec 32 := Scalar.remsi v767 v770
  let c0_i32_414 : BitVec 32 := 0#32
  let v773 : BitVec 1 := Scalar.cmpi .slt v771 c0_i32_414
  let c0_i32_415 : BitVec 32 := 0#32
  let v774 : BitVec 1 := Scalar.cmpi .slt v770 c0_i32_415
  let v775 : BitVec 1 := Scalar.xori v773 v774
  let c0_i32_413 : BitVec 32 := 0#32
  let v772 : BitVec 1 := Scalar.cmpi .ne v771 c0_i32_413
  let v776 : BitVec 1 := Scalar.andi v775 v772
  let v777 : BitVec 32 := Scalar.addi v771 v770
  let v778 : BitVec 32 := Scalar.select v776 v777 v771
  let c0_i32_416 : BitVec 32 := 0#32
  let v779 : BitVec 1 := Scalar.cmpi .eq v778 c0_i32_416
  let c2_i32_399 : BitVec 32 := 2#32
  let c0_i32_400 : BitVec 32 := 0#32
  let v753 : BitVec 1 := Scalar.cmpi .eq c2_i32_399 c0_i32_400
  let c1_i32_401 : BitVec 32 := 1#32
  let v754 : BitVec 32 := Scalar.select v753 c1_i32_401 c2_i32_399
  let v755 : BitVec 32 := Scalar.remsi v742 v754
  let c0_i32_403 : BitVec 32 := 0#32
  let v757 : BitVec 1 := Scalar.cmpi .slt v755 c0_i32_403
  let c0_i32_404 : BitVec 32 := 0#32
  let v758 : BitVec 1 := Scalar.cmpi .slt v754 c0_i32_404
  let v759 : BitVec 1 := Scalar.xori v757 v758
  let c0_i32_402 : BitVec 32 := 0#32
  let v756 : BitVec 1 := Scalar.cmpi .ne v755 c0_i32_402
  let v760 : BitVec 1 := Scalar.andi v759 v756
  let v761 : BitVec 32 := Scalar.addi v755 v754
  let v762 : BitVec 32 := Scalar.select v760 v761 v755
  let c0_i32_405 : BitVec 32 := 0#32
  let v763 : BitVec 1 := Scalar.cmpi .eq v762 c0_i32_405
  let c2_i32_393 : BitVec 32 := 2#32
  let c0_i32_394 : BitVec 32 := 0#32
  let v743 : BitVec 1 := Scalar.cmpi .eq c2_i32_393 c0_i32_394
  let c1_i32_395 : BitVec 32 := 1#32
  let v744 : BitVec 32 := Scalar.select v743 c1_i32_395 c2_i32_393
  let v745 : BitVec 32 := Scalar.remsi v725 v744
  let c0_i32_397 : BitVec 32 := 0#32
  let v747 : BitVec 1 := Scalar.cmpi .slt v745 c0_i32_397
  let c0_i32_398 : BitVec 32 := 0#32
  let v748 : BitVec 1 := Scalar.cmpi .slt v744 c0_i32_398
  let v749 : BitVec 1 := Scalar.xori v747 v748
  let c0_i32_396 : BitVec 32 := 0#32
  let v746 : BitVec 1 := Scalar.cmpi .ne v745 c0_i32_396
  let v750 : BitVec 1 := Scalar.andi v749 v746
  let v751 : BitVec 32 := Scalar.addi v745 v744
  let v752 : BitVec 32 := Scalar.select v750 v751 v745
  let c1_i32_406 : BitVec 32 := 1#32
  let v764 : BitVec 32 := Scalar.subi c1_i32_406 v752
  let v765 : BitVec 32 := Scalar.select v763 v752 v764
  let c0_i32_407 : BitVec 32 := 0#32
  let v766 : BitVec 32 := Scalar.xori v765 c0_i32_407
  let c1_i32_417 : BitVec 32 := 1#32
  let v780 : BitVec 32 := Scalar.subi c1_i32_417 v766
  let v781 : BitVec 32 := Scalar.select v779 v766 v780
  let v785 : BitVec 32 := Scalar.addi v784 v781
  let c1_i32_1121 : BitVec 32 := 1#32
  let v1560 : BitVec 32 := Scalar.muli v785 c1_i32_1121
  let v1561 : BitVec 32 := Scalar.addi c0_i32_1122 v1560
  v1561.toNat
def k0_dev40 (d0 : Dev nD) : Nat :=
  let c0_i32_1131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_421 : BitVec 32 := 0#32
  let v787 : BitVec 1 := Scalar.cmpi .sgt v2 c0_i32_421
  let v788 : BitVec 32 := Scalar.extui v787
  let c0_i32_422 : BitVec 32 := 0#32
  let v789 : BitVec 1 := Scalar.cmpi .slt v2 c0_i32_422
  let v790 : BitVec 32 := Scalar.extui v789
  let v791 : BitVec 32 := Scalar.subi v788 v790
  let c8_i32_420 : BitVec 32 := 8#32
  let c0_i32_423 : BitVec 32 := 0#32
  let v792 : BitVec 1 := Scalar.cmpi .sgt c8_i32_420 c0_i32_423
  let v793 : BitVec 32 := Scalar.extui v792
  let c0_i32_424 : BitVec 32 := 0#32
  let v794 : BitVec 1 := Scalar.cmpi .slt c8_i32_420 c0_i32_424
  let v795 : BitVec 32 := Scalar.extui v794
  let v796 : BitVec 32 := Scalar.subi v793 v795
  let v797 : BitVec 1 := Scalar.cmpi .ne v791 v796
  let v798 : BitVec 32 := Scalar.remsi v2 c8_i32_420
  let c0_i32_425 : BitVec 32 := 0#32
  let v799 : BitVec 1 := Scalar.cmpi .ne v798 c0_i32_425
  let v800 : BitVec 1 := Scalar.andi v797 v799
  let v786 : BitVec 32 := Scalar.divsi v2 c8_i32_420
  let c1_i32_426 : BitVec 32 := 1#32
  let v801 : BitVec 32 := Scalar.subi v786 c1_i32_426
  let v802 : BitVec 32 := Scalar.select v800 v801 v786
  let c2_i32_456 : BitVec 32 := 2#32
  let v855 : BitVec 32 := Scalar.xori v802 c2_i32_456
  let c8_i32_465 : BitVec 32 := 8#32
  let v869 : BitVec 32 := Scalar.muli v855 c8_i32_465
  let c8_i32_427 : BitVec 32 := 8#32
  let c0_i32_428 : BitVec 32 := 0#32
  let v803 : BitVec 1 := Scalar.cmpi .eq c8_i32_427 c0_i32_428
  let c1_i32_429 : BitVec 32 := 1#32
  let v804 : BitVec 32 := Scalar.select v803 c1_i32_429 c8_i32_427
  let v805 : BitVec 32 := Scalar.remsi v2 v804
  let c0_i32_431 : BitVec 32 := 0#32
  let v807 : BitVec 1 := Scalar.cmpi .slt v805 c0_i32_431
  let c0_i32_432 : BitVec 32 := 0#32
  let v808 : BitVec 1 := Scalar.cmpi .slt v804 c0_i32_432
  let v809 : BitVec 1 := Scalar.xori v807 v808
  let c0_i32_430 : BitVec 32 := 0#32
  let v806 : BitVec 1 := Scalar.cmpi .ne v805 c0_i32_430
  let v810 : BitVec 1 := Scalar.andi v809 v806
  let v811 : BitVec 32 := Scalar.addi v805 v804
  let v812 : BitVec 32 := Scalar.select v810 v811 v805
  let c0_i32_434 : BitVec 32 := 0#32
  let v814 : BitVec 1 := Scalar.cmpi .sgt v812 c0_i32_434
  let v815 : BitVec 32 := Scalar.extui v814
  let c0_i32_435 : BitVec 32 := 0#32
  let v816 : BitVec 1 := Scalar.cmpi .slt v812 c0_i32_435
  let v817 : BitVec 32 := Scalar.extui v816
  let v818 : BitVec 32 := Scalar.subi v815 v817
  let c2_i32_433 : BitVec 32 := 2#32
  let c0_i32_436 : BitVec 32 := 0#32
  let v819 : BitVec 1 := Scalar.cmpi .sgt c2_i32_433 c0_i32_436
  let v820 : BitVec 32 := Scalar.extui v819
  let c0_i32_437 : BitVec 32 := 0#32
  let v821 : BitVec 1 := Scalar.cmpi .slt c2_i32_433 c0_i32_437
  let v822 : BitVec 32 := Scalar.extui v821
  let v823 : BitVec 32 := Scalar.subi v820 v822
  let v824 : BitVec 1 := Scalar.cmpi .ne v818 v823
  let v825 : BitVec 32 := Scalar.remsi v812 c2_i32_433
  let c0_i32_438 : BitVec 32 := 0#32
  let v826 : BitVec 1 := Scalar.cmpi .ne v825 c0_i32_438
  let v827 : BitVec 1 := Scalar.andi v824 v826
  let v813 : BitVec 32 := Scalar.divsi v812 c2_i32_433
  let c1_i32_439 : BitVec 32 := 1#32
  let v828 : BitVec 32 := Scalar.subi v813 c1_i32_439
  let v829 : BitVec 32 := Scalar.select v827 v828 v813
  let c0_i32_455 : BitVec 32 := 0#32
  let v854 : BitVec 32 := Scalar.xori v829 c0_i32_455
  let c2_i32_466 : BitVec 32 := 2#32
  let v870 : BitVec 32 := Scalar.muli v854 c2_i32_466
  let v871 : BitVec 32 := Scalar.addi v869 v870
  let c2_i32_457 : BitVec 32 := 2#32
  let c0_i32_458 : BitVec 32 := 0#32
  let v856 : BitVec 1 := Scalar.cmpi .eq c2_i32_457 c0_i32_458
  let c1_i32_459 : BitVec 32 := 1#32
  let v857 : BitVec 32 := Scalar.select v856 c1_i32_459 c2_i32_457
  let v858 : BitVec 32 := Scalar.remsi v854 v857
  let c0_i32_461 : BitVec 32 := 0#32
  let v860 : BitVec 1 := Scalar.cmpi .slt v858 c0_i32_461
  let c0_i32_462 : BitVec 32 := 0#32
  let v861 : BitVec 1 := Scalar.cmpi .slt v857 c0_i32_462
  let v862 : BitVec 1 := Scalar.xori v860 v861
  let c0_i32_460 : BitVec 32 := 0#32
  let v859 : BitVec 1 := Scalar.cmpi .ne v858 c0_i32_460
  let v863 : BitVec 1 := Scalar.andi v862 v859
  let v864 : BitVec 32 := Scalar.addi v858 v857
  let v865 : BitVec 32 := Scalar.select v863 v864 v858
  let c0_i32_463 : BitVec 32 := 0#32
  let v866 : BitVec 1 := Scalar.cmpi .eq v865 c0_i32_463
  let c2_i32_446 : BitVec 32 := 2#32
  let c0_i32_447 : BitVec 32 := 0#32
  let v840 : BitVec 1 := Scalar.cmpi .eq c2_i32_446 c0_i32_447
  let c1_i32_448 : BitVec 32 := 1#32
  let v841 : BitVec 32 := Scalar.select v840 c1_i32_448 c2_i32_446
  let v842 : BitVec 32 := Scalar.remsi v829 v841
  let c0_i32_450 : BitVec 32 := 0#32
  let v844 : BitVec 1 := Scalar.cmpi .slt v842 c0_i32_450
  let c0_i32_451 : BitVec 32 := 0#32
  let v845 : BitVec 1 := Scalar.cmpi .slt v841 c0_i32_451
  let v846 : BitVec 1 := Scalar.xori v844 v845
  let c0_i32_449 : BitVec 32 := 0#32
  let v843 : BitVec 1 := Scalar.cmpi .ne v842 c0_i32_449
  let v847 : BitVec 1 := Scalar.andi v846 v843
  let v848 : BitVec 32 := Scalar.addi v842 v841
  let v849 : BitVec 32 := Scalar.select v847 v848 v842
  let c0_i32_452 : BitVec 32 := 0#32
  let v850 : BitVec 1 := Scalar.cmpi .eq v849 c0_i32_452
  let c2_i32_440 : BitVec 32 := 2#32
  let c0_i32_441 : BitVec 32 := 0#32
  let v830 : BitVec 1 := Scalar.cmpi .eq c2_i32_440 c0_i32_441
  let c1_i32_442 : BitVec 32 := 1#32
  let v831 : BitVec 32 := Scalar.select v830 c1_i32_442 c2_i32_440
  let v832 : BitVec 32 := Scalar.remsi v812 v831
  let c0_i32_444 : BitVec 32 := 0#32
  let v834 : BitVec 1 := Scalar.cmpi .slt v832 c0_i32_444
  let c0_i32_445 : BitVec 32 := 0#32
  let v835 : BitVec 1 := Scalar.cmpi .slt v831 c0_i32_445
  let v836 : BitVec 1 := Scalar.xori v834 v835
  let c0_i32_443 : BitVec 32 := 0#32
  let v833 : BitVec 1 := Scalar.cmpi .ne v832 c0_i32_443
  let v837 : BitVec 1 := Scalar.andi v836 v833
  let v838 : BitVec 32 := Scalar.addi v832 v831
  let v839 : BitVec 32 := Scalar.select v837 v838 v832
  let c1_i32_453 : BitVec 32 := 1#32
  let v851 : BitVec 32 := Scalar.subi c1_i32_453 v839
  let v852 : BitVec 32 := Scalar.select v850 v839 v851
  let c0_i32_454 : BitVec 32 := 0#32
  let v853 : BitVec 32 := Scalar.xori v852 c0_i32_454
  let c1_i32_464 : BitVec 32 := 1#32
  let v867 : BitVec 32 := Scalar.subi c1_i32_464 v853
  let v868 : BitVec 32 := Scalar.select v866 v853 v867
  let v872 : BitVec 32 := Scalar.addi v871 v868
  let c1_i32_1130 : BitVec 32 := 1#32
  let v1570 : BitVec 32 := Scalar.muli v872 c1_i32_1130
  let v1571 : BitVec 32 := Scalar.addi c0_i32_1131 v1570
  v1571.toNat
def k0_dev41 (d0 : Dev nD) : Nat :=
  let c0_i32_1446_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_33 : BitVec 32 := 1#32
  let v72 : BitVec 32 := Scalar.xori v19 c1_i32_33
  let c8_i32_42 : BitVec 32 := 8#32
  let v86 : BitVec 32 := Scalar.muli v72 c8_i32_42
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v71 : BitVec 32 := Scalar.xori v46 c1_i32_32
  let c2_i32_43 : BitVec 32 := 2#32
  let v87 : BitVec 32 := Scalar.muli v71 c2_i32_43
  let v88 : BitVec 32 := Scalar.addi v86 v87
  let c2_i32_34 : BitVec 32 := 2#32
  let c0_i32_35 : BitVec 32 := 0#32
  let v73 : BitVec 1 := Scalar.cmpi .eq c2_i32_34 c0_i32_35
  let c1_i32_36 : BitVec 32 := 1#32
  let v74 : BitVec 32 := Scalar.select v73 c1_i32_36 c2_i32_34
  let v75 : BitVec 32 := Scalar.remsi v71 v74
  let c0_i32_38 : BitVec 32 := 0#32
  let v77 : BitVec 1 := Scalar.cmpi .slt v75 c0_i32_38
  let c0_i32_39 : BitVec 32 := 0#32
  let v78 : BitVec 1 := Scalar.cmpi .slt v74 c0_i32_39
  let v79 : BitVec 1 := Scalar.xori v77 v78
  let c0_i32_37 : BitVec 32 := 0#32
  let v76 : BitVec 1 := Scalar.cmpi .ne v75 c0_i32_37
  let v80 : BitVec 1 := Scalar.andi v79 v76
  let v81 : BitVec 32 := Scalar.addi v75 v74
  let v82 : BitVec 32 := Scalar.select v80 v81 v75
  let c0_i32_40 : BitVec 32 := 0#32
  let v83 : BitVec 1 := Scalar.cmpi .eq v82 c0_i32_40
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 32 := Scalar.xori v69 c1_i32_31
  let c1_i32_41 : BitVec 32 := 1#32
  let v84 : BitVec 32 := Scalar.subi c1_i32_41 v70
  let v85 : BitVec 32 := Scalar.select v83 v70 v84
  let v89 : BitVec 32 := Scalar.addi v88 v85
  let c1_i32_1445_r0 : BitVec 32 := 1#32
  let v1798_r0 : BitVec 32 := Scalar.muli v89 c1_i32_1445_r0
  let v1799_r0 : BitVec 32 := Scalar.addi c0_i32_1446_r0 v1798_r0
  v1799_r0.toNat
def k0_dev42 (d0 : Dev nD) : Nat :=
  let c0_i32_1449_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_45 : BitVec 32 := 0#32
  let v91 : BitVec 1 := Scalar.cmpi .sgt v2 c0_i32_45
  let v92 : BitVec 32 := Scalar.extui v91
  let c0_i32_46 : BitVec 32 := 0#32
  let v93 : BitVec 1 := Scalar.cmpi .slt v2 c0_i32_46
  let v94 : BitVec 32 := Scalar.extui v93
  let v95 : BitVec 32 := Scalar.subi v92 v94
  let c8_i32_44 : BitVec 32 := 8#32
  let c0_i32_47 : BitVec 32 := 0#32
  let v96 : BitVec 1 := Scalar.cmpi .sgt c8_i32_44 c0_i32_47
  let v97 : BitVec 32 := Scalar.extui v96
  let c0_i32_48 : BitVec 32 := 0#32
  let v98 : BitVec 1 := Scalar.cmpi .slt c8_i32_44 c0_i32_48
  let v99 : BitVec 32 := Scalar.extui v98
  let v100 : BitVec 32 := Scalar.subi v97 v99
  let v101 : BitVec 1 := Scalar.cmpi .ne v95 v100
  let v102 : BitVec 32 := Scalar.remsi v2 c8_i32_44
  let c0_i32_49 : BitVec 32 := 0#32
  let v103 : BitVec 1 := Scalar.cmpi .ne v102 c0_i32_49
  let v104 : BitVec 1 := Scalar.andi v101 v103
  let v90 : BitVec 32 := Scalar.divsi v2 c8_i32_44
  let c1_i32_50 : BitVec 32 := 1#32
  let v105 : BitVec 32 := Scalar.subi v90 c1_i32_50
  let v106 : BitVec 32 := Scalar.select v104 v105 v90
  let c0_i32_80 : BitVec 32 := 0#32
  let v159 : BitVec 32 := Scalar.xori v106 c0_i32_80
  let c8_i32_89 : BitVec 32 := 8#32
  let v173 : BitVec 32 := Scalar.muli v159 c8_i32_89
  let c8_i32_51 : BitVec 32 := 8#32
  let c0_i32_52 : BitVec 32 := 0#32
  let v107 : BitVec 1 := Scalar.cmpi .eq c8_i32_51 c0_i32_52
  let c1_i32_53 : BitVec 32 := 1#32
  let v108 : BitVec 32 := Scalar.select v107 c1_i32_53 c8_i32_51
  let v109 : BitVec 32 := Scalar.remsi v2 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c2_i32_57 : BitVec 32 := 2#32
  let c0_i32_60 : BitVec 32 := 0#32
  let v123 : BitVec 1 := Scalar.cmpi .sgt c2_i32_57 c0_i32_60
  let v124 : BitVec 32 := Scalar.extui v123
  let c0_i32_61 : BitVec 32 := 0#32
  let v125 : BitVec 1 := Scalar.cmpi .slt c2_i32_57 c0_i32_61
  let v126 : BitVec 32 := Scalar.extui v125
  let v127 : BitVec 32 := Scalar.subi v124 v126
  let v128 : BitVec 1 := Scalar.cmpi .ne v122 v127
  let v129 : BitVec 32 := Scalar.remsi v116 c2_i32_57
  let c0_i32_62 : BitVec 32 := 0#32
  let v130 : BitVec 1 := Scalar.cmpi .ne v129 c0_i32_62
  let v131 : BitVec 1 := Scalar.andi v128 v130
  let v117 : BitVec 32 := Scalar.divsi v116 c2_i32_57
  let c1_i32_63 : BitVec 32 := 1#32
  let v132 : BitVec 32 := Scalar.subi v117 c1_i32_63
  let v133 : BitVec 32 := Scalar.select v131 v132 v117
  let c1_i32_79 : BitVec 32 := 1#32
  let v158 : BitVec 32 := Scalar.xori v133 c1_i32_79
  let c2_i32_90 : BitVec 32 := 2#32
  let v174 : BitVec 32 := Scalar.muli v158 c2_i32_90
  let v175 : BitVec 32 := Scalar.addi v173 v174
  let c2_i32_81 : BitVec 32 := 2#32
  let c0_i32_82 : BitVec 32 := 0#32
  let v160 : BitVec 1 := Scalar.cmpi .eq c2_i32_81 c0_i32_82
  let c1_i32_83 : BitVec 32 := 1#32
  let v161 : BitVec 32 := Scalar.select v160 c1_i32_83 c2_i32_81
  let v162 : BitVec 32 := Scalar.remsi v158 v161
  let c0_i32_85 : BitVec 32 := 0#32
  let v164 : BitVec 1 := Scalar.cmpi .slt v162 c0_i32_85
  let c0_i32_86 : BitVec 32 := 0#32
  let v165 : BitVec 1 := Scalar.cmpi .slt v161 c0_i32_86
  let v166 : BitVec 1 := Scalar.xori v164 v165
  let c0_i32_84 : BitVec 32 := 0#32
  let v163 : BitVec 1 := Scalar.cmpi .ne v162 c0_i32_84
  let v167 : BitVec 1 := Scalar.andi v166 v163
  let v168 : BitVec 32 := Scalar.addi v162 v161
  let v169 : BitVec 32 := Scalar.select v167 v168 v162
  let c0_i32_87 : BitVec 32 := 0#32
  let v170 : BitVec 1 := Scalar.cmpi .eq v169 c0_i32_87
  let c2_i32_70 : BitVec 32 := 2#32
  let c0_i32_71 : BitVec 32 := 0#32
  let v144 : BitVec 1 := Scalar.cmpi .eq c2_i32_70 c0_i32_71
  let c1_i32_72 : BitVec 32 := 1#32
  let v145 : BitVec 32 := Scalar.select v144 c1_i32_72 c2_i32_70
  let v146 : BitVec 32 := Scalar.remsi v133 v145
  let c0_i32_74 : BitVec 32 := 0#32
  let v148 : BitVec 1 := Scalar.cmpi .slt v146 c0_i32_74
  let c0_i32_75 : BitVec 32 := 0#32
  let v149 : BitVec 1 := Scalar.cmpi .slt v145 c0_i32_75
  let v150 : BitVec 1 := Scalar.xori v148 v149
  let c0_i32_73 : BitVec 32 := 0#32
  let v147 : BitVec 1 := Scalar.cmpi .ne v146 c0_i32_73
  let v151 : BitVec 1 := Scalar.andi v150 v147
  let v152 : BitVec 32 := Scalar.addi v146 v145
  let v153 : BitVec 32 := Scalar.select v151 v152 v146
  let c0_i32_76 : BitVec 32 := 0#32
  let v154 : BitVec 1 := Scalar.cmpi .eq v153 c0_i32_76
  let c2_i32_64 : BitVec 32 := 2#32
  let c0_i32_65 : BitVec 32 := 0#32
  let v134 : BitVec 1 := Scalar.cmpi .eq c2_i32_64 c0_i32_65
  let c1_i32_66 : BitVec 32 := 1#32
  let v135 : BitVec 32 := Scalar.select v134 c1_i32_66 c2_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c1_i32_77 : BitVec 32 := 1#32
  let v155 : BitVec 32 := Scalar.subi c1_i32_77 v143
  let v156 : BitVec 32 := Scalar.select v154 v143 v155
  let c1_i32_78 : BitVec 32 := 1#32
  let v157 : BitVec 32 := Scalar.xori v156 c1_i32_78
  let c1_i32_88 : BitVec 32 := 1#32
  let v171 : BitVec 32 := Scalar.subi c1_i32_88 v157
  let v172 : BitVec 32 := Scalar.select v170 v157 v171
  let v176 : BitVec 32 := Scalar.addi v175 v172
  let c1_i32_1448_r0 : BitVec 32 := 1#32
  let v1800_r0 : BitVec 32 := Scalar.muli v176 c1_i32_1448_r0
  let v1801_r0 : BitVec 32 := Scalar.addi c0_i32_1449_r0 v1800_r0
  v1801_r0.toNat
def k0_dev43 (d0 : Dev nD) : Nat :=
  let c0_i32_1452_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_92 : BitVec 32 := 0#32
  let v178 : BitVec 1 := Scalar.cmpi .sgt v2 c0_i32_92
  let v179 : BitVec 32 := Scalar.extui v178
  let c0_i32_93 : BitVec 32 := 0#32
  let v180 : BitVec 1 := Scalar.cmpi .slt v2 c0_i32_93
  let v181 : BitVec 32 := Scalar.extui v180
  let v182 : BitVec 32 := Scalar.subi v179 v181
  let c8_i32_91 : BitVec 32 := 8#32
  let c0_i32_94 : BitVec 32 := 0#32
  let v183 : BitVec 1 := Scalar.cmpi .sgt c8_i32_91 c0_i32_94
  let v184 : BitVec 32 := Scalar.extui v183
  let c0_i32_95 : BitVec 32 := 0#32
  let v185 : BitVec 1 := Scalar.cmpi .slt c8_i32_91 c0_i32_95
  let v186 : BitVec 32 := Scalar.extui v185
  let v187 : BitVec 32 := Scalar.subi v184 v186
  let v188 : BitVec 1 := Scalar.cmpi .ne v182 v187
  let v189 : BitVec 32 := Scalar.remsi v2 c8_i32_91
  let c0_i32_96 : BitVec 32 := 0#32
  let v190 : BitVec 1 := Scalar.cmpi .ne v189 c0_i32_96
  let v191 : BitVec 1 := Scalar.andi v188 v190
  let v177 : BitVec 32 := Scalar.divsi v2 c8_i32_91
  let c1_i32_97 : BitVec 32 := 1#32
  let v192 : BitVec 32 := Scalar.subi v177 c1_i32_97
  let v193 : BitVec 32 := Scalar.select v191 v192 v177
  let c1_i32_127 : BitVec 32 := 1#32
  let v246 : BitVec 32 := Scalar.xori v193 c1_i32_127
  let c8_i32_136 : BitVec 32 := 8#32
  let v260 : BitVec 32 := Scalar.muli v246 c8_i32_136
  let c8_i32_98 : BitVec 32 := 8#32
  let c0_i32_99 : BitVec 32 := 0#32
  let v194 : BitVec 1 := Scalar.cmpi .eq c8_i32_98 c0_i32_99
  let c1_i32_100 : BitVec 32 := 1#32
  let v195 : BitVec 32 := Scalar.select v194 c1_i32_100 c8_i32_98
  let v196 : BitVec 32 := Scalar.remsi v2 v195
  let c0_i32_102 : BitVec 32 := 0#32
  let v198 : BitVec 1 := Scalar.cmpi .slt v196 c0_i32_102
  let c0_i32_103 : BitVec 32 := 0#32
  let v199 : BitVec 1 := Scalar.cmpi .slt v195 c0_i32_103
  let v200 : BitVec 1 := Scalar.xori v198 v199
  let c0_i32_101 : BitVec 32 := 0#32
  let v197 : BitVec 1 := Scalar.cmpi .ne v196 c0_i32_101
  let v201 : BitVec 1 := Scalar.andi v200 v197
  let v202 : BitVec 32 := Scalar.addi v196 v195
  let v203 : BitVec 32 := Scalar.select v201 v202 v196
  let c0_i32_105 : BitVec 32 := 0#32
  let v205 : BitVec 1 := Scalar.cmpi .sgt v203 c0_i32_105
  let v206 : BitVec 32 := Scalar.extui v205
  let c0_i32_106 : BitVec 32 := 0#32
  let v207 : BitVec 1 := Scalar.cmpi .slt v203 c0_i32_106
  let v208 : BitVec 32 := Scalar.extui v207
  let v209 : BitVec 32 := Scalar.subi v206 v208
  let c2_i32_104 : BitVec 32 := 2#32
  let c0_i32_107 : BitVec 32 := 0#32
  let v210 : BitVec 1 := Scalar.cmpi .sgt c2_i32_104 c0_i32_107
  let v211 : BitVec 32 := Scalar.extui v210
  let c0_i32_108 : BitVec 32 := 0#32
  let v212 : BitVec 1 := Scalar.cmpi .slt c2_i32_104 c0_i32_108
  let v213 : BitVec 32 := Scalar.extui v212
  let v214 : BitVec 32 := Scalar.subi v211 v213
  let v215 : BitVec 1 := Scalar.cmpi .ne v209 v214
  let v216 : BitVec 32 := Scalar.remsi v203 c2_i32_104
  let c0_i32_109 : BitVec 32 := 0#32
  let v217 : BitVec 1 := Scalar.cmpi .ne v216 c0_i32_109
  let v218 : BitVec 1 := Scalar.andi v215 v217
  let v204 : BitVec 32 := Scalar.divsi v203 c2_i32_104
  let c1_i32_110 : BitVec 32 := 1#32
  let v219 : BitVec 32 := Scalar.subi v204 c1_i32_110
  let v220 : BitVec 32 := Scalar.select v218 v219 v204
  let c0_i32_126 : BitVec 32 := 0#32
  let v245 : BitVec 32 := Scalar.xori v220 c0_i32_126
  let c2_i32_137 : BitVec 32 := 2#32
  let v261 : BitVec 32 := Scalar.muli v245 c2_i32_137
  let v262 : BitVec 32 := Scalar.addi v260 v261
  let c2_i32_128 : BitVec 32 := 2#32
  let c0_i32_129 : BitVec 32 := 0#32
  let v247 : BitVec 1 := Scalar.cmpi .eq c2_i32_128 c0_i32_129
  let c1_i32_130 : BitVec 32 := 1#32
  let v248 : BitVec 32 := Scalar.select v247 c1_i32_130 c2_i32_128
  let v249 : BitVec 32 := Scalar.remsi v245 v248
  let c0_i32_132 : BitVec 32 := 0#32
  let v251 : BitVec 1 := Scalar.cmpi .slt v249 c0_i32_132
  let c0_i32_133 : BitVec 32 := 0#32
  let v252 : BitVec 1 := Scalar.cmpi .slt v248 c0_i32_133
  let v253 : BitVec 1 := Scalar.xori v251 v252
  let c0_i32_131 : BitVec 32 := 0#32
  let v250 : BitVec 1 := Scalar.cmpi .ne v249 c0_i32_131
  let v254 : BitVec 1 := Scalar.andi v253 v250
  let v255 : BitVec 32 := Scalar.addi v249 v248
  let v256 : BitVec 32 := Scalar.select v254 v255 v249
  let c0_i32_134 : BitVec 32 := 0#32
  let v257 : BitVec 1 := Scalar.cmpi .eq v256 c0_i32_134
  let c2_i32_117 : BitVec 32 := 2#32
  let c0_i32_118 : BitVec 32 := 0#32
  let v231 : BitVec 1 := Scalar.cmpi .eq c2_i32_117 c0_i32_118
  let c1_i32_119 : BitVec 32 := 1#32
  let v232 : BitVec 32 := Scalar.select v231 c1_i32_119 c2_i32_117
  let v233 : BitVec 32 := Scalar.remsi v220 v232
  let c0_i32_121 : BitVec 32 := 0#32
  let v235 : BitVec 1 := Scalar.cmpi .slt v233 c0_i32_121
  let c0_i32_122 : BitVec 32 := 0#32
  let v236 : BitVec 1 := Scalar.cmpi .slt v232 c0_i32_122
  let v237 : BitVec 1 := Scalar.xori v235 v236
  let c0_i32_120 : BitVec 32 := 0#32
  let v234 : BitVec 1 := Scalar.cmpi .ne v233 c0_i32_120
  let v238 : BitVec 1 := Scalar.andi v237 v234
  let v239 : BitVec 32 := Scalar.addi v233 v232
  let v240 : BitVec 32 := Scalar.select v238 v239 v233
  let c0_i32_123 : BitVec 32 := 0#32
  let v241 : BitVec 1 := Scalar.cmpi .eq v240 c0_i32_123
  let c2_i32_111 : BitVec 32 := 2#32
  let c0_i32_112 : BitVec 32 := 0#32
  let v221 : BitVec 1 := Scalar.cmpi .eq c2_i32_111 c0_i32_112
  let c1_i32_113 : BitVec 32 := 1#32
  let v222 : BitVec 32 := Scalar.select v221 c1_i32_113 c2_i32_111
  let v223 : BitVec 32 := Scalar.remsi v203 v222
  let c0_i32_115 : BitVec 32 := 0#32
  let v225 : BitVec 1 := Scalar.cmpi .slt v223 c0_i32_115
  let c0_i32_116 : BitVec 32 := 0#32
  let v226 : BitVec 1 := Scalar.cmpi .slt v222 c0_i32_116
  let v227 : BitVec 1 := Scalar.xori v225 v226
  let c0_i32_114 : BitVec 32 := 0#32
  let v224 : BitVec 1 := Scalar.cmpi .ne v223 c0_i32_114
  let v228 : BitVec 1 := Scalar.andi v227 v224
  let v229 : BitVec 32 := Scalar.addi v223 v222
  let v230 : BitVec 32 := Scalar.select v228 v229 v223
  let c1_i32_124 : BitVec 32 := 1#32
  let v242 : BitVec 32 := Scalar.subi c1_i32_124 v230
  let v243 : BitVec 32 := Scalar.select v241 v230 v242
  let c1_i32_125 : BitVec 32 := 1#32
  let v244 : BitVec 32 := Scalar.xori v243 c1_i32_125
  let c1_i32_135 : BitVec 32 := 1#32
  let v258 : BitVec 32 := Scalar.subi c1_i32_135 v244
  let v259 : BitVec 32 := Scalar.select v257 v244 v258
  let v263 : BitVec 32 := Scalar.addi v262 v259
  let c1_i32_1451_r0 : BitVec 32 := 1#32
  let v1802_r0 : BitVec 32 := Scalar.muli v263 c1_i32_1451_r0
  let v1803_r0 : BitVec 32 := Scalar.addi c0_i32_1452_r0 v1802_r0
  v1803_r0.toNat
def k0_dev44 (d0 : Dev nD) : Nat :=
  let c0_i32_1455_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_139 : BitVec 32 := 0#32
  let v265 : BitVec 1 := Scalar.cmpi .sgt v2 c0_i32_139
  let v266 : BitVec 32 := Scalar.extui v265
  let c0_i32_140 : BitVec 32 := 0#32
  let v267 : BitVec 1 := Scalar.cmpi .slt v2 c0_i32_140
  let v268 : BitVec 32 := Scalar.extui v267
  let v269 : BitVec 32 := Scalar.subi v266 v268
  let c8_i32_138 : BitVec 32 := 8#32
  let c0_i32_141 : BitVec 32 := 0#32
  let v270 : BitVec 1 := Scalar.cmpi .sgt c8_i32_138 c0_i32_141
  let v271 : BitVec 32 := Scalar.extui v270
  let c0_i32_142 : BitVec 32 := 0#32
  let v272 : BitVec 1 := Scalar.cmpi .slt c8_i32_138 c0_i32_142
  let v273 : BitVec 32 := Scalar.extui v272
  let v274 : BitVec 32 := Scalar.subi v271 v273
  let v275 : BitVec 1 := Scalar.cmpi .ne v269 v274
  let v276 : BitVec 32 := Scalar.remsi v2 c8_i32_138
  let c0_i32_143 : BitVec 32 := 0#32
  let v277 : BitVec 1 := Scalar.cmpi .ne v276 c0_i32_143
  let v278 : BitVec 1 := Scalar.andi v275 v277
  let v264 : BitVec 32 := Scalar.divsi v2 c8_i32_138
  let c1_i32_144 : BitVec 32 := 1#32
  let v279 : BitVec 32 := Scalar.subi v264 c1_i32_144
  let v280 : BitVec 32 := Scalar.select v278 v279 v264
  let c1_i32_174 : BitVec 32 := 1#32
  let v333 : BitVec 32 := Scalar.xori v280 c1_i32_174
  let c8_i32_183 : BitVec 32 := 8#32
  let v347 : BitVec 32 := Scalar.muli v333 c8_i32_183
  let c8_i32_145 : BitVec 32 := 8#32
  let c0_i32_146 : BitVec 32 := 0#32
  let v281 : BitVec 1 := Scalar.cmpi .eq c8_i32_145 c0_i32_146
  let c1_i32_147 : BitVec 32 := 1#32
  let v282 : BitVec 32 := Scalar.select v281 c1_i32_147 c8_i32_145
  let v283 : BitVec 32 := Scalar.remsi v2 v282
  let c0_i32_149 : BitVec 32 := 0#32
  let v285 : BitVec 1 := Scalar.cmpi .slt v283 c0_i32_149
  let c0_i32_150 : BitVec 32 := 0#32
  let v286 : BitVec 1 := Scalar.cmpi .slt v282 c0_i32_150
  let v287 : BitVec 1 := Scalar.xori v285 v286
  let c0_i32_148 : BitVec 32 := 0#32
  let v284 : BitVec 1 := Scalar.cmpi .ne v283 c0_i32_148
  let v288 : BitVec 1 := Scalar.andi v287 v284
  let v289 : BitVec 32 := Scalar.addi v283 v282
  let v290 : BitVec 32 := Scalar.select v288 v289 v283
  let c0_i32_152 : BitVec 32 := 0#32
  let v292 : BitVec 1 := Scalar.cmpi .sgt v290 c0_i32_152
  let v293 : BitVec 32 := Scalar.extui v292
  let c0_i32_153 : BitVec 32 := 0#32
  let v294 : BitVec 1 := Scalar.cmpi .slt v290 c0_i32_153
  let v295 : BitVec 32 := Scalar.extui v294
  let v296 : BitVec 32 := Scalar.subi v293 v295
  let c2_i32_151 : BitVec 32 := 2#32
  let c0_i32_154 : BitVec 32 := 0#32
  let v297 : BitVec 1 := Scalar.cmpi .sgt c2_i32_151 c0_i32_154
  let v298 : BitVec 32 := Scalar.extui v297
  let c0_i32_155 : BitVec 32 := 0#32
  let v299 : BitVec 1 := Scalar.cmpi .slt c2_i32_151 c0_i32_155
  let v300 : BitVec 32 := Scalar.extui v299
  let v301 : BitVec 32 := Scalar.subi v298 v300
  let v302 : BitVec 1 := Scalar.cmpi .ne v296 v301
  let v303 : BitVec 32 := Scalar.remsi v290 c2_i32_151
  let c0_i32_156 : BitVec 32 := 0#32
  let v304 : BitVec 1 := Scalar.cmpi .ne v303 c0_i32_156
  let v305 : BitVec 1 := Scalar.andi v302 v304
  let v291 : BitVec 32 := Scalar.divsi v290 c2_i32_151
  let c1_i32_157 : BitVec 32 := 1#32
  let v306 : BitVec 32 := Scalar.subi v291 c1_i32_157
  let v307 : BitVec 32 := Scalar.select v305 v306 v291
  let c1_i32_173 : BitVec 32 := 1#32
  let v332 : BitVec 32 := Scalar.xori v307 c1_i32_173
  let c2_i32_184 : BitVec 32 := 2#32
  let v348 : BitVec 32 := Scalar.muli v332 c2_i32_184
  let v349 : BitVec 32 := Scalar.addi v347 v348
  let c2_i32_175 : BitVec 32 := 2#32
  let c0_i32_176 : BitVec 32 := 0#32
  let v334 : BitVec 1 := Scalar.cmpi .eq c2_i32_175 c0_i32_176
  let c1_i32_177 : BitVec 32 := 1#32
  let v335 : BitVec 32 := Scalar.select v334 c1_i32_177 c2_i32_175
  let v336 : BitVec 32 := Scalar.remsi v332 v335
  let c0_i32_179 : BitVec 32 := 0#32
  let v338 : BitVec 1 := Scalar.cmpi .slt v336 c0_i32_179
  let c0_i32_180 : BitVec 32 := 0#32
  let v339 : BitVec 1 := Scalar.cmpi .slt v335 c0_i32_180
  let v340 : BitVec 1 := Scalar.xori v338 v339
  let c0_i32_178 : BitVec 32 := 0#32
  let v337 : BitVec 1 := Scalar.cmpi .ne v336 c0_i32_178
  let v341 : BitVec 1 := Scalar.andi v340 v337
  let v342 : BitVec 32 := Scalar.addi v336 v335
  let v343 : BitVec 32 := Scalar.select v341 v342 v336
  let c0_i32_181 : BitVec 32 := 0#32
  let v344 : BitVec 1 := Scalar.cmpi .eq v343 c0_i32_181
  let c2_i32_164 : BitVec 32 := 2#32
  let c0_i32_165 : BitVec 32 := 0#32
  let v318 : BitVec 1 := Scalar.cmpi .eq c2_i32_164 c0_i32_165
  let c1_i32_166 : BitVec 32 := 1#32
  let v319 : BitVec 32 := Scalar.select v318 c1_i32_166 c2_i32_164
  let v320 : BitVec 32 := Scalar.remsi v307 v319
  let c0_i32_168 : BitVec 32 := 0#32
  let v322 : BitVec 1 := Scalar.cmpi .slt v320 c0_i32_168
  let c0_i32_169 : BitVec 32 := 0#32
  let v323 : BitVec 1 := Scalar.cmpi .slt v319 c0_i32_169
  let v324 : BitVec 1 := Scalar.xori v322 v323
  let c0_i32_167 : BitVec 32 := 0#32
  let v321 : BitVec 1 := Scalar.cmpi .ne v320 c0_i32_167
  let v325 : BitVec 1 := Scalar.andi v324 v321
  let v326 : BitVec 32 := Scalar.addi v320 v319
  let v327 : BitVec 32 := Scalar.select v325 v326 v320
  let c0_i32_170 : BitVec 32 := 0#32
  let v328 : BitVec 1 := Scalar.cmpi .eq v327 c0_i32_170
  let c2_i32_158 : BitVec 32 := 2#32
  let c0_i32_159 : BitVec 32 := 0#32
  let v308 : BitVec 1 := Scalar.cmpi .eq c2_i32_158 c0_i32_159
  let c1_i32_160 : BitVec 32 := 1#32
  let v309 : BitVec 32 := Scalar.select v308 c1_i32_160 c2_i32_158
  let v310 : BitVec 32 := Scalar.remsi v290 v309
  let c0_i32_162 : BitVec 32 := 0#32
  let v312 : BitVec 1 := Scalar.cmpi .slt v310 c0_i32_162
  let c0_i32_163 : BitVec 32 := 0#32
  let v313 : BitVec 1 := Scalar.cmpi .slt v309 c0_i32_163
  let v314 : BitVec 1 := Scalar.xori v312 v313
  let c0_i32_161 : BitVec 32 := 0#32
  let v311 : BitVec 1 := Scalar.cmpi .ne v310 c0_i32_161
  let v315 : BitVec 1 := Scalar.andi v314 v311
  let v316 : BitVec 32 := Scalar.addi v310 v309
  let v317 : BitVec 32 := Scalar.select v315 v316 v310
  let c1_i32_171 : BitVec 32 := 1#32
  let v329 : BitVec 32 := Scalar.subi c1_i32_171 v317
  let v330 : BitVec 32 := Scalar.select v328 v317 v329
  let c0_i32_172 : BitVec 32 := 0#32
  let v331 : BitVec 32 := Scalar.xori v330 c0_i32_172
  let c1_i32_182 : BitVec 32 := 1#32
  let v345 : BitVec 32 := Scalar.subi c1_i32_182 v331
  let v346 : BitVec 32 := Scalar.select v344 v331 v345
  let v350 : BitVec 32 := Scalar.addi v349 v346
  let c1_i32_1454_r0 : BitVec 32 := 1#32
  let v1804_r0 : BitVec 32 := Scalar.muli v350 c1_i32_1454_r0
  let v1805_r0 : BitVec 32 := Scalar.addi c0_i32_1455_r0 v1804_r0
  v1805_r0.toNat
def k0_dev45 (d0 : Dev nD) : Nat :=
  let c0_i32_1458_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_186 : BitVec 32 := 0#32
  let v352 : BitVec 1 := Scalar.cmpi .sgt v2 c0_i32_186
  let v353 : BitVec 32 := Scalar.extui v352
  let c0_i32_187 : BitVec 32 := 0#32
  let v354 : BitVec 1 := Scalar.cmpi .slt v2 c0_i32_187
  let v355 : BitVec 32 := Scalar.extui v354
  let v356 : BitVec 32 := Scalar.subi v353 v355
  let c8_i32_185 : BitVec 32 := 8#32
  let c0_i32_188 : BitVec 32 := 0#32
  let v357 : BitVec 1 := Scalar.cmpi .sgt c8_i32_185 c0_i32_188
  let v358 : BitVec 32 := Scalar.extui v357
  let c0_i32_189 : BitVec 32 := 0#32
  let v359 : BitVec 1 := Scalar.cmpi .slt c8_i32_185 c0_i32_189
  let v360 : BitVec 32 := Scalar.extui v359
  let v361 : BitVec 32 := Scalar.subi v358 v360
  let v362 : BitVec 1 := Scalar.cmpi .ne v356 v361
  let v363 : BitVec 32 := Scalar.remsi v2 c8_i32_185
  let c0_i32_190 : BitVec 32 := 0#32
  let v364 : BitVec 1 := Scalar.cmpi .ne v363 c0_i32_190
  let v365 : BitVec 1 := Scalar.andi v362 v364
  let v351 : BitVec 32 := Scalar.divsi v2 c8_i32_185
  let c1_i32_191 : BitVec 32 := 1#32
  let v366 : BitVec 32 := Scalar.subi v351 c1_i32_191
  let v367 : BitVec 32 := Scalar.select v365 v366 v351
  let c0_i32_221 : BitVec 32 := 0#32
  let v420 : BitVec 32 := Scalar.xori v367 c0_i32_221
  let c8_i32_230 : BitVec 32 := 8#32
  let v434 : BitVec 32 := Scalar.muli v420 c8_i32_230
  let c8_i32_192 : BitVec 32 := 8#32
  let c0_i32_193 : BitVec 32 := 0#32
  let v368 : BitVec 1 := Scalar.cmpi .eq c8_i32_192 c0_i32_193
  let c1_i32_194 : BitVec 32 := 1#32
  let v369 : BitVec 32 := Scalar.select v368 c1_i32_194 c8_i32_192
  let v370 : BitVec 32 := Scalar.remsi v2 v369
  let c0_i32_196 : BitVec 32 := 0#32
  let v372 : BitVec 1 := Scalar.cmpi .slt v370 c0_i32_196
  let c0_i32_197 : BitVec 32 := 0#32
  let v373 : BitVec 1 := Scalar.cmpi .slt v369 c0_i32_197
  let v374 : BitVec 1 := Scalar.xori v372 v373
  let c0_i32_195 : BitVec 32 := 0#32
  let v371 : BitVec 1 := Scalar.cmpi .ne v370 c0_i32_195
  let v375 : BitVec 1 := Scalar.andi v374 v371
  let v376 : BitVec 32 := Scalar.addi v370 v369
  let v377 : BitVec 32 := Scalar.select v375 v376 v370
  let c0_i32_199 : BitVec 32 := 0#32
  let v379 : BitVec 1 := Scalar.cmpi .sgt v377 c0_i32_199
  let v380 : BitVec 32 := Scalar.extui v379
  let c0_i32_200 : BitVec 32 := 0#32
  let v381 : BitVec 1 := Scalar.cmpi .slt v377 c0_i32_200
  let v382 : BitVec 32 := Scalar.extui v381
  let v383 : BitVec 32 := Scalar.subi v380 v382
  let c2_i32_198 : BitVec 32 := 2#32
  let c0_i32_201 : BitVec 32 := 0#32
  let v384 : BitVec 1 := Scalar.cmpi .sgt c2_i32_198 c0_i32_201
  let v385 : BitVec 32 := Scalar.extui v384
  let c0_i32_202 : BitVec 32 := 0#32
  let v386 : BitVec 1 := Scalar.cmpi .slt c2_i32_198 c0_i32_202
  let v387 : BitVec 32 := Scalar.extui v386
  let v388 : BitVec 32 := Scalar.subi v385 v387
  let v389 : BitVec 1 := Scalar.cmpi .ne v383 v388
  let v390 : BitVec 32 := Scalar.remsi v377 c2_i32_198
  let c0_i32_203 : BitVec 32 := 0#32
  let v391 : BitVec 1 := Scalar.cmpi .ne v390 c0_i32_203
  let v392 : BitVec 1 := Scalar.andi v389 v391
  let v378 : BitVec 32 := Scalar.divsi v377 c2_i32_198
  let c1_i32_204 : BitVec 32 := 1#32
  let v393 : BitVec 32 := Scalar.subi v378 c1_i32_204
  let v394 : BitVec 32 := Scalar.select v392 v393 v378
  let c0_i32_220 : BitVec 32 := 0#32
  let v419 : BitVec 32 := Scalar.xori v394 c0_i32_220
  let c2_i32_231 : BitVec 32 := 2#32
  let v435 : BitVec 32 := Scalar.muli v419 c2_i32_231
  let v436 : BitVec 32 := Scalar.addi v434 v435
  let c2_i32_222 : BitVec 32 := 2#32
  let c0_i32_223 : BitVec 32 := 0#32
  let v421 : BitVec 1 := Scalar.cmpi .eq c2_i32_222 c0_i32_223
  let c1_i32_224 : BitVec 32 := 1#32
  let v422 : BitVec 32 := Scalar.select v421 c1_i32_224 c2_i32_222
  let v423 : BitVec 32 := Scalar.remsi v419 v422
  let c0_i32_226 : BitVec 32 := 0#32
  let v425 : BitVec 1 := Scalar.cmpi .slt v423 c0_i32_226
  let c0_i32_227 : BitVec 32 := 0#32
  let v426 : BitVec 1 := Scalar.cmpi .slt v422 c0_i32_227
  let v427 : BitVec 1 := Scalar.xori v425 v426
  let c0_i32_225 : BitVec 32 := 0#32
  let v424 : BitVec 1 := Scalar.cmpi .ne v423 c0_i32_225
  let v428 : BitVec 1 := Scalar.andi v427 v424
  let v429 : BitVec 32 := Scalar.addi v423 v422
  let v430 : BitVec 32 := Scalar.select v428 v429 v423
  let c0_i32_228 : BitVec 32 := 0#32
  let v431 : BitVec 1 := Scalar.cmpi .eq v430 c0_i32_228
  let c2_i32_211 : BitVec 32 := 2#32
  let c0_i32_212 : BitVec 32 := 0#32
  let v405 : BitVec 1 := Scalar.cmpi .eq c2_i32_211 c0_i32_212
  let c1_i32_213 : BitVec 32 := 1#32
  let v406 : BitVec 32 := Scalar.select v405 c1_i32_213 c2_i32_211
  let v407 : BitVec 32 := Scalar.remsi v394 v406
  let c0_i32_215 : BitVec 32 := 0#32
  let v409 : BitVec 1 := Scalar.cmpi .slt v407 c0_i32_215
  let c0_i32_216 : BitVec 32 := 0#32
  let v410 : BitVec 1 := Scalar.cmpi .slt v406 c0_i32_216
  let v411 : BitVec 1 := Scalar.xori v409 v410
  let c0_i32_214 : BitVec 32 := 0#32
  let v408 : BitVec 1 := Scalar.cmpi .ne v407 c0_i32_214
  let v412 : BitVec 1 := Scalar.andi v411 v408
  let v413 : BitVec 32 := Scalar.addi v407 v406
  let v414 : BitVec 32 := Scalar.select v412 v413 v407
  let c0_i32_217 : BitVec 32 := 0#32
  let v415 : BitVec 1 := Scalar.cmpi .eq v414 c0_i32_217
  let c2_i32_205 : BitVec 32 := 2#32
  let c0_i32_206 : BitVec 32 := 0#32
  let v395 : BitVec 1 := Scalar.cmpi .eq c2_i32_205 c0_i32_206
  let c1_i32_207 : BitVec 32 := 1#32
  let v396 : BitVec 32 := Scalar.select v395 c1_i32_207 c2_i32_205
  let v397 : BitVec 32 := Scalar.remsi v377 v396
  let c0_i32_209 : BitVec 32 := 0#32
  let v399 : BitVec 1 := Scalar.cmpi .slt v397 c0_i32_209
  let c0_i32_210 : BitVec 32 := 0#32
  let v400 : BitVec 1 := Scalar.cmpi .slt v396 c0_i32_210
  let v401 : BitVec 1 := Scalar.xori v399 v400
  let c0_i32_208 : BitVec 32 := 0#32
  let v398 : BitVec 1 := Scalar.cmpi .ne v397 c0_i32_208
  let v402 : BitVec 1 := Scalar.andi v401 v398
  let v403 : BitVec 32 := Scalar.addi v397 v396
  let v404 : BitVec 32 := Scalar.select v402 v403 v397
  let c1_i32_218 : BitVec 32 := 1#32
  let v416 : BitVec 32 := Scalar.subi c1_i32_218 v404
  let v417 : BitVec 32 := Scalar.select v415 v404 v416
  let c1_i32_219 : BitVec 32 := 1#32
  let v418 : BitVec 32 := Scalar.xori v417 c1_i32_219
  let c1_i32_229 : BitVec 32 := 1#32
  let v432 : BitVec 32 := Scalar.subi c1_i32_229 v418
  let v433 : BitVec 32 := Scalar.select v431 v418 v432
  let v437 : BitVec 32 := Scalar.addi v436 v433
  let c1_i32_1457_r0 : BitVec 32 := 1#32
  let v1806_r0 : BitVec 32 := Scalar.muli v437 c1_i32_1457_r0
  let v1807_r0 : BitVec 32 := Scalar.addi c0_i32_1458_r0 v1806_r0
  v1807_r0.toNat
def k0_dev46 (d0 : Dev nD) : Nat :=
  let c0_i32_1461_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_233 : BitVec 32 := 0#32
  let v439 : BitVec 1 := Scalar.cmpi .sgt v2 c0_i32_233
  let v440 : BitVec 32 := Scalar.extui v439
  let c0_i32_234 : BitVec 32 := 0#32
  let v441 : BitVec 1 := Scalar.cmpi .slt v2 c0_i32_234
  let v442 : BitVec 32 := Scalar.extui v441
  let v443 : BitVec 32 := Scalar.subi v440 v442
  let c8_i32_232 : BitVec 32 := 8#32
  let c0_i32_235 : BitVec 32 := 0#32
  let v444 : BitVec 1 := Scalar.cmpi .sgt c8_i32_232 c0_i32_235
  let v445 : BitVec 32 := Scalar.extui v444
  let c0_i32_236 : BitVec 32 := 0#32
  let v446 : BitVec 1 := Scalar.cmpi .slt c8_i32_232 c0_i32_236
  let v447 : BitVec 32 := Scalar.extui v446
  let v448 : BitVec 32 := Scalar.subi v445 v447
  let v449 : BitVec 1 := Scalar.cmpi .ne v443 v448
  let v450 : BitVec 32 := Scalar.remsi v2 c8_i32_232
  let c0_i32_237 : BitVec 32 := 0#32
  let v451 : BitVec 1 := Scalar.cmpi .ne v450 c0_i32_237
  let v452 : BitVec 1 := Scalar.andi v449 v451
  let v438 : BitVec 32 := Scalar.divsi v2 c8_i32_232
  let c1_i32_238 : BitVec 32 := 1#32
  let v453 : BitVec 32 := Scalar.subi v438 c1_i32_238
  let v454 : BitVec 32 := Scalar.select v452 v453 v438
  let c0_i32_268 : BitVec 32 := 0#32
  let v507 : BitVec 32 := Scalar.xori v454 c0_i32_268
  let c8_i32_277 : BitVec 32 := 8#32
  let v521 : BitVec 32 := Scalar.muli v507 c8_i32_277
  let c8_i32_239 : BitVec 32 := 8#32
  let c0_i32_240 : BitVec 32 := 0#32
  let v455 : BitVec 1 := Scalar.cmpi .eq c8_i32_239 c0_i32_240
  let c1_i32_241 : BitVec 32 := 1#32
  let v456 : BitVec 32 := Scalar.select v455 c1_i32_241 c8_i32_239
  let v457 : BitVec 32 := Scalar.remsi v2 v456
  let c0_i32_243 : BitVec 32 := 0#32
  let v459 : BitVec 1 := Scalar.cmpi .slt v457 c0_i32_243
  let c0_i32_244 : BitVec 32 := 0#32
  let v460 : BitVec 1 := Scalar.cmpi .slt v456 c0_i32_244
  let v461 : BitVec 1 := Scalar.xori v459 v460
  let c0_i32_242 : BitVec 32 := 0#32
  let v458 : BitVec 1 := Scalar.cmpi .ne v457 c0_i32_242
  let v462 : BitVec 1 := Scalar.andi v461 v458
  let v463 : BitVec 32 := Scalar.addi v457 v456
  let v464 : BitVec 32 := Scalar.select v462 v463 v457
  let c0_i32_246 : BitVec 32 := 0#32
  let v466 : BitVec 1 := Scalar.cmpi .sgt v464 c0_i32_246
  let v467 : BitVec 32 := Scalar.extui v466
  let c0_i32_247 : BitVec 32 := 0#32
  let v468 : BitVec 1 := Scalar.cmpi .slt v464 c0_i32_247
  let v469 : BitVec 32 := Scalar.extui v468
  let v470 : BitVec 32 := Scalar.subi v467 v469
  let c2_i32_245 : BitVec 32 := 2#32
  let c0_i32_248 : BitVec 32 := 0#32
  let v471 : BitVec 1 := Scalar.cmpi .sgt c2_i32_245 c0_i32_248
  let v472 : BitVec 32 := Scalar.extui v471
  let c0_i32_249 : BitVec 32 := 0#32
  let v473 : BitVec 1 := Scalar.cmpi .slt c2_i32_245 c0_i32_249
  let v474 : BitVec 32 := Scalar.extui v473
  let v475 : BitVec 32 := Scalar.subi v472 v474
  let v476 : BitVec 1 := Scalar.cmpi .ne v470 v475
  let v477 : BitVec 32 := Scalar.remsi v464 c2_i32_245
  let c0_i32_250 : BitVec 32 := 0#32
  let v478 : BitVec 1 := Scalar.cmpi .ne v477 c0_i32_250
  let v479 : BitVec 1 := Scalar.andi v476 v478
  let v465 : BitVec 32 := Scalar.divsi v464 c2_i32_245
  let c1_i32_251 : BitVec 32 := 1#32
  let v480 : BitVec 32 := Scalar.subi v465 c1_i32_251
  let v481 : BitVec 32 := Scalar.select v479 v480 v465
  let c1_i32_267 : BitVec 32 := 1#32
  let v506 : BitVec 32 := Scalar.xori v481 c1_i32_267
  let c2_i32_278 : BitVec 32 := 2#32
  let v522 : BitVec 32 := Scalar.muli v506 c2_i32_278
  let v523 : BitVec 32 := Scalar.addi v521 v522
  let c2_i32_269 : BitVec 32 := 2#32
  let c0_i32_270 : BitVec 32 := 0#32
  let v508 : BitVec 1 := Scalar.cmpi .eq c2_i32_269 c0_i32_270
  let c1_i32_271 : BitVec 32 := 1#32
  let v509 : BitVec 32 := Scalar.select v508 c1_i32_271 c2_i32_269
  let v510 : BitVec 32 := Scalar.remsi v506 v509
  let c0_i32_273 : BitVec 32 := 0#32
  let v512 : BitVec 1 := Scalar.cmpi .slt v510 c0_i32_273
  let c0_i32_274 : BitVec 32 := 0#32
  let v513 : BitVec 1 := Scalar.cmpi .slt v509 c0_i32_274
  let v514 : BitVec 1 := Scalar.xori v512 v513
  let c0_i32_272 : BitVec 32 := 0#32
  let v511 : BitVec 1 := Scalar.cmpi .ne v510 c0_i32_272
  let v515 : BitVec 1 := Scalar.andi v514 v511
  let v516 : BitVec 32 := Scalar.addi v510 v509
  let v517 : BitVec 32 := Scalar.select v515 v516 v510
  let c0_i32_275 : BitVec 32 := 0#32
  let v518 : BitVec 1 := Scalar.cmpi .eq v517 c0_i32_275
  let c2_i32_258 : BitVec 32 := 2#32
  let c0_i32_259 : BitVec 32 := 0#32
  let v492 : BitVec 1 := Scalar.cmpi .eq c2_i32_258 c0_i32_259
  let c1_i32_260 : BitVec 32 := 1#32
  let v493 : BitVec 32 := Scalar.select v492 c1_i32_260 c2_i32_258
  let v494 : BitVec 32 := Scalar.remsi v481 v493
  let c0_i32_262 : BitVec 32 := 0#32
  let v496 : BitVec 1 := Scalar.cmpi .slt v494 c0_i32_262
  let c0_i32_263 : BitVec 32 := 0#32
  let v497 : BitVec 1 := Scalar.cmpi .slt v493 c0_i32_263
  let v498 : BitVec 1 := Scalar.xori v496 v497
  let c0_i32_261 : BitVec 32 := 0#32
  let v495 : BitVec 1 := Scalar.cmpi .ne v494 c0_i32_261
  let v499 : BitVec 1 := Scalar.andi v498 v495
  let v500 : BitVec 32 := Scalar.addi v494 v493
  let v501 : BitVec 32 := Scalar.select v499 v500 v494
  let c0_i32_264 : BitVec 32 := 0#32
  let v502 : BitVec 1 := Scalar.cmpi .eq v501 c0_i32_264
  let c2_i32_252 : BitVec 32 := 2#32
  let c0_i32_253 : BitVec 32 := 0#32
  let v482 : BitVec 1 := Scalar.cmpi .eq c2_i32_252 c0_i32_253
  let c1_i32_254 : BitVec 32 := 1#32
  let v483 : BitVec 32 := Scalar.select v482 c1_i32_254 c2_i32_252
  let v484 : BitVec 32 := Scalar.remsi v464 v483
  let c0_i32_256 : BitVec 32 := 0#32
  let v486 : BitVec 1 := Scalar.cmpi .slt v484 c0_i32_256
  let c0_i32_257 : BitVec 32 := 0#32
  let v487 : BitVec 1 := Scalar.cmpi .slt v483 c0_i32_257
  let v488 : BitVec 1 := Scalar.xori v486 v487
  let c0_i32_255 : BitVec 32 := 0#32
  let v485 : BitVec 1 := Scalar.cmpi .ne v484 c0_i32_255
  let v489 : BitVec 1 := Scalar.andi v488 v485
  let v490 : BitVec 32 := Scalar.addi v484 v483
  let v491 : BitVec 32 := Scalar.select v489 v490 v484
  let c1_i32_265 : BitVec 32 := 1#32
  let v503 : BitVec 32 := Scalar.subi c1_i32_265 v491
  let v504 : BitVec 32 := Scalar.select v502 v491 v503
  let c0_i32_266 : BitVec 32 := 0#32
  let v505 : BitVec 32 := Scalar.xori v504 c0_i32_266
  let c1_i32_276 : BitVec 32 := 1#32
  let v519 : BitVec 32 := Scalar.subi c1_i32_276 v505
  let v520 : BitVec 32 := Scalar.select v518 v505 v519
  let v524 : BitVec 32 := Scalar.addi v523 v520
  let c1_i32_1460_r0 : BitVec 32 := 1#32
  let v1808_r0 : BitVec 32 := Scalar.muli v524 c1_i32_1460_r0
  let v1809_r0 : BitVec 32 := Scalar.addi c0_i32_1461_r0 v1808_r0
  v1809_r0.toNat
def k0_dev47 (d0 : Dev nD) : Nat :=
  let c0_i32_1464_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_280 : BitVec 32 := 0#32
  let v526 : BitVec 1 := Scalar.cmpi .sgt v2 c0_i32_280
  let v527 : BitVec 32 := Scalar.extui v526
  let c0_i32_281 : BitVec 32 := 0#32
  let v528 : BitVec 1 := Scalar.cmpi .slt v2 c0_i32_281
  let v529 : BitVec 32 := Scalar.extui v528
  let v530 : BitVec 32 := Scalar.subi v527 v529
  let c8_i32_279 : BitVec 32 := 8#32
  let c0_i32_282 : BitVec 32 := 0#32
  let v531 : BitVec 1 := Scalar.cmpi .sgt c8_i32_279 c0_i32_282
  let v532 : BitVec 32 := Scalar.extui v531
  let c0_i32_283 : BitVec 32 := 0#32
  let v533 : BitVec 1 := Scalar.cmpi .slt c8_i32_279 c0_i32_283
  let v534 : BitVec 32 := Scalar.extui v533
  let v535 : BitVec 32 := Scalar.subi v532 v534
  let v536 : BitVec 1 := Scalar.cmpi .ne v530 v535
  let v537 : BitVec 32 := Scalar.remsi v2 c8_i32_279
  let c0_i32_284 : BitVec 32 := 0#32
  let v538 : BitVec 1 := Scalar.cmpi .ne v537 c0_i32_284
  let v539 : BitVec 1 := Scalar.andi v536 v538
  let v525 : BitVec 32 := Scalar.divsi v2 c8_i32_279
  let c1_i32_285 : BitVec 32 := 1#32
  let v540 : BitVec 32 := Scalar.subi v525 c1_i32_285
  let v541 : BitVec 32 := Scalar.select v539 v540 v525
  let c1_i32_315 : BitVec 32 := 1#32
  let v594 : BitVec 32 := Scalar.xori v541 c1_i32_315
  let c8_i32_324 : BitVec 32 := 8#32
  let v608 : BitVec 32 := Scalar.muli v594 c8_i32_324
  let c8_i32_286 : BitVec 32 := 8#32
  let c0_i32_287 : BitVec 32 := 0#32
  let v542 : BitVec 1 := Scalar.cmpi .eq c8_i32_286 c0_i32_287
  let c1_i32_288 : BitVec 32 := 1#32
  let v543 : BitVec 32 := Scalar.select v542 c1_i32_288 c8_i32_286
  let v544 : BitVec 32 := Scalar.remsi v2 v543
  let c0_i32_290 : BitVec 32 := 0#32
  let v546 : BitVec 1 := Scalar.cmpi .slt v544 c0_i32_290
  let c0_i32_291 : BitVec 32 := 0#32
  let v547 : BitVec 1 := Scalar.cmpi .slt v543 c0_i32_291
  let v548 : BitVec 1 := Scalar.xori v546 v547
  let c0_i32_289 : BitVec 32 := 0#32
  let v545 : BitVec 1 := Scalar.cmpi .ne v544 c0_i32_289
  let v549 : BitVec 1 := Scalar.andi v548 v545
  let v550 : BitVec 32 := Scalar.addi v544 v543
  let v551 : BitVec 32 := Scalar.select v549 v550 v544
  let c0_i32_293 : BitVec 32 := 0#32
  let v553 : BitVec 1 := Scalar.cmpi .sgt v551 c0_i32_293
  let v554 : BitVec 32 := Scalar.extui v553
  let c0_i32_294 : BitVec 32 := 0#32
  let v555 : BitVec 1 := Scalar.cmpi .slt v551 c0_i32_294
  let v556 : BitVec 32 := Scalar.extui v555
  let v557 : BitVec 32 := Scalar.subi v554 v556
  let c2_i32_292 : BitVec 32 := 2#32
  let c0_i32_295 : BitVec 32 := 0#32
  let v558 : BitVec 1 := Scalar.cmpi .sgt c2_i32_292 c0_i32_295
  let v559 : BitVec 32 := Scalar.extui v558
  let c0_i32_296 : BitVec 32 := 0#32
  let v560 : BitVec 1 := Scalar.cmpi .slt c2_i32_292 c0_i32_296
  let v561 : BitVec 32 := Scalar.extui v560
  let v562 : BitVec 32 := Scalar.subi v559 v561
  let v563 : BitVec 1 := Scalar.cmpi .ne v557 v562
  let v564 : BitVec 32 := Scalar.remsi v551 c2_i32_292
  let c0_i32_297 : BitVec 32 := 0#32
  let v565 : BitVec 1 := Scalar.cmpi .ne v564 c0_i32_297
  let v566 : BitVec 1 := Scalar.andi v563 v565
  let v552 : BitVec 32 := Scalar.divsi v551 c2_i32_292
  let c1_i32_298 : BitVec 32 := 1#32
  let v567 : BitVec 32 := Scalar.subi v552 c1_i32_298
  let v568 : BitVec 32 := Scalar.select v566 v567 v552
  let c0_i32_314 : BitVec 32 := 0#32
  let v593 : BitVec 32 := Scalar.xori v568 c0_i32_314
  let c2_i32_325 : BitVec 32 := 2#32
  let v609 : BitVec 32 := Scalar.muli v593 c2_i32_325
  let v610 : BitVec 32 := Scalar.addi v608 v609
  let c2_i32_316 : BitVec 32 := 2#32
  let c0_i32_317 : BitVec 32 := 0#32
  let v595 : BitVec 1 := Scalar.cmpi .eq c2_i32_316 c0_i32_317
  let c1_i32_318 : BitVec 32 := 1#32
  let v596 : BitVec 32 := Scalar.select v595 c1_i32_318 c2_i32_316
  let v597 : BitVec 32 := Scalar.remsi v593 v596
  let c0_i32_320 : BitVec 32 := 0#32
  let v599 : BitVec 1 := Scalar.cmpi .slt v597 c0_i32_320
  let c0_i32_321 : BitVec 32 := 0#32
  let v600 : BitVec 1 := Scalar.cmpi .slt v596 c0_i32_321
  let v601 : BitVec 1 := Scalar.xori v599 v600
  let c0_i32_319 : BitVec 32 := 0#32
  let v598 : BitVec 1 := Scalar.cmpi .ne v597 c0_i32_319
  let v602 : BitVec 1 := Scalar.andi v601 v598
  let v603 : BitVec 32 := Scalar.addi v597 v596
  let v604 : BitVec 32 := Scalar.select v602 v603 v597
  let c0_i32_322 : BitVec 32 := 0#32
  let v605 : BitVec 1 := Scalar.cmpi .eq v604 c0_i32_322
  let c2_i32_305 : BitVec 32 := 2#32
  let c0_i32_306 : BitVec 32 := 0#32
  let v579 : BitVec 1 := Scalar.cmpi .eq c2_i32_305 c0_i32_306
  let c1_i32_307 : BitVec 32 := 1#32
  let v580 : BitVec 32 := Scalar.select v579 c1_i32_307 c2_i32_305
  let v581 : BitVec 32 := Scalar.remsi v568 v580
  let c0_i32_309 : BitVec 32 := 0#32
  let v583 : BitVec 1 := Scalar.cmpi .slt v581 c0_i32_309
  let c0_i32_310 : BitVec 32 := 0#32
  let v584 : BitVec 1 := Scalar.cmpi .slt v580 c0_i32_310
  let v585 : BitVec 1 := Scalar.xori v583 v584
  let c0_i32_308 : BitVec 32 := 0#32
  let v582 : BitVec 1 := Scalar.cmpi .ne v581 c0_i32_308
  let v586 : BitVec 1 := Scalar.andi v585 v582
  let v587 : BitVec 32 := Scalar.addi v581 v580
  let v588 : BitVec 32 := Scalar.select v586 v587 v581
  let c0_i32_311 : BitVec 32 := 0#32
  let v589 : BitVec 1 := Scalar.cmpi .eq v588 c0_i32_311
  let c2_i32_299 : BitVec 32 := 2#32
  let c0_i32_300 : BitVec 32 := 0#32
  let v569 : BitVec 1 := Scalar.cmpi .eq c2_i32_299 c0_i32_300
  let c1_i32_301 : BitVec 32 := 1#32
  let v570 : BitVec 32 := Scalar.select v569 c1_i32_301 c2_i32_299
  let v571 : BitVec 32 := Scalar.remsi v551 v570
  let c0_i32_303 : BitVec 32 := 0#32
  let v573 : BitVec 1 := Scalar.cmpi .slt v571 c0_i32_303
  let c0_i32_304 : BitVec 32 := 0#32
  let v574 : BitVec 1 := Scalar.cmpi .slt v570 c0_i32_304
  let v575 : BitVec 1 := Scalar.xori v573 v574
  let c0_i32_302 : BitVec 32 := 0#32
  let v572 : BitVec 1 := Scalar.cmpi .ne v571 c0_i32_302
  let v576 : BitVec 1 := Scalar.andi v575 v572
  let v577 : BitVec 32 := Scalar.addi v571 v570
  let v578 : BitVec 32 := Scalar.select v576 v577 v571
  let c1_i32_312 : BitVec 32 := 1#32
  let v590 : BitVec 32 := Scalar.subi c1_i32_312 v578
  let v591 : BitVec 32 := Scalar.select v589 v578 v590
  let c0_i32_313 : BitVec 32 := 0#32
  let v592 : BitVec 32 := Scalar.xori v591 c0_i32_313
  let c1_i32_323 : BitVec 32 := 1#32
  let v606 : BitVec 32 := Scalar.subi c1_i32_323 v592
  let v607 : BitVec 32 := Scalar.select v605 v592 v606
  let v611 : BitVec 32 := Scalar.addi v610 v607
  let c1_i32_1463_r0 : BitVec 32 := 1#32
  let v1810_r0 : BitVec 32 := Scalar.muli v611 c1_i32_1463_r0
  let v1811_r0 : BitVec 32 := Scalar.addi c0_i32_1464_r0 v1810_r0
  v1811_r0.toNat
def k0_dev48 (d0 : Dev nD) : Nat :=
  let c0_i32_1467_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_327 : BitVec 32 := 0#32
  let v613 : BitVec 1 := Scalar.cmpi .sgt v2 c0_i32_327
  let v614 : BitVec 32 := Scalar.extui v613
  let c0_i32_328 : BitVec 32 := 0#32
  let v615 : BitVec 1 := Scalar.cmpi .slt v2 c0_i32_328
  let v616 : BitVec 32 := Scalar.extui v615
  let v617 : BitVec 32 := Scalar.subi v614 v616
  let c8_i32_326 : BitVec 32 := 8#32
  let c0_i32_329 : BitVec 32 := 0#32
  let v618 : BitVec 1 := Scalar.cmpi .sgt c8_i32_326 c0_i32_329
  let v619 : BitVec 32 := Scalar.extui v618
  let c0_i32_330 : BitVec 32 := 0#32
  let v620 : BitVec 1 := Scalar.cmpi .slt c8_i32_326 c0_i32_330
  let v621 : BitVec 32 := Scalar.extui v620
  let v622 : BitVec 32 := Scalar.subi v619 v621
  let v623 : BitVec 1 := Scalar.cmpi .ne v617 v622
  let v624 : BitVec 32 := Scalar.remsi v2 c8_i32_326
  let c0_i32_331 : BitVec 32 := 0#32
  let v625 : BitVec 1 := Scalar.cmpi .ne v624 c0_i32_331
  let v626 : BitVec 1 := Scalar.andi v623 v625
  let v612 : BitVec 32 := Scalar.divsi v2 c8_i32_326
  let c1_i32_332 : BitVec 32 := 1#32
  let v627 : BitVec 32 := Scalar.subi v612 c1_i32_332
  let v628 : BitVec 32 := Scalar.select v626 v627 v612
  let c2_i32_362 : BitVec 32 := 2#32
  let v681 : BitVec 32 := Scalar.xori v628 c2_i32_362
  let c8_i32_371 : BitVec 32 := 8#32
  let v695 : BitVec 32 := Scalar.muli v681 c8_i32_371
  let c8_i32_333 : BitVec 32 := 8#32
  let c0_i32_334 : BitVec 32 := 0#32
  let v629 : BitVec 1 := Scalar.cmpi .eq c8_i32_333 c0_i32_334
  let c1_i32_335 : BitVec 32 := 1#32
  let v630 : BitVec 32 := Scalar.select v629 c1_i32_335 c8_i32_333
  let v631 : BitVec 32 := Scalar.remsi v2 v630
  let c0_i32_337 : BitVec 32 := 0#32
  let v633 : BitVec 1 := Scalar.cmpi .slt v631 c0_i32_337
  let c0_i32_338 : BitVec 32 := 0#32
  let v634 : BitVec 1 := Scalar.cmpi .slt v630 c0_i32_338
  let v635 : BitVec 1 := Scalar.xori v633 v634
  let c0_i32_336 : BitVec 32 := 0#32
  let v632 : BitVec 1 := Scalar.cmpi .ne v631 c0_i32_336
  let v636 : BitVec 1 := Scalar.andi v635 v632
  let v637 : BitVec 32 := Scalar.addi v631 v630
  let v638 : BitVec 32 := Scalar.select v636 v637 v631
  let c0_i32_340 : BitVec 32 := 0#32
  let v640 : BitVec 1 := Scalar.cmpi .sgt v638 c0_i32_340
  let v641 : BitVec 32 := Scalar.extui v640
  let c0_i32_341 : BitVec 32 := 0#32
  let v642 : BitVec 1 := Scalar.cmpi .slt v638 c0_i32_341
  let v643 : BitVec 32 := Scalar.extui v642
  let v644 : BitVec 32 := Scalar.subi v641 v643
  let c2_i32_339 : BitVec 32 := 2#32
  let c0_i32_342 : BitVec 32 := 0#32
  let v645 : BitVec 1 := Scalar.cmpi .sgt c2_i32_339 c0_i32_342
  let v646 : BitVec 32 := Scalar.extui v645
  let c0_i32_343 : BitVec 32 := 0#32
  let v647 : BitVec 1 := Scalar.cmpi .slt c2_i32_339 c0_i32_343
  let v648 : BitVec 32 := Scalar.extui v647
  let v649 : BitVec 32 := Scalar.subi v646 v648
  let v650 : BitVec 1 := Scalar.cmpi .ne v644 v649
  let v651 : BitVec 32 := Scalar.remsi v638 c2_i32_339
  let c0_i32_344 : BitVec 32 := 0#32
  let v652 : BitVec 1 := Scalar.cmpi .ne v651 c0_i32_344
  let v653 : BitVec 1 := Scalar.andi v650 v652
  let v639 : BitVec 32 := Scalar.divsi v638 c2_i32_339
  let c1_i32_345 : BitVec 32 := 1#32
  let v654 : BitVec 32 := Scalar.subi v639 c1_i32_345
  let v655 : BitVec 32 := Scalar.select v653 v654 v639
  let c2_i32_361 : BitVec 32 := 2#32
  let v680 : BitVec 32 := Scalar.xori v655 c2_i32_361
  let c2_i32_372 : BitVec 32 := 2#32
  let v696 : BitVec 32 := Scalar.muli v680 c2_i32_372
  let v697 : BitVec 32 := Scalar.addi v695 v696
  let c2_i32_363 : BitVec 32 := 2#32
  let c0_i32_364 : BitVec 32 := 0#32
  let v682 : BitVec 1 := Scalar.cmpi .eq c2_i32_363 c0_i32_364
  let c1_i32_365 : BitVec 32 := 1#32
  let v683 : BitVec 32 := Scalar.select v682 c1_i32_365 c2_i32_363
  let v684 : BitVec 32 := Scalar.remsi v680 v683
  let c0_i32_367 : BitVec 32 := 0#32
  let v686 : BitVec 1 := Scalar.cmpi .slt v684 c0_i32_367
  let c0_i32_368 : BitVec 32 := 0#32
  let v687 : BitVec 1 := Scalar.cmpi .slt v683 c0_i32_368
  let v688 : BitVec 1 := Scalar.xori v686 v687
  let c0_i32_366 : BitVec 32 := 0#32
  let v685 : BitVec 1 := Scalar.cmpi .ne v684 c0_i32_366
  let v689 : BitVec 1 := Scalar.andi v688 v685
  let v690 : BitVec 32 := Scalar.addi v684 v683
  let v691 : BitVec 32 := Scalar.select v689 v690 v684
  let c0_i32_369 : BitVec 32 := 0#32
  let v692 : BitVec 1 := Scalar.cmpi .eq v691 c0_i32_369
  let c2_i32_352 : BitVec 32 := 2#32
  let c0_i32_353 : BitVec 32 := 0#32
  let v666 : BitVec 1 := Scalar.cmpi .eq c2_i32_352 c0_i32_353
  let c1_i32_354 : BitVec 32 := 1#32
  let v667 : BitVec 32 := Scalar.select v666 c1_i32_354 c2_i32_352
  let v668 : BitVec 32 := Scalar.remsi v655 v667
  let c0_i32_356 : BitVec 32 := 0#32
  let v670 : BitVec 1 := Scalar.cmpi .slt v668 c0_i32_356
  let c0_i32_357 : BitVec 32 := 0#32
  let v671 : BitVec 1 := Scalar.cmpi .slt v667 c0_i32_357
  let v672 : BitVec 1 := Scalar.xori v670 v671
  let c0_i32_355 : BitVec 32 := 0#32
  let v669 : BitVec 1 := Scalar.cmpi .ne v668 c0_i32_355
  let v673 : BitVec 1 := Scalar.andi v672 v669
  let v674 : BitVec 32 := Scalar.addi v668 v667
  let v675 : BitVec 32 := Scalar.select v673 v674 v668
  let c0_i32_358 : BitVec 32 := 0#32
  let v676 : BitVec 1 := Scalar.cmpi .eq v675 c0_i32_358
  let c2_i32_346 : BitVec 32 := 2#32
  let c0_i32_347 : BitVec 32 := 0#32
  let v656 : BitVec 1 := Scalar.cmpi .eq c2_i32_346 c0_i32_347
  let c1_i32_348 : BitVec 32 := 1#32
  let v657 : BitVec 32 := Scalar.select v656 c1_i32_348 c2_i32_346
  let v658 : BitVec 32 := Scalar.remsi v638 v657
  let c0_i32_350 : BitVec 32 := 0#32
  let v660 : BitVec 1 := Scalar.cmpi .slt v658 c0_i32_350
  let c0_i32_351 : BitVec 32 := 0#32
  let v661 : BitVec 1 := Scalar.cmpi .slt v657 c0_i32_351
  let v662 : BitVec 1 := Scalar.xori v660 v661
  let c0_i32_349 : BitVec 32 := 0#32
  let v659 : BitVec 1 := Scalar.cmpi .ne v658 c0_i32_349
  let v663 : BitVec 1 := Scalar.andi v662 v659
  let v664 : BitVec 32 := Scalar.addi v658 v657
  let v665 : BitVec 32 := Scalar.select v663 v664 v658
  let c1_i32_359 : BitVec 32 := 1#32
  let v677 : BitVec 32 := Scalar.subi c1_i32_359 v665
  let v678 : BitVec 32 := Scalar.select v676 v665 v677
  let c0_i32_360 : BitVec 32 := 0#32
  let v679 : BitVec 32 := Scalar.xori v678 c0_i32_360
  let c1_i32_370 : BitVec 32 := 1#32
  let v693 : BitVec 32 := Scalar.subi c1_i32_370 v679
  let v694 : BitVec 32 := Scalar.select v692 v679 v693
  let v698 : BitVec 32 := Scalar.addi v697 v694
  let c1_i32_1466_r0 : BitVec 32 := 1#32
  let v1812_r0 : BitVec 32 := Scalar.muli v698 c1_i32_1466_r0
  let v1813_r0 : BitVec 32 := Scalar.addi c0_i32_1467_r0 v1812_r0
  v1813_r0.toNat
def k0_dev49 (d0 : Dev nD) : Nat :=
  let c0_i32_1470_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_374 : BitVec 32 := 0#32
  let v700 : BitVec 1 := Scalar.cmpi .sgt v2 c0_i32_374
  let v701 : BitVec 32 := Scalar.extui v700
  let c0_i32_375 : BitVec 32 := 0#32
  let v702 : BitVec 1 := Scalar.cmpi .slt v2 c0_i32_375
  let v703 : BitVec 32 := Scalar.extui v702
  let v704 : BitVec 32 := Scalar.subi v701 v703
  let c8_i32_373 : BitVec 32 := 8#32
  let c0_i32_376 : BitVec 32 := 0#32
  let v705 : BitVec 1 := Scalar.cmpi .sgt c8_i32_373 c0_i32_376
  let v706 : BitVec 32 := Scalar.extui v705
  let c0_i32_377 : BitVec 32 := 0#32
  let v707 : BitVec 1 := Scalar.cmpi .slt c8_i32_373 c0_i32_377
  let v708 : BitVec 32 := Scalar.extui v707
  let v709 : BitVec 32 := Scalar.subi v706 v708
  let v710 : BitVec 1 := Scalar.cmpi .ne v704 v709
  let v711 : BitVec 32 := Scalar.remsi v2 c8_i32_373
  let c0_i32_378 : BitVec 32 := 0#32
  let v712 : BitVec 1 := Scalar.cmpi .ne v711 c0_i32_378
  let v713 : BitVec 1 := Scalar.andi v710 v712
  let v699 : BitVec 32 := Scalar.divsi v2 c8_i32_373
  let c1_i32_379 : BitVec 32 := 1#32
  let v714 : BitVec 32 := Scalar.subi v699 c1_i32_379
  let v715 : BitVec 32 := Scalar.select v713 v714 v699
  let c0_i32_409 : BitVec 32 := 0#32
  let v768 : BitVec 32 := Scalar.xori v715 c0_i32_409
  let c8_i32_418 : BitVec 32 := 8#32
  let v782 : BitVec 32 := Scalar.muli v768 c8_i32_418
  let c8_i32_380 : BitVec 32 := 8#32
  let c0_i32_381 : BitVec 32 := 0#32
  let v716 : BitVec 1 := Scalar.cmpi .eq c8_i32_380 c0_i32_381
  let c1_i32_382 : BitVec 32 := 1#32
  let v717 : BitVec 32 := Scalar.select v716 c1_i32_382 c8_i32_380
  let v718 : BitVec 32 := Scalar.remsi v2 v717
  let c0_i32_384 : BitVec 32 := 0#32
  let v720 : BitVec 1 := Scalar.cmpi .slt v718 c0_i32_384
  let c0_i32_385 : BitVec 32 := 0#32
  let v721 : BitVec 1 := Scalar.cmpi .slt v717 c0_i32_385
  let v722 : BitVec 1 := Scalar.xori v720 v721
  let c0_i32_383 : BitVec 32 := 0#32
  let v719 : BitVec 1 := Scalar.cmpi .ne v718 c0_i32_383
  let v723 : BitVec 1 := Scalar.andi v722 v719
  let v724 : BitVec 32 := Scalar.addi v718 v717
  let v725 : BitVec 32 := Scalar.select v723 v724 v718
  let c0_i32_387 : BitVec 32 := 0#32
  let v727 : BitVec 1 := Scalar.cmpi .sgt v725 c0_i32_387
  let v728 : BitVec 32 := Scalar.extui v727
  let c0_i32_388 : BitVec 32 := 0#32
  let v729 : BitVec 1 := Scalar.cmpi .slt v725 c0_i32_388
  let v730 : BitVec 32 := Scalar.extui v729
  let v731 : BitVec 32 := Scalar.subi v728 v730
  let c2_i32_386 : BitVec 32 := 2#32
  let c0_i32_389 : BitVec 32 := 0#32
  let v732 : BitVec 1 := Scalar.cmpi .sgt c2_i32_386 c0_i32_389
  let v733 : BitVec 32 := Scalar.extui v732
  let c0_i32_390 : BitVec 32 := 0#32
  let v734 : BitVec 1 := Scalar.cmpi .slt c2_i32_386 c0_i32_390
  let v735 : BitVec 32 := Scalar.extui v734
  let v736 : BitVec 32 := Scalar.subi v733 v735
  let v737 : BitVec 1 := Scalar.cmpi .ne v731 v736
  let v738 : BitVec 32 := Scalar.remsi v725 c2_i32_386
  let c0_i32_391 : BitVec 32 := 0#32
  let v739 : BitVec 1 := Scalar.cmpi .ne v738 c0_i32_391
  let v740 : BitVec 1 := Scalar.andi v737 v739
  let v726 : BitVec 32 := Scalar.divsi v725 c2_i32_386
  let c1_i32_392 : BitVec 32 := 1#32
  let v741 : BitVec 32 := Scalar.subi v726 c1_i32_392
  let v742 : BitVec 32 := Scalar.select v740 v741 v726
  let c2_i32_408 : BitVec 32 := 2#32
  let v767 : BitVec 32 := Scalar.xori v742 c2_i32_408
  let c2_i32_419 : BitVec 32 := 2#32
  let v783 : BitVec 32 := Scalar.muli v767 c2_i32_419
  let v784 : BitVec 32 := Scalar.addi v782 v783
  let c2_i32_410 : BitVec 32 := 2#32
  let c0_i32_411 : BitVec 32 := 0#32
  let v769 : BitVec 1 := Scalar.cmpi .eq c2_i32_410 c0_i32_411
  let c1_i32_412 : BitVec 32 := 1#32
  let v770 : BitVec 32 := Scalar.select v769 c1_i32_412 c2_i32_410
  let v771 : BitVec 32 := Scalar.remsi v767 v770
  let c0_i32_414 : BitVec 32 := 0#32
  let v773 : BitVec 1 := Scalar.cmpi .slt v771 c0_i32_414
  let c0_i32_415 : BitVec 32 := 0#32
  let v774 : BitVec 1 := Scalar.cmpi .slt v770 c0_i32_415
  let v775 : BitVec 1 := Scalar.xori v773 v774
  let c0_i32_413 : BitVec 32 := 0#32
  let v772 : BitVec 1 := Scalar.cmpi .ne v771 c0_i32_413
  let v776 : BitVec 1 := Scalar.andi v775 v772
  let v777 : BitVec 32 := Scalar.addi v771 v770
  let v778 : BitVec 32 := Scalar.select v776 v777 v771
  let c0_i32_416 : BitVec 32 := 0#32
  let v779 : BitVec 1 := Scalar.cmpi .eq v778 c0_i32_416
  let c2_i32_399 : BitVec 32 := 2#32
  let c0_i32_400 : BitVec 32 := 0#32
  let v753 : BitVec 1 := Scalar.cmpi .eq c2_i32_399 c0_i32_400
  let c1_i32_401 : BitVec 32 := 1#32
  let v754 : BitVec 32 := Scalar.select v753 c1_i32_401 c2_i32_399
  let v755 : BitVec 32 := Scalar.remsi v742 v754
  let c0_i32_403 : BitVec 32 := 0#32
  let v757 : BitVec 1 := Scalar.cmpi .slt v755 c0_i32_403
  let c0_i32_404 : BitVec 32 := 0#32
  let v758 : BitVec 1 := Scalar.cmpi .slt v754 c0_i32_404
  let v759 : BitVec 1 := Scalar.xori v757 v758
  let c0_i32_402 : BitVec 32 := 0#32
  let v756 : BitVec 1 := Scalar.cmpi .ne v755 c0_i32_402
  let v760 : BitVec 1 := Scalar.andi v759 v756
  let v761 : BitVec 32 := Scalar.addi v755 v754
  let v762 : BitVec 32 := Scalar.select v760 v761 v755
  let c0_i32_405 : BitVec 32 := 0#32
  let v763 : BitVec 1 := Scalar.cmpi .eq v762 c0_i32_405
  let c2_i32_393 : BitVec 32 := 2#32
  let c0_i32_394 : BitVec 32 := 0#32
  let v743 : BitVec 1 := Scalar.cmpi .eq c2_i32_393 c0_i32_394
  let c1_i32_395 : BitVec 32 := 1#32
  let v744 : BitVec 32 := Scalar.select v743 c1_i32_395 c2_i32_393
  let v745 : BitVec 32 := Scalar.remsi v725 v744
  let c0_i32_397 : BitVec 32 := 0#32
  let v747 : BitVec 1 := Scalar.cmpi .slt v745 c0_i32_397
  let c0_i32_398 : BitVec 32 := 0#32
  let v748 : BitVec 1 := Scalar.cmpi .slt v744 c0_i32_398
  let v749 : BitVec 1 := Scalar.xori v747 v748
  let c0_i32_396 : BitVec 32 := 0#32
  let v746 : BitVec 1 := Scalar.cmpi .ne v745 c0_i32_396
  let v750 : BitVec 1 := Scalar.andi v749 v746
  let v751 : BitVec 32 := Scalar.addi v745 v744
  let v752 : BitVec 32 := Scalar.select v750 v751 v745
  let c1_i32_406 : BitVec 32 := 1#32
  let v764 : BitVec 32 := Scalar.subi c1_i32_406 v752
  let v765 : BitVec 32 := Scalar.select v763 v752 v764
  let c0_i32_407 : BitVec 32 := 0#32
  let v766 : BitVec 32 := Scalar.xori v765 c0_i32_407
  let c1_i32_417 : BitVec 32 := 1#32
  let v780 : BitVec 32 := Scalar.subi c1_i32_417 v766
  let v781 : BitVec 32 := Scalar.select v779 v766 v780
  let v785 : BitVec 32 := Scalar.addi v784 v781
  let c1_i32_1469_r0 : BitVec 32 := 1#32
  let v1814_r0 : BitVec 32 := Scalar.muli v785 c1_i32_1469_r0
  let v1815_r0 : BitVec 32 := Scalar.addi c0_i32_1470_r0 v1814_r0
  v1815_r0.toNat
def k0_dev50 (d0 : Dev nD) : Nat :=
  let c0_i32_1473_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_421 : BitVec 32 := 0#32
  let v787 : BitVec 1 := Scalar.cmpi .sgt v2 c0_i32_421
  let v788 : BitVec 32 := Scalar.extui v787
  let c0_i32_422 : BitVec 32 := 0#32
  let v789 : BitVec 1 := Scalar.cmpi .slt v2 c0_i32_422
  let v790 : BitVec 32 := Scalar.extui v789
  let v791 : BitVec 32 := Scalar.subi v788 v790
  let c8_i32_420 : BitVec 32 := 8#32
  let c0_i32_423 : BitVec 32 := 0#32
  let v792 : BitVec 1 := Scalar.cmpi .sgt c8_i32_420 c0_i32_423
  let v793 : BitVec 32 := Scalar.extui v792
  let c0_i32_424 : BitVec 32 := 0#32
  let v794 : BitVec 1 := Scalar.cmpi .slt c8_i32_420 c0_i32_424
  let v795 : BitVec 32 := Scalar.extui v794
  let v796 : BitVec 32 := Scalar.subi v793 v795
  let v797 : BitVec 1 := Scalar.cmpi .ne v791 v796
  let v798 : BitVec 32 := Scalar.remsi v2 c8_i32_420
  let c0_i32_425 : BitVec 32 := 0#32
  let v799 : BitVec 1 := Scalar.cmpi .ne v798 c0_i32_425
  let v800 : BitVec 1 := Scalar.andi v797 v799
  let v786 : BitVec 32 := Scalar.divsi v2 c8_i32_420
  let c1_i32_426 : BitVec 32 := 1#32
  let v801 : BitVec 32 := Scalar.subi v786 c1_i32_426
  let v802 : BitVec 32 := Scalar.select v800 v801 v786
  let c2_i32_456 : BitVec 32 := 2#32
  let v855 : BitVec 32 := Scalar.xori v802 c2_i32_456
  let c8_i32_465 : BitVec 32 := 8#32
  let v869 : BitVec 32 := Scalar.muli v855 c8_i32_465
  let c8_i32_427 : BitVec 32 := 8#32
  let c0_i32_428 : BitVec 32 := 0#32
  let v803 : BitVec 1 := Scalar.cmpi .eq c8_i32_427 c0_i32_428
  let c1_i32_429 : BitVec 32 := 1#32
  let v804 : BitVec 32 := Scalar.select v803 c1_i32_429 c8_i32_427
  let v805 : BitVec 32 := Scalar.remsi v2 v804
  let c0_i32_431 : BitVec 32 := 0#32
  let v807 : BitVec 1 := Scalar.cmpi .slt v805 c0_i32_431
  let c0_i32_432 : BitVec 32 := 0#32
  let v808 : BitVec 1 := Scalar.cmpi .slt v804 c0_i32_432
  let v809 : BitVec 1 := Scalar.xori v807 v808
  let c0_i32_430 : BitVec 32 := 0#32
  let v806 : BitVec 1 := Scalar.cmpi .ne v805 c0_i32_430
  let v810 : BitVec 1 := Scalar.andi v809 v806
  let v811 : BitVec 32 := Scalar.addi v805 v804
  let v812 : BitVec 32 := Scalar.select v810 v811 v805
  let c0_i32_434 : BitVec 32 := 0#32
  let v814 : BitVec 1 := Scalar.cmpi .sgt v812 c0_i32_434
  let v815 : BitVec 32 := Scalar.extui v814
  let c0_i32_435 : BitVec 32 := 0#32
  let v816 : BitVec 1 := Scalar.cmpi .slt v812 c0_i32_435
  let v817 : BitVec 32 := Scalar.extui v816
  let v818 : BitVec 32 := Scalar.subi v815 v817
  let c2_i32_433 : BitVec 32 := 2#32
  let c0_i32_436 : BitVec 32 := 0#32
  let v819 : BitVec 1 := Scalar.cmpi .sgt c2_i32_433 c0_i32_436
  let v820 : BitVec 32 := Scalar.extui v819
  let c0_i32_437 : BitVec 32 := 0#32
  let v821 : BitVec 1 := Scalar.cmpi .slt c2_i32_433 c0_i32_437
  let v822 : BitVec 32 := Scalar.extui v821
  let v823 : BitVec 32 := Scalar.subi v820 v822
  let v824 : BitVec 1 := Scalar.cmpi .ne v818 v823
  let v825 : BitVec 32 := Scalar.remsi v812 c2_i32_433
  let c0_i32_438 : BitVec 32 := 0#32
  let v826 : BitVec 1 := Scalar.cmpi .ne v825 c0_i32_438
  let v827 : BitVec 1 := Scalar.andi v824 v826
  let v813 : BitVec 32 := Scalar.divsi v812 c2_i32_433
  let c1_i32_439 : BitVec 32 := 1#32
  let v828 : BitVec 32 := Scalar.subi v813 c1_i32_439
  let v829 : BitVec 32 := Scalar.select v827 v828 v813
  let c0_i32_455 : BitVec 32 := 0#32
  let v854 : BitVec 32 := Scalar.xori v829 c0_i32_455
  let c2_i32_466 : BitVec 32 := 2#32
  let v870 : BitVec 32 := Scalar.muli v854 c2_i32_466
  let v871 : BitVec 32 := Scalar.addi v869 v870
  let c2_i32_457 : BitVec 32 := 2#32
  let c0_i32_458 : BitVec 32 := 0#32
  let v856 : BitVec 1 := Scalar.cmpi .eq c2_i32_457 c0_i32_458
  let c1_i32_459 : BitVec 32 := 1#32
  let v857 : BitVec 32 := Scalar.select v856 c1_i32_459 c2_i32_457
  let v858 : BitVec 32 := Scalar.remsi v854 v857
  let c0_i32_461 : BitVec 32 := 0#32
  let v860 : BitVec 1 := Scalar.cmpi .slt v858 c0_i32_461
  let c0_i32_462 : BitVec 32 := 0#32
  let v861 : BitVec 1 := Scalar.cmpi .slt v857 c0_i32_462
  let v862 : BitVec 1 := Scalar.xori v860 v861
  let c0_i32_460 : BitVec 32 := 0#32
  let v859 : BitVec 1 := Scalar.cmpi .ne v858 c0_i32_460
  let v863 : BitVec 1 := Scalar.andi v862 v859
  let v864 : BitVec 32 := Scalar.addi v858 v857
  let v865 : BitVec 32 := Scalar.select v863 v864 v858
  let c0_i32_463 : BitVec 32 := 0#32
  let v866 : BitVec 1 := Scalar.cmpi .eq v865 c0_i32_463
  let c2_i32_446 : BitVec 32 := 2#32
  let c0_i32_447 : BitVec 32 := 0#32
  let v840 : BitVec 1 := Scalar.cmpi .eq c2_i32_446 c0_i32_447
  let c1_i32_448 : BitVec 32 := 1#32
  let v841 : BitVec 32 := Scalar.select v840 c1_i32_448 c2_i32_446
  let v842 : BitVec 32 := Scalar.remsi v829 v841
  let c0_i32_450 : BitVec 32 := 0#32
  let v844 : BitVec 1 := Scalar.cmpi .slt v842 c0_i32_450
  let c0_i32_451 : BitVec 32 := 0#32
  let v845 : BitVec 1 := Scalar.cmpi .slt v841 c0_i32_451
  let v846 : BitVec 1 := Scalar.xori v844 v845
  let c0_i32_449 : BitVec 32 := 0#32
  let v843 : BitVec 1 := Scalar.cmpi .ne v842 c0_i32_449
  let v847 : BitVec 1 := Scalar.andi v846 v843
  let v848 : BitVec 32 := Scalar.addi v842 v841
  let v849 : BitVec 32 := Scalar.select v847 v848 v842
  let c0_i32_452 : BitVec 32 := 0#32
  let v850 : BitVec 1 := Scalar.cmpi .eq v849 c0_i32_452
  let c2_i32_440 : BitVec 32 := 2#32
  let c0_i32_441 : BitVec 32 := 0#32
  let v830 : BitVec 1 := Scalar.cmpi .eq c2_i32_440 c0_i32_441
  let c1_i32_442 : BitVec 32 := 1#32
  let v831 : BitVec 32 := Scalar.select v830 c1_i32_442 c2_i32_440
  let v832 : BitVec 32 := Scalar.remsi v812 v831
  let c0_i32_444 : BitVec 32 := 0#32
  let v834 : BitVec 1 := Scalar.cmpi .slt v832 c0_i32_444
  let c0_i32_445 : BitVec 32 := 0#32
  let v835 : BitVec 1 := Scalar.cmpi .slt v831 c0_i32_445
  let v836 : BitVec 1 := Scalar.xori v834 v835
  let c0_i32_443 : BitVec 32 := 0#32
  let v833 : BitVec 1 := Scalar.cmpi .ne v832 c0_i32_443
  let v837 : BitVec 1 := Scalar.andi v836 v833
  let v838 : BitVec 32 := Scalar.addi v832 v831
  let v839 : BitVec 32 := Scalar.select v837 v838 v832
  let c1_i32_453 : BitVec 32 := 1#32
  let v851 : BitVec 32 := Scalar.subi c1_i32_453 v839
  let v852 : BitVec 32 := Scalar.select v850 v839 v851
  let c0_i32_454 : BitVec 32 := 0#32
  let v853 : BitVec 32 := Scalar.xori v852 c0_i32_454
  let c1_i32_464 : BitVec 32 := 1#32
  let v867 : BitVec 32 := Scalar.subi c1_i32_464 v853
  let v868 : BitVec 32 := Scalar.select v866 v853 v867
  let v872 : BitVec 32 := Scalar.addi v871 v868
  let c1_i32_1472_r0 : BitVec 32 := 1#32
  let v1816_r0 : BitVec 32 := Scalar.muli v872 c1_i32_1472_r0
  let v1817_r0 : BitVec 32 := Scalar.addi c0_i32_1473_r0 v1816_r0
  v1817_r0.toNat
abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

class Facts₀ : Prop where
  hamt_1 : (1#32 : BitVec 32).msb = false
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S6x128x128_S1x128x128_0_0_0 : ∀ a, (![0, 0, 0] : Fin 3 → Nat) a + S1x128x128.size a ≤ S6x128x128.size a
  h_S1x128x128 : 0 < S1x128x128.numel
  shapeCasts_S1x128x128_S128x128 : S1x128x128.ShapeCasts S128x128
  shapeCasts_S128x128_S1x128x128 : S128x128.ShapeCasts S1x128x128
  packedbf16_S6x128x128_S1x128x128_0_0_0 : (Rect.unit (s := S6x128x128) ![0, 0, 0] S1x128x128.size inb_S6x128x128_S1x128x128_0_0_0).PackedRows (EltTy.packing .bf16)
  hamt_10 : (10#32 : BitVec 32).msb = false
  inb_S30_S1_0 : ∀ a, (![0] : Fin 1 → Nat) a + S1.size a ≤ S30.size a
  squeezes_S1_S_ : S1.Squeezes S_
  inb_S30x128x128_S1x128x128_0_0_0 : ∀ a, (![0, 0, 0] : Fin 3 → Nat) a + S1x128x128.size a ≤ S30x128x128.size a
  squeezes_S1x128x128_S128x128 : S1x128x128.Squeezes S128x128
  wordsbf16_S6x128x128_S1x128x128_0_0_0 : (Rect.unit (s := S6x128x128) ![0, 0, 0] S1x128x128.size inb_S6x128x128_S1x128x128_0_0_0).WholeWords (EltTy.packing .bf16)
  wordsbf16_S30x128x128_S1x128x128_0_0_0 : (Rect.unit (s := S30x128x128) ![0, 0, 0] S1x128x128.size inb_S30x128x128_S1x128x128_0_0_0).WholeWords (EltTy.packing .bf16)
  inb_S30_S1_1 : ∀ a, (![1] : Fin 1 → Nat) a + S1.size a ≤ S30.size a
  inb_S30x128x128_S1x128x128_1_0_0 : ∀ a, (![1, 0, 0] : Fin 3 → Nat) a + S1x128x128.size a ≤ S30x128x128.size a
  wordsbf16_S30x128x128_S1x128x128_1_0_0 : (Rect.unit (s := S30x128x128) ![1, 0, 0] S1x128x128.size inb_S30x128x128_S1x128x128_1_0_0).WholeWords (EltTy.packing .bf16)
  inb_S30_S1_2 : ∀ a, (![2] : Fin 1 → Nat) a + S1.size a ≤ S30.size a
  inb_S30x128x128_S1x128x128_2_0_0 : ∀ a, (![2, 0, 0] : Fin 3 → Nat) a + S1x128x128.size a ≤ S30x128x128.size a
  wordsbf16_S30x128x128_S1x128x128_2_0_0 : (Rect.unit (s := S30x128x128) ![2, 0, 0] S1x128x128.size inb_S30x128x128_S1x128x128_2_0_0).WholeWords (EltTy.packing .bf16)
  inb_S30_S1_3 : ∀ a, (![3] : Fin 1 → Nat) a + S1.size a ≤ S30.size a
  inb_S30x128x128_S1x128x128_3_0_0 : ∀ a, (![3, 0, 0] : Fin 3 → Nat) a + S1x128x128.size a ≤ S30x128x128.size a
  wordsbf16_S30x128x128_S1x128x128_3_0_0 : (Rect.unit (s := S30x128x128) ![3, 0, 0] S1x128x128.size inb_S30x128x128_S1x128x128_3_0_0).WholeWords (EltTy.packing .bf16)
  inb_S30_S1_4 : ∀ a, (![4] : Fin 1 → Nat) a + S1.size a ≤ S30.size a
  inb_S30x128x128_S1x128x128_4_0_0 : ∀ a, (![4, 0, 0] : Fin 3 → Nat) a + S1x128x128.size a ≤ S30x128x128.size a
  wordsbf16_S30x128x128_S1x128x128_4_0_0 : (Rect.unit (s := S30x128x128) ![4, 0, 0] S1x128x128.size inb_S30x128x128_S1x128x128_4_0_0).WholeWords (EltTy.packing .bf16)
  inb_S30_S1_5 : ∀ a, (![5] : Fin 1 → Nat) a + S1.size a ≤ S30.size a
  inb_S30x128x128_S1x128x128_5_0_0 : ∀ a, (![5, 0, 0] : Fin 3 → Nat) a + S1x128x128.size a ≤ S30x128x128.size a
  wordsbf16_S30x128x128_S1x128x128_5_0_0 : (Rect.unit (s := S30x128x128) ![5, 0, 0] S1x128x128.size inb_S30x128x128_S1x128x128_5_0_0).WholeWords (EltTy.packing .bf16)
  inb_S30_S1_6 : ∀ a, (![6] : Fin 1 → Nat) a + S1.size a ≤ S30.size a
  inb_S30x128x128_S1x128x128_6_0_0 : ∀ a, (![6, 0, 0] : Fin 3 → Nat) a + S1x128x128.size a ≤ S30x128x128.size a
  wordsbf16_S30x128x128_S1x128x128_6_0_0 : (Rect.unit (s := S30x128x128) ![6, 0, 0] S1x128x128.size inb_S30x128x128_S1x128x128_6_0_0).WholeWords (EltTy.packing .bf16)
  inb_S6x128x128_S1x128x128_1_0_0 : ∀ a, (![1, 0, 0] : Fin 3 → Nat) a + S1x128x128.size a ≤ S6x128x128.size a
  packedbf16_S6x128x128_S1x128x128_1_0_0 : (Rect.unit (s := S6x128x128) ![1, 0, 0] S1x128x128.size inb_S6x128x128_S1x128x128_1_0_0).PackedRows (EltTy.packing .bf16)
  inb_S30_S1_7 : ∀ a, (![7] : Fin 1 → Nat) a + S1.size a ≤ S30.size a
  inb_S30x128x128_S1x128x128_7_0_0 : ∀ a, (![7, 0, 0] : Fin 3 → Nat) a + S1x128x128.size a ≤ S30x128x128.size a
  wordsbf16_S6x128x128_S1x128x128_1_0_0 : (Rect.unit (s := S6x128x128) ![1, 0, 0] S1x128x128.size inb_S6x128x128_S1x128x128_1_0_0).WholeWords (EltTy.packing .bf16)
  wordsbf16_S30x128x128_S1x128x128_7_0_0 : (Rect.unit (s := S30x128x128) ![7, 0, 0] S1x128x128.size inb_S30x128x128_S1x128x128_7_0_0).WholeWords (EltTy.packing .bf16)
  inb_S30_S1_8 : ∀ a, (![8] : Fin 1 → Nat) a + S1.size a ≤ S30.size a
  inb_S30x128x128_S1x128x128_8_0_0 : ∀ a, (![8, 0, 0] : Fin 3 → Nat) a + S1x128x128.size a ≤ S30x128x128.size a
  wordsbf16_S30x128x128_S1x128x128_8_0_0 : (Rect.unit (s := S30x128x128) ![8, 0, 0] S1x128x128.size inb_S30x128x128_S1x128x128_8_0_0).WholeWords (EltTy.packing .bf16)
  inb_S30_S1_9 : ∀ a, (![9] : Fin 1 → Nat) a + S1.size a ≤ S30.size a
  inb_S30x128x128_S1x128x128_9_0_0 : ∀ a, (![9, 0, 0] : Fin 3 → Nat) a + S1x128x128.size a ≤ S30x128x128.size a
  wordsbf16_S30x128x128_S1x128x128_9_0_0 : (Rect.unit (s := S30x128x128) ![9, 0, 0] S1x128x128.size inb_S30x128x128_S1x128x128_9_0_0).WholeWords (EltTy.packing .bf16)
  inb_S6x128x128_S1x128x128_2_0_0 : ∀ a, (![2, 0, 0] : Fin 3 → Nat) a + S1x128x128.size a ≤ S6x128x128.size a
  packedbf16_S6x128x128_S1x128x128_2_0_0 : (Rect.unit (s := S6x128x128) ![2, 0, 0] S1x128x128.size inb_S6x128x128_S1x128x128_2_0_0).PackedRows (EltTy.packing .bf16)
  inb_S30_S1_10 : ∀ a, (![10] : Fin 1 → Nat) a + S1.size a ≤ S30.size a
  inb_S30x128x128_S1x128x128_10_0_0 : ∀ a, (![10, 0, 0] : Fin 3 → Nat) a + S1x128x128.size a ≤ S30x128x128.size a
  wordsbf16_S6x128x128_S1x128x128_2_0_0 : (Rect.unit (s := S6x128x128) ![2, 0, 0] S1x128x128.size inb_S6x128x128_S1x128x128_2_0_0).WholeWords (EltTy.packing .bf16)
  wordsbf16_S30x128x128_S1x128x128_10_0_0 : (Rect.unit (s := S30x128x128) ![10, 0, 0] S1x128x128.size inb_S30x128x128_S1x128x128_10_0_0).WholeWords (EltTy.packing .bf16)
  inb_S30_S1_11 : ∀ a, (![11] : Fin 1 → Nat) a + S1.size a ≤ S30.size a
  inb_S30x128x128_S1x128x128_11_0_0 : ∀ a, (![11, 0, 0] : Fin 3 → Nat) a + S1x128x128.size a ≤ S30x128x128.size a
  wordsbf16_S30x128x128_S1x128x128_11_0_0 : (Rect.unit (s := S30x128x128) ![11, 0, 0] S1x128x128.size inb_S30x128x128_S1x128x128_11_0_0).WholeWords (EltTy.packing .bf16)
  inb_S30_S1_12 : ∀ a, (![12] : Fin 1 → Nat) a + S1.size a ≤ S30.size a
  inb_S30x128x128_S1x128x128_12_0_0 : ∀ a, (![12, 0, 0] : Fin 3 → Nat) a + S1x128x128.size a ≤ S30x128x128.size a
  wordsbf16_S30x128x128_S1x128x128_12_0_0 : (Rect.unit (s := S30x128x128) ![12, 0, 0] S1x128x128.size inb_S30x128x128_S1x128x128_12_0_0).WholeWords (EltTy.packing .bf16)
  inb_S30_S1_13 : ∀ a, (![13] : Fin 1 → Nat) a + S1.size a ≤ S30.size a
  inb_S30x128x128_S1x128x128_13_0_0 : ∀ a, (![13, 0, 0] : Fin 3 → Nat) a + S1x128x128.size a ≤ S30x128x128.size a
  wordsbf16_S30x128x128_S1x128x128_13_0_0 : (Rect.unit (s := S30x128x128) ![13, 0, 0] S1x128x128.size inb_S30x128x128_S1x128x128_13_0_0).WholeWords (EltTy.packing .bf16)
  inb_S30_S1_14 : ∀ a, (![14] : Fin 1 → Nat) a + S1.size a ≤ S30.size a
  inb_S30x128x128_S1x128x128_14_0_0 : ∀ a, (![14, 0, 0] : Fin 3 → Nat) a + S1x128x128.size a ≤ S30x128x128.size a
  wordsbf16_S30x128x128_S1x128x128_14_0_0 : (Rect.unit (s := S30x128x128) ![14, 0, 0] S1x128x128.size inb_S30x128x128_S1x128x128_14_0_0).WholeWords (EltTy.packing .bf16)
  inb_S30_S1_15 : ∀ a, (![15] : Fin 1 → Nat) a + S1.size a ≤ S30.size a
  inb_S30x128x128_S1x128x128_15_0_0 : ∀ a, (![15, 0, 0] : Fin 3 → Nat) a + S1x128x128.size a ≤ S30x128x128.size a
  wordsbf16_S30x128x128_S1x128x128_15_0_0 : (Rect.unit (s := S30x128x128) ![15, 0, 0] S1x128x128.size inb_S30x128x128_S1x128x128_15_0_0).WholeWords (EltTy.packing .bf16)
  inb_S30_S1_16 : ∀ a, (![16] : Fin 1 → Nat) a + S1.size a ≤ S30.size a
  inb_S30x128x128_S1x128x128_16_0_0 : ∀ a, (![16, 0, 0] : Fin 3 → Nat) a + S1x128x128.size a ≤ S30x128x128.size a
  wordsbf16_S30x128x128_S1x128x128_16_0_0 : (Rect.unit (s := S30x128x128) ![16, 0, 0] S1x128x128.size inb_S30x128x128_S1x128x128_16_0_0).WholeWords (EltTy.packing .bf16)
  inb_S6x128x128_S1x128x128_3_0_0 : ∀ a, (![3, 0, 0] : Fin 3 → Nat) a + S1x128x128.size a ≤ S6x128x128.size a
  packedbf16_S6x128x128_S1x128x128_3_0_0 : (Rect.unit (s := S6x128x128) ![3, 0, 0] S1x128x128.size inb_S6x128x128_S1x128x128_3_0_0).PackedRows (EltTy.packing .bf16)
  inb_S30_S1_17 : ∀ a, (![17] : Fin 1 → Nat) a + S1.size a ≤ S30.size a
  inb_S30x128x128_S1x128x128_17_0_0 : ∀ a, (![17, 0, 0] : Fin 3 → Nat) a + S1x128x128.size a ≤ S30x128x128.size a
  wordsbf16_S6x128x128_S1x128x128_3_0_0 : (Rect.unit (s := S6x128x128) ![3, 0, 0] S1x128x128.size inb_S6x128x128_S1x128x128_3_0_0).WholeWords (EltTy.packing .bf16)
  wordsbf16_S30x128x128_S1x128x128_17_0_0 : (Rect.unit (s := S30x128x128) ![17, 0, 0] S1x128x128.size inb_S30x128x128_S1x128x128_17_0_0).WholeWords (EltTy.packing .bf16)
  inb_S30_S1_18 : ∀ a, (![18] : Fin 1 → Nat) a + S1.size a ≤ S30.size a
  inb_S30x128x128_S1x128x128_18_0_0 : ∀ a, (![18, 0, 0] : Fin 3 → Nat) a + S1x128x128.size a ≤ S30x128x128.size a
  wordsbf16_S30x128x128_S1x128x128_18_0_0 : (Rect.unit (s := S30x128x128) ![18, 0, 0] S1x128x128.size inb_S30x128x128_S1x128x128_18_0_0).WholeWords (EltTy.packing .bf16)
  inb_S30_S1_19 : ∀ a, (![19] : Fin 1 → Nat) a + S1.size a ≤ S30.size a
  inb_S30x128x128_S1x128x128_19_0_0 : ∀ a, (![19, 0, 0] : Fin 3 → Nat) a + S1x128x128.size a ≤ S30x128x128.size a
  wordsbf16_S30x128x128_S1x128x128_19_0_0 : (Rect.unit (s := S30x128x128) ![19, 0, 0] S1x128x128.size inb_S30x128x128_S1x128x128_19_0_0).WholeWords (EltTy.packing .bf16)
  inb_S6x128x128_S1x128x128_4_0_0 : ∀ a, (![4, 0, 0] : Fin 3 → Nat) a + S1x128x128.size a ≤ S6x128x128.size a
  packedbf16_S6x128x128_S1x128x128_4_0_0 : (Rect.unit (s := S6x128x128) ![4, 0, 0] S1x128x128.size inb_S6x128x128_S1x128x128_4_0_0).PackedRows (EltTy.packing .bf16)
  inb_S30_S1_20 : ∀ a, (![20] : Fin 1 → Nat) a + S1.size a ≤ S30.size a
  inb_S30x128x128_S1x128x128_20_0_0 : ∀ a, (![20, 0, 0] : Fin 3 → Nat) a + S1x128x128.size a ≤ S30x128x128.size a
  wordsbf16_S6x128x128_S1x128x128_4_0_0 : (Rect.unit (s := S6x128x128) ![4, 0, 0] S1x128x128.size inb_S6x128x128_S1x128x128_4_0_0).WholeWords (EltTy.packing .bf16)
  wordsbf16_S30x128x128_S1x128x128_20_0_0 : (Rect.unit (s := S30x128x128) ![20, 0, 0] S1x128x128.size inb_S30x128x128_S1x128x128_20_0_0).WholeWords (EltTy.packing .bf16)
  inb_S30_S1_21 : ∀ a, (![21] : Fin 1 → Nat) a + S1.size a ≤ S30.size a
  inb_S30x128x128_S1x128x128_21_0_0 : ∀ a, (![21, 0, 0] : Fin 3 → Nat) a + S1x128x128.size a ≤ S30x128x128.size a
  wordsbf16_S30x128x128_S1x128x128_21_0_0 : (Rect.unit (s := S30x128x128) ![21, 0, 0] S1x128x128.size inb_S30x128x128_S1x128x128_21_0_0).WholeWords (EltTy.packing .bf16)
  inb_S30_S1_22 : ∀ a, (![22] : Fin 1 → Nat) a + S1.size a ≤ S30.size a
  inb_S30x128x128_S1x128x128_22_0_0 : ∀ a, (![22, 0, 0] : Fin 3 → Nat) a + S1x128x128.size a ≤ S30x128x128.size a
  wordsbf16_S30x128x128_S1x128x128_22_0_0 : (Rect.unit (s := S30x128x128) ![22, 0, 0] S1x128x128.size inb_S30x128x128_S1x128x128_22_0_0).WholeWords (EltTy.packing .bf16)
  inb_S30_S1_23 : ∀ a, (![23] : Fin 1 → Nat) a + S1.size a ≤ S30.size a
  inb_S30x128x128_S1x128x128_23_0_0 : ∀ a, (![23, 0, 0] : Fin 3 → Nat) a + S1x128x128.size a ≤ S30x128x128.size a
  wordsbf16_S30x128x128_S1x128x128_23_0_0 : (Rect.unit (s := S30x128x128) ![23, 0, 0] S1x128x128.size inb_S30x128x128_S1x128x128_23_0_0).WholeWords (EltTy.packing .bf16)
  inb_S30_S1_24 : ∀ a, (![24] : Fin 1 → Nat) a + S1.size a ≤ S30.size a
  inb_S30x128x128_S1x128x128_24_0_0 : ∀ a, (![24, 0, 0] : Fin 3 → Nat) a + S1x128x128.size a ≤ S30x128x128.size a
  wordsbf16_S30x128x128_S1x128x128_24_0_0 : (Rect.unit (s := S30x128x128) ![24, 0, 0] S1x128x128.size inb_S30x128x128_S1x128x128_24_0_0).WholeWords (EltTy.packing .bf16)
  inb_S30_S1_25 : ∀ a, (![25] : Fin 1 → Nat) a + S1.size a ≤ S30.size a
  inb_S30x128x128_S1x128x128_25_0_0 : ∀ a, (![25, 0, 0] : Fin 3 → Nat) a + S1x128x128.size a ≤ S30x128x128.size a
  wordsbf16_S30x128x128_S1x128x128_25_0_0 : (Rect.unit (s := S30x128x128) ![25, 0, 0] S1x128x128.size inb_S30x128x128_S1x128x128_25_0_0).WholeWords (EltTy.packing .bf16)
  inb_S30_S1_26 : ∀ a, (![26] : Fin 1 → Nat) a + S1.size a ≤ S30.size a
  inb_S30x128x128_S1x128x128_26_0_0 : ∀ a, (![26, 0, 0] : Fin 3 → Nat) a + S1x128x128.size a ≤ S30x128x128.size a
  wordsbf16_S30x128x128_S1x128x128_26_0_0 : (Rect.unit (s := S30x128x128) ![26, 0, 0] S1x128x128.size inb_S30x128x128_S1x128x128_26_0_0).WholeWords (EltTy.packing .bf16)
  inb_S6x128x128_S1x128x128_5_0_0 : ∀ a, (![5, 0, 0] : Fin 3 → Nat) a + S1x128x128.size a ≤ S6x128x128.size a
  packedbf16_S6x128x128_S1x128x128_5_0_0 : (Rect.unit (s := S6x128x128) ![5, 0, 0] S1x128x128.size inb_S6x128x128_S1x128x128_5_0_0).PackedRows (EltTy.packing .bf16)
  inb_S30_S1_27 : ∀ a, (![27] : Fin 1 → Nat) a + S1.size a ≤ S30.size a
  inb_S30x128x128_S1x128x128_27_0_0 : ∀ a, (![27, 0, 0] : Fin 3 → Nat) a + S1x128x128.size a ≤ S30x128x128.size a
  wordsbf16_S6x128x128_S1x128x128_5_0_0 : (Rect.unit (s := S6x128x128) ![5, 0, 0] S1x128x128.size inb_S6x128x128_S1x128x128_5_0_0).WholeWords (EltTy.packing .bf16)
  wordsbf16_S30x128x128_S1x128x128_27_0_0 : (Rect.unit (s := S30x128x128) ![27, 0, 0] S1x128x128.size inb_S30x128x128_S1x128x128_27_0_0).WholeWords (EltTy.packing .bf16)
  inb_S30_S1_28 : ∀ a, (![28] : Fin 1 → Nat) a + S1.size a ≤ S30.size a
  inb_S30x128x128_S1x128x128_28_0_0 : ∀ a, (![28, 0, 0] : Fin 3 → Nat) a + S1x128x128.size a ≤ S30x128x128.size a
  wordsbf16_S30x128x128_S1x128x128_28_0_0 : (Rect.unit (s := S30x128x128) ![28, 0, 0] S1x128x128.size inb_S30x128x128_S1x128x128_28_0_0).WholeWords (EltTy.packing .bf16)
  inb_S30_S1_29 : ∀ a, (![29] : Fin 1 → Nat) a + S1.size a ≤ S30.size a
  inb_S30x128x128_S1x128x128_29_0_0 : ∀ a, (![29, 0, 0] : Fin 3 → Nat) a + S1x128x128.size a ≤ S30x128x128.size a
  wordsbf16_S30x128x128_S1x128x128_29_0_0 : (Rect.unit (s := S30x128x128) ![29, 0, 0] S1x128x128.size inb_S30x128x128_S1x128x128_29_0_0).WholeWords (EltTy.packing .bf16)
  dot_S128x128_S128x256_S128x256_1_0_0_1_n_n_wf : DotDims.WF S128x128 S128x256 S128x256 [1] [0] [0] [1] [] []
  dot_S128x256_S256x128_S128x128_1_0_0_1_n_n_wf : DotDims.WF S128x256 S256x128 S128x128 [1] [0] [0] [1] [] []
  hcc0_scoped0 : 1 + S_.numel ≤ 2
  hcc0_scratch2 : 8 + S30.numel ≤ 68
  hcc0_scratch3 : 38 + S30.numel ≤ 68
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole

variable [Facts₀]

abbrev cc0_scoped0 : Sems sig S_ := SemArray.consecutive 1 S_ hcc0_scoped0
abbrev cc0_scratch2 : DmaSems sig S30 := SemArray.consecutive 8 S30 hcc0_scratch2
abbrev cc0_scratch3 : DmaSems sig S30 := SemArray.consecutive 38 S30 hcc0_scratch3
def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_v1) true false (stage0_7 0) (sem0_7 0) (Memref.isWhole_whole _) (hstage0_7 0)

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S128x128 : Shape := ⟨2, ![128, 128]⟩
abbrev S128x8192 : Shape := ⟨2, ![128, 8192]⟩
abbrev S8192x128 : Shape := ⟨2, ![8192, 128]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S128x8192, .f32⟩
  | .hbm, ⟨2, _⟩ => ⟨S8192x128, .f32⟩
  | .hbm, ⟨3, _⟩ => ⟨S128x8192, .f32⟩
  | .hbm, ⟨4, _⟩ => ⟨S8192x128, .f32⟩
  | .hbm, ⟨5, _⟩ => ⟨S128x8192, .f32⟩
  | .hbm, ⟨6, _⟩ => ⟨S8192x128, .f32⟩
  | .hbm, ⟨7, _⟩ => ⟨S128x8192, .f32⟩
  | .hbm, ⟨8, _⟩ => ⟨S_, .f32⟩
  | .hbm, ⟨9, _⟩ => ⟨S128x8192, .f32⟩
  | .hbm, ⟨10, _⟩ => ⟨S128x8192, .f32⟩
  | .hbm, ⟨11, _⟩ => ⟨S128x128, .f32⟩
  | .hbm, ⟨12, _⟩ => ⟨S128x8192, .f32⟩
  | .hbm, ⟨13, _⟩ => ⟨S_, .f32⟩
  | .hbm, ⟨14, _⟩ => ⟨S128x8192, .f32⟩
  | .hbm, ⟨15, _⟩ => ⟨S128x8192, .f32⟩
  | .hbm, ⟨16, _⟩ => ⟨S128x128, .f32⟩
  | .hbm, ⟨17, _⟩ => ⟨S128x8192, .f32⟩
  | .hbm, ⟨18, _⟩ => ⟨S_, .f32⟩
  | .hbm, ⟨19, _⟩ => ⟨S128x8192, .f32⟩
  | .hbm, ⟨20, _⟩ => ⟨S128x8192, .f32⟩
  | .hbm, ⟨21, _⟩ => ⟨S128x128, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S_S128x8192 : S_.BroadcastsInDim S128x8192 (![] : Fin 0 → Fin S128x8192.rank)
  dot_S128x128_S128x8192_S128x8192_1_0_0_1_n_n_wf : DotDims.WF S128x128 S128x8192 S128x8192 [1] [0] [0] [1] [] []
  dot_S128x8192_S8192x128_S128x128_1_0_0_1_n_n_wf : DotDims.WF S128x8192 S8192x128 S128x128 [1] [0] [0] [1] [] []

variable [Facts₀]

def dot_S128x128_S128x8192_S128x8192_1_0_0_1_n_n : DotDims S128x128 S128x8192 S128x8192 where
  lhsContracting := [1]
  rhsContracting := [0]
  lhsNonContracting := [0]
  rhsNonContracting := [1]
  lhsBatch := []
  rhsBatch := []
  wf := dot_S128x128_S128x8192_S128x8192_1_0_0_1_n_n_wf
def dot_S128x8192_S8192x128_S128x128_1_0_0_1_n_n : DotDims S128x8192 S8192x128 S128x128 where
  lhsContracting := [1]
  rhsContracting := [0]
  lhsNonContracting := [0]
  rhsNonContracting := [1]
  lhsBatch := []
  rhsBatch := []
  wf := dot_S128x8192_S8192x128_S128x128_1_0_0_1_n_n_wf

class Facts : Prop extends Facts₀ where

variable [Facts]
-- ==== Proof.Partner.lean ====
import Mathlib.Data.Fin.Basic
import Mathlib.Data.Fintype.Basic
import Mathlib.Algebra.BigOperators.Group.Finset.Basic
import Mathlib.Algebra.BigOperators.Fin

namespace Cert.Mlp

def maskOf : Fin 10 → Nat × Nat × Nat
  | 0 => (1, 1, 1) | 1 => (1, 1, 0) | 2 => (1, 0, 1) | 3 => (0, 1, 1) | 4 => (1, 0, 0) | 5 => (0, 1, 0) | 6 => (0, 0, 1)
  | 7 => (0, 2, 2) | 8 => (0, 2, 0) | 9 => (0, 0, 2)

def partnerNat (i : Nat) (j : Fin 10) : Nat :=
  let z := i / 8
  let p := i % 8
  let y := p / 2
  let q := p % 2
  let x := if y % 2 = 0 then q else 1 - q
  let x' := Nat.xor x (maskOf j).1
  let y' := Nat.xor y (maskOf j).2.1
  let z' := Nat.xor z (maskOf j).2.2
  let q' := if y' % 2 = 0 then x' else 1 - x'
  z' * 8 + y' * 2 + q'

theorem partnerNat_lt : ∀ (i : Fin 32) (j : Fin 10), partnerNat i.val j < 32 := by decide

def partner (c : Fin 32) (j : Fin 10) : Fin 32 := ⟨partnerNat c.val j, partnerNat_lt c j⟩

theorem partner_partner : ∀ (c : Fin 32) (j : Fin 10), partner (partner c j) j = c := by decide

theorem partner_inj : ∀ (c : Fin 32) (j j' : Fin 10), partner c j = partner c j' → j = j' := by decide

theorem partner_ne_self : ∀ (c : Fin 32) (j : Fin 10), partner c j ≠ c := by decide

def partnerEquiv (j : Fin 10) : Fin 32 ≃ Fin 32 :=
  ⟨fun c => partner c j, fun c => partner c j, fun c => partner_partner c j, fun c => partner_partner c j⟩

def maskIx (n : Nat) : Fin 10 := ⟨(n - 1) % 10, Nat.mod_lt _ (by decide)⟩

section Reduce

variable {M : Type} [AddCommMonoid M]

def red0 (f : Fin 32 → M) (c : Fin 32) : M :=
  f c + f (partner c 6) + f (partner c 5) + f (partner c 4) + f (partner c 3) + f (partner c 2) + f (partner c 1) + f (partner c 0)

def red1 (f : Fin 32 → M) (c : Fin 32) : M :=
  f c + f (partner c 9) + f (partner c 8) + f (partner c 7)

end Reduce

end Cert.Mlp
-- ==== Proof.Proto.lean ====
import proofs.«900997_g7700000000000998_dist_mlpseq_tp1d_rep_rep_b128_d128_h256_v7x_i32_f32_1_alg».proof.Proof.Gen.KernelIdeal
import proofs.«900997_g7700000000000998_dist_mlpseq_tp1d_rep_rep_b128_d128_h256_v7x_i32_f32_1_alg».proof.Proof.Gen.KernelIdeal.Skeleton
import proofs.«900997_g7700000000000998_dist_mlpseq_tp1d_rep_rep_b128_d128_h256_v7x_i32_f32_1_alg».proof.Proof.Gen.KernelIdeal.Launch
import proofs.«900997_g7700000000000998_dist_mlpseq_tp1d_rep_rep_b128_d128_h256_v7x_i32_f32_1_alg».proof.Proof.Partner
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen Cert.Mlp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 10)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

def slotOf (l : Fin 3) (j : Fin 10) : Fin 30 := ⟨10 * l.val + j.val, by omega⟩

def jOf (k : Fin 30) : Fin 10 := ⟨k.val % 10, Nat.mod_lt _ (by decide)⟩
def lOf (k : Fin 30) : Fin 3 := ⟨k.val / 10, by omega⟩

def stageOf (k : Fin 30) : Fin 6 := ⟨2 * (k.val / 10) + (if k.val % 10 < 7 then 0 else 1), by split <;> omega⟩

theorem slotOf_jOf_lOf : ∀ k : Fin 30, slotOf (lOf k) (jOf k) = k := by decide
theorem jOf_slotOf : ∀ (l : Fin 3) (j : Fin 10), jOf (slotOf l j) = j := by decide
theorem lOf_slotOf : ∀ (l : Fin 3) (j : Fin 10), lOf (slotOf l j) = l := by decide

abbrev barS : Sem sig := 0
abbrev exitS : Sem sig := 1
def sendSem (k : Fin 30) : DmaSem sig := ⟨8 + k.val, by have := k.isLt; show 8 + k.val < 68; omega⟩
def recvSem (k : Fin 30) : DmaSem sig := ⟨38 + k.val, by have := k.isLt; show 38 + k.val < 68; omega⟩

abbrev barCell (c : Dev nD) : GSem nD τ sig := ((c : Thread nD τ), .reg barS)
abbrev exitCell (c : Dev nD) : GSem nD τ sig := ((c : Thread nD τ), .reg exitS)
abbrev sendCell (c : Dev nD) (k : Fin 30) : GSem nD τ sig := ((c : Thread nD τ), .dma (sendSem k))
abbrev recvCell (c : Dev nD) (k : Fin 30) : GSem nD τ sig := ((c : Thread nD τ), .dma (recvSem k))

theorem inb_send (s : Fin 6) : ∀ a, (![s.val, 0, 0] : Fin 3 → Nat) a + S1x128x128.size a ≤ S6x128x128.size a := by
  intro a; have := s.isLt; fin_cases a <;> simp <;> omega
theorem inb_recv (k : Fin 30) : ∀ a, (![k.val, 0, 0] : Fin 3 → Nat) a + S1x128x128.size a ≤ S30x128x128.size a := by
  intro a; have := k.isLt; fin_cases a <;> simp <;> omega

def sendSlot (s : Fin 6) : Memref sig .tc .vmem S128x128 .bf16 :=
  ((Memref.whole cc0_scratch0).slice (Rect.unit (s := S6x128x128) ![s.val, 0, 0] S1x128x128.size (inb_send s)) (fun _ => rfl)).squeeze S128x128 squeezes_S1x128x128_S128x128
def recvSlot (k : Fin 30) : Memref sig .tc .vmem S128x128 .bf16 :=
  ((Memref.whole cc0_scratch1).slice (Rect.unit (s := S30x128x128) ![k.val, 0, 0] S1x128x128.size (inb_recv k)) (fun _ => rfl)).squeeze S128x128 squeezes_S1x128x128_S128x128

abbrev N : ℕ := (recvSlot 0).view.dmaCredit

def rightN : ℕ → PosShare TreeShare
  | 0 => fullShare
  | n + 1 => (rightN n).right
def chainShare (n : ℕ) : PosShare TreeShare := (rightN n).left

def posOf (k : Fin 30) : ℕ := if k.val % 10 < 7 then k.val % 10 else k.val % 10 - 7
def shr (k : Fin 30) : PosShare TreeShare := chainShare (posOf k)

variable (m : (ℓ : Loc nD τ sig) → Buf (Elt F) ℓ) (ρ : Dev nD → PrngReg)

def s₀ : MemSt nD τ sig (Elt F) := ⟨m, fun _ => 0, ρ⟩

variable (sb : (c : Dev nD) → Fin 6 → Buf (Elt F) ((c : Thread nD τ).loc cc0_scratch0))

def sendPts (c : Dev nD) (s : Fin 6) (q : PosShare TreeShare) (f : Buf (Elt F) ((sendSlot s).view.loc (c : Thread nD τ))) : sProp 𝕄 :=
  (sendSlot s).view.loc (c : Thread nD τ) ↦[(sendSlot s).view.set]{q} f
def recvPts (c : Dev nD) (k : Fin 30) (f : Buf (Elt F) ((recvSlot k).view.loc (c : Thread nD τ))) : sProp 𝕄 :=
  (recvSlot k).view.loc (c : Thread nD τ) ↦[(recvSlot k).view.set]{fullShare} f

def recvEx (c : Dev nD) (k : Fin 30) : sProp 𝕄 := iprop(∃ f, recvPts c k f)

def landed (c : Dev nD) (k : Fin 30) : Buf (Elt F) ((recvSlot k).view.loc (c : Thread nD τ)) :=
  (recvSlot k).view.write (Elt F) (m ((c : Thread nD τ).loc cc0_scratch1))
    ((sendSlot (stageOf k)).view.read (Elt F) (sb (partner c (jOf k)) (stageOf k))) Finset.univ

def barPay (c : Dev nD) (j : Fin 10) : sProp 𝕄 :=
  iprop(recvEx (partner c j) (slotOf 0 j) ∗ recvEx (partner c j) (slotOf 1 j) ∗ recvEx (partner c j) (slotOf 2 j))
def recvPay (c : Dev nD) (k : Fin 30) : sProp 𝕄 := recvPts c k (landed m sb c k)
def sendPay (c : Dev nD) (k : Fin 30) : sProp 𝕄 := sendPts c (stageOf k) (shr k) (sb c (stageOf k))

def sendIx (q : DmaSem sig) : Option (Fin 30) := if h : 8 ≤ q.val ∧ q.val < 38 then some ⟨q.val - 8, by omega⟩ else none
def recvIx (q : DmaSem sig) : Option (Fin 30) := if h : 38 ≤ q.val then some ⟨q.val - 38, by have h68 : q.val < 68 := q.isLt; show q.val - 38 < 30; omega⟩ else none

theorem sendIx_sendSem : ∀ k : Fin 30, sendIx (sendSem k) = some k := by decide
theorem recvIx_recvSem : ∀ k : Fin 30, recvIx (recvSem k) = some k := by decide
theorem recvIx_sendSem : ∀ k : Fin 30, recvIx (sendSem k) = none := by decide
theorem sendIx_recvSem : ∀ k : Fin 30, sendIx (recvSem k) = none := by decide

def Rd : Rounds.Schedule (GSem nD τ sig) (Fin 10) 𝕄 where
  duties g r :=
    if r = 0 ∧ g.1.2 = .tc then
      (match g.2 with
       | .reg _ => Finset.univ
       | .dma q => if 8 ≤ q.val then {0} else ∅)
    else ∅
  unitless _ := False
  amount g _ _ := match g.2 with | .reg _ => 1 | .dma _ => N
  payload g _ d := match g.2 with
    | .reg s => if s = barS then barPay g.1.1 d else iprop(emp)
    | .dma q => match recvIx q with
      | some k => recvPay m sb g.1.1 k
      | none => match sendIx q with
        | some k => sendPay sb g.1.1 k
        | none => iprop(emp)
  amount_pos g _ _ _ := by
    cases g.2 with
    | reg _ => exact Nat.one_pos
    | dma _ => exact View.dmaCredit_pos _ (by decide)

end Cert.KernelIdeal.Proto

end
-- ==== Proof.Tables.lean ====
import proofs.«900997_g7700000000000998_dist_mlpseq_tp1d_rep_rep_b128_d128_h256_v7x_i32_f32_1_alg».proof.Proof.Proto

noncomputable section

namespace Cert.KernelIdeal.Proto

open Cert.KernelIdeal Cert.KernelIdeal.Gen Cert.Mlp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (sb : (c : Dev nD) → Fin 6 → Buf (Elt F) ((c : Thread nD τ).loc cc0_scratch0))

instance sendPts_storable (c : Dev nD) (s : Fin 6) (q : PosShare TreeShare) (f : Buf (Elt F) ((sendSlot s).view.loc (c : Thread nD τ))) :
    BI.Storable (upEmb : UEmb _ 𝕄) (sendPts (F := F) c s q f) := by unfold sendPts; infer_instance

instance Rd_payload_storable (g : GSem nD τ sig) (r : ℕ) (d : Fin 10) :
    BI.Storable (upEmb : UEmb _ 𝕄) ((Rd (F := F) m sb).payload g r d) := by
  show BI.Storable upEmb (match g.2 with
    | .reg s => if s = barS then barPay g.1.1 d else iprop(emp)
    | .dma q => match recvIx q with
      | some k => recvPay m sb g.1.1 k
      | none => match sendIx q with
        | some k => sendPay sb g.1.1 k
        | none => iprop(emp))
  unfold barPay recvPay sendPay recvEx recvPts
  (repeat' split) <;> first | infer_instance | exact sendPts_storable _ _ _ _

section Tables
variable (c : Dev nD)

theorem duties_bar : (Rd (F := F) m sb).duties (barCell c) 0 = Finset.univ := by
  dsimp only [Rd]; exact if_pos ⟨rfl, rfl⟩
theorem duties_exit : (Rd (F := F) m sb).duties (exitCell c) 0 = Finset.univ := by
  dsimp only [Rd]; exact if_pos ⟨rfl, rfl⟩
theorem duties_send (k : Fin 30) : (Rd (F := F) m sb).duties (sendCell c k) 0 = {0} := by
  dsimp only [Rd]; rw [if_pos ⟨rfl, rfl⟩]
  exact if_pos (show 8 ≤ 8 + k.val from Nat.le_add_right _ _)
theorem duties_recv (k : Fin 30) : (Rd (F := F) m sb).duties (recvCell c k) 0 = {0} := by
  dsimp only [Rd]; rw [if_pos ⟨rfl, rfl⟩]
  exact if_pos (show 8 ≤ 38 + k.val by omega)
theorem duties_later (g : GSem nD τ sig) : ∀ r, 1 ≤ r → (Rd (F := F) m sb).duties g r = ∅ :=
  fun r hr => by dsimp only [Rd]; exact if_neg fun h => by have := h.1; omega

theorem amount_bar (d : Fin 10) : (Rd (F := F) m sb).amount (barCell c) 0 d = 1 := rfl
theorem amount_exit (d : Fin 10) : (Rd (F := F) m sb).amount (exitCell c) 0 d = 1 := rfl
theorem amount_send (k : Fin 30) (d : Fin 10) : (Rd (F := F) m sb).amount (sendCell c k) 0 d = N := rfl
theorem amount_recv (k : Fin 30) (d : Fin 10) : (Rd (F := F) m sb).amount (recvCell c k) 0 d = N := rfl

theorem expect_bar : (Rd (F := F) m sb).expect (barCell c) 0 = 10 := by
  unfold Schedule.expect Schedule.amountOf
  rw [duties_bar, Finset.sum_congr rfl fun d _ => amount_bar m sb c d, Finset.sum_const, Finset.card_univ, Fintype.card_fin, smul_eq_mul]
theorem expect_exit : (Rd (F := F) m sb).expect (exitCell c) 0 = 10 := by
  unfold Schedule.expect Schedule.amountOf
  rw [duties_exit, Finset.sum_congr rfl fun d _ => amount_exit m sb c d, Finset.sum_const, Finset.card_univ, Fintype.card_fin, smul_eq_mul]
theorem expect_send (k : Fin 30) : (Rd (F := F) m sb).expect (sendCell c k) 0 = N := by
  unfold Schedule.expect Schedule.amountOf; rw [duties_send, Finset.sum_singleton, amount_send]
theorem expect_recv (k : Fin 30) : (Rd (F := F) m sb).expect (recvCell c k) 0 = N := by
  unfold Schedule.expect Schedule.amountOf; rw [duties_recv, Finset.sum_singleton, amount_recv]

theorem payload_bar (j : Fin 10) : (Rd (F := F) m sb).payload (barCell c) 0 j = barPay c j := by
  dsimp only [Rd]; exact if_pos rfl
theorem payload_exit (j : Fin 10) : (Rd (F := F) m sb).payload (exitCell c) 0 j = iprop(emp) := by
  dsimp only [Rd]; exact if_neg (by decide)
theorem payload_send (k : Fin 30) (d : Fin 10) : (Rd (F := F) m sb).payload (sendCell c k) 0 d = sendPay sb c k := by
  dsimp only [Rd]; rw [recvIx_sendSem, sendIx_sendSem]
theorem payload_recv (k : Fin 30) (d : Fin 10) : (Rd (F := F) m sb).payload (recvCell c k) 0 d = recvPay m sb c k := by
  dsimp only [Rd]; rw [recvIx_recvSem]

theorem rest_bar : bigSep ((Rd (F := F) m sb).duties (barCell c) 0 \ ∅) (fun d => (Rd (F := F) m sb).payload (barCell c) 0 d)
    = bigSep Finset.univ (fun j : Fin 10 => barPay (F := F) c j) := by
  rw [Finset.sdiff_empty, duties_bar]
  exact bigSep_congr fun j _ => payload_bar m sb c j
theorem rest_exit : bigSep ((Rd (F := F) m sb).duties (exitCell c) 0 \ ∅) (fun d => (Rd (F := F) m sb).payload (exitCell c) 0 d)
    ⊢ (iprop(emp) : sProp 𝕄) := by
  rw [Finset.sdiff_empty, duties_exit]
  have h : bigSep Finset.univ (fun d => (Rd (F := F) m sb).payload (exitCell c) 0 d)
      = bigSep Finset.univ (fun _ : Fin 10 => (BI.emp : sProp 𝕄)) := bigSep_congr fun j _ => payload_exit m sb c j
  rw [h, bigSep_emp_const]
  exact BI.Entails.refl _
theorem rest_send (k : Fin 30) : bigSep ((Rd (F := F) m sb).duties (sendCell c k) 0 \ ∅) (fun d => (Rd (F := F) m sb).payload (sendCell c k) 0 d)
    = sendPay sb c k := by
  rw [Finset.sdiff_empty, duties_send, bigSep_singleton, payload_send]
theorem rest_recv (k : Fin 30) : bigSep ((Rd (F := F) m sb).duties (recvCell c k) 0 \ ∅) (fun d => (Rd (F := F) m sb).payload (recvCell c k) 0 d)
    = recvPay m sb c k := by
  rw [Finset.sdiff_empty, duties_recv, bigSep_singleton, payload_recv]

theorem bigSep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

end Tables

def mk10 (i : ℕ) : Fin 10 := ⟨i % 10, Nat.mod_lt _ (by decide)⟩
def mk30 (i : ℕ) : Fin 30 := ⟨i % 30, Nat.mod_lt _ (by decide)⟩

def payCell (c : Dev nD) (i : ℕ) : GSem nD τ sig :=
  if i < 10 then barCell (partner c (mk10 i))
  else if i < 40 then recvCell (partner c (mk10 (i - 10))) (mk30 (i - 10))
  else exitCell (partner c (mk10 (i - 40)))
def payAmt (i : ℕ) : ℕ := if 10 ≤ i ∧ i < 40 then N else 1

def owedK (c : Dev nD) : ℕ → CellTallies nD τ sig Unit
  | 0 => 0
  | n + 1 => owedK c n + tallyAt (payCell c (49 - n)) () (payAmt (49 - n))

def O₀ (c : Dev nD) : CellTallies nD τ sig Unit := owedK c 50

theorem owedK_succ (c : Dev nD) (n : ℕ) : owedK c (n + 1) = owedK c n + tallyAt (payCell c (49 - n)) () (payAmt (49 - n)) := rfl

theorem owedK_pos {c : Dev nD} {n : ℕ} {g : GSem nD τ sig} {u : Unit} (h : 0 < owedK c n g u) :
    ∃ i, 50 - n ≤ i ∧ i < 50 ∧ g = payCell c i := by
  induction n with
  | zero =>
    have h0 : owedK c 0 g u = 0 := rfl
    rw [h0] at h; exact absurd h (Nat.lt_irrefl 0)
  | succ n ih =>
    rw [owedK_succ, Pi.add_apply, Finsupp.add_apply, tallyAt_apply] at h
    by_cases hg : g = payCell c (49 - n) ∧ u = ()
    · exact ⟨49 - n, by omega, by omega, hg.1⟩
    · rw [if_neg hg, add_zero] at h
      obtain ⟨i, h1, h2, h3⟩ := ih h
      exact ⟨i, by omega, h2, h3⟩

def L (g : GSem nD τ sig) : Finset Unit := if g.1.2 = .tc then {()} else ∅

def lv (g : GSem nD τ sig) (_ : Unit) : ℕ :=
  match g.2 with
  | .reg s => if s = barS then 1 else 8
  | .dma q => match recvIx q with
    | some k => 2 + (stageOf k).val
    | none => 0

theorem L_of_ne (g : GSem nD τ sig) (h : g.1.2 ≠ .tc) : L g = ∅ := if_neg h
theorem L_tc (c : Dev nD) (sm : SemLoc sig) : L ((c : Thread nD τ), sm) = {()} := if_pos rfl

def lvPay (i : ℕ) : ℕ := if i < 10 then 1 else if i < 40 then 2 + (stageOf (mk30 (i - 10))).val else 8
theorem lv_payCell (c : Dev nD) (i : ℕ) : lv (payCell c i) () = lvPay i := by
  unfold payCell lvPay
  by_cases h1 : i < 10
  · rw [if_pos h1, if_pos h1]; dsimp only [lv]; exact if_pos rfl
  · rw [if_neg h1, if_neg h1]
    by_cases h2 : i < 40
    · rw [if_pos h2, if_pos h2]; dsimp only [lv]; rw [recvIx_recvSem]
    · rw [if_neg h2, if_neg h2]; dsimp only [lv]; exact if_neg (by decide)

theorem payCell_tc (c : Dev nD) (i : ℕ) : (payCell c i).1.2 = .tc := by
  unfold payCell
  by_cases h1 : i < 10
  · rw [if_pos h1]
  · rw [if_neg h1]
    by_cases h2 : i < 40
    · rw [if_pos h2]
    · rw [if_neg h2]

theorem lvPay_pos (i : ℕ) : 0 < lvPay i := by
  unfold lvPay
  by_cases h1 : i < 10
  · rw [if_pos h1]; exact Nat.one_pos
  · rw [if_neg h1]
    by_cases h2 : i < 40
    · rw [if_pos h2]; omega
    · rw [if_neg h2]; omega

theorem mayWait_owedK (c : Dev nD) (sm : SemLoc sig) (n : ℕ) (hn : n ≤ 50)
    (hlt : ∀ i, 50 - n ≤ i → i < 50 → lv ((c : Thread nD τ), sm) () < lvPay i) :
    (levAts L lv : sProp 𝕄) ⊢ MayWait (c : Thread nD τ) sm () (owedK c n) :=
  MayOwe.of_cut (L := L) (lev := lv) (lv ((c : Thread nD τ), sm) ())
    (fun p hp => by rw [Finset.mem_singleton.mp hp, L_tc]; exact Finset.mem_singleton_self _)
    (fun g u hg => by
      obtain ⟨i, _, _, rfl⟩ := owedK_pos hg
      have hL : L (payCell c i) = {()} := if_pos (payCell_tc c i)
      rw [hL]; exact Finset.mem_singleton_self _)
    (fun p hp => by have hp' := Finset.mem_singleton.mp hp; subst hp'; exact le_refl _)
    (fun g u hg => by
      obtain ⟨i, h1, h2, rfl⟩ := owedK_pos hg
      have := lv_payCell c i
      exact lt_of_lt_of_eq (hlt i h1 h2) this.symm)

theorem mayWait_stage (c : Dev nD) (q : DmaSem sig) (hq : q.val < 8) (O : CellTallies nD τ sig Unit) (hO : O = O₀ c ∨ O = 0) :
    (levAts L lv : sProp 𝕄) ⊢ MayWait (c : Thread nD τ) (.dma q) () O := by
  rcases hO with rfl | rfl
  · have hr : recvIx q = none := by unfold recvIx; exact dif_neg (by omega)
    have h0 : lv ((c : Thread nD τ), .dma q) () = 0 := by dsimp only [lv]; rw [hr]
    exact mayWait_owedK c (.dma q) 50 (le_refl _) (fun i _ _ => by rw [h0]; exact lvPay_pos i)
  · rw [MayWait_zero]; iintro -; iempintro

end Cert.KernelIdeal.Proto

end
-- ==== Proof.Vals.lean ====
import proofs.«900997_g7700000000000998_dist_mlpseq_tp1d_rep_rep_b128_d128_h256_v7x_i32_f32_1_alg».proof.Proof.Gen.KernelIdeal.Skeleton
import proofs.«900997_g7700000000000998_dist_mlpseq_tp1d_rep_rep_b128_d128_h256_v7x_i32_f32_1_alg».proof.Proof.Partner

noncomputable section

namespace Cert.KernelIdeal.Vals

open Cert.KernelIdeal Cert.KernelIdeal.Gen Cert.Mlp Idealize.ShloMosaic

structure Args (F : FTy → Type) where
  x : Vec F S128x128 .f32
  w0 : Vec F S128x256 .f32
  o0 : Vec F S256x128 .f32
  w1 : Vec F S128x256 .f32
  o1 : Vec F S256x128 .f32
  w2 : Vec F S128x256 .f32
  o2 : Vec F S256x128 .f32

variable {F : FTy → Type} [FloatOps F]
variable (A : Dev nD → Args F)

def v907 (c : Dev nD) : FVec F S128x128 .f32 := k0_pay1 (A c).x (A c).w0 (A c).o0

def sent0 (c : Dev nD) : Vec F S1x128x128 .bf16 := k0_pay2 (A c).x (A c).w0 (A c).o0

def v993 (c : Dev nD) : FVec F S128x128 .f32 := k0_pay3 (v907 A c) (sent0 A (partner c 6))

def v1017 (c : Dev nD) : FVec F S128x128 .f32 :=
  k0_pay4 (v993 A c) (sent0 A (partner c 5)) (sent0 A (partner c 4))

def v1041 (c : Dev nD) : FVec F S128x128 .f32 :=
  k0_pay5 (v1017 A c) (sent0 A (partner c 3)) (sent0 A (partner c 2))

def v1065 (c : Dev nD) : FVec F S128x128 .f32 :=
  k0_pay6 (v1041 A c) (sent0 A (partner c 1)) (sent0 A (partner c 0))

def sent1 (c : Dev nD) : Vec F S1x128x128 .bf16 :=
  k0_pay7 (v1041 A c) (sent0 A (partner c 1)) (sent0 A (partner c 0))

def v1136 (c : Dev nD) : FVec F S128x128 .bf16 :=
  k0_pay8 (v1065 A c) (sent1 A (partner c 9)) (sent1 A (partner c 8)) (sent1 A (partner c 7))

def v1147 (c : Dev nD) : FVec F S128x128 .f32 := k0_pay9 (v1136 A c) (A c).w1 (A c).o1

def sent2 (c : Dev nD) : Vec F S1x128x128 .bf16 := k0_pay10 (v1136 A c) (A c).w1 (A c).o1

def v1245 (c : Dev nD) : FVec F S128x128 .f32 :=
  k0_pay11 (v1147 A c) (sent2 A (partner c 6)) (sent2 A (partner c 5))

def v1269 (c : Dev nD) : FVec F S128x128 .f32 :=
  k0_pay12 (v1245 A c) (sent2 A (partner c 4)) (sent2 A (partner c 3))

def v1305 (c : Dev nD) : FVec F S128x128 .f32 :=
  k0_pay13 (v1269 A c) (sent2 A (partner c 2)) (sent2 A (partner c 1)) (sent2 A (partner c 0))

def v1306 (c : Dev nD) : FVec F S128x128 .bf16 :=
  k0_pay14 (v1269 A c) (sent2 A (partner c 2)) (sent2 A (partner c 1)) (sent2 A (partner c 0))

def sent3 (c : Dev nD) : Vec F S1x128x128 .bf16 := k0_pay15 (v1306 A c)

def v1363 (c : Dev nD) : FVec F S128x128 .f32 :=
  k0_pay16 (v1305 A c) (sent3 A (partner c 9)) (sent3 A (partner c 8))

def v1387 (c : Dev nD) : FVec F S128x128 .f32 :=
  k0_pay17 (v1363 A c) (sent3 A (partner c 7)) (A c).w2 (A c).o2

def sent4 (c : Dev nD) : Vec F S1x128x128 .bf16 :=
  k0_pay18 (v1363 A c) (sent3 A (partner c 7)) (A c).w2 (A c).o2

def v1473 (c : Dev nD) : FVec F S128x128 .f32 := k0_pay19 (v1387 A c) (sent4 A (partner c 6))

def v1497 (c : Dev nD) : FVec F S128x128 .f32 :=
  k0_pay20 (v1473 A c) (sent4 A (partner c 5)) (sent4 A (partner c 4))

def v1507 (c : Dev nD) : FVec F S128x128 .bf16 := k0_pay21 (sent4 A (partner c 3))

def v1533 (c : Dev nD) : FVec F S128x128 .f32 :=
  k0_pay22 (v1497 A c) (v1507 A c) (sent4 A (partner c 2)) (sent4 A (partner c 1))

def v1545 (c : Dev nD) : FVec F S128x128 .f32 := k0_pay23 (v1533 A c) (sent4 A (partner c 0))

def sent5 (c : Dev nD) : Vec F S1x128x128 .bf16 := k0_pay24 (v1533 A c) (sent4 A (partner c 0))

def v1591 (c : Dev nD) : FVec F S128x128 .f32 := k0_pay25 (v1545 A c) (sent5 A (partner c 9))

def outv (c : Dev nD) : Vec F S128x128 .f32 :=
  k0_pay26 (v1591 A c) (sent5 A (partner c 8)) (sent5 A (partner c 7))

end Cert.KernelIdeal.Vals
-- ==== Proof.Ghost.lean ====
import proofs.«900997_g7700000000000998_dist_mlpseq_tp1d_rep_rep_b128_d128_h256_v7x_i32_f32_1_alg».proof.Proof.Tables
import proofs.«900997_g7700000000000998_dist_mlpseq_tp1d_rep_rep_b128_d128_h256_v7x_i32_f32_1_alg».proof.Proof.Vals
import Mathlib.Tactic.DeriveFintype

noncomputable section

namespace Cert.KernelIdeal.Proto

open Cert.KernelIdeal Cert.KernelIdeal.Gen Cert.Mlp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def argsOf (d : Dev nD) : Vals.Args F where
  x := (win0_0.blk (0 : Fin 1)).view.read (Elt F) (m ((d : Thread nD τ).loc main_arg0))
  w0 := (win0_1.blk (0 : Fin 1)).view.read (Elt F) (m ((d : Thread nD τ).loc main_arg1))
  o0 := (win0_2.blk (0 : Fin 1)).view.read (Elt F) (m ((d : Thread nD τ).loc main_arg2))
  w1 := (win0_3.blk (0 : Fin 1)).view.read (Elt F) (m ((d : Thread nD τ).loc main_arg3))
  o1 := (win0_4.blk (0 : Fin 1)).view.read (Elt F) (m ((d : Thread nD τ).loc main_arg4))
  w2 := (win0_5.blk (0 : Fin 1)).view.read (Elt F) (m ((d : Thread nD τ).loc main_arg5))
  o2 := (win0_6.blk (0 : Fin 1)).view.read (Elt F) (m ((d : Thread nD τ).loc main_arg6))

def sentOf (c : Dev nD) : Fin 6 → Vec F S1x128x128 .bf16
  | 0 => Vals.sent0 (argsOf m) c | 1 => Vals.sent1 (argsOf m) c | 2 => Vals.sent2 (argsOf m) c
  | 3 => Vals.sent3 (argsOf m) c | 4 => Vals.sent4 (argsOf m) c | 5 => Vals.sent5 (argsOf m) c

abbrev rectS (s : Fin 6) : Rect S6x128x128 := Rect.unit (s := S6x128x128) ![s.val, 0, 0] S1x128x128.size (inb_send s)
abbrev rectR (k : Fin 30) : Rect S30x128x128 := Rect.unit (s := S30x128x128) ![k.val, 0, 0] S1x128x128.size (inb_recv k)

def sbuf (c : Dev nD) (s : Fin 6) : Buf (Elt F) ((c : Thread nD τ).loc cc0_scratch0) :=
  ((Memref.whole cc0_scratch0 : Memref sig .tc .vmem S6x128x128 .bf16).access (rectS s) : View sig .tc _ _ _).write (Elt F)
    (m ((c : Thread nD τ).loc cc0_scratch0)) (sentOf m c s) Finset.univ

abbrev RdK : Rounds.Schedule (GSem nD τ sig) (Fin 10) 𝕄 := Rd m (sbuf m)

inductive CK where
  | bar | exit | send (k : Fin 30) | recv (k : Fin 30)
deriving DecidableEq, Fintype

def csem : CK → SemLoc sig
  | .bar => .reg barS | .exit => .reg exitS | .send k => .dma (sendSem k) | .recv k => .dma (recvSem k)
abbrev kcell (ck : Dev nD × CK) : GSem nD τ sig := ((ck.1 : Thread nD τ), csem ck.2)

theorem csem_injective : Function.Injective csem := by
  rintro (_ | _ | k | k) (_ | _ | k' | k') h
  all_goals first
    | rfl
    | exact absurd h (by decide)
    | exact absurd h (fun h => by cases h)
    | (have h' : 8 + k.val = 8 + k'.val := congrArg Fin.val (SemLoc.dma.inj h)
       rw [show k = k' from Fin.ext (by omega)])
    | (have h' : 38 + k.val = 38 + k'.val := congrArg Fin.val (SemLoc.dma.inj h)
       rw [show k = k' from Fin.ext (by omega)])
    | (have h' : 8 + k.val = 38 + k'.val := congrArg Fin.val (SemLoc.dma.inj h)
       exact absurd h' (by have := k.isLt; omega))
    | (have h' : 38 + k.val = 8 + k'.val := congrArg Fin.val (SemLoc.dma.inj h)
       exact absurd h' (by have := k'.isLt; omega))
theorem kcell_injective : Function.Injective (kcell : Dev nD × CK → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

def records (K : Dev nD × CK → ℕ) : sProp 𝕄 :=
  iprop((bigSep Finset.univ fun ck : Dev nD × CK => cellInv ER (RdK m) (K ck) (kcell ck))
    ∗ bigSep Finset.univ fun ck : Dev nD × CK => reached ER (kcell ck) 0)

instance records_persistent (K : Dev nD × CK → ℕ) : BI.Persistent (records m K) := by unfold records; infer_instance

theorem inv_at (K : Dev nD × CK → ℕ) (ck : Dev nD × CK) : records m K ⊢ cellInv ER (RdK m) (K ck) (kcell ck) := by
  unfold records
  have h : (bigSep Finset.univ fun ck : Dev nD × CK => (cellInv ER (RdK m) (K ck) (kcell ck) : sProp 𝕄)) ⊢ cellInv ER (RdK m) (K ck) (kcell ck) :=
    bigSep_elim (Finset.mem_univ ck)
  iintro ⟨HI, -⟩
  iapply h
  iexact HI
theorem reached_at (K : Dev nD × CK → ℕ) (ck : Dev nD × CK) : records m K ⊢ (reached ER (kcell ck) 0 : sProp 𝕄) := by
  unfold records
  have h : (bigSep Finset.univ fun ck : Dev nD × CK => (reached ER (kcell ck) 0 : sProp 𝕄)) ⊢ reached ER (kcell ck) 0 :=
    bigSep_elim (Finset.mem_univ ck)
  iintro ⟨-, HR⟩
  iapply h
  iexact HR

def ownPos (c : Dev nD) : sProp 𝕄 :=
  iprop(atPos ER (barCell c) 0 ∅ 0 ∗ atPos ER (exitCell c) 0 ∅ 0
    ∗ (bigSep Finset.univ fun k : Fin 30 => atPos ER (sendCell c k) 0 ∅ 0)
    ∗ (bigSep Finset.univ fun k : Fin 30 => atPos ER (recvCell c k) 0 ∅ 0))

def payToks (c : Dev nD) : sProp 𝕄 :=
  iprop((bigSep Finset.univ fun j : Fin 10 => dutyTok ER (barCell (partner c j)) 0 j)
    ∗ (bigSep Finset.univ fun k : Fin 30 => dutyTok ER (recvCell (partner c (jOf k)) k) 0 (0 : Fin 10))
    ∗ (bigSep Finset.univ fun k : Fin 30 => dutyTok ER (sendCell c k) 0 (0 : Fin 10))
    ∗ (bigSep Finset.univ fun j : Fin 10 => dutyTok ER (exitCell (partner c j)) 0 j))

def ghost (K : Dev nD × CK → ℕ) (c : Dev nD) : sProp 𝕄 := iprop(records m K ∗ ownPos c ∗ payToks c)

def creds (c : Dev nD) : sProp 𝕄 :=
  iprop(cred (tallyAt (barCell c) () 10) ∗ (bigSep Finset.univ fun k : Fin 30 => cred (tallyAt (recvCell c k) () N)) ∗ cred (tallyAt (exitCell c) () 10))

def start (c : Dev nD) : sProp 𝕄 := iprop((∃ K, ghost m K c) ∗ creds c ∗ levAts L lv)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratch c)

def Φ₁ (c : Dev nD) : sProp 𝕄 :=
  iprop(scratch c ∗ semVal (exitCell c) 0
    ∗ (bigSep Finset.univ fun k : Fin 30 => semVal (sendCell c k) 0) ∗ (bigSep Finset.univ fun k : Fin 30 => semVal (recvCell c k) 0))

def outAt (c : Dev nD) : (cc0_stg7_0 : Ref sig .tc).ty.Contents (Elt F) := Vals.outv (argsOf m) c

def dats (_ : Fin 1) (c : Dev nD) : Dat τ (Elt F) Unit ℕ UU ℕ cfg0 c where
  A w := m ((cfg0.win w).arr.view.loc (c : Thread nD τ))
  after w _ := match w with
    | ⟨0, _⟩ => (argsOf m c).x
    | ⟨1, _⟩ => (argsOf m c).w0
    | ⟨2, _⟩ => (argsOf m c).o0
    | ⟨3, _⟩ => (argsOf m c).w1
    | ⟨4, _⟩ => (argsOf m c).o1
    | ⟨5, _⟩ => (argsOf m c).w2
    | ⟨6, _⟩ => (argsOf m c).o2
    | ⟨7, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Proto

end
-- ==== Proof.Final.lean ====
import proofs.«900997_g7700000000000998_dist_mlpseq_tp1d_rep_rep_b128_d128_h256_v7x_i32_f32_1_alg».proof.Proof.Ghost

noncomputable section

namespace Cert.KernelIdeal.Proto

open Cert.KernelIdeal Cert.KernelIdeal.Gen Cert.Mlp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem argsOf_x (c : Dev nD) : (argsOf m c).x = m ((c : Thread nD τ).loc main_arg0) := by
  show (win0_0.blk (0 : Fin 1)).view.read (Elt F) (m ((c : Thread nD τ).loc main_arg0)) = _
  exact Memref.read_access_unit_zero (Elt F) main_arg0 (off := fun a => win0_0.index (0 : Fin 1) a * win0_0.size a)
    (funext fun _ => Nat.zero_mul _) _ _
theorem argsOf_w0 (c : Dev nD) : (argsOf m c).w0 = m ((c : Thread nD τ).loc main_arg1) := by
  show (win0_1.blk (0 : Fin 1)).view.read (Elt F) (m ((c : Thread nD τ).loc main_arg1)) = _
  exact Memref.read_access_unit_zero (Elt F) main_arg1 (off := fun a => win0_1.index (0 : Fin 1) a * win0_1.size a)
    (funext fun _ => Nat.zero_mul _) _ _
theorem argsOf_o0 (c : Dev nD) : (argsOf m c).o0 = m ((c : Thread nD τ).loc main_arg2) := by
  show (win0_2.blk (0 : Fin 1)).view.read (Elt F) (m ((c : Thread nD τ).loc main_arg2)) = _
  exact Memref.read_access_unit_zero (Elt F) main_arg2 (off := fun a => win0_2.index (0 : Fin 1) a * win0_2.size a)
    (funext fun _ => Nat.zero_mul _) _ _
theorem argsOf_w1 (c : Dev nD) : (argsOf m c).w1 = m ((c : Thread nD τ).loc main_arg3) := by
  show (win0_3.blk (0 : Fin 1)).view.read (Elt F) (m ((c : Thread nD τ).loc main_arg3)) = _
  exact Memref.read_access_unit_zero (Elt F) main_arg3 (off := fun a => win0_3.index (0 : Fin 1) a * win0_3.size a)
    (funext fun _ => Nat.zero_mul _) _ _
theorem argsOf_o1 (c : Dev nD) : (argsOf m c).o1 = m ((c : Thread nD τ).loc main_arg4) := by
  show (win0_4.blk (0 : Fin 1)).view.read (Elt F) (m ((c : Thread nD τ).loc main_arg4)) = _
  exact Memref.read_access_unit_zero (Elt F) main_arg4 (off := fun a => win0_4.index (0 : Fin 1) a * win0_4.size a)
    (funext fun _ => Nat.zero_mul _) _ _
theorem argsOf_w2 (c : Dev nD) : (argsOf m c).w2 = m ((c : Thread nD τ).loc main_arg5) := by
  show (win0_5.blk (0 : Fin 1)).view.read (Elt F) (m ((c : Thread nD τ).loc main_arg5)) = _
  exact Memref.read_access_unit_zero (Elt F) main_arg5 (off := fun a => win0_5.index (0 : Fin 1) a * win0_5.size a)
    (funext fun _ => Nat.zero_mul _) _ _
theorem argsOf_o2 (c : Dev nD) : (argsOf m c).o2 = m ((c : Thread nD τ).loc main_arg6) := by
  show (win0_6.blk (0 : Fin 1)).view.read (Elt F) (m ((c : Thread nD τ).loc main_arg6)) = _
  exact Memref.read_access_unit_zero (Elt F) main_arg6 (off := fun a => win0_6.index (0 : Fin 1) a * win0_6.size a)
    (funext fun _ => Nat.zero_mul _) _ _

theorem isOut_in (w : Fin cfg0.W) (hw : w.val < 7) : (cfg0.win w).isOut = false := by
  revert w; decide

theorem finalA_in (c : Dev nD) (w : Fin cfg0.W) (hw : w.val < 7) :
    (dats (F := F) m 0 c).arrAt w cfg0.N = m ((cfg0.win w).arr.view.loc (c : Thread nD τ)) :=
  (dats (F := F) m 0 c).arrAt_in w (isOut_in w hw) _

theorem finalA_out (c : Dev nD) :
    (dats (F := F) m 0 c).arrAt (7 : Fin 8) cfg0.N = (outAt m c : Buf (Elt F) ((c : Thread nD τ).loc main_v1)) := by
  have hf : (cfg0.win 7).flush t₀ = true := by decide +kernel
  have h := (dats (F := F) m 0 c).arrAt_succ (7 : Fin 8) t₀
  rw [hf, if_pos rfl] at h
  refine h.trans ?_
  exact Memref.write_access_unit_zero_univ (Elt F) main_v1 (off := fun a => win0_7.index t₀ a * win0_7.size a)
    (funext fun _ => Nat.zero_mul _) _ _ _

theorem run_named
    (h : θ_run defs (onTc (τ := τ) (main (F := F))) (s₀ m ρ) (fun r => ∀ c : Dev nD, ∀ w : Fin cfg0.W,
      r.2.mem ((cfg0.win w).arr.view.loc (c : Thread nD τ)) = (dats m 0 c).arrAt w cfg0.N)) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c 7).trans (finalA_out m c),
      (h c 0).trans (finalA_in m c 0 (by decide)),
      (h c 1).trans (finalA_in m c 1 (by decide)),
      (h c 2).trans (finalA_in m c 2 (by decide)),
      (h c 3).trans (finalA_in m c 3 (by decide)),
      (h c 4).trans (finalA_in m c 4 (by decide)),
      (h c 5).trans (finalA_in m c 5 (by decide)),
      (h c 6).trans (finalA_in m c 6 (by decide))⟩) h

theorem frame_of_run
    (h : θ_run defs (onTc (τ := τ) (main (F := F))) (s₀ m ρ) (fun r => ∀ c : Dev nD, ∀ w : Fin cfg0.W,
      r.2.mem ((cfg0.win w).arr.view.loc (c : Thread nD τ)) = (dats m 0 c).arrAt w cfg0.N)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_named m ρ h)

/-- info: 'Cert.KernelIdeal.Proto.run_named' depends on axioms: [propext, Classical.choice, Quot.sound] -/
#guard_msgs in #print axioms run_named

/-- info: 'Cert.KernelIdeal.Proto.frame_of_run' depends on axioms: [propext, Classical.choice, Quot.sound] -/
#guard_msgs in #print axioms frame_of_run

end Cert.KernelIdeal.Proto

end
-- ==== Proof.AllReduce.lean ====
import Mathlib.Algebra.BigOperators.Group.List.Basic
import Mathlib.Algebra.BigOperators.Fin
import proofs.«900997_g7700000000000998_dist_mlpseq_tp1d_rep_rep_b128_d128_h256_v7x_i32_f32_1_alg».proof.Proof.Partner

namespace Cert.Mlp

def cube (c : Fin 32) : List (Fin 32) :=
  [c, partner c 6, partner c 5, partner c 4, partner c 3, partner c 2, partner c 1, partner c 0]

def reach (c : Fin 32) : List (Fin 32) :=
  cube c ++ (cube (partner c 9) ++ (cube (partner c 8) ++ cube (partner c 7)))

theorem reach_perm : ∀ c : Fin 32, (reach c).Perm (List.finRange 32) := by decide

section Reduce

variable {M : Type} [AddCommMonoid M]

theorem red0_eq_sum (f : Fin 32 → M) (c : Fin 32) : red0 f c = ((cube c).map f).sum := by
  simp only [red0, cube, List.map_cons, List.map_nil, List.sum_cons, List.sum_nil, add_zero, add_assoc]

theorem red1_red0_eq_sum (f : Fin 32 → M) (c : Fin 32) :
    red1 (red0 f) c = ((reach c).map f).sum := by
  simp only [red1, red0_eq_sum, reach, List.map_append, List.sum_append, add_assoc]

theorem red_all (f : Fin 32 → M) (c : Fin 32) : red1 (red0 f) c = ∑ d : Fin 32, f d := by
  rw [red1_red0_eq_sum, Fin.sum_univ_def]
  exact ((reach_perm c).map f).sum_eq

theorem red0_apply {ι : Type} (f : Fin 32 → ι → M) (c : Fin 32) (i : ι) :
    red0 f c i = red0 (fun d => f d i) c := rfl

theorem red1_apply {ι : Type} (f : Fin 32 → ι → M) (c : Fin 32) (i : ι) :
    red1 f c i = red1 (fun d => f d i) c := rfl

end Reduce

end Cert.Mlp
-- ==== Proof.Spec.lean ====
import Idealize.ShloMosaic.Lib.ValueIdx
import Idealize.ShloMosaic.Lib.Layout
import Idealize.ShloMosaic.PureOps.Ideal.Laws

noncomputable section

open scoped BigOperators

namespace Cert.Mlp.Spec

open Idealize.ShloMosaic Idealize.ShloMosaic.ValueIdx

abbrev SX : Shape := ⟨2, ![128, 128]⟩

abbrev SWin : Shape := ⟨2, ![128, 8192]⟩

abbrev SWout : Shape := ⟨2, ![8192, 128]⟩

abbrev SWinB : Shape := ⟨2, ![128, 256]⟩

abbrev SWoutB : Shape := ⟨2, ![256, 128]⟩

def layerFull (x : FVec Ideal SX .f32) (Win : FVec Ideal SWin .f32) (Wout : FVec Ideal SWout .f32) :
    FVec Ideal SX .f32 := fun i =>
  ∑ k : Fin 8192, max (∑ d : Fin 128, x (ix2 (i 0) d) * Win (ix2 d k)) 0 * Wout (ix2 k (i 1))

def layerPart (x : FVec Ideal SX .f32) (Winc : FVec Ideal SWinB .f32) (Woutc : FVec Ideal SWoutB .f32) :
    FVec Ideal SX .f32 := fun i =>
  ∑ k : Fin 256, max (∑ d : Fin 128, x (ix2 (i 0) d) * Winc (ix2 d k)) 0 * Woutc (ix2 k (i 1))

def G (x : FVec Ideal SX .f32) (W0 : FVec Ideal SWin .f32) (O0 : FVec Ideal SWout .f32)
    (W1 : FVec Ideal SWin .f32) (O1 : FVec Ideal SWout .f32)
    (W2 : FVec Ideal SWin .f32) (O2 : FVec Ideal SWout .f32) : FVec Ideal SX .f32 :=
  layerFull (layerFull (layerFull x W0 O0) W1 O1) W2 O2

theorem layerFull_apply (x : FVec Ideal SX .f32) (Win : FVec Ideal SWin .f32) (Wout : FVec Ideal SWout .f32)
    (p q : Fin 128) :
    layerFull x Win Wout (ix2 p q)
      = ∑ k : Fin 8192, max (∑ d : Fin 128, x (ix2 p d) * Win (ix2 d k)) 0 * Wout (ix2 k q) := rfl

theorem layerPart_apply (x : FVec Ideal SX .f32) (Winc : FVec Ideal SWinB .f32) (Woutc : FVec Ideal SWoutB .f32)
    (p q : Fin 128) :
    layerPart x Winc Woutc (ix2 p q)
      = ∑ k : Fin 256, max (∑ d : Fin 128, x (ix2 p d) * Winc (ix2 d k)) 0 * Woutc (ix2 k q) := rfl

def hiddenEquiv : Fin 32 × Fin 256 ≃ Fin 8192 where
  toFun p := ⟨p.1.val * 256 + p.2.val, by have := p.1.isLt; have := p.2.isLt; omega⟩
  invFun k := (⟨k.val / 256, by have := k.isLt; omega⟩, ⟨k.val % 256, by omega⟩)
  left_inv := by
    rintro ⟨c, k⟩
    have := c.isLt; have := k.isLt
    refine Prod.ext (Fin.ext ?_) (Fin.ext ?_)
    · show (c.val * 256 + k.val) / 256 = c.val; omega
    · show (c.val * 256 + k.val) % 256 = k.val; omega
  right_inv := by
    intro k
    refine Fin.ext ?_
    show k.val / 256 * 256 + k.val % 256 = k.val; omega

theorem hiddenEquiv_val (c : Fin 32) (k : Fin 256) : (hiddenEquiv (c, k)).val = c.val * 256 + k.val := rfl

theorem sum_hidden {M : Type*} [AddCommMonoid M] (f : Fin 8192 → M) :
    ∑ k : Fin 8192, f k = ∑ c : Fin 32, ∑ k' : Fin 256, f (hiddenEquiv (c, k')) := by
  rw [← Equiv.sum_comp hiddenEquiv f, Fintype.sum_prod_type]

theorem win_block_idx (hW : Layout.Tiles SWinB SWin 1 32) (c : Fin 32) (d : Fin 128) (k : Fin 256) :
    hW.idx c (ix2 d k) = ix2 d (hiddenEquiv (c, k)) := by
  funext a
  match a with
  | ⟨0, _⟩ => exact Fin.ext (Layout.idx_cols_val hW c (ix2 d k)).1
  | ⟨1, _⟩ => exact Fin.ext (Layout.idx_cols_val hW c (ix2 d k)).2

theorem wout_block_idx (hO : Layout.Tiles SWoutB SWout 0 32) (c : Fin 32) (k : Fin 256) (q : Fin 128) :
    hO.idx c (ix2 k q) = ix2 (hiddenEquiv (c, k)) q := by
  funext a
  match a with
  | ⟨0, _⟩ => exact Fin.ext (Layout.idx_rows_val hO c (ix2 k q)).1
  | ⟨1, _⟩ => exact Fin.ext (Layout.idx_rows_val hO c (ix2 k q)).2

theorem layer_blocks (x : FVec Ideal SX .f32) (Win : FVec Ideal SWin .f32) (Wout : FVec Ideal SWout .f32)
    (hW : Layout.Tiles SWinB SWin 1 32) (hO : Layout.Tiles SWoutB SWout 0 32) :
    (fun i => ∑ c : Fin 32, layerPart x (Layout.block SWinB SWin 1 32 c Win hW)
        (Layout.block SWoutB SWout 0 32 c Wout hO) i)
      = layerFull x Win Wout := by
  funext i
  obtain ⟨p, q, rfl⟩ : ∃ (p q : Fin 128), i = ix2 p q := ⟨i 0, i 1, eq_ix2 i⟩
  show (∑ c : Fin 32, ∑ k : Fin 256,
      max (∑ d : Fin 128, x (ix2 p d) * Layout.block SWinB SWin 1 32 c Win hW (ix2 d k)) 0
        * Layout.block SWoutB SWout 0 32 c Wout hO (ix2 k q))
    = ∑ k : Fin 8192, max (∑ d : Fin 128, x (ix2 p d) * Win (ix2 d k)) 0 * Wout (ix2 k q)
  rw [sum_hidden]
  refine Finset.sum_congr rfl fun c _ => Finset.sum_congr rfl fun k _ => ?_
  simp only [Layout.block_apply, win_block_idx, wout_block_idx]

theorem layer_blocks' (x : FVec Ideal SX .f32) (Win : FVec Ideal SWin .f32) (Wout : FVec Ideal SWout .f32) :
    (fun i => ∑ c : Fin 32, layerPart x (Layout.block ⟨2, ![128, 256]⟩ ⟨2, ![128, 8192]⟩ 1 32 c Win)
        (Layout.block ⟨2, ![256, 128]⟩ ⟨2, ![8192, 128]⟩ 0 32 c Wout) i)
      = layerFull x Win Wout :=
  layer_blocks x Win Wout _ _

end Cert.Mlp.Spec

end
-- ==== Proof.ValsIdeal.lean ====
import proofs.«900997_g7700000000000998_dist_mlpseq_tp1d_rep_rep_b128_d128_h256_v7x_i32_f32_1_alg».proof.Proof.Vals
import proofs.«900997_g7700000000000998_dist_mlpseq_tp1d_rep_rep_b128_d128_h256_v7x_i32_f32_1_alg».proof.Proof.AllReduce
import proofs.«900997_g7700000000000998_dist_mlpseq_tp1d_rep_rep_b128_d128_h256_v7x_i32_f32_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.ValsIdeal

open Cert.KernelIdeal Cert.KernelIdeal.Gen Cert.KernelIdeal.Vals Cert.Mlp Cert.Mlp.Spec
open Idealize.ShloMosaic Idealize.ShloMosaic.ValueIdx Idealize.SL.Sem

theorem lhs_D1_0 (i : S128x256.Idx) (q : dot_S128x128_S128x256_S128x256_1_0_0_1_n_n.contr.Idx) :
    (dot_S128x128_S128x256_S128x256_1_0_0_1_n_n.lhsIdx i q 0).val = (i 0).val := by
  unfold DotDims.lhsIdx
  rw [dif_neg (show ¬(0 : Fin S128x128.rank) ∈ dot_S128x128_S128x256_S128x256_1_0_0_1_n_n.lhsBatch by decide), dif_pos (show (0 : Fin S128x128.rank) ∈ dot_S128x128_S128x256_S128x256_1_0_0_1_n_n.lhsNonContracting by decide)]
  rfl
theorem lhs_D1_1 (i : S128x256.Idx) (q : dot_S128x128_S128x256_S128x256_1_0_0_1_n_n.contr.Idx) :
    (dot_S128x128_S128x256_S128x256_1_0_0_1_n_n.lhsIdx i q 1).val = (q ⟨0, by decide⟩).val :=
  dot_S128x128_S128x256_S128x256_1_0_0_1_n_n.lhsIdx_val_of_single rfl i q
theorem rhs_D1_0 (i : S128x256.Idx) (q : dot_S128x128_S128x256_S128x256_1_0_0_1_n_n.contr.Idx) :
    (dot_S128x128_S128x256_S128x256_1_0_0_1_n_n.rhsIdx i q 0).val = (q ⟨0, by decide⟩).val :=
  dot_S128x128_S128x256_S128x256_1_0_0_1_n_n.rhsIdx_val_of_single rfl i q
theorem rhs_D1_1 (i : S128x256.Idx) (q : dot_S128x128_S128x256_S128x256_1_0_0_1_n_n.contr.Idx) :
    (dot_S128x128_S128x256_S128x256_1_0_0_1_n_n.rhsIdx i q 1).val = (i 1).val := by
  unfold DotDims.rhsIdx
  rw [dif_neg (show ¬(1 : Fin S128x256.rank) ∈ dot_S128x128_S128x256_S128x256_1_0_0_1_n_n.rhsBatch by decide), dif_pos (show (1 : Fin S128x256.rank) ∈ dot_S128x128_S128x256_S128x256_1_0_0_1_n_n.rhsNonContracting by decide)]
  rfl

theorem mm1_apply (a : FVec Ideal S128x128 .bf16) (b : FVec Ideal S128x256 .bf16) (p : Fin 128) (k : Fin 256) :
    matmul dot_S128x128_S128x256_S128x256_1_0_0_1_n_n none a b (constant S128x256 .f32 0x00000000#32) (ix2 p k)
      = ∑ d : Fin 128, a (ix2 p d) * b (ix2 d k) := by
  simp only [matmul]
  rw [Ideal.matmul_constant_zero_apply, ← Equiv.sum_comp (ValueIdx.contrEquiv1 dot_S128x128_S128x256_S128x256_1_0_0_1_n_n 128 rfl rfl).symm]
  refine Finset.sum_congr rfl fun d _ => ?_
  have hk := ValueIdx.contrEquiv1_symm_val dot_S128x128_S128x256_S128x256_1_0_0_1_n_n 128 rfl rfl d
  have el : dot_S128x128_S128x256_S128x256_1_0_0_1_n_n.lhsIdx (ix2 p k) ((ValueIdx.contrEquiv1 dot_S128x128_S128x256_S128x256_1_0_0_1_n_n 128 rfl rfl).symm d) = ix2 p d := funext fun a => Fin.ext (by
    match a with
    | ⟨0, _⟩ => exact lhs_D1_0 _ _
    | ⟨1, _⟩ => exact (lhs_D1_1 _ _).trans hk)
  have er : dot_S128x128_S128x256_S128x256_1_0_0_1_n_n.rhsIdx (ix2 p k) ((ValueIdx.contrEquiv1 dot_S128x128_S128x256_S128x256_1_0_0_1_n_n 128 rfl rfl).symm d) = ix2 d k := funext fun a => Fin.ext (by
    match a with
    | ⟨0, _⟩ => exact (rhs_D1_0 _ _).trans hk
    | ⟨1, _⟩ => exact rhs_D1_1 _ _)
  rw [el, er]

theorem lhs_D2_0 (i : S128x128.Idx) (q : dot_S128x256_S256x128_S128x128_1_0_0_1_n_n.contr.Idx) :
    (dot_S128x256_S256x128_S128x128_1_0_0_1_n_n.lhsIdx i q 0).val = (i 0).val := by
  unfold DotDims.lhsIdx
  rw [dif_neg (show ¬(0 : Fin S128x256.rank) ∈ dot_S128x256_S256x128_S128x128_1_0_0_1_n_n.lhsBatch by decide), dif_pos (show (0 : Fin S128x256.rank) ∈ dot_S128x256_S256x128_S128x128_1_0_0_1_n_n.lhsNonContracting by decide)]
  rfl
theorem lhs_D2_1 (i : S128x128.Idx) (q : dot_S128x256_S256x128_S128x128_1_0_0_1_n_n.contr.Idx) :
    (dot_S128x256_S256x128_S128x128_1_0_0_1_n_n.lhsIdx i q 1).val = (q ⟨0, by decide⟩).val :=
  dot_S128x256_S256x128_S128x128_1_0_0_1_n_n.lhsIdx_val_of_single rfl i q
theorem rhs_D2_0 (i : S128x128.Idx) (q : dot_S128x256_S256x128_S128x128_1_0_0_1_n_n.contr.Idx) :
    (dot_S128x256_S256x128_S128x128_1_0_0_1_n_n.rhsIdx i q 0).val = (q ⟨0, by decide⟩).val :=
  dot_S128x256_S256x128_S128x128_1_0_0_1_n_n.rhsIdx_val_of_single rfl i q
theorem rhs_D2_1 (i : S128x128.Idx) (q : dot_S128x256_S256x128_S128x128_1_0_0_1_n_n.contr.Idx) :
    (dot_S128x256_S256x128_S128x128_1_0_0_1_n_n.rhsIdx i q 1).val = (i 1).val := by
  unfold DotDims.rhsIdx
  rw [dif_neg (show ¬(1 : Fin S256x128.rank) ∈ dot_S128x256_S256x128_S128x128_1_0_0_1_n_n.rhsBatch by decide), dif_pos (show (1 : Fin S256x128.rank) ∈ dot_S128x256_S256x128_S128x128_1_0_0_1_n_n.rhsNonContracting by decide)]
  rfl

theorem mm2_apply (a : FVec Ideal S128x256 .bf16) (b : FVec Ideal S256x128 .bf16) (p q : Fin 128) :
    matmul dot_S128x256_S256x128_S128x128_1_0_0_1_n_n none a b (constant S128x128 .f32 0x00000000#32) (ix2 p q)
      = ∑ k : Fin 256, a (ix2 p k) * b (ix2 k q) := by
  simp only [matmul]
  rw [Ideal.matmul_constant_zero_apply, ← Equiv.sum_comp (ValueIdx.contrEquiv1 dot_S128x256_S256x128_S128x128_1_0_0_1_n_n 256 rfl rfl).symm]
  refine Finset.sum_congr rfl fun k _ => ?_
  have hk := ValueIdx.contrEquiv1_symm_val dot_S128x256_S256x128_S128x128_1_0_0_1_n_n 256 rfl rfl k
  have el : dot_S128x256_S256x128_S128x128_1_0_0_1_n_n.lhsIdx (ix2 p q) ((ValueIdx.contrEquiv1 dot_S128x256_S256x128_S128x128_1_0_0_1_n_n 256 rfl rfl).symm k) = ix2 p k := funext fun a => Fin.ext (by
    match a with
    | ⟨0, _⟩ => exact lhs_D2_0 _ _
    | ⟨1, _⟩ => exact (lhs_D2_1 _ _).trans hk)
  have er : dot_S128x256_S256x128_S128x128_1_0_0_1_n_n.rhsIdx (ix2 p q) ((ValueIdx.contrEquiv1 dot_S128x256_S256x128_S128x128_1_0_0_1_n_n 256 rfl rfl).symm k) = ix2 k q := funext fun a => Fin.ext (by
    match a with
    | ⟨0, _⟩ => exact (rhs_D2_0 _ _).trans hk
    | ⟨1, _⟩ => exact rhs_D2_1 _ _)
  rw [el, er]

theorem layer_apply (h : FVec Ideal S128x128 .bf16) (w : Vec Ideal S128x256 .f32) (o : Vec Ideal S256x128 .f32) (p q : Fin 128) :
    k0_pay9 (F := Ideal) h w o (ix2 p q)
      = ∑ k : Fin 256, max (∑ d : Fin 128, h (ix2 p d) * w (ix2 d k)) 0 * o (ix2 k q) := by
  unfold k0_pay9
  simp only [shapeCast_self]
  rw [mm2_apply]
  refine Finset.sum_congr rfl fun k _ => ?_
  rw [truncf_apply, maximumf_apply, mm1_apply, broadcast_apply, truncf_apply]
  simp only [truncf_apply]
  congr 2
  exact Ideal.ofBits_zero_f32

theorem pay9_eq (h : FVec Ideal S128x128 .bf16) (w : Vec Ideal S128x256 .f32) (o : Vec Ideal S256x128 .f32) :
    k0_pay9 (F := Ideal) h w o = layerPart h w o := by
  funext i
  obtain ⟨p, q, rfl⟩ : ∃ (p q : Fin 128), i = ix2 p q := ⟨i 0, i 1, eq_ix2 i⟩
  rw [layer_apply]; rfl

theorem pay1_eq (x : Vec Ideal S128x128 .f32) (w : Vec Ideal S128x256 .f32) (o : Vec Ideal S256x128 .f32) :
    k0_pay1 (F := Ideal) x w o = layerPart x w o := by
  have e : k0_pay1 (F := Ideal) x w o
      = k0_pay9 (truncf .bf16 (shapeCast S128x128 x shapeCasts_S128x128_S128x128) bitsLt_bf16_f32) w o := rfl
  rw [e, pay9_eq, shapeCast_self]; rfl

def flat (s : Vec Ideal S1x128x128 .bf16) : FVec Ideal S128x128 .f32 := fun i => s (ix3 (0 : Fin 1) (i 0) (i 1))

def lift (v : FVec Ideal S128x128 .f32) : Vec Ideal S1x128x128 .bf16 := fun j => v (ix2 (j 1) (j 2))

theorem flat_lift (v : FVec Ideal S128x128 .f32) : flat (lift v) = v :=
  funext fun i => congrArg v (eq_ix2 i).symm

theorem cast_flat (r : Vec Ideal S1x128x128 .bf16) (h : S1x128x128.ShapeCasts S128x128) :
    shapeCast S128x128 r h = flat r := by
  funext i
  obtain ⟨p, q, rfl⟩ : ∃ (p q : Fin 128), i = ix2 p q := ⟨i 0, i 1, eq_ix2 i⟩
  exact shapeCast_1ab_ab_apply r h p q

theorem cast_lift (v : FVec Ideal S128x128 .bf16) (h : S128x128.ShapeCasts S1x128x128) :
    shapeCast S1x128x128 v h = lift v := by
  funext j
  obtain ⟨u, p, q, rfl⟩ : ∃ (u : Fin 1) (p q : Fin 128), j = ix3 u p q := ⟨j 0, j 1, j 2, eq_ix3 j⟩
  exact shapeCast_ab_1ab_apply v h u p q

section Payloads
variable (a : FVec Ideal S128x128 .f32) (r r1 r2 r3 : Vec Ideal S1x128x128 .bf16)
variable (x : Vec Ideal S128x128 .f32) (h : FVec Ideal S128x128 .bf16) (w : Vec Ideal S128x256 .f32) (o : Vec Ideal S256x128 .f32)

theorem pay2_eq : k0_pay2 (F := Ideal) x w o = lift (k0_pay1 x w o) := by unfold k0_pay2; exact cast_lift _ _
theorem pay3_eq : k0_pay3 (F := Ideal) a r = a + flat r := by unfold k0_pay3; rw [cast_flat]; rfl
theorem pay4_eq : k0_pay4 (F := Ideal) a r1 r2 = a + flat r1 + flat r2 := by unfold k0_pay4; rw [cast_flat, cast_flat]; rfl
theorem pay5_eq : k0_pay5 (F := Ideal) a r1 r2 = a + flat r1 + flat r2 := by unfold k0_pay5; rw [cast_flat, cast_flat]; rfl
theorem pay6_eq : k0_pay6 (F := Ideal) a r1 r2 = a + flat r1 + flat r2 := by unfold k0_pay6; rw [cast_flat, cast_flat]; rfl
theorem pay7_eq : k0_pay7 (F := Ideal) a r1 r2 = lift (k0_pay6 a r1 r2) := by unfold k0_pay7; exact cast_lift _ _
theorem pay8_eq : k0_pay8 (F := Ideal) a r1 r2 r3 = a + flat r1 + flat r2 + flat r3 := by
  unfold k0_pay8; rw [cast_flat, cast_flat, cast_flat]; rfl
theorem pay10_eq : k0_pay10 (F := Ideal) h w o = lift (k0_pay9 h w o) := by unfold k0_pay10; exact cast_lift _ _
theorem pay11_eq : k0_pay11 (F := Ideal) a r1 r2 = a + flat r1 + flat r2 := by unfold k0_pay11; rw [cast_flat, cast_flat]; rfl
theorem pay12_eq : k0_pay12 (F := Ideal) a r1 r2 = a + flat r1 + flat r2 := by unfold k0_pay12; rw [cast_flat, cast_flat]; rfl
theorem pay13_eq : k0_pay13 (F := Ideal) a r1 r2 r3 = a + flat r1 + flat r2 + flat r3 := by
  unfold k0_pay13; rw [cast_flat, cast_flat, cast_flat]; rfl
theorem pay14_eq : k0_pay14 (F := Ideal) a r1 r2 r3 = k0_pay13 a r1 r2 r3 := rfl
theorem pay15_eq : k0_pay15 (F := Ideal) h = lift h := by unfold k0_pay15; rw [cast_lift]
theorem pay16_eq : k0_pay16 (F := Ideal) a r1 r2 = a + flat r1 + flat r2 := by unfold k0_pay16; rw [cast_flat, cast_flat]; rfl

theorem pay17_eq : k0_pay17 (F := Ideal) a r w o = layerPart (a + flat r) w o := by
  have e : k0_pay17 (F := Ideal) a r w o = k0_pay9 (truncf .bf16 (k0_pay3 a r) bitsLt_bf16_f32) w o := rfl
  rw [e, pay9_eq, pay3_eq]; rfl
theorem pay18_eq : k0_pay18 (F := Ideal) a r w o = lift (k0_pay17 a r w o) := by unfold k0_pay18; exact cast_lift _ _
theorem pay19_eq : k0_pay19 (F := Ideal) a r = a + flat r := by unfold k0_pay19; rw [cast_flat]; rfl
theorem pay20_eq : k0_pay20 (F := Ideal) a r1 r2 = a + flat r1 + flat r2 := by unfold k0_pay20; rw [cast_flat, cast_flat]; rfl
theorem pay21_eq : k0_pay21 (F := Ideal) r = flat r := by unfold k0_pay21; rw [cast_flat]
theorem pay22_eq : k0_pay22 (F := Ideal) a h r1 r2 = a + h + flat r1 + flat r2 := by
  unfold k0_pay22; rw [cast_flat, cast_flat]; rfl
theorem pay23_eq : k0_pay23 (F := Ideal) a r = a + flat r := by unfold k0_pay23; rw [cast_flat]; rfl
theorem pay24_eq : k0_pay24 (F := Ideal) a r = lift (k0_pay23 a r) := by unfold k0_pay24; exact cast_lift _ _
theorem pay25_eq : k0_pay25 (F := Ideal) a r = a + flat r := by unfold k0_pay25; rw [cast_flat]; rfl
theorem pay26_eq : k0_pay26 (F := Ideal) a r1 r2 = a + flat r1 + flat r2 := by unfold k0_pay26; rw [cast_flat, cast_flat]; rfl

end Payloads

variable (A : Dev nD → Args Ideal)

def part0 (c : Dev nD) : FVec Ideal S128x128 .f32 := layerPart (A c).x (A c).w0 (A c).o0

def out0 (c : Dev nD) : FVec Ideal S128x128 .f32 := red1 (red0 (part0 A)) c

def part1 (c : Dev nD) : FVec Ideal S128x128 .f32 := layerPart (out0 A c) (A c).w1 (A c).o1

def out1 (c : Dev nD) : FVec Ideal S128x128 .f32 := red1 (red0 (part1 A)) c

def part2 (c : Dev nD) : FVec Ideal S128x128 .f32 := layerPart (out1 A c) (A c).w2 (A c).o2

def out2 (c : Dev nD) : FVec Ideal S128x128 .f32 := red1 (red0 (part2 A)) c

theorem v907_eq (c : Dev nD) : v907 A c = part0 A c := pay1_eq _ _ _

theorem sent0_eq (c : Dev nD) : sent0 A c = lift (part0 A c) := by
  unfold sent0; rw [pay2_eq, pay1_eq]; rfl

theorem v1065_eq (c : Dev nD) : v1065 A c = red0 (part0 A) c := by
  unfold v1065 v1041 v1017 v993
  rw [pay6_eq, pay5_eq, pay4_eq, pay3_eq, v907_eq]
  simp only [sent0_eq, flat_lift]
  rfl

theorem sent1_eq (c : Dev nD) : sent1 A c = lift (red0 (part0 A) c) := by
  unfold sent1; rw [pay7_eq]; exact congrArg lift (v1065_eq A c)

theorem v1136_eq (c : Dev nD) : v1136 A c = out0 A c := by
  unfold v1136; rw [pay8_eq, v1065_eq]
  simp only [sent1_eq, flat_lift]
  rfl

theorem v1147_eq (c : Dev nD) : v1147 A c = part1 A c := by
  unfold v1147; rw [pay9_eq, v1136_eq]; rfl

theorem sent2_eq (c : Dev nD) : sent2 A c = lift (part1 A c) := by
  unfold sent2; rw [pay10_eq]; exact congrArg lift (v1147_eq A c)

theorem v1305_eq (c : Dev nD) : v1305 A c = red0 (part1 A) c := by
  unfold v1305 v1269 v1245
  rw [pay13_eq, pay12_eq, pay11_eq, v1147_eq]
  simp only [sent2_eq, flat_lift]
  rfl

theorem sent3_eq (c : Dev nD) : sent3 A c = lift (red0 (part1 A) c) := by
  unfold sent3 v1306; rw [pay15_eq, pay14_eq]; exact congrArg lift (v1305_eq A c)

theorem v1387_eq (c : Dev nD) : v1387 A c = part2 A c := by
  unfold v1387 v1363
  rw [pay17_eq, pay16_eq, v1305_eq]
  simp only [sent3_eq, flat_lift]
  rfl

theorem sent4_eq (c : Dev nD) : sent4 A c = lift (part2 A c) := by
  unfold sent4; rw [pay18_eq]; exact congrArg lift (v1387_eq A c)

theorem v1545_eq (c : Dev nD) : v1545 A c = red0 (part2 A) c := by
  unfold v1545 v1533 v1507 v1497 v1473
  rw [pay23_eq, pay22_eq, pay21_eq, pay20_eq, pay19_eq, v1387_eq]
  simp only [sent4_eq, flat_lift]
  rfl

theorem sent5_eq (c : Dev nD) : sent5 A c = lift (red0 (part2 A) c) := by
  unfold sent5; rw [pay24_eq]; exact congrArg lift (v1545_eq A c)

theorem outv_eq (c : Dev nD) : outv A c = out2 A c := by
  unfold outv v1591
  rw [pay26_eq, pay25_eq, v1545_eq]
  simp only [sent5_eq, flat_lift]
  rfl

theorem out0_eq_sum (c : Dev nD) : out0 A c = ∑ d : Fin 32, part0 A d := red_all _ c
theorem out1_eq_sum (c : Dev nD) : out1 A c = ∑ d : Fin 32, part1 A d := red_all _ c
theorem out2_eq_sum (c : Dev nD) : out2 A c = ∑ d : Fin 32, part2 A d := red_all _ c

theorem outv_eq_G (x : FVec Ideal SX .f32) (W0 : FVec Ideal SWin .f32) (O0 : FVec Ideal SWout .f32)
    (W1 : FVec Ideal SWin .f32) (O1 : FVec Ideal SWout .f32) (W2 : FVec Ideal SWin .f32) (O2 : FVec Ideal SWout .f32)
    (hx : ∀ c, (A c).x = x)
    (hw0 : ∀ c, (A c).w0 = Layout.block ⟨2, ![128, 256]⟩ ⟨2, ![128, 8192]⟩ 1 32 c W0)
    (ho0 : ∀ c, (A c).o0 = Layout.block ⟨2, ![256, 128]⟩ ⟨2, ![8192, 128]⟩ 0 32 c O0)
    (hw1 : ∀ c, (A c).w1 = Layout.block ⟨2, ![128, 256]⟩ ⟨2, ![128, 8192]⟩ 1 32 c W1)
    (ho1 : ∀ c, (A c).o1 = Layout.block ⟨2, ![256, 128]⟩ ⟨2, ![8192, 128]⟩ 0 32 c O1)
    (hw2 : ∀ c, (A c).w2 = Layout.block ⟨2, ![128, 256]⟩ ⟨2, ![128, 8192]⟩ 1 32 c W2)
    (ho2 : ∀ c, (A c).o2 = Layout.block ⟨2, ![256, 128]⟩ ⟨2, ![8192, 128]⟩ 0 32 c O2) :
    ∀ c, outv A c = G x W0 O0 W1 O1 W2 O2 := by
  have sum_fn : ∀ f : Fin 32 → FVec Ideal S128x128 .f32, (∑ d, f d) = fun i => ∑ d, f d i :=
    fun f => funext fun i => Finset.sum_apply i _ f
  have h0 : ∀ c, out0 A c = layerFull x W0 O0 := fun c => by
    rw [out0_eq_sum, sum_fn, ← layer_blocks' x W0 O0]
    funext i; refine Finset.sum_congr rfl fun d _ => ?_
    unfold part0; rw [hx, hw0, ho0]
  have h1 : ∀ c, out1 A c = layerFull (layerFull x W0 O0) W1 O1 := fun c => by
    rw [out1_eq_sum, sum_fn, ← layer_blocks' _ W1 O1]
    funext i; refine Finset.sum_congr rfl fun d _ => ?_
    unfold part1; rw [h0, hw1, ho1]
  have h2 : ∀ c, out2 A c = layerFull (layerFull (layerFull x W0 O0) W1 O1) W2 O2 := fun c => by
    rw [out2_eq_sum, sum_fn, ← layer_blocks' _ W2 O2]
    funext i; refine Finset.sum_congr rfl fun d _ => ?_
    unfold part2; rw [h1, hw2, ho2]
  intro c
  rw [outv_eq, h2]; rfl

end Cert.KernelIdeal.ValsIdeal
-- ==== Proof.RefValue.lean ====
import proofs.«900997_g7700000000000998_dist_mlpseq_tp1d_rep_rep_b128_d128_h256_v7x_i32_f32_1_alg».proof.Defs
import proofs.«900997_g7700000000000998_dist_mlpseq_tp1d_rep_rep_b128_d128_h256_v7x_i32_f32_1_alg».proof.Proof.Gen.ReferenceIdeal
import proofs.«900997_g7700000000000998_dist_mlpseq_tp1d_rep_rep_b128_d128_h256_v7x_i32_f32_1_alg».proof.Proof.Gen.ReferenceIdeal.Run
import proofs.«900997_g7700000000000998_dist_mlpseq_tp1d_rep_rep_b128_d128_h256_v7x_i32_f32_1_alg».proof.Proof.Gen.ReferenceIdeal.Read
import proofs.«900997_g7700000000000998_dist_mlpseq_tp1d_rep_rep_b128_d128_h256_v7x_i32_f32_1_alg».proof.Proof.Gen.Pre_finite_inputs_ReferenceIdeal
import proofs.«900997_g7700000000000998_dist_mlpseq_tp1d_rep_rep_b128_d128_h256_v7x_i32_f32_1_alg».proof.Proof.Partner
import proofs.«900997_g7700000000000998_dist_mlpseq_tp1d_rep_rep_b128_d128_h256_v7x_i32_f32_1_alg».proof.Proof.Spec

noncomputable section

open Idealize.ShloMosaic Idealize.ShloMosaic.TcCoe Idealize.SL.Sem
open scoped BigOperators

namespace Cert.ReferenceIdeal.RefValue

open Cert.ReferenceIdeal Cert.ReferenceIdeal.Gen Idealize.ShloMosaic.ValueIdx

theorem layer_is (y : FVec Ideal S128x128 .f32) (W : FVec Ideal S128x8192 .f32) (O : FVec Ideal S8192x128 .f32) :
    Read.val_main_v3 (F := Ideal) y W O = Mlp.Spec.layerFull y W O := by
  funext i
  obtain ⟨p, q, rfl⟩ : ∃ (p q : Fin 128), i = ix2 p q := ⟨i 0, i 1, eq_ix2 i⟩
  rw [Read.val_main_v3_apply, Mlp.Spec.layerFull_apply]
  refine Finset.sum_congr rfl fun k _ => ?_
  have e3 : Read.ridx_main_v3 (ix2 p q) k = ix2 k q :=
    funext fun a => Fin.ext (by match a with | ⟨0, _⟩ => rfl | ⟨1, _⟩ => rfl)
  have e1 : ∀ d : Fin 128, Read.lidx_main_v0 (Read.lidx_main_v3 (ix2 p q) k) d = ix2 p d := fun d =>
    funext fun a => Fin.ext (by match a with | ⟨0, _⟩ => rfl | ⟨1, _⟩ => rfl)
  have e2 : ∀ d : Fin 128, Read.ridx_main_v0 (Read.lidx_main_v3 (ix2 p q) k) d = ix2 d k := fun d =>
    funext fun a => Fin.ext (by match a with | ⟨0, _⟩ => rfl | ⟨1, _⟩ => rfl)
  rw [Read.val_main_v2_apply, Read.val_main_v0_apply, Read.val_main_v1_apply, Read.val_main_cst_apply,
    Ideal.maximumf_def, Ideal.ofBits_def, Ideal.ofBits_zero_f32, e3]
  refine congrArg (fun t => max t 0 * O (ix2 k q)) (Finset.sum_congr rfl fun d _ => ?_)
  rw [e1, e2]

theorem val_three (x0 : FVec Ideal S128x128 .f32) (x1 : FVec Ideal S128x8192 .f32) (x2 : FVec Ideal S8192x128 .f32)
    (x3 : FVec Ideal S128x8192 .f32) (x4 : FVec Ideal S8192x128 .f32)
    (x5 : FVec Ideal S128x8192 .f32) (x6 : FVec Ideal S8192x128 .f32) :
    Read.val_main_v11 (F := Ideal) x0 x1 x2 x3 x4 x5 x6
      = Read.val_main_v3 (F := Ideal) (Read.val_main_v3 (F := Ideal) (Read.val_main_v3 (F := Ideal) x0 x1 x2) x3 x4) x5 x6 := rfl

theorem ref_is_G (x0 : FVec Ideal S128x128 .f32) (x1 : FVec Ideal S128x8192 .f32) (x2 : FVec Ideal S8192x128 .f32)
    (x3 : FVec Ideal S128x8192 .f32) (x4 : FVec Ideal S8192x128 .f32)
    (x5 : FVec Ideal S128x8192 .f32) (x6 : FVec Ideal S8192x128 .f32) :
    Read.val_main_v11 (F := Ideal) x0 x1 x2 x3 x4 x5 x6 = Mlp.Spec.G x0 x1 x2 x3 x4 x5 x6 := by
  rw [val_three, layer_is, layer_is, layer_is]
  rfl

theorem frame_ri : Cert.frame_ReferenceIdeal := fun m ρ _ =>
  (θ_run Cert.ReferenceIdeal.defs _ _).mono (fun _ h c => (h c).2) (Cert.ReferenceIdeal.Value.run (F := Ideal) m ρ)

theorem run_G (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r =>
      r.2.mem (((0 : Dev Cert.ReferenceIdeal.nD).tc : Thread Cert.ReferenceIdeal.nD Cert.ReferenceIdeal.τ).loc Cert.ReferenceIdeal.main_v11)
        = Mlp.Spec.G
            (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))
            (m' (((0 : Dev Cert.ReferenceIdeal.nD).tc : Thread Cert.ReferenceIdeal.nD Cert.ReferenceIdeal.τ).loc Cert.ReferenceIdeal.main_arg2))
            (m' (((0 : Dev Cert.ReferenceIdeal.nD).tc : Thread Cert.ReferenceIdeal.nD Cert.ReferenceIdeal.τ).loc Cert.ReferenceIdeal.main_arg3))
            (m' (((0 : Dev Cert.ReferenceIdeal.nD).tc : Thread Cert.ReferenceIdeal.nD Cert.ReferenceIdeal.τ).loc Cert.ReferenceIdeal.main_arg4))
            (m' (((0 : Dev Cert.ReferenceIdeal.nD).tc : Thread Cert.ReferenceIdeal.nD Cert.ReferenceIdeal.τ).loc Cert.ReferenceIdeal.main_arg5))
            (m' (((0 : Dev Cert.ReferenceIdeal.nD).tc : Thread Cert.ReferenceIdeal.nD Cert.ReferenceIdeal.τ).loc Cert.ReferenceIdeal.main_arg6))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
      ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
      ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
      ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
      ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
      ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)) :=
  (θ_run Cert.ReferenceIdeal.defs _ _).mono
    (fun _ h => ⟨(h 0).1.trans ((Read.val_main_v11_eq _ _ _ _ _ _ _).trans (ref_is_G _ _ _ _ _ _ _)), (h 0).2⟩)
    (Cert.ReferenceIdeal.Value.run (F := Ideal) m' ρ')

end Cert.ReferenceIdeal.RefValue

end
-- ==== Proof.ClaimsIdeal.lean ====
import proofs.«900997_g7700000000000998_dist_mlpseq_tp1d_rep_rep_b128_d128_h256_v7x_i32_f32_1_alg».proof.Proof.Final
import proofs.«900997_g7700000000000998_dist_mlpseq_tp1d_rep_rep_b128_d128_h256_v7x_i32_f32_1_alg».proof.Proof.ValsIdeal
import proofs.«900997_g7700000000000998_dist_mlpseq_tp1d_rep_rep_b128_d128_h256_v7x_i32_f32_1_alg».proof.Proof.RefValue
import proofs.«900997_g7700000000000998_dist_mlpseq_tp1d_rep_rep_b128_d128_h256_v7x_i32_f32_1_alg».proof.Proof.Spec
import proofs.«900997_g7700000000000998_dist_mlpseq_tp1d_rep_rep_b128_d128_h256_v7x_i32_f32_1_alg».proof.Proof.Gen.Pre_finite_inputs_Kernel
import proofs.«900997_g7700000000000998_dist_mlpseq_tp1d_rep_rep_b128_d128_h256_v7x_i32_f32_1_alg».proof.Proof.Gen.Pre_finite_inputs_ReferenceIdeal
import proofs.«900997_g7700000000000998_dist_mlpseq_tp1d_rep_rep_b128_d128_h256_v7x_i32_f32_1_alg».proof.Defs

noncomputable section

namespace Cert.KernelIdeal.Proto

open Cert.KernelIdeal Cert.KernelIdeal.Gen Cert.Mlp

open Idealize.ShloMosaic
open Idealize.ShloMosaic.TcCoe
open Idealize.SL.Sem
open Idealize.ShloMosaic.Pipeline (Dat Cfg Window)

abbrev RunsIdeal : Prop :=
  ∀ (m : (ℓ : Loc nD τ sig) → Buf (Elt Ideal) ℓ) (ρ : Dev nD → PrngReg),
    θ_run defs (onTc (τ := τ) (main (F := Ideal))) (s₀ m ρ) (fun r => ∀ c : Dev nD, ∀ w : Fin cfg0.W,
      r.2.mem ((cfg0.win w).arr.view.loc (c : Thread nD τ)) = (dats m 0 c).arrAt w cfg0.N)

theorem frame_pi_of (hrun : RunsIdeal) : Cert.frame_KernelIdeal :=
  fun m g _ => frame_of_run m g (hrun m g)

abbrev ValueIsG : Prop :=
  ∀ (A : Dev nD → Vals.Args Ideal) (x : FVec Ideal Spec.SX .f32) (W0 : FVec Ideal Spec.SWin .f32) (O0 : FVec Ideal Spec.SWout .f32)
    (W1 : FVec Ideal Spec.SWin .f32) (O1 : FVec Ideal Spec.SWout .f32) (W2 : FVec Ideal Spec.SWin .f32) (O2 : FVec Ideal Spec.SWout .f32),
    (∀ c, (A c).x = x) →
    (∀ c, (A c).w0 = Layout.block ⟨2, ![128, 256]⟩ ⟨2, ![128, 8192]⟩ 1 32 c W0) →
    (∀ c, (A c).o0 = Layout.block ⟨2, ![256, 128]⟩ ⟨2, ![8192, 128]⟩ 0 32 c O0) →
    (∀ c, (A c).w1 = Layout.block ⟨2, ![128, 256]⟩ ⟨2, ![128, 8192]⟩ 1 32 c W1) →
    (∀ c, (A c).o1 = Layout.block ⟨2, ![256, 128]⟩ ⟨2, ![8192, 128]⟩ 0 32 c O1) →
    (∀ c, (A c).w2 = Layout.block ⟨2, ![128, 256]⟩ ⟨2, ![128, 8192]⟩ 1 32 c W2) →
    (∀ c, (A c).o2 = Layout.block ⟨2, ![256, 128]⟩ ⟨2, ![8192, 128]⟩ 0 32 c O2) →
    ∀ c, Vals.outv A c = Spec.G x W0 O0 W1 O1 W2 O2

theorem valueIsG : ValueIsG := fun A x W0 O0 W1 O1 W2 O2 hx hw0 ho0 hw1 ho1 hw2 ho2 =>
  ValsIdeal.outv_eq_G A x W0 O0 W1 O1 W2 O2 hx hw0 ho0 hw1 ho1 hw2 ho2

theorem algebraic_of_val (hrun : RunsIdeal) (hval : ValueIsG) : Cert.algebraic_KernelIdeal_ReferenceIdeal := by
  intro m g m' g' _ hag
  refine ⟨Mlp.Spec.G (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg6)),
    ?_, Cert.ReferenceIdeal.RefValue.run_G m' g'⟩
  refine (θ_run defs _ _).mono (fun r h c => ⟨(h c).1.trans ?_, (h c).2⟩) (run_named m g (hrun m g))
  exact hval (argsOf m) _ _ _ _ _ _ _
    (fun d => (argsOf_x m d).trans (hag d).1)
    (fun d => (argsOf_w0 m d).trans (hag d).2.1)
    (fun d => (argsOf_o0 m d).trans (hag d).2.2.1)
    (fun d => (argsOf_w1 m d).trans (hag d).2.2.2.1)
    (fun d => (argsOf_o1 m d).trans (hag d).2.2.2.2.1)
    (fun d => (argsOf_w2 m d).trans (hag d).2.2.2.2.2.1)
    (fun d => (argsOf_o2 m d).trans (hag d).2.2.2.2.2.2) c

theorem algebraic_of (hrun : RunsIdeal) : Cert.algebraic_KernelIdeal_ReferenceIdeal := algebraic_of_val hrun valueIsG

/-- info: 'Cert.KernelIdeal.Proto.frame_pi_of' depends on axioms: [propext, Classical.choice, Quot.sound] -/
#guard_msgs in #print axioms frame_pi_of

/-- info: 'Cert.KernelIdeal.Proto.algebraic_of' depends on axioms: [propext, Classical.choice, Quot.sound] -/
#guard_msgs in #print axioms algebraic_of

end Cert.KernelIdeal.Proto

end
-- ==== Proof.Launch.lean ====
import proofs.«900997_g7700000000000998_dist_mlpseq_tp1d_rep_rep_b128_d128_h256_v7x_i32_f32_1_alg».proof.Proof.Ghost
import Mathlib.Algebra.BigOperators.Intervals

noncomputable section

namespace Cert.KernelIdeal.Proto

open Cert.KernelIdeal Cert.KernelIdeal.Gen Cert.Mlp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev OwnIx : Type := Unit ⊕ (Fin 30 ⊕ Fin 30)

abbrev osem : OwnIx → SemLoc sig
  | .inl _ => .reg exitS
  | .inr (.inl k) => .dma (sendSem k)
  | .inr (.inr k) => .dma (recvSem k)

theorem ownSemFacts : Pipeline.OwnSemFacts cfg0.spec osem := by decide

theorem share_eq (c : Dev nD) (w : Fin cfg0.W) : (dats m 0 c).share w = fullShare := by unfold Dat.share; split <;> rfl

def ckEquiv : Unit ⊕ (Unit ⊕ (Fin 30 ⊕ Fin 30)) ≃ CK where
  toFun
    | .inl _ => .bar
    | .inr (.inl _) => .exit
    | .inr (.inr (.inl k)) => .send k
    | .inr (.inr (.inr k)) => .recv k
  invFun
    | .bar => .inl ()
    | .exit => .inr (.inl ())
    | .send k => .inr (.inr (.inl k))
    | .recv k => .inr (.inr (.inr k))
  left_inv := by rintro (_ | _ | k | k) <;> rfl
  right_inv := by rintro (_ | _ | k | k) <;> rfl

theorem bigSep_CK (Φ : CK → sProp 𝕄) : bigSep Finset.univ Φ
    = iprop(Φ .bar ∗ Φ .exit ∗ (bigSep Finset.univ fun k : Fin 30 => Φ (.send k)) ∗ (bigSep Finset.univ fun k : Fin 30 => Φ (.recv k))) := by
  rw [bigSep_univ_equiv ckEquiv Φ, bigSep_univ_sum, bigSep_univ_sum, bigSep_univ_sum, bigSep_univ_of_subsingleton (),
    bigSep_univ_of_subsingleton ()]
  rfl

def ringCells : Finset (GSem nD τ sig) := Finset.univ.map ⟨kcell, kcell_injective⟩

abbrev TK : Type := Fin 10 ⊕ (Fin 10 ⊕ (Fin 30 ⊕ Fin 30))

def tkCell : TK → CK
  | .inl _ => .bar
  | .inr (.inl _) => .exit
  | .inr (.inr (.inl k)) => .send k
  | .inr (.inr (.inr k)) => .recv k
def tkDuty : TK → Fin 10
  | .inl j => j
  | .inr (.inl j) => j
  | .inr (.inr _) => 0

theorem tk_ext : ∀ t t' : TK, tkCell t = tkCell t' → tkDuty t = tkDuty t' → t = t' := by
  rintro (j | j | k | k) (j' | j' | k' | k') h1 h2
  all_goals first
    | exact congrArg Sum.inl h2
    | exact congrArg (fun j => Sum.inr (Sum.inl j)) h2
    | exact congrArg (fun k => Sum.inr (Sum.inr (Sum.inl k))) (CK.send.inj h1)
    | exact congrArg (fun k => Sum.inr (Sum.inr (Sum.inr k))) (CK.recv.inj h1)
    | exact absurd h1 (by simp [tkCell])

abbrev tokOf (ct : Dev nD × TK) : GSem nD τ sig × ℕ × Fin 10 := (kcell (ct.1, tkCell ct.2), 0, tkDuty ct.2)

theorem tokOf_injective : Function.Injective (tokOf : Dev nD × TK → GSem nD τ sig × ℕ × Fin 10) := by
  rintro ⟨c, t⟩ ⟨c', t'⟩ h
  have h1 : (c, tkCell t) = (c', tkCell t') := kcell_injective (congrArg (fun x : GSem nD τ sig × ℕ × Fin 10 => x.1) h)
  have h2 : tkDuty t = tkDuty t' := congrArg (fun x : GSem nD τ sig × ℕ × Fin 10 => x.2.2) h
  obtain ⟨h0, h3⟩ := Prod.mk.inj h1
  subst h0
  rw [tk_ext t t' h3 h2]

def ringToks : Finset (GSem nD τ sig × ℕ × Fin 10) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop((bigSep Finset.univ fun j : Fin 10 => dutyTok ER (barCell c) 0 j)
    ∗ (bigSep Finset.univ fun j : Fin 10 => dutyTok ER (exitCell c) 0 j)
    ∗ (bigSep Finset.univ fun k : Fin 30 => dutyTok ER (sendCell c k) 0 (0 : Fin 10))
    ∗ (bigSep Finset.univ fun k : Fin 30 => dutyTok ER (recvCell c k) 0 (0 : Fin 10)))

def G (c : Dev nD) : sProp 𝕄 :=
  iprop((bigSep Finset.univ fun k : CK => roundState ER (RdK m) (kcell (c, k)) 0)
    ∗ (bigSep Finset.univ fun k : CK => iprop(atPos ER (kcell (c, k)) 0 ∅ 0 ∗ reached ER (kcell (c, k)) 0)) ∗ toks c)

def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum, bigSep_univ_sum]; rfl
  iintro HX
  imod (Rounds.fund ER (RdK m) ringCells ringToks) $$ HX with ⟨Hst, Hr, Hat, Htok⟩
  imodintro
  ihave Hst' := (Entails.of_eq (hX fun g => roundState ER (RdK m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (exitCell c) 0 ∗ (bigSep Finset.univ fun k : Fin 30 => semVal (sendCell c k) 0)
        ∗ (bigSep Finset.univ fun k : Fin 30 => semVal (recvCell c k) 0)) := by
  unfold Pipeline.ownSems0
  rw [bigSep_univ_sum, bigSep_univ_sum, bigSep_univ_of_subsingleton ()]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HE, HS, HV⟩, HB⟩
  isplitl [HB]; · iexact HB
  isplitl [HE]; · iexact HE
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (RdK m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (RdK m) (kcell (c, k)) 0)
      ⊢ (|={Set.univ}=> bigSep Finset.univ fun k : CK => iprop(∃ κ : ℕ, cellInv ER (RdK m) κ (kcell (c, k))) : sProp 𝕄) from by
        rw [← bigSep_sep']
        exact (bigSep_mono fun k _ => (Rounds.body_intro ER (RdK m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def dealEquiv {J : Type} (f : J → Fin 10) : Dev nD × J ≃ Dev nD × J where
  toFun p := (partner p.1 (f p.2), p.2)
  invFun p := (partner p.1 (f p.2), p.2)
  left_inv := fun ⟨c, k⟩ => by simp only [partner_partner]
  right_inv := fun ⟨c, k⟩ => by simp only [partner_partner]

theorem deal {J : Type} [Fintype J] (f : J → Fin 10) (Φ : Dev nD → J → sProp 𝕄) :
    (bigSep Finset.univ fun c : Dev nD => bigSep Finset.univ fun k : J => Φ c k)
      = bigSep Finset.univ fun c : Dev nD => bigSep Finset.univ fun k : J => Φ (partner c (f k)) k := by
  have h1 := bigSep_univ_prod (fun p : Dev nD × J => Φ p.1 p.2)
  have h2 := bigSep_univ_prod (fun p : Dev nD × J => Φ (partner p.1 (f p.2)) p.2)
  have h3 := bigSep_univ_equiv (dealEquiv f) (fun p : Dev nD × J => Φ p.1 p.2)
  exact h1.symm.trans (h3.trans h2)

theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    deal (fun j => j) (fun c j => (dutyTok ER (barCell c) 0 j : sProp 𝕄)),
    deal (fun j => j) (fun c j => (dutyTok ER (exitCell c) 0 j : sProp 𝕄)),
    deal jOf (fun c k => (dutyTok ER (recvCell c k) 0 (0 : Fin 10) : sProp 𝕄))]
  iintro ⟨H1, H2, H3, H4⟩
  isplitl [H1]; · iexact H1
  isplitl [H4]; · iexact H4
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ownPos_eq (c : Dev nD) : (ownPos c : sProp 𝕄) = bigSep Finset.univ fun k : CK => atPos ER (kcell (c, k)) 0 ∅ 0 := by
  unfold ownPos; rw [bigSep_CK]; rfl

theorem ghost_intro (K : Dev nD × CK → ℕ) (c : Dev nD) : iprop(records m K ∗ ownPos c ∗ payToks c) ⊢ G' m c := by
  unfold G' ghost
  iintro H
  iexists K
  iexact H

theorem regroup :
    (bigSep Finset.univ fun c : Dev nD => iprop((bigSep Finset.univ fun k : CK => iprop(∃ κ : ℕ, cellInv ER (RdK m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (RdK m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (RdK m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ iprop(ownPos c ∗ payToks c) from Entails.of_eq (by rw [ownPos_eq])))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

def Tc (c : Dev nD) : CellTallies nD τ sig Unit :=
  tallyAt (barCell c) () 10 + (∑ k : Fin 30, tallyAt (recvCell c k) () N) + tallyAt (exitCell c) () 10

theorem nsmul_tallyAt (g : GSem nD τ sig) (n k : ℕ) : n • (tallyAt g () k : CellTallies nD τ sig Unit) = tallyAt g () (n * k) := by
  induction n with
  | zero => rw [zero_nsmul, Nat.zero_mul, tallyAt_zero]
  | succ n ih => rw [succ_nsmul, ih, tallyAt_add, Nat.succ_mul]

theorem owedK_eq (d : Dev nD) (n : ℕ) :
    owedK d n = ∑ i ∈ Finset.range n, (tallyAt (payCell d (49 - i)) () (payAmt (49 - i)) : CellTallies nD τ sig Unit) := by
  induction n with
  | zero => rfl
  | succ n ih => rw [owedK_succ, ih, Finset.sum_range_succ]

theorem O₀_eq_range (d : Dev nD) : O₀ d = ∑ i ∈ Finset.range 50, (tallyAt (payCell d i) () (payAmt i) : CellTallies nD τ sig Unit) := by
  unfold O₀; rw [owedK_eq]
  exact Finset.sum_range_reflect (fun i => (tallyAt (payCell d i) () (payAmt i) : CellTallies nD τ sig Unit)) 50

theorem O₀_eq (d : Dev nD) : O₀ d
    = (∑ j : Fin 10, (tallyAt (barCell (partner d j)) () 1 : CellTallies nD τ sig Unit))
      + (∑ k : Fin 30, tallyAt (recvCell (partner d (jOf k)) k) () N)
      + ∑ j : Fin 10, tallyAt (exitCell (partner d j)) () 1 := by
  have hbar (j : Fin 10) : payCell d j.val = barCell (partner d j) := by
    unfold payCell; rw [if_pos j.isLt, show mk10 j.val = j from Fin.ext (Nat.mod_eq_of_lt j.isLt)]
  have hbarA (j : Fin 10) : payAmt j.val = 1 := if_neg (by have := j.isLt; omega)
  have hrecv (k : Fin 30) : payCell d (10 + k.val) = recvCell (partner d (jOf k)) k := by
    unfold payCell
    rw [if_neg (by omega), if_pos (by have := k.isLt; omega), Nat.add_sub_cancel_left,
      show mk30 k.val = k from Fin.ext (Nat.mod_eq_of_lt k.isLt), show mk10 k.val = jOf k from rfl]
  have hrecvA (k : Fin 30) : payAmt (10 + k.val) = N := if_pos ⟨by omega, by have := k.isLt; omega⟩
  have hexit (j : Fin 10) : payCell d (10 + 30 + j.val) = exitCell (partner d j) := by
    unfold payCell
    rw [if_neg (by omega), if_neg (by omega), show 10 + 30 + j.val - 40 = j.val from by omega,
      show mk10 j.val = j from Fin.ext (Nat.mod_eq_of_lt j.isLt)]
  have hexitA (j : Fin 10) : payAmt (10 + 30 + j.val) = 1 := if_neg (by omega)
  rw [O₀_eq_range, show (50 : ℕ) = 10 + 30 + 10 from rfl, Finset.sum_range_add, Finset.sum_range_add, Finset.sum_range, Finset.sum_range,
    Finset.sum_range]
  simp only [hbar, hbarA, hrecv, hrecvA, hexit, hexitA]

theorem sum_O₀ : ∑ d : Dev nD, O₀ d = ∑ d : Dev nD, Tc d := by
  have hb (j : Fin 10) : ∑ d : Dev nD, (tallyAt (barCell (partner d j)) () 1 : CellTallies nD τ sig Unit) = ∑ d : Dev nD, tallyAt (barCell d) () 1 :=
    Equiv.sum_comp (partnerEquiv j) (fun d => (tallyAt (barCell d) () 1 : CellTallies nD τ sig Unit))
  have he (j : Fin 10) : ∑ d : Dev nD, (tallyAt (exitCell (partner d j)) () 1 : CellTallies nD τ sig Unit) = ∑ d : Dev nD, tallyAt (exitCell d) () 1 :=
    Equiv.sum_comp (partnerEquiv j) (fun d => (tallyAt (exitCell d) () 1 : CellTallies nD τ sig Unit))
  have hr (k : Fin 30) : ∑ d : Dev nD, (tallyAt (recvCell (partner d (jOf k)) k) () N : CellTallies nD τ sig Unit) = ∑ d : Dev nD, tallyAt (recvCell d k) () N :=
    Equiv.sum_comp (partnerEquiv (jOf k)) (fun d => (tallyAt (recvCell d k) () N : CellTallies nD τ sig Unit))
  have hA : ∑ d : Dev nD, ∑ j : Fin 10, (tallyAt (barCell (partner d j)) () 1 : CellTallies nD τ sig Unit) = ∑ d : Dev nD, tallyAt (barCell d) () 10 := by
    rw [Finset.sum_comm, Finset.sum_congr rfl fun j _ => hb j, Finset.sum_comm]
    exact Finset.sum_congr rfl fun d _ => by rw [Finset.sum_const, Finset.card_univ, Fintype.card_fin, nsmul_tallyAt]
  have hC : ∑ d : Dev nD, ∑ j : Fin 10, (tallyAt (exitCell (partner d j)) () 1 : CellTallies nD τ sig Unit) = ∑ d : Dev nD, tallyAt (exitCell d) () 10 := by
    rw [Finset.sum_comm, Finset.sum_congr rfl fun j _ => he j, Finset.sum_comm]
    exact Finset.sum_congr rfl fun d _ => by rw [Finset.sum_const, Finset.card_univ, Fintype.card_fin, nsmul_tallyAt]
  have hB : ∑ d : Dev nD, ∑ k : Fin 30, (tallyAt (recvCell (partner d (jOf k)) k) () N : CellTallies nD τ sig Unit) = ∑ d : Dev nD, ∑ k : Fin 30, tallyAt (recvCell d k) () N := by
    rw [Finset.sum_comm, Finset.sum_congr rfl fun k _ => hr k, Finset.sum_comm]
  simp only [O₀_eq, Tc, Finset.sum_add_distrib, hA, hB, hC]

theorem Tc_apply_ne (c : Dev nD) (g : GSem nD τ sig) (h : g.1 ≠ (c : Thread nD τ)) : Tc c g = 0 := by
  have hne : ∀ sm : SemLoc sig, g ≠ ((c : Thread nD τ), sm) := fun sm e => h (congrArg Prod.fst e)
  unfold Tc
  rw [Pi.add_apply, Pi.add_apply, Finset.sum_apply, tallyAt_ne_cell (hne _), tallyAt_ne_cell (hne _),
    Finset.sum_eq_zero fun k _ => tallyAt_ne_cell (hne _) () N]
  rfl

theorem launchCred_eq (c : Dev nD) : (Pipeline.launchCred O₀ c : sProp 𝕄) = cred (Tc c) := by
  rw [Pipeline.cred_core (T := Tc c) (c := c) fun g hg => by by_contra h; exact hg (Tc_apply_ne c g h)]
  unfold Pipeline.launchCred
  refine bigSep_congr fun sm _ => ?_
  rw [Pipeline.tallyOn_launchCredit_owing, sum_O₀, Finset.sum_apply,
    Finset.sum_eq_single c (fun d _ hd => Tc_apply_ne d _ fun e => hd (congrArg Prod.fst e).symm) (fun h => absurd (Finset.mem_univ c) h)]

theorem creds_intro (c : Dev nD) : (Pipeline.launchCred O₀ c : sProp 𝕄) ⊢ creds c := by
  rw [launchCred_eq]; unfold Tc creds
  iintro H
  ihave H := (cred_add _ _).1 $$ H
  icases H with ⟨H, HC⟩
  ihave H := (cred_add _ _).1 $$ H
  icases H with ⟨HA, HB⟩
  ihave HB := (Entails.of_eq (Pipeline.cred_finsetSum Finset.univ fun k : Fin 30 => (tallyAt (recvCell c k) () N : CellTallies nD τ sig Unit))) $$ HB
  isplitl [HA]; · iexact HA
  isplitl [HB]; · iexact HB
  iexact HC

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ scratch
  iintro ⟨Hr, HE, HS, HV⟩
  isplitr; · iempintro
  isplitl [HE HS HV]
  · isplitl [HE]; · iexact HE
    isplitl [HS] <;> iassumption
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

set_option maxRecDepth 8000 in
theorem run_main (hbody : ∀ c : Dev nD, BodyObligation (dats (F := F) m 0 c) (defs₀ (F := F)) 𝒱₀ () Set.univ) :
    θ_run defs (onTc (τ := τ) (main (F := F))) (s₀ m ρ)
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

end Cert.KernelIdeal.Proto

end
-- ==== Proof.Slots.lean ====
import proofs.«900997_g7700000000000998_dist_mlpseq_tp1d_rep_rep_b128_d128_h256_v7x_i32_f32_1_alg».proof.Proof.Ghost
import Idealize.ShloMosaic.Lib.Pipeline.Value
import Idealize.ShloMosaic.Lib.Writes

noncomputable section

namespace Cert.KernelIdeal.Proto

open Cert.KernelIdeal Cert.KernelIdeal.Gen Cert.Mlp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

namespace Slots
variable {sg : RefSig} {κ : Kind} {sp sp' : Space} {s s' : Shape} {e : EltTy} {Val : EltTy → Type}

theorem read_reshape_apply (v : View sg κ sp s e) (h : s'.numel = s.numel) (g : v.ty.Contents Val) (y : s'.Idx) :
    (v.reshape s' h).read Val g y = v.read Val g (Shape.reshapeEquiv h y) := rfl

theorem read_write_reshape_read (v1 : View sg κ sp s e) (v0 : View sg κ sp' s e) (h : s'.numel = s.numel)
    (f : v1.ty.Contents Val) (g : v0.ty.Contents Val) :
    v1.read Val ((v1.reshape s' h).write Val f ((v0.reshape s' h).read Val g) Finset.univ) = v0.read Val g := by
  rw [View.write_reshape_univ, View.read_write_univ]
  funext x
  rw [read_reshape_apply, Equiv.apply_symm_apply]

theorem write_univ_eq_on_set (v : View sg κ sp s e) (f f' : v.ty.Contents Val) (w : s.Idx → Val e) :
    ∀ i ∈ v.set, v.write Val f w Finset.univ i = v.write Val f' w Finset.univ i := by
  intro i hi
  obtain ⟨x, rfl⟩ := View.exists_emb_of_mem_set v hi
  rw [View.write_emb_of_mem _ _ (Finset.mem_univ x), View.write_emb_of_mem _ _ (Finset.mem_univ x)]

end Slots

theorem recvSlot_set (k : Fin 30) : (recvSlot k).view.set = (rectR k).set :=
  (View.set_reshape _ _).trans (View.set_slice_whole cc0_scratch1 (rectR k))
theorem sendSlot_set (s : Fin 6) : (sendSlot s).view.set = (rectS s).set :=
  (View.set_reshape _ _).trans (View.set_slice_whole cc0_scratch0 (rectS s))

theorem recvSlot_set_access (k : Fin 30) :
    (recvSlot k).view.set = ((Memref.whole cc0_scratch1 : Memref sig .tc .vmem S30x128x128 .bf16).access (rectR k) : View sig .tc _ _ _).set :=
  View.set_reshape _ _
theorem sendSlot_set_access (s : Fin 6) :
    (sendSlot s).view.set = ((Memref.whole cc0_scratch0 : Memref sig .tc .vmem S6x128x128 .bf16).access (rectS s) : View sig .tc _ _ _).set :=
  View.set_reshape _ _

theorem mem_rectR {k : Fin 30} {i : S30x128x128.Idx} : i ∈ (rectR k).set ↔ (i 0).val = k.val := by
  rw [Rect.mem_set_unit]
  constructor
  · intro h
    have h0 := h 0
    simp only [Matrix.cons_val_zero] at h0
    omega
  · intro h a
    have hi := (i a).isLt
    fin_cases a
    · simp only [Fin.zero_eta, Matrix.cons_val_zero]; omega
    · simp at hi ⊢; omega
    · simp at hi ⊢; omega
theorem mem_rectS {s : Fin 6} {i : S6x128x128.Idx} : i ∈ (rectS s).set ↔ (i 0).val = s.val := by
  rw [Rect.mem_set_unit]
  constructor
  · intro h
    have h0 := h 0
    simp only [Matrix.cons_val_zero] at h0
    omega
  · intro h a
    have hi := (i a).isLt
    fin_cases a
    · simp only [Fin.zero_eta, Matrix.cons_val_zero]; omega
    · simp at hi ⊢; omega
    · simp at hi ⊢; omega

theorem recvSlot_disjoint {k k' : Fin 30} (h : k ≠ k') : Disjoint (recvSlot k).view.set (recvSlot k').view.set := by
  rw [recvSlot_set, recvSlot_set]
  have hv : k.val ≠ k'.val := fun e => h (Fin.ext e)
  exact Rect.unit_disjoint 0 (by simp only [Matrix.cons_val_zero]; omega)
theorem sendSlot_disjoint {s s' : Fin 6} (h : s ≠ s') : Disjoint (sendSlot s).view.set (sendSlot s').view.set := by
  rw [sendSlot_set, sendSlot_set]
  have hv : s.val ≠ s'.val := fun e => h (Fin.ext e)
  exact Rect.unit_disjoint 0 (by simp only [Matrix.cons_val_zero]; omega)

theorem mem_recvSlot_self (i : S30x128x128.Idx) : i ∈ (recvSlot ⟨(i 0).val, (i 0).isLt⟩).view.set := by
  rw [recvSlot_set]; exact mem_rectR.mpr rfl
theorem mem_sendSlot_self (i : S6x128x128.Idx) : i ∈ (sendSlot ⟨(i 0).val, (i 0).isLt⟩).view.set := by
  rw [sendSlot_set]; exact mem_rectS.mpr rfl

theorem recv_split (c : Dev nD) (f : Buf (Elt F) ((c : Thread nD τ).loc cc0_scratch1)) :
    (((c : Thread nD τ).loc cc0_scratch1) ↦{fullShare} f : sProp 𝕄) ⊣⊢ bigSep Finset.univ (fun k : Fin 30 => recvPts c k f) := by
  have hc : (Finset.univ : Finset (Idx ((c : Thread nD τ).loc cc0_scratch1)))
      = Finset.univ.biUnion (fun k : Fin 30 => (recvSlot k).view.set) :=
    (Finset.eq_univ_iff_forall.mpr fun i =>
      Finset.mem_biUnion.mpr ⟨⟨((i : S30x128x128.Idx) 0).val, ((i : S30x128x128.Idx) 0).isLt⟩, Finset.mem_univ _, mem_recvSlot_self i⟩).symm
  refine BiEntails.of_eq ?_
  rw [hc]
  exact pointsTo_biUnion Finset.univ _ (fun k _ k' _ h => recvSlot_disjoint h)

theorem send_split (c : Dev nD) (f : Buf (Elt F) ((c : Thread nD τ).loc cc0_scratch0)) :
    (((c : Thread nD τ).loc cc0_scratch0) ↦{fullShare} f : sProp 𝕄) ⊣⊢ bigSep Finset.univ (fun s : Fin 6 => sendPts c s fullShare f) := by
  have hc : (Finset.univ : Finset (Idx ((c : Thread nD τ).loc cc0_scratch0)))
      = Finset.univ.biUnion (fun s : Fin 6 => (sendSlot s).view.set) :=
    (Finset.eq_univ_iff_forall.mpr fun i =>
      Finset.mem_biUnion.mpr ⟨⟨((i : S6x128x128.Idx) 0).val, ((i : S6x128x128.Idx) 0).isLt⟩, Finset.mem_univ _, mem_sendSlot_self i⟩).symm
  refine BiEntails.of_eq ?_
  rw [hc]
  exact pointsTo_biUnion Finset.univ _ (fun s _ s' _ h => sendSlot_disjoint h)

theorem send_share_split (c : Dev nD) (s : Fin 6) (n : ℕ) (f : Buf (Elt F) ((sendSlot s).view.loc (c : Thread nD τ))) :
    (sendPts c s (rightN n) f : sProp 𝕄) ⊣⊢ sendPts c s (chainShare n) f ∗ sendPts c s (rightN (n + 1)) f :=
  pointsTo_share (PosShare.mem_left_op_right (rightN n))

theorem recvPts_congr (c : Dev nD) (k : Fin 30) (f f' : Buf (Elt F) ((recvSlot k).view.loc (c : Thread nD τ)))
    (h : ∀ i ∈ (recvSlot k).view.set, f i = f' i) : (recvPts c k f : sProp 𝕄) ⊢ recvPts c k f' :=
  Entails.of_eq (pointsTo_congr h)
theorem sendPts_congr (c : Dev nD) (s : Fin 6) (q : PosShare TreeShare) (f f' : Buf (Elt F) ((sendSlot s).view.loc (c : Thread nD τ)))
    (h : ∀ i ∈ (sendSlot s).view.set, f i = f' i) : (sendPts c s q f : sProp 𝕄) ⊢ sendPts c s q f' :=
  Entails.of_eq (pointsTo_congr h)

theorem landed_read (c : Dev nD) (k : Fin 30) :
    (Memref.whole cc0_scratch1 : Memref sig .tc .vmem S30x128x128 .bf16).view.readAt (Elt F) (rectR k).toLoadRect (landed m (sbuf m) c k)
      = sentOf m (partner c (jOf k)) (stageOf k) := by
  refine (Slots.read_write_reshape_read (Val := Elt F)
    ((View.whole cc0_scratch1 : View sig .tc _ _ _).slice (rectR k))
    ((View.whole cc0_scratch0 : View sig .tc _ _ _).slice (rectS (stageOf k))) _ _ _).trans ?_
  exact View.read_write_univ _ _

theorem store_canon (c : Dev nD) (s : Fin 6) (f : Buf (Elt F) ((c : Thread nD τ).loc cc0_scratch0)) :
    ∀ i ∈ (sendSlot s).view.set,
      (((Memref.whole cc0_scratch0 : Memref sig .tc .vmem S6x128x128 .bf16).access (rectS s) : View sig .tc _ _ _).write (Elt F) f (sentOf m c s) Finset.univ) i
        = sbuf m c s i := by
  intro i hi
  rw [sendSlot_set_access] at hi
  exact Slots.write_univ_eq_on_set ((View.whole cc0_scratch0 : View sig .tc _ _ _).slice (rectS s)) f _ (sentOf m c s) i hi

theorem write_base_irrelevant (k : Fin 30) (f f' : (recvSlot k).view.ty.Contents (Elt F)) (X : S128x128.Idx → Elt F .bf16) :
    ∀ i ∈ (recvSlot k).view.set,
      (recvSlot k).view.write (Elt F) f X Finset.univ i = (recvSlot k).view.write (Elt F) f' X Finset.univ i :=
  Slots.write_univ_eq_on_set _ f f' X

theorem landing_entails (c p : Dev nD) (k : Fin 30) (hp : partner p (jOf k) = c)
    (fd : Buf (Elt F) ((recvSlot k).view.loc (p : Thread nD τ))) :
    (recvPts p k ((recvSlot k).view.write (Elt F) fd
        ((sendSlot (stageOf k)).view.read (Elt F) (sbuf m c (stageOf k))) Finset.univ) : sProp 𝕄)
      ⊢ recvPay m (sbuf m) p k := by
  subst hp
  exact recvPts_congr p k _ _ (write_base_irrelevant k _ _ _)

theorem send_fan (c : Dev nD) (s : Fin 6) (f : Buf (Elt F) ((sendSlot s).view.loc (c : Thread nD τ))) (n : ℕ) :
    (sendPts c s fullShare f : sProp 𝕄)
      ⊣⊢ (bigSep (Finset.range n) fun i => sendPts c s (chainShare i) f) ∗ sendPts c s (rightN n) f := by
  induction n with
  | zero =>
    rw [Finset.range_zero, bigSep_empty]
    exact (Laws.sep_comm.trans Laws.sep_emp).symm
  | succ n ih =>
    rw [Finset.range_add_one, bigSep_insert Finset.notMem_range_self]
    exact ih.trans ((Laws.sep_congr_right (send_share_split c s n f)).trans
      (Laws.sep_assoc.symm.trans (Laws.sep_congr_left Laws.sep_comm)))

theorem send_fan7 (c : Dev nD) (s : Fin 6) (f : Buf (Elt F) ((sendSlot s).view.loc (c : Thread nD τ))) :
    (sendPts c s fullShare f : sProp 𝕄)
      ⊣⊢ sendPts c s (chainShare 0) f ∗ sendPts c s (chainShare 1) f ∗ sendPts c s (chainShare 2) f ∗ sendPts c s (chainShare 3) f ∗ sendPts c s (chainShare 4) f ∗ sendPts c s (chainShare 5) f ∗ sendPts c s (chainShare 6) f ∗ sendPts c s (rightN 7) f :=
  (send_share_split c s 0 f).trans (Laws.sep_congr_right ((send_share_split c s 1 f).trans (Laws.sep_congr_right ((send_share_split c s 2 f).trans (Laws.sep_congr_right ((send_share_split c s 3 f).trans (Laws.sep_congr_right ((send_share_split c s 4 f).trans (Laws.sep_congr_right ((send_share_split c s 5 f).trans (Laws.sep_congr_right (send_share_split c s 6 f))))))))))))

theorem send_fan3 (c : Dev nD) (s : Fin 6) (f : Buf (Elt F) ((sendSlot s).view.loc (c : Thread nD τ))) :
    (sendPts c s fullShare f : sProp 𝕄)
      ⊣⊢ sendPts c s (chainShare 0) f ∗ sendPts c s (chainShare 1) f ∗ sendPts c s (chainShare 2) f ∗ sendPts c s (rightN 3) f :=
  (send_share_split c s 0 f).trans (Laws.sep_congr_right ((send_share_split c s 1 f).trans (Laws.sep_congr_right (send_share_split c s 2 f))))

end Cert.KernelIdeal.Proto

end
-- ==== Proof.Steps.lean ====
import proofs.«900997_g7700000000000998_dist_mlpseq_tp1d_rep_rep_b128_d128_h256_v7x_i32_f32_1_alg».proof.Proof.Slots
import Idealize.ShloMosaic.Lib.Tactic

noncomputable section

namespace Cert.KernelIdeal.Proto

open Cert.KernelIdeal Cert.KernelIdeal.Gen Cert.Mlp

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem N_recv (k : Fin 30) : (recvSlot k).view.amount (.dma (recvSem k)) = N := by rfl

theorem step_send (c : Dev nD) (k : Fin 30) (p : Dev nD) (hp : partner p (jOf k) = c) (κ₁ κ₂ : ℕ)
    (fd : Buf (Elt F) ((recvSlot k).view.loc (p : Thread nD τ))) (O : CellTallies nD τ sig Unit) (W : Waits sig Unit)
    {hsc : ((recvSlot k) : Memref sig (Dev.tc p : Thread nD τ).2.kind .vmem S128x128 .bf16).view.ref.isScScratch = false}
    {hsrc : (sendSlot (stageOf k)).view.WordExact} {hdst : (recvSlot k).view.WordExact}
    {hsem : DmaTarget.Typed .vmem (.dma (recvSem k)) (.remote (Dev.tc p : Thread nD τ) (recvSlot k) (.dma (sendSem k)) hsc)}
    {α : Type} {Q : α → sProp 𝕄} {kk : PUnit → Prog (TpuEff nD τ sig (Elt F) Λ₀ .tc) α} :
    iprop(cellInv ER (RdK m) κ₁ (sendCell c k) ∗ cellInv ER (RdK m) κ₂ (recvCell p k)
        ∗ sendPts c (stageOf k) (shr k) (sbuf m c (stageOf k)) ∗ recvPts p k fd
        ∗ owes (c : Thread nD τ) (O + tallyAt (recvCell p k) () N) W
        ∗ dutyTok ER (sendCell c k) 0 (0 : Fin 10) ∗ reached ER (sendCell c k) 0
        ∗ dutyTok ER (recvCell p k) 0 (0 : Fin 10) ∗ reached ER (recvCell p k) 0)
      ⊢ iprop(((cred (tallyAt (sendCell c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sendSlot (stageOf k)) (.remote (Dev.tc p : Thread nD τ) (recvSlot k) (.dma (sendSem k)) hsc) (.dma (recvSem k)) hsrc hdst hsem) kk) Q) := by
  unfold sendPts recvPts
  exact Rounds.wp_send_pointsTo 𝒱₀ ER (RdK m) (c : Thread nD τ) none (κ₁ := κ₁) (κ₂ := κ₂) (r₁ := 0) (r₂ := 0) (d₁ := (0 : Fin 10)) (d₂ := (0 : Fin 10)) (fd := fd)
    (by rw [duties_send]; exact Finset.mem_singleton_self _) (by rw [duties_recv]; exact Finset.mem_singleton_self _)
    () () N (N_recv k) (amount_send m _ c k 0) (amount_recv m _ p k 0) O rfl (W := W)
    (by rw [payload_send]; exact BI.Entails.refl _)
    (by rw [payload_recv]; exact landing_entails m c p k hp fd)

theorem step_send' (c : Dev nD) (k : Fin 30) (s : Fin 6) (hs : stageOf k = s) (n : ℕ) (hn : posOf k = n) (p q : Dev nD)
    (hp : partner p (jOf k) = c) (hq : q = p) (κ₁ κ₂ : ℕ)
    (fd : Buf (Elt F) ((recvSlot k).view.loc (p : Thread nD τ))) (O : CellTallies nD τ sig Unit) (W : Waits sig Unit)
    {hsc : ((recvSlot k) : Memref sig (Dev.tc q : Thread nD τ).2.kind .vmem S128x128 .bf16).view.ref.isScScratch = false}
    {hsrc : (sendSlot s).view.WordExact} {hdst : (recvSlot k).view.WordExact}
    {hsem : DmaTarget.Typed .vmem (.dma (recvSem k)) (.remote (Dev.tc q : Thread nD τ) (recvSlot k) (.dma (sendSem k)) hsc)}
    {α : Type} {Q : α → sProp 𝕄} {kk : PUnit → Prog (TpuEff nD τ sig (Elt F) Λ₀ .tc) α} :
    iprop(cellInv ER (RdK m) κ₁ (sendCell c k) ∗ cellInv ER (RdK m) κ₂ (recvCell p k)
        ∗ sendPts c s (chainShare n) (sbuf m c s) ∗ recvPts p k fd
        ∗ owes (c : Thread nD τ) (O + tallyAt (recvCell p k) () N) W
        ∗ dutyTok ER (sendCell c k) 0 (0 : Fin 10) ∗ reached ER (sendCell c k) 0
        ∗ dutyTok ER (recvCell p k) 0 (0 : Fin 10) ∗ reached ER (recvCell p k) 0)
      ⊢ iprop(((cred (tallyAt (sendCell c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sendSlot s) (.remote (Dev.tc q : Thread nD τ) (recvSlot k) (.dma (sendSem k)) hsc) (.dma (recvSem k)) hsrc hdst hsem) kk) Q) := by
  subst hs; subst hn; subst hq
  exact step_send m c k q hp κ₁ κ₂ fd O W

theorem bar_payloads (c : Dev nD) :
    ((bigSep Finset.univ fun d : Fin 10 => (RdK (F := F) m).payload (barCell c) 0 d) : sProp 𝕄)
      ⊢ iprop(((∃ f, recvPts (F := F) (partner c 0) 0 f) ∗ (∃ f, recvPts (F := F) (partner c 0) 10 f) ∗ (∃ f, recvPts (F := F) (partner c 0) 20 f))
        ∗ ((∃ f, recvPts (F := F) (partner c 1) 1 f) ∗ (∃ f, recvPts (F := F) (partner c 1) 11 f) ∗ (∃ f, recvPts (F := F) (partner c 1) 21 f))
        ∗ ((∃ f, recvPts (F := F) (partner c 2) 2 f) ∗ (∃ f, recvPts (F := F) (partner c 2) 12 f) ∗ (∃ f, recvPts (F := F) (partner c 2) 22 f))
        ∗ ((∃ f, recvPts (F := F) (partner c 3) 3 f) ∗ (∃ f, recvPts (F := F) (partner c 3) 13 f) ∗ (∃ f, recvPts (F := F) (partner c 3) 23 f))
        ∗ ((∃ f, recvPts (F := F) (partner c 4) 4 f) ∗ (∃ f, recvPts (F := F) (partner c 4) 14 f) ∗ (∃ f, recvPts (F := F) (partner c 4) 24 f))
        ∗ ((∃ f, recvPts (F := F) (partner c 5) 5 f) ∗ (∃ f, recvPts (F := F) (partner c 5) 15 f) ∗ (∃ f, recvPts (F := F) (partner c 5) 25 f))
        ∗ ((∃ f, recvPts (F := F) (partner c 6) 6 f) ∗ (∃ f, recvPts (F := F) (partner c 6) 16 f) ∗ (∃ f, recvPts (F := F) (partner c 6) 26 f))
        ∗ ((∃ f, recvPts (F := F) (partner c 7) 7 f) ∗ (∃ f, recvPts (F := F) (partner c 7) 17 f) ∗ (∃ f, recvPts (F := F) (partner c 7) 27 f))
        ∗ ((∃ f, recvPts (F := F) (partner c 8) 8 f) ∗ (∃ f, recvPts (F := F) (partner c 8) 18 f) ∗ (∃ f, recvPts (F := F) (partner c 8) 28 f))
        ∗ ((∃ f, recvPts (F := F) (partner c 9) 9 f) ∗ (∃ f, recvPts (F := F) (partner c 9) 19 f) ∗ (∃ f, recvPts (F := F) (partner c 9) 29 f))) := by
  rw [bigSep_fin10]; simp only [payload_bar]; exact Entails.of_eq rfl

theorem close_cell (g : GSem nD τ sig) (κ : ℕ) :
    iprop(cellInv ER (RdK (F := F) m) κ g ∗ atPos ER g 1 ∅ 0) ⊢ iprop(|={Set.univ}=> semVal g 0) :=
  Rounds.cell_close ER (RdK m) (Set.mem_univ κ) (fun h => h) (R := 1) (duties_later m _ g)

theorem send_prep7 (c : Dev nD) (s : Fin 6) (f : Buf (Elt F) ((sendSlot s).view.loc (c : Thread nD τ)))
    (h : ∀ i ∈ (sendSlot s).view.set, f i = sbuf m c s i) :
    (sendPts c s fullShare f : sProp 𝕄) ⊢ iprop(sendPts c s (chainShare 0) (sbuf m c s) ∗ sendPts c s (chainShare 1) (sbuf m c s) ∗ sendPts c s (chainShare 2) (sbuf m c s)
      ∗ sendPts c s (chainShare 3) (sbuf m c s) ∗ sendPts c s (chainShare 4) (sbuf m c s) ∗ sendPts c s (chainShare 5) (sbuf m c s) ∗ sendPts c s (chainShare 6) (sbuf m c s)
      ∗ sendPts c s (rightN 7) (sbuf m c s)) :=
  (sendPts_congr c s fullShare f (sbuf m c s) h).trans (send_fan7 c s (sbuf m c s)).1

theorem send_prep3 (c : Dev nD) (s : Fin 6) (f : Buf (Elt F) ((sendSlot s).view.loc (c : Thread nD τ)))
    (h : ∀ i ∈ (sendSlot s).view.set, f i = sbuf m c s i) :
    (sendPts c s fullShare f : sProp 𝕄) ⊢ iprop(sendPts c s (chainShare 0) (sbuf m c s) ∗ sendPts c s (chainShare 1) (sbuf m c s) ∗ sendPts c s (chainShare 2) (sbuf m c s)
      ∗ sendPts c s (rightN 3) (sbuf m c s)) :=
  (sendPts_congr c s fullShare f (sbuf m c s) h).trans (send_fan3 c s (sbuf m c s)).1

theorem send_prep7_raw (c : Dev nD) (s : Fin 6) (f : Buf (Elt F) ((sendSlot s).view.loc (c : Thread nD τ)))
    (h : ∀ i ∈ (sendSlot s).view.set, f i = sbuf m c s i) :
    ((sendSlot s).view.loc (c : Thread nD τ) ↦[(sendSlot s).view.set]{fullShare} f : sProp 𝕄) ⊢ iprop(sendPts c s (chainShare 0) (sbuf m c s) ∗ sendPts c s (chainShare 1) (sbuf m c s) ∗ sendPts c s (chainShare 2) (sbuf m c s)
      ∗ sendPts c s (chainShare 3) (sbuf m c s) ∗ sendPts c s (chainShare 4) (sbuf m c s) ∗ sendPts c s (chainShare 5) (sbuf m c s) ∗ sendPts c s (chainShare 6) (sbuf m c s)
      ∗ sendPts c s (rightN 7) (sbuf m c s)) := send_prep7 m c s f h
theorem send_prep3_raw (c : Dev nD) (s : Fin 6) (f : Buf (Elt F) ((sendSlot s).view.loc (c : Thread nD τ)))
    (h : ∀ i ∈ (sendSlot s).view.set, f i = sbuf m c s i) :
    ((sendSlot s).view.loc (c : Thread nD τ) ↦[(sendSlot s).view.set]{fullShare} f : sProp 𝕄) ⊢ iprop(sendPts c s (chainShare 0) (sbuf m c s) ∗ sendPts c s (chainShare 1) (sbuf m c s) ∗ sendPts c s (chainShare 2) (sbuf m c s)
      ∗ sendPts c s (rightN 3) (sbuf m c s)) := send_prep3 m c s f h

theorem sendPay_pts (c : Dev nD) (k : Fin 30) (s : Fin 6) (hs : stageOf k = s) (n : ℕ) (hn : posOf k = n) :
    (sendPay (F := F) (sbuf m) c k : sProp 𝕄) ⊢ sendPts c s (chainShare n) (sbuf m c s) := by
  subst hs; subst hn; exact Entails.of_eq rfl
theorem recvPts_intro (c : Dev nD) (k : Fin 30) (f : Buf (Elt F) ((recvSlot k).view.loc (c : Thread nD τ))) :
    ((recvSlot k).view.loc (c : Thread nD τ) ↦[(recvSlot k).view.set]{fullShare} f : sProp 𝕄) ⊢ recvPts c k f :=
  Entails.of_eq rfl

end Cert.KernelIdeal.Proto

end
-- ==== Proof.Joins.lean ====
import proofs.«900997_g7700000000000998_dist_mlpseq_tp1d_rep_rep_b128_d128_h256_v7x_i32_f32_1_alg».proof.Proof.Slots

noncomputable section

namespace Cert.KernelIdeal.Proto

open Cert.KernelIdeal Cert.KernelIdeal.Gen Cert.Mlp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem bigSep_fin30 (Φ : Fin 30 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29) :=
  bigSep_univ_eq_bigSepL [0, 1, 2, 3, 4, 5, 6, 7, 8, 9, 10, 11, 12, 13, 14, 15, 16, 17, 18, 19, 20, 21, 22, 23, 24, 25, 26, 27, 28, 29] (by decide) (by decide) Φ

theorem bigSep_fin6 (Φ : Fin 6 → sProp 𝕄) :
    bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem recv_join_any (c : Dev nD) (fs : Fin 30 → Buf (Elt F) ((c : Thread nD τ).loc cc0_scratch1)) :
    (bigSep Finset.univ fun k : Fin 30 => recvPts (F := F) c k (fs k))
      ⊢ (iprop(∃ f : Buf (Elt F) ((c : Thread nD τ).loc cc0_scratch1), (((c : Thread nD τ).loc cc0_scratch1) ↦{fullShare} f)) : sProp 𝕄) := by
  have hc : (Finset.univ : Finset (Idx ((c : Thread nD τ).loc cc0_scratch1)))
      = Finset.univ.biUnion (fun k : Fin 30 => (recvSlot k).view.set) :=
    (Finset.eq_univ_iff_forall.mpr fun i =>
      Finset.mem_biUnion.mpr ⟨⟨((i : S30x128x128.Idx) 0).val, ((i : S30x128x128.Idx) 0).isLt⟩, Finset.mem_univ _, mem_recvSlot_self i⟩).symm
  have hj : (bigSep Finset.univ fun k : Fin 30 => (((c : Thread nD τ).loc cc0_scratch1) ↦[(recvSlot k).view.set]{fullShare} fs k : sProp 𝕄))
      ⊢ iprop(∃ g : Buf (Elt F) ((c : Thread nD τ).loc cc0_scratch1), ⌜∀ k ∈ (Finset.univ : Finset (Fin 30)), ∀ i ∈ (recvSlot k).view.set, g i = fs k i⌝ ∗
          ((c : Thread nD τ).loc cc0_scratch1) ↦[Finset.univ.biUnion (fun k : Fin 30 => (recvSlot k).view.set)]{fullShare} g) :=
    pointsTo_biUnion_join Finset.univ _ fs (fs 0) (fun k _ k' _ h => recvSlot_disjoint h)
  rw [← hc] at hj
  refine hj.trans ?_
  iintro ⟨%g, %hg, H⟩
  iexists g
  iexact H

theorem send_join_any (c : Dev nD) (fs : Fin 6 → Buf (Elt F) ((c : Thread nD τ).loc cc0_scratch0)) :
    (bigSep Finset.univ fun s : Fin 6 => sendPts (F := F) c s fullShare (fs s))
      ⊢ (iprop(∃ f : Buf (Elt F) ((c : Thread nD τ).loc cc0_scratch0), (((c : Thread nD τ).loc cc0_scratch0) ↦{fullShare} f)) : sProp 𝕄) := by
  have hc : (Finset.univ : Finset (Idx ((c : Thread nD τ).loc cc0_scratch0)))
      = Finset.univ.biUnion (fun s : Fin 6 => (sendSlot s).view.set) :=
    (Finset.eq_univ_iff_forall.mpr fun i =>
      Finset.mem_biUnion.mpr ⟨⟨((i : S6x128x128.Idx) 0).val, ((i : S6x128x128.Idx) 0).isLt⟩, Finset.mem_univ _, mem_sendSlot_self i⟩).symm
  have hj : (bigSep Finset.univ fun s : Fin 6 => (((c : Thread nD τ).loc cc0_scratch0) ↦[(sendSlot s).view.set]{fullShare} fs s : sProp 𝕄))
      ⊢ iprop(∃ g : Buf (Elt F) ((c : Thread nD τ).loc cc0_scratch0), ⌜∀ s ∈ (Finset.univ : Finset (Fin 6)), ∀ i ∈ (sendSlot s).view.set, g i = fs s i⌝ ∗
          ((c : Thread nD τ).loc cc0_scratch0) ↦[Finset.univ.biUnion (fun s : Fin 6 => (sendSlot s).view.set)]{fullShare} g) :=
    pointsTo_biUnion_join Finset.univ _ fs (fs 0) (fun s _ s' _ h => sendSlot_disjoint h)
  rw [← hc] at hj
  refine hj.trans ?_
  iintro ⟨%g, %hg, H⟩
  iexists g
  iexact H

theorem recv_join_flat (c : Dev nD) (f0 f1 f2 f3 f4 f5 f6 f7 f8 f9 f10 f11 f12 f13 f14 f15 f16 f17 f18 f19 f20 f21 f22 f23 f24 f25 f26 f27 f28 f29 : Buf (Elt F) ((c : Thread nD τ).loc cc0_scratch1)) :
    (iprop(recvPts c 0 f0 ∗ recvPts c 1 f1 ∗ recvPts c 2 f2 ∗ recvPts c 3 f3 ∗ recvPts c 4 f4 ∗ recvPts c 5 f5 ∗ recvPts c 6 f6 ∗ recvPts c 7 f7 ∗ recvPts c 8 f8 ∗ recvPts c 9 f9 ∗ recvPts c 10 f10 ∗ recvPts c 11 f11 ∗ recvPts c 12 f12 ∗ recvPts c 13 f13 ∗ recvPts c 14 f14 ∗ recvPts c 15 f15 ∗ recvPts c 16 f16 ∗ recvPts c 17 f17 ∗ recvPts c 18 f18 ∗ recvPts c 19 f19 ∗ recvPts c 20 f20 ∗ recvPts c 21 f21 ∗ recvPts c 22 f22 ∗ recvPts c 23 f23 ∗ recvPts c 24 f24 ∗ recvPts c 25 f25 ∗ recvPts c 26 f26 ∗ recvPts c 27 f27 ∗ recvPts c 28 f28 ∗ recvPts c 29 f29) : sProp 𝕄)
      ⊢ iprop(∃ f : Buf (Elt F) ((c : Thread nD τ).loc cc0_scratch1), (((c : Thread nD τ).loc cc0_scratch1) ↦{fullShare} f)) := by
  have h := recv_join_any (F := F) c ![f0, f1, f2, f3, f4, f5, f6, f7, f8, f9, f10, f11, f12, f13, f14, f15, f16, f17, f18, f19, f20, f21, f22, f23, f24, f25, f26, f27, f28, f29]
  rw [bigSep_fin30] at h
  exact h

theorem send_join_flat (c : Dev nD) (f0 f1 f2 f3 f4 f5 : Buf (Elt F) ((c : Thread nD τ).loc cc0_scratch0)) :
    (iprop(sendPts c 0 fullShare f0 ∗ sendPts c 1 fullShare f1 ∗ sendPts c 2 fullShare f2 ∗ sendPts c 3 fullShare f3 ∗ sendPts c 4 fullShare f4 ∗ sendPts c 5 fullShare f5) : sProp 𝕄)
      ⊢ iprop(∃ f : Buf (Elt F) ((c : Thread nD τ).loc cc0_scratch0), (((c : Thread nD τ).loc cc0_scratch0) ↦{fullShare} f)) := by
  have h := send_join_any (F := F) c ![f0, f1, f2, f3, f4, f5]
  rw [bigSep_fin6] at h
  exact h

end Cert.KernelIdeal.Proto

end
-- ==== Proof.Stored.lean ====
import proofs.«900997_g7700000000000998_dist_mlpseq_tp1d_rep_rep_b128_d128_h256_v7x_i32_f32_1_alg».proof.Proof.Steps
import Idealize.ShloMosaic.Lib.Writes

noncomputable section

namespace Cert.KernelIdeal.Proto

open Cert.KernelIdeal Cert.KernelIdeal.Gen Cert.Mlp

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

open Cert.KernelIdeal.Vals

theorem hz2 : (![0, 0] : Fin 2 → Nat) = fun _ => 0 := funext fun a => by fin_cases a <;> rfl

theorem rd0 (f : (cc0_stg0_0 : Ref sig .tc).ty.Contents (Elt F)) :
    (Memref.whole cc0_stg0_0 : Memref sig .tc .vmem S128x128 .f32).view.readAt (Elt F) (Rect.unit (s := S128x128) ![0, 0] S128x128.size inb_S128x128_S128x128_0_0).toLoadRect f = f :=
  Memref.readAt_unit_zero (Elt F) cc0_stg0_0 hz2 _ f
theorem rd1 (f : (cc0_stg1_0 : Ref sig .tc).ty.Contents (Elt F)) :
    (Memref.whole cc0_stg1_0 : Memref sig .tc .vmem S128x256 .f32).view.readAt (Elt F) (Rect.unit (s := S128x256) ![0, 0] S128x256.size inb_S128x256_S128x256_0_0).toLoadRect f = f :=
  Memref.readAt_unit_zero (Elt F) cc0_stg1_0 hz2 _ f
theorem rd2 (f : (cc0_stg2_0 : Ref sig .tc).ty.Contents (Elt F)) :
    (Memref.whole cc0_stg2_0 : Memref sig .tc .vmem S256x128 .f32).view.readAt (Elt F) (Rect.unit (s := S256x128) ![0, 0] S256x128.size inb_S256x128_S256x128_0_0).toLoadRect f = f :=
  Memref.readAt_unit_zero (Elt F) cc0_stg2_0 hz2 _ f
theorem rd3 (f : (cc0_stg3_0 : Ref sig .tc).ty.Contents (Elt F)) :
    (Memref.whole cc0_stg3_0 : Memref sig .tc .vmem S128x256 .f32).view.readAt (Elt F) (Rect.unit (s := S128x256) ![0, 0] S128x256.size inb_S128x256_S128x256_0_0).toLoadRect f = f :=
  Memref.readAt_unit_zero (Elt F) cc0_stg3_0 hz2 _ f
theorem rd4 (f : (cc0_stg4_0 : Ref sig .tc).ty.Contents (Elt F)) :
    (Memref.whole cc0_stg4_0 : Memref sig .tc .vmem S256x128 .f32).view.readAt (Elt F) (Rect.unit (s := S256x128) ![0, 0] S256x128.size inb_S256x128_S256x128_0_0).toLoadRect f = f :=
  Memref.readAt_unit_zero (Elt F) cc0_stg4_0 hz2 _ f
theorem rd5 (f : (cc0_stg5_0 : Ref sig .tc).ty.Contents (Elt F)) :
    (Memref.whole cc0_stg5_0 : Memref sig .tc .vmem S128x256 .f32).view.readAt (Elt F) (Rect.unit (s := S128x256) ![0, 0] S128x256.size inb_S128x256_S128x256_0_0).toLoadRect f = f :=
  Memref.readAt_unit_zero (Elt F) cc0_stg5_0 hz2 _ f
theorem rd6 (f : (cc0_stg6_0 : Ref sig .tc).ty.Contents (Elt F)) :
    (Memref.whole cc0_stg6_0 : Memref sig .tc .vmem S256x128 .f32).view.readAt (Elt F) (Rect.unit (s := S256x128) ![0, 0] S256x128.size inb_S256x128_S256x128_0_0).toLoadRect f = f :=
  Memref.readAt_unit_zero (Elt F) cc0_stg6_0 hz2 _ f

abbrev ld (c : Dev nD) (k : Fin 30) : Vec F S1x128x128 .bf16 :=
  (Memref.whole cc0_scratch1 : Memref sig .tc .vmem S30x128x128 .bf16).view.readAt (Elt F) (rectR k).toLoadRect (landed m (sbuf m) c k)

theorem stored_gen (c : Dev nD) (s : Fin 6) (f : Buf (Elt F) ((c : Thread nD τ).loc cc0_scratch0)) (v : Vec F S1x128x128 .bf16)
    (hv : v = sentOf m c s) :
    ∀ i ∈ (sendSlot s).view.set, (((Memref.whole cc0_scratch0 : Memref sig .tc .vmem S6x128x128 .bf16).access (rectS s) : View sig .tc _ _ _).write (Elt F) f v Finset.univ) i = sbuf m c s i := by
  subst hv; exact store_canon m c s f

theorem val0 (c : Dev nD) :
    k0_pay2 ((Memref.whole cc0_stg0_0 : Memref sig .tc .vmem S128x128 .f32).view.readAt (Elt F) (Rect.unit (s := S128x128) ![0, 0] S128x128.size inb_S128x128_S128x128_0_0).toLoadRect (argsOf m c).x)
      ((Memref.whole cc0_stg1_0 : Memref sig .tc .vmem S128x256 .f32).view.readAt (Elt F) (Rect.unit (s := S128x256) ![0, 0] S128x256.size inb_S128x256_S128x256_0_0).toLoadRect (argsOf m c).w0)
      ((Memref.whole cc0_stg2_0 : Memref sig .tc .vmem S256x128 .f32).view.readAt (Elt F) (Rect.unit (s := S256x128) ![0, 0] S256x128.size inb_S256x128_S256x128_0_0).toLoadRect (argsOf m c).o0)
      = sentOf m c 0 := by
  rw [rd0, rd1, rd2]; rfl

theorem ld_eq (c : Dev nD) (k : Fin 30) : ld m c k = sentOf m (partner c (jOf k)) (stageOf k) := landed_read m c k

abbrev r907 (c : Dev nD) := k0_pay1 ((Memref.whole cc0_stg0_0 : Memref sig .tc .vmem S128x128 .f32).view.readAt (Elt F) (Rect.unit (s := S128x128) ![0, 0] S128x128.size inb_S128x128_S128x128_0_0).toLoadRect (argsOf m c).x) ((Memref.whole cc0_stg1_0 : Memref sig .tc .vmem S128x256 .f32).view.readAt (Elt F) (Rect.unit (s := S128x256) ![0, 0] S128x256.size inb_S128x256_S128x256_0_0).toLoadRect (argsOf m c).w0) ((Memref.whole cc0_stg2_0 : Memref sig .tc .vmem S256x128 .f32).view.readAt (Elt F) (Rect.unit (s := S256x128) ![0, 0] S256x128.size inb_S256x128_S256x128_0_0).toLoadRect (argsOf m c).o0)
theorem r907_eq (c : Dev nD) : r907 m c = Vals.v907 (argsOf m) c := by
  unfold r907; rw [rd0, rd1, rd2]; rfl

abbrev r993 (c : Dev nD) := k0_pay3 (r907 m c) (ld m c 6)
theorem r993_eq (c : Dev nD) : r993 m c = Vals.v993 (argsOf m) c := by
  unfold r993; rw [r907_eq, ld_eq]; rfl

abbrev r1017 (c : Dev nD) := k0_pay4 (r993 m c) (ld m c 5) (ld m c 4)
theorem r1017_eq (c : Dev nD) : r1017 m c = Vals.v1017 (argsOf m) c := by
  unfold r1017; rw [r993_eq, ld_eq, ld_eq]; rfl

abbrev r1041 (c : Dev nD) := k0_pay5 (r1017 m c) (ld m c 3) (ld m c 2)
theorem r1041_eq (c : Dev nD) : r1041 m c = Vals.v1041 (argsOf m) c := by
  unfold r1041; rw [r1017_eq, ld_eq, ld_eq]; rfl

abbrev r1065 (c : Dev nD) := k0_pay6 (r1041 m c) (ld m c 1) (ld m c 0)
theorem r1065_eq (c : Dev nD) : r1065 m c = Vals.v1065 (argsOf m) c := by
  unfold r1065; rw [r1041_eq, ld_eq, ld_eq]; rfl

abbrev r1136 (c : Dev nD) := k0_pay8 (r1065 m c) (ld m c 9) (ld m c 8) (ld m c 7)
theorem r1136_eq (c : Dev nD) : r1136 m c = Vals.v1136 (argsOf m) c := by
  unfold r1136; rw [r1065_eq, ld_eq, ld_eq, ld_eq]; rfl

abbrev r1147 (c : Dev nD) := k0_pay9 (r1136 m c) ((Memref.whole cc0_stg3_0 : Memref sig .tc .vmem S128x256 .f32).view.readAt (Elt F) (Rect.unit (s := S128x256) ![0, 0] S128x256.size inb_S128x256_S128x256_0_0).toLoadRect (argsOf m c).w1) ((Memref.whole cc0_stg4_0 : Memref sig .tc .vmem S256x128 .f32).view.readAt (Elt F) (Rect.unit (s := S256x128) ![0, 0] S256x128.size inb_S256x128_S256x128_0_0).toLoadRect (argsOf m c).o1)
theorem r1147_eq (c : Dev nD) : r1147 m c = Vals.v1147 (argsOf m) c := by
  unfold r1147; rw [r1136_eq, rd3, rd4]; rfl

abbrev r1245 (c : Dev nD) := k0_pay11 (r1147 m c) (ld m c 16) (ld m c 15)
theorem r1245_eq (c : Dev nD) : r1245 m c = Vals.v1245 (argsOf m) c := by
  unfold r1245; rw [r1147_eq, ld_eq, ld_eq]; rfl

abbrev r1269 (c : Dev nD) := k0_pay12 (r1245 m c) (ld m c 14) (ld m c 13)
theorem r1269_eq (c : Dev nD) : r1269 m c = Vals.v1269 (argsOf m) c := by
  unfold r1269; rw [r1245_eq, ld_eq, ld_eq]; rfl

abbrev r1305 (c : Dev nD) := k0_pay13 (r1269 m c) (ld m c 12) (ld m c 11) (ld m c 10)
theorem r1305_eq (c : Dev nD) : r1305 m c = Vals.v1305 (argsOf m) c := by
  unfold r1305; rw [r1269_eq, ld_eq, ld_eq, ld_eq]; rfl

abbrev r1306 (c : Dev nD) := k0_pay14 (r1269 m c) (ld m c 12) (ld m c 11) (ld m c 10)
theorem r1306_eq (c : Dev nD) : r1306 m c = Vals.v1306 (argsOf m) c := by
  unfold r1306; rw [r1269_eq, ld_eq, ld_eq, ld_eq]; rfl

abbrev r1363 (c : Dev nD) := k0_pay16 (r1305 m c) (ld m c 19) (ld m c 18)
theorem r1363_eq (c : Dev nD) : r1363 m c = Vals.v1363 (argsOf m) c := by
  unfold r1363; rw [r1305_eq, ld_eq, ld_eq]; rfl

abbrev r1387 (c : Dev nD) := k0_pay17 (r1363 m c) (ld m c 17) ((Memref.whole cc0_stg5_0 : Memref sig .tc .vmem S128x256 .f32).view.readAt (Elt F) (Rect.unit (s := S128x256) ![0, 0] S128x256.size inb_S128x256_S128x256_0_0).toLoadRect (argsOf m c).w2) ((Memref.whole cc0_stg6_0 : Memref sig .tc .vmem S256x128 .f32).view.readAt (Elt F) (Rect.unit (s := S256x128) ![0, 0] S256x128.size inb_S256x128_S256x128_0_0).toLoadRect (argsOf m c).o2)
theorem r1387_eq (c : Dev nD) : r1387 m c = Vals.v1387 (argsOf m) c := by
  unfold r1387; rw [r1363_eq, ld_eq, rd5, rd6]; rfl

abbrev r1473 (c : Dev nD) := k0_pay19 (r1387 m c) (ld m c 26)
theorem r1473_eq (c : Dev nD) : r1473 m c = Vals.v1473 (argsOf m) c := by
  unfold r1473; rw [r1387_eq, ld_eq]; rfl

abbrev r1497 (c : Dev nD) := k0_pay20 (r1473 m c) (ld m c 25) (ld m c 24)
theorem r1497_eq (c : Dev nD) : r1497 m c = Vals.v1497 (argsOf m) c := by
  unfold r1497; rw [r1473_eq, ld_eq, ld_eq]; rfl

abbrev r1507 (c : Dev nD) := k0_pay21 (ld m c 23)
theorem r1507_eq (c : Dev nD) : r1507 m c = Vals.v1507 (argsOf m) c := by
  unfold r1507; rw [ld_eq]; rfl

abbrev r1533 (c : Dev nD) := k0_pay22 (r1497 m c) (r1507 m c) (ld m c 22) (ld m c 21)
theorem r1533_eq (c : Dev nD) : r1533 m c = Vals.v1533 (argsOf m) c := by
  unfold r1533; rw [r1497_eq, r1507_eq, ld_eq, ld_eq]; rfl

abbrev r1545 (c : Dev nD) := k0_pay23 (r1533 m c) (ld m c 20)
theorem r1545_eq (c : Dev nD) : r1545 m c = Vals.v1545 (argsOf m) c := by
  unfold r1545; rw [r1533_eq, ld_eq]; rfl

abbrev r1591 (c : Dev nD) := k0_pay25 (r1545 m c) (ld m c 29)
theorem r1591_eq (c : Dev nD) : r1591 m c = Vals.v1591 (argsOf m) c := by
  unfold r1591; rw [r1545_eq, ld_eq]; rfl

theorem val1 (c : Dev nD) : k0_pay7 (r1041 m c) (ld m c 1) (ld m c 0) = sentOf m c 1 := by
  rw [r1041_eq, ld_eq, ld_eq]; rfl

theorem val2 (c : Dev nD) : k0_pay10 (r1136 m c) ((Memref.whole cc0_stg3_0 : Memref sig .tc .vmem S128x256 .f32).view.readAt (Elt F) (Rect.unit (s := S128x256) ![0, 0] S128x256.size inb_S128x256_S128x256_0_0).toLoadRect (argsOf m c).w1) ((Memref.whole cc0_stg4_0 : Memref sig .tc .vmem S256x128 .f32).view.readAt (Elt F) (Rect.unit (s := S256x128) ![0, 0] S256x128.size inb_S256x128_S256x128_0_0).toLoadRect (argsOf m c).o1) = sentOf m c 2 := by
  rw [r1136_eq, rd3, rd4]; rfl

theorem val3 (c : Dev nD) : k0_pay15 (r1306 m c) = sentOf m c 3 := by
  rw [r1306_eq]; rfl

theorem val4 (c : Dev nD) : k0_pay18 (r1363 m c) (ld m c 17) ((Memref.whole cc0_stg5_0 : Memref sig .tc .vmem S128x256 .f32).view.readAt (Elt F) (Rect.unit (s := S128x256) ![0, 0] S128x256.size inb_S128x256_S128x256_0_0).toLoadRect (argsOf m c).w2) ((Memref.whole cc0_stg6_0 : Memref sig .tc .vmem S256x128 .f32).view.readAt (Elt F) (Rect.unit (s := S256x128) ![0, 0] S256x128.size inb_S256x128_S256x128_0_0).toLoadRect (argsOf m c).o2) = sentOf m c 4 := by
  rw [r1363_eq, ld_eq, rd5, rd6]; rfl

theorem val5 (c : Dev nD) : k0_pay24 (r1533 m c) (ld m c 20) = sentOf m c 5 := by
  rw [r1533_eq, ld_eq]; rfl

theorem valOut (c : Dev nD) : k0_pay26 (r1591 m c) (ld m c 28) (ld m c 27) = Vals.outv (argsOf m) c := by
  rw [r1591_eq, ld_eq, ld_eq]; rfl

theorem out_written (c : Dev nD) (g7 : Buf (Elt F) ((c : Thread nD τ).loc cc0_stg7_0)) :
    (Memref.whole cc0_stg7_0 : Memref sig .tc .vmem S128x128 .f32).view.writes (Elt F) g7
      [⟨Rect.unit (s := S128x128) ![0, 0] S128x128.size inb_S128x128_S128x128_0_0, k0_pay26 (r1591 m c) (ld m c 28) (ld m c 27)⟩]
      = (outAt m c : Buf (Elt F) ((c : Thread nD τ).loc cc0_stg7_0)) := by
  rw [View.writes_singleton]
  exact (Memref.write_access_unit_zero_univ (Elt F) cc0_stg7_0 hz2 _ g7 _).trans (valOut m c)

end Cert.KernelIdeal.Proto

end
-- ==== Proof.DevEqIdeal.lean ====
import proofs.«900997_g7700000000000998_dist_mlpseq_tp1d_rep_rep_b128_d128_h256_v7x_i32_f32_1_alg».proof.Proof.Gen.KernelIdeal
import proofs.«900997_g7700000000000998_dist_mlpseq_tp1d_rep_rep_b128_d128_h256_v7x_i32_f32_1_alg».proof.Proof.Partner
import Idealize.ShloMosaic.Lib.Decide

set_option synthInstance.maxSize 4096
set_option Elab.async false

namespace Cert.KernelIdeal.DevEq

open Cert.KernelIdeal Cert.KernelIdeal.Gen Idealize.ShloMosaic

-- Chain N of the program names the partner under mask (N - 1) mod 10: checked at each of the 32 devices.
theorem dev1_eq : ∀ c : Dev nD, (⟨k0_dev1 c, k0_dev1_lt c⟩ : Dev nD) = Cert.Mlp.partner c 0 := by decide +kernel
theorem dev2_eq : ∀ c : Dev nD, (⟨k0_dev2 c, k0_dev2_lt c⟩ : Dev nD) = Cert.Mlp.partner c 1 := by decide +kernel
theorem dev3_eq : ∀ c : Dev nD, (⟨k0_dev3 c, k0_dev3_lt c⟩ : Dev nD) = Cert.Mlp.partner c 2 := by decide +kernel
theorem dev4_eq : ∀ c : Dev nD, (⟨k0_dev4 c, k0_dev4_lt c⟩ : Dev nD) = Cert.Mlp.partner c 3 := by decide +kernel
theorem dev5_eq : ∀ c : Dev nD, (⟨k0_dev5 c, k0_dev5_lt c⟩ : Dev nD) = Cert.Mlp.partner c 4 := by decide +kernel
theorem dev6_eq : ∀ c : Dev nD, (⟨k0_dev6 c, k0_dev6_lt c⟩ : Dev nD) = Cert.Mlp.partner c 5 := by decide +kernel
theorem dev7_eq : ∀ c : Dev nD, (⟨k0_dev7 c, k0_dev7_lt c⟩ : Dev nD) = Cert.Mlp.partner c 6 := by decide +kernel
theorem dev8_eq : ∀ c : Dev nD, (⟨k0_dev8 c, k0_dev8_lt c⟩ : Dev nD) = Cert.Mlp.partner c 7 := by decide +kernel
theorem dev9_eq : ∀ c : Dev nD, (⟨k0_dev9 c, k0_dev9_lt c⟩ : Dev nD) = Cert.Mlp.partner c 8 := by decide +kernel
theorem dev10_eq : ∀ c : Dev nD, (⟨k0_dev10 c, k0_dev10_lt c⟩ : Dev nD) = Cert.Mlp.partner c 9 := by decide +kernel
theorem dev11_eq : ∀ c : Dev nD, (⟨k0_dev11 c, k0_dev11_lt c⟩ : Dev nD) = Cert.Mlp.partner c 0 := by decide +kernel
theorem dev12_eq : ∀ c : Dev nD, (⟨k0_dev12 c, k0_dev12_lt c⟩ : Dev nD) = Cert.Mlp.partner c 1 := by decide +kernel
theorem dev13_eq : ∀ c : Dev nD, (⟨k0_dev13 c, k0_dev13_lt c⟩ : Dev nD) = Cert.Mlp.partner c 2 := by decide +kernel
theorem dev14_eq : ∀ c : Dev nD, (⟨k0_dev14 c, k0_dev14_lt c⟩ : Dev nD) = Cert.Mlp.partner c 3 := by decide +kernel
theorem dev15_eq : ∀ c : Dev nD, (⟨k0_dev15 c, k0_dev15_lt c⟩ : Dev nD) = Cert.Mlp.partner c 4 := by decide +kernel
theorem dev16_eq : ∀ c : Dev nD, (⟨k0_dev16 c, k0_dev16_lt c⟩ : Dev nD) = Cert.Mlp.partner c 5 := by decide +kernel
theorem dev17_eq : ∀ c : Dev nD, (⟨k0_dev17 c, k0_dev17_lt c⟩ : Dev nD) = Cert.Mlp.partner c 6 := by decide +kernel
theorem dev18_eq : ∀ c : Dev nD, (⟨k0_dev18 c, k0_dev18_lt c⟩ : Dev nD) = Cert.Mlp.partner c 7 := by decide +kernel
theorem dev19_eq : ∀ c : Dev nD, (⟨k0_dev19 c, k0_dev19_lt c⟩ : Dev nD) = Cert.Mlp.partner c 8 := by decide +kernel
theorem dev20_eq : ∀ c : Dev nD, (⟨k0_dev20 c, k0_dev20_lt c⟩ : Dev nD) = Cert.Mlp.partner c 9 := by decide +kernel
theorem dev21_eq : ∀ c : Dev nD, (⟨k0_dev21 c, k0_dev21_lt c⟩ : Dev nD) = Cert.Mlp.partner c 0 := by decide +kernel
theorem dev22_eq : ∀ c : Dev nD, (⟨k0_dev22 c, k0_dev22_lt c⟩ : Dev nD) = Cert.Mlp.partner c 1 := by decide +kernel
theorem dev23_eq : ∀ c : Dev nD, (⟨k0_dev23 c, k0_dev23_lt c⟩ : Dev nD) = Cert.Mlp.partner c 2 := by decide +kernel
theorem dev24_eq : ∀ c : Dev nD, (⟨k0_dev24 c, k0_dev24_lt c⟩ : Dev nD) = Cert.Mlp.partner c 3 := by decide +kernel
theorem dev25_eq : ∀ c : Dev nD, (⟨k0_dev25 c, k0_dev25_lt c⟩ : Dev nD) = Cert.Mlp.partner c 4 := by decide +kernel
theorem dev26_eq : ∀ c : Dev nD, (⟨k0_dev26 c, k0_dev26_lt c⟩ : Dev nD) = Cert.Mlp.partner c 5 := by decide +kernel
theorem dev27_eq : ∀ c : Dev nD, (⟨k0_dev27 c, k0_dev27_lt c⟩ : Dev nD) = Cert.Mlp.partner c 6 := by decide +kernel
theorem dev28_eq : ∀ c : Dev nD, (⟨k0_dev28 c, k0_dev28_lt c⟩ : Dev nD) = Cert.Mlp.partner c 7 := by decide +kernel
theorem dev29_eq : ∀ c : Dev nD, (⟨k0_dev29 c, k0_dev29_lt c⟩ : Dev nD) = Cert.Mlp.partner c 8 := by decide +kernel
theorem dev30_eq : ∀ c : Dev nD, (⟨k0_dev30 c, k0_dev30_lt c⟩ : Dev nD) = Cert.Mlp.partner c 9 := by decide +kernel
theorem dev31_eq : ∀ c : Dev nD, (⟨k0_dev31 c, k0_dev31_lt c⟩ : Dev nD) = Cert.Mlp.partner c 0 := by decide +kernel
theorem dev32_eq : ∀ c : Dev nD, (⟨k0_dev32 c, k0_dev32_lt c⟩ : Dev nD) = Cert.Mlp.partner c 1 := by decide +kernel
theorem dev33_eq : ∀ c : Dev nD, (⟨k0_dev33 c, k0_dev33_lt c⟩ : Dev nD) = Cert.Mlp.partner c 2 := by decide +kernel
theorem dev34_eq : ∀ c : Dev nD, (⟨k0_dev34 c, k0_dev34_lt c⟩ : Dev nD) = Cert.Mlp.partner c 3 := by decide +kernel
theorem dev35_eq : ∀ c : Dev nD, (⟨k0_dev35 c, k0_dev35_lt c⟩ : Dev nD) = Cert.Mlp.partner c 4 := by decide +kernel
theorem dev36_eq : ∀ c : Dev nD, (⟨k0_dev36 c, k0_dev36_lt c⟩ : Dev nD) = Cert.Mlp.partner c 5 := by decide +kernel
theorem dev37_eq : ∀ c : Dev nD, (⟨k0_dev37 c, k0_dev37_lt c⟩ : Dev nD) = Cert.Mlp.partner c 6 := by decide +kernel
theorem dev38_eq : ∀ c : Dev nD, (⟨k0_dev38 c, k0_dev38_lt c⟩ : Dev nD) = Cert.Mlp.partner c 7 := by decide +kernel
theorem dev39_eq : ∀ c : Dev nD, (⟨k0_dev39 c, k0_dev39_lt c⟩ : Dev nD) = Cert.Mlp.partner c 8 := by decide +kernel
theorem dev40_eq : ∀ c : Dev nD, (⟨k0_dev40 c, k0_dev40_lt c⟩ : Dev nD) = Cert.Mlp.partner c 9 := by decide +kernel
theorem dev41_eq : ∀ c : Dev nD, (⟨k0_dev41 c, k0_dev41_lt c⟩ : Dev nD) = Cert.Mlp.partner c 0 := by decide +kernel
theorem dev42_eq : ∀ c : Dev nD, (⟨k0_dev42 c, k0_dev42_lt c⟩ : Dev nD) = Cert.Mlp.partner c 1 := by decide +kernel
theorem dev43_eq : ∀ c : Dev nD, (⟨k0_dev43 c, k0_dev43_lt c⟩ : Dev nD) = Cert.Mlp.partner c 2 := by decide +kernel
theorem dev44_eq : ∀ c : Dev nD, (⟨k0_dev44 c, k0_dev44_lt c⟩ : Dev nD) = Cert.Mlp.partner c 3 := by decide +kernel
theorem dev45_eq : ∀ c : Dev nD, (⟨k0_dev45 c, k0_dev45_lt c⟩ : Dev nD) = Cert.Mlp.partner c 4 := by decide +kernel
theorem dev46_eq : ∀ c : Dev nD, (⟨k0_dev46 c, k0_dev46_lt c⟩ : Dev nD) = Cert.Mlp.partner c 5 := by decide +kernel
theorem dev47_eq : ∀ c : Dev nD, (⟨k0_dev47 c, k0_dev47_lt c⟩ : Dev nD) = Cert.Mlp.partner c 6 := by decide +kernel
theorem dev48_eq : ∀ c : Dev nD, (⟨k0_dev48 c, k0_dev48_lt c⟩ : Dev nD) = Cert.Mlp.partner c 7 := by decide +kernel
theorem dev49_eq : ∀ c : Dev nD, (⟨k0_dev49 c, k0_dev49_lt c⟩ : Dev nD) = Cert.Mlp.partner c 8 := by decide +kernel
theorem dev50_eq : ∀ c : Dev nD, (⟨k0_dev50 c, k0_dev50_lt c⟩ : Dev nD) = Cert.Mlp.partner c 9 := by decide +kernel

attribute [sl_canon]
  dev1_eq dev2_eq dev3_eq dev4_eq dev5_eq dev6_eq dev7_eq dev8_eq dev9_eq dev10_eq
  dev11_eq dev12_eq dev13_eq dev14_eq dev15_eq dev16_eq dev17_eq dev18_eq dev19_eq dev20_eq
  dev21_eq dev22_eq dev23_eq dev24_eq dev25_eq dev26_eq dev27_eq dev28_eq dev29_eq dev30_eq
  dev31_eq dev32_eq dev33_eq dev34_eq dev35_eq dev36_eq dev37_eq dev38_eq dev39_eq dev40_eq
  dev41_eq dev42_eq dev43_eq dev44_eq dev45_eq dev46_eq dev47_eq dev48_eq dev49_eq dev50_eq

end Cert.KernelIdeal.DevEq
-- ==== Proof.Body.lean ====
import proofs.«900997_g7700000000000998_dist_mlpseq_tp1d_rep_rep_b128_d128_h256_v7x_i32_f32_1_alg».proof.Proof.Steps
import proofs.«900997_g7700000000000998_dist_mlpseq_tp1d_rep_rep_b128_d128_h256_v7x_i32_f32_1_alg».proof.Proof.Joins
import proofs.«900997_g7700000000000998_dist_mlpseq_tp1d_rep_rep_b128_d128_h256_v7x_i32_f32_1_alg».proof.Proof.Stored
import proofs.«900997_g7700000000000998_dist_mlpseq_tp1d_rep_rep_b128_d128_h256_v7x_i32_f32_1_alg».proof.Proof.DevEqIdeal
import Idealize.ShloMosaic.Lib.Tactic

noncomputable section

namespace Cert.KernelIdeal.Proto

open Cert.KernelIdeal Cert.KernelIdeal.Gen Cert.Mlp Cert.KernelIdeal.DevEq

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local sl_rounds] duties_bar duties_exit duties_send duties_recv amount_bar amount_exit amount_send amount_recv
  expect_bar expect_exit expect_send expect_recv payload_exit payload_send

theorem payload_recv_pts (c : Dev nD) (k : Fin 30) (d : Fin 10) : (RdK (F := F) m).payload (recvCell c k) 0 d
    = (View.loc (c : Thread nD τ) (recvSlot k).view ↦[(recvSlot k).view.set]{fullShare} landed m (sbuf m) c k) := by
  rw [payload_recv]; rfl
attribute [local sl_rounds] payload_recv_pts

@[local sl_canon] theorem canon_barS (h) : (SemArray.scalar (sig.barrier 0 h) : Sems sig S_).sem = barS := rfl
@[local sl_canon] theorem canon_exitS : (cc0_scoped0 : Sems sig S_).sem = exitS := rfl

theorem pb_0 (c : Dev nD) : (RdK (F := F) m).payload (barCell (partner c 0)) 0 (0 : Fin 10)
    = iprop((∃ f, View.loc (c : Thread nD τ) (recvSlot 0).view ↦[(recvSlot 0).view.set]{fullShare} f)
        ∗ (∃ f, View.loc (c : Thread nD τ) (recvSlot 10).view ↦[(recvSlot 10).view.set]{fullShare} f)
        ∗ (∃ f, View.loc (c : Thread nD τ) (recvSlot 20).view ↦[(recvSlot 20).view.set]{fullShare} f)) := by
  rw [payload_bar]; unfold barPay recvEx recvPts; rw [partner_partner]; rfl
theorem pb_1 (c : Dev nD) : (RdK (F := F) m).payload (barCell (partner c 1)) 0 (1 : Fin 10)
    = iprop((∃ f, View.loc (c : Thread nD τ) (recvSlot 1).view ↦[(recvSlot 1).view.set]{fullShare} f)
        ∗ (∃ f, View.loc (c : Thread nD τ) (recvSlot 11).view ↦[(recvSlot 11).view.set]{fullShare} f)
        ∗ (∃ f, View.loc (c : Thread nD τ) (recvSlot 21).view ↦[(recvSlot 21).view.set]{fullShare} f)) := by
  rw [payload_bar]; unfold barPay recvEx recvPts; rw [partner_partner]; rfl
theorem pb_2 (c : Dev nD) : (RdK (F := F) m).payload (barCell (partner c 2)) 0 (2 : Fin 10)
    = iprop((∃ f, View.loc (c : Thread nD τ) (recvSlot 2).view ↦[(recvSlot 2).view.set]{fullShare} f)
        ∗ (∃ f, View.loc (c : Thread nD τ) (recvSlot 12).view ↦[(recvSlot 12).view.set]{fullShare} f)
        ∗ (∃ f, View.loc (c : Thread nD τ) (recvSlot 22).view ↦[(recvSlot 22).view.set]{fullShare} f)) := by
  rw [payload_bar]; unfold barPay recvEx recvPts; rw [partner_partner]; rfl
theorem pb_3 (c : Dev nD) : (RdK (F := F) m).payload (barCell (partner c 3)) 0 (3 : Fin 10)
    = iprop((∃ f, View.loc (c : Thread nD τ) (recvSlot 3).view ↦[(recvSlot 3).view.set]{fullShare} f)
        ∗ (∃ f, View.loc (c : Thread nD τ) (recvSlot 13).view ↦[(recvSlot 13).view.set]{fullShare} f)
        ∗ (∃ f, View.loc (c : Thread nD τ) (recvSlot 23).view ↦[(recvSlot 23).view.set]{fullShare} f)) := by
  rw [payload_bar]; unfold barPay recvEx recvPts; rw [partner_partner]; rfl
theorem pb_4 (c : Dev nD) : (RdK (F := F) m).payload (barCell (partner c 4)) 0 (4 : Fin 10)
    = iprop((∃ f, View.loc (c : Thread nD τ) (recvSlot 4).view ↦[(recvSlot 4).view.set]{fullShare} f)
        ∗ (∃ f, View.loc (c : Thread nD τ) (recvSlot 14).view ↦[(recvSlot 14).view.set]{fullShare} f)
        ∗ (∃ f, View.loc (c : Thread nD τ) (recvSlot 24).view ↦[(recvSlot 24).view.set]{fullShare} f)) := by
  rw [payload_bar]; unfold barPay recvEx recvPts; rw [partner_partner]; rfl
theorem pb_5 (c : Dev nD) : (RdK (F := F) m).payload (barCell (partner c 5)) 0 (5 : Fin 10)
    = iprop((∃ f, View.loc (c : Thread nD τ) (recvSlot 5).view ↦[(recvSlot 5).view.set]{fullShare} f)
        ∗ (∃ f, View.loc (c : Thread nD τ) (recvSlot 15).view ↦[(recvSlot 15).view.set]{fullShare} f)
        ∗ (∃ f, View.loc (c : Thread nD τ) (recvSlot 25).view ↦[(recvSlot 25).view.set]{fullShare} f)) := by
  rw [payload_bar]; unfold barPay recvEx recvPts; rw [partner_partner]; rfl
theorem pb_6 (c : Dev nD) : (RdK (F := F) m).payload (barCell (partner c 6)) 0 (6 : Fin 10)
    = iprop((∃ f, View.loc (c : Thread nD τ) (recvSlot 6).view ↦[(recvSlot 6).view.set]{fullShare} f)
        ∗ (∃ f, View.loc (c : Thread nD τ) (recvSlot 16).view ↦[(recvSlot 16).view.set]{fullShare} f)
        ∗ (∃ f, View.loc (c : Thread nD τ) (recvSlot 26).view ↦[(recvSlot 26).view.set]{fullShare} f)) := by
  rw [payload_bar]; unfold barPay recvEx recvPts; rw [partner_partner]; rfl
theorem pb_7 (c : Dev nD) : (RdK (F := F) m).payload (barCell (partner c 7)) 0 (7 : Fin 10)
    = iprop((∃ f, View.loc (c : Thread nD τ) (recvSlot 7).view ↦[(recvSlot 7).view.set]{fullShare} f)
        ∗ (∃ f, View.loc (c : Thread nD τ) (recvSlot 17).view ↦[(recvSlot 17).view.set]{fullShare} f)
        ∗ (∃ f, View.loc (c : Thread nD τ) (recvSlot 27).view ↦[(recvSlot 27).view.set]{fullShare} f)) := by
  rw [payload_bar]; unfold barPay recvEx recvPts; rw [partner_partner]; rfl
theorem pb_8 (c : Dev nD) : (RdK (F := F) m).payload (barCell (partner c 8)) 0 (8 : Fin 10)
    = iprop((∃ f, View.loc (c : Thread nD τ) (recvSlot 8).view ↦[(recvSlot 8).view.set]{fullShare} f)
        ∗ (∃ f, View.loc (c : Thread nD τ) (recvSlot 18).view ↦[(recvSlot 18).view.set]{fullShare} f)
        ∗ (∃ f, View.loc (c : Thread nD τ) (recvSlot 28).view ↦[(recvSlot 28).view.set]{fullShare} f)) := by
  rw [payload_bar]; unfold barPay recvEx recvPts; rw [partner_partner]; rfl
theorem pb_9 (c : Dev nD) : (RdK (F := F) m).payload (barCell (partner c 9)) 0 (9 : Fin 10)
    = iprop((∃ f, View.loc (c : Thread nD τ) (recvSlot 9).view ↦[(recvSlot 9).view.set]{fullShare} f)
        ∗ (∃ f, View.loc (c : Thread nD τ) (recvSlot 19).view ↦[(recvSlot 19).view.set]{fullShare} f)
        ∗ (∃ f, View.loc (c : Thread nD τ) (recvSlot 29).view ↦[(recvSlot 29).view.set]{fullShare} f)) := by
  rw [payload_bar]; unfold barPay recvEx recvPts; rw [partner_partner]; rfl
attribute [local sl_rounds] pb_0 pb_1 pb_2 pb_3 pb_4 pb_5 pb_6 pb_7 pb_8 pb_9

def lvS (sm : SemLoc sig) : ℕ := lv (((0 : Dev nD) : Thread nD τ), sm) ()

theorem mayWait_flat (c : Dev nD) (n : ℕ) (O : CellTallies nD τ sig Unit) (hO : O = owedK c n) (hn : n ≤ 50) (sm : SemLoc sig)
    (hlt : ∀ i < 50, 50 - n ≤ i → lvS sm < lvPay i) :
    (levAts L lv : sProp 𝕄) ⊢ MayWait (c : Thread nD τ) sm () O := by
  subst hO; exact mayWait_owedK c sm n hn (fun i h1 h2 => hlt i h2 h1)

def bodyPost (c : Dev nD) : sProp 𝕄 :=
  iprop(((Memref.whole cc0_stg7_0 : Memref sig .tc .vmem S128x128 .f32).view.loc (c : Thread nD τ) ↦{fullShare} (outAt m c : Buf (Elt F) ((c : Thread nD τ).loc cc0_stg7_0)))
    ∗ scratch c
    ∗ (∃ W', owes (c : Thread nD τ) 0 W')
    ∗ ((Memref.whole cc0_stg0_0 : Memref sig .tc .vmem S128x128 .f32).view.loc (c : Thread nD τ) ↦{fullShare} (argsOf m c).x)
    ∗ ((Memref.whole cc0_stg1_0 : Memref sig .tc .vmem S128x256 .f32).view.loc (c : Thread nD τ) ↦{fullShare} (argsOf m c).w0)
    ∗ ((Memref.whole cc0_stg2_0 : Memref sig .tc .vmem S256x128 .f32).view.loc (c : Thread nD τ) ↦{fullShare} (argsOf m c).o0)
    ∗ ((Memref.whole cc0_stg3_0 : Memref sig .tc .vmem S128x256 .f32).view.loc (c : Thread nD τ) ↦{fullShare} (argsOf m c).w1)
    ∗ ((Memref.whole cc0_stg4_0 : Memref sig .tc .vmem S256x128 .f32).view.loc (c : Thread nD τ) ↦{fullShare} (argsOf m c).o1)
    ∗ ((Memref.whole cc0_stg5_0 : Memref sig .tc .vmem S128x256 .f32).view.loc (c : Thread nD τ) ↦{fullShare} (argsOf m c).w2)
    ∗ ((Memref.whole cc0_stg6_0 : Memref sig .tc .vmem S256x128 .f32).view.loc (c : Thread nD τ) ↦{fullShare} (argsOf m c).o2)
    ∗ semVal (exitCell c) 0
    ∗ semVal (sendCell c 0) 0
    ∗ semVal (sendCell c 1) 0
    ∗ semVal (sendCell c 2) 0
    ∗ semVal (sendCell c 3) 0
    ∗ semVal (sendCell c 4) 0
    ∗ semVal (sendCell c 5) 0
    ∗ semVal (sendCell c 6) 0
    ∗ semVal (sendCell c 7) 0
    ∗ semVal (sendCell c 8) 0
    ∗ semVal (sendCell c 9) 0
    ∗ semVal (sendCell c 10) 0
    ∗ semVal (sendCell c 11) 0
    ∗ semVal (sendCell c 12) 0
    ∗ semVal (sendCell c 13) 0
    ∗ semVal (sendCell c 14) 0
    ∗ semVal (sendCell c 15) 0
    ∗ semVal (sendCell c 16) 0
    ∗ semVal (sendCell c 17) 0
    ∗ semVal (sendCell c 18) 0
    ∗ semVal (sendCell c 19) 0
    ∗ semVal (sendCell c 20) 0
    ∗ semVal (sendCell c 21) 0
    ∗ semVal (sendCell c 22) 0
    ∗ semVal (sendCell c 23) 0
    ∗ semVal (sendCell c 24) 0
    ∗ semVal (sendCell c 25) 0
    ∗ semVal (sendCell c 26) 0
    ∗ semVal (sendCell c 27) 0
    ∗ semVal (sendCell c 28) 0
    ∗ semVal (sendCell c 29) 0
    ∗ semVal (recvCell c 0) 0
    ∗ semVal (recvCell c 1) 0
    ∗ semVal (recvCell c 2) 0
    ∗ semVal (recvCell c 3) 0
    ∗ semVal (recvCell c 4) 0
    ∗ semVal (recvCell c 5) 0
    ∗ semVal (recvCell c 6) 0
    ∗ semVal (recvCell c 7) 0
    ∗ semVal (recvCell c 8) 0
    ∗ semVal (recvCell c 9) 0
    ∗ semVal (recvCell c 10) 0
    ∗ semVal (recvCell c 11) 0
    ∗ semVal (recvCell c 12) 0
    ∗ semVal (recvCell c 13) 0
    ∗ semVal (recvCell c 14) 0
    ∗ semVal (recvCell c 15) 0
    ∗ semVal (recvCell c 16) 0
    ∗ semVal (recvCell c 17) 0
    ∗ semVal (recvCell c 18) 0
    ∗ semVal (recvCell c 19) 0
    ∗ semVal (recvCell c 20) 0
    ∗ semVal (recvCell c 21) 0
    ∗ semVal (recvCell c 22) 0
    ∗ semVal (recvCell c 23) 0
    ∗ semVal (recvCell c 24) 0
    ∗ semVal (recvCell c 25) 0
    ∗ semVal (recvCell c 26) 0
    ∗ semVal (recvCell c 27) 0
    ∗ semVal (recvCell c 28) 0
    ∗ semVal (recvCell c 29) 0)

-- The debt at launch is the sum of its fifty tallies, the last payment first.
set_option maxRecDepth 65536 in
theorem O₀_flat (c : Dev nD) : O₀ c = 0 + tallyAt (exitCell (partner c 9)) () 1 + tallyAt (exitCell (partner c 8)) () 1 + tallyAt (exitCell (partner c 7)) () 1 + tallyAt (exitCell (partner c 6)) () 1 + tallyAt (exitCell (partner c 5)) () 1 + tallyAt (exitCell (partner c 4)) () 1 + tallyAt (exitCell (partner c 3)) () 1 + tallyAt (exitCell (partner c 2)) () 1 + tallyAt (exitCell (partner c 1)) () 1 + tallyAt (exitCell (partner c 0)) () 1 + tallyAt (recvCell (partner c 9) 29) () N + tallyAt (recvCell (partner c 8) 28) () N + tallyAt (recvCell (partner c 7) 27) () N + tallyAt (recvCell (partner c 6) 26) () N + tallyAt (recvCell (partner c 5) 25) () N + tallyAt (recvCell (partner c 4) 24) () N + tallyAt (recvCell (partner c 3) 23) () N + tallyAt (recvCell (partner c 2) 22) () N + tallyAt (recvCell (partner c 1) 21) () N + tallyAt (recvCell (partner c 0) 20) () N + tallyAt (recvCell (partner c 9) 19) () N + tallyAt (recvCell (partner c 8) 18) () N + tallyAt (recvCell (partner c 7) 17) () N + tallyAt (recvCell (partner c 6) 16) () N + tallyAt (recvCell (partner c 5) 15) () N + tallyAt (recvCell (partner c 4) 14) () N + tallyAt (recvCell (partner c 3) 13) () N + tallyAt (recvCell (partner c 2) 12) () N + tallyAt (recvCell (partner c 1) 11) () N + tallyAt (recvCell (partner c 0) 10) () N + tallyAt (recvCell (partner c 9) 9) () N + tallyAt (recvCell (partner c 8) 8) () N + tallyAt (recvCell (partner c 7) 7) () N + tallyAt (recvCell (partner c 6) 6) () N + tallyAt (recvCell (partner c 5) 5) () N + tallyAt (recvCell (partner c 4) 4) () N + tallyAt (recvCell (partner c 3) 3) () N + tallyAt (recvCell (partner c 2) 2) () N + tallyAt (recvCell (partner c 1) 1) () N + tallyAt (recvCell (partner c 0) 0) () N + tallyAt (barCell (partner c 9)) () 1 + tallyAt (barCell (partner c 8)) () 1 + tallyAt (barCell (partner c 7)) () 1 + tallyAt (barCell (partner c 6)) () 1 + tallyAt (barCell (partner c 5)) () 1 + tallyAt (barCell (partner c 4)) () 1 + tallyAt (barCell (partner c 3)) () 1 + tallyAt (barCell (partner c 2)) () 1 + tallyAt (barCell (partner c 1)) () 1 + tallyAt (barCell (partner c 0)) () 1 := rfl

-- From the records: the invariants of slot k's send and receive cells on d and of the receive cell on p that d's copy k pays, and that the two cells d pays are at round 0.
theorem recs_slot (K : Dev nD × CK → ℕ) (d p : Dev nD) (k : Fin 30) : records m K ⊢ iprop(
    cellInv ER (RdK m) (K (d, CK.send k)) (sendCell d k) ∗ cellInv ER (RdK m) (K (d, CK.recv k)) (recvCell d k)
    ∗ cellInv ER (RdK m) (K (p, CK.recv k)) (recvCell p k) ∗ reached ER (recvCell p k) 0 ∗ reached ER (sendCell d k) 0) := by
  iintro #H
  isplitr; · iapply (inv_at m K (d, CK.send k)); iexact H
  isplitr; · iapply (inv_at m K (d, CK.recv k)); iexact H
  isplitr; · iapply (inv_at m K (p, CK.recv k)); iexact H
  isplitr; · iapply (reached_at m K (p, CK.recv k)); iexact H
  iapply (reached_at m K (d, CK.send k)); iexact H

-- From the records: the invariants of one device's barrier and exit cells, and that both are at round 0.
theorem recs_gate (K : Dev nD × CK → ℕ) (p : Dev nD) : records m K ⊢ iprop(
    cellInv ER (RdK m) (K (p, CK.bar)) (barCell p) ∗ cellInv ER (RdK m) (K (p, CK.exit)) (exitCell p)
    ∗ reached ER (barCell p) 0 ∗ reached ER (exitCell p) 0) := by
  iintro #H
  isplitr; · iapply (inv_at m K (p, CK.bar)); iexact H
  isplitr; · iapply (inv_at m K (p, CK.exit)); iexact H
  isplitr; · iapply (reached_at m K (p, CK.bar)); iexact H
  iapply (reached_at m K (p, CK.exit)); iexact H

-- One device's body from the resources as they are grouped at launch: the persistent facts are read off the records first, then the positions, tokens, credits and slots are opened one hypothesis each.
set_option maxHeartbeats 3000000 in
set_option maxRecDepth 65536 in
theorem sound_body (Kn : Dev nD × CK → ℕ) (c : Dev nD) (W : Waits sig Unit)
    (g7 : Buf (Elt F) ((c : Thread nD τ).loc cc0_stg7_0))
    (fs0 : Buf (Elt F) ((c : Thread nD τ).loc cc0_scratch0)) (fr : Buf (Elt F) ((c : Thread nD τ).loc cc0_scratch1))
    (Q : PUnit → sProp 𝕄) :
    iprop(records m Kn ∗ levAts L lv ∗ ownPos c ∗ payToks c ∗ creds c ∗ owes (c : Thread nD τ) (O₀ c) W
      ∗ ((Memref.whole cc0_stg0_0 : Memref sig .tc .vmem S128x128 .f32).view.loc (c : Thread nD τ) ↦{fullShare} (argsOf m c).x)
      ∗ ((Memref.whole cc0_stg1_0 : Memref sig .tc .vmem S128x256 .f32).view.loc (c : Thread nD τ) ↦{fullShare} (argsOf m c).w0)
      ∗ ((Memref.whole cc0_stg2_0 : Memref sig .tc .vmem S256x128 .f32).view.loc (c : Thread nD τ) ↦{fullShare} (argsOf m c).o0)
      ∗ ((Memref.whole cc0_stg3_0 : Memref sig .tc .vmem S128x256 .f32).view.loc (c : Thread nD τ) ↦{fullShare} (argsOf m c).w1)
      ∗ ((Memref.whole cc0_stg4_0 : Memref sig .tc .vmem S256x128 .f32).view.loc (c : Thread nD τ) ↦{fullShare} (argsOf m c).o1)
      ∗ ((Memref.whole cc0_stg5_0 : Memref sig .tc .vmem S128x256 .f32).view.loc (c : Thread nD τ) ↦{fullShare} (argsOf m c).w2)
      ∗ ((Memref.whole cc0_stg6_0 : Memref sig .tc .vmem S256x128 .f32).view.loc (c : Thread nD τ) ↦{fullShare} (argsOf m c).o2)
      ∗ ((Memref.whole cc0_stg7_0 : Memref sig .tc .vmem S128x128 .f32).view.loc (c : Thread nD τ) ↦{fullShare} g7)
      ∗ (((c : Thread nD τ).loc cc0_scratch0) ↦{fullShare} fs0)
      ∗ (((c : Thread nD τ).loc cc0_scratch1) ↦{fullShare} fr)
      ∗ (bodyPost m c -∗ Q ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_scratch0) (Memref.isWhole_whole _) (Memref.whole cc0_scratch1) (Memref.isWhole_whole _)
            cc0_scratch2 cc0_scratch3 cc0_scoped0) Q := by
  have hS := (send_split (F := F) c fs0).1
  have hR := (recv_split (F := F) c fr).1
  rw [bigSep_fin6] at hS; rw [bigSep_fin30] at hR
  unfold sendPts at hS; unfold recvPts at hR
  unfold ownPos payToks creds
  rw [O₀_flat c, bigSep_fin30, bigSep_fin30, bigSep_fin30, bigSep_fin30, bigSep_fin30, bigSep_fin10, bigSep_fin10]
  iintro ⟨#Hrec, Hrest⟩
  ihave ⟨#HIbar, #HIexit, -, -⟩ := recs_gate m Kn c $$ Hrec
  ihave ⟨#HPb0, #HPe0, #HRb0, #HRe0⟩ := recs_gate m Kn (partner c 0) $$ Hrec
  ihave ⟨#HPb1, #HPe1, #HRb1, #HRe1⟩ := recs_gate m Kn (partner c 1) $$ Hrec
  ihave ⟨#HPb2, #HPe2, #HRb2, #HRe2⟩ := recs_gate m Kn (partner c 2) $$ Hrec
  ihave ⟨#HPb3, #HPe3, #HRb3, #HRe3⟩ := recs_gate m Kn (partner c 3) $$ Hrec
  ihave ⟨#HPb4, #HPe4, #HRb4, #HRe4⟩ := recs_gate m Kn (partner c 4) $$ Hrec
  ihave ⟨#HPb5, #HPe5, #HRb5, #HRe5⟩ := recs_gate m Kn (partner c 5) $$ Hrec
  ihave ⟨#HPb6, #HPe6, #HRb6, #HRe6⟩ := recs_gate m Kn (partner c 6) $$ Hrec
  ihave ⟨#HPb7, #HPe7, #HRb7, #HRe7⟩ := recs_gate m Kn (partner c 7) $$ Hrec
  ihave ⟨#HPb8, #HPe8, #HRb8, #HRe8⟩ := recs_gate m Kn (partner c 8) $$ Hrec
  ihave ⟨#HPb9, #HPe9, #HRb9, #HRe9⟩ := recs_gate m Kn (partner c 9) $$ Hrec
  ihave ⟨#HIs0, #HIr0, #HPr0, #HRr0, #HRs0⟩ := recs_slot m Kn c (partner c 0) 0 $$ Hrec
  ihave ⟨#HIs1, #HIr1, #HPr1, #HRr1, #HRs1⟩ := recs_slot m Kn c (partner c 1) 1 $$ Hrec
  ihave ⟨#HIs2, #HIr2, #HPr2, #HRr2, #HRs2⟩ := recs_slot m Kn c (partner c 2) 2 $$ Hrec
  ihave ⟨#HIs3, #HIr3, #HPr3, #HRr3, #HRs3⟩ := recs_slot m Kn c (partner c 3) 3 $$ Hrec
  ihave ⟨#HIs4, #HIr4, #HPr4, #HRr4, #HRs4⟩ := recs_slot m Kn c (partner c 4) 4 $$ Hrec
  ihave ⟨#HIs5, #HIr5, #HPr5, #HRr5, #HRs5⟩ := recs_slot m Kn c (partner c 5) 5 $$ Hrec
  ihave ⟨#HIs6, #HIr6, #HPr6, #HRr6, #HRs6⟩ := recs_slot m Kn c (partner c 6) 6 $$ Hrec
  ihave ⟨#HIs7, #HIr7, #HPr7, #HRr7, #HRs7⟩ := recs_slot m Kn c (partner c 7) 7 $$ Hrec
  ihave ⟨#HIs8, #HIr8, #HPr8, #HRr8, #HRs8⟩ := recs_slot m Kn c (partner c 8) 8 $$ Hrec
  ihave ⟨#HIs9, #HIr9, #HPr9, #HRr9, #HRs9⟩ := recs_slot m Kn c (partner c 9) 9 $$ Hrec
  ihave ⟨#HIs10, #HIr10, #HPr10, #HRr10, #HRs10⟩ := recs_slot m Kn c (partner c 0) 10 $$ Hrec
  ihave ⟨#HIs11, #HIr11, #HPr11, #HRr11, #HRs11⟩ := recs_slot m Kn c (partner c 1) 11 $$ Hrec
  ihave ⟨#HIs12, #HIr12, #HPr12, #HRr12, #HRs12⟩ := recs_slot m Kn c (partner c 2) 12 $$ Hrec
  ihave ⟨#HIs13, #HIr13, #HPr13, #HRr13, #HRs13⟩ := recs_slot m Kn c (partner c 3) 13 $$ Hrec
  ihave ⟨#HIs14, #HIr14, #HPr14, #HRr14, #HRs14⟩ := recs_slot m Kn c (partner c 4) 14 $$ Hrec
  ihave ⟨#HIs15, #HIr15, #HPr15, #HRr15, #HRs15⟩ := recs_slot m Kn c (partner c 5) 15 $$ Hrec
  ihave ⟨#HIs16, #HIr16, #HPr16, #HRr16, #HRs16⟩ := recs_slot m Kn c (partner c 6) 16 $$ Hrec
  ihave ⟨#HIs17, #HIr17, #HPr17, #HRr17, #HRs17⟩ := recs_slot m Kn c (partner c 7) 17 $$ Hrec
  ihave ⟨#HIs18, #HIr18, #HPr18, #HRr18, #HRs18⟩ := recs_slot m Kn c (partner c 8) 18 $$ Hrec
  ihave ⟨#HIs19, #HIr19, #HPr19, #HRr19, #HRs19⟩ := recs_slot m Kn c (partner c 9) 19 $$ Hrec
  ihave ⟨#HIs20, #HIr20, #HPr20, #HRr20, #HRs20⟩ := recs_slot m Kn c (partner c 0) 20 $$ Hrec
  ihave ⟨#HIs21, #HIr21, #HPr21, #HRr21, #HRs21⟩ := recs_slot m Kn c (partner c 1) 21 $$ Hrec
  ihave ⟨#HIs22, #HIr22, #HPr22, #HRr22, #HRs22⟩ := recs_slot m Kn c (partner c 2) 22 $$ Hrec
  ihave ⟨#HIs23, #HIr23, #HPr23, #HRr23, #HRs23⟩ := recs_slot m Kn c (partner c 3) 23 $$ Hrec
  ihave ⟨#HIs24, #HIr24, #HPr24, #HRr24, #HRs24⟩ := recs_slot m Kn c (partner c 4) 24 $$ Hrec
  ihave ⟨#HIs25, #HIr25, #HPr25, #HRr25, #HRs25⟩ := recs_slot m Kn c (partner c 5) 25 $$ Hrec
  ihave ⟨#HIs26, #HIr26, #HPr26, #HRr26, #HRs26⟩ := recs_slot m Kn c (partner c 6) 26 $$ Hrec
  ihave ⟨#HIs27, #HIr27, #HPr27, #HRr27, #HRs27⟩ := recs_slot m Kn c (partner c 7) 27 $$ Hrec
  ihave ⟨#HIs28, #HIr28, #HPr28, #HRr28, #HRs28⟩ := recs_slot m Kn c (partner c 8) 28 $$ Hrec
  ihave ⟨#HIs29, #HIr29, #HPr29, #HRr29, #HRs29⟩ := recs_slot m Kn c (partner c 9) 29 $$ Hrec
  icases Hrest with ⟨#Hlev, ⟨HaB, HaE, ⟨HaS0, HaS1, HaS2, HaS3, HaS4, HaS5, HaS6, HaS7, HaS8, HaS9, HaS10, HaS11, HaS12, HaS13, HaS14, HaS15, HaS16, HaS17, HaS18, HaS19, HaS20, HaS21, HaS22, HaS23, HaS24, HaS25, HaS26, HaS27, HaS28, HaS29⟩, ⟨HaR0, HaR1, HaR2, HaR3, HaR4, HaR5, HaR6, HaR7, HaR8, HaR9, HaR10, HaR11, HaR12, HaR13, HaR14, HaR15, HaR16, HaR17, HaR18, HaR19, HaR20, HaR21, HaR22, HaR23, HaR24, HaR25, HaR26, HaR27, HaR28, HaR29⟩⟩, ⟨⟨HtB0, HtB1, HtB2, HtB3, HtB4, HtB5, HtB6, HtB7, HtB8, HtB9⟩, ⟨HtR0, HtR1, HtR2, HtR3, HtR4, HtR5, HtR6, HtR7, HtR8, HtR9, HtR10, HtR11, HtR12, HtR13, HtR14, HtR15, HtR16, HtR17, HtR18, HtR19, HtR20, HtR21, HtR22, HtR23, HtR24, HtR25, HtR26, HtR27, HtR28, HtR29⟩, ⟨HtS0, HtS1, HtS2, HtS3, HtS4, HtS5, HtS6, HtS7, HtS8, HtS9, HtS10, HtS11, HtS12, HtS13, HtS14, HtS15, HtS16, HtS17, HtS18, HtS19, HtS20, HtS21, HtS22, HtS23, HtS24, HtS25, HtS26, HtS27, HtS28, HtS29⟩, ⟨HtE0, HtE1, HtE2, HtE3, HtE4, HtE5, HtE6, HtE7, HtE8, HtE9⟩⟩, ⟨HcB, ⟨HcR0, HcR1, HcR2, HcR3, HcR4, HcR5, HcR6, HcR7, HcR8, HcR9, HcR10, HcR11, HcR12, HcR13, HcR14, HcR15, HcR16, HcR17, HcR18, HcR19, HcR20, HcR21, HcR22, HcR23, HcR24, HcR25, HcR26, HcR27, HcR28, HcR29⟩, HcE⟩, HO, Hg0, Hg1, Hg2, Hg3, Hg4, Hg5, Hg6, Hg7, Hs0, Hs1, Hk⟩
  ihave ⟨Hss0, Hss1, Hss2, Hss3, Hss4, Hss5⟩ := hS $$ Hs0
  ihave ⟨Hrs0, Hrs1, Hrs2, Hrs3, Hrs4, Hrs5, Hrs6, Hrs7, Hrs8, Hrs9, Hrs10, Hrs11, Hrs12, Hrs13, Hrs14, Hrs15, Hrs16, Hrs17, Hrs18, Hrs19, Hrs20, Hrs21, Hrs22, Hrs23, Hrs24, Hrs25, Hrs26, Hrs27, Hrs28, Hrs29⟩ := hR $$ Hs1
  clear hS hR
  irevert Hrs0 Hrs10 Hrs20 Hrs1 Hrs11 Hrs21 Hrs2 Hrs12 Hrs22 Hrs3 Hrs13 Hrs23 Hrs4 Hrs14 Hrs24 Hrs5 Hrs15 Hrs25 Hrs6 Hrs16 Hrs26 Hrs7 Hrs17 Hrs27 Hrs8 Hrs18 Hrs28 Hrs9 Hrs19 Hrs29
  iintro Hrs0 Hrs10 Hrs20 Hrs1 Hrs11 Hrs21 Hrs2 Hrs12 Hrs22 Hrs3 Hrs13 Hrs23 Hrs4 Hrs14 Hrs24 Hrs5 Hrs15 Hrs25 Hrs6 Hrs16 Hrs26 Hrs7 Hrs17 Hrs27 Hrs8 Hrs18 Hrs28 Hrs9 Hrs19 Hrs29
  have hmw40 : ∀ sm : SemLoc sig, (∀ i < 50, 50 - 40 ≤ i → lvS sm < lvPay i) → ((levAts L lv : sProp 𝕄) ⊢ MayWait (c : Thread nD τ) sm () (0 + tallyAt (exitCell (partner c 9)) () 1 + tallyAt (exitCell (partner c 8)) () 1 + tallyAt (exitCell (partner c 7)) () 1 + tallyAt (exitCell (partner c 6)) () 1 + tallyAt (exitCell (partner c 5)) () 1 + tallyAt (exitCell (partner c 4)) () 1 + tallyAt (exitCell (partner c 3)) () 1 + tallyAt (exitCell (partner c 2)) () 1 + tallyAt (exitCell (partner c 1)) () 1 + tallyAt (exitCell (partner c 0)) () 1 + tallyAt (recvCell (partner c 9) 29) () N + tallyAt (recvCell (partner c 8) 28) () N + tallyAt (recvCell (partner c 7) 27) () N + tallyAt (recvCell (partner c 6) 26) () N + tallyAt (recvCell (partner c 5) 25) () N + tallyAt (recvCell (partner c 4) 24) () N + tallyAt (recvCell (partner c 3) 23) () N + tallyAt (recvCell (partner c 2) 22) () N + tallyAt (recvCell (partner c 1) 21) () N + tallyAt (recvCell (partner c 0) 20) () N + tallyAt (recvCell (partner c 9) 19) () N + tallyAt (recvCell (partner c 8) 18) () N + tallyAt (recvCell (partner c 7) 17) () N + tallyAt (recvCell (partner c 6) 16) () N + tallyAt (recvCell (partner c 5) 15) () N + tallyAt (recvCell (partner c 4) 14) () N + tallyAt (recvCell (partner c 3) 13) () N + tallyAt (recvCell (partner c 2) 12) () N + tallyAt (recvCell (partner c 1) 11) () N + tallyAt (recvCell (partner c 0) 10) () N + tallyAt (recvCell (partner c 9) 9) () N + tallyAt (recvCell (partner c 8) 8) () N + tallyAt (recvCell (partner c 7) 7) () N + tallyAt (recvCell (partner c 6) 6) () N + tallyAt (recvCell (partner c 5) 5) () N + tallyAt (recvCell (partner c 4) 4) () N + tallyAt (recvCell (partner c 3) 3) () N + tallyAt (recvCell (partner c 2) 2) () N + tallyAt (recvCell (partner c 1) 1) () N + tallyAt (recvCell (partner c 0) 0) () N)) :=
    mayWait_flat c 40 _ (by simp only [owedK, payCell, payAmt, mk10, mk30]; rfl) (by decide)
  sl_exec_parts (disch := decide)
  clear hmw40

  ihave Hp := (bar_payloads m c) $$ HaB_pay1
  icases Hp with ⟨⟨⟨%fd0, Hd0⟩, ⟨%fd10, Hd10⟩, ⟨%fd20, Hd20⟩⟩, ⟨⟨%fd1, Hd1⟩, ⟨%fd11, Hd11⟩, ⟨%fd21, Hd21⟩⟩, ⟨⟨%fd2, Hd2⟩, ⟨%fd12, Hd12⟩, ⟨%fd22, Hd22⟩⟩, ⟨⟨%fd3, Hd3⟩, ⟨%fd13, Hd13⟩, ⟨%fd23, Hd23⟩⟩, ⟨⟨%fd4, Hd4⟩, ⟨%fd14, Hd14⟩, ⟨%fd24, Hd24⟩⟩, ⟨⟨%fd5, Hd5⟩, ⟨%fd15, Hd15⟩, ⟨%fd25, Hd25⟩⟩, ⟨⟨%fd6, Hd6⟩, ⟨%fd16, Hd16⟩, ⟨%fd26, Hd26⟩⟩, ⟨⟨%fd7, Hd7⟩, ⟨%fd17, Hd17⟩, ⟨%fd27, Hd27⟩⟩, ⟨⟨%fd8, Hd8⟩, ⟨%fd18, Hd18⟩, ⟨%fd28, Hd28⟩⟩, ⟨⟨%fd9, Hd9⟩, ⟨%fd19, Hd19⟩, ⟨%fd29, Hd29⟩⟩⟩

  ihave Hs := (send_prep7_raw m c 0 (sound_body.sl.Hss0_w1 m c fs0) (stored_gen m c 0 fs0 _ (val0 m c))) $$ Hss0
  icases Hs with ⟨Hq0, Hq1, Hq2, Hq3, Hq4, Hq5, Hq6, Hss0⟩

  iapply (step_send' m c 0 0 (by decide) 0 (by decide) (partner c 0) _ (partner_partner c 0) (dev11_eq c) (Kn (c, CK.send 0)) (Kn (partner c 0, CK.recv 0)) fd0 _ _) $$ [Hq0 Hd0 HO HtS0 HtR0]
  · isplitr; · iexact HIs0
    isplitr; · iexact HPr0
    isplitl [Hq0]; · iexact Hq0
    isplitl [Hd0]; · iexact Hd0
    isplitl [HO]; · iexact HO
    isplitl [HtS0]; · iexact HtS0
    isplitr; · iexact HRs0
    isplitl [HtR0]; · iexact HtR0
    iexact HRr0
  iintro ⟨HcS0, HO⟩
  sl_exec_parts (disch := decide)

  iapply (step_send' m c 1 0 (by decide) 1 (by decide) (partner c 1) _ (partner_partner c 1) (dev12_eq c) (Kn (c, CK.send 1)) (Kn (partner c 1, CK.recv 1)) fd1 _ _) $$ [Hq1 Hd1 HO HtS1 HtR1]
  · isplitr; · iexact HIs1
    isplitr; · iexact HPr1
    isplitl [Hq1]; · iexact Hq1
    isplitl [Hd1]; · iexact Hd1
    isplitl [HO]; · iexact HO
    isplitl [HtS1]; · iexact HtS1
    isplitr; · iexact HRs1
    isplitl [HtR1]; · iexact HtR1
    iexact HRr1
  iintro ⟨HcS1, HO⟩
  sl_exec_parts (disch := decide)

  iapply (step_send' m c 2 0 (by decide) 2 (by decide) (partner c 2) _ (partner_partner c 2) (dev13_eq c) (Kn (c, CK.send 2)) (Kn (partner c 2, CK.recv 2)) fd2 _ _) $$ [Hq2 Hd2 HO HtS2 HtR2]
  · isplitr; · iexact HIs2
    isplitr; · iexact HPr2
    isplitl [Hq2]; · iexact Hq2
    isplitl [Hd2]; · iexact Hd2
    isplitl [HO]; · iexact HO
    isplitl [HtS2]; · iexact HtS2
    isplitr; · iexact HRs2
    isplitl [HtR2]; · iexact HtR2
    iexact HRr2
  iintro ⟨HcS2, HO⟩
  sl_exec_parts (disch := decide)

  iapply (step_send' m c 3 0 (by decide) 3 (by decide) (partner c 3) _ (partner_partner c 3) (dev14_eq c) (Kn (c, CK.send 3)) (Kn (partner c 3, CK.recv 3)) fd3 _ _) $$ [Hq3 Hd3 HO HtS3 HtR3]
  · isplitr; · iexact HIs3
    isplitr; · iexact HPr3
    isplitl [Hq3]; · iexact Hq3
    isplitl [Hd3]; · iexact Hd3
    isplitl [HO]; · iexact HO
    isplitl [HtS3]; · iexact HtS3
    isplitr; · iexact HRs3
    isplitl [HtR3]; · iexact HtR3
    iexact HRr3
  iintro ⟨HcS3, HO⟩
  sl_exec_parts (disch := decide)

  iapply (step_send' m c 4 0 (by decide) 4 (by decide) (partner c 4) _ (partner_partner c 4) (dev15_eq c) (Kn (c, CK.send 4)) (Kn (partner c 4, CK.recv 4)) fd4 _ _) $$ [Hq4 Hd4 HO HtS4 HtR4]
  · isplitr; · iexact HIs4
    isplitr; · iexact HPr4
    isplitl [Hq4]; · iexact Hq4
    isplitl [Hd4]; · iexact Hd4
    isplitl [HO]; · iexact HO
    isplitl [HtS4]; · iexact HtS4
    isplitr; · iexact HRs4
    isplitl [HtR4]; · iexact HtR4
    iexact HRr4
  iintro ⟨HcS4, HO⟩
  sl_exec_parts (disch := decide)

  iapply (step_send' m c 5 0 (by decide) 5 (by decide) (partner c 5) _ (partner_partner c 5) (dev16_eq c) (Kn (c, CK.send 5)) (Kn (partner c 5, CK.recv 5)) fd5 _ _) $$ [Hq5 Hd5 HO HtS5 HtR5]
  · isplitr; · iexact HIs5
    isplitr; · iexact HPr5
    isplitl [Hq5]; · iexact Hq5
    isplitl [Hd5]; · iexact Hd5
    isplitl [HO]; · iexact HO
    isplitl [HtS5]; · iexact HtS5
    isplitr; · iexact HRs5
    isplitl [HtR5]; · iexact HtR5
    iexact HRr5
  iintro ⟨HcS5, HO⟩
  sl_exec_parts (disch := decide)

  iapply (step_send' m c 6 0 (by decide) 6 (by decide) (partner c 6) _ (partner_partner c 6) (dev17_eq c) (Kn (c, CK.send 6)) (Kn (partner c 6, CK.recv 6)) fd6 _ _) $$ [Hq6 Hd6 HO HtS6 HtR6]
  · isplitr; · iexact HIs6
    isplitr; · iexact HPr6
    isplitl [Hq6]; · iexact Hq6
    isplitl [Hd6]; · iexact Hd6
    isplitl [HO]; · iexact HO
    isplitl [HtS6]; · iexact HtS6
    isplitr; · iexact HRs6
    isplitl [HtR6]; · iexact HtR6
    iexact HRr6
  iintro ⟨HcS6, HO⟩
  have hmw33 : ∀ sm : SemLoc sig, (∀ i < 50, 50 - 33 ≤ i → lvS sm < lvPay i) → ((levAts L lv : sProp 𝕄) ⊢ MayWait (c : Thread nD τ) sm () (0 + tallyAt (exitCell (partner c 9)) () 1 + tallyAt (exitCell (partner c 8)) () 1 + tallyAt (exitCell (partner c 7)) () 1 + tallyAt (exitCell (partner c 6)) () 1 + tallyAt (exitCell (partner c 5)) () 1 + tallyAt (exitCell (partner c 4)) () 1 + tallyAt (exitCell (partner c 3)) () 1 + tallyAt (exitCell (partner c 2)) () 1 + tallyAt (exitCell (partner c 1)) () 1 + tallyAt (exitCell (partner c 0)) () 1 + tallyAt (recvCell (partner c 9) 29) () N + tallyAt (recvCell (partner c 8) 28) () N + tallyAt (recvCell (partner c 7) 27) () N + tallyAt (recvCell (partner c 6) 26) () N + tallyAt (recvCell (partner c 5) 25) () N + tallyAt (recvCell (partner c 4) 24) () N + tallyAt (recvCell (partner c 3) 23) () N + tallyAt (recvCell (partner c 2) 22) () N + tallyAt (recvCell (partner c 1) 21) () N + tallyAt (recvCell (partner c 0) 20) () N + tallyAt (recvCell (partner c 9) 19) () N + tallyAt (recvCell (partner c 8) 18) () N + tallyAt (recvCell (partner c 7) 17) () N + tallyAt (recvCell (partner c 6) 16) () N + tallyAt (recvCell (partner c 5) 15) () N + tallyAt (recvCell (partner c 4) 14) () N + tallyAt (recvCell (partner c 3) 13) () N + tallyAt (recvCell (partner c 2) 12) () N + tallyAt (recvCell (partner c 1) 11) () N + tallyAt (recvCell (partner c 0) 10) () N + tallyAt (recvCell (partner c 9) 9) () N + tallyAt (recvCell (partner c 8) 8) () N + tallyAt (recvCell (partner c 7) 7) () N)) :=
    mayWait_flat c 33 _ (by simp only [owedK, payCell, payAmt, mk10, mk30]; rfl) (by decide)
  sl_exec_parts (disch := decide)
  clear hmw33

  ihave Hs := (send_prep3_raw m c 1 (sound_body.sl.Hss1_w1 m c fs0) (stored_gen m c 1 fs0 _ (val1 m c))) $$ Hss1
  icases Hs with ⟨Hq7, Hq8, Hq9, Hss1⟩

  iapply (step_send' m c 7 1 (by decide) 0 (by decide) (partner c 7) _ (partner_partner c 7) (dev18_eq c) (Kn (c, CK.send 7)) (Kn (partner c 7, CK.recv 7)) fd7 _ _) $$ [Hq7 Hd7 HO HtS7 HtR7]
  · isplitr; · iexact HIs7
    isplitr; · iexact HPr7
    isplitl [Hq7]; · iexact Hq7
    isplitl [Hd7]; · iexact Hd7
    isplitl [HO]; · iexact HO
    isplitl [HtS7]; · iexact HtS7
    isplitr; · iexact HRs7
    isplitl [HtR7]; · iexact HtR7
    iexact HRr7
  iintro ⟨HcS7, HO⟩
  sl_exec_parts (disch := decide)

  iapply (step_send' m c 8 1 (by decide) 1 (by decide) (partner c 8) _ (partner_partner c 8) (dev19_eq c) (Kn (c, CK.send 8)) (Kn (partner c 8, CK.recv 8)) fd8 _ _) $$ [Hq8 Hd8 HO HtS8 HtR8]
  · isplitr; · iexact HIs8
    isplitr; · iexact HPr8
    isplitl [Hq8]; · iexact Hq8
    isplitl [Hd8]; · iexact Hd8
    isplitl [HO]; · iexact HO
    isplitl [HtS8]; · iexact HtS8
    isplitr; · iexact HRs8
    isplitl [HtR8]; · iexact HtR8
    iexact HRr8
  iintro ⟨HcS8, HO⟩
  sl_exec_parts (disch := decide)

  iapply (step_send' m c 9 1 (by decide) 2 (by decide) (partner c 9) _ (partner_partner c 9) (dev20_eq c) (Kn (c, CK.send 9)) (Kn (partner c 9, CK.recv 9)) fd9 _ _) $$ [Hq9 Hd9 HO HtS9 HtR9]
  · isplitr; · iexact HIs9
    isplitr; · iexact HPr9
    isplitl [Hq9]; · iexact Hq9
    isplitl [Hd9]; · iexact Hd9
    isplitl [HO]; · iexact HO
    isplitl [HtS9]; · iexact HtS9
    isplitr; · iexact HRs9
    isplitl [HtR9]; · iexact HtR9
    iexact HRr9
  iintro ⟨HcS9, HO⟩
  have hmw30 : ∀ sm : SemLoc sig, (∀ i < 50, 50 - 30 ≤ i → lvS sm < lvPay i) → ((levAts L lv : sProp 𝕄) ⊢ MayWait (c : Thread nD τ) sm () (0 + tallyAt (exitCell (partner c 9)) () 1 + tallyAt (exitCell (partner c 8)) () 1 + tallyAt (exitCell (partner c 7)) () 1 + tallyAt (exitCell (partner c 6)) () 1 + tallyAt (exitCell (partner c 5)) () 1 + tallyAt (exitCell (partner c 4)) () 1 + tallyAt (exitCell (partner c 3)) () 1 + tallyAt (exitCell (partner c 2)) () 1 + tallyAt (exitCell (partner c 1)) () 1 + tallyAt (exitCell (partner c 0)) () 1 + tallyAt (recvCell (partner c 9) 29) () N + tallyAt (recvCell (partner c 8) 28) () N + tallyAt (recvCell (partner c 7) 27) () N + tallyAt (recvCell (partner c 6) 26) () N + tallyAt (recvCell (partner c 5) 25) () N + tallyAt (recvCell (partner c 4) 24) () N + tallyAt (recvCell (partner c 3) 23) () N + tallyAt (recvCell (partner c 2) 22) () N + tallyAt (recvCell (partner c 1) 21) () N + tallyAt (recvCell (partner c 0) 20) () N + tallyAt (recvCell (partner c 9) 19) () N + tallyAt (recvCell (partner c 8) 18) () N + tallyAt (recvCell (partner c 7) 17) () N + tallyAt (recvCell (partner c 6) 16) () N + tallyAt (recvCell (partner c 5) 15) () N + tallyAt (recvCell (partner c 4) 14) () N + tallyAt (recvCell (partner c 3) 13) () N + tallyAt (recvCell (partner c 2) 12) () N + tallyAt (recvCell (partner c 1) 11) () N + tallyAt (recvCell (partner c 0) 10) () N)) :=
    mayWait_flat c 30 _ (by simp only [owedK, payCell, payAmt, mk10, mk30]; rfl) (by decide)
  sl_exec_parts (disch := decide)
  clear hmw30

  ihave Hs := (send_prep7_raw m c 2 (sound_body.sl.Hss2_w1 m c fs0) (stored_gen m c 2 fs0 _ (val2 m c))) $$ Hss2
  icases Hs with ⟨Hq10, Hq11, Hq12, Hq13, Hq14, Hq15, Hq16, Hss2⟩

  iapply (step_send' m c 10 2 (by decide) 0 (by decide) (partner c 0) _ (partner_partner c 0) (dev21_eq c) (Kn (c, CK.send 10)) (Kn (partner c 0, CK.recv 10)) fd10 _ _) $$ [Hq10 Hd10 HO HtS10 HtR10]
  · isplitr; · iexact HIs10
    isplitr; · iexact HPr10
    isplitl [Hq10]; · iexact Hq10
    isplitl [Hd10]; · iexact Hd10
    isplitl [HO]; · iexact HO
    isplitl [HtS10]; · iexact HtS10
    isplitr; · iexact HRs10
    isplitl [HtR10]; · iexact HtR10
    iexact HRr10
  iintro ⟨HcS10, HO⟩
  sl_exec_parts (disch := decide)

  iapply (step_send' m c 11 2 (by decide) 1 (by decide) (partner c 1) _ (partner_partner c 1) (dev22_eq c) (Kn (c, CK.send 11)) (Kn (partner c 1, CK.recv 11)) fd11 _ _) $$ [Hq11 Hd11 HO HtS11 HtR11]
  · isplitr; · iexact HIs11
    isplitr; · iexact HPr11
    isplitl [Hq11]; · iexact Hq11
    isplitl [Hd11]; · iexact Hd11
    isplitl [HO]; · iexact HO
    isplitl [HtS11]; · iexact HtS11
    isplitr; · iexact HRs11
    isplitl [HtR11]; · iexact HtR11
    iexact HRr11
  iintro ⟨HcS11, HO⟩
  sl_exec_parts (disch := decide)

  iapply (step_send' m c 12 2 (by decide) 2 (by decide) (partner c 2) _ (partner_partner c 2) (dev23_eq c) (Kn (c, CK.send 12)) (Kn (partner c 2, CK.recv 12)) fd12 _ _) $$ [Hq12 Hd12 HO HtS12 HtR12]
  · isplitr; · iexact HIs12
    isplitr; · iexact HPr12
    isplitl [Hq12]; · iexact Hq12
    isplitl [Hd12]; · iexact Hd12
    isplitl [HO]; · iexact HO
    isplitl [HtS12]; · iexact HtS12
    isplitr; · iexact HRs12
    isplitl [HtR12]; · iexact HtR12
    iexact HRr12
  iintro ⟨HcS12, HO⟩
  sl_exec_parts (disch := decide)

  iapply (step_send' m c 13 2 (by decide) 3 (by decide) (partner c 3) _ (partner_partner c 3) (dev24_eq c) (Kn (c, CK.send 13)) (Kn (partner c 3, CK.recv 13)) fd13 _ _) $$ [Hq13 Hd13 HO HtS13 HtR13]
  · isplitr; · iexact HIs13
    isplitr; · iexact HPr13
    isplitl [Hq13]; · iexact Hq13
    isplitl [Hd13]; · iexact Hd13
    isplitl [HO]; · iexact HO
    isplitl [HtS13]; · iexact HtS13
    isplitr; · iexact HRs13
    isplitl [HtR13]; · iexact HtR13
    iexact HRr13
  iintro ⟨HcS13, HO⟩
  sl_exec_parts (disch := decide)

  iapply (step_send' m c 14 2 (by decide) 4 (by decide) (partner c 4) _ (partner_partner c 4) (dev25_eq c) (Kn (c, CK.send 14)) (Kn (partner c 4, CK.recv 14)) fd14 _ _) $$ [Hq14 Hd14 HO HtS14 HtR14]
  · isplitr; · iexact HIs14
    isplitr; · iexact HPr14
    isplitl [Hq14]; · iexact Hq14
    isplitl [Hd14]; · iexact Hd14
    isplitl [HO]; · iexact HO
    isplitl [HtS14]; · iexact HtS14
    isplitr; · iexact HRs14
    isplitl [HtR14]; · iexact HtR14
    iexact HRr14
  iintro ⟨HcS14, HO⟩
  sl_exec_parts (disch := decide)

  iapply (step_send' m c 15 2 (by decide) 5 (by decide) (partner c 5) _ (partner_partner c 5) (dev26_eq c) (Kn (c, CK.send 15)) (Kn (partner c 5, CK.recv 15)) fd15 _ _) $$ [Hq15 Hd15 HO HtS15 HtR15]
  · isplitr; · iexact HIs15
    isplitr; · iexact HPr15
    isplitl [Hq15]; · iexact Hq15
    isplitl [Hd15]; · iexact Hd15
    isplitl [HO]; · iexact HO
    isplitl [HtS15]; · iexact HtS15
    isplitr; · iexact HRs15
    isplitl [HtR15]; · iexact HtR15
    iexact HRr15
  iintro ⟨HcS15, HO⟩
  sl_exec_parts (disch := decide)

  iapply (step_send' m c 16 2 (by decide) 6 (by decide) (partner c 6) _ (partner_partner c 6) (dev27_eq c) (Kn (c, CK.send 16)) (Kn (partner c 6, CK.recv 16)) fd16 _ _) $$ [Hq16 Hd16 HO HtS16 HtR16]
  · isplitr; · iexact HIs16
    isplitr; · iexact HPr16
    isplitl [Hq16]; · iexact Hq16
    isplitl [Hd16]; · iexact Hd16
    isplitl [HO]; · iexact HO
    isplitl [HtS16]; · iexact HtS16
    isplitr; · iexact HRs16
    isplitl [HtR16]; · iexact HtR16
    iexact HRr16
  iintro ⟨HcS16, HO⟩
  have hmw23 : ∀ sm : SemLoc sig, (∀ i < 50, 50 - 23 ≤ i → lvS sm < lvPay i) → ((levAts L lv : sProp 𝕄) ⊢ MayWait (c : Thread nD τ) sm () (0 + tallyAt (exitCell (partner c 9)) () 1 + tallyAt (exitCell (partner c 8)) () 1 + tallyAt (exitCell (partner c 7)) () 1 + tallyAt (exitCell (partner c 6)) () 1 + tallyAt (exitCell (partner c 5)) () 1 + tallyAt (exitCell (partner c 4)) () 1 + tallyAt (exitCell (partner c 3)) () 1 + tallyAt (exitCell (partner c 2)) () 1 + tallyAt (exitCell (partner c 1)) () 1 + tallyAt (exitCell (partner c 0)) () 1 + tallyAt (recvCell (partner c 9) 29) () N + tallyAt (recvCell (partner c 8) 28) () N + tallyAt (recvCell (partner c 7) 27) () N + tallyAt (recvCell (partner c 6) 26) () N + tallyAt (recvCell (partner c 5) 25) () N + tallyAt (recvCell (partner c 4) 24) () N + tallyAt (recvCell (partner c 3) 23) () N + tallyAt (recvCell (partner c 2) 22) () N + tallyAt (recvCell (partner c 1) 21) () N + tallyAt (recvCell (partner c 0) 20) () N + tallyAt (recvCell (partner c 9) 19) () N + tallyAt (recvCell (partner c 8) 18) () N + tallyAt (recvCell (partner c 7) 17) () N)) :=
    mayWait_flat c 23 _ (by simp only [owedK, payCell, payAmt, mk10, mk30]; rfl) (by decide)
  sl_exec_parts (disch := decide)
  clear hmw23

  ihave Hs := (send_prep3_raw m c 3 (sound_body.sl.Hss3_w1 m c fs0) (stored_gen m c 3 fs0 _ (val3 m c))) $$ Hss3
  icases Hs with ⟨Hq17, Hq18, Hq19, Hss3⟩

  iapply (step_send' m c 17 3 (by decide) 0 (by decide) (partner c 7) _ (partner_partner c 7) (dev28_eq c) (Kn (c, CK.send 17)) (Kn (partner c 7, CK.recv 17)) fd17 _ _) $$ [Hq17 Hd17 HO HtS17 HtR17]
  · isplitr; · iexact HIs17
    isplitr; · iexact HPr17
    isplitl [Hq17]; · iexact Hq17
    isplitl [Hd17]; · iexact Hd17
    isplitl [HO]; · iexact HO
    isplitl [HtS17]; · iexact HtS17
    isplitr; · iexact HRs17
    isplitl [HtR17]; · iexact HtR17
    iexact HRr17
  iintro ⟨HcS17, HO⟩
  sl_exec_parts (disch := decide)

  iapply (step_send' m c 18 3 (by decide) 1 (by decide) (partner c 8) _ (partner_partner c 8) (dev29_eq c) (Kn (c, CK.send 18)) (Kn (partner c 8, CK.recv 18)) fd18 _ _) $$ [Hq18 Hd18 HO HtS18 HtR18]
  · isplitr; · iexact HIs18
    isplitr; · iexact HPr18
    isplitl [Hq18]; · iexact Hq18
    isplitl [Hd18]; · iexact Hd18
    isplitl [HO]; · iexact HO
    isplitl [HtS18]; · iexact HtS18
    isplitr; · iexact HRs18
    isplitl [HtR18]; · iexact HtR18
    iexact HRr18
  iintro ⟨HcS18, HO⟩
  sl_exec_parts (disch := decide)

  iapply (step_send' m c 19 3 (by decide) 2 (by decide) (partner c 9) _ (partner_partner c 9) (dev30_eq c) (Kn (c, CK.send 19)) (Kn (partner c 9, CK.recv 19)) fd19 _ _) $$ [Hq19 Hd19 HO HtS19 HtR19]
  · isplitr; · iexact HIs19
    isplitr; · iexact HPr19
    isplitl [Hq19]; · iexact Hq19
    isplitl [Hd19]; · iexact Hd19
    isplitl [HO]; · iexact HO
    isplitl [HtS19]; · iexact HtS19
    isplitr; · iexact HRs19
    isplitl [HtR19]; · iexact HtR19
    iexact HRr19
  iintro ⟨HcS19, HO⟩
  have hmw20 : ∀ sm : SemLoc sig, (∀ i < 50, 50 - 20 ≤ i → lvS sm < lvPay i) → ((levAts L lv : sProp 𝕄) ⊢ MayWait (c : Thread nD τ) sm () (0 + tallyAt (exitCell (partner c 9)) () 1 + tallyAt (exitCell (partner c 8)) () 1 + tallyAt (exitCell (partner c 7)) () 1 + tallyAt (exitCell (partner c 6)) () 1 + tallyAt (exitCell (partner c 5)) () 1 + tallyAt (exitCell (partner c 4)) () 1 + tallyAt (exitCell (partner c 3)) () 1 + tallyAt (exitCell (partner c 2)) () 1 + tallyAt (exitCell (partner c 1)) () 1 + tallyAt (exitCell (partner c 0)) () 1 + tallyAt (recvCell (partner c 9) 29) () N + tallyAt (recvCell (partner c 8) 28) () N + tallyAt (recvCell (partner c 7) 27) () N + tallyAt (recvCell (partner c 6) 26) () N + tallyAt (recvCell (partner c 5) 25) () N + tallyAt (recvCell (partner c 4) 24) () N + tallyAt (recvCell (partner c 3) 23) () N + tallyAt (recvCell (partner c 2) 22) () N + tallyAt (recvCell (partner c 1) 21) () N + tallyAt (recvCell (partner c 0) 20) () N)) :=
    mayWait_flat c 20 _ (by simp only [owedK, payCell, payAmt, mk10, mk30]; rfl) (by decide)
  sl_exec_parts (disch := decide)
  clear hmw20

  ihave Hs := (send_prep7_raw m c 4 (sound_body.sl.Hss4_w1 m c fs0) (stored_gen m c 4 fs0 _ (val4 m c))) $$ Hss4
  icases Hs with ⟨Hq20, Hq21, Hq22, Hq23, Hq24, Hq25, Hq26, Hss4⟩

  iapply (step_send' m c 20 4 (by decide) 0 (by decide) (partner c 0) _ (partner_partner c 0) (dev31_eq c) (Kn (c, CK.send 20)) (Kn (partner c 0, CK.recv 20)) fd20 _ _) $$ [Hq20 Hd20 HO HtS20 HtR20]
  · isplitr; · iexact HIs20
    isplitr; · iexact HPr20
    isplitl [Hq20]; · iexact Hq20
    isplitl [Hd20]; · iexact Hd20
    isplitl [HO]; · iexact HO
    isplitl [HtS20]; · iexact HtS20
    isplitr; · iexact HRs20
    isplitl [HtR20]; · iexact HtR20
    iexact HRr20
  iintro ⟨HcS20, HO⟩
  sl_exec_parts (disch := decide)

  iapply (step_send' m c 21 4 (by decide) 1 (by decide) (partner c 1) _ (partner_partner c 1) (dev32_eq c) (Kn (c, CK.send 21)) (Kn (partner c 1, CK.recv 21)) fd21 _ _) $$ [Hq21 Hd21 HO HtS21 HtR21]
  · isplitr; · iexact HIs21
    isplitr; · iexact HPr21
    isplitl [Hq21]; · iexact Hq21
    isplitl [Hd21]; · iexact Hd21
    isplitl [HO]; · iexact HO
    isplitl [HtS21]; · iexact HtS21
    isplitr; · iexact HRs21
    isplitl [HtR21]; · iexact HtR21
    iexact HRr21
  iintro ⟨HcS21, HO⟩
  sl_exec_parts (disch := decide)

  iapply (step_send' m c 22 4 (by decide) 2 (by decide) (partner c 2) _ (partner_partner c 2) (dev33_eq c) (Kn (c, CK.send 22)) (Kn (partner c 2, CK.recv 22)) fd22 _ _) $$ [Hq22 Hd22 HO HtS22 HtR22]
  · isplitr; · iexact HIs22
    isplitr; · iexact HPr22
    isplitl [Hq22]; · iexact Hq22
    isplitl [Hd22]; · iexact Hd22
    isplitl [HO]; · iexact HO
    isplitl [HtS22]; · iexact HtS22
    isplitr; · iexact HRs22
    isplitl [HtR22]; · iexact HtR22
    iexact HRr22
  iintro ⟨HcS22, HO⟩
  sl_exec_parts (disch := decide)

  iapply (step_send' m c 23 4 (by decide) 3 (by decide) (partner c 3) _ (partner_partner c 3) (dev34_eq c) (Kn (c, CK.send 23)) (Kn (partner c 3, CK.recv 23)) fd23 _ _) $$ [Hq23 Hd23 HO HtS23 HtR23]
  · isplitr; · iexact HIs23
    isplitr; · iexact HPr23
    isplitl [Hq23]; · iexact Hq23
    isplitl [Hd23]; · iexact Hd23
    isplitl [HO]; · iexact HO
    isplitl [HtS23]; · iexact HtS23
    isplitr; · iexact HRs23
    isplitl [HtR23]; · iexact HtR23
    iexact HRr23
  iintro ⟨HcS23, HO⟩
  sl_exec_parts (disch := decide)

  iapply (step_send' m c 24 4 (by decide) 4 (by decide) (partner c 4) _ (partner_partner c 4) (dev35_eq c) (Kn (c, CK.send 24)) (Kn (partner c 4, CK.recv 24)) fd24 _ _) $$ [Hq24 Hd24 HO HtS24 HtR24]
  · isplitr; · iexact HIs24
    isplitr; · iexact HPr24
    isplitl [Hq24]; · iexact Hq24
    isplitl [Hd24]; · iexact Hd24
    isplitl [HO]; · iexact HO
    isplitl [HtS24]; · iexact HtS24
    isplitr; · iexact HRs24
    isplitl [HtR24]; · iexact HtR24
    iexact HRr24
  iintro ⟨HcS24, HO⟩
  sl_exec_parts (disch := decide)

  iapply (step_send' m c 25 4 (by decide) 5 (by decide) (partner c 5) _ (partner_partner c 5) (dev36_eq c) (Kn (c, CK.send 25)) (Kn (partner c 5, CK.recv 25)) fd25 _ _) $$ [Hq25 Hd25 HO HtS25 HtR25]
  · isplitr; · iexact HIs25
    isplitr; · iexact HPr25
    isplitl [Hq25]; · iexact Hq25
    isplitl [Hd25]; · iexact Hd25
    isplitl [HO]; · iexact HO
    isplitl [HtS25]; · iexact HtS25
    isplitr; · iexact HRs25
    isplitl [HtR25]; · iexact HtR25
    iexact HRr25
  iintro ⟨HcS25, HO⟩
  sl_exec_parts (disch := decide)

  iapply (step_send' m c 26 4 (by decide) 6 (by decide) (partner c 6) _ (partner_partner c 6) (dev37_eq c) (Kn (c, CK.send 26)) (Kn (partner c 6, CK.recv 26)) fd26 _ _) $$ [Hq26 Hd26 HO HtS26 HtR26]
  · isplitr; · iexact HIs26
    isplitr; · iexact HPr26
    isplitl [Hq26]; · iexact Hq26
    isplitl [Hd26]; · iexact Hd26
    isplitl [HO]; · iexact HO
    isplitl [HtS26]; · iexact HtS26
    isplitr; · iexact HRs26
    isplitl [HtR26]; · iexact HtR26
    iexact HRr26
  iintro ⟨HcS26, HO⟩
  have hmw13 : ∀ sm : SemLoc sig, (∀ i < 50, 50 - 13 ≤ i → lvS sm < lvPay i) → ((levAts L lv : sProp 𝕄) ⊢ MayWait (c : Thread nD τ) sm () (0 + tallyAt (exitCell (partner c 9)) () 1 + tallyAt (exitCell (partner c 8)) () 1 + tallyAt (exitCell (partner c 7)) () 1 + tallyAt (exitCell (partner c 6)) () 1 + tallyAt (exitCell (partner c 5)) () 1 + tallyAt (exitCell (partner c 4)) () 1 + tallyAt (exitCell (partner c 3)) () 1 + tallyAt (exitCell (partner c 2)) () 1 + tallyAt (exitCell (partner c 1)) () 1 + tallyAt (exitCell (partner c 0)) () 1 + tallyAt (recvCell (partner c 9) 29) () N + tallyAt (recvCell (partner c 8) 28) () N + tallyAt (recvCell (partner c 7) 27) () N)) :=
    mayWait_flat c 13 _ (by simp only [owedK, payCell, payAmt, mk10, mk30]; rfl) (by decide)
  sl_exec_parts (disch := decide)
  clear hmw13

  ihave Hs := (send_prep3_raw m c 5 (sound_body.sl.Hss5_w1 m c fs0) (stored_gen m c 5 fs0 _ (val5 m c))) $$ Hss5
  icases Hs with ⟨Hq27, Hq28, Hq29, Hss5⟩

  iapply (step_send' m c 27 5 (by decide) 0 (by decide) (partner c 7) _ (partner_partner c 7) (dev38_eq c) (Kn (c, CK.send 27)) (Kn (partner c 7, CK.recv 27)) fd27 _ _) $$ [Hq27 Hd27 HO HtS27 HtR27]
  · isplitr; · iexact HIs27
    isplitr; · iexact HPr27
    isplitl [Hq27]; · iexact Hq27
    isplitl [Hd27]; · iexact Hd27
    isplitl [HO]; · iexact HO
    isplitl [HtS27]; · iexact HtS27
    isplitr; · iexact HRs27
    isplitl [HtR27]; · iexact HtR27
    iexact HRr27
  iintro ⟨HcS27, HO⟩
  sl_exec_parts (disch := decide)

  iapply (step_send' m c 28 5 (by decide) 1 (by decide) (partner c 8) _ (partner_partner c 8) (dev39_eq c) (Kn (c, CK.send 28)) (Kn (partner c 8, CK.recv 28)) fd28 _ _) $$ [Hq28 Hd28 HO HtS28 HtR28]
  · isplitr; · iexact HIs28
    isplitr; · iexact HPr28
    isplitl [Hq28]; · iexact Hq28
    isplitl [Hd28]; · iexact Hd28
    isplitl [HO]; · iexact HO
    isplitl [HtS28]; · iexact HtS28
    isplitr; · iexact HRs28
    isplitl [HtR28]; · iexact HtR28
    iexact HRr28
  iintro ⟨HcS28, HO⟩
  sl_exec_parts (disch := decide)

  iapply (step_send' m c 29 5 (by decide) 2 (by decide) (partner c 9) _ (partner_partner c 9) (dev40_eq c) (Kn (c, CK.send 29)) (Kn (partner c 9, CK.recv 29)) fd29 _ _) $$ [Hq29 Hd29 HO HtS29 HtR29]
  · isplitr; · iexact HIs29
    isplitr; · iexact HPr29
    isplitl [Hq29]; · iexact Hq29
    isplitl [Hd29]; · iexact Hd29
    isplitl [HO]; · iexact HO
    isplitl [HtS29]; · iexact HtS29
    isplitr; · iexact HRs29
    isplitl [HtR29]; · iexact HtR29
    iexact HRr29
  iintro ⟨HcS29, HO⟩
  have hmw10 : ∀ sm : SemLoc sig, (∀ i < 50, 50 - 10 ≤ i → lvS sm < lvPay i) → ((levAts L lv : sProp 𝕄) ⊢ MayWait (c : Thread nD τ) sm () (0 + tallyAt (exitCell (partner c 9)) () 1 + tallyAt (exitCell (partner c 8)) () 1 + tallyAt (exitCell (partner c 7)) () 1 + tallyAt (exitCell (partner c 6)) () 1 + tallyAt (exitCell (partner c 5)) () 1 + tallyAt (exitCell (partner c 4)) () 1 + tallyAt (exitCell (partner c 3)) () 1 + tallyAt (exitCell (partner c 2)) () 1 + tallyAt (exitCell (partner c 1)) () 1 + tallyAt (exitCell (partner c 0)) () 1)) :=
    mayWait_flat c 10 _ (by simp only [owedK, payCell, payAmt, mk10, mk30]; rfl) (by decide)
  sl_exec_parts (disch := decide)
  clear hmw10
  imod (close_cell m (exitCell c) (Kn (c, CK.exit))) $$ [HaE] with HzE
  · isplitr; · iexact HIexit
    iexact HaE
  imod (close_cell m (sendCell c 0) (Kn (c, CK.send 0))) $$ [HaS0] with HzS0
  · isplitr; · iexact HIs0
    iexact HaS0
  imod (close_cell m (sendCell c 1) (Kn (c, CK.send 1))) $$ [HaS1] with HzS1
  · isplitr; · iexact HIs1
    iexact HaS1
  imod (close_cell m (sendCell c 2) (Kn (c, CK.send 2))) $$ [HaS2] with HzS2
  · isplitr; · iexact HIs2
    iexact HaS2
  imod (close_cell m (sendCell c 3) (Kn (c, CK.send 3))) $$ [HaS3] with HzS3
  · isplitr; · iexact HIs3
    iexact HaS3
  imod (close_cell m (sendCell c 4) (Kn (c, CK.send 4))) $$ [HaS4] with HzS4
  · isplitr; · iexact HIs4
    iexact HaS4
  imod (close_cell m (sendCell c 5) (Kn (c, CK.send 5))) $$ [HaS5] with HzS5
  · isplitr; · iexact HIs5
    iexact HaS5
  imod (close_cell m (sendCell c 6) (Kn (c, CK.send 6))) $$ [HaS6] with HzS6
  · isplitr; · iexact HIs6
    iexact HaS6
  imod (close_cell m (sendCell c 7) (Kn (c, CK.send 7))) $$ [HaS7] with HzS7
  · isplitr; · iexact HIs7
    iexact HaS7
  imod (close_cell m (sendCell c 8) (Kn (c, CK.send 8))) $$ [HaS8] with HzS8
  · isplitr; · iexact HIs8
    iexact HaS8
  imod (close_cell m (sendCell c 9) (Kn (c, CK.send 9))) $$ [HaS9] with HzS9
  · isplitr; · iexact HIs9
    iexact HaS9
  imod (close_cell m (sendCell c 10) (Kn (c, CK.send 10))) $$ [HaS10] with HzS10
  · isplitr; · iexact HIs10
    iexact HaS10
  imod (close_cell m (sendCell c 11) (Kn (c, CK.send 11))) $$ [HaS11] with HzS11
  · isplitr; · iexact HIs11
    iexact HaS11
  imod (close_cell m (sendCell c 12) (Kn (c, CK.send 12))) $$ [HaS12] with HzS12
  · isplitr; · iexact HIs12
    iexact HaS12
  imod (close_cell m (sendCell c 13) (Kn (c, CK.send 13))) $$ [HaS13] with HzS13
  · isplitr; · iexact HIs13
    iexact HaS13
  imod (close_cell m (sendCell c 14) (Kn (c, CK.send 14))) $$ [HaS14] with HzS14
  · isplitr; · iexact HIs14
    iexact HaS14
  imod (close_cell m (sendCell c 15) (Kn (c, CK.send 15))) $$ [HaS15] with HzS15
  · isplitr; · iexact HIs15
    iexact HaS15
  imod (close_cell m (sendCell c 16) (Kn (c, CK.send 16))) $$ [HaS16] with HzS16
  · isplitr; · iexact HIs16
    iexact HaS16
  imod (close_cell m (sendCell c 17) (Kn (c, CK.send 17))) $$ [HaS17] with HzS17
  · isplitr; · iexact HIs17
    iexact HaS17
  imod (close_cell m (sendCell c 18) (Kn (c, CK.send 18))) $$ [HaS18] with HzS18
  · isplitr; · iexact HIs18
    iexact HaS18
  imod (close_cell m (sendCell c 19) (Kn (c, CK.send 19))) $$ [HaS19] with HzS19
  · isplitr; · iexact HIs19
    iexact HaS19
  imod (close_cell m (sendCell c 20) (Kn (c, CK.send 20))) $$ [HaS20] with HzS20
  · isplitr; · iexact HIs20
    iexact HaS20
  imod (close_cell m (sendCell c 21) (Kn (c, CK.send 21))) $$ [HaS21] with HzS21
  · isplitr; · iexact HIs21
    iexact HaS21
  imod (close_cell m (sendCell c 22) (Kn (c, CK.send 22))) $$ [HaS22] with HzS22
  · isplitr; · iexact HIs22
    iexact HaS22
  imod (close_cell m (sendCell c 23) (Kn (c, CK.send 23))) $$ [HaS23] with HzS23
  · isplitr; · iexact HIs23
    iexact HaS23
  imod (close_cell m (sendCell c 24) (Kn (c, CK.send 24))) $$ [HaS24] with HzS24
  · isplitr; · iexact HIs24
    iexact HaS24
  imod (close_cell m (sendCell c 25) (Kn (c, CK.send 25))) $$ [HaS25] with HzS25
  · isplitr; · iexact HIs25
    iexact HaS25
  imod (close_cell m (sendCell c 26) (Kn (c, CK.send 26))) $$ [HaS26] with HzS26
  · isplitr; · iexact HIs26
    iexact HaS26
  imod (close_cell m (sendCell c 27) (Kn (c, CK.send 27))) $$ [HaS27] with HzS27
  · isplitr; · iexact HIs27
    iexact HaS27
  imod (close_cell m (sendCell c 28) (Kn (c, CK.send 28))) $$ [HaS28] with HzS28
  · isplitr; · iexact HIs28
    iexact HaS28
  imod (close_cell m (sendCell c 29) (Kn (c, CK.send 29))) $$ [HaS29] with HzS29
  · isplitr; · iexact HIs29
    iexact HaS29
  imod (close_cell m (recvCell c 0) (Kn (c, CK.recv 0))) $$ [HaR0] with HzR0
  · isplitr; · iexact HIr0
    iexact HaR0
  imod (close_cell m (recvCell c 1) (Kn (c, CK.recv 1))) $$ [HaR1] with HzR1
  · isplitr; · iexact HIr1
    iexact HaR1
  imod (close_cell m (recvCell c 2) (Kn (c, CK.recv 2))) $$ [HaR2] with HzR2
  · isplitr; · iexact HIr2
    iexact HaR2
  imod (close_cell m (recvCell c 3) (Kn (c, CK.recv 3))) $$ [HaR3] with HzR3
  · isplitr; · iexact HIr3
    iexact HaR3
  imod (close_cell m (recvCell c 4) (Kn (c, CK.recv 4))) $$ [HaR4] with HzR4
  · isplitr; · iexact HIr4
    iexact HaR4
  imod (close_cell m (recvCell c 5) (Kn (c, CK.recv 5))) $$ [HaR5] with HzR5
  · isplitr; · iexact HIr5
    iexact HaR5
  imod (close_cell m (recvCell c 6) (Kn (c, CK.recv 6))) $$ [HaR6] with HzR6
  · isplitr; · iexact HIr6
    iexact HaR6
  imod (close_cell m (recvCell c 7) (Kn (c, CK.recv 7))) $$ [HaR7] with HzR7
  · isplitr; · iexact HIr7
    iexact HaR7
  imod (close_cell m (recvCell c 8) (Kn (c, CK.recv 8))) $$ [HaR8] with HzR8
  · isplitr; · iexact HIr8
    iexact HaR8
  imod (close_cell m (recvCell c 9) (Kn (c, CK.recv 9))) $$ [HaR9] with HzR9
  · isplitr; · iexact HIr9
    iexact HaR9
  imod (close_cell m (recvCell c 10) (Kn (c, CK.recv 10))) $$ [HaR10] with HzR10
  · isplitr; · iexact HIr10
    iexact HaR10
  imod (close_cell m (recvCell c 11) (Kn (c, CK.recv 11))) $$ [HaR11] with HzR11
  · isplitr; · iexact HIr11
    iexact HaR11
  imod (close_cell m (recvCell c 12) (Kn (c, CK.recv 12))) $$ [HaR12] with HzR12
  · isplitr; · iexact HIr12
    iexact HaR12
  imod (close_cell m (recvCell c 13) (Kn (c, CK.recv 13))) $$ [HaR13] with HzR13
  · isplitr; · iexact HIr13
    iexact HaR13
  imod (close_cell m (recvCell c 14) (Kn (c, CK.recv 14))) $$ [HaR14] with HzR14
  · isplitr; · iexact HIr14
    iexact HaR14
  imod (close_cell m (recvCell c 15) (Kn (c, CK.recv 15))) $$ [HaR15] with HzR15
  · isplitr; · iexact HIr15
    iexact HaR15
  imod (close_cell m (recvCell c 16) (Kn (c, CK.recv 16))) $$ [HaR16] with HzR16
  · isplitr; · iexact HIr16
    iexact HaR16
  imod (close_cell m (recvCell c 17) (Kn (c, CK.recv 17))) $$ [HaR17] with HzR17
  · isplitr; · iexact HIr17
    iexact HaR17
  imod (close_cell m (recvCell c 18) (Kn (c, CK.recv 18))) $$ [HaR18] with HzR18
  · isplitr; · iexact HIr18
    iexact HaR18
  imod (close_cell m (recvCell c 19) (Kn (c, CK.recv 19))) $$ [HaR19] with HzR19
  · isplitr; · iexact HIr19
    iexact HaR19
  imod (close_cell m (recvCell c 20) (Kn (c, CK.recv 20))) $$ [HaR20] with HzR20
  · isplitr; · iexact HIr20
    iexact HaR20
  imod (close_cell m (recvCell c 21) (Kn (c, CK.recv 21))) $$ [HaR21] with HzR21
  · isplitr; · iexact HIr21
    iexact HaR21
  imod (close_cell m (recvCell c 22) (Kn (c, CK.recv 22))) $$ [HaR22] with HzR22
  · isplitr; · iexact HIr22
    iexact HaR22
  imod (close_cell m (recvCell c 23) (Kn (c, CK.recv 23))) $$ [HaR23] with HzR23
  · isplitr; · iexact HIr23
    iexact HaR23
  imod (close_cell m (recvCell c 24) (Kn (c, CK.recv 24))) $$ [HaR24] with HzR24
  · isplitr; · iexact HIr24
    iexact HaR24
  imod (close_cell m (recvCell c 25) (Kn (c, CK.recv 25))) $$ [HaR25] with HzR25
  · isplitr; · iexact HIr25
    iexact HaR25
  imod (close_cell m (recvCell c 26) (Kn (c, CK.recv 26))) $$ [HaR26] with HzR26
  · isplitr; · iexact HIr26
    iexact HaR26
  imod (close_cell m (recvCell c 27) (Kn (c, CK.recv 27))) $$ [HaR27] with HzR27
  · isplitr; · iexact HIr27
    iexact HaR27
  imod (close_cell m (recvCell c 28) (Kn (c, CK.recv 28))) $$ [HaR28] with HzR28
  · isplitr; · iexact HIr28
    iexact HaR28
  imod (close_cell m (recvCell c 29) (Kn (c, CK.recv 29))) $$ [HaR29] with HzR29
  · isplitr; · iexact HIr29
    iexact HaR29
  sl_step
  ihave Hj0 := ((send_fan7 (F := F) c 0 (sbuf m c 0)).2) $$ [HaS0_pay1 HaS1_pay1 HaS2_pay1 HaS3_pay1 HaS4_pay1 HaS5_pay1 HaS6_pay1 Hss0]
  · isplitl [HaS0_pay1]; · iapply (sendPay_pts m c 0 0 (by decide) 0 (by decide)); iexact HaS0_pay1
    isplitl [HaS1_pay1]; · iapply (sendPay_pts m c 1 0 (by decide) 1 (by decide)); iexact HaS1_pay1
    isplitl [HaS2_pay1]; · iapply (sendPay_pts m c 2 0 (by decide) 2 (by decide)); iexact HaS2_pay1
    isplitl [HaS3_pay1]; · iapply (sendPay_pts m c 3 0 (by decide) 3 (by decide)); iexact HaS3_pay1
    isplitl [HaS4_pay1]; · iapply (sendPay_pts m c 4 0 (by decide) 4 (by decide)); iexact HaS4_pay1
    isplitl [HaS5_pay1]; · iapply (sendPay_pts m c 5 0 (by decide) 5 (by decide)); iexact HaS5_pay1
    isplitl [HaS6_pay1]; · iapply (sendPay_pts m c 6 0 (by decide) 6 (by decide)); iexact HaS6_pay1
    iexact Hss0
  ihave Hj1 := ((send_fan3 (F := F) c 1 (sbuf m c 1)).2) $$ [HaS7_pay1 HaS8_pay1 HaS9_pay1 Hss1]
  · isplitl [HaS7_pay1]; · iapply (sendPay_pts m c 7 1 (by decide) 0 (by decide)); iexact HaS7_pay1
    isplitl [HaS8_pay1]; · iapply (sendPay_pts m c 8 1 (by decide) 1 (by decide)); iexact HaS8_pay1
    isplitl [HaS9_pay1]; · iapply (sendPay_pts m c 9 1 (by decide) 2 (by decide)); iexact HaS9_pay1
    iexact Hss1
  ihave Hj2 := ((send_fan7 (F := F) c 2 (sbuf m c 2)).2) $$ [HaS10_pay1 HaS11_pay1 HaS12_pay1 HaS13_pay1 HaS14_pay1 HaS15_pay1 HaS16_pay1 Hss2]
  · isplitl [HaS10_pay1]; · iapply (sendPay_pts m c 10 2 (by decide) 0 (by decide)); iexact HaS10_pay1
    isplitl [HaS11_pay1]; · iapply (sendPay_pts m c 11 2 (by decide) 1 (by decide)); iexact HaS11_pay1
    isplitl [HaS12_pay1]; · iapply (sendPay_pts m c 12 2 (by decide) 2 (by decide)); iexact HaS12_pay1
    isplitl [HaS13_pay1]; · iapply (sendPay_pts m c 13 2 (by decide) 3 (by decide)); iexact HaS13_pay1
    isplitl [HaS14_pay1]; · iapply (sendPay_pts m c 14 2 (by decide) 4 (by decide)); iexact HaS14_pay1
    isplitl [HaS15_pay1]; · iapply (sendPay_pts m c 15 2 (by decide) 5 (by decide)); iexact HaS15_pay1
    isplitl [HaS16_pay1]; · iapply (sendPay_pts m c 16 2 (by decide) 6 (by decide)); iexact HaS16_pay1
    iexact Hss2
  ihave Hj3 := ((send_fan3 (F := F) c 3 (sbuf m c 3)).2) $$ [HaS17_pay1 HaS18_pay1 HaS19_pay1 Hss3]
  · isplitl [HaS17_pay1]; · iapply (sendPay_pts m c 17 3 (by decide) 0 (by decide)); iexact HaS17_pay1
    isplitl [HaS18_pay1]; · iapply (sendPay_pts m c 18 3 (by decide) 1 (by decide)); iexact HaS18_pay1
    isplitl [HaS19_pay1]; · iapply (sendPay_pts m c 19 3 (by decide) 2 (by decide)); iexact HaS19_pay1
    iexact Hss3
  ihave Hj4 := ((send_fan7 (F := F) c 4 (sbuf m c 4)).2) $$ [HaS20_pay1 HaS21_pay1 HaS22_pay1 HaS23_pay1 HaS24_pay1 HaS25_pay1 HaS26_pay1 Hss4]
  · isplitl [HaS20_pay1]; · iapply (sendPay_pts m c 20 4 (by decide) 0 (by decide)); iexact HaS20_pay1
    isplitl [HaS21_pay1]; · iapply (sendPay_pts m c 21 4 (by decide) 1 (by decide)); iexact HaS21_pay1
    isplitl [HaS22_pay1]; · iapply (sendPay_pts m c 22 4 (by decide) 2 (by decide)); iexact HaS22_pay1
    isplitl [HaS23_pay1]; · iapply (sendPay_pts m c 23 4 (by decide) 3 (by decide)); iexact HaS23_pay1
    isplitl [HaS24_pay1]; · iapply (sendPay_pts m c 24 4 (by decide) 4 (by decide)); iexact HaS24_pay1
    isplitl [HaS25_pay1]; · iapply (sendPay_pts m c 25 4 (by decide) 5 (by decide)); iexact HaS25_pay1
    isplitl [HaS26_pay1]; · iapply (sendPay_pts m c 26 4 (by decide) 6 (by decide)); iexact HaS26_pay1
    iexact Hss4
  ihave Hj5 := ((send_fan3 (F := F) c 5 (sbuf m c 5)).2) $$ [HaS27_pay1 HaS28_pay1 HaS29_pay1 Hss5]
  · isplitl [HaS27_pay1]; · iapply (sendPay_pts m c 27 5 (by decide) 0 (by decide)); iexact HaS27_pay1
    isplitl [HaS28_pay1]; · iapply (sendPay_pts m c 28 5 (by decide) 1 (by decide)); iexact HaS28_pay1
    isplitl [HaS29_pay1]; · iapply (sendPay_pts m c 29 5 (by decide) 2 (by decide)); iexact HaS29_pay1
    iexact Hss5
  ihave Hsc0 := (send_join_flat (F := F) c _ _ _ _ _ _) $$ [Hj0 Hj1 Hj2 Hj3 Hj4 Hj5]
  · isplitl [Hj0]; · iexact Hj0
    isplitl [Hj1]; · iexact Hj1
    isplitl [Hj2]; · iexact Hj2
    isplitl [Hj3]; · iexact Hj3
    isplitl [Hj4]; · iexact Hj4
    iexact Hj5
  ihave Hsc1 := (recv_join_flat (F := F) c _ _ _ _ _ _ _ _ _ _ _ _ _ _ _ _ _ _ _ _ _ _ _ _ _ _ _ _ _ _) $$ [HaR0_pay1 HaR1_pay1 HaR2_pay1 HaR3_pay1 HaR4_pay1 HaR5_pay1 HaR6_pay1 HaR7_pay1 HaR8_pay1 HaR9_pay1 HaR10_pay1 HaR11_pay1 HaR12_pay1 HaR13_pay1 HaR14_pay1 HaR15_pay1 HaR16_pay1 HaR17_pay1 HaR18_pay1 HaR19_pay1 HaR20_pay1 HaR21_pay1 HaR22_pay1 HaR23_pay1 HaR24_pay1 HaR25_pay1 HaR26_pay1 HaR27_pay1 HaR28_pay1 HaR29_pay1]
  · isplitl [HaR0_pay1]; · iapply (recvPts_intro c 0 _); iexact HaR0_pay1
    isplitl [HaR1_pay1]; · iapply (recvPts_intro c 1 _); iexact HaR1_pay1
    isplitl [HaR2_pay1]; · iapply (recvPts_intro c 2 _); iexact HaR2_pay1
    isplitl [HaR3_pay1]; · iapply (recvPts_intro c 3 _); iexact HaR3_pay1
    isplitl [HaR4_pay1]; · iapply (recvPts_intro c 4 _); iexact HaR4_pay1
    isplitl [HaR5_pay1]; · iapply (recvPts_intro c 5 _); iexact HaR5_pay1
    isplitl [HaR6_pay1]; · iapply (recvPts_intro c 6 _); iexact HaR6_pay1
    isplitl [HaR7_pay1]; · iapply (recvPts_intro c 7 _); iexact HaR7_pay1
    isplitl [HaR8_pay1]; · iapply (recvPts_intro c 8 _); iexact HaR8_pay1
    isplitl [HaR9_pay1]; · iapply (recvPts_intro c 9 _); iexact HaR9_pay1
    isplitl [HaR10_pay1]; · iapply (recvPts_intro c 10 _); iexact HaR10_pay1
    isplitl [HaR11_pay1]; · iapply (recvPts_intro c 11 _); iexact HaR11_pay1
    isplitl [HaR12_pay1]; · iapply (recvPts_intro c 12 _); iexact HaR12_pay1
    isplitl [HaR13_pay1]; · iapply (recvPts_intro c 13 _); iexact HaR13_pay1
    isplitl [HaR14_pay1]; · iapply (recvPts_intro c 14 _); iexact HaR14_pay1
    isplitl [HaR15_pay1]; · iapply (recvPts_intro c 15 _); iexact HaR15_pay1
    isplitl [HaR16_pay1]; · iapply (recvPts_intro c 16 _); iexact HaR16_pay1
    isplitl [HaR17_pay1]; · iapply (recvPts_intro c 17 _); iexact HaR17_pay1
    isplitl [HaR18_pay1]; · iapply (recvPts_intro c 18 _); iexact HaR18_pay1
    isplitl [HaR19_pay1]; · iapply (recvPts_intro c 19 _); iexact HaR19_pay1
    isplitl [HaR20_pay1]; · iapply (recvPts_intro c 20 _); iexact HaR20_pay1
    isplitl [HaR21_pay1]; · iapply (recvPts_intro c 21 _); iexact HaR21_pay1
    isplitl [HaR22_pay1]; · iapply (recvPts_intro c 22 _); iexact HaR22_pay1
    isplitl [HaR23_pay1]; · iapply (recvPts_intro c 23 _); iexact HaR23_pay1
    isplitl [HaR24_pay1]; · iapply (recvPts_intro c 24 _); iexact HaR24_pay1
    isplitl [HaR25_pay1]; · iapply (recvPts_intro c 25 _); iexact HaR25_pay1
    isplitl [HaR26_pay1]; · iapply (recvPts_intro c 26 _); iexact HaR26_pay1
    isplitl [HaR27_pay1]; · iapply (recvPts_intro c 27 _); iexact HaR27_pay1
    isplitl [HaR28_pay1]; · iapply (recvPts_intro c 28 _); iexact HaR28_pay1
    iapply (recvPts_intro c 29 _); iexact HaR29_pay1
  iapply Hk
  unfold bodyPost
  isplitl [Hg7]
  · rw [show (outAt m c : Buf (Elt F) ((c : Thread nD τ).loc cc0_stg7_0)) = _ from (out_written m c g7).symm]; iexact Hg7
  isplitl [Hsc0 Hsc1]
  · unfold scratch; isplitl [Hsc0]; · iexact Hsc0
    iexact Hsc1
  isplitl [HO]; · (iexists _; iexact HO)
  iframe

end Cert.KernelIdeal.Proto

end
-- ==== Proof.BodyOb.lean ====
import proofs.«900997_g7700000000000998_dist_mlpseq_tp1d_rep_rep_b128_d128_h256_v7x_i32_f32_1_alg».proof.Proof.Body

noncomputable section

namespace Cert.KernelIdeal.Proto

open Cert.KernelIdeal Cert.KernelIdeal.Gen Cert.Mlp Cert.KernelIdeal.DevEq

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_0 (c : Dev nD) (d) : (dats (F := F) m 0 c).before (0 : Fin 8) t₀ d = (argsOf m c).x := by
  unfold Dat.before; rw [if_pos (by decide +kernel : (cfg0.win (0 : Fin 8)).fetch t₀ = true)]; rfl
theorem before_1 (c : Dev nD) (d) : (dats (F := F) m 0 c).before (1 : Fin 8) t₀ d = (argsOf m c).w0 := by
  unfold Dat.before; rw [if_pos (by decide +kernel : (cfg0.win (1 : Fin 8)).fetch t₀ = true)]; rfl
theorem before_2 (c : Dev nD) (d) : (dats (F := F) m 0 c).before (2 : Fin 8) t₀ d = (argsOf m c).o0 := by
  unfold Dat.before; rw [if_pos (by decide +kernel : (cfg0.win (2 : Fin 8)).fetch t₀ = true)]; rfl
theorem before_3 (c : Dev nD) (d) : (dats (F := F) m 0 c).before (3 : Fin 8) t₀ d = (argsOf m c).w1 := by
  unfold Dat.before; rw [if_pos (by decide +kernel : (cfg0.win (3 : Fin 8)).fetch t₀ = true)]; rfl
theorem before_4 (c : Dev nD) (d) : (dats (F := F) m 0 c).before (4 : Fin 8) t₀ d = (argsOf m c).o1 := by
  unfold Dat.before; rw [if_pos (by decide +kernel : (cfg0.win (4 : Fin 8)).fetch t₀ = true)]; rfl
theorem before_5 (c : Dev nD) (d) : (dats (F := F) m 0 c).before (5 : Fin 8) t₀ d = (argsOf m c).w2 := by
  unfold Dat.before; rw [if_pos (by decide +kernel : (cfg0.win (5 : Fin 8)).fetch t₀ = true)]; rfl
theorem before_6 (c : Dev nD) (d) : (dats (F := F) m 0 c).before (6 : Fin 8) t₀ d = (argsOf m c).o2 := by
  unfold Dat.before; rw [if_pos (by decide +kernel : (cfg0.win (6 : Fin 8)).fetch t₀ = true)]; rfl

set_option maxRecDepth 8000 in
def obPre (c : Dev nD) : sProp 𝕄 :=
  iprop(Φ₀ m c ∗ (dats m 0 c).owesAt () t₀.castSucc
    ∗ (∃ d, stg c cc0_stg0_0 ((dats m 0 c).before (0 : Fin 8) t₀ d))
    ∗ (∃ d, stg c cc0_stg1_0 ((dats m 0 c).before (1 : Fin 8) t₀ d))
    ∗ (∃ d, stg c cc0_stg2_0 ((dats m 0 c).before (2 : Fin 8) t₀ d))
    ∗ (∃ d, stg c cc0_stg3_0 ((dats m 0 c).before (3 : Fin 8) t₀ d))
    ∗ (∃ d, stg c cc0_stg4_0 ((dats m 0 c).before (4 : Fin 8) t₀ d))
    ∗ (∃ d, stg c cc0_stg5_0 ((dats m 0 c).before (5 : Fin 8) t₀ d))
    ∗ (∃ d, stg c cc0_stg6_0 ((dats m 0 c).before (6 : Fin 8) t₀ d))
    ∗ (∃ d, stg c cc0_stg7_0 ((dats m 0 c).before (7 : Fin 8) t₀ d)))

set_option maxRecDepth 8000 in
def obPost (c : Dev nD) : sProp 𝕄 :=
  iprop(Φ₁ c ∗ (dats m 0 c).owesAt () t₀.succ
    ∗ stg c cc0_stg0_0 (argsOf m c).x
    ∗ stg c cc0_stg1_0 (argsOf m c).w0
    ∗ stg c cc0_stg2_0 (argsOf m c).o0
    ∗ stg c cc0_stg3_0 (argsOf m c).w1
    ∗ stg c cc0_stg4_0 (argsOf m c).o1
    ∗ stg c cc0_stg5_0 (argsOf m c).w2
    ∗ stg c cc0_stg6_0 (argsOf m c).o2
    ∗ stg c cc0_stg7_0 (outAt m c))

-- What the body leaves regroups into the invariant after the point.
set_option maxRecDepth 65536 in
set_option maxHeartbeats 4000000 in
theorem post_pack (c : Dev nD) : bodyPost m c ⊢ obPost m c := by
  unfold bodyPost obPost Φ₁ Dat.owesAt Pipeline.owesWithin
  rw [show (dats (F := F) m 0 c).owed t₀.succ = 0 from rfl, bigSep_fin30, bigSep_fin30]
  iintro ⟨P7, Hscr, ⟨%W', HO⟩, P0, P1, P2, P3, P4, P5, P6, Hex, S0, S1, S2, S3, S4, S5, S6, S7, S8, S9, S10, S11, S12, S13, S14, S15, S16, S17, S18, S19, S20, S21, S22, S23, S24, S25, S26, S27, S28, S29, R0, R1, R2, R3, R4, R5, R6, R7, R8, R9, R10, R11, R12, R13, R14, R15, R16, R17, R18, R19, R20, R21, R22, R23, R24, R25, R26, R27, R28, R29⟩
  isplitr [HO P0 P1 P2 P3 P4 P5 P6 P7]
  · iframe
  isplitl [HO]
  · iexists W'
    isplitr; · ipureintro; exact fun _ _ => Or.inl trivial
    iexact HO
  isplitl [P0]
  · iexists _; isplitr; · (ipureintro; rfl)
    iexact P0
  isplitl [P1]
  · iexists _; isplitr; · (ipureintro; rfl)
    iexact P1
  isplitl [P2]
  · iexists _; isplitr; · (ipureintro; rfl)
    iexact P2
  isplitl [P3]
  · iexists _; isplitr; · (ipureintro; rfl)
    iexact P3
  isplitl [P4]
  · iexists _; isplitr; · (ipureintro; rfl)
    iexact P4
  isplitl [P5]
  · iexists _; isplitr; · (ipureintro; rfl)
    iexact P5
  isplitl [P6]
  · iexists _; isplitr; · (ipureintro; rfl)
    iexact P6
  iexists _; isplitr; · (ipureintro; rfl)
  iexact P7

-- The body obligation of the one grid point: the invariant before the point holds exactly the grouped resources the body's run starts from.
set_option maxRecDepth 65536 in
set_option maxHeartbeats 8000000 in
theorem body_obligation (c : Dev nD) : BodyObligation (dats (F := F) m 0 c) (defs₀ (F := F)) 𝒱₀ () Set.univ := fun t => by
  rw [fin_N t]
  rw [bigSep_W0, bigSep_W0]
  simp only [owns_whole_eq]
  show obPre m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _)
      cc0_scratch2 cc0_scratch3 cc0_scoped0) (fun _ => obPost m c)
  unfold obPre Φ₀ start ghost scratch
  iintro ⟨⟨⟨⟨%K, #Hrec, Hpos, Htok⟩, Hcred, #Hlev⟩, ⟨%fs0, Hs0⟩, ⟨%fr, Hs1⟩⟩, Ho, ⟨%d0, %g0, %hg0, P0⟩, ⟨%d1, %g1, %hg1, P1⟩, ⟨%d2, %g2, %hg2, P2⟩, ⟨%d3, %g3, %hg3, P3⟩, ⟨%d4, %g4, %hg4, P4⟩, ⟨%d5, %g5, %hg5, P5⟩, ⟨%d6, %g6, %hg6, P6⟩, ⟨%d7, %g7, %hg7, P7⟩⟩
  have e0 := hg0.trans (before_0 m c d0)
  have e1 := hg1.trans (before_1 m c d1)
  have e2 := hg2.trans (before_2 m c d2)
  have e3 := hg3.trans (before_3 m c d3)
  have e4 := hg4.trans (before_4 m c d4)
  have e5 := hg5.trans (before_5 m c d5)
  have e6 := hg6.trans (before_6 m c d6)
  subst e0 e1 e2 e3 e4 e5 e6
  unfold Dat.owesAt Pipeline.owesWithin
  icases Ho with ⟨%W, %hW, HO⟩
  rw [show (dats (F := F) m 0 c).owed t₀.castSucc = O₀ c from rfl]
  iapply (sound_body m K c W g7 fs0 fr fun _ => obPost m c)
  isplitr; · iexact Hrec
  isplitr; · iexact Hlev
  isplitl [Hpos]; · iexact Hpos
  isplitl [Htok]; · iexact Htok
  isplitl [Hcred]; · iexact Hcred
  isplitl [HO]; · iexact HO
  isplitl [P0]; · iexact P0
  isplitl [P1]; · iexact P1
  isplitl [P2]; · iexact P2
  isplitl [P3]; · iexact P3
  isplitl [P4]; · iexact P4
  isplitl [P5]; · iexact P5
  isplitl [P6]; · iexact P6
  isplitl [P7]; · iexact P7
  isplitl [Hs0]; · iexact Hs0
  isplitl [Hs1]; · iexact Hs1
  iintro Hp
  iapply (post_pack m c)
  iexact Hp

end Cert.KernelIdeal.Proto

end
-- ==== Proof.Bits.Proto.lean ====
import proofs.«900997_g7700000000000998_dist_mlpseq_tp1d_rep_rep_b128_d128_h256_v7x_i32_f32_1_alg».proof.Proof.Gen.Kernel
import proofs.«900997_g7700000000000998_dist_mlpseq_tp1d_rep_rep_b128_d128_h256_v7x_i32_f32_1_alg».proof.Proof.Gen.Kernel.Skeleton
import proofs.«900997_g7700000000000998_dist_mlpseq_tp1d_rep_rep_b128_d128_h256_v7x_i32_f32_1_alg».proof.Proof.Gen.Kernel.Launch
import proofs.«900997_g7700000000000998_dist_mlpseq_tp1d_rep_rep_b128_d128_h256_v7x_i32_f32_1_alg».proof.Proof.Partner
import Idealize.ShloMosaic.Lib.Pipeline.Launch
import Idealize.ShloMosaic.Lib.Pipeline.Kit
import Idealize.ShloMosaic.Lib.Tactic

noncomputable section

namespace Cert.Kernel.Proto

open Cert.Kernel Cert.Kernel.Gen Cert.Mlp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 10)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

def slotOf (l : Fin 3) (j : Fin 10) : Fin 30 := ⟨10 * l.val + j.val, by omega⟩

def jOf (k : Fin 30) : Fin 10 := ⟨k.val % 10, Nat.mod_lt _ (by decide)⟩
def lOf (k : Fin 30) : Fin 3 := ⟨k.val / 10, by omega⟩

def stageOf (k : Fin 30) : Fin 6 := ⟨2 * (k.val / 10) + (if k.val % 10 < 7 then 0 else 1), by split <;> omega⟩

theorem slotOf_jOf_lOf : ∀ k : Fin 30, slotOf (lOf k) (jOf k) = k := by decide
theorem jOf_slotOf : ∀ (l : Fin 3) (j : Fin 10), jOf (slotOf l j) = j := by decide
theorem lOf_slotOf : ∀ (l : Fin 3) (j : Fin 10), lOf (slotOf l j) = l := by decide

abbrev barS : Sem sig := 0
abbrev exitS : Sem sig := 1
def sendSem (k : Fin 30) : DmaSem sig := ⟨8 + k.val, by have := k.isLt; show 8 + k.val < 68; omega⟩
def recvSem (k : Fin 30) : DmaSem sig := ⟨38 + k.val, by have := k.isLt; show 38 + k.val < 68; omega⟩

abbrev barCell (c : Dev nD) : GSem nD τ sig := ((c : Thread nD τ), .reg barS)
abbrev exitCell (c : Dev nD) : GSem nD τ sig := ((c : Thread nD τ), .reg exitS)
abbrev sendCell (c : Dev nD) (k : Fin 30) : GSem nD τ sig := ((c : Thread nD τ), .dma (sendSem k))
abbrev recvCell (c : Dev nD) (k : Fin 30) : GSem nD τ sig := ((c : Thread nD τ), .dma (recvSem k))

theorem inb_send (s : Fin 6) : ∀ a, (![s.val, 0, 0] : Fin 3 → Nat) a + S1x128x128.size a ≤ S6x128x128.size a := by
  intro a; have := s.isLt; fin_cases a <;> simp <;> omega
theorem inb_recv (k : Fin 30) : ∀ a, (![k.val, 0, 0] : Fin 3 → Nat) a + S1x128x128.size a ≤ S30x128x128.size a := by
  intro a; have := k.isLt; fin_cases a <;> simp <;> omega

def sendSlot (s : Fin 6) : Memref sig .tc .vmem S128x128 .bf16 :=
  ((Memref.whole cc0_scratch0).slice (Rect.unit (s := S6x128x128) ![s.val, 0, 0] S1x128x128.size (inb_send s)) (fun _ => rfl)).squeeze S128x128 squeezes_S1x128x128_S128x128
def recvSlot (k : Fin 30) : Memref sig .tc .vmem S128x128 .bf16 :=
  ((Memref.whole cc0_scratch1).slice (Rect.unit (s := S30x128x128) ![k.val, 0, 0] S1x128x128.size (inb_recv k)) (fun _ => rfl)).squeeze S128x128 squeezes_S1x128x128_S128x128

abbrev N : ℕ := (recvSlot 0).view.dmaCredit

def rightN : ℕ → PosShare TreeShare
  | 0 => fullShare
  | n + 1 => (rightN n).right
def chainShare (n : ℕ) : PosShare TreeShare := (rightN n).left

def posOf (k : Fin 30) : ℕ := if k.val % 10 < 7 then k.val % 10 else k.val % 10 - 7
def shr (k : Fin 30) : PosShare TreeShare := chainShare (posOf k)

variable (m : (ℓ : Loc nD τ sig) → Buf (Elt F) ℓ) (ρ : Dev nD → PrngReg)

def s₀ : MemSt nD τ sig (Elt F) := ⟨m, fun _ => 0, ρ⟩

variable (sb : (c : Dev nD) → Fin 6 → Buf (Elt F) ((c : Thread nD τ).loc cc0_scratch0))

def sendPts (c : Dev nD) (s : Fin 6) (q : PosShare TreeShare) (f : Buf (Elt F) ((sendSlot s).view.loc (c : Thread nD τ))) : sProp 𝕄 :=
  (sendSlot s).view.loc (c : Thread nD τ) ↦[(sendSlot s).view.set]{q} f
def recvPts (c : Dev nD) (k : Fin 30) (f : Buf (Elt F) ((recvSlot k).view.loc (c : Thread nD τ))) : sProp 𝕄 :=
  (recvSlot k).view.loc (c : Thread nD τ) ↦[(recvSlot k).view.set]{fullShare} f

def recvEx (c : Dev nD) (k : Fin 30) : sProp 𝕄 := iprop(∃ f, recvPts c k f)

def landed (c : Dev nD) (k : Fin 30) : Buf (Elt F) ((recvSlot k).view.loc (c : Thread nD τ)) :=
  (recvSlot k).view.write (Elt F) (m ((c : Thread nD τ).loc cc0_scratch1))
    ((sendSlot (stageOf k)).view.read (Elt F) (sb (partner c (jOf k)) (stageOf k))) Finset.univ

def barPay (c : Dev nD) (j : Fin 10) : sProp 𝕄 :=
  iprop(recvEx (partner c j) (slotOf 0 j) ∗ recvEx (partner c j) (slotOf 1 j) ∗ recvEx (partner c j) (slotOf 2 j))
def recvPay (c : Dev nD) (k : Fin 30) : sProp 𝕄 := recvPts c k (landed m sb c k)
def sendPay (c : Dev nD) (k : Fin 30) : sProp 𝕄 := sendPts c (stageOf k) (shr k) (sb c (stageOf k))

def sendIx (q : DmaSem sig) : Option (Fin 30) := if h : 8 ≤ q.val ∧ q.val < 38 then some ⟨q.val - 8, by omega⟩ else none
def recvIx (q : DmaSem sig) : Option (Fin 30) := if h : 38 ≤ q.val then some ⟨q.val - 38, by have h68 : q.val < 68 := q.isLt; show q.val - 38 < 30; omega⟩ else none

theorem sendIx_sendSem : ∀ k : Fin 30, sendIx (sendSem k) = some k := by decide
theorem recvIx_recvSem : ∀ k : Fin 30, recvIx (recvSem k) = some k := by decide
theorem recvIx_sendSem : ∀ k : Fin 30, recvIx (sendSem k) = none := by decide
theorem sendIx_recvSem : ∀ k : Fin 30, sendIx (recvSem k) = none := by decide

def Rd : Rounds.Schedule (GSem nD τ sig) (Fin 10) 𝕄 where
  duties g r :=
    if r = 0 ∧ g.1.2 = .tc then
      (match g.2 with
       | .reg _ => Finset.univ
       | .dma q => if 8 ≤ q.val then {0} else ∅)
    else ∅
  unitless _ := False
  amount g _ _ := match g.2 with | .reg _ => 1 | .dma _ => N
  payload g _ d := match g.2 with
    | .reg s => if s = barS then barPay g.1.1 d else iprop(emp)
    | .dma q => match recvIx q with
      | some k => recvPay m sb g.1.1 k
      | none => match sendIx q with
        | some k => sendPay sb g.1.1 k
        | none => iprop(emp)
  amount_pos g _ _ _ := by
    cases g.2 with
    | reg _ => exact Nat.one_pos
    | dma _ => exact View.dmaCredit_pos _ (by decide)

end Cert.Kernel.Proto

end
-- ==== Proof.Bits.Tables.lean ====
import proofs.«900997_g7700000000000998_dist_mlpseq_tp1d_rep_rep_b128_d128_h256_v7x_i32_f32_1_alg».proof.Proof.Bits.Proto

noncomputable section

namespace Cert.Kernel.Proto

open Cert.Kernel Cert.Kernel.Gen Cert.Mlp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (sb : (c : Dev nD) → Fin 6 → Buf (Elt F) ((c : Thread nD τ).loc cc0_scratch0))

instance sendPts_storable (c : Dev nD) (s : Fin 6) (q : PosShare TreeShare) (f : Buf (Elt F) ((sendSlot s).view.loc (c : Thread nD τ))) :
    BI.Storable (upEmb : UEmb _ 𝕄) (sendPts (F := F) c s q f) := by unfold sendPts; infer_instance

instance Rd_payload_storable (g : GSem nD τ sig) (r : ℕ) (d : Fin 10) :
    BI.Storable (upEmb : UEmb _ 𝕄) ((Rd (F := F) m sb).payload g r d) := by
  show BI.Storable upEmb (match g.2 with
    | .reg s => if s = barS then barPay g.1.1 d else iprop(emp)
    | .dma q => match recvIx q with
      | some k => recvPay m sb g.1.1 k
      | none => match sendIx q with
        | some k => sendPay sb g.1.1 k
        | none => iprop(emp))
  unfold barPay recvPay sendPay recvEx recvPts
  (repeat' split) <;> first | infer_instance | exact sendPts_storable _ _ _ _

section Tables
variable (c : Dev nD)

theorem duties_bar : (Rd (F := F) m sb).duties (barCell c) 0 = Finset.univ := by
  dsimp only [Rd]; exact if_pos ⟨rfl, rfl⟩
theorem duties_exit : (Rd (F := F) m sb).duties (exitCell c) 0 = Finset.univ := by
  dsimp only [Rd]; exact if_pos ⟨rfl, rfl⟩
theorem duties_send (k : Fin 30) : (Rd (F := F) m sb).duties (sendCell c k) 0 = {0} := by
  dsimp only [Rd]; rw [if_pos ⟨rfl, rfl⟩]
  exact if_pos (show 8 ≤ 8 + k.val from Nat.le_add_right _ _)
theorem duties_recv (k : Fin 30) : (Rd (F := F) m sb).duties (recvCell c k) 0 = {0} := by
  dsimp only [Rd]; rw [if_pos ⟨rfl, rfl⟩]
  exact if_pos (show 8 ≤ 38 + k.val by omega)
theorem duties_later (g : GSem nD τ sig) : ∀ r, 1 ≤ r → (Rd (F := F) m sb).duties g r = ∅ :=
  fun r hr => by dsimp only [Rd]; exact if_neg fun h => by have := h.1; omega

theorem amount_bar (d : Fin 10) : (Rd (F := F) m sb).amount (barCell c) 0 d = 1 := rfl
theorem amount_exit (d : Fin 10) : (Rd (F := F) m sb).amount (exitCell c) 0 d = 1 := rfl
theorem amount_send (k : Fin 30) (d : Fin 10) : (Rd (F := F) m sb).amount (sendCell c k) 0 d = N := rfl
theorem amount_recv (k : Fin 30) (d : Fin 10) : (Rd (F := F) m sb).amount (recvCell c k) 0 d = N := rfl

theorem expect_bar : (Rd (F := F) m sb).expect (barCell c) 0 = 10 := by
  unfold Schedule.expect Schedule.amountOf
  rw [duties_bar, Finset.sum_congr rfl fun d _ => amount_bar m sb c d, Finset.sum_const, Finset.card_univ, Fintype.card_fin, smul_eq_mul]
theorem expect_exit : (Rd (F := F) m sb).expect (exitCell c) 0 = 10 := by
  unfold Schedule.expect Schedule.amountOf
  rw [duties_exit, Finset.sum_congr rfl fun d _ => amount_exit m sb c d, Finset.sum_const, Finset.card_univ, Fintype.card_fin, smul_eq_mul]
theorem expect_send (k : Fin 30) : (Rd (F := F) m sb).expect (sendCell c k) 0 = N := by
  unfold Schedule.expect Schedule.amountOf; rw [duties_send, Finset.sum_singleton, amount_send]
theorem expect_recv (k : Fin 30) : (Rd (F := F) m sb).expect (recvCell c k) 0 = N := by
  unfold Schedule.expect Schedule.amountOf; rw [duties_recv, Finset.sum_singleton, amount_recv]

theorem payload_bar (j : Fin 10) : (Rd (F := F) m sb).payload (barCell c) 0 j = barPay c j := by
  dsimp only [Rd]; exact if_pos rfl
theorem payload_exit (j : Fin 10) : (Rd (F := F) m sb).payload (exitCell c) 0 j = iprop(emp) := by
  dsimp only [Rd]; exact if_neg (by decide)
theorem payload_send (k : Fin 30) (d : Fin 10) : (Rd (F := F) m sb).payload (sendCell c k) 0 d = sendPay sb c k := by
  dsimp only [Rd]; rw [recvIx_sendSem, sendIx_sendSem]
theorem payload_recv (k : Fin 30) (d : Fin 10) : (Rd (F := F) m sb).payload (recvCell c k) 0 d = recvPay m sb c k := by
  dsimp only [Rd]; rw [recvIx_recvSem]

theorem rest_bar : bigSep ((Rd (F := F) m sb).duties (barCell c) 0 \ ∅) (fun d => (Rd (F := F) m sb).payload (barCell c) 0 d)
    = bigSep Finset.univ (fun j : Fin 10 => barPay (F := F) c j) := by
  rw [Finset.sdiff_empty, duties_bar]
  exact bigSep_congr fun j _ => payload_bar m sb c j
theorem rest_exit : bigSep ((Rd (F := F) m sb).duties (exitCell c) 0 \ ∅) (fun d => (Rd (F := F) m sb).payload (exitCell c) 0 d)
    ⊢ (iprop(emp) : sProp 𝕄) := by
  rw [Finset.sdiff_empty, duties_exit]
  have h : bigSep Finset.univ (fun d => (Rd (F := F) m sb).payload (exitCell c) 0 d)
      = bigSep Finset.univ (fun _ : Fin 10 => (BI.emp : sProp 𝕄)) := bigSep_congr fun j _ => payload_exit m sb c j
  rw [h, bigSep_emp_const]
  exact BI.Entails.refl _
theorem rest_send (k : Fin 30) : bigSep ((Rd (F := F) m sb).duties (sendCell c k) 0 \ ∅) (fun d => (Rd (F := F) m sb).payload (sendCell c k) 0 d)
    = sendPay sb c k := by
  rw [Finset.sdiff_empty, duties_send, bigSep_singleton, payload_send]
theorem rest_recv (k : Fin 30) : bigSep ((Rd (F := F) m sb).duties (recvCell c k) 0 \ ∅) (fun d => (Rd (F := F) m sb).payload (recvCell c k) 0 d)
    = recvPay m sb c k := by
  rw [Finset.sdiff_empty, duties_recv, bigSep_singleton, payload_recv]

theorem bigSep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

end Tables

def mk10 (i : ℕ) : Fin 10 := ⟨i % 10, Nat.mod_lt _ (by decide)⟩
def mk30 (i : ℕ) : Fin 30 := ⟨i % 30, Nat.mod_lt _ (by decide)⟩

def payCell (c : Dev nD) (i : ℕ) : GSem nD τ sig :=
  if i < 10 then barCell (partner c (mk10 i))
  else if i < 40 then recvCell (partner c (mk10 (i - 10))) (mk30 (i - 10))
  else exitCell (partner c (mk10 (i - 40)))
def payAmt (i : ℕ) : ℕ := if 10 ≤ i ∧ i < 40 then N else 1

def owedK (c : Dev nD) : ℕ → CellTallies nD τ sig Unit
  | 0 => 0
  | n + 1 => owedK c n + tallyAt (payCell c (49 - n)) () (payAmt (49 - n))

def O₀ (c : Dev nD) : CellTallies nD τ sig Unit := owedK c 50

theorem owedK_succ (c : Dev nD) (n : ℕ) : owedK c (n + 1) = owedK c n + tallyAt (payCell c (49 - n)) () (payAmt (49 - n)) := rfl

theorem owedK_pos {c : Dev nD} {n : ℕ} {g : GSem nD τ sig} {u : Unit} (h : 0 < owedK c n g u) :
    ∃ i, 50 - n ≤ i ∧ i < 50 ∧ g = payCell c i := by
  induction n with
  | zero =>
    have h0 : owedK c 0 g u = 0 := rfl
    rw [h0] at h; exact absurd h (Nat.lt_irrefl 0)
  | succ n ih =>
    rw [owedK_succ, Pi.add_apply, Finsupp.add_apply, tallyAt_apply] at h
    by_cases hg : g = payCell c (49 - n) ∧ u = ()
    · exact ⟨49 - n, by omega, by omega, hg.1⟩
    · rw [if_neg hg, add_zero] at h
      obtain ⟨i, h1, h2, h3⟩ := ih h
      exact ⟨i, by omega, h2, h3⟩

def L (g : GSem nD τ sig) : Finset Unit := if g.1.2 = .tc then {()} else ∅

def lv (g : GSem nD τ sig) (_ : Unit) : ℕ :=
  match g.2 with
  | .reg s => if s = barS then 1 else 8
  | .dma q => match recvIx q with
    | some k => 2 + (stageOf k).val
    | none => 0

theorem L_of_ne (g : GSem nD τ sig) (h : g.1.2 ≠ .tc) : L g = ∅ := if_neg h
theorem L_tc (c : Dev nD) (sm : SemLoc sig) : L ((c : Thread nD τ), sm) = {()} := if_pos rfl

def lvPay (i : ℕ) : ℕ := if i < 10 then 1 else if i < 40 then 2 + (stageOf (mk30 (i - 10))).val else 8
theorem lv_payCell (c : Dev nD) (i : ℕ) : lv (payCell c i) () = lvPay i := by
  unfold payCell lvPay
  by_cases h1 : i < 10
  · rw [if_pos h1, if_pos h1]; dsimp only [lv]; exact if_pos rfl
  · rw [if_neg h1, if_neg h1]
    by_cases h2 : i < 40
    · rw [if_pos h2, if_pos h2]; dsimp only [lv]; rw [recvIx_recvSem]
    · rw [if_neg h2, if_neg h2]; dsimp only [lv]; exact if_neg (by decide)

theorem payCell_tc (c : Dev nD) (i : ℕ) : (payCell c i).1.2 = .tc := by
  unfold payCell
  by_cases h1 : i < 10
  · rw [if_pos h1]
  · rw [if_neg h1]
    by_cases h2 : i < 40
    · rw [if_pos h2]
    · rw [if_neg h2]

theorem lvPay_pos (i : ℕ) : 0 < lvPay i := by
  unfold lvPay
  by_cases h1 : i < 10
  · rw [if_pos h1]; exact Nat.one_pos
  · rw [if_neg h1]
    by_cases h2 : i < 40
    · rw [if_pos h2]; omega
    · rw [if_neg h2]; omega

theorem mayWait_owedK (c : Dev nD) (sm : SemLoc sig) (n : ℕ) (hn : n ≤ 50)
    (hlt : ∀ i, 50 - n ≤ i → i < 50 → lv ((c : Thread nD τ), sm) () < lvPay i) :
    (levAts L lv : sProp 𝕄) ⊢ MayWait (c : Thread nD τ) sm () (owedK c n) :=
  MayOwe.of_cut (L := L) (lev := lv) (lv ((c : Thread nD τ), sm) ())
    (fun p hp => by rw [Finset.mem_singleton.mp hp, L_tc]; exact Finset.mem_singleton_self _)
    (fun g u hg => by
      obtain ⟨i, _, _, rfl⟩ := owedK_pos hg
      have hL : L (payCell c i) = {()} := if_pos (payCell_tc c i)
      rw [hL]; exact Finset.mem_singleton_self _)
    (fun p hp => by have hp' := Finset.mem_singleton.mp hp; subst hp'; exact le_refl _)
    (fun g u hg => by
      obtain ⟨i, h1, h2, rfl⟩ := owedK_pos hg
      have := lv_payCell c i
      exact lt_of_lt_of_eq (hlt i h1 h2) this.symm)

theorem mayWait_stage (c : Dev nD) (q : DmaSem sig) (hq : q.val < 8) (O : CellTallies nD τ sig Unit) (hO : O = O₀ c ∨ O = 0) :
    (levAts L lv : sProp 𝕄) ⊢ MayWait (c : Thread nD τ) (.dma q) () O := by
  rcases hO with rfl | rfl
  · have hr : recvIx q = none := by unfold recvIx; exact dif_neg (by omega)
    have h0 : lv ((c : Thread nD τ), .dma q) () = 0 := by dsimp only [lv]; rw [hr]
    exact mayWait_owedK c (.dma q) 50 (le_refl _) (fun i _ _ => by rw [h0]; exact lvPay_pos i)
  · rw [MayWait_zero]; iintro -; iempintro

end Cert.Kernel.Proto

end
-- ==== Proof.Bits.Vals.lean ====
import proofs.«900997_g7700000000000998_dist_mlpseq_tp1d_rep_rep_b128_d128_h256_v7x_i32_f32_1_alg».proof.Proof.Gen.Kernel.Skeleton
import proofs.«900997_g7700000000000998_dist_mlpseq_tp1d_rep_rep_b128_d128_h256_v7x_i32_f32_1_alg».proof.Proof.Partner

noncomputable section

namespace Cert.Kernel.Vals

open Cert.Kernel Cert.Kernel.Gen Cert.Mlp Idealize.ShloMosaic

structure Args (F : FTy → Type) where
  x : Vec F S128x128 .f32
  w0 : Vec F S128x256 .f32
  o0 : Vec F S256x128 .f32
  w1 : Vec F S128x256 .f32
  o1 : Vec F S256x128 .f32
  w2 : Vec F S128x256 .f32
  o2 : Vec F S256x128 .f32

variable {F : FTy → Type} [FloatOps F]
variable (A : Dev nD → Args F)

def v907 (c : Dev nD) : FVec F S128x128 .f32 := k0_pay1 (A c).x (A c).w0 (A c).o0

def sent0 (c : Dev nD) : Vec F S1x128x128 .bf16 := k0_pay2 (A c).x (A c).w0 (A c).o0

def v993 (c : Dev nD) : FVec F S128x128 .f32 := k0_pay3 (v907 A c) (sent0 A (partner c 6))

def v1017 (c : Dev nD) : FVec F S128x128 .f32 :=
  k0_pay4 (v993 A c) (sent0 A (partner c 5)) (sent0 A (partner c 4))

def v1041 (c : Dev nD) : FVec F S128x128 .f32 :=
  k0_pay5 (v1017 A c) (sent0 A (partner c 3)) (sent0 A (partner c 2))

def v1065 (c : Dev nD) : FVec F S128x128 .f32 :=
  k0_pay6 (v1041 A c) (sent0 A (partner c 1)) (sent0 A (partner c 0))

def sent1 (c : Dev nD) : Vec F S1x128x128 .bf16 :=
  k0_pay7 (v1041 A c) (sent0 A (partner c 1)) (sent0 A (partner c 0))

def v1136 (c : Dev nD) : FVec F S128x128 .bf16 :=
  k0_pay8 (v1065 A c) (sent1 A (partner c 9)) (sent1 A (partner c 8)) (sent1 A (partner c 7))

def v1147 (c : Dev nD) : FVec F S128x128 .f32 := k0_pay9 (v1136 A c) (A c).w1 (A c).o1

def sent2 (c : Dev nD) : Vec F S1x128x128 .bf16 := k0_pay10 (v1136 A c) (A c).w1 (A c).o1

def v1245 (c : Dev nD) : FVec F S128x128 .f32 :=
  k0_pay11 (v1147 A c) (sent2 A (partner c 6)) (sent2 A (partner c 5))

def v1269 (c : Dev nD) : FVec F S128x128 .f32 :=
  k0_pay12 (v1245 A c) (sent2 A (partner c 4)) (sent2 A (partner c 3))

def v1305 (c : Dev nD) : FVec F S128x128 .f32 :=
  k0_pay13 (v1269 A c) (sent2 A (partner c 2)) (sent2 A (partner c 1)) (sent2 A (partner c 0))

def v1306 (c : Dev nD) : FVec F S128x128 .bf16 :=
  k0_pay14 (v1269 A c) (sent2 A (partner c 2)) (sent2 A (partner c 1)) (sent2 A (partner c 0))

def sent3 (c : Dev nD) : Vec F S1x128x128 .bf16 := k0_pay15 (v1306 A c)

def v1363 (c : Dev nD) : FVec F S128x128 .f32 :=
  k0_pay16 (v1305 A c) (sent3 A (partner c 9)) (sent3 A (partner c 8))

def v1387 (c : Dev nD) : FVec F S128x128 .f32 :=
  k0_pay17 (v1363 A c) (sent3 A (partner c 7)) (A c).w2 (A c).o2

def sent4 (c : Dev nD) : Vec F S1x128x128 .bf16 :=
  k0_pay18 (v1363 A c) (sent3 A (partner c 7)) (A c).w2 (A c).o2

def v1473 (c : Dev nD) : FVec F S128x128 .f32 := k0_pay19 (v1387 A c) (sent4 A (partner c 6))

def v1497 (c : Dev nD) : FVec F S128x128 .f32 :=
  k0_pay20 (v1473 A c) (sent4 A (partner c 5)) (sent4 A (partner c 4))

def v1507 (c : Dev nD) : FVec F S128x128 .bf16 := k0_pay21 (sent4 A (partner c 3))

def v1533 (c : Dev nD) : FVec F S128x128 .f32 :=
  k0_pay22 (v1497 A c) (v1507 A c) (sent4 A (partner c 2)) (sent4 A (partner c 1))

def v1545 (c : Dev nD) : FVec F S128x128 .f32 := k0_pay23 (v1533 A c) (sent4 A (partner c 0))

def sent5 (c : Dev nD) : Vec F S1x128x128 .bf16 := k0_pay24 (v1533 A c) (sent4 A (partner c 0))

def v1591 (c : Dev nD) : FVec F S128x128 .f32 := k0_pay25 (v1545 A c) (sent5 A (partner c 9))

def outv (c : Dev nD) : Vec F S128x128 .f32 :=
  k0_pay26 (v1591 A c) (sent5 A (partner c 8)) (sent5 A (partner c 7))

end Cert.Kernel.Vals
-- ==== Proof.Bits.Ghost.lean ====
import proofs.«900997_g7700000000000998_dist_mlpseq_tp1d_rep_rep_b128_d128_h256_v7x_i32_f32_1_alg».proof.Proof.Bits.Tables
import proofs.«900997_g7700000000000998_dist_mlpseq_tp1d_rep_rep_b128_d128_h256_v7x_i32_f32_1_alg».proof.Proof.Bits.Vals
import Mathlib.Tactic.DeriveFintype

noncomputable section

namespace Cert.Kernel.Proto

open Cert.Kernel Cert.Kernel.Gen Cert.Mlp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def argsOf (d : Dev nD) : Vals.Args F where
  x := (win0_0.blk (0 : Fin 1)).view.read (Elt F) (m ((d : Thread nD τ).loc main_arg0))
  w0 := (win0_1.blk (0 : Fin 1)).view.read (Elt F) (m ((d : Thread nD τ).loc main_arg1))
  o0 := (win0_2.blk (0 : Fin 1)).view.read (Elt F) (m ((d : Thread nD τ).loc main_arg2))
  w1 := (win0_3.blk (0 : Fin 1)).view.read (Elt F) (m ((d : Thread nD τ).loc main_arg3))
  o1 := (win0_4.blk (0 : Fin 1)).view.read (Elt F) (m ((d : Thread nD τ).loc main_arg4))
  w2 := (win0_5.blk (0 : Fin 1)).view.read (Elt F) (m ((d : Thread nD τ).loc main_arg5))
  o2 := (win0_6.blk (0 : Fin 1)).view.read (Elt F) (m ((d : Thread nD τ).loc main_arg6))

def sentOf (c : Dev nD) : Fin 6 → Vec F S1x128x128 .bf16
  | 0 => Vals.sent0 (argsOf m) c | 1 => Vals.sent1 (argsOf m) c | 2 => Vals.sent2 (argsOf m) c
  | 3 => Vals.sent3 (argsOf m) c | 4 => Vals.sent4 (argsOf m) c | 5 => Vals.sent5 (argsOf m) c

abbrev rectS (s : Fin 6) : Rect S6x128x128 := Rect.unit (s := S6x128x128) ![s.val, 0, 0] S1x128x128.size (inb_send s)
abbrev rectR (k : Fin 30) : Rect S30x128x128 := Rect.unit (s := S30x128x128) ![k.val, 0, 0] S1x128x128.size (inb_recv k)

def sbuf (c : Dev nD) (s : Fin 6) : Buf (Elt F) ((c : Thread nD τ).loc cc0_scratch0) :=
  ((Memref.whole cc0_scratch0 : Memref sig .tc .vmem S6x128x128 .bf16).access (rectS s) : View sig .tc _ _ _).write (Elt F)
    (m ((c : Thread nD τ).loc cc0_scratch0)) (sentOf m c s) Finset.univ

abbrev RdK : Rounds.Schedule (GSem nD τ sig) (Fin 10) 𝕄 := Rd m (sbuf m)

inductive CK where
  | bar | exit | send (k : Fin 30) | recv (k : Fin 30)
deriving DecidableEq, Fintype

def csem : CK → SemLoc sig
  | .bar => .reg barS | .exit => .reg exitS | .send k => .dma (sendSem k) | .recv k => .dma (recvSem k)
abbrev kcell (ck : Dev nD × CK) : GSem nD τ sig := ((ck.1 : Thread nD τ), csem ck.2)

theorem csem_injective : Function.Injective csem := by
  rintro (_ | _ | k | k) (_ | _ | k' | k') h
  all_goals first
    | rfl
    | exact absurd h (by decide)
    | exact absurd h (fun h => by cases h)
    | (have h' : 8 + k.val = 8 + k'.val := congrArg Fin.val (SemLoc.dma.inj h)
       rw [show k = k' from Fin.ext (by omega)])
    | (have h' : 38 + k.val = 38 + k'.val := congrArg Fin.val (SemLoc.dma.inj h)
       rw [show k = k' from Fin.ext (by omega)])
    | (have h' : 8 + k.val = 38 + k'.val := congrArg Fin.val (SemLoc.dma.inj h)
       exact absurd h' (by have := k.isLt; omega))
    | (have h' : 38 + k.val = 8 + k'.val := congrArg Fin.val (SemLoc.dma.inj h)
       exact absurd h' (by have := k'.isLt; omega))
theorem kcell_injective : Function.Injective (kcell : Dev nD × CK → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

def records (K : Dev nD × CK → ℕ) : sProp 𝕄 :=
  iprop((bigSep Finset.univ fun ck : Dev nD × CK => cellInv ER (RdK m) (K ck) (kcell ck))
    ∗ bigSep Finset.univ fun ck : Dev nD × CK => reached ER (kcell ck) 0)

instance records_persistent (K : Dev nD × CK → ℕ) : BI.Persistent (records m K) := by unfold records; infer_instance

theorem inv_at (K : Dev nD × CK → ℕ) (ck : Dev nD × CK) : records m K ⊢ cellInv ER (RdK m) (K ck) (kcell ck) := by
  unfold records
  have h : (bigSep Finset.univ fun ck : Dev nD × CK => (cellInv ER (RdK m) (K ck) (kcell ck) : sProp 𝕄)) ⊢ cellInv ER (RdK m) (K ck) (kcell ck) :=
    bigSep_elim (Finset.mem_univ ck)
  iintro ⟨HI, -⟩
  iapply h
  iexact HI
theorem reached_at (K : Dev nD × CK → ℕ) (ck : Dev nD × CK) : records m K ⊢ (reached ER (kcell ck) 0 : sProp 𝕄) := by
  unfold records
  have h : (bigSep Finset.univ fun ck : Dev nD × CK => (reached ER (kcell ck) 0 : sProp 𝕄)) ⊢ reached ER (kcell ck) 0 :=
    bigSep_elim (Finset.mem_univ ck)
  iintro ⟨-, HR⟩
  iapply h
  iexact HR

def ownPos (c : Dev nD) : sProp 𝕄 :=
  iprop(atPos ER (barCell c) 0 ∅ 0 ∗ atPos ER (exitCell c) 0 ∅ 0
    ∗ (bigSep Finset.univ fun k : Fin 30 => atPos ER (sendCell c k) 0 ∅ 0)
    ∗ (bigSep Finset.univ fun k : Fin 30 => atPos ER (recvCell c k) 0 ∅ 0))

def payToks (c : Dev nD) : sProp 𝕄 :=
  iprop((bigSep Finset.univ fun j : Fin 10 => dutyTok ER (barCell (partner c j)) 0 j)
    ∗ (bigSep Finset.univ fun k : Fin 30 => dutyTok ER (recvCell (partner c (jOf k)) k) 0 (0 : Fin 10))
    ∗ (bigSep Finset.univ fun k : Fin 30 => dutyTok ER (sendCell c k) 0 (0 : Fin 10))
    ∗ (bigSep Finset.univ fun j : Fin 10 => dutyTok ER (exitCell (partner c j)) 0 j))

def ghost (K : Dev nD × CK → ℕ) (c : Dev nD) : sProp 𝕄 := iprop(records m K ∗ ownPos c ∗ payToks c)

def creds (c : Dev nD) : sProp 𝕄 :=
  iprop(cred (tallyAt (barCell c) () 10) ∗ (bigSep Finset.univ fun k : Fin 30 => cred (tallyAt (recvCell c k) () N)) ∗ cred (tallyAt (exitCell c) () 10))

def start (c : Dev nD) : sProp 𝕄 := iprop((∃ K, ghost m K c) ∗ creds c ∗ levAts L lv)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratch c)

def Φ₁ (c : Dev nD) : sProp 𝕄 :=
  iprop(scratch c ∗ semVal (exitCell c) 0
    ∗ (bigSep Finset.univ fun k : Fin 30 => semVal (sendCell c k) 0) ∗ (bigSep Finset.univ fun k : Fin 30 => semVal (recvCell c k) 0))

def outAt (c : Dev nD) : (cc0_stg7_0 : Ref sig .tc).ty.Contents (Elt F) := Vals.outv (argsOf m) c

def dats (_ : Fin 1) (c : Dev nD) : Dat τ (Elt F) Unit ℕ UU ℕ cfg0 c where
  A w := m ((cfg0.win w).arr.view.loc (c : Thread nD τ))
  after w _ := match w with
    | ⟨0, _⟩ => (argsOf m c).x
    | ⟨1, _⟩ => (argsOf m c).w0
    | ⟨2, _⟩ => (argsOf m c).o0
    | ⟨3, _⟩ => (argsOf m c).w1
    | ⟨4, _⟩ => (argsOf m c).o1
    | ⟨5, _⟩ => (argsOf m c).w2
    | ⟨6, _⟩ => (argsOf m c).o2
    | ⟨7, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.Kernel.Proto

end
-- ==== Proof.Bits.Launch.lean ====
import proofs.«900997_g7700000000000998_dist_mlpseq_tp1d_rep_rep_b128_d128_h256_v7x_i32_f32_1_alg».proof.Proof.Bits.Ghost
import Mathlib.Algebra.BigOperators.Intervals

noncomputable section

namespace Cert.Kernel.Proto

open Cert.Kernel Cert.Kernel.Gen Cert.Mlp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev OwnIx : Type := Unit ⊕ (Fin 30 ⊕ Fin 30)

abbrev osem : OwnIx → SemLoc sig
  | .inl _ => .reg exitS
  | .inr (.inl k) => .dma (sendSem k)
  | .inr (.inr k) => .dma (recvSem k)

theorem ownSemFacts : Pipeline.OwnSemFacts cfg0.spec osem := by decide

theorem share_eq (c : Dev nD) (w : Fin cfg0.W) : (dats m 0 c).share w = fullShare := by unfold Dat.share; split <;> rfl

def ckEquiv : Unit ⊕ (Unit ⊕ (Fin 30 ⊕ Fin 30)) ≃ CK where
  toFun
    | .inl _ => .bar
    | .inr (.inl _) => .exit
    | .inr (.inr (.inl k)) => .send k
    | .inr (.inr (.inr k)) => .recv k
  invFun
    | .bar => .inl ()
    | .exit => .inr (.inl ())
    | .send k => .inr (.inr (.inl k))
    | .recv k => .inr (.inr (.inr k))
  left_inv := by rintro (_ | _ | k | k) <;> rfl
  right_inv := by rintro (_ | _ | k | k) <;> rfl

theorem bigSep_CK (Φ : CK → sProp 𝕄) : bigSep Finset.univ Φ
    = iprop(Φ .bar ∗ Φ .exit ∗ (bigSep Finset.univ fun k : Fin 30 => Φ (.send k)) ∗ (bigSep Finset.univ fun k : Fin 30 => Φ (.recv k))) := by
  rw [bigSep_univ_equiv ckEquiv Φ, bigSep_univ_sum, bigSep_univ_sum, bigSep_univ_sum, bigSep_univ_of_subsingleton (),
    bigSep_univ_of_subsingleton ()]
  rfl

def ringCells : Finset (GSem nD τ sig) := Finset.univ.map ⟨kcell, kcell_injective⟩

abbrev TK : Type := Fin 10 ⊕ (Fin 10 ⊕ (Fin 30 ⊕ Fin 30))

def tkCell : TK → CK
  | .inl _ => .bar
  | .inr (.inl _) => .exit
  | .inr (.inr (.inl k)) => .send k
  | .inr (.inr (.inr k)) => .recv k
def tkDuty : TK → Fin 10
  | .inl j => j
  | .inr (.inl j) => j
  | .inr (.inr _) => 0

theorem tk_ext : ∀ t t' : TK, tkCell t = tkCell t' → tkDuty t = tkDuty t' → t = t' := by
  rintro (j | j | k | k) (j' | j' | k' | k') h1 h2
  all_goals first
    | exact congrArg Sum.inl h2
    | exact congrArg (fun j => Sum.inr (Sum.inl j)) h2
    | exact congrArg (fun k => Sum.inr (Sum.inr (Sum.inl k))) (CK.send.inj h1)
    | exact congrArg (fun k => Sum.inr (Sum.inr (Sum.inr k))) (CK.recv.inj h1)
    | exact absurd h1 (by simp [tkCell])

abbrev tokOf (ct : Dev nD × TK) : GSem nD τ sig × ℕ × Fin 10 := (kcell (ct.1, tkCell ct.2), 0, tkDuty ct.2)

theorem tokOf_injective : Function.Injective (tokOf : Dev nD × TK → GSem nD τ sig × ℕ × Fin 10) := by
  rintro ⟨c, t⟩ ⟨c', t'⟩ h
  have h1 : (c, tkCell t) = (c', tkCell t') := kcell_injective (congrArg (fun x : GSem nD τ sig × ℕ × Fin 10 => x.1) h)
  have h2 : tkDuty t = tkDuty t' := congrArg (fun x : GSem nD τ sig × ℕ × Fin 10 => x.2.2) h
  obtain ⟨h0, h3⟩ := Prod.mk.inj h1
  subst h0
  rw [tk_ext t t' h3 h2]

def ringToks : Finset (GSem nD τ sig × ℕ × Fin 10) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop((bigSep Finset.univ fun j : Fin 10 => dutyTok ER (barCell c) 0 j)
    ∗ (bigSep Finset.univ fun j : Fin 10 => dutyTok ER (exitCell c) 0 j)
    ∗ (bigSep Finset.univ fun k : Fin 30 => dutyTok ER (sendCell c k) 0 (0 : Fin 10))
    ∗ (bigSep Finset.univ fun k : Fin 30 => dutyTok ER (recvCell c k) 0 (0 : Fin 10)))

def G (c : Dev nD) : sProp 𝕄 :=
  iprop((bigSep Finset.univ fun k : CK => roundState ER (RdK m) (kcell (c, k)) 0)
    ∗ (bigSep Finset.univ fun k : CK => iprop(atPos ER (kcell (c, k)) 0 ∅ 0 ∗ reached ER (kcell (c, k)) 0)) ∗ toks c)

def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum, bigSep_univ_sum]; rfl
  iintro HX
  imod (Rounds.fund ER (RdK m) ringCells ringToks) $$ HX with ⟨Hst, Hr, Hat, Htok⟩
  imodintro
  ihave Hst' := (Entails.of_eq (hX fun g => roundState ER (RdK m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (exitCell c) 0 ∗ (bigSep Finset.univ fun k : Fin 30 => semVal (sendCell c k) 0)
        ∗ (bigSep Finset.univ fun k : Fin 30 => semVal (recvCell c k) 0)) := by
  unfold Pipeline.ownSems0
  rw [bigSep_univ_sum, bigSep_univ_sum, bigSep_univ_of_subsingleton ()]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HE, HS, HV⟩, HB⟩
  isplitl [HB]; · iexact HB
  isplitl [HE]; · iexact HE
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (RdK m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (RdK m) (kcell (c, k)) 0)
      ⊢ (|={Set.univ}=> bigSep Finset.univ fun k : CK => iprop(∃ κ : ℕ, cellInv ER (RdK m) κ (kcell (c, k))) : sProp 𝕄) from by
        rw [← bigSep_sep']
        exact (bigSep_mono fun k _ => (Rounds.body_intro ER (RdK m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def dealEquiv {J : Type} (f : J → Fin 10) : Dev nD × J ≃ Dev nD × J where
  toFun p := (partner p.1 (f p.2), p.2)
  invFun p := (partner p.1 (f p.2), p.2)
  left_inv := fun ⟨c, k⟩ => by simp only [partner_partner]
  right_inv := fun ⟨c, k⟩ => by simp only [partner_partner]

theorem deal {J : Type} [Fintype J] (f : J → Fin 10) (Φ : Dev nD → J → sProp 𝕄) :
    (bigSep Finset.univ fun c : Dev nD => bigSep Finset.univ fun k : J => Φ c k)
      = bigSep Finset.univ fun c : Dev nD => bigSep Finset.univ fun k : J => Φ (partner c (f k)) k := by
  have h1 := bigSep_univ_prod (fun p : Dev nD × J => Φ p.1 p.2)
  have h2 := bigSep_univ_prod (fun p : Dev nD × J => Φ (partner p.1 (f p.2)) p.2)
  have h3 := bigSep_univ_equiv (dealEquiv f) (fun p : Dev nD × J => Φ p.1 p.2)
  exact h1.symm.trans (h3.trans h2)

theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    deal (fun j => j) (fun c j => (dutyTok ER (barCell c) 0 j : sProp 𝕄)),
    deal (fun j => j) (fun c j => (dutyTok ER (exitCell c) 0 j : sProp 𝕄)),
    deal jOf (fun c k => (dutyTok ER (recvCell c k) 0 (0 : Fin 10) : sProp 𝕄))]
  iintro ⟨H1, H2, H3, H4⟩
  isplitl [H1]; · iexact H1
  isplitl [H4]; · iexact H4
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ownPos_eq (c : Dev nD) : (ownPos c : sProp 𝕄) = bigSep Finset.univ fun k : CK => atPos ER (kcell (c, k)) 0 ∅ 0 := by
  unfold ownPos; rw [bigSep_CK]; rfl

theorem ghost_intro (K : Dev nD × CK → ℕ) (c : Dev nD) : iprop(records m K ∗ ownPos c ∗ payToks c) ⊢ G' m c := by
  unfold G' ghost
  iintro H
  iexists K
  iexact H

theorem regroup :
    (bigSep Finset.univ fun c : Dev nD => iprop((bigSep Finset.univ fun k : CK => iprop(∃ κ : ℕ, cellInv ER (RdK m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (RdK m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (RdK m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ iprop(ownPos c ∗ payToks c) from Entails.of_eq (by rw [ownPos_eq])))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

def Tc (c : Dev nD) : CellTallies nD τ sig Unit :=
  tallyAt (barCell c) () 10 + (∑ k : Fin 30, tallyAt (recvCell c k) () N) + tallyAt (exitCell c) () 10

theorem nsmul_tallyAt (g : GSem nD τ sig) (n k : ℕ) : n • (tallyAt g () k : CellTallies nD τ sig Unit) = tallyAt g () (n * k) := by
  induction n with
  | zero => rw [zero_nsmul, Nat.zero_mul, tallyAt_zero]
  | succ n ih => rw [succ_nsmul, ih, tallyAt_add, Nat.succ_mul]

theorem owedK_eq (d : Dev nD) (n : ℕ) :
    owedK d n = ∑ i ∈ Finset.range n, (tallyAt (payCell d (49 - i)) () (payAmt (49 - i)) : CellTallies nD τ sig Unit) := by
  induction n with
  | zero => rfl
  | succ n ih => rw [owedK_succ, ih, Finset.sum_range_succ]

theorem O₀_eq_range (d : Dev nD) : O₀ d = ∑ i ∈ Finset.range 50, (tallyAt (payCell d i) () (payAmt i) : CellTallies nD τ sig Unit) := by
  unfold O₀; rw [owedK_eq]
  exact Finset.sum_range_reflect (fun i => (tallyAt (payCell d i) () (payAmt i) : CellTallies nD τ sig Unit)) 50

theorem O₀_eq (d : Dev nD) : O₀ d
    = (∑ j : Fin 10, (tallyAt (barCell (partner d j)) () 1 : CellTallies nD τ sig Unit))
      + (∑ k : Fin 30, tallyAt (recvCell (partner d (jOf k)) k) () N)
      + ∑ j : Fin 10, tallyAt (exitCell (partner d j)) () 1 := by
  have hbar (j : Fin 10) : payCell d j.val = barCell (partner d j) := by
    unfold payCell; rw [if_pos j.isLt, show mk10 j.val = j from Fin.ext (Nat.mod_eq_of_lt j.isLt)]
  have hbarA (j : Fin 10) : payAmt j.val = 1 := if_neg (by have := j.isLt; omega)
  have hrecv (k : Fin 30) : payCell d (10 + k.val) = recvCell (partner d (jOf k)) k := by
    unfold payCell
    rw [if_neg (by omega), if_pos (by have := k.isLt; omega), Nat.add_sub_cancel_left,
      show mk30 k.val = k from Fin.ext (Nat.mod_eq_of_lt k.isLt), show mk10 k.val = jOf k from rfl]
  have hrecvA (k : Fin 30) : payAmt (10 + k.val) = N := if_pos ⟨by omega, by have := k.isLt; omega⟩
  have hexit (j : Fin 10) : payCell d (10 + 30 + j.val) = exitCell (partner d j) := by
    unfold payCell
    rw [if_neg (by omega), if_neg (by omega), show 10 + 30 + j.val - 40 = j.val from by omega,
      show mk10 j.val = j from Fin.ext (Nat.mod_eq_of_lt j.isLt)]
  have hexitA (j : Fin 10) : payAmt (10 + 30 + j.val) = 1 := if_neg (by omega)
  rw [O₀_eq_range, show (50 : ℕ) = 10 + 30 + 10 from rfl, Finset.sum_range_add, Finset.sum_range_add, Finset.sum_range, Finset.sum_range,
    Finset.sum_range]
  simp only [hbar, hbarA, hrecv, hrecvA, hexit, hexitA]

theorem sum_O₀ : ∑ d : Dev nD, O₀ d = ∑ d : Dev nD, Tc d := by
  have hb (j : Fin 10) : ∑ d : Dev nD, (tallyAt (barCell (partner d j)) () 1 : CellTallies nD τ sig Unit) = ∑ d : Dev nD, tallyAt (barCell d) () 1 :=
    Equiv.sum_comp (partnerEquiv j) (fun d => (tallyAt (barCell d) () 1 : CellTallies nD τ sig Unit))
  have he (j : Fin 10) : ∑ d : Dev nD, (tallyAt (exitCell (partner d j)) () 1 : CellTallies nD τ sig Unit) = ∑ d : Dev nD, tallyAt (exitCell d) () 1 :=
    Equiv.sum_comp (partnerEquiv j) (fun d => (tallyAt (exitCell d) () 1 : CellTallies nD τ sig Unit))
  have hr (k : Fin 30) : ∑ d : Dev nD, (tallyAt (recvCell (partner d (jOf k)) k) () N : CellTallies nD τ sig Unit) = ∑ d : Dev nD, tallyAt (recvCell d k) () N :=
    Equiv.sum_comp (partnerEquiv (jOf k)) (fun d => (tallyAt (recvCell d k) () N : CellTallies nD τ sig Unit))
  have hA : ∑ d : Dev nD, ∑ j : Fin 10, (tallyAt (barCell (partner d j)) () 1 : CellTallies nD τ sig Unit) = ∑ d : Dev nD, tallyAt (barCell d) () 10 := by
    rw [Finset.sum_comm, Finset.sum_congr rfl fun j _ => hb j, Finset.sum_comm]
    exact Finset.sum_congr rfl fun d _ => by rw [Finset.sum_const, Finset.card_univ, Fintype.card_fin, nsmul_tallyAt]
  have hC : ∑ d : Dev nD, ∑ j : Fin 10, (tallyAt (exitCell (partner d j)) () 1 : CellTallies nD τ sig Unit) = ∑ d : Dev nD, tallyAt (exitCell d) () 10 := by
    rw [Finset.sum_comm, Finset.sum_congr rfl fun j _ => he j, Finset.sum_comm]
    exact Finset.sum_congr rfl fun d _ => by rw [Finset.sum_const, Finset.card_univ, Fintype.card_fin, nsmul_tallyAt]
  have hB : ∑ d : Dev nD, ∑ k : Fin 30, (tallyAt (recvCell (partner d (jOf k)) k) () N : CellTallies nD τ sig Unit) = ∑ d : Dev nD, ∑ k : Fin 30, tallyAt (recvCell d k) () N := by
    rw [Finset.sum_comm, Finset.sum_congr rfl fun k _ => hr k, Finset.sum_comm]
  simp only [O₀_eq, Tc, Finset.sum_add_distrib, hA, hB, hC]

theorem Tc_apply_ne (c : Dev nD) (g : GSem nD τ sig) (h : g.1 ≠ (c : Thread nD τ)) : Tc c g = 0 := by
  have hne : ∀ sm : SemLoc sig, g ≠ ((c : Thread nD τ), sm) := fun sm e => h (congrArg Prod.fst e)
  unfold Tc
  rw [Pi.add_apply, Pi.add_apply, Finset.sum_apply, tallyAt_ne_cell (hne _), tallyAt_ne_cell (hne _),
    Finset.sum_eq_zero fun k _ => tallyAt_ne_cell (hne _) () N]
  rfl

theorem launchCred_eq (c : Dev nD) : (Pipeline.launchCred O₀ c : sProp 𝕄) = cred (Tc c) := by
  rw [Pipeline.cred_core (T := Tc c) (c := c) fun g hg => by by_contra h; exact hg (Tc_apply_ne c g h)]
  unfold Pipeline.launchCred
  refine bigSep_congr fun sm _ => ?_
  rw [Pipeline.tallyOn_launchCredit_owing, sum_O₀, Finset.sum_apply,
    Finset.sum_eq_single c (fun d _ hd => Tc_apply_ne d _ fun e => hd (congrArg Prod.fst e).symm) (fun h => absurd (Finset.mem_univ c) h)]

theorem creds_intro (c : Dev nD) : (Pipeline.launchCred O₀ c : sProp 𝕄) ⊢ creds c := by
  rw [launchCred_eq]; unfold Tc creds
  iintro H
  ihave H := (cred_add _ _).1 $$ H
  icases H with ⟨H, HC⟩
  ihave H := (cred_add _ _).1 $$ H
  icases H with ⟨HA, HB⟩
  ihave HB := (Entails.of_eq (Pipeline.cred_finsetSum Finset.univ fun k : Fin 30 => (tallyAt (recvCell c k) () N : CellTallies nD τ sig Unit))) $$ HB
  isplitl [HA]; · iexact HA
  isplitl [HB]; · iexact HB
  iexact HC

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ scratch
  iintro ⟨Hr, HE, HS, HV⟩
  isplitr; · iempintro
  isplitl [HE HS HV]
  · isplitl [HE]; · iexact HE
    isplitl [HS] <;> iassumption
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

set_option maxRecDepth 8000 in
theorem run_main (hbody : ∀ c : Dev nD, BodyObligation (dats (F := F) m 0 c) (defs₀ (F := F)) 𝒱₀ () Set.univ) :
    θ_run defs (onTc (τ := τ) (main (F := F))) (s₀ m ρ)
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

end Cert.Kernel.Proto

end
-- ==== Proof.Bits.Final.lean ====
import proofs.«900997_g7700000000000998_dist_mlpseq_tp1d_rep_rep_b128_d128_h256_v7x_i32_f32_1_alg».proof.Proof.Bits.Ghost

noncomputable section

namespace Cert.Kernel.Proto

open Cert.Kernel Cert.Kernel.Gen Cert.Mlp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem argsOf_x (c : Dev nD) : (argsOf m c).x = m ((c : Thread nD τ).loc main_arg0) := by
  show (win0_0.blk (0 : Fin 1)).view.read (Elt F) (m ((c : Thread nD τ).loc main_arg0)) = _
  exact Memref.read_access_unit_zero (Elt F) main_arg0 (off := fun a => win0_0.index (0 : Fin 1) a * win0_0.size a)
    (funext fun _ => Nat.zero_mul _) _ _
theorem argsOf_w0 (c : Dev nD) : (argsOf m c).w0 = m ((c : Thread nD τ).loc main_arg1) := by
  show (win0_1.blk (0 : Fin 1)).view.read (Elt F) (m ((c : Thread nD τ).loc main_arg1)) = _
  exact Memref.read_access_unit_zero (Elt F) main_arg1 (off := fun a => win0_1.index (0 : Fin 1) a * win0_1.size a)
    (funext fun _ => Nat.zero_mul _) _ _
theorem argsOf_o0 (c : Dev nD) : (argsOf m c).o0 = m ((c : Thread nD τ).loc main_arg2) := by
  show (win0_2.blk (0 : Fin 1)).view.read (Elt F) (m ((c : Thread nD τ).loc main_arg2)) = _
  exact Memref.read_access_unit_zero (Elt F) main_arg2 (off := fun a => win0_2.index (0 : Fin 1) a * win0_2.size a)
    (funext fun _ => Nat.zero_mul _) _ _
theorem argsOf_w1 (c : Dev nD) : (argsOf m c).w1 = m ((c : Thread nD τ).loc main_arg3) := by
  show (win0_3.blk (0 : Fin 1)).view.read (Elt F) (m ((c : Thread nD τ).loc main_arg3)) = _
  exact Memref.read_access_unit_zero (Elt F) main_arg3 (off := fun a => win0_3.index (0 : Fin 1) a * win0_3.size a)
    (funext fun _ => Nat.zero_mul _) _ _
theorem argsOf_o1 (c : Dev nD) : (argsOf m c).o1 = m ((c : Thread nD τ).loc main_arg4) := by
  show (win0_4.blk (0 : Fin 1)).view.read (Elt F) (m ((c : Thread nD τ).loc main_arg4)) = _
  exact Memref.read_access_unit_zero (Elt F) main_arg4 (off := fun a => win0_4.index (0 : Fin 1) a * win0_4.size a)
    (funext fun _ => Nat.zero_mul _) _ _
theorem argsOf_w2 (c : Dev nD) : (argsOf m c).w2 = m ((c : Thread nD τ).loc main_arg5) := by
  show (win0_5.blk (0 : Fin 1)).view.read (Elt F) (m ((c : Thread nD τ).loc main_arg5)) = _
  exact Memref.read_access_unit_zero (Elt F) main_arg5 (off := fun a => win0_5.index (0 : Fin 1) a * win0_5.size a)
    (funext fun _ => Nat.zero_mul _) _ _
theorem argsOf_o2 (c : Dev nD) : (argsOf m c).o2 = m ((c : Thread nD τ).loc main_arg6) := by
  show (win0_6.blk (0 : Fin 1)).view.read (Elt F) (m ((c : Thread nD τ).loc main_arg6)) = _
  exact Memref.read_access_unit_zero (Elt F) main_arg6 (off := fun a => win0_6.index (0 : Fin 1) a * win0_6.size a)
    (funext fun _ => Nat.zero_mul _) _ _

theorem isOut_in (w : Fin cfg0.W) (hw : w.val < 7) : (cfg0.win w).isOut = false := by
  revert w; decide

theorem finalA_in (c : Dev nD) (w : Fin cfg0.W) (hw : w.val < 7) :
    (dats (F := F) m 0 c).arrAt w cfg0.N = m ((cfg0.win w).arr.view.loc (c : Thread nD τ)) :=
  (dats (F := F) m 0 c).arrAt_in w (isOut_in w hw) _

theorem finalA_out (c : Dev nD) :
    (dats (F := F) m 0 c).arrAt (7 : Fin 8) cfg0.N = (outAt m c : Buf (Elt F) ((c : Thread nD τ).loc main_v1)) := by
  have hf : (cfg0.win 7).flush t₀ = true := by decide +kernel
  have h := (dats (F := F) m 0 c).arrAt_succ (7 : Fin 8) t₀
  rw [hf, if_pos rfl] at h
  refine h.trans ?_
  exact Memref.write_access_unit_zero_univ (Elt F) main_v1 (off := fun a => win0_7.index t₀ a * win0_7.size a)
    (funext fun _ => Nat.zero_mul _) _ _ _

theorem run_named
    (h : θ_run defs (onTc (τ := τ) (main (F := F))) (s₀ m ρ) (fun r => ∀ c : Dev nD, ∀ w : Fin cfg0.W,
      r.2.mem ((cfg0.win w).arr.view.loc (c : Thread nD τ)) = (dats m 0 c).arrAt w cfg0.N)) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c 7).trans (finalA_out m c),
      (h c 0).trans (finalA_in m c 0 (by decide)),
      (h c 1).trans (finalA_in m c 1 (by decide)),
      (h c 2).trans (finalA_in m c 2 (by decide)),
      (h c 3).trans (finalA_in m c 3 (by decide)),
      (h c 4).trans (finalA_in m c 4 (by decide)),
      (h c 5).trans (finalA_in m c 5 (by decide)),
      (h c 6).trans (finalA_in m c 6 (by decide))⟩) h

theorem frame_of_run
    (h : θ_run defs (onTc (τ := τ) (main (F := F))) (s₀ m ρ) (fun r => ∀ c : Dev nD, ∀ w : Fin cfg0.W,
      r.2.mem ((cfg0.win w).arr.view.loc (c : Thread nD τ)) = (dats m 0 c).arrAt w cfg0.N)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_named m ρ h)

/-- info: 'Cert.Kernel.Proto.run_named' depends on axioms: [propext, Classical.choice, Quot.sound] -/
#guard_msgs in #print axioms run_named

/-- info: 'Cert.Kernel.Proto.frame_of_run' depends on axioms: [propext, Classical.choice, Quot.sound] -/
#guard_msgs in #print axioms frame_of_run

end Cert.Kernel.Proto

end
-- ==== Proof.Bits.Slots.lean ====
import proofs.«900997_g7700000000000998_dist_mlpseq_tp1d_rep_rep_b128_d128_h256_v7x_i32_f32_1_alg».proof.Proof.Bits.Ghost
import Idealize.ShloMosaic.Lib.Pipeline.Value
import Idealize.ShloMosaic.Lib.Writes

noncomputable section

namespace Cert.Kernel.Proto

open Cert.Kernel Cert.Kernel.Gen Cert.Mlp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

namespace Slots
variable {sg : RefSig} {κ : Kind} {sp sp' : Space} {s s' : Shape} {e : EltTy} {Val : EltTy → Type}

theorem read_reshape_apply (v : View sg κ sp s e) (h : s'.numel = s.numel) (g : v.ty.Contents Val) (y : s'.Idx) :
    (v.reshape s' h).read Val g y = v.read Val g (Shape.reshapeEquiv h y) := rfl

theorem read_write_reshape_read (v1 : View sg κ sp s e) (v0 : View sg κ sp' s e) (h : s'.numel = s.numel)
    (f : v1.ty.Contents Val) (g : v0.ty.Contents Val) :
    v1.read Val ((v1.reshape s' h).write Val f ((v0.reshape s' h).read Val g) Finset.univ) = v0.read Val g := by
  rw [View.write_reshape_univ, View.read_write_univ]
  funext x
  rw [read_reshape_apply, Equiv.apply_symm_apply]

theorem write_univ_eq_on_set (v : View sg κ sp s e) (f f' : v.ty.Contents Val) (w : s.Idx → Val e) :
    ∀ i ∈ v.set, v.write Val f w Finset.univ i = v.write Val f' w Finset.univ i := by
  intro i hi
  obtain ⟨x, rfl⟩ := View.exists_emb_of_mem_set v hi
  rw [View.write_emb_of_mem _ _ (Finset.mem_univ x), View.write_emb_of_mem _ _ (Finset.mem_univ x)]

end Slots

theorem recvSlot_set (k : Fin 30) : (recvSlot k).view.set = (rectR k).set :=
  (View.set_reshape _ _).trans (View.set_slice_whole cc0_scratch1 (rectR k))
theorem sendSlot_set (s : Fin 6) : (sendSlot s).view.set = (rectS s).set :=
  (View.set_reshape _ _).trans (View.set_slice_whole cc0_scratch0 (rectS s))

theorem recvSlot_set_access (k : Fin 30) :
    (recvSlot k).view.set = ((Memref.whole cc0_scratch1 : Memref sig .tc .vmem S30x128x128 .bf16).access (rectR k) : View sig .tc _ _ _).set :=
  View.set_reshape _ _
theorem sendSlot_set_access (s : Fin 6) :
    (sendSlot s).view.set = ((Memref.whole cc0_scratch0 : Memref sig .tc .vmem S6x128x128 .bf16).access (rectS s) : View sig .tc _ _ _).set :=
  View.set_reshape _ _

theorem mem_rectR {k : Fin 30} {i : S30x128x128.Idx} : i ∈ (rectR k).set ↔ (i 0).val = k.val := by
  rw [Rect.mem_set_unit]
  constructor
  · intro h
    have h0 := h 0
    simp only [Matrix.cons_val_zero] at h0
    omega
  · intro h a
    have hi := (i a).isLt
    fin_cases a
    · simp only [Fin.zero_eta, Matrix.cons_val_zero]; omega
    · simp at hi ⊢; omega
    · simp at hi ⊢; omega
theorem mem_rectS {s : Fin 6} {i : S6x128x128.Idx} : i ∈ (rectS s).set ↔ (i 0).val = s.val := by
  rw [Rect.mem_set_unit]
  constructor
  · intro h
    have h0 := h 0
    simp only [Matrix.cons_val_zero] at h0
    omega
  · intro h a
    have hi := (i a).isLt
    fin_cases a
    · simp only [Fin.zero_eta, Matrix.cons_val_zero]; omega
    · simp at hi ⊢; omega
    · simp at hi ⊢; omega

theorem recvSlot_disjoint {k k' : Fin 30} (h : k ≠ k') : Disjoint (recvSlot k).view.set (recvSlot k').view.set := by
  rw [recvSlot_set, recvSlot_set]
  have hv : k.val ≠ k'.val := fun e => h (Fin.ext e)
  exact Rect.unit_disjoint 0 (by simp only [Matrix.cons_val_zero]; omega)
theorem sendSlot_disjoint {s s' : Fin 6} (h : s ≠ s') : Disjoint (sendSlot s).view.set (sendSlot s').view.set := by
  rw [sendSlot_set, sendSlot_set]
  have hv : s.val ≠ s'.val := fun e => h (Fin.ext e)
  exact Rect.unit_disjoint 0 (by simp only [Matrix.cons_val_zero]; omega)

theorem mem_recvSlot_self (i : S30x128x128.Idx) : i ∈ (recvSlot ⟨(i 0).val, (i 0).isLt⟩).view.set := by
  rw [recvSlot_set]; exact mem_rectR.mpr rfl
theorem mem_sendSlot_self (i : S6x128x128.Idx) : i ∈ (sendSlot ⟨(i 0).val, (i 0).isLt⟩).view.set := by
  rw [sendSlot_set]; exact mem_rectS.mpr rfl

theorem recv_split (c : Dev nD) (f : Buf (Elt F) ((c : Thread nD τ).loc cc0_scratch1)) :
    (((c : Thread nD τ).loc cc0_scratch1) ↦{fullShare} f : sProp 𝕄) ⊣⊢ bigSep Finset.univ (fun k : Fin 30 => recvPts c k f) := by
  have hc : (Finset.univ : Finset (Idx ((c : Thread nD τ).loc cc0_scratch1)))
      = Finset.univ.biUnion (fun k : Fin 30 => (recvSlot k).view.set) :=
    (Finset.eq_univ_iff_forall.mpr fun i =>
      Finset.mem_biUnion.mpr ⟨⟨((i : S30x128x128.Idx) 0).val, ((i : S30x128x128.Idx) 0).isLt⟩, Finset.mem_univ _, mem_recvSlot_self i⟩).symm
  refine BiEntails.of_eq ?_
  rw [hc]
  exact pointsTo_biUnion Finset.univ _ (fun k _ k' _ h => recvSlot_disjoint h)

theorem send_split (c : Dev nD) (f : Buf (Elt F) ((c : Thread nD τ).loc cc0_scratch0)) :
    (((c : Thread nD τ).loc cc0_scratch0) ↦{fullShare} f : sProp 𝕄) ⊣⊢ bigSep Finset.univ (fun s : Fin 6 => sendPts c s fullShare f) := by
  have hc : (Finset.univ : Finset (Idx ((c : Thread nD τ).loc cc0_scratch0)))
      = Finset.univ.biUnion (fun s : Fin 6 => (sendSlot s).view.set) :=
    (Finset.eq_univ_iff_forall.mpr fun i =>
      Finset.mem_biUnion.mpr ⟨⟨((i : S6x128x128.Idx) 0).val, ((i : S6x128x128.Idx) 0).isLt⟩, Finset.mem_univ _, mem_sendSlot_self i⟩).symm
  refine BiEntails.of_eq ?_
  rw [hc]
  exact pointsTo_biUnion Finset.univ _ (fun s _ s' _ h => sendSlot_disjoint h)

theorem send_share_split (c : Dev nD) (s : Fin 6) (n : ℕ) (f : Buf (Elt F) ((sendSlot s).view.loc (c : Thread nD τ))) :
    (sendPts c s (rightN n) f : sProp 𝕄) ⊣⊢ sendPts c s (chainShare n) f ∗ sendPts c s (rightN (n + 1)) f :=
  pointsTo_share (PosShare.mem_left_op_right (rightN n))

theorem recvPts_congr (c : Dev nD) (k : Fin 30) (f f' : Buf (Elt F) ((recvSlot k).view.loc (c : Thread nD τ)))
    (h : ∀ i ∈ (recvSlot k).view.set, f i = f' i) : (recvPts c k f : sProp 𝕄) ⊢ recvPts c k f' :=
  Entails.of_eq (pointsTo_congr h)
theorem sendPts_congr (c : Dev nD) (s : Fin 6) (q : PosShare TreeShare) (f f' : Buf (Elt F) ((sendSlot s).view.loc (c : Thread nD τ)))
    (h : ∀ i ∈ (sendSlot s).view.set, f i = f' i) : (sendPts c s q f : sProp 𝕄) ⊢ sendPts c s q f' :=
  Entails.of_eq (pointsTo_congr h)

theorem landed_read (c : Dev nD) (k : Fin 30) :
    (Memref.whole cc0_scratch1 : Memref sig .tc .vmem S30x128x128 .bf16).view.readAt (Elt F) (rectR k).toLoadRect (landed m (sbuf m) c k)
      = sentOf m (partner c (jOf k)) (stageOf k) := by
  refine (Slots.read_write_reshape_read (Val := Elt F)
    ((View.whole cc0_scratch1 : View sig .tc _ _ _).slice (rectR k))
    ((View.whole cc0_scratch0 : View sig .tc _ _ _).slice (rectS (stageOf k))) _ _ _).trans ?_
  exact View.read_write_univ _ _

theorem store_canon (c : Dev nD) (s : Fin 6) (f : Buf (Elt F) ((c : Thread nD τ).loc cc0_scratch0)) :
    ∀ i ∈ (sendSlot s).view.set,
      (((Memref.whole cc0_scratch0 : Memref sig .tc .vmem S6x128x128 .bf16).access (rectS s) : View sig .tc _ _ _).write (Elt F) f (sentOf m c s) Finset.univ) i
        = sbuf m c s i := by
  intro i hi
  rw [sendSlot_set_access] at hi
  exact Slots.write_univ_eq_on_set ((View.whole cc0_scratch0 : View sig .tc _ _ _).slice (rectS s)) f _ (sentOf m c s) i hi

theorem write_base_irrelevant (k : Fin 30) (f f' : (recvSlot k).view.ty.Contents (Elt F)) (X : S128x128.Idx → Elt F .bf16) :
    ∀ i ∈ (recvSlot k).view.set,
      (recvSlot k).view.write (Elt F) f X Finset.univ i = (recvSlot k).view.write (Elt F) f' X Finset.univ i :=
  Slots.write_univ_eq_on_set _ f f' X

theorem landing_entails (c p : Dev nD) (k : Fin 30) (hp : partner p (jOf k) = c)
    (fd : Buf (Elt F) ((recvSlot k).view.loc (p : Thread nD τ))) :
    (recvPts p k ((recvSlot k).view.write (Elt F) fd
        ((sendSlot (stageOf k)).view.read (Elt F) (sbuf m c (stageOf k))) Finset.univ) : sProp 𝕄)
      ⊢ recvPay m (sbuf m) p k := by
  subst hp
  exact recvPts_congr p k _ _ (write_base_irrelevant k _ _ _)

theorem send_fan (c : Dev nD) (s : Fin 6) (f : Buf (Elt F) ((sendSlot s).view.loc (c : Thread nD τ))) (n : ℕ) :
    (sendPts c s fullShare f : sProp 𝕄)
      ⊣⊢ (bigSep (Finset.range n) fun i => sendPts c s (chainShare i) f) ∗ sendPts c s (rightN n) f := by
  induction n with
  | zero =>
    rw [Finset.range_zero, bigSep_empty]
    exact (Laws.sep_comm.trans Laws.sep_emp).symm
  | succ n ih =>
    rw [Finset.range_add_one, bigSep_insert Finset.notMem_range_self]
    exact ih.trans ((Laws.sep_congr_right (send_share_split c s n f)).trans
      (Laws.sep_assoc.symm.trans (Laws.sep_congr_left Laws.sep_comm)))

theorem send_fan7 (c : Dev nD) (s : Fin 6) (f : Buf (Elt F) ((sendSlot s).view.loc (c : Thread nD τ))) :
    (sendPts c s fullShare f : sProp 𝕄)
      ⊣⊢ sendPts c s (chainShare 0) f ∗ sendPts c s (chainShare 1) f ∗ sendPts c s (chainShare 2) f ∗ sendPts c s (chainShare 3) f ∗ sendPts c s (chainShare 4) f ∗ sendPts c s (chainShare 5) f ∗ sendPts c s (chainShare 6) f ∗ sendPts c s (rightN 7) f :=
  (send_share_split c s 0 f).trans (Laws.sep_congr_right ((send_share_split c s 1 f).trans (Laws.sep_congr_right ((send_share_split c s 2 f).trans (Laws.sep_congr_right ((send_share_split c s 3 f).trans (Laws.sep_congr_right ((send_share_split c s 4 f).trans (Laws.sep_congr_right ((send_share_split c s 5 f).trans (Laws.sep_congr_right (send_share_split c s 6 f))))))))))))

theorem send_fan3 (c : Dev nD) (s : Fin 6) (f : Buf (Elt F) ((sendSlot s).view.loc (c : Thread nD τ))) :
    (sendPts c s fullShare f : sProp 𝕄)
      ⊣⊢ sendPts c s (chainShare 0) f ∗ sendPts c s (chainShare 1) f ∗ sendPts c s (chainShare 2) f ∗ sendPts c s (rightN 3) f :=
  (send_share_split c s 0 f).trans (Laws.sep_congr_right ((send_share_split c s 1 f).trans (Laws.sep_congr_right (send_share_split c s 2 f))))

end Cert.Kernel.Proto

end
-- ==== Proof.Bits.Steps.lean ====
import proofs.«900997_g7700000000000998_dist_mlpseq_tp1d_rep_rep_b128_d128_h256_v7x_i32_f32_1_alg».proof.Proof.Bits.Slots
import Idealize.ShloMosaic.Lib.Tactic

noncomputable section

namespace Cert.Kernel.Proto

open Cert.Kernel Cert.Kernel.Gen Cert.Mlp

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem N_recv (k : Fin 30) : (recvSlot k).view.amount (.dma (recvSem k)) = N := by rfl

theorem step_send (c : Dev nD) (k : Fin 30) (p : Dev nD) (hp : partner p (jOf k) = c) (κ₁ κ₂ : ℕ)
    (fd : Buf (Elt F) ((recvSlot k).view.loc (p : Thread nD τ))) (O : CellTallies nD τ sig Unit) (W : Waits sig Unit)
    {hsc : ((recvSlot k) : Memref sig (Dev.tc p : Thread nD τ).2.kind .vmem S128x128 .bf16).view.ref.isScScratch = false}
    {hsrc : (sendSlot (stageOf k)).view.WordExact} {hdst : (recvSlot k).view.WordExact}
    {hsem : DmaTarget.Typed .vmem (.dma (recvSem k)) (.remote (Dev.tc p : Thread nD τ) (recvSlot k) (.dma (sendSem k)) hsc)}
    {α : Type} {Q : α → sProp 𝕄} {kk : PUnit → Prog (TpuEff nD τ sig (Elt F) Λ₀ .tc) α} :
    iprop(cellInv ER (RdK m) κ₁ (sendCell c k) ∗ cellInv ER (RdK m) κ₂ (recvCell p k)
        ∗ sendPts c (stageOf k) (shr k) (sbuf m c (stageOf k)) ∗ recvPts p k fd
        ∗ owes (c : Thread nD τ) (O + tallyAt (recvCell p k) () N) W
        ∗ dutyTok ER (sendCell c k) 0 (0 : Fin 10) ∗ reached ER (sendCell c k) 0
        ∗ dutyTok ER (recvCell p k) 0 (0 : Fin 10) ∗ reached ER (recvCell p k) 0)
      ⊢ iprop(((cred (tallyAt (sendCell c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sendSlot (stageOf k)) (.remote (Dev.tc p : Thread nD τ) (recvSlot k) (.dma (sendSem k)) hsc) (.dma (recvSem k)) hsrc hdst hsem) kk) Q) := by
  unfold sendPts recvPts
  exact Rounds.wp_send_pointsTo 𝒱₀ ER (RdK m) (c : Thread nD τ) none (κ₁ := κ₁) (κ₂ := κ₂) (r₁ := 0) (r₂ := 0) (d₁ := (0 : Fin 10)) (d₂ := (0 : Fin 10)) (fd := fd)
    (by rw [duties_send]; exact Finset.mem_singleton_self _) (by rw [duties_recv]; exact Finset.mem_singleton_self _)
    () () N (N_recv k) (amount_send m _ c k 0) (amount_recv m _ p k 0) O rfl (W := W)
    (by rw [payload_send]; exact BI.Entails.refl _)
    (by rw [payload_recv]; exact landing_entails m c p k hp fd)

theorem step_send' (c : Dev nD) (k : Fin 30) (s : Fin 6) (hs : stageOf k = s) (n : ℕ) (hn : posOf k = n) (p q : Dev nD)
    (hp : partner p (jOf k) = c) (hq : q = p) (κ₁ κ₂ : ℕ)
    (fd : Buf (Elt F) ((recvSlot k).view.loc (p : Thread nD τ))) (O : CellTallies nD τ sig Unit) (W : Waits sig Unit)
    {hsc : ((recvSlot k) : Memref sig (Dev.tc q : Thread nD τ).2.kind .vmem S128x128 .bf16).view.ref.isScScratch = false}
    {hsrc : (sendSlot s).view.WordExact} {hdst : (recvSlot k).view.WordExact}
    {hsem : DmaTarget.Typed .vmem (.dma (recvSem k)) (.remote (Dev.tc q : Thread nD τ) (recvSlot k) (.dma (sendSem k)) hsc)}
    {α : Type} {Q : α → sProp 𝕄} {kk : PUnit → Prog (TpuEff nD τ sig (Elt F) Λ₀ .tc) α} :
    iprop(cellInv ER (RdK m) κ₁ (sendCell c k) ∗ cellInv ER (RdK m) κ₂ (recvCell p k)
        ∗ sendPts c s (chainShare n) (sbuf m c s) ∗ recvPts p k fd
        ∗ owes (c : Thread nD τ) (O + tallyAt (recvCell p k) () N) W
        ∗ dutyTok ER (sendCell c k) 0 (0 : Fin 10) ∗ reached ER (sendCell c k) 0
        ∗ dutyTok ER (recvCell p k) 0 (0 : Fin 10) ∗ reached ER (recvCell p k) 0)
      ⊢ iprop(((cred (tallyAt (sendCell c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sendSlot s) (.remote (Dev.tc q : Thread nD τ) (recvSlot k) (.dma (sendSem k)) hsc) (.dma (recvSem k)) hsrc hdst hsem) kk) Q) := by
  subst hs; subst hn; subst hq
  exact step_send m c k q hp κ₁ κ₂ fd O W

theorem bar_payloads (c : Dev nD) :
    ((bigSep Finset.univ fun d : Fin 10 => (RdK (F := F) m).payload (barCell c) 0 d) : sProp 𝕄)
      ⊢ iprop(((∃ f, recvPts (F := F) (partner c 0) 0 f) ∗ (∃ f, recvPts (F := F) (partner c 0) 10 f) ∗ (∃ f, recvPts (F := F) (partner c 0) 20 f))
        ∗ ((∃ f, recvPts (F := F) (partner c 1) 1 f) ∗ (∃ f, recvPts (F := F) (partner c 1) 11 f) ∗ (∃ f, recvPts (F := F) (partner c 1) 21 f))
        ∗ ((∃ f, recvPts (F := F) (partner c 2) 2 f) ∗ (∃ f, recvPts (F := F) (partner c 2) 12 f) ∗ (∃ f, recvPts (F := F) (partner c 2) 22 f))
        ∗ ((∃ f, recvPts (F := F) (partner c 3) 3 f) ∗ (∃ f, recvPts (F := F) (partner c 3) 13 f) ∗ (∃ f, recvPts (F := F) (partner c 3) 23 f))
        ∗ ((∃ f, recvPts (F := F) (partner c 4) 4 f) ∗ (∃ f, recvPts (F := F) (partner c 4) 14 f) ∗ (∃ f, recvPts (F := F) (partner c 4) 24 f))
        ∗ ((∃ f, recvPts (F := F) (partner c 5) 5 f) ∗ (∃ f, recvPts (F := F) (partner c 5) 15 f) ∗ (∃ f, recvPts (F := F) (partner c 5) 25 f))
        ∗ ((∃ f, recvPts (F := F) (partner c 6) 6 f) ∗ (∃ f, recvPts (F := F) (partner c 6) 16 f) ∗ (∃ f, recvPts (F := F) (partner c 6) 26 f))
        ∗ ((∃ f, recvPts (F := F) (partner c 7) 7 f) ∗ (∃ f, recvPts (F := F) (partner c 7) 17 f) ∗ (∃ f, recvPts (F := F) (partner c 7) 27 f))
        ∗ ((∃ f, recvPts (F := F) (partner c 8) 8 f) ∗ (∃ f, recvPts (F := F) (partner c 8) 18 f) ∗ (∃ f, recvPts (F := F) (partner c 8) 28 f))
        ∗ ((∃ f, recvPts (F := F) (partner c 9) 9 f) ∗ (∃ f, recvPts (F := F) (partner c 9) 19 f) ∗ (∃ f, recvPts (F := F) (partner c 9) 29 f))) := by
  rw [bigSep_fin10]; simp only [payload_bar]; exact Entails.of_eq rfl

theorem close_cell (g : GSem nD τ sig) (κ : ℕ) :
    iprop(cellInv ER (RdK (F := F) m) κ g ∗ atPos ER g 1 ∅ 0) ⊢ iprop(|={Set.univ}=> semVal g 0) :=
  Rounds.cell_close ER (RdK m) (Set.mem_univ κ) (fun h => h) (R := 1) (duties_later m _ g)

theorem send_prep7 (c : Dev nD) (s : Fin 6) (f : Buf (Elt F) ((sendSlot s).view.loc (c : Thread nD τ)))
    (h : ∀ i ∈ (sendSlot s).view.set, f i = sbuf m c s i) :
    (sendPts c s fullShare f : sProp 𝕄) ⊢ iprop(sendPts c s (chainShare 0) (sbuf m c s) ∗ sendPts c s (chainShare 1) (sbuf m c s) ∗ sendPts c s (chainShare 2) (sbuf m c s)
      ∗ sendPts c s (chainShare 3) (sbuf m c s) ∗ sendPts c s (chainShare 4) (sbuf m c s) ∗ sendPts c s (chainShare 5) (sbuf m c s) ∗ sendPts c s (chainShare 6) (sbuf m c s)
      ∗ sendPts c s (rightN 7) (sbuf m c s)) :=
  (sendPts_congr c s fullShare f (sbuf m c s) h).trans (send_fan7 c s (sbuf m c s)).1

theorem send_prep3 (c : Dev nD) (s : Fin 6) (f : Buf (Elt F) ((sendSlot s).view.loc (c : Thread nD τ)))
    (h : ∀ i ∈ (sendSlot s).view.set, f i = sbuf m c s i) :
    (sendPts c s fullShare f : sProp 𝕄) ⊢ iprop(sendPts c s (chainShare 0) (sbuf m c s) ∗ sendPts c s (chainShare 1) (sbuf m c s) ∗ sendPts c s (chainShare 2) (sbuf m c s)
      ∗ sendPts c s (rightN 3) (sbuf m c s)) :=
  (sendPts_congr c s fullShare f (sbuf m c s) h).trans (send_fan3 c s (sbuf m c s)).1

theorem send_prep7_raw (c : Dev nD) (s : Fin 6) (f : Buf (Elt F) ((sendSlot s).view.loc (c : Thread nD τ)))
    (h : ∀ i ∈ (sendSlot s).view.set, f i = sbuf m c s i) :
    ((sendSlot s).view.loc (c : Thread nD τ) ↦[(sendSlot s).view.set]{fullShare} f : sProp 𝕄) ⊢ iprop(sendPts c s (chainShare 0) (sbuf m c s) ∗ sendPts c s (chainShare 1) (sbuf m c s) ∗ sendPts c s (chainShare 2) (sbuf m c s)
      ∗ sendPts c s (chainShare 3) (sbuf m c s) ∗ sendPts c s (chainShare 4) (sbuf m c s) ∗ sendPts c s (chainShare 5) (sbuf m c s) ∗ sendPts c s (chainShare 6) (sbuf m c s)
      ∗ sendPts c s (rightN 7) (sbuf m c s)) := send_prep7 m c s f h
theorem send_prep3_raw (c : Dev nD) (s : Fin 6) (f : Buf (Elt F) ((sendSlot s).view.loc (c : Thread nD τ)))
    (h : ∀ i ∈ (sendSlot s).view.set, f i = sbuf m c s i) :
    ((sendSlot s).view.loc (c : Thread nD τ) ↦[(sendSlot s).view.set]{fullShare} f : sProp 𝕄) ⊢ iprop(sendPts c s (chainShare 0) (sbuf m c s) ∗ sendPts c s (chainShare 1) (sbuf m c s) ∗ sendPts c s (chainShare 2) (sbuf m c s)
      ∗ sendPts c s (rightN 3) (sbuf m c s)) := send_prep3 m c s f h

theorem sendPay_pts (c : Dev nD) (k : Fin 30) (s : Fin 6) (hs : stageOf k = s) (n : ℕ) (hn : posOf k = n) :
    (sendPay (F := F) (sbuf m) c k : sProp 𝕄) ⊢ sendPts c s (chainShare n) (sbuf m c s) := by
  subst hs; subst hn; exact Entails.of_eq rfl
theorem recvPts_intro (c : Dev nD) (k : Fin 30) (f : Buf (Elt F) ((recvSlot k).view.loc (c : Thread nD τ))) :
    ((recvSlot k).view.loc (c : Thread nD τ) ↦[(recvSlot k).view.set]{fullShare} f : sProp 𝕄) ⊢ recvPts c k f :=
  Entails.of_eq rfl

end Cert.Kernel.Proto

end
-- ==== Proof.Bits.Joins.lean ====
import proofs.«900997_g7700000000000998_dist_mlpseq_tp1d_rep_rep_b128_d128_h256_v7x_i32_f32_1_alg».proof.Proof.Bits.Slots

noncomputable section

namespace Cert.Kernel.Proto

open Cert.Kernel Cert.Kernel.Gen Cert.Mlp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem bigSep_fin30 (Φ : Fin 30 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29) :=
  bigSep_univ_eq_bigSepL [0, 1, 2, 3, 4, 5, 6, 7, 8, 9, 10, 11, 12, 13, 14, 15, 16, 17, 18, 19, 20, 21, 22, 23, 24, 25, 26, 27, 28, 29] (by decide) (by decide) Φ

theorem bigSep_fin6 (Φ : Fin 6 → sProp 𝕄) :
    bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem recv_join_any (c : Dev nD) (fs : Fin 30 → Buf (Elt F) ((c : Thread nD τ).loc cc0_scratch1)) :
    (bigSep Finset.univ fun k : Fin 30 => recvPts (F := F) c k (fs k))
      ⊢ (iprop(∃ f : Buf (Elt F) ((c : Thread nD τ).loc cc0_scratch1), (((c : Thread nD τ).loc cc0_scratch1) ↦{fullShare} f)) : sProp 𝕄) := by
  have hc : (Finset.univ : Finset (Idx ((c : Thread nD τ).loc cc0_scratch1)))
      = Finset.univ.biUnion (fun k : Fin 30 => (recvSlot k).view.set) :=
    (Finset.eq_univ_iff_forall.mpr fun i =>
      Finset.mem_biUnion.mpr ⟨⟨((i : S30x128x128.Idx) 0).val, ((i : S30x128x128.Idx) 0).isLt⟩, Finset.mem_univ _, mem_recvSlot_self i⟩).symm
  have hj : (bigSep Finset.univ fun k : Fin 30 => (((c : Thread nD τ).loc cc0_scratch1) ↦[(recvSlot k).view.set]{fullShare} fs k : sProp 𝕄))
      ⊢ iprop(∃ g : Buf (Elt F) ((c : Thread nD τ).loc cc0_scratch1), ⌜∀ k ∈ (Finset.univ : Finset (Fin 30)), ∀ i ∈ (recvSlot k).view.set, g i = fs k i⌝ ∗
          ((c : Thread nD τ).loc cc0_scratch1) ↦[Finset.univ.biUnion (fun k : Fin 30 => (recvSlot k).view.set)]{fullShare} g) :=
    pointsTo_biUnion_join Finset.univ _ fs (fs 0) (fun k _ k' _ h => recvSlot_disjoint h)
  rw [← hc] at hj
  refine hj.trans ?_
  iintro ⟨%g, %hg, H⟩
  iexists g
  iexact H

theorem send_join_any (c : Dev nD) (fs : Fin 6 → Buf (Elt F) ((c : Thread nD τ).loc cc0_scratch0)) :
    (bigSep Finset.univ fun s : Fin 6 => sendPts (F := F) c s fullShare (fs s))
      ⊢ (iprop(∃ f : Buf (Elt F) ((c : Thread nD τ).loc cc0_scratch0), (((c : Thread nD τ).loc cc0_scratch0) ↦{fullShare} f)) : sProp 𝕄) := by
  have hc : (Finset.univ : Finset (Idx ((c : Thread nD τ).loc cc0_scratch0)))
      = Finset.univ.biUnion (fun s : Fin 6 => (sendSlot s).view.set) :=
    (Finset.eq_univ_iff_forall.mpr fun i =>
      Finset.mem_biUnion.mpr ⟨⟨((i : S6x128x128.Idx) 0).val, ((i : S6x128x128.Idx) 0).isLt⟩, Finset.mem_univ _, mem_sendSlot_self i⟩).symm
  have hj : (bigSep Finset.univ fun s : Fin 6 => (((c : Thread nD τ).loc cc0_scratch0) ↦[(sendSlot s).view.set]{fullShare} fs s : sProp 𝕄))
      ⊢ iprop(∃ g : Buf (Elt F) ((c : Thread nD τ).loc cc0_scratch0), ⌜∀ s ∈ (Finset.univ : Finset (Fin 6)), ∀ i ∈ (sendSlot s).view.set, g i = fs s i⌝ ∗
          ((c : Thread nD τ).loc cc0_scratch0) ↦[Finset.univ.biUnion (fun s : Fin 6 => (sendSlot s).view.set)]{fullShare} g) :=
    pointsTo_biUnion_join Finset.univ _ fs (fs 0) (fun s _ s' _ h => sendSlot_disjoint h)
  rw [← hc] at hj
  refine hj.trans ?_
  iintro ⟨%g, %hg, H⟩
  iexists g
  iexact H

theorem recv_join_flat (c : Dev nD) (f0 f1 f2 f3 f4 f5 f6 f7 f8 f9 f10 f11 f12 f13 f14 f15 f16 f17 f18 f19 f20 f21 f22 f23 f24 f25 f26 f27 f28 f29 : Buf (Elt F) ((c : Thread nD τ).loc cc0_scratch1)) :
    (iprop(recvPts c 0 f0 ∗ recvPts c 1 f1 ∗ recvPts c 2 f2 ∗ recvPts c 3 f3 ∗ recvPts c 4 f4 ∗ recvPts c 5 f5 ∗ recvPts c 6 f6 ∗ recvPts c 7 f7 ∗ recvPts c 8 f8 ∗ recvPts c 9 f9 ∗ recvPts c 10 f10 ∗ recvPts c 11 f11 ∗ recvPts c 12 f12 ∗ recvPts c 13 f13 ∗ recvPts c 14 f14 ∗ recvPts c 15 f15 ∗ recvPts c 16 f16 ∗ recvPts c 17 f17 ∗ recvPts c 18 f18 ∗ recvPts c 19 f19 ∗ recvPts c 20 f20 ∗ recvPts c 21 f21 ∗ recvPts c 22 f22 ∗ recvPts c 23 f23 ∗ recvPts c 24 f24 ∗ recvPts c 25 f25 ∗ recvPts c 26 f26 ∗ recvPts c 27 f27 ∗ recvPts c 28 f28 ∗ recvPts c 29 f29) : sProp 𝕄)
      ⊢ iprop(∃ f : Buf (Elt F) ((c : Thread nD τ).loc cc0_scratch1), (((c : Thread nD τ).loc cc0_scratch1) ↦{fullShare} f)) := by
  have h := recv_join_any (F := F) c ![f0, f1, f2, f3, f4, f5, f6, f7, f8, f9, f10, f11, f12, f13, f14, f15, f16, f17, f18, f19, f20, f21, f22, f23, f24, f25, f26, f27, f28, f29]
  rw [bigSep_fin30] at h
  exact h

theorem send_join_flat (c : Dev nD) (f0 f1 f2 f3 f4 f5 : Buf (Elt F) ((c : Thread nD τ).loc cc0_scratch0)) :
    (iprop(sendPts c 0 fullShare f0 ∗ sendPts c 1 fullShare f1 ∗ sendPts c 2 fullShare f2 ∗ sendPts c 3 fullShare f3 ∗ sendPts c 4 fullShare f4 ∗ sendPts c 5 fullShare f5) : sProp 𝕄)
      ⊢ iprop(∃ f : Buf (Elt F) ((c : Thread nD τ).loc cc0_scratch0), (((c : Thread nD τ).loc cc0_scratch0) ↦{fullShare} f)) := by
  have h := send_join_any (F := F) c ![f0, f1, f2, f3, f4, f5]
  rw [bigSep_fin6] at h
  exact h

end Cert.Kernel.Proto

end
-- ==== Proof.Bits.Stored.lean ====
import proofs.«900997_g7700000000000998_dist_mlpseq_tp1d_rep_rep_b128_d128_h256_v7x_i32_f32_1_alg».proof.Proof.Bits.Steps
import Idealize.ShloMosaic.Lib.Writes

noncomputable section

namespace Cert.Kernel.Proto

open Cert.Kernel Cert.Kernel.Gen Cert.Mlp

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

open Cert.Kernel.Vals

theorem hz2 : (![0, 0] : Fin 2 → Nat) = fun _ => 0 := funext fun a => by fin_cases a <;> rfl

theorem rd0 (f : (cc0_stg0_0 : Ref sig .tc).ty.Contents (Elt F)) :
    (Memref.whole cc0_stg0_0 : Memref sig .tc .vmem S128x128 .f32).view.readAt (Elt F) (Rect.unit (s := S128x128) ![0, 0] S128x128.size inb_S128x128_S128x128_0_0).toLoadRect f = f :=
  Memref.readAt_unit_zero (Elt F) cc0_stg0_0 hz2 _ f
theorem rd1 (f : (cc0_stg1_0 : Ref sig .tc).ty.Contents (Elt F)) :
    (Memref.whole cc0_stg1_0 : Memref sig .tc .vmem S128x256 .f32).view.readAt (Elt F) (Rect.unit (s := S128x256) ![0, 0] S128x256.size inb_S128x256_S128x256_0_0).toLoadRect f = f :=
  Memref.readAt_unit_zero (Elt F) cc0_stg1_0 hz2 _ f
theorem rd2 (f : (cc0_stg2_0 : Ref sig .tc).ty.Contents (Elt F)) :
    (Memref.whole cc0_stg2_0 : Memref sig .tc .vmem S256x128 .f32).view.readAt (Elt F) (Rect.unit (s := S256x128) ![0, 0] S256x128.size inb_S256x128_S256x128_0_0).toLoadRect f = f :=
  Memref.readAt_unit_zero (Elt F) cc0_stg2_0 hz2 _ f
theorem rd3 (f : (cc0_stg3_0 : Ref sig .tc).ty.Contents (Elt F)) :
    (Memref.whole cc0_stg3_0 : Memref sig .tc .vmem S128x256 .f32).view.readAt (Elt F) (Rect.unit (s := S128x256) ![0, 0] S128x256.size inb_S128x256_S128x256_0_0).toLoadRect f = f :=
  Memref.readAt_unit_zero (Elt F) cc0_stg3_0 hz2 _ f
theorem rd4 (f : (cc0_stg4_0 : Ref sig .tc).ty.Contents (Elt F)) :
    (Memref.whole cc0_stg4_0 : Memref sig .tc .vmem S256x128 .f32).view.readAt (Elt F) (Rect.unit (s := S256x128) ![0, 0] S256x128.size inb_S256x128_S256x128_0_0).toLoadRect f = f :=
  Memref.readAt_unit_zero (Elt F) cc0_stg4_0 hz2 _ f
theorem rd5 (f : (cc0_stg5_0 : Ref sig .tc).ty.Contents (Elt F)) :
    (Memref.whole cc0_stg5_0 : Memref sig .tc .vmem S128x256 .f32).view.readAt (Elt F) (Rect.unit (s := S128x256) ![0, 0] S128x256.size inb_S128x256_S128x256_0_0).toLoadRect f = f :=
  Memref.readAt_unit_zero (Elt F) cc0_stg5_0 hz2 _ f
theorem rd6 (f : (cc0_stg6_0 : Ref sig .tc).ty.Contents (Elt F)) :
    (Memref.whole cc0_stg6_0 : Memref sig .tc .vmem S256x128 .f32).view.readAt (Elt F) (Rect.unit (s := S256x128) ![0, 0] S256x128.size inb_S256x128_S256x128_0_0).toLoadRect f = f :=
  Memref.readAt_unit_zero (Elt F) cc0_stg6_0 hz2 _ f

abbrev ld (c : Dev nD) (k : Fin 30) : Vec F S1x128x128 .bf16 :=
  (Memref.whole cc0_scratch1 : Memref sig .tc .vmem S30x128x128 .bf16).view.readAt (Elt F) (rectR k).toLoadRect (landed m (sbuf m) c k)

theorem stored_gen (c : Dev nD) (s : Fin 6) (f : Buf (Elt F) ((c : Thread nD τ).loc cc0_scratch0)) (v : Vec F S1x128x128 .bf16)
    (hv : v = sentOf m c s) :
    ∀ i ∈ (sendSlot s).view.set, (((Memref.whole cc0_scratch0 : Memref sig .tc .vmem S6x128x128 .bf16).access (rectS s) : View sig .tc _ _ _).write (Elt F) f v Finset.univ) i = sbuf m c s i := by
  subst hv; exact store_canon m c s f

theorem val0 (c : Dev nD) :
    k0_pay2 ((Memref.whole cc0_stg0_0 : Memref sig .tc .vmem S128x128 .f32).view.readAt (Elt F) (Rect.unit (s := S128x128) ![0, 0] S128x128.size inb_S128x128_S128x128_0_0).toLoadRect (argsOf m c).x)
      ((Memref.whole cc0_stg1_0 : Memref sig .tc .vmem S128x256 .f32).view.readAt (Elt F) (Rect.unit (s := S128x256) ![0, 0] S128x256.size inb_S128x256_S128x256_0_0).toLoadRect (argsOf m c).w0)
      ((Memref.whole cc0_stg2_0 : Memref sig .tc .vmem S256x128 .f32).view.readAt (Elt F) (Rect.unit (s := S256x128) ![0, 0] S256x128.size inb_S256x128_S256x128_0_0).toLoadRect (argsOf m c).o0)
      = sentOf m c 0 := by
  rw [rd0, rd1, rd2]; rfl

theorem ld_eq (c : Dev nD) (k : Fin 30) : ld m c k = sentOf m (partner c (jOf k)) (stageOf k) := landed_read m c k

abbrev r907 (c : Dev nD) := k0_pay1 ((Memref.whole cc0_stg0_0 : Memref sig .tc .vmem S128x128 .f32).view.readAt (Elt F) (Rect.unit (s := S128x128) ![0, 0] S128x128.size inb_S128x128_S128x128_0_0).toLoadRect (argsOf m c).x) ((Memref.whole cc0_stg1_0 : Memref sig .tc .vmem S128x256 .f32).view.readAt (Elt F) (Rect.unit (s := S128x256) ![0, 0] S128x256.size inb_S128x256_S128x256_0_0).toLoadRect (argsOf m c).w0) ((Memref.whole cc0_stg2_0 : Memref sig .tc .vmem S256x128 .f32).view.readAt (Elt F) (Rect.unit (s := S256x128) ![0, 0] S256x128.size inb_S256x128_S256x128_0_0).toLoadRect (argsOf m c).o0)
theorem r907_eq (c : Dev nD) : r907 m c = Vals.v907 (argsOf m) c := by
  unfold r907; rw [rd0, rd1, rd2]; rfl

abbrev r993 (c : Dev nD) := k0_pay3 (r907 m c) (ld m c 6)
theorem r993_eq (c : Dev nD) : r993 m c = Vals.v993 (argsOf m) c := by
  unfold r993; rw [r907_eq, ld_eq]; rfl

abbrev r1017 (c : Dev nD) := k0_pay4 (r993 m c) (ld m c 5) (ld m c 4)
theorem r1017_eq (c : Dev nD) : r1017 m c = Vals.v1017 (argsOf m) c := by
  unfold r1017; rw [r993_eq, ld_eq, ld_eq]; rfl

abbrev r1041 (c : Dev nD) := k0_pay5 (r1017 m c) (ld m c 3) (ld m c 2)
theorem r1041_eq (c : Dev nD) : r1041 m c = Vals.v1041 (argsOf m) c := by
  unfold r1041; rw [r1017_eq, ld_eq, ld_eq]; rfl

abbrev r1065 (c : Dev nD) := k0_pay6 (r1041 m c) (ld m c 1) (ld m c 0)
theorem r1065_eq (c : Dev nD) : r1065 m c = Vals.v1065 (argsOf m) c := by
  unfold r1065; rw [r1041_eq, ld_eq, ld_eq]; rfl

abbrev r1136 (c : Dev nD) := k0_pay8 (r1065 m c) (ld m c 9) (ld m c 8) (ld m c 7)
theorem r1136_eq (c : Dev nD) : r1136 m c = Vals.v1136 (argsOf m) c := by
  unfold r1136; rw [r1065_eq, ld_eq, ld_eq, ld_eq]; rfl

abbrev r1147 (c : Dev nD) := k0_pay9 (r1136 m c) ((Memref.whole cc0_stg3_0 : Memref sig .tc .vmem S128x256 .f32).view.readAt (Elt F) (Rect.unit (s := S128x256) ![0, 0] S128x256.size inb_S128x256_S128x256_0_0).toLoadRect (argsOf m c).w1) ((Memref.whole cc0_stg4_0 : Memref sig .tc .vmem S256x128 .f32).view.readAt (Elt F) (Rect.unit (s := S256x128) ![0, 0] S256x128.size inb_S256x128_S256x128_0_0).toLoadRect (argsOf m c).o1)
theorem r1147_eq (c : Dev nD) : r1147 m c = Vals.v1147 (argsOf m) c := by
  unfold r1147; rw [r1136_eq, rd3, rd4]; rfl

abbrev r1245 (c : Dev nD) := k0_pay11 (r1147 m c) (ld m c 16) (ld m c 15)
theorem r1245_eq (c : Dev nD) : r1245 m c = Vals.v1245 (argsOf m) c := by
  unfold r1245; rw [r1147_eq, ld_eq, ld_eq]; rfl

abbrev r1269 (c : Dev nD) := k0_pay12 (r1245 m c) (ld m c 14) (ld m c 13)
theorem r1269_eq (c : Dev nD) : r1269 m c = Vals.v1269 (argsOf m) c := by
  unfold r1269; rw [r1245_eq, ld_eq, ld_eq]; rfl

abbrev r1305 (c : Dev nD) := k0_pay13 (r1269 m c) (ld m c 12) (ld m c 11) (ld m c 10)
theorem r1305_eq (c : Dev nD) : r1305 m c = Vals.v1305 (argsOf m) c := by
  unfold r1305; rw [r1269_eq, ld_eq, ld_eq, ld_eq]; rfl

abbrev r1306 (c : Dev nD) := k0_pay14 (r1269 m c) (ld m c 12) (ld m c 11) (ld m c 10)
theorem r1306_eq (c : Dev nD) : r1306 m c = Vals.v1306 (argsOf m) c := by
  unfold r1306; rw [r1269_eq, ld_eq, ld_eq, ld_eq]; rfl

abbrev r1363 (c : Dev nD) := k0_pay16 (r1305 m c) (ld m c 19) (ld m c 18)
theorem r1363_eq (c : Dev nD) : r1363 m c = Vals.v1363 (argsOf m) c := by
  unfold r1363; rw [r1305_eq, ld_eq, ld_eq]; rfl

abbrev r1387 (c : Dev nD) := k0_pay17 (r1363 m c) (ld m c 17) ((Memref.whole cc0_stg5_0 : Memref sig .tc .vmem S128x256 .f32).view.readAt (Elt F) (Rect.unit (s := S128x256) ![0, 0] S128x256.size inb_S128x256_S128x256_0_0).toLoadRect (argsOf m c).w2) ((Memref.whole cc0_stg6_0 : Memref sig .tc .vmem S256x128 .f32).view.readAt (Elt F) (Rect.unit (s := S256x128) ![0, 0] S256x128.size inb_S256x128_S256x128_0_0).toLoadRect (argsOf m c).o2)
theorem r1387_eq (c : Dev nD) : r1387 m c = Vals.v1387 (argsOf m) c := by
  unfold r1387; rw [r1363_eq, ld_eq, rd5, rd6]; rfl

abbrev r1473 (c : Dev nD) := k0_pay19 (r1387 m c) (ld m c 26)
theorem r1473_eq (c : Dev nD) : r1473 m c = Vals.v1473 (argsOf m) c := by
  unfold r1473; rw [r1387_eq, ld_eq]; rfl

abbrev r1497 (c : Dev nD) := k0_pay20 (r1473 m c) (ld m c 25) (ld m c 24)
theorem r1497_eq (c : Dev nD) : r1497 m c = Vals.v1497 (argsOf m) c := by
  unfold r1497; rw [r1473_eq, ld_eq, ld_eq]; rfl

abbrev r1507 (c : Dev nD) := k0_pay21 (ld m c 23)
theorem r1507_eq (c : Dev nD) : r1507 m c = Vals.v1507 (argsOf m) c := by
  unfold r1507; rw [ld_eq]; rfl

abbrev r1533 (c : Dev nD) := k0_pay22 (r1497 m c) (r1507 m c) (ld m c 22) (ld m c 21)
theorem r1533_eq (c : Dev nD) : r1533 m c = Vals.v1533 (argsOf m) c := by
  unfold r1533; rw [r1497_eq, r1507_eq, ld_eq, ld_eq]; rfl

abbrev r1545 (c : Dev nD) := k0_pay23 (r1533 m c) (ld m c 20)
theorem r1545_eq (c : Dev nD) : r1545 m c = Vals.v1545 (argsOf m) c := by
  unfold r1545; rw [r1533_eq, ld_eq]; rfl

abbrev r1591 (c : Dev nD) := k0_pay25 (r1545 m c) (ld m c 29)
theorem r1591_eq (c : Dev nD) : r1591 m c = Vals.v1591 (argsOf m) c := by
  unfold r1591; rw [r1545_eq, ld_eq]; rfl

theorem val1 (c : Dev nD) : k0_pay7 (r1041 m c) (ld m c 1) (ld m c 0) = sentOf m c 1 := by
  rw [r1041_eq, ld_eq, ld_eq]; rfl

theorem val2 (c : Dev nD) : k0_pay10 (r1136 m c) ((Memref.whole cc0_stg3_0 : Memref sig .tc .vmem S128x256 .f32).view.readAt (Elt F) (Rect.unit (s := S128x256) ![0, 0] S128x256.size inb_S128x256_S128x256_0_0).toLoadRect (argsOf m c).w1) ((Memref.whole cc0_stg4_0 : Memref sig .tc .vmem S256x128 .f32).view.readAt (Elt F) (Rect.unit (s := S256x128) ![0, 0] S256x128.size inb_S256x128_S256x128_0_0).toLoadRect (argsOf m c).o1) = sentOf m c 2 := by
  rw [r1136_eq, rd3, rd4]; rfl

theorem val3 (c : Dev nD) : k0_pay15 (r1306 m c) = sentOf m c 3 := by
  rw [r1306_eq]; rfl

theorem val4 (c : Dev nD) : k0_pay18 (r1363 m c) (ld m c 17) ((Memref.whole cc0_stg5_0 : Memref sig .tc .vmem S128x256 .f32).view.readAt (Elt F) (Rect.unit (s := S128x256) ![0, 0] S128x256.size inb_S128x256_S128x256_0_0).toLoadRect (argsOf m c).w2) ((Memref.whole cc0_stg6_0 : Memref sig .tc .vmem S256x128 .f32).view.readAt (Elt F) (Rect.unit (s := S256x128) ![0, 0] S256x128.size inb_S256x128_S256x128_0_0).toLoadRect (argsOf m c).o2) = sentOf m c 4 := by
  rw [r1363_eq, ld_eq, rd5, rd6]; rfl

theorem val5 (c : Dev nD) : k0_pay24 (r1533 m c) (ld m c 20) = sentOf m c 5 := by
  rw [r1533_eq, ld_eq]; rfl

theorem valOut (c : Dev nD) : k0_pay26 (r1591 m c) (ld m c 28) (ld m c 27) = Vals.outv (argsOf m) c := by
  rw [r1591_eq, ld_eq, ld_eq]; rfl

theorem out_written (c : Dev nD) (g7 : Buf (Elt F) ((c : Thread nD τ).loc cc0_stg7_0)) :
    (Memref.whole cc0_stg7_0 : Memref sig .tc .vmem S128x128 .f32).view.writes (Elt F) g7
      [⟨Rect.unit (s := S128x128) ![0, 0] S128x128.size inb_S128x128_S128x128_0_0, k0_pay26 (r1591 m c) (ld m c 28) (ld m c 27)⟩]
      = (outAt m c : Buf (Elt F) ((c : Thread nD τ).loc cc0_stg7_0)) := by
  rw [View.writes_singleton]
  exact (Memref.write_access_unit_zero_univ (Elt F) cc0_stg7_0 hz2 _ g7 _).trans (valOut m c)

end Cert.Kernel.Proto

end
-- ==== Proof.DevEq.lean ====
import proofs.«900997_g7700000000000998_dist_mlpseq_tp1d_rep_rep_b128_d128_h256_v7x_i32_f32_1_alg».proof.Proof.Gen.Kernel
import proofs.«900997_g7700000000000998_dist_mlpseq_tp1d_rep_rep_b128_d128_h256_v7x_i32_f32_1_alg».proof.Proof.Partner
import Idealize.ShloMosaic.Lib.Decide

set_option synthInstance.maxSize 4096
set_option Elab.async false

namespace Cert.Kernel.DevEq

open Cert.Kernel Cert.Kernel.Gen Idealize.ShloMosaic

-- Chain N of the program names the partner under mask (N - 1) mod 10: checked at each of the 32 devices.
theorem dev1_eq : ∀ c : Dev nD, (⟨k0_dev1 c, k0_dev1_lt c⟩ : Dev nD) = Cert.Mlp.partner c 0 := by decide +kernel
theorem dev2_eq : ∀ c : Dev nD, (⟨k0_dev2 c, k0_dev2_lt c⟩ : Dev nD) = Cert.Mlp.partner c 1 := by decide +kernel
theorem dev3_eq : ∀ c : Dev nD, (⟨k0_dev3 c, k0_dev3_lt c⟩ : Dev nD) = Cert.Mlp.partner c 2 := by decide +kernel
theorem dev4_eq : ∀ c : Dev nD, (⟨k0_dev4 c, k0_dev4_lt c⟩ : Dev nD) = Cert.Mlp.partner c 3 := by decide +kernel
theorem dev5_eq : ∀ c : Dev nD, (⟨k0_dev5 c, k0_dev5_lt c⟩ : Dev nD) = Cert.Mlp.partner c 4 := by decide +kernel
theorem dev6_eq : ∀ c : Dev nD, (⟨k0_dev6 c, k0_dev6_lt c⟩ : Dev nD) = Cert.Mlp.partner c 5 := by decide +kernel
theorem dev7_eq : ∀ c : Dev nD, (⟨k0_dev7 c, k0_dev7_lt c⟩ : Dev nD) = Cert.Mlp.partner c 6 := by decide +kernel
theorem dev8_eq : ∀ c : Dev nD, (⟨k0_dev8 c, k0_dev8_lt c⟩ : Dev nD) = Cert.Mlp.partner c 7 := by decide +kernel
theorem dev9_eq : ∀ c : Dev nD, (⟨k0_dev9 c, k0_dev9_lt c⟩ : Dev nD) = Cert.Mlp.partner c 8 := by decide +kernel
theorem dev10_eq : ∀ c : Dev nD, (⟨k0_dev10 c, k0_dev10_lt c⟩ : Dev nD) = Cert.Mlp.partner c 9 := by decide +kernel
theorem dev11_eq : ∀ c : Dev nD, (⟨k0_dev11 c, k0_dev11_lt c⟩ : Dev nD) = Cert.Mlp.partner c 0 := by decide +kernel
theorem dev12_eq : ∀ c : Dev nD, (⟨k0_dev12 c, k0_dev12_lt c⟩ : Dev nD) = Cert.Mlp.partner c 1 := by decide +kernel
theorem dev13_eq : ∀ c : Dev nD, (⟨k0_dev13 c, k0_dev13_lt c⟩ : Dev nD) = Cert.Mlp.partner c 2 := by decide +kernel
theorem dev14_eq : ∀ c : Dev nD, (⟨k0_dev14 c, k0_dev14_lt c⟩ : Dev nD) = Cert.Mlp.partner c 3 := by decide +kernel
theorem dev15_eq : ∀ c : Dev nD, (⟨k0_dev15 c, k0_dev15_lt c⟩ : Dev nD) = Cert.Mlp.partner c 4 := by decide +kernel
theorem dev16_eq : ∀ c : Dev nD, (⟨k0_dev16 c, k0_dev16_lt c⟩ : Dev nD) = Cert.Mlp.partner c 5 := by decide +kernel
theorem dev17_eq : ∀ c : Dev nD, (⟨k0_dev17 c, k0_dev17_lt c⟩ : Dev nD) = Cert.Mlp.partner c 6 := by decide +kernel
theorem dev18_eq : ∀ c : Dev nD, (⟨k0_dev18 c, k0_dev18_lt c⟩ : Dev nD) = Cert.Mlp.partner c 7 := by decide +kernel
theorem dev19_eq : ∀ c : Dev nD, (⟨k0_dev19 c, k0_dev19_lt c⟩ : Dev nD) = Cert.Mlp.partner c 8 := by decide +kernel
theorem dev20_eq : ∀ c : Dev nD, (⟨k0_dev20 c, k0_dev20_lt c⟩ : Dev nD) = Cert.Mlp.partner c 9 := by decide +kernel
theorem dev21_eq : ∀ c : Dev nD, (⟨k0_dev21 c, k0_dev21_lt c⟩ : Dev nD) = Cert.Mlp.partner c 0 := by decide +kernel
theorem dev22_eq : ∀ c : Dev nD, (⟨k0_dev22 c, k0_dev22_lt c⟩ : Dev nD) = Cert.Mlp.partner c 1 := by decide +kernel
theorem dev23_eq : ∀ c : Dev nD, (⟨k0_dev23 c, k0_dev23_lt c⟩ : Dev nD) = Cert.Mlp.partner c 2 := by decide +kernel
theorem dev24_eq : ∀ c : Dev nD, (⟨k0_dev24 c, k0_dev24_lt c⟩ : Dev nD) = Cert.Mlp.partner c 3 := by decide +kernel
theorem dev25_eq : ∀ c : Dev nD, (⟨k0_dev25 c, k0_dev25_lt c⟩ : Dev nD) = Cert.Mlp.partner c 4 := by decide +kernel
theorem dev26_eq : ∀ c : Dev nD, (⟨k0_dev26 c, k0_dev26_lt c⟩ : Dev nD) = Cert.Mlp.partner c 5 := by decide +kernel
theorem dev27_eq : ∀ c : Dev nD, (⟨k0_dev27 c, k0_dev27_lt c⟩ : Dev nD) = Cert.Mlp.partner c 6 := by decide +kernel
theorem dev28_eq : ∀ c : Dev nD, (⟨k0_dev28 c, k0_dev28_lt c⟩ : Dev nD) = Cert.Mlp.partner c 7 := by decide +kernel
theorem dev29_eq : ∀ c : Dev nD, (⟨k0_dev29 c, k0_dev29_lt c⟩ : Dev nD) = Cert.Mlp.partner c 8 := by decide +kernel
theorem dev30_eq : ∀ c : Dev nD, (⟨k0_dev30 c, k0_dev30_lt c⟩ : Dev nD) = Cert.Mlp.partner c 9 := by decide +kernel
theorem dev31_eq : ∀ c : Dev nD, (⟨k0_dev31 c, k0_dev31_lt c⟩ : Dev nD) = Cert.Mlp.partner c 0 := by decide +kernel
theorem dev32_eq : ∀ c : Dev nD, (⟨k0_dev32 c, k0_dev32_lt c⟩ : Dev nD) = Cert.Mlp.partner c 1 := by decide +kernel
theorem dev33_eq : ∀ c : Dev nD, (⟨k0_dev33 c, k0_dev33_lt c⟩ : Dev nD) = Cert.Mlp.partner c 2 := by decide +kernel
theorem dev34_eq : ∀ c : Dev nD, (⟨k0_dev34 c, k0_dev34_lt c⟩ : Dev nD) = Cert.Mlp.partner c 3 := by decide +kernel
theorem dev35_eq : ∀ c : Dev nD, (⟨k0_dev35 c, k0_dev35_lt c⟩ : Dev nD) = Cert.Mlp.partner c 4 := by decide +kernel
theorem dev36_eq : ∀ c : Dev nD, (⟨k0_dev36 c, k0_dev36_lt c⟩ : Dev nD) = Cert.Mlp.partner c 5 := by decide +kernel
theorem dev37_eq : ∀ c : Dev nD, (⟨k0_dev37 c, k0_dev37_lt c⟩ : Dev nD) = Cert.Mlp.partner c 6 := by decide +kernel
theorem dev38_eq : ∀ c : Dev nD, (⟨k0_dev38 c, k0_dev38_lt c⟩ : Dev nD) = Cert.Mlp.partner c 7 := by decide +kernel
theorem dev39_eq : ∀ c : Dev nD, (⟨k0_dev39 c, k0_dev39_lt c⟩ : Dev nD) = Cert.Mlp.partner c 8 := by decide +kernel
theorem dev40_eq : ∀ c : Dev nD, (⟨k0_dev40 c, k0_dev40_lt c⟩ : Dev nD) = Cert.Mlp.partner c 9 := by decide +kernel
theorem dev41_eq : ∀ c : Dev nD, (⟨k0_dev41 c, k0_dev41_lt c⟩ : Dev nD) = Cert.Mlp.partner c 0 := by decide +kernel
theorem dev42_eq : ∀ c : Dev nD, (⟨k0_dev42 c, k0_dev42_lt c⟩ : Dev nD) = Cert.Mlp.partner c 1 := by decide +kernel
theorem dev43_eq : ∀ c : Dev nD, (⟨k0_dev43 c, k0_dev43_lt c⟩ : Dev nD) = Cert.Mlp.partner c 2 := by decide +kernel
theorem dev44_eq : ∀ c : Dev nD, (⟨k0_dev44 c, k0_dev44_lt c⟩ : Dev nD) = Cert.Mlp.partner c 3 := by decide +kernel
theorem dev45_eq : ∀ c : Dev nD, (⟨k0_dev45 c, k0_dev45_lt c⟩ : Dev nD) = Cert.Mlp.partner c 4 := by decide +kernel
theorem dev46_eq : ∀ c : Dev nD, (⟨k0_dev46 c, k0_dev46_lt c⟩ : Dev nD) = Cert.Mlp.partner c 5 := by decide +kernel
theorem dev47_eq : ∀ c : Dev nD, (⟨k0_dev47 c, k0_dev47_lt c⟩ : Dev nD) = Cert.Mlp.partner c 6 := by decide +kernel
theorem dev48_eq : ∀ c : Dev nD, (⟨k0_dev48 c, k0_dev48_lt c⟩ : Dev nD) = Cert.Mlp.partner c 7 := by decide +kernel
theorem dev49_eq : ∀ c : Dev nD, (⟨k0_dev49 c, k0_dev49_lt c⟩ : Dev nD) = Cert.Mlp.partner c 8 := by decide +kernel
theorem dev50_eq : ∀ c : Dev nD, (⟨k0_dev50 c, k0_dev50_lt c⟩ : Dev nD) = Cert.Mlp.partner c 9 := by decide +kernel

attribute [sl_canon]
  dev1_eq dev2_eq dev3_eq dev4_eq dev5_eq dev6_eq dev7_eq dev8_eq dev9_eq dev10_eq
  dev11_eq dev12_eq dev13_eq dev14_eq dev15_eq dev16_eq dev17_eq dev18_eq dev19_eq dev20_eq
  dev21_eq dev22_eq dev23_eq dev24_eq dev25_eq dev26_eq dev27_eq dev28_eq dev29_eq dev30_eq
  dev31_eq dev32_eq dev33_eq dev34_eq dev35_eq dev36_eq dev37_eq dev38_eq dev39_eq dev40_eq
  dev41_eq dev42_eq dev43_eq dev44_eq dev45_eq dev46_eq dev47_eq dev48_eq dev49_eq dev50_eq

end Cert.Kernel.DevEq
-- ==== Proof.Bits.Body.lean ====
import proofs.«900997_g7700000000000998_dist_mlpseq_tp1d_rep_rep_b128_d128_h256_v7x_i32_f32_1_alg».proof.Proof.Bits.Steps
import proofs.«900997_g7700000000000998_dist_mlpseq_tp1d_rep_rep_b128_d128_h256_v7x_i32_f32_1_alg».proof.Proof.Bits.Joins
import proofs.«900997_g7700000000000998_dist_mlpseq_tp1d_rep_rep_b128_d128_h256_v7x_i32_f32_1_alg».proof.Proof.Bits.Stored
import proofs.«900997_g7700000000000998_dist_mlpseq_tp1d_rep_rep_b128_d128_h256_v7x_i32_f32_1_alg».proof.Proof.DevEq
import Idealize.ShloMosaic.Lib.Tactic

noncomputable section

namespace Cert.Kernel.Proto

open Cert.Kernel Cert.Kernel.Gen Cert.Mlp Cert.Kernel.DevEq

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local sl_rounds] duties_bar duties_exit duties_send duties_recv amount_bar amount_exit amount_send amount_recv
  expect_bar expect_exit expect_send expect_recv payload_exit payload_send

theorem payload_recv_pts (c : Dev nD) (k : Fin 30) (d : Fin 10) : (RdK (F := F) m).payload (recvCell c k) 0 d
    = (View.loc (c : Thread nD τ) (recvSlot k).view ↦[(recvSlot k).view.set]{fullShare} landed m (sbuf m) c k) := by
  rw [payload_recv]; rfl
attribute [local sl_rounds] payload_recv_pts

@[local sl_canon] theorem canon_barS (h) : (SemArray.scalar (sig.barrier 0 h) : Sems sig S_).sem = barS := rfl
@[local sl_canon] theorem canon_exitS : (cc0_scoped0 : Sems sig S_).sem = exitS := rfl

theorem pb_0 (c : Dev nD) : (RdK (F := F) m).payload (barCell (partner c 0)) 0 (0 : Fin 10)
    = iprop((∃ f, View.loc (c : Thread nD τ) (recvSlot 0).view ↦[(recvSlot 0).view.set]{fullShare} f)
        ∗ (∃ f, View.loc (c : Thread nD τ) (recvSlot 10).view ↦[(recvSlot 10).view.set]{fullShare} f)
        ∗ (∃ f, View.loc (c : Thread nD τ) (recvSlot 20).view ↦[(recvSlot 20).view.set]{fullShare} f)) := by
  rw [payload_bar]; unfold barPay recvEx recvPts; rw [partner_partner]; rfl
theorem pb_1 (c : Dev nD) : (RdK (F := F) m).payload (barCell (partner c 1)) 0 (1 : Fin 10)
    = iprop((∃ f, View.loc (c : Thread nD τ) (recvSlot 1).view ↦[(recvSlot 1).view.set]{fullShare} f)
        ∗ (∃ f, View.loc (c : Thread nD τ) (recvSlot 11).view ↦[(recvSlot 11).view.set]{fullShare} f)
        ∗ (∃ f, View.loc (c : Thread nD τ) (recvSlot 21).view ↦[(recvSlot 21).view.set]{fullShare} f)) := by
  rw [payload_bar]; unfold barPay recvEx recvPts; rw [partner_partner]; rfl
theorem pb_2 (c : Dev nD) : (RdK (F := F) m).payload (barCell (partner c 2)) 0 (2 : Fin 10)
    = iprop((∃ f, View.loc (c : Thread nD τ) (recvSlot 2).view ↦[(recvSlot 2).view.set]{fullShare} f)
        ∗ (∃ f, View.loc (c : Thread nD τ) (recvSlot 12).view ↦[(recvSlot 12).view.set]{fullShare} f)
        ∗ (∃ f, View.loc (c : Thread nD τ) (recvSlot 22).view ↦[(recvSlot 22).view.set]{fullShare} f)) := by
  rw [payload_bar]; unfold barPay recvEx recvPts; rw [partner_partner]; rfl
theorem pb_3 (c : Dev nD) : (RdK (F := F) m).payload (barCell (partner c 3)) 0 (3 : Fin 10)
    = iprop((∃ f, View.loc (c : Thread nD τ) (recvSlot 3).view ↦[(recvSlot 3).view.set]{fullShare} f)
        ∗ (∃ f, View.loc (c : Thread nD τ) (recvSlot 13).view ↦[(recvSlot 13).view.set]{fullShare} f)
        ∗ (∃ f, View.loc (c : Thread nD τ) (recvSlot 23).view ↦[(recvSlot 23).view.set]{fullShare} f)) := by
  rw [payload_bar]; unfold barPay recvEx recvPts; rw [partner_partner]; rfl
theorem pb_4 (c : Dev nD) : (RdK (F := F) m).payload (barCell (partner c 4)) 0 (4 : Fin 10)
    = iprop((∃ f, View.loc (c : Thread nD τ) (recvSlot 4).view ↦[(recvSlot 4).view.set]{fullShare} f)
        ∗ (∃ f, View.loc (c : Thread nD τ) (recvSlot 14).view ↦[(recvSlot 14).view.set]{fullShare} f)
        ∗ (∃ f, View.loc (c : Thread nD τ) (recvSlot 24).view ↦[(recvSlot 24).view.set]{fullShare} f)) := by
  rw [payload_bar]; unfold barPay recvEx recvPts; rw [partner_partner]; rfl
theorem pb_5 (c : Dev nD) : (RdK (F := F) m).payload (barCell (partner c 5)) 0 (5 : Fin 10)
    = iprop((∃ f, View.loc (c : Thread nD τ) (recvSlot 5).view ↦[(recvSlot 5).view.set]{fullShare} f)
        ∗ (∃ f, View.loc (c : Thread nD τ) (recvSlot 15).view ↦[(recvSlot 15).view.set]{fullShare} f)
        ∗ (∃ f, View.loc (c : Thread nD τ) (recvSlot 25).view ↦[(recvSlot 25).view.set]{fullShare} f)) := by
  rw [payload_bar]; unfold barPay recvEx recvPts; rw [partner_partner]; rfl
theorem pb_6 (c : Dev nD) : (RdK (F := F) m).payload (barCell (partner c 6)) 0 (6 : Fin 10)
    = iprop((∃ f, View.loc (c : Thread nD τ) (recvSlot 6).view ↦[(recvSlot 6).view.set]{fullShare} f)
        ∗ (∃ f, View.loc (c : Thread nD τ) (recvSlot 16).view ↦[(recvSlot 16).view.set]{fullShare} f)
        ∗ (∃ f, View.loc (c : Thread nD τ) (recvSlot 26).view ↦[(recvSlot 26).view.set]{fullShare} f)) := by
  rw [payload_bar]; unfold barPay recvEx recvPts; rw [partner_partner]; rfl
theorem pb_7 (c : Dev nD) : (RdK (F := F) m).payload (barCell (partner c 7)) 0 (7 : Fin 10)
    = iprop((∃ f, View.loc (c : Thread nD τ) (recvSlot 7).view ↦[(recvSlot 7).view.set]{fullShare} f)
        ∗ (∃ f, View.loc (c : Thread nD τ) (recvSlot 17).view ↦[(recvSlot 17).view.set]{fullShare} f)
        ∗ (∃ f, View.loc (c : Thread nD τ) (recvSlot 27).view ↦[(recvSlot 27).view.set]{fullShare} f)) := by
  rw [payload_bar]; unfold barPay recvEx recvPts; rw [partner_partner]; rfl
theorem pb_8 (c : Dev nD) : (RdK (F := F) m).payload (barCell (partner c 8)) 0 (8 : Fin 10)
    = iprop((∃ f, View.loc (c : Thread nD τ) (recvSlot 8).view ↦[(recvSlot 8).view.set]{fullShare} f)
        ∗ (∃ f, View.loc (c : Thread nD τ) (recvSlot 18).view ↦[(recvSlot 18).view.set]{fullShare} f)
        ∗ (∃ f, View.loc (c : Thread nD τ) (recvSlot 28).view ↦[(recvSlot 28).view.set]{fullShare} f)) := by
  rw [payload_bar]; unfold barPay recvEx recvPts; rw [partner_partner]; rfl
theorem pb_9 (c : Dev nD) : (RdK (F := F) m).payload (barCell (partner c 9)) 0 (9 : Fin 10)
    = iprop((∃ f, View.loc (c : Thread nD τ) (recvSlot 9).view ↦[(recvSlot 9).view.set]{fullShare} f)
        ∗ (∃ f, View.loc (c : Thread nD τ) (recvSlot 19).view ↦[(recvSlot 19).view.set]{fullShare} f)
        ∗ (∃ f, View.loc (c : Thread nD τ) (recvSlot 29).view ↦[(recvSlot 29).view.set]{fullShare} f)) := by
  rw [payload_bar]; unfold barPay recvEx recvPts; rw [partner_partner]; rfl
attribute [local sl_rounds] pb_0 pb_1 pb_2 pb_3 pb_4 pb_5 pb_6 pb_7 pb_8 pb_9

def lvS (sm : SemLoc sig) : ℕ := lv (((0 : Dev nD) : Thread nD τ), sm) ()

theorem mayWait_flat (c : Dev nD) (n : ℕ) (O : CellTallies nD τ sig Unit) (hO : O = owedK c n) (hn : n ≤ 50) (sm : SemLoc sig)
    (hlt : ∀ i < 50, 50 - n ≤ i → lvS sm < lvPay i) :
    (levAts L lv : sProp 𝕄) ⊢ MayWait (c : Thread nD τ) sm () O := by
  subst hO; exact mayWait_owedK c sm n hn (fun i h1 h2 => hlt i h2 h1)

def bodyPost (c : Dev nD) : sProp 𝕄 :=
  iprop(((Memref.whole cc0_stg7_0 : Memref sig .tc .vmem S128x128 .f32).view.loc (c : Thread nD τ) ↦{fullShare} (outAt m c : Buf (Elt F) ((c : Thread nD τ).loc cc0_stg7_0)))
    ∗ scratch c
    ∗ (∃ W', owes (c : Thread nD τ) 0 W')
    ∗ ((Memref.whole cc0_stg0_0 : Memref sig .tc .vmem S128x128 .f32).view.loc (c : Thread nD τ) ↦{fullShare} (argsOf m c).x)
    ∗ ((Memref.whole cc0_stg1_0 : Memref sig .tc .vmem S128x256 .f32).view.loc (c : Thread nD τ) ↦{fullShare} (argsOf m c).w0)
    ∗ ((Memref.whole cc0_stg2_0 : Memref sig .tc .vmem S256x128 .f32).view.loc (c : Thread nD τ) ↦{fullShare} (argsOf m c).o0)
    ∗ ((Memref.whole cc0_stg3_0 : Memref sig .tc .vmem S128x256 .f32).view.loc (c : Thread nD τ) ↦{fullShare} (argsOf m c).w1)
    ∗ ((Memref.whole cc0_stg4_0 : Memref sig .tc .vmem S256x128 .f32).view.loc (c : Thread nD τ) ↦{fullShare} (argsOf m c).o1)
    ∗ ((Memref.whole cc0_stg5_0 : Memref sig .tc .vmem S128x256 .f32).view.loc (c : Thread nD τ) ↦{fullShare} (argsOf m c).w2)
    ∗ ((Memref.whole cc0_stg6_0 : Memref sig .tc .vmem S256x128 .f32).view.loc (c : Thread nD τ) ↦{fullShare} (argsOf m c).o2)
    ∗ semVal (exitCell c) 0
    ∗ semVal (sendCell c 0) 0
    ∗ semVal (sendCell c 1) 0
    ∗ semVal (sendCell c 2) 0
    ∗ semVal (sendCell c 3) 0
    ∗ semVal (sendCell c 4) 0
    ∗ semVal (sendCell c 5) 0
    ∗ semVal (sendCell c 6) 0
    ∗ semVal (sendCell c 7) 0
    ∗ semVal (sendCell c 8) 0
    ∗ semVal (sendCell c 9) 0
    ∗ semVal (sendCell c 10) 0
    ∗ semVal (sendCell c 11) 0
    ∗ semVal (sendCell c 12) 0
    ∗ semVal (sendCell c 13) 0
    ∗ semVal (sendCell c 14) 0
    ∗ semVal (sendCell c 15) 0
    ∗ semVal (sendCell c 16) 0
    ∗ semVal (sendCell c 17) 0
    ∗ semVal (sendCell c 18) 0
    ∗ semVal (sendCell c 19) 0
    ∗ semVal (sendCell c 20) 0
    ∗ semVal (sendCell c 21) 0
    ∗ semVal (sendCell c 22) 0
    ∗ semVal (sendCell c 23) 0
    ∗ semVal (sendCell c 24) 0
    ∗ semVal (sendCell c 25) 0
    ∗ semVal (sendCell c 26) 0
    ∗ semVal (sendCell c 27) 0
    ∗ semVal (sendCell c 28) 0
    ∗ semVal (sendCell c 29) 0
    ∗ semVal (recvCell c 0) 0
    ∗ semVal (recvCell c 1) 0
    ∗ semVal (recvCell c 2) 0
    ∗ semVal (recvCell c 3) 0
    ∗ semVal (recvCell c 4) 0
    ∗ semVal (recvCell c 5) 0
    ∗ semVal (recvCell c 6) 0
    ∗ semVal (recvCell c 7) 0
    ∗ semVal (recvCell c 8) 0
    ∗ semVal (recvCell c 9) 0
    ∗ semVal (recvCell c 10) 0
    ∗ semVal (recvCell c 11) 0
    ∗ semVal (recvCell c 12) 0
    ∗ semVal (recvCell c 13) 0
    ∗ semVal (recvCell c 14) 0
    ∗ semVal (recvCell c 15) 0
    ∗ semVal (recvCell c 16) 0
    ∗ semVal (recvCell c 17) 0
    ∗ semVal (recvCell c 18) 0
    ∗ semVal (recvCell c 19) 0
    ∗ semVal (recvCell c 20) 0
    ∗ semVal (recvCell c 21) 0
    ∗ semVal (recvCell c 22) 0
    ∗ semVal (recvCell c 23) 0
    ∗ semVal (recvCell c 24) 0
    ∗ semVal (recvCell c 25) 0
    ∗ semVal (recvCell c 26) 0
    ∗ semVal (recvCell c 27) 0
    ∗ semVal (recvCell c 28) 0
    ∗ semVal (recvCell c 29) 0)

-- The debt at launch is the sum of its fifty tallies, the last payment first.
set_option maxRecDepth 65536 in
theorem O₀_flat (c : Dev nD) : O₀ c = 0 + tallyAt (exitCell (partner c 9)) () 1 + tallyAt (exitCell (partner c 8)) () 1 + tallyAt (exitCell (partner c 7)) () 1 + tallyAt (exitCell (partner c 6)) () 1 + tallyAt (exitCell (partner c 5)) () 1 + tallyAt (exitCell (partner c 4)) () 1 + tallyAt (exitCell (partner c 3)) () 1 + tallyAt (exitCell (partner c 2)) () 1 + tallyAt (exitCell (partner c 1)) () 1 + tallyAt (exitCell (partner c 0)) () 1 + tallyAt (recvCell (partner c 9) 29) () N + tallyAt (recvCell (partner c 8) 28) () N + tallyAt (recvCell (partner c 7) 27) () N + tallyAt (recvCell (partner c 6) 26) () N + tallyAt (recvCell (partner c 5) 25) () N + tallyAt (recvCell (partner c 4) 24) () N + tallyAt (recvCell (partner c 3) 23) () N + tallyAt (recvCell (partner c 2) 22) () N + tallyAt (recvCell (partner c 1) 21) () N + tallyAt (recvCell (partner c 0) 20) () N + tallyAt (recvCell (partner c 9) 19) () N + tallyAt (recvCell (partner c 8) 18) () N + tallyAt (recvCell (partner c 7) 17) () N + tallyAt (recvCell (partner c 6) 16) () N + tallyAt (recvCell (partner c 5) 15) () N + tallyAt (recvCell (partner c 4) 14) () N + tallyAt (recvCell (partner c 3) 13) () N + tallyAt (recvCell (partner c 2) 12) () N + tallyAt (recvCell (partner c 1) 11) () N + tallyAt (recvCell (partner c 0) 10) () N + tallyAt (recvCell (partner c 9) 9) () N + tallyAt (recvCell (partner c 8) 8) () N + tallyAt (recvCell (partner c 7) 7) () N + tallyAt (recvCell (partner c 6) 6) () N + tallyAt (recvCell (partner c 5) 5) () N + tallyAt (recvCell (partner c 4) 4) () N + tallyAt (recvCell (partner c 3) 3) () N + tallyAt (recvCell (partner c 2) 2) () N + tallyAt (recvCell (partner c 1) 1) () N + tallyAt (recvCell (partner c 0) 0) () N + tallyAt (barCell (partner c 9)) () 1 + tallyAt (barCell (partner c 8)) () 1 + tallyAt (barCell (partner c 7)) () 1 + tallyAt (barCell (partner c 6)) () 1 + tallyAt (barCell (partner c 5)) () 1 + tallyAt (barCell (partner c 4)) () 1 + tallyAt (barCell (partner c 3)) () 1 + tallyAt (barCell (partner c 2)) () 1 + tallyAt (barCell (partner c 1)) () 1 + tallyAt (barCell (partner c 0)) () 1 := rfl

-- From the records: the invariants of slot k's send and receive cells on d and of the receive cell on p that d's copy k pays, and that the two cells d pays are at round 0.
theorem recs_slot (K : Dev nD × CK → ℕ) (d p : Dev nD) (k : Fin 30) : records m K ⊢ iprop(
    cellInv ER (RdK m) (K (d, CK.send k)) (sendCell d k) ∗ cellInv ER (RdK m) (K (d, CK.recv k)) (recvCell d k)
    ∗ cellInv ER (RdK m) (K (p, CK.recv k)) (recvCell p k) ∗ reached ER (recvCell p k) 0 ∗ reached ER (sendCell d k) 0) := by
  iintro #H
  isplitr; · iapply (inv_at m K (d, CK.send k)); iexact H
  isplitr; · iapply (inv_at m K (d, CK.recv k)); iexact H
  isplitr; · iapply (inv_at m K (p, CK.recv k)); iexact H
  isplitr; · iapply (reached_at m K (p, CK.recv k)); iexact H
  iapply (reached_at m K (d, CK.send k)); iexact H

-- From the records: the invariants of one device's barrier and exit cells, and that both are at round 0.
theorem recs_gate (K : Dev nD × CK → ℕ) (p : Dev nD) : records m K ⊢ iprop(
    cellInv ER (RdK m) (K (p, CK.bar)) (barCell p) ∗ cellInv ER (RdK m) (K (p, CK.exit)) (exitCell p)
    ∗ reached ER (barCell p) 0 ∗ reached ER (exitCell p) 0) := by
  iintro #H
  isplitr; · iapply (inv_at m K (p, CK.bar)); iexact H
  isplitr; · iapply (inv_at m K (p, CK.exit)); iexact H
  isplitr; · iapply (reached_at m K (p, CK.bar)); iexact H
  iapply (reached_at m K (p, CK.exit)); iexact H

-- One device's body from the resources as they are grouped at launch: the persistent facts are read off the records first, then the positions, tokens, credits and slots are opened one hypothesis each.
set_option maxHeartbeats 3000000 in
set_option maxRecDepth 65536 in
theorem sound_body (Kn : Dev nD × CK → ℕ) (c : Dev nD) (W : Waits sig Unit)
    (g7 : Buf (Elt F) ((c : Thread nD τ).loc cc0_stg7_0))
    (fs0 : Buf (Elt F) ((c : Thread nD τ).loc cc0_scratch0)) (fr : Buf (Elt F) ((c : Thread nD τ).loc cc0_scratch1))
    (Q : PUnit → sProp 𝕄) :
    iprop(records m Kn ∗ levAts L lv ∗ ownPos c ∗ payToks c ∗ creds c ∗ owes (c : Thread nD τ) (O₀ c) W
      ∗ ((Memref.whole cc0_stg0_0 : Memref sig .tc .vmem S128x128 .f32).view.loc (c : Thread nD τ) ↦{fullShare} (argsOf m c).x)
      ∗ ((Memref.whole cc0_stg1_0 : Memref sig .tc .vmem S128x256 .f32).view.loc (c : Thread nD τ) ↦{fullShare} (argsOf m c).w0)
      ∗ ((Memref.whole cc0_stg2_0 : Memref sig .tc .vmem S256x128 .f32).view.loc (c : Thread nD τ) ↦{fullShare} (argsOf m c).o0)
      ∗ ((Memref.whole cc0_stg3_0 : Memref sig .tc .vmem S128x256 .f32).view.loc (c : Thread nD τ) ↦{fullShare} (argsOf m c).w1)
      ∗ ((Memref.whole cc0_stg4_0 : Memref sig .tc .vmem S256x128 .f32).view.loc (c : Thread nD τ) ↦{fullShare} (argsOf m c).o1)
      ∗ ((Memref.whole cc0_stg5_0 : Memref sig .tc .vmem S128x256 .f32).view.loc (c : Thread nD τ) ↦{fullShare} (argsOf m c).w2)
      ∗ ((Memref.whole cc0_stg6_0 : Memref sig .tc .vmem S256x128 .f32).view.loc (c : Thread nD τ) ↦{fullShare} (argsOf m c).o2)
      ∗ ((Memref.whole cc0_stg7_0 : Memref sig .tc .vmem S128x128 .f32).view.loc (c : Thread nD τ) ↦{fullShare} g7)
      ∗ (((c : Thread nD τ).loc cc0_scratch0) ↦{fullShare} fs0)
      ∗ (((c : Thread nD τ).loc cc0_scratch1) ↦{fullShare} fr)
      ∗ (bodyPost m c -∗ Q ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_scratch0) (Memref.isWhole_whole _) (Memref.whole cc0_scratch1) (Memref.isWhole_whole _)
            cc0_scratch2 cc0_scratch3 cc0_scoped0) Q := by
  have hS := (send_split (F := F) c fs0).1
  have hR := (recv_split (F := F) c fr).1
  rw [bigSep_fin6] at hS; rw [bigSep_fin30] at hR
  unfold sendPts at hS; unfold recvPts at hR
  unfold ownPos payToks creds
  rw [O₀_flat c, bigSep_fin30, bigSep_fin30, bigSep_fin30, bigSep_fin30, bigSep_fin30, bigSep_fin10, bigSep_fin10]
  iintro ⟨#Hrec, Hrest⟩
  ihave ⟨#HIbar, #HIexit, -, -⟩ := recs_gate m Kn c $$ Hrec
  ihave ⟨#HPb0, #HPe0, #HRb0, #HRe0⟩ := recs_gate m Kn (partner c 0) $$ Hrec
  ihave ⟨#HPb1, #HPe1, #HRb1, #HRe1⟩ := recs_gate m Kn (partner c 1) $$ Hrec
  ihave ⟨#HPb2, #HPe2, #HRb2, #HRe2⟩ := recs_gate m Kn (partner c 2) $$ Hrec
  ihave ⟨#HPb3, #HPe3, #HRb3, #HRe3⟩ := recs_gate m Kn (partner c 3) $$ Hrec
  ihave ⟨#HPb4, #HPe4, #HRb4, #HRe4⟩ := recs_gate m Kn (partner c 4) $$ Hrec
  ihave ⟨#HPb5, #HPe5, #HRb5, #HRe5⟩ := recs_gate m Kn (partner c 5) $$ Hrec
  ihave ⟨#HPb6, #HPe6, #HRb6, #HRe6⟩ := recs_gate m Kn (partner c 6) $$ Hrec
  ihave ⟨#HPb7, #HPe7, #HRb7, #HRe7⟩ := recs_gate m Kn (partner c 7) $$ Hrec
  ihave ⟨#HPb8, #HPe8, #HRb8, #HRe8⟩ := recs_gate m Kn (partner c 8) $$ Hrec
  ihave ⟨#HPb9, #HPe9, #HRb9, #HRe9⟩ := recs_gate m Kn (partner c 9) $$ Hrec
  ihave ⟨#HIs0, #HIr0, #HPr0, #HRr0, #HRs0⟩ := recs_slot m Kn c (partner c 0) 0 $$ Hrec
  ihave ⟨#HIs1, #HIr1, #HPr1, #HRr1, #HRs1⟩ := recs_slot m Kn c (partner c 1) 1 $$ Hrec
  ihave ⟨#HIs2, #HIr2, #HPr2, #HRr2, #HRs2⟩ := recs_slot m Kn c (partner c 2) 2 $$ Hrec
  ihave ⟨#HIs3, #HIr3, #HPr3, #HRr3, #HRs3⟩ := recs_slot m Kn c (partner c 3) 3 $$ Hrec
  ihave ⟨#HIs4, #HIr4, #HPr4, #HRr4, #HRs4⟩ := recs_slot m Kn c (partner c 4) 4 $$ Hrec
  ihave ⟨#HIs5, #HIr5, #HPr5, #HRr5, #HRs5⟩ := recs_slot m Kn c (partner c 5) 5 $$ Hrec
  ihave ⟨#HIs6, #HIr6, #HPr6, #HRr6, #HRs6⟩ := recs_slot m Kn c (partner c 6) 6 $$ Hrec
  ihave ⟨#HIs7, #HIr7, #HPr7, #HRr7, #HRs7⟩ := recs_slot m Kn c (partner c 7) 7 $$ Hrec
  ihave ⟨#HIs8, #HIr8, #HPr8, #HRr8, #HRs8⟩ := recs_slot m Kn c (partner c 8) 8 $$ Hrec
  ihave ⟨#HIs9, #HIr9, #HPr9, #HRr9, #HRs9⟩ := recs_slot m Kn c (partner c 9) 9 $$ Hrec
  ihave ⟨#HIs10, #HIr10, #HPr10, #HRr10, #HRs10⟩ := recs_slot m Kn c (partner c 0) 10 $$ Hrec
  ihave ⟨#HIs11, #HIr11, #HPr11, #HRr11, #HRs11⟩ := recs_slot m Kn c (partner c 1) 11 $$ Hrec
  ihave ⟨#HIs12, #HIr12, #HPr12, #HRr12, #HRs12⟩ := recs_slot m Kn c (partner c 2) 12 $$ Hrec
  ihave ⟨#HIs13, #HIr13, #HPr13, #HRr13, #HRs13⟩ := recs_slot m Kn c (partner c 3) 13 $$ Hrec
  ihave ⟨#HIs14, #HIr14, #HPr14, #HRr14, #HRs14⟩ := recs_slot m Kn c (partner c 4) 14 $$ Hrec
  ihave ⟨#HIs15, #HIr15, #HPr15, #HRr15, #HRs15⟩ := recs_slot m Kn c (partner c 5) 15 $$ Hrec
  ihave ⟨#HIs16, #HIr16, #HPr16, #HRr16, #HRs16⟩ := recs_slot m Kn c (partner c 6) 16 $$ Hrec
  ihave ⟨#HIs17, #HIr17, #HPr17, #HRr17, #HRs17⟩ := recs_slot m Kn c (partner c 7) 17 $$ Hrec
  ihave ⟨#HIs18, #HIr18, #HPr18, #HRr18, #HRs18⟩ := recs_slot m Kn c (partner c 8) 18 $$ Hrec
  ihave ⟨#HIs19, #HIr19, #HPr19, #HRr19, #HRs19⟩ := recs_slot m Kn c (partner c 9) 19 $$ Hrec
  ihave ⟨#HIs20, #HIr20, #HPr20, #HRr20, #HRs20⟩ := recs_slot m Kn c (partner c 0) 20 $$ Hrec
  ihave ⟨#HIs21, #HIr21, #HPr21, #HRr21, #HRs21⟩ := recs_slot m Kn c (partner c 1) 21 $$ Hrec
  ihave ⟨#HIs22, #HIr22, #HPr22, #HRr22, #HRs22⟩ := recs_slot m Kn c (partner c 2) 22 $$ Hrec
  ihave ⟨#HIs23, #HIr23, #HPr23, #HRr23, #HRs23⟩ := recs_slot m Kn c (partner c 3) 23 $$ Hrec
  ihave ⟨#HIs24, #HIr24, #HPr24, #HRr24, #HRs24⟩ := recs_slot m Kn c (partner c 4) 24 $$ Hrec
  ihave ⟨#HIs25, #HIr25, #HPr25, #HRr25, #HRs25⟩ := recs_slot m Kn c (partner c 5) 25 $$ Hrec
  ihave ⟨#HIs26, #HIr26, #HPr26, #HRr26, #HRs26⟩ := recs_slot m Kn c (partner c 6) 26 $$ Hrec
  ihave ⟨#HIs27, #HIr27, #HPr27, #HRr27, #HRs27⟩ := recs_slot m Kn c (partner c 7) 27 $$ Hrec
  ihave ⟨#HIs28, #HIr28, #HPr28, #HRr28, #HRs28⟩ := recs_slot m Kn c (partner c 8) 28 $$ Hrec
  ihave ⟨#HIs29, #HIr29, #HPr29, #HRr29, #HRs29⟩ := recs_slot m Kn c (partner c 9) 29 $$ Hrec
  icases Hrest with ⟨#Hlev, ⟨HaB, HaE, ⟨HaS0, HaS1, HaS2, HaS3, HaS4, HaS5, HaS6, HaS7, HaS8, HaS9, HaS10, HaS11, HaS12, HaS13, HaS14, HaS15, HaS16, HaS17, HaS18, HaS19, HaS20, HaS21, HaS22, HaS23, HaS24, HaS25, HaS26, HaS27, HaS28, HaS29⟩, ⟨HaR0, HaR1, HaR2, HaR3, HaR4, HaR5, HaR6, HaR7, HaR8, HaR9, HaR10, HaR11, HaR12, HaR13, HaR14, HaR15, HaR16, HaR17, HaR18, HaR19, HaR20, HaR21, HaR22, HaR23, HaR24, HaR25, HaR26, HaR27, HaR28, HaR29⟩⟩, ⟨⟨HtB0, HtB1, HtB2, HtB3, HtB4, HtB5, HtB6, HtB7, HtB8, HtB9⟩, ⟨HtR0, HtR1, HtR2, HtR3, HtR4, HtR5, HtR6, HtR7, HtR8, HtR9, HtR10, HtR11, HtR12, HtR13, HtR14, HtR15, HtR16, HtR17, HtR18, HtR19, HtR20, HtR21, HtR22, HtR23, HtR24, HtR25, HtR26, HtR27, HtR28, HtR29⟩, ⟨HtS0, HtS1, HtS2, HtS3, HtS4, HtS5, HtS6, HtS7, HtS8, HtS9, HtS10, HtS11, HtS12, HtS13, HtS14, HtS15, HtS16, HtS17, HtS18, HtS19, HtS20, HtS21, HtS22, HtS23, HtS24, HtS25, HtS26, HtS27, HtS28, HtS29⟩, ⟨HtE0, HtE1, HtE2, HtE3, HtE4, HtE5, HtE6, HtE7, HtE8, HtE9⟩⟩, ⟨HcB, ⟨HcR0, HcR1, HcR2, HcR3, HcR4, HcR5, HcR6, HcR7, HcR8, HcR9, HcR10, HcR11, HcR12, HcR13, HcR14, HcR15, HcR16, HcR17, HcR18, HcR19, HcR20, HcR21, HcR22, HcR23, HcR24, HcR25, HcR26, HcR27, HcR28, HcR29⟩, HcE⟩, HO, Hg0, Hg1, Hg2, Hg3, Hg4, Hg5, Hg6, Hg7, Hs0, Hs1, Hk⟩
  ihave ⟨Hss0, Hss1, Hss2, Hss3, Hss4, Hss5⟩ := hS $$ Hs0
  ihave ⟨Hrs0, Hrs1, Hrs2, Hrs3, Hrs4, Hrs5, Hrs6, Hrs7, Hrs8, Hrs9, Hrs10, Hrs11, Hrs12, Hrs13, Hrs14, Hrs15, Hrs16, Hrs17, Hrs18, Hrs19, Hrs20, Hrs21, Hrs22, Hrs23, Hrs24, Hrs25, Hrs26, Hrs27, Hrs28, Hrs29⟩ := hR $$ Hs1
  clear hS hR
  irevert Hrs0 Hrs10 Hrs20 Hrs1 Hrs11 Hrs21 Hrs2 Hrs12 Hrs22 Hrs3 Hrs13 Hrs23 Hrs4 Hrs14 Hrs24 Hrs5 Hrs15 Hrs25 Hrs6 Hrs16 Hrs26 Hrs7 Hrs17 Hrs27 Hrs8 Hrs18 Hrs28 Hrs9 Hrs19 Hrs29
  iintro Hrs0 Hrs10 Hrs20 Hrs1 Hrs11 Hrs21 Hrs2 Hrs12 Hrs22 Hrs3 Hrs13 Hrs23 Hrs4 Hrs14 Hrs24 Hrs5 Hrs15 Hrs25 Hrs6 Hrs16 Hrs26 Hrs7 Hrs17 Hrs27 Hrs8 Hrs18 Hrs28 Hrs9 Hrs19 Hrs29
  have hmw40 : ∀ sm : SemLoc sig, (∀ i < 50, 50 - 40 ≤ i → lvS sm < lvPay i) → ((levAts L lv : sProp 𝕄) ⊢ MayWait (c : Thread nD τ) sm () (0 + tallyAt (exitCell (partner c 9)) () 1 + tallyAt (exitCell (partner c 8)) () 1 + tallyAt (exitCell (partner c 7)) () 1 + tallyAt (exitCell (partner c 6)) () 1 + tallyAt (exitCell (partner c 5)) () 1 + tallyAt (exitCell (partner c 4)) () 1 + tallyAt (exitCell (partner c 3)) () 1 + tallyAt (exitCell (partner c 2)) () 1 + tallyAt (exitCell (partner c 1)) () 1 + tallyAt (exitCell (partner c 0)) () 1 + tallyAt (recvCell (partner c 9) 29) () N + tallyAt (recvCell (partner c 8) 28) () N + tallyAt (recvCell (partner c 7) 27) () N + tallyAt (recvCell (partner c 6) 26) () N + tallyAt (recvCell (partner c 5) 25) () N + tallyAt (recvCell (partner c 4) 24) () N + tallyAt (recvCell (partner c 3) 23) () N + tallyAt (recvCell (partner c 2) 22) () N + tallyAt (recvCell (partner c 1) 21) () N + tallyAt (recvCell (partner c 0) 20) () N + tallyAt (recvCell (partner c 9) 19) () N + tallyAt (recvCell (partner c 8) 18) () N + tallyAt (recvCell (partner c 7) 17) () N + tallyAt (recvCell (partner c 6) 16) () N + tallyAt (recvCell (partner c 5) 15) () N + tallyAt (recvCell (partner c 4) 14) () N + tallyAt (recvCell (partner c 3) 13) () N + tallyAt (recvCell (partner c 2) 12) () N + tallyAt (recvCell (partner c 1) 11) () N + tallyAt (recvCell (partner c 0) 10) () N + tallyAt (recvCell (partner c 9) 9) () N + tallyAt (recvCell (partner c 8) 8) () N + tallyAt (recvCell (partner c 7) 7) () N + tallyAt (recvCell (partner c 6) 6) () N + tallyAt (recvCell (partner c 5) 5) () N + tallyAt (recvCell (partner c 4) 4) () N + tallyAt (recvCell (partner c 3) 3) () N + tallyAt (recvCell (partner c 2) 2) () N + tallyAt (recvCell (partner c 1) 1) () N + tallyAt (recvCell (partner c 0) 0) () N)) :=
    mayWait_flat c 40 _ (by simp only [owedK, payCell, payAmt, mk10, mk30]; rfl) (by decide)
  sl_exec_parts (disch := decide)
  clear hmw40

  ihave Hp := (bar_payloads m c) $$ HaB_pay1
  icases Hp with ⟨⟨⟨%fd0, Hd0⟩, ⟨%fd10, Hd10⟩, ⟨%fd20, Hd20⟩⟩, ⟨⟨%fd1, Hd1⟩, ⟨%fd11, Hd11⟩, ⟨%fd21, Hd21⟩⟩, ⟨⟨%fd2, Hd2⟩, ⟨%fd12, Hd12⟩, ⟨%fd22, Hd22⟩⟩, ⟨⟨%fd3, Hd3⟩, ⟨%fd13, Hd13⟩, ⟨%fd23, Hd23⟩⟩, ⟨⟨%fd4, Hd4⟩, ⟨%fd14, Hd14⟩, ⟨%fd24, Hd24⟩⟩, ⟨⟨%fd5, Hd5⟩, ⟨%fd15, Hd15⟩, ⟨%fd25, Hd25⟩⟩, ⟨⟨%fd6, Hd6⟩, ⟨%fd16, Hd16⟩, ⟨%fd26, Hd26⟩⟩, ⟨⟨%fd7, Hd7⟩, ⟨%fd17, Hd17⟩, ⟨%fd27, Hd27⟩⟩, ⟨⟨%fd8, Hd8⟩, ⟨%fd18, Hd18⟩, ⟨%fd28, Hd28⟩⟩, ⟨⟨%fd9, Hd9⟩, ⟨%fd19, Hd19⟩, ⟨%fd29, Hd29⟩⟩⟩

  ihave Hs := (send_prep7_raw m c 0 (sound_body.sl.Hss0_w1 m c fs0) (stored_gen m c 0 fs0 _ (val0 m c))) $$ Hss0
  icases Hs with ⟨Hq0, Hq1, Hq2, Hq3, Hq4, Hq5, Hq6, Hss0⟩

  iapply (step_send' m c 0 0 (by decide) 0 (by decide) (partner c 0) _ (partner_partner c 0) (dev11_eq c) (Kn (c, CK.send 0)) (Kn (partner c 0, CK.recv 0)) fd0 _ _) $$ [Hq0 Hd0 HO HtS0 HtR0]
  · isplitr; · iexact HIs0
    isplitr; · iexact HPr0
    isplitl [Hq0]; · iexact Hq0
    isplitl [Hd0]; · iexact Hd0
    isplitl [HO]; · iexact HO
    isplitl [HtS0]; · iexact HtS0
    isplitr; · iexact HRs0
    isplitl [HtR0]; · iexact HtR0
    iexact HRr0
  iintro ⟨HcS0, HO⟩
  sl_exec_parts (disch := decide)

  iapply (step_send' m c 1 0 (by decide) 1 (by decide) (partner c 1) _ (partner_partner c 1) (dev12_eq c) (Kn (c, CK.send 1)) (Kn (partner c 1, CK.recv 1)) fd1 _ _) $$ [Hq1 Hd1 HO HtS1 HtR1]
  · isplitr; · iexact HIs1
    isplitr; · iexact HPr1
    isplitl [Hq1]; · iexact Hq1
    isplitl [Hd1]; · iexact Hd1
    isplitl [HO]; · iexact HO
    isplitl [HtS1]; · iexact HtS1
    isplitr; · iexact HRs1
    isplitl [HtR1]; · iexact HtR1
    iexact HRr1
  iintro ⟨HcS1, HO⟩
  sl_exec_parts (disch := decide)

  iapply (step_send' m c 2 0 (by decide) 2 (by decide) (partner c 2) _ (partner_partner c 2) (dev13_eq c) (Kn (c, CK.send 2)) (Kn (partner c 2, CK.recv 2)) fd2 _ _) $$ [Hq2 Hd2 HO HtS2 HtR2]
  · isplitr; · iexact HIs2
    isplitr; · iexact HPr2
    isplitl [Hq2]; · iexact Hq2
    isplitl [Hd2]; · iexact Hd2
    isplitl [HO]; · iexact HO
    isplitl [HtS2]; · iexact HtS2
    isplitr; · iexact HRs2
    isplitl [HtR2]; · iexact HtR2
    iexact HRr2
  iintro ⟨HcS2, HO⟩
  sl_exec_parts (disch := decide)

  iapply (step_send' m c 3 0 (by decide) 3 (by decide) (partner c 3) _ (partner_partner c 3) (dev14_eq c) (Kn (c, CK.send 3)) (Kn (partner c 3, CK.recv 3)) fd3 _ _) $$ [Hq3 Hd3 HO HtS3 HtR3]
  · isplitr; · iexact HIs3
    isplitr; · iexact HPr3
    isplitl [Hq3]; · iexact Hq3
    isplitl [Hd3]; · iexact Hd3
    isplitl [HO]; · iexact HO
    isplitl [HtS3]; · iexact HtS3
    isplitr; · iexact HRs3
    isplitl [HtR3]; · iexact HtR3
    iexact HRr3
  iintro ⟨HcS3, HO⟩
  sl_exec_parts (disch := decide)

  iapply (step_send' m c 4 0 (by decide) 4 (by decide) (partner c 4) _ (partner_partner c 4) (dev15_eq c) (Kn (c, CK.send 4)) (Kn (partner c 4, CK.recv 4)) fd4 _ _) $$ [Hq4 Hd4 HO HtS4 HtR4]
  · isplitr; · iexact HIs4
    isplitr; · iexact HPr4
    isplitl [Hq4]; · iexact Hq4
    isplitl [Hd4]; · iexact Hd4
    isplitl [HO]; · iexact HO
    isplitl [HtS4]; · iexact HtS4
    isplitr; · iexact HRs4
    isplitl [HtR4]; · iexact HtR4
    iexact HRr4
  iintro ⟨HcS4, HO⟩
  sl_exec_parts (disch := decide)

  iapply (step_send' m c 5 0 (by decide) 5 (by decide) (partner c 5) _ (partner_partner c 5) (dev16_eq c) (Kn (c, CK.send 5)) (Kn (partner c 5, CK.recv 5)) fd5 _ _) $$ [Hq5 Hd5 HO HtS5 HtR5]
  · isplitr; · iexact HIs5
    isplitr; · iexact HPr5
    isplitl [Hq5]; · iexact Hq5
    isplitl [Hd5]; · iexact Hd5
    isplitl [HO]; · iexact HO
    isplitl [HtS5]; · iexact HtS5
    isplitr; · iexact HRs5
    isplitl [HtR5]; · iexact HtR5
    iexact HRr5
  iintro ⟨HcS5, HO⟩
  sl_exec_parts (disch := decide)

  iapply (step_send' m c 6 0 (by decide) 6 (by decide) (partner c 6) _ (partner_partner c 6) (dev17_eq c) (Kn (c, CK.send 6)) (Kn (partner c 6, CK.recv 6)) fd6 _ _) $$ [Hq6 Hd6 HO HtS6 HtR6]
  · isplitr; · iexact HIs6
    isplitr; · iexact HPr6
    isplitl [Hq6]; · iexact Hq6
    isplitl [Hd6]; · iexact Hd6
    isplitl [HO]; · iexact HO
    isplitl [HtS6]; · iexact HtS6
    isplitr; · iexact HRs6
    isplitl [HtR6]; · iexact HtR6
    iexact HRr6
  iintro ⟨HcS6, HO⟩
  have hmw33 : ∀ sm : SemLoc sig, (∀ i < 50, 50 - 33 ≤ i → lvS sm < lvPay i) → ((levAts L lv : sProp 𝕄) ⊢ MayWait (c : Thread nD τ) sm () (0 + tallyAt (exitCell (partner c 9)) () 1 + tallyAt (exitCell (partner c 8)) () 1 + tallyAt (exitCell (partner c 7)) () 1 + tallyAt (exitCell (partner c 6)) () 1 + tallyAt (exitCell (partner c 5)) () 1 + tallyAt (exitCell (partner c 4)) () 1 + tallyAt (exitCell (partner c 3)) () 1 + tallyAt (exitCell (partner c 2)) () 1 + tallyAt (exitCell (partner c 1)) () 1 + tallyAt (exitCell (partner c 0)) () 1 + tallyAt (recvCell (partner c 9) 29) () N + tallyAt (recvCell (partner c 8) 28) () N + tallyAt (recvCell (partner c 7) 27) () N + tallyAt (recvCell (partner c 6) 26) () N + tallyAt (recvCell (partner c 5) 25) () N + tallyAt (recvCell (partner c 4) 24) () N + tallyAt (recvCell (partner c 3) 23) () N + tallyAt (recvCell (partner c 2) 22) () N + tallyAt (recvCell (partner c 1) 21) () N + tallyAt (recvCell (partner c 0) 20) () N + tallyAt (recvCell (partner c 9) 19) () N + tallyAt (recvCell (partner c 8) 18) () N + tallyAt (recvCell (partner c 7) 17) () N + tallyAt (recvCell (partner c 6) 16) () N + tallyAt (recvCell (partner c 5) 15) () N + tallyAt (recvCell (partner c 4) 14) () N + tallyAt (recvCell (partner c 3) 13) () N + tallyAt (recvCell (partner c 2) 12) () N + tallyAt (recvCell (partner c 1) 11) () N + tallyAt (recvCell (partner c 0) 10) () N + tallyAt (recvCell (partner c 9) 9) () N + tallyAt (recvCell (partner c 8) 8) () N + tallyAt (recvCell (partner c 7) 7) () N)) :=
    mayWait_flat c 33 _ (by simp only [owedK, payCell, payAmt, mk10, mk30]; rfl) (by decide)
  sl_exec_parts (disch := decide)
  clear hmw33

  ihave Hs := (send_prep3_raw m c 1 (sound_body.sl.Hss1_w1 m c fs0) (stored_gen m c 1 fs0 _ (val1 m c))) $$ Hss1
  icases Hs with ⟨Hq7, Hq8, Hq9, Hss1⟩

  iapply (step_send' m c 7 1 (by decide) 0 (by decide) (partner c 7) _ (partner_partner c 7) (dev18_eq c) (Kn (c, CK.send 7)) (Kn (partner c 7, CK.recv 7)) fd7 _ _) $$ [Hq7 Hd7 HO HtS7 HtR7]
  · isplitr; · iexact HIs7
    isplitr; · iexact HPr7
    isplitl [Hq7]; · iexact Hq7
    isplitl [Hd7]; · iexact Hd7
    isplitl [HO]; · iexact HO
    isplitl [HtS7]; · iexact HtS7
    isplitr; · iexact HRs7
    isplitl [HtR7]; · iexact HtR7
    iexact HRr7
  iintro ⟨HcS7, HO⟩
  sl_exec_parts (disch := decide)

  iapply (step_send' m c 8 1 (by decide) 1 (by decide) (partner c 8) _ (partner_partner c 8) (dev19_eq c) (Kn (c, CK.send 8)) (Kn (partner c 8, CK.recv 8)) fd8 _ _) $$ [Hq8 Hd8 HO HtS8 HtR8]
  · isplitr; · iexact HIs8
    isplitr; · iexact HPr8
    isplitl [Hq8]; · iexact Hq8
    isplitl [Hd8]; · iexact Hd8
    isplitl [HO]; · iexact HO
    isplitl [HtS8]; · iexact HtS8
    isplitr; · iexact HRs8
    isplitl [HtR8]; · iexact HtR8
    iexact HRr8
  iintro ⟨HcS8, HO⟩
  sl_exec_parts (disch := decide)

  iapply (step_send' m c 9 1 (by decide) 2 (by decide) (partner c 9) _ (partner_partner c 9) (dev20_eq c) (Kn (c, CK.send 9)) (Kn (partner c 9, CK.recv 9)) fd9 _ _) $$ [Hq9 Hd9 HO HtS9 HtR9]
  · isplitr; · iexact HIs9
    isplitr; · iexact HPr9
    isplitl [Hq9]; · iexact Hq9
    isplitl [Hd9]; · iexact Hd9
    isplitl [HO]; · iexact HO
    isplitl [HtS9]; · iexact HtS9
    isplitr; · iexact HRs9
    isplitl [HtR9]; · iexact HtR9
    iexact HRr9
  iintro ⟨HcS9, HO⟩
  have hmw30 : ∀ sm : SemLoc sig, (∀ i < 50, 50 - 30 ≤ i → lvS sm < lvPay i) → ((levAts L lv : sProp 𝕄) ⊢ MayWait (c : Thread nD τ) sm () (0 + tallyAt (exitCell (partner c 9)) () 1 + tallyAt (exitCell (partner c 8)) () 1 + tallyAt (exitCell (partner c 7)) () 1 + tallyAt (exitCell (partner c 6)) () 1 + tallyAt (exitCell (partner c 5)) () 1 + tallyAt (exitCell (partner c 4)) () 1 + tallyAt (exitCell (partner c 3)) () 1 + tallyAt (exitCell (partner c 2)) () 1 + tallyAt (exitCell (partner c 1)) () 1 + tallyAt (exitCell (partner c 0)) () 1 + tallyAt (recvCell (partner c 9) 29) () N + tallyAt (recvCell (partner c 8) 28) () N + tallyAt (recvCell (partner c 7) 27) () N + tallyAt (recvCell (partner c 6) 26) () N + tallyAt (recvCell (partner c 5) 25) () N + tallyAt (recvCell (partner c 4) 24) () N + tallyAt (recvCell (partner c 3) 23) () N + tallyAt (recvCell (partner c 2) 22) () N + tallyAt (recvCell (partner c 1) 21) () N + tallyAt (recvCell (partner c 0) 20) () N + tallyAt (recvCell (partner c 9) 19) () N + tallyAt (recvCell (partner c 8) 18) () N + tallyAt (recvCell (partner c 7) 17) () N + tallyAt (recvCell (partner c 6) 16) () N + tallyAt (recvCell (partner c 5) 15) () N + tallyAt (recvCell (partner c 4) 14) () N + tallyAt (recvCell (partner c 3) 13) () N + tallyAt (recvCell (partner c 2) 12) () N + tallyAt (recvCell (partner c 1) 11) () N + tallyAt (recvCell (partner c 0) 10) () N)) :=
    mayWait_flat c 30 _ (by simp only [owedK, payCell, payAmt, mk10, mk30]; rfl) (by decide)
  sl_exec_parts (disch := decide)
  clear hmw30

  ihave Hs := (send_prep7_raw m c 2 (sound_body.sl.Hss2_w1 m c fs0) (stored_gen m c 2 fs0 _ (val2 m c))) $$ Hss2
  icases Hs with ⟨Hq10, Hq11, Hq12, Hq13, Hq14, Hq15, Hq16, Hss2⟩

  iapply (step_send' m c 10 2 (by decide) 0 (by decide) (partner c 0) _ (partner_partner c 0) (dev21_eq c) (Kn (c, CK.send 10)) (Kn (partner c 0, CK.recv 10)) fd10 _ _) $$ [Hq10 Hd10 HO HtS10 HtR10]
  · isplitr; · iexact HIs10
    isplitr; · iexact HPr10
    isplitl [Hq10]; · iexact Hq10
    isplitl [Hd10]; · iexact Hd10
    isplitl [HO]; · iexact HO
    isplitl [HtS10]; · iexact HtS10
    isplitr; · iexact HRs10
    isplitl [HtR10]; · iexact HtR10
    iexact HRr10
  iintro ⟨HcS10, HO⟩
  sl_exec_parts (disch := decide)

  iapply (step_send' m c 11 2 (by decide) 1 (by decide) (partner c 1) _ (partner_partner c 1) (dev22_eq c) (Kn (c, CK.send 11)) (Kn (partner c 1, CK.recv 11)) fd11 _ _) $$ [Hq11 Hd11 HO HtS11 HtR11]
  · isplitr; · iexact HIs11
    isplitr; · iexact HPr11
    isplitl [Hq11]; · iexact Hq11
    isplitl [Hd11]; · iexact Hd11
    isplitl [HO]; · iexact HO
    isplitl [HtS11]; · iexact HtS11
    isplitr; · iexact HRs11
    isplitl [HtR11]; · iexact HtR11
    iexact HRr11
  iintro ⟨HcS11, HO⟩
  sl_exec_parts (disch := decide)

  iapply (step_send' m c 12 2 (by decide) 2 (by decide) (partner c 2) _ (partner_partner c 2) (dev23_eq c) (Kn (c, CK.send 12)) (Kn (partner c 2, CK.recv 12)) fd12 _ _) $$ [Hq12 Hd12 HO HtS12 HtR12]
  · isplitr; · iexact HIs12
    isplitr; · iexact HPr12
    isplitl [Hq12]; · iexact Hq12
    isplitl [Hd12]; · iexact Hd12
    isplitl [HO]; · iexact HO
    isplitl [HtS12]; · iexact HtS12
    isplitr; · iexact HRs12
    isplitl [HtR12]; · iexact HtR12
    iexact HRr12
  iintro ⟨HcS12, HO⟩
  sl_exec_parts (disch := decide)

  iapply (step_send' m c 13 2 (by decide) 3 (by decide) (partner c 3) _ (partner_partner c 3) (dev24_eq c) (Kn (c, CK.send 13)) (Kn (partner c 3, CK.recv 13)) fd13 _ _) $$ [Hq13 Hd13 HO HtS13 HtR13]
  · isplitr; · iexact HIs13
    isplitr; · iexact HPr13
    isplitl [Hq13]; · iexact Hq13
    isplitl [Hd13]; · iexact Hd13
    isplitl [HO]; · iexact HO
    isplitl [HtS13]; · iexact HtS13
    isplitr; · iexact HRs13
    isplitl [HtR13]; · iexact HtR13
    iexact HRr13
  iintro ⟨HcS13, HO⟩
  sl_exec_parts (disch := decide)

  iapply (step_send' m c 14 2 (by decide) 4 (by decide) (partner c 4) _ (partner_partner c 4) (dev25_eq c) (Kn (c, CK.send 14)) (Kn (partner c 4, CK.recv 14)) fd14 _ _) $$ [Hq14 Hd14 HO HtS14 HtR14]
  · isplitr; · iexact HIs14
    isplitr; · iexact HPr14
    isplitl [Hq14]; · iexact Hq14
    isplitl [Hd14]; · iexact Hd14
    isplitl [HO]; · iexact HO
    isplitl [HtS14]; · iexact HtS14
    isplitr; · iexact HRs14
    isplitl [HtR14]; · iexact HtR14
    iexact HRr14
  iintro ⟨HcS14, HO⟩
  sl_exec_parts (disch := decide)

  iapply (step_send' m c 15 2 (by decide) 5 (by decide) (partner c 5) _ (partner_partner c 5) (dev26_eq c) (Kn (c, CK.send 15)) (Kn (partner c 5, CK.recv 15)) fd15 _ _) $$ [Hq15 Hd15 HO HtS15 HtR15]
  · isplitr; · iexact HIs15
    isplitr; · iexact HPr15
    isplitl [Hq15]; · iexact Hq15
    isplitl [Hd15]; · iexact Hd15
    isplitl [HO]; · iexact HO
    isplitl [HtS15]; · iexact HtS15
    isplitr; · iexact HRs15
    isplitl [HtR15]; · iexact HtR15
    iexact HRr15
  iintro ⟨HcS15, HO⟩
  sl_exec_parts (disch := decide)

  iapply (step_send' m c 16 2 (by decide) 6 (by decide) (partner c 6) _ (partner_partner c 6) (dev27_eq c) (Kn (c, CK.send 16)) (Kn (partner c 6, CK.recv 16)) fd16 _ _) $$ [Hq16 Hd16 HO HtS16 HtR16]
  · isplitr; · iexact HIs16
    isplitr; · iexact HPr16
    isplitl [Hq16]; · iexact Hq16
    isplitl [Hd16]; · iexact Hd16
    isplitl [HO]; · iexact HO
    isplitl [HtS16]; · iexact HtS16
    isplitr; · iexact HRs16
    isplitl [HtR16]; · iexact HtR16
    iexact HRr16
  iintro ⟨HcS16, HO⟩
  have hmw23 : ∀ sm : SemLoc sig, (∀ i < 50, 50 - 23 ≤ i → lvS sm < lvPay i) → ((levAts L lv : sProp 𝕄) ⊢ MayWait (c : Thread nD τ) sm () (0 + tallyAt (exitCell (partner c 9)) () 1 + tallyAt (exitCell (partner c 8)) () 1 + tallyAt (exitCell (partner c 7)) () 1 + tallyAt (exitCell (partner c 6)) () 1 + tallyAt (exitCell (partner c 5)) () 1 + tallyAt (exitCell (partner c 4)) () 1 + tallyAt (exitCell (partner c 3)) () 1 + tallyAt (exitCell (partner c 2)) () 1 + tallyAt (exitCell (partner c 1)) () 1 + tallyAt (exitCell (partner c 0)) () 1 + tallyAt (recvCell (partner c 9) 29) () N + tallyAt (recvCell (partner c 8) 28) () N + tallyAt (recvCell (partner c 7) 27) () N + tallyAt (recvCell (partner c 6) 26) () N + tallyAt (recvCell (partner c 5) 25) () N + tallyAt (recvCell (partner c 4) 24) () N + tallyAt (recvCell (partner c 3) 23) () N + tallyAt (recvCell (partner c 2) 22) () N + tallyAt (recvCell (partner c 1) 21) () N + tallyAt (recvCell (partner c 0) 20) () N + tallyAt (recvCell (partner c 9) 19) () N + tallyAt (recvCell (partner c 8) 18) () N + tallyAt (recvCell (partner c 7) 17) () N)) :=
    mayWait_flat c 23 _ (by simp only [owedK, payCell, payAmt, mk10, mk30]; rfl) (by decide)
  sl_exec_parts (disch := decide)
  clear hmw23

  ihave Hs := (send_prep3_raw m c 3 (sound_body.sl.Hss3_w1 m c fs0) (stored_gen m c 3 fs0 _ (val3 m c))) $$ Hss3
  icases Hs with ⟨Hq17, Hq18, Hq19, Hss3⟩

  iapply (step_send' m c 17 3 (by decide) 0 (by decide) (partner c 7) _ (partner_partner c 7) (dev28_eq c) (Kn (c, CK.send 17)) (Kn (partner c 7, CK.recv 17)) fd17 _ _) $$ [Hq17 Hd17 HO HtS17 HtR17]
  · isplitr; · iexact HIs17
    isplitr; · iexact HPr17
    isplitl [Hq17]; · iexact Hq17
    isplitl [Hd17]; · iexact Hd17
    isplitl [HO]; · iexact HO
    isplitl [HtS17]; · iexact HtS17
    isplitr; · iexact HRs17
    isplitl [HtR17]; · iexact HtR17
    iexact HRr17
  iintro ⟨HcS17, HO⟩
  sl_exec_parts (disch := decide)

  iapply (step_send' m c 18 3 (by decide) 1 (by decide) (partner c 8) _ (partner_partner c 8) (dev29_eq c) (Kn (c, CK.send 18)) (Kn (partner c 8, CK.recv 18)) fd18 _ _) $$ [Hq18 Hd18 HO HtS18 HtR18]
  · isplitr; · iexact HIs18
    isplitr; · iexact HPr18
    isplitl [Hq18]; · iexact Hq18
    isplitl [Hd18]; · iexact Hd18
    isplitl [HO]; · iexact HO
    isplitl [HtS18]; · iexact HtS18
    isplitr; · iexact HRs18
    isplitl [HtR18]; · iexact HtR18
    iexact HRr18
  iintro ⟨HcS18, HO⟩
  sl_exec_parts (disch := decide)

  iapply (step_send' m c 19 3 (by decide) 2 (by decide) (partner c 9) _ (partner_partner c 9) (dev30_eq c) (Kn (c, CK.send 19)) (Kn (partner c 9, CK.recv 19)) fd19 _ _) $$ [Hq19 Hd19 HO HtS19 HtR19]
  · isplitr; · iexact HIs19
    isplitr; · iexact HPr19
    isplitl [Hq19]; · iexact Hq19
    isplitl [Hd19]; · iexact Hd19
    isplitl [HO]; · iexact HO
    isplitl [HtS19]; · iexact HtS19
    isplitr; · iexact HRs19
    isplitl [HtR19]; · iexact HtR19
    iexact HRr19
  iintro ⟨HcS19, HO⟩
  have hmw20 : ∀ sm : SemLoc sig, (∀ i < 50, 50 - 20 ≤ i → lvS sm < lvPay i) → ((levAts L lv : sProp 𝕄) ⊢ MayWait (c : Thread nD τ) sm () (0 + tallyAt (exitCell (partner c 9)) () 1 + tallyAt (exitCell (partner c 8)) () 1 + tallyAt (exitCell (partner c 7)) () 1 + tallyAt (exitCell (partner c 6)) () 1 + tallyAt (exitCell (partner c 5)) () 1 + tallyAt (exitCell (partner c 4)) () 1 + tallyAt (exitCell (partner c 3)) () 1 + tallyAt (exitCell (partner c 2)) () 1 + tallyAt (exitCell (partner c 1)) () 1 + tallyAt (exitCell (partner c 0)) () 1 + tallyAt (recvCell (partner c 9) 29) () N + tallyAt (recvCell (partner c 8) 28) () N + tallyAt (recvCell (partner c 7) 27) () N + tallyAt (recvCell (partner c 6) 26) () N + tallyAt (recvCell (partner c 5) 25) () N + tallyAt (recvCell (partner c 4) 24) () N + tallyAt (recvCell (partner c 3) 23) () N + tallyAt (recvCell (partner c 2) 22) () N + tallyAt (recvCell (partner c 1) 21) () N + tallyAt (recvCell (partner c 0) 20) () N)) :=
    mayWait_flat c 20 _ (by simp only [owedK, payCell, payAmt, mk10, mk30]; rfl) (by decide)
  sl_exec_parts (disch := decide)
  clear hmw20

  ihave Hs := (send_prep7_raw m c 4 (sound_body.sl.Hss4_w1 m c fs0) (stored_gen m c 4 fs0 _ (val4 m c))) $$ Hss4
  icases Hs with ⟨Hq20, Hq21, Hq22, Hq23, Hq24, Hq25, Hq26, Hss4⟩

  iapply (step_send' m c 20 4 (by decide) 0 (by decide) (partner c 0) _ (partner_partner c 0) (dev31_eq c) (Kn (c, CK.send 20)) (Kn (partner c 0, CK.recv 20)) fd20 _ _) $$ [Hq20 Hd20 HO HtS20 HtR20]
  · isplitr; · iexact HIs20
    isplitr; · iexact HPr20
    isplitl [Hq20]; · iexact Hq20
    isplitl [Hd20]; · iexact Hd20
    isplitl [HO]; · iexact HO
    isplitl [HtS20]; · iexact HtS20
    isplitr; · iexact HRs20
    isplitl [HtR20]; · iexact HtR20
    iexact HRr20
  iintro ⟨HcS20, HO⟩
  sl_exec_parts (disch := decide)

  iapply (step_send' m c 21 4 (by decide) 1 (by decide) (partner c 1) _ (partner_partner c 1) (dev32_eq c) (Kn (c, CK.send 21)) (Kn (partner c 1, CK.recv 21)) fd21 _ _) $$ [Hq21 Hd21 HO HtS21 HtR21]
  · isplitr; · iexact HIs21
    isplitr; · iexact HPr21
    isplitl [Hq21]; · iexact Hq21
    isplitl [Hd21]; · iexact Hd21
    isplitl [HO]; · iexact HO
    isplitl [HtS21]; · iexact HtS21
    isplitr; · iexact HRs21
    isplitl [HtR21]; · iexact HtR21
    iexact HRr21
  iintro ⟨HcS21, HO⟩
  sl_exec_parts (disch := decide)

  iapply (step_send' m c 22 4 (by decide) 2 (by decide) (partner c 2) _ (partner_partner c 2) (dev33_eq c) (Kn (c, CK.send 22)) (Kn (partner c 2, CK.recv 22)) fd22 _ _) $$ [Hq22 Hd22 HO HtS22 HtR22]
  · isplitr; · iexact HIs22
    isplitr; · iexact HPr22
    isplitl [Hq22]; · iexact Hq22
    isplitl [Hd22]; · iexact Hd22
    isplitl [HO]; · iexact HO
    isplitl [HtS22]; · iexact HtS22
    isplitr; · iexact HRs22
    isplitl [HtR22]; · iexact HtR22
    iexact HRr22
  iintro ⟨HcS22, HO⟩
  sl_exec_parts (disch := decide)

  iapply (step_send' m c 23 4 (by decide) 3 (by decide) (partner c 3) _ (partner_partner c 3) (dev34_eq c) (Kn (c, CK.send 23)) (Kn (partner c 3, CK.recv 23)) fd23 _ _) $$ [Hq23 Hd23 HO HtS23 HtR23]
  · isplitr; · iexact HIs23
    isplitr; · iexact HPr23
    isplitl [Hq23]; · iexact Hq23
    isplitl [Hd23]; · iexact Hd23
    isplitl [HO]; · iexact HO
    isplitl [HtS23]; · iexact HtS23
    isplitr; · iexact HRs23
    isplitl [HtR23]; · iexact HtR23
    iexact HRr23
  iintro ⟨HcS23, HO⟩
  sl_exec_parts (disch := decide)

  iapply (step_send' m c 24 4 (by decide) 4 (by decide) (partner c 4) _ (partner_partner c 4) (dev35_eq c) (Kn (c, CK.send 24)) (Kn (partner c 4, CK.recv 24)) fd24 _ _) $$ [Hq24 Hd24 HO HtS24 HtR24]
  · isplitr; · iexact HIs24
    isplitr; · iexact HPr24
    isplitl [Hq24]; · iexact Hq24
    isplitl [Hd24]; · iexact Hd24
    isplitl [HO]; · iexact HO
    isplitl [HtS24]; · iexact HtS24
    isplitr; · iexact HRs24
    isplitl [HtR24]; · iexact HtR24
    iexact HRr24
  iintro ⟨HcS24, HO⟩
  sl_exec_parts (disch := decide)

  iapply (step_send' m c 25 4 (by decide) 5 (by decide) (partner c 5) _ (partner_partner c 5) (dev36_eq c) (Kn (c, CK.send 25)) (Kn (partner c 5, CK.recv 25)) fd25 _ _) $$ [Hq25 Hd25 HO HtS25 HtR25]
  · isplitr; · iexact HIs25
    isplitr; · iexact HPr25
    isplitl [Hq25]; · iexact Hq25
    isplitl [Hd25]; · iexact Hd25
    isplitl [HO]; · iexact HO
    isplitl [HtS25]; · iexact HtS25
    isplitr; · iexact HRs25
    isplitl [HtR25]; · iexact HtR25
    iexact HRr25
  iintro ⟨HcS25, HO⟩
  sl_exec_parts (disch := decide)

  iapply (step_send' m c 26 4 (by decide) 6 (by decide) (partner c 6) _ (partner_partner c 6) (dev37_eq c) (Kn (c, CK.send 26)) (Kn (partner c 6, CK.recv 26)) fd26 _ _) $$ [Hq26 Hd26 HO HtS26 HtR26]
  · isplitr; · iexact HIs26
    isplitr; · iexact HPr26
    isplitl [Hq26]; · iexact Hq26
    isplitl [Hd26]; · iexact Hd26
    isplitl [HO]; · iexact HO
    isplitl [HtS26]; · iexact HtS26
    isplitr; · iexact HRs26
    isplitl [HtR26]; · iexact HtR26
    iexact HRr26
  iintro ⟨HcS26, HO⟩
  have hmw13 : ∀ sm : SemLoc sig, (∀ i < 50, 50 - 13 ≤ i → lvS sm < lvPay i) → ((levAts L lv : sProp 𝕄) ⊢ MayWait (c : Thread nD τ) sm () (0 + tallyAt (exitCell (partner c 9)) () 1 + tallyAt (exitCell (partner c 8)) () 1 + tallyAt (exitCell (partner c 7)) () 1 + tallyAt (exitCell (partner c 6)) () 1 + tallyAt (exitCell (partner c 5)) () 1 + tallyAt (exitCell (partner c 4)) () 1 + tallyAt (exitCell (partner c 3)) () 1 + tallyAt (exitCell (partner c 2)) () 1 + tallyAt (exitCell (partner c 1)) () 1 + tallyAt (exitCell (partner c 0)) () 1 + tallyAt (recvCell (partner c 9) 29) () N + tallyAt (recvCell (partner c 8) 28) () N + tallyAt (recvCell (partner c 7) 27) () N)) :=
    mayWait_flat c 13 _ (by simp only [owedK, payCell, payAmt, mk10, mk30]; rfl) (by decide)
  sl_exec_parts (disch := decide)
  clear hmw13

  ihave Hs := (send_prep3_raw m c 5 (sound_body.sl.Hss5_w1 m c fs0) (stored_gen m c 5 fs0 _ (val5 m c))) $$ Hss5
  icases Hs with ⟨Hq27, Hq28, Hq29, Hss5⟩

  iapply (step_send' m c 27 5 (by decide) 0 (by decide) (partner c 7) _ (partner_partner c 7) (dev38_eq c) (Kn (c, CK.send 27)) (Kn (partner c 7, CK.recv 27)) fd27 _ _) $$ [Hq27 Hd27 HO HtS27 HtR27]
  · isplitr; · iexact HIs27
    isplitr; · iexact HPr27
    isplitl [Hq27]; · iexact Hq27
    isplitl [Hd27]; · iexact Hd27
    isplitl [HO]; · iexact HO
    isplitl [HtS27]; · iexact HtS27
    isplitr; · iexact HRs27
    isplitl [HtR27]; · iexact HtR27
    iexact HRr27
  iintro ⟨HcS27, HO⟩
  sl_exec_parts (disch := decide)

  iapply (step_send' m c 28 5 (by decide) 1 (by decide) (partner c 8) _ (partner_partner c 8) (dev39_eq c) (Kn (c, CK.send 28)) (Kn (partner c 8, CK.recv 28)) fd28 _ _) $$ [Hq28 Hd28 HO HtS28 HtR28]
  · isplitr; · iexact HIs28
    isplitr; · iexact HPr28
    isplitl [Hq28]; · iexact Hq28
    isplitl [Hd28]; · iexact Hd28
    isplitl [HO]; · iexact HO
    isplitl [HtS28]; · iexact HtS28
    isplitr; · iexact HRs28
    isplitl [HtR28]; · iexact HtR28
    iexact HRr28
  iintro ⟨HcS28, HO⟩
  sl_exec_parts (disch := decide)

  iapply (step_send' m c 29 5 (by decide) 2 (by decide) (partner c 9) _ (partner_partner c 9) (dev40_eq c) (Kn (c, CK.send 29)) (Kn (partner c 9, CK.recv 29)) fd29 _ _) $$ [Hq29 Hd29 HO HtS29 HtR29]
  · isplitr; · iexact HIs29
    isplitr; · iexact HPr29
    isplitl [Hq29]; · iexact Hq29
    isplitl [Hd29]; · iexact Hd29
    isplitl [HO]; · iexact HO
    isplitl [HtS29]; · iexact HtS29
    isplitr; · iexact HRs29
    isplitl [HtR29]; · iexact HtR29
    iexact HRr29
  iintro ⟨HcS29, HO⟩
  have hmw10 : ∀ sm : SemLoc sig, (∀ i < 50, 50 - 10 ≤ i → lvS sm < lvPay i) → ((levAts L lv : sProp 𝕄) ⊢ MayWait (c : Thread nD τ) sm () (0 + tallyAt (exitCell (partner c 9)) () 1 + tallyAt (exitCell (partner c 8)) () 1 + tallyAt (exitCell (partner c 7)) () 1 + tallyAt (exitCell (partner c 6)) () 1 + tallyAt (exitCell (partner c 5)) () 1 + tallyAt (exitCell (partner c 4)) () 1 + tallyAt (exitCell (partner c 3)) () 1 + tallyAt (exitCell (partner c 2)) () 1 + tallyAt (exitCell (partner c 1)) () 1 + tallyAt (exitCell (partner c 0)) () 1)) :=
    mayWait_flat c 10 _ (by simp only [owedK, payCell, payAmt, mk10, mk30]; rfl) (by decide)
  sl_exec_parts (disch := decide)
  clear hmw10
  imod (close_cell m (exitCell c) (Kn (c, CK.exit))) $$ [HaE] with HzE
  · isplitr; · iexact HIexit
    iexact HaE
  imod (close_cell m (sendCell c 0) (Kn (c, CK.send 0))) $$ [HaS0] with HzS0
  · isplitr; · iexact HIs0
    iexact HaS0
  imod (close_cell m (sendCell c 1) (Kn (c, CK.send 1))) $$ [HaS1] with HzS1
  · isplitr; · iexact HIs1
    iexact HaS1
  imod (close_cell m (sendCell c 2) (Kn (c, CK.send 2))) $$ [HaS2] with HzS2
  · isplitr; · iexact HIs2
    iexact HaS2
  imod (close_cell m (sendCell c 3) (Kn (c, CK.send 3))) $$ [HaS3] with HzS3
  · isplitr; · iexact HIs3
    iexact HaS3
  imod (close_cell m (sendCell c 4) (Kn (c, CK.send 4))) $$ [HaS4] with HzS4
  · isplitr; · iexact HIs4
    iexact HaS4
  imod (close_cell m (sendCell c 5) (Kn (c, CK.send 5))) $$ [HaS5] with HzS5
  · isplitr; · iexact HIs5
    iexact HaS5
  imod (close_cell m (sendCell c 6) (Kn (c, CK.send 6))) $$ [HaS6] with HzS6
  · isplitr; · iexact HIs6
    iexact HaS6
  imod (close_cell m (sendCell c 7) (Kn (c, CK.send 7))) $$ [HaS7] with HzS7
  · isplitr; · iexact HIs7
    iexact HaS7
  imod (close_cell m (sendCell c 8) (Kn (c, CK.send 8))) $$ [HaS8] with HzS8
  · isplitr; · iexact HIs8
    iexact HaS8
  imod (close_cell m (sendCell c 9) (Kn (c, CK.send 9))) $$ [HaS9] with HzS9
  · isplitr; · iexact HIs9
    iexact HaS9
  imod (close_cell m (sendCell c 10) (Kn (c, CK.send 10))) $$ [HaS10] with HzS10
  · isplitr; · iexact HIs10
    iexact HaS10
  imod (close_cell m (sendCell c 11) (Kn (c, CK.send 11))) $$ [HaS11] with HzS11
  · isplitr; · iexact HIs11
    iexact HaS11
  imod (close_cell m (sendCell c 12) (Kn (c, CK.send 12))) $$ [HaS12] with HzS12
  · isplitr; · iexact HIs12
    iexact HaS12
  imod (close_cell m (sendCell c 13) (Kn (c, CK.send 13))) $$ [HaS13] with HzS13
  · isplitr; · iexact HIs13
    iexact HaS13
  imod (close_cell m (sendCell c 14) (Kn (c, CK.send 14))) $$ [HaS14] with HzS14
  · isplitr; · iexact HIs14
    iexact HaS14
  imod (close_cell m (sendCell c 15) (Kn (c, CK.send 15))) $$ [HaS15] with HzS15
  · isplitr; · iexact HIs15
    iexact HaS15
  imod (close_cell m (sendCell c 16) (Kn (c, CK.send 16))) $$ [HaS16] with HzS16
  · isplitr; · iexact HIs16
    iexact HaS16
  imod (close_cell m (sendCell c 17) (Kn (c, CK.send 17))) $$ [HaS17] with HzS17
  · isplitr; · iexact HIs17
    iexact HaS17
  imod (close_cell m (sendCell c 18) (Kn (c, CK.send 18))) $$ [HaS18] with HzS18
  · isplitr; · iexact HIs18
    iexact HaS18
  imod (close_cell m (sendCell c 19) (Kn (c, CK.send 19))) $$ [HaS19] with HzS19
  · isplitr; · iexact HIs19
    iexact HaS19
  imod (close_cell m (sendCell c 20) (Kn (c, CK.send 20))) $$ [HaS20] with HzS20
  · isplitr; · iexact HIs20
    iexact HaS20
  imod (close_cell m (sendCell c 21) (Kn (c, CK.send 21))) $$ [HaS21] with HzS21
  · isplitr; · iexact HIs21
    iexact HaS21
  imod (close_cell m (sendCell c 22) (Kn (c, CK.send 22))) $$ [HaS22] with HzS22
  · isplitr; · iexact HIs22
    iexact HaS22
  imod (close_cell m (sendCell c 23) (Kn (c, CK.send 23))) $$ [HaS23] with HzS23
  · isplitr; · iexact HIs23
    iexact HaS23
  imod (close_cell m (sendCell c 24) (Kn (c, CK.send 24))) $$ [HaS24] with HzS24
  · isplitr; · iexact HIs24
    iexact HaS24
  imod (close_cell m (sendCell c 25) (Kn (c, CK.send 25))) $$ [HaS25] with HzS25
  · isplitr; · iexact HIs25
    iexact HaS25
  imod (close_cell m (sendCell c 26) (Kn (c, CK.send 26))) $$ [HaS26] with HzS26
  · isplitr; · iexact HIs26
    iexact HaS26
  imod (close_cell m (sendCell c 27) (Kn (c, CK.send 27))) $$ [HaS27] with HzS27
  · isplitr; · iexact HIs27
    iexact HaS27
  imod (close_cell m (sendCell c 28) (Kn (c, CK.send 28))) $$ [HaS28] with HzS28
  · isplitr; · iexact HIs28
    iexact HaS28
  imod (close_cell m (sendCell c 29) (Kn (c, CK.send 29))) $$ [HaS29] with HzS29
  · isplitr; · iexact HIs29
    iexact HaS29
  imod (close_cell m (recvCell c 0) (Kn (c, CK.recv 0))) $$ [HaR0] with HzR0
  · isplitr; · iexact HIr0
    iexact HaR0
  imod (close_cell m (recvCell c 1) (Kn (c, CK.recv 1))) $$ [HaR1] with HzR1
  · isplitr; · iexact HIr1
    iexact HaR1
  imod (close_cell m (recvCell c 2) (Kn (c, CK.recv 2))) $$ [HaR2] with HzR2
  · isplitr; · iexact HIr2
    iexact HaR2
  imod (close_cell m (recvCell c 3) (Kn (c, CK.recv 3))) $$ [HaR3] with HzR3
  · isplitr; · iexact HIr3
    iexact HaR3
  imod (close_cell m (recvCell c 4) (Kn (c, CK.recv 4))) $$ [HaR4] with HzR4
  · isplitr; · iexact HIr4
    iexact HaR4
  imod (close_cell m (recvCell c 5) (Kn (c, CK.recv 5))) $$ [HaR5] with HzR5
  · isplitr; · iexact HIr5
    iexact HaR5
  imod (close_cell m (recvCell c 6) (Kn (c, CK.recv 6))) $$ [HaR6] with HzR6
  · isplitr; · iexact HIr6
    iexact HaR6
  imod (close_cell m (recvCell c 7) (Kn (c, CK.recv 7))) $$ [HaR7] with HzR7
  · isplitr; · iexact HIr7
    iexact HaR7
  imod (close_cell m (recvCell c 8) (Kn (c, CK.recv 8))) $$ [HaR8] with HzR8
  · isplitr; · iexact HIr8
    iexact HaR8
  imod (close_cell m (recvCell c 9) (Kn (c, CK.recv 9))) $$ [HaR9] with HzR9
  · isplitr; · iexact HIr9
    iexact HaR9
  imod (close_cell m (recvCell c 10) (Kn (c, CK.recv 10))) $$ [HaR10] with HzR10
  · isplitr; · iexact HIr10
    iexact HaR10
  imod (close_cell m (recvCell c 11) (Kn (c, CK.recv 11))) $$ [HaR11] with HzR11
  · isplitr; · iexact HIr11
    iexact HaR11
  imod (close_cell m (recvCell c 12) (Kn (c, CK.recv 12))) $$ [HaR12] with HzR12
  · isplitr; · iexact HIr12
    iexact HaR12
  imod (close_cell m (recvCell c 13) (Kn (c, CK.recv 13))) $$ [HaR13] with HzR13
  · isplitr; · iexact HIr13
    iexact HaR13
  imod (close_cell m (recvCell c 14) (Kn (c, CK.recv 14))) $$ [HaR14] with HzR14
  · isplitr; · iexact HIr14
    iexact HaR14
  imod (close_cell m (recvCell c 15) (Kn (c, CK.recv 15))) $$ [HaR15] with HzR15
  · isplitr; · iexact HIr15
    iexact HaR15
  imod (close_cell m (recvCell c 16) (Kn (c, CK.recv 16))) $$ [HaR16] with HzR16
  · isplitr; · iexact HIr16
    iexact HaR16
  imod (close_cell m (recvCell c 17) (Kn (c, CK.recv 17))) $$ [HaR17] with HzR17
  · isplitr; · iexact HIr17
    iexact HaR17
  imod (close_cell m (recvCell c 18) (Kn (c, CK.recv 18))) $$ [HaR18] with HzR18
  · isplitr; · iexact HIr18
    iexact HaR18
  imod (close_cell m (recvCell c 19) (Kn (c, CK.recv 19))) $$ [HaR19] with HzR19
  · isplitr; · iexact HIr19
    iexact HaR19
  imod (close_cell m (recvCell c 20) (Kn (c, CK.recv 20))) $$ [HaR20] with HzR20
  · isplitr; · iexact HIr20
    iexact HaR20
  imod (close_cell m (recvCell c 21) (Kn (c, CK.recv 21))) $$ [HaR21] with HzR21
  · isplitr; · iexact HIr21
    iexact HaR21
  imod (close_cell m (recvCell c 22) (Kn (c, CK.recv 22))) $$ [HaR22] with HzR22
  · isplitr; · iexact HIr22
    iexact HaR22
  imod (close_cell m (recvCell c 23) (Kn (c, CK.recv 23))) $$ [HaR23] with HzR23
  · isplitr; · iexact HIr23
    iexact HaR23
  imod (close_cell m (recvCell c 24) (Kn (c, CK.recv 24))) $$ [HaR24] with HzR24
  · isplitr; · iexact HIr24
    iexact HaR24
  imod (close_cell m (recvCell c 25) (Kn (c, CK.recv 25))) $$ [HaR25] with HzR25
  · isplitr; · iexact HIr25
    iexact HaR25
  imod (close_cell m (recvCell c 26) (Kn (c, CK.recv 26))) $$ [HaR26] with HzR26
  · isplitr; · iexact HIr26
    iexact HaR26
  imod (close_cell m (recvCell c 27) (Kn (c, CK.recv 27))) $$ [HaR27] with HzR27
  · isplitr; · iexact HIr27
    iexact HaR27
  imod (close_cell m (recvCell c 28) (Kn (c, CK.recv 28))) $$ [HaR28] with HzR28
  · isplitr; · iexact HIr28
    iexact HaR28
  imod (close_cell m (recvCell c 29) (Kn (c, CK.recv 29))) $$ [HaR29] with HzR29
  · isplitr; · iexact HIr29
    iexact HaR29
  sl_step
  ihave Hj0 := ((send_fan7 (F := F) c 0 (sbuf m c 0)).2) $$ [HaS0_pay1 HaS1_pay1 HaS2_pay1 HaS3_pay1 HaS4_pay1 HaS5_pay1 HaS6_pay1 Hss0]
  · isplitl [HaS0_pay1]; · iapply (sendPay_pts m c 0 0 (by decide) 0 (by decide)); iexact HaS0_pay1
    isplitl [HaS1_pay1]; · iapply (sendPay_pts m c 1 0 (by decide) 1 (by decide)); iexact HaS1_pay1
    isplitl [HaS2_pay1]; · iapply (sendPay_pts m c 2 0 (by decide) 2 (by decide)); iexact HaS2_pay1
    isplitl [HaS3_pay1]; · iapply (sendPay_pts m c 3 0 (by decide) 3 (by decide)); iexact HaS3_pay1
    isplitl [HaS4_pay1]; · iapply (sendPay_pts m c 4 0 (by decide) 4 (by decide)); iexact HaS4_pay1
    isplitl [HaS5_pay1]; · iapply (sendPay_pts m c 5 0 (by decide) 5 (by decide)); iexact HaS5_pay1
    isplitl [HaS6_pay1]; · iapply (sendPay_pts m c 6 0 (by decide) 6 (by decide)); iexact HaS6_pay1
    iexact Hss0
  ihave Hj1 := ((send_fan3 (F := F) c 1 (sbuf m c 1)).2) $$ [HaS7_pay1 HaS8_pay1 HaS9_pay1 Hss1]
  · isplitl [HaS7_pay1]; · iapply (sendPay_pts m c 7 1 (by decide) 0 (by decide)); iexact HaS7_pay1
    isplitl [HaS8_pay1]; · iapply (sendPay_pts m c 8 1 (by decide) 1 (by decide)); iexact HaS8_pay1
    isplitl [HaS9_pay1]; · iapply (sendPay_pts m c 9 1 (by decide) 2 (by decide)); iexact HaS9_pay1
    iexact Hss1
  ihave Hj2 := ((send_fan7 (F := F) c 2 (sbuf m c 2)).2) $$ [HaS10_pay1 HaS11_pay1 HaS12_pay1 HaS13_pay1 HaS14_pay1 HaS15_pay1 HaS16_pay1 Hss2]
  · isplitl [HaS10_pay1]; · iapply (sendPay_pts m c 10 2 (by decide) 0 (by decide)); iexact HaS10_pay1
    isplitl [HaS11_pay1]; · iapply (sendPay_pts m c 11 2 (by decide) 1 (by decide)); iexact HaS11_pay1
    isplitl [HaS12_pay1]; · iapply (sendPay_pts m c 12 2 (by decide) 2 (by decide)); iexact HaS12_pay1
    isplitl [HaS13_pay1]; · iapply (sendPay_pts m c 13 2 (by decide) 3 (by decide)); iexact HaS13_pay1
    isplitl [HaS14_pay1]; · iapply (sendPay_pts m c 14 2 (by decide) 4 (by decide)); iexact HaS14_pay1
    isplitl [HaS15_pay1]; · iapply (sendPay_pts m c 15 2 (by decide) 5 (by decide)); iexact HaS15_pay1
    isplitl [HaS16_pay1]; · iapply (sendPay_pts m c 16 2 (by decide) 6 (by decide)); iexact HaS16_pay1
    iexact Hss2
  ihave Hj3 := ((send_fan3 (F := F) c 3 (sbuf m c 3)).2) $$ [HaS17_pay1 HaS18_pay1 HaS19_pay1 Hss3]
  · isplitl [HaS17_pay1]; · iapply (sendPay_pts m c 17 3 (by decide) 0 (by decide)); iexact HaS17_pay1
    isplitl [HaS18_pay1]; · iapply (sendPay_pts m c 18 3 (by decide) 1 (by decide)); iexact HaS18_pay1
    isplitl [HaS19_pay1]; · iapply (sendPay_pts m c 19 3 (by decide) 2 (by decide)); iexact HaS19_pay1
    iexact Hss3
  ihave Hj4 := ((send_fan7 (F := F) c 4 (sbuf m c 4)).2) $$ [HaS20_pay1 HaS21_pay1 HaS22_pay1 HaS23_pay1 HaS24_pay1 HaS25_pay1 HaS26_pay1 Hss4]
  · isplitl [HaS20_pay1]; · iapply (sendPay_pts m c 20 4 (by decide) 0 (by decide)); iexact HaS20_pay1
    isplitl [HaS21_pay1]; · iapply (sendPay_pts m c 21 4 (by decide) 1 (by decide)); iexact HaS21_pay1
    isplitl [HaS22_pay1]; · iapply (sendPay_pts m c 22 4 (by decide) 2 (by decide)); iexact HaS22_pay1
    isplitl [HaS23_pay1]; · iapply (sendPay_pts m c 23 4 (by decide) 3 (by decide)); iexact HaS23_pay1
    isplitl [HaS24_pay1]; · iapply (sendPay_pts m c 24 4 (by decide) 4 (by decide)); iexact HaS24_pay1
    isplitl [HaS25_pay1]; · iapply (sendPay_pts m c 25 4 (by decide) 5 (by decide)); iexact HaS25_pay1
    isplitl [HaS26_pay1]; · iapply (sendPay_pts m c 26 4 (by decide) 6 (by decide)); iexact HaS26_pay1
    iexact Hss4
  ihave Hj5 := ((send_fan3 (F := F) c 5 (sbuf m c 5)).2) $$ [HaS27_pay1 HaS28_pay1 HaS29_pay1 Hss5]
  · isplitl [HaS27_pay1]; · iapply (sendPay_pts m c 27 5 (by decide) 0 (by decide)); iexact HaS27_pay1
    isplitl [HaS28_pay1]; · iapply (sendPay_pts m c 28 5 (by decide) 1 (by decide)); iexact HaS28_pay1
    isplitl [HaS29_pay1]; · iapply (sendPay_pts m c 29 5 (by decide) 2 (by decide)); iexact HaS29_pay1
    iexact Hss5
  ihave Hsc0 := (send_join_flat (F := F) c _ _ _ _ _ _) $$ [Hj0 Hj1 Hj2 Hj3 Hj4 Hj5]
  · isplitl [Hj0]; · iexact Hj0
    isplitl [Hj1]; · iexact Hj1
    isplitl [Hj2]; · iexact Hj2
    isplitl [Hj3]; · iexact Hj3
    isplitl [Hj4]; · iexact Hj4
    iexact Hj5
  ihave Hsc1 := (recv_join_flat (F := F) c _ _ _ _ _ _ _ _ _ _ _ _ _ _ _ _ _ _ _ _ _ _ _ _ _ _ _ _ _ _) $$ [HaR0_pay1 HaR1_pay1 HaR2_pay1 HaR3_pay1 HaR4_pay1 HaR5_pay1 HaR6_pay1 HaR7_pay1 HaR8_pay1 HaR9_pay1 HaR10_pay1 HaR11_pay1 HaR12_pay1 HaR13_pay1 HaR14_pay1 HaR15_pay1 HaR16_pay1 HaR17_pay1 HaR18_pay1 HaR19_pay1 HaR20_pay1 HaR21_pay1 HaR22_pay1 HaR23_pay1 HaR24_pay1 HaR25_pay1 HaR26_pay1 HaR27_pay1 HaR28_pay1 HaR29_pay1]
  · isplitl [HaR0_pay1]; · iapply (recvPts_intro c 0 _); iexact HaR0_pay1
    isplitl [HaR1_pay1]; · iapply (recvPts_intro c 1 _); iexact HaR1_pay1
    isplitl [HaR2_pay1]; · iapply (recvPts_intro c 2 _); iexact HaR2_pay1
    isplitl [HaR3_pay1]; · iapply (recvPts_intro c 3 _); iexact HaR3_pay1
    isplitl [HaR4_pay1]; · iapply (recvPts_intro c 4 _); iexact HaR4_pay1
    isplitl [HaR5_pay1]; · iapply (recvPts_intro c 5 _); iexact HaR5_pay1
    isplitl [HaR6_pay1]; · iapply (recvPts_intro c 6 _); iexact HaR6_pay1
    isplitl [HaR7_pay1]; · iapply (recvPts_intro c 7 _); iexact HaR7_pay1
    isplitl [HaR8_pay1]; · iapply (recvPts_intro c 8 _); iexact HaR8_pay1
    isplitl [HaR9_pay1]; · iapply (recvPts_intro c 9 _); iexact HaR9_pay1
    isplitl [HaR10_pay1]; · iapply (recvPts_intro c 10 _); iexact HaR10_pay1
    isplitl [HaR11_pay1]; · iapply (recvPts_intro c 11 _); iexact HaR11_pay1
    isplitl [HaR12_pay1]; · iapply (recvPts_intro c 12 _); iexact HaR12_pay1
    isplitl [HaR13_pay1]; · iapply (recvPts_intro c 13 _); iexact HaR13_pay1
    isplitl [HaR14_pay1]; · iapply (recvPts_intro c 14 _); iexact HaR14_pay1
    isplitl [HaR15_pay1]; · iapply (recvPts_intro c 15 _); iexact HaR15_pay1
    isplitl [HaR16_pay1]; · iapply (recvPts_intro c 16 _); iexact HaR16_pay1
    isplitl [HaR17_pay1]; · iapply (recvPts_intro c 17 _); iexact HaR17_pay1
    isplitl [HaR18_pay1]; · iapply (recvPts_intro c 18 _); iexact HaR18_pay1
    isplitl [HaR19_pay1]; · iapply (recvPts_intro c 19 _); iexact HaR19_pay1
    isplitl [HaR20_pay1]; · iapply (recvPts_intro c 20 _); iexact HaR20_pay1
    isplitl [HaR21_pay1]; · iapply (recvPts_intro c 21 _); iexact HaR21_pay1
    isplitl [HaR22_pay1]; · iapply (recvPts_intro c 22 _); iexact HaR22_pay1
    isplitl [HaR23_pay1]; · iapply (recvPts_intro c 23 _); iexact HaR23_pay1
    isplitl [HaR24_pay1]; · iapply (recvPts_intro c 24 _); iexact HaR24_pay1
    isplitl [HaR25_pay1]; · iapply (recvPts_intro c 25 _); iexact HaR25_pay1
    isplitl [HaR26_pay1]; · iapply (recvPts_intro c 26 _); iexact HaR26_pay1
    isplitl [HaR27_pay1]; · iapply (recvPts_intro c 27 _); iexact HaR27_pay1
    isplitl [HaR28_pay1]; · iapply (recvPts_intro c 28 _); iexact HaR28_pay1
    iapply (recvPts_intro c 29 _); iexact HaR29_pay1
  iapply Hk
  unfold bodyPost
  isplitl [Hg7]
  · rw [show (outAt m c : Buf (Elt F) ((c : Thread nD τ).loc cc0_stg7_0)) = _ from (out_written m c g7).symm]; iexact Hg7
  isplitl [Hsc0 Hsc1]
  · unfold scratch; isplitl [Hsc0]; · iexact Hsc0
    iexact Hsc1
  isplitl [HO]; · (iexists _; iexact HO)
  iframe

end Cert.Kernel.Proto

end
-- ==== Proof.Bits.BodyOb.lean ====
import proofs.«900997_g7700000000000998_dist_mlpseq_tp1d_rep_rep_b128_d128_h256_v7x_i32_f32_1_alg».proof.Proof.Bits.Body

noncomputable section

namespace Cert.Kernel.Proto

open Cert.Kernel Cert.Kernel.Gen Cert.Mlp Cert.Kernel.DevEq

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_0 (c : Dev nD) (d) : (dats (F := F) m 0 c).before (0 : Fin 8) t₀ d = (argsOf m c).x := by
  unfold Dat.before; rw [if_pos (by decide +kernel : (cfg0.win (0 : Fin 8)).fetch t₀ = true)]; rfl
theorem before_1 (c : Dev nD) (d) : (dats (F := F) m 0 c).before (1 : Fin 8) t₀ d = (argsOf m c).w0 := by
  unfold Dat.before; rw [if_pos (by decide +kernel : (cfg0.win (1 : Fin 8)).fetch t₀ = true)]; rfl
theorem before_2 (c : Dev nD) (d) : (dats (F := F) m 0 c).before (2 : Fin 8) t₀ d = (argsOf m c).o0 := by
  unfold Dat.before; rw [if_pos (by decide +kernel : (cfg0.win (2 : Fin 8)).fetch t₀ = true)]; rfl
theorem before_3 (c : Dev nD) (d) : (dats (F := F) m 0 c).before (3 : Fin 8) t₀ d = (argsOf m c).w1 := by
  unfold Dat.before; rw [if_pos (by decide +kernel : (cfg0.win (3 : Fin 8)).fetch t₀ = true)]; rfl
theorem before_4 (c : Dev nD) (d) : (dats (F := F) m 0 c).before (4 : Fin 8) t₀ d = (argsOf m c).o1 := by
  unfold Dat.before; rw [if_pos (by decide +kernel : (cfg0.win (4 : Fin 8)).fetch t₀ = true)]; rfl
theorem before_5 (c : Dev nD) (d) : (dats (F := F) m 0 c).before (5 : Fin 8) t₀ d = (argsOf m c).w2 := by
  unfold Dat.before; rw [if_pos (by decide +kernel : (cfg0.win (5 : Fin 8)).fetch t₀ = true)]; rfl
theorem before_6 (c : Dev nD) (d) : (dats (F := F) m 0 c).before (6 : Fin 8) t₀ d = (argsOf m c).o2 := by
  unfold Dat.before; rw [if_pos (by decide +kernel : (cfg0.win (6 : Fin 8)).fetch t₀ = true)]; rfl

set_option maxRecDepth 8000 in
def obPre (c : Dev nD) : sProp 𝕄 :=
  iprop(Φ₀ m c ∗ (dats m 0 c).owesAt () t₀.castSucc
    ∗ (∃ d, stg c cc0_stg0_0 ((dats m 0 c).before (0 : Fin 8) t₀ d))
    ∗ (∃ d, stg c cc0_stg1_0 ((dats m 0 c).before (1 : Fin 8) t₀ d))
    ∗ (∃ d, stg c cc0_stg2_0 ((dats m 0 c).before (2 : Fin 8) t₀ d))
    ∗ (∃ d, stg c cc0_stg3_0 ((dats m 0 c).before (3 : Fin 8) t₀ d))
    ∗ (∃ d, stg c cc0_stg4_0 ((dats m 0 c).before (4 : Fin 8) t₀ d))
    ∗ (∃ d, stg c cc0_stg5_0 ((dats m 0 c).before (5 : Fin 8) t₀ d))
    ∗ (∃ d, stg c cc0_stg6_0 ((dats m 0 c).before (6 : Fin 8) t₀ d))
    ∗ (∃ d, stg c cc0_stg7_0 ((dats m 0 c).before (7 : Fin 8) t₀ d)))

set_option maxRecDepth 8000 in
def obPost (c : Dev nD) : sProp 𝕄 :=
  iprop(Φ₁ c ∗ (dats m 0 c).owesAt () t₀.succ
    ∗ stg c cc0_stg0_0 (argsOf m c).x
    ∗ stg c cc0_stg1_0 (argsOf m c).w0
    ∗ stg c cc0_stg2_0 (argsOf m c).o0
    ∗ stg c cc0_stg3_0 (argsOf m c).w1
    ∗ stg c cc0_stg4_0 (argsOf m c).o1
    ∗ stg c cc0_stg5_0 (argsOf m c).w2
    ∗ stg c cc0_stg6_0 (argsOf m c).o2
    ∗ stg c cc0_stg7_0 (outAt m c))

-- What the body leaves regroups into the invariant after the point.
set_option maxRecDepth 65536 in
set_option maxHeartbeats 4000000 in
theorem post_pack (c : Dev nD) : bodyPost m c ⊢ obPost m c := by
  unfold bodyPost obPost Φ₁ Dat.owesAt Pipeline.owesWithin
  rw [show (dats (F := F) m 0 c).owed t₀.succ = 0 from rfl, bigSep_fin30, bigSep_fin30]
  iintro ⟨P7, Hscr, ⟨%W', HO⟩, P0, P1, P2, P3, P4, P5, P6, Hex, S0, S1, S2, S3, S4, S5, S6, S7, S8, S9, S10, S11, S12, S13, S14, S15, S16, S17, S18, S19, S20, S21, S22, S23, S24, S25, S26, S27, S28, S29, R0, R1, R2, R3, R4, R5, R6, R7, R8, R9, R10, R11, R12, R13, R14, R15, R16, R17, R18, R19, R20, R21, R22, R23, R24, R25, R26, R27, R28, R29⟩
  isplitr [HO P0 P1 P2 P3 P4 P5 P6 P7]
  · iframe
  isplitl [HO]
  · iexists W'
    isplitr; · ipureintro; exact fun _ _ => Or.inl trivial
    iexact HO
  isplitl [P0]
  · iexists _; isplitr; · (ipureintro; rfl)
    iexact P0
  isplitl [P1]
  · iexists _; isplitr; · (ipureintro; rfl)
    iexact P1
  isplitl [P2]
  · iexists _; isplitr; · (ipureintro; rfl)
    iexact P2
  isplitl [P3]
  · iexists _; isplitr; · (ipureintro; rfl)
    iexact P3
  isplitl [P4]
  · iexists _; isplitr; · (ipureintro; rfl)
    iexact P4
  isplitl [P5]
  · iexists _; isplitr; · (ipureintro; rfl)
    iexact P5
  isplitl [P6]
  · iexists _; isplitr; · (ipureintro; rfl)
    iexact P6
  iexists _; isplitr; · (ipureintro; rfl)
  iexact P7

-- The body obligation of the one grid point: the invariant before the point holds exactly the grouped resources the body's run starts from.
set_option maxRecDepth 65536 in
set_option maxHeartbeats 8000000 in
theorem body_obligation (c : Dev nD) : BodyObligation (dats (F := F) m 0 c) (defs₀ (F := F)) 𝒱₀ () Set.univ := fun t => by
  rw [fin_N t]
  rw [bigSep_W0, bigSep_W0]
  simp only [owns_whole_eq]
  show obPre m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _)
      cc0_scratch2 cc0_scratch3 cc0_scoped0) (fun _ => obPost m c)
  unfold obPre Φ₀ start ghost scratch
  iintro ⟨⟨⟨⟨%K, #Hrec, Hpos, Htok⟩, Hcred, #Hlev⟩, ⟨%fs0, Hs0⟩, ⟨%fr, Hs1⟩⟩, Ho, ⟨%d0, %g0, %hg0, P0⟩, ⟨%d1, %g1, %hg1, P1⟩, ⟨%d2, %g2, %hg2, P2⟩, ⟨%d3, %g3, %hg3, P3⟩, ⟨%d4, %g4, %hg4, P4⟩, ⟨%d5, %g5, %hg5, P5⟩, ⟨%d6, %g6, %hg6, P6⟩, ⟨%d7, %g7, %hg7, P7⟩⟩
  have e0 := hg0.trans (before_0 m c d0)
  have e1 := hg1.trans (before_1 m c d1)
  have e2 := hg2.trans (before_2 m c d2)
  have e3 := hg3.trans (before_3 m c d3)
  have e4 := hg4.trans (before_4 m c d4)
  have e5 := hg5.trans (before_5 m c d5)
  have e6 := hg6.trans (before_6 m c d6)
  subst e0 e1 e2 e3 e4 e5 e6
  unfold Dat.owesAt Pipeline.owesWithin
  icases Ho with ⟨%W, %hW, HO⟩
  rw [show (dats (F := F) m 0 c).owed t₀.castSucc = O₀ c from rfl]
  iapply (sound_body m K c W g7 fs0 fr fun _ => obPost m c)
  isplitr; · iexact Hrec
  isplitr; · iexact Hlev
  isplitl [Hpos]; · iexact Hpos
  isplitl [Htok]; · iexact Htok
  isplitl [Hcred]; · iexact Hcred
  isplitl [HO]; · iexact HO
  isplitl [P0]; · iexact P0
  isplitl [P1]; · iexact P1
  isplitl [P2]; · iexact P2
  isplitl [P3]; · iexact P3
  isplitl [P4]; · iexact P4
  isplitl [P5]; · iexact P5
  isplitl [P6]; · iexact P6
  isplitl [P7]; · iexact P7
  isplitl [Hs0]; · iexact Hs0
  isplitl [Hs1]; · iexact Hs1
  iintro Hp
  iapply (post_pack m c)
  iexact Hp

end Cert.Kernel.Proto

end
-- ==== Proof.lean ====
import proofs.«900997_g7700000000000998_dist_mlpseq_tp1d_rep_rep_b128_d128_h256_v7x_i32_f32_1_alg».proof.Defs
import proofs.«900997_g7700000000000998_dist_mlpseq_tp1d_rep_rep_b128_d128_h256_v7x_i32_f32_1_alg».proof.Proof.Gen.Kernel
import proofs.«900997_g7700000000000998_dist_mlpseq_tp1d_rep_rep_b128_d128_h256_v7x_i32_f32_1_alg».proof.Proof.Gen.KernelIdeal
import proofs.«900997_g7700000000000998_dist_mlpseq_tp1d_rep_rep_b128_d128_h256_v7x_i32_f32_1_alg».proof.Proof.Gen.ReferenceIdeal
import proofs.«900997_g7700000000000998_dist_mlpseq_tp1d_rep_rep_b128_d128_h256_v7x_i32_f32_1_alg».proof.Proof.Gen.Pre_finite_inputs_Kernel
import proofs.«900997_g7700000000000998_dist_mlpseq_tp1d_rep_rep_b128_d128_h256_v7x_i32_f32_1_alg».proof.Proof.Gen.Pre_finite_inputs_ReferenceIdeal
import proofs.«900997_g7700000000000998_dist_mlpseq_tp1d_rep_rep_b128_d128_h256_v7x_i32_f32_1_alg».proof.Proof.ClaimsIdeal
import proofs.«900997_g7700000000000998_dist_mlpseq_tp1d_rep_rep_b128_d128_h256_v7x_i32_f32_1_alg».proof.Proof.Launch
import proofs.«900997_g7700000000000998_dist_mlpseq_tp1d_rep_rep_b128_d128_h256_v7x_i32_f32_1_alg».proof.Proof.BodyOb
import proofs.«900997_g7700000000000998_dist_mlpseq_tp1d_rep_rep_b128_d128_h256_v7x_i32_f32_1_alg».proof.Proof.RefValue
import proofs.«900997_g7700000000000998_dist_mlpseq_tp1d_rep_rep_b128_d128_h256_v7x_i32_f32_1_alg».proof.Proof.Bits.Launch
import proofs.«900997_g7700000000000998_dist_mlpseq_tp1d_rep_rep_b128_d128_h256_v7x_i32_f32_1_alg».proof.Proof.Bits.Final
import proofs.«900997_g7700000000000998_dist_mlpseq_tp1d_rep_rep_b128_d128_h256_v7x_i32_f32_1_alg».proof.Proof.Bits.BodyOb

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  fun m ρ _ => Cert.Kernel.Proto.frame_of_run m ρ (Cert.Kernel.Proto.run_main m ρ (Cert.Kernel.Proto.body_obligation m)),
  Cert.KernelIdeal.Proto.frame_pi_of (fun m ρ => Cert.KernelIdeal.Proto.run_main m ρ (Cert.KernelIdeal.Proto.body_obligation m)),
  Cert.ReferenceIdeal.RefValue.frame_ri,
  trivial,
  Cert.KernelIdeal.Proto.algebraic_of (fun m ρ => Cert.KernelIdeal.Proto.run_main m ρ (Cert.KernelIdeal.Proto.body_obligation m))⟩

end Cert.Proof

end
